-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25000x1 : Shape := ⟨2, ![25000, 1]⟩
abbrev S2x400000 : Shape := ⟨2, ![2, 400000]⟩
abbrev S400000 : Shape := ⟨1, ![400000]⟩
abbrev S1x20 : Shape := ⟨2, ![1, 20]⟩
abbrev S20 : Shape := ⟨1, ![20]⟩
abbrev S2x200 : Shape := ⟨2, ![2, 200]⟩
abbrev S200 : Shape := ⟨1, ![200]⟩
abbrev S200x1 : Shape := ⟨2, ![200, 1]⟩
abbrev S1 : Shape := ⟨1, ![1]⟩
abbrev S20x20 : Shape := ⟨2, ![20, 20]⟩
abbrev S40x200 : Shape := ⟨2, ![40, 200]⟩
abbrev S200x20 : Shape := ⟨2, ![200, 20]⟩
abbrev S20x1 : Shape := ⟨2, ![20, 1]⟩
abbrev S_ : Shape := ⟨0, ![]⟩

class Facts : Prop where
  bcast_S_S25000x1 : S_.BroadcastsInDim S25000x1 (![] : Fin 0 → Fin S25000x1.rank)
  reducesTo_S25000x1_S_d0_1 : S25000x1.ReducesTo [0, 1] S_
  h_S_ : 0 < S_.numel
  bcast_S_S400000 : S_.BroadcastsInDim S400000 (![] : Fin 0 → Fin S400000.rank)
  reducesTo_S400000_S_d0 : S400000.ReducesTo [0] S_
  bcast_S_S1x20 : S_.BroadcastsInDim S1x20 (![] : Fin 0 → Fin S1x20.rank)
  reducesTo_S1x20_S_d0_1 : S1x20.ReducesTo [0, 1] S_
  bcast_S_S20 : S_.BroadcastsInDim S20 (![] : Fin 0 → Fin S20.rank)
  reducesTo_S20_S_d0 : S20.ReducesTo [0] S_
  bcast_S_S2x200 : S_.BroadcastsInDim S2x200 (![] : Fin 0 → Fin S2x200.rank)
  reducesTo_S2x200_S_d0_1 : S2x200.ReducesTo [0, 1] S_
  bcast_S_S200 : S_.BroadcastsInDim S200 (![] : Fin 0 → Fin S200.rank)
  reducesTo_S200_S_d0 : S200.ReducesTo [0] S_
  bcast_S_S200x1 : S_.BroadcastsInDim S200x1 (![] : Fin 0 → Fin S200x1.rank)
  reducesTo_S200x1_S_d0_1 : S200x1.ReducesTo [0, 1] S_
  bcast_S_S1 : S_.BroadcastsInDim S1 (![] : Fin 0 → Fin S1.rank)
  reducesTo_S1_S_d0 : S1.ReducesTo [0] S_
  bcast_S_S20x20 : S_.BroadcastsInDim S20x20 (![] : Fin 0 → Fin S20x20.rank)
  reducesTo_S20x20_S_d0_1 : S20x20.ReducesTo [0, 1] S_
  bcast_S_S40x200 : S_.BroadcastsInDim S40x200 (![] : Fin 0 → Fin S40x200.rank)
  reducesTo_S40x200_S_d0_1 : S40x200.ReducesTo [0, 1] S_
  bcast_S_S200x20 : S_.BroadcastsInDim S200x20 (![] : Fin 0 → Fin S200x20.rank)
  reducesTo_S200x20_S_d0_1 : S200x20.ReducesTo [0, 1] S_
  bcast_S_S20x1 : S_.BroadcastsInDim S20x1 (![] : Fin 0 → Fin S20x1.rank)
  reducesTo_S20x1_S_d0_1 : S20x1.ReducesTo [0, 1] S_
  bcast_S_S2x400000 : S_.BroadcastsInDim S2x400000 (![] : Fin 0 → Fin S2x400000.rank)
  reducesTo_S2x400000_S_d0_1 : S2x400000.ReducesTo [0, 1] S_

variable [Facts]

def fn_part7 {F : FTy → Type} [FloatOps F] (main_arg1 : IVec S2x400000 32) (main_arg26 : FVec F S1 .f32) (main_v118 : IVec S_ 1) (main_v119 : FVec F S20x1 .f32) : IVec S_ 1 :=
  let main_cst_46 : FVec F S_ .f32 := constant S_ .f32 0x7F800000#32
  let main_v120 : FVec F S20x1 .f32 := broadcastInDim S20x1 ![] bcast_S_S20x1 main_cst_46
  let main_v121 : IVec S20x1 1 := cmpf .olt main_v119 main_v120
  let main_c_47 : IVec S_ 1 := constantI S_ 1 1#1
  let main_v122 : IVec S_ 1 := (fun x v => Host.reduce IntOp.andi x v reducesTo_S20x1_S_d0_1 h_S_) main_v121 main_c_47
  let main_v123 : IVec S_ 1 := andi main_v118 main_v122
  let main_v124 : FVec F S1 .f32 := Host.absf main_arg26
  let main_cst_48 : FVec F S_ .f32 := constant S_ .f32 0x7F800000#32
  let main_v125 : FVec F S1 .f32 := broadcastInDim S1 ![] bcast_S_S1 main_cst_48
  let main_v126 : IVec S1 1 := cmpf .olt main_v124 main_v125
  let main_c_49 : IVec S_ 1 := constantI S_ 1 1#1
  let main_v127 : IVec S_ 1 := (fun x v => Host.reduce IntOp.andi x v reducesTo_S1_S_d0 h_S_) main_v126 main_c_49
  let main_v128 : IVec S_ 1 := andi main_v123 main_v127
  let main_c_50 : IVec S_ 32 := constantI S_ 32 0#32
  let main_v129 : IVec S2x400000 32 := broadcastInDim S2x400000 ![] bcast_S_S2x400000 main_c_50
  let main_v130 : IVec S2x400000 1 := cmpi .sge main_arg1 main_v129
  let main_c_51 : IVec S_ 32 := constantI S_ 32 25000#32
  let main_v131 : IVec S2x400000 32 := broadcastInDim S2x400000 ![] bcast_S_S2x400000 main_c_51
  let main_v132 : IVec S2x400000 1 := cmpi .slt main_arg1 main_v131
  let main_v133 : IVec S2x400000 1 := andi main_v130 main_v132
  let main_c_52 : IVec S_ 1 := constantI S_ 1 1#1
  let main_v134 : IVec S_ 1 := (fun x v => Host.reduce IntOp.andi x v reducesTo_S2x400000_S_d0_1 h_S_) main_v133 main_c_52
  let main_v135 : IVec S_ 1 := andi main_v128 main_v134
  main_v135

def fn_part6 {F : FTy → Type} [FloatOps F] (main_arg1 : IVec S2x400000 32) (main_arg22 : FVec F S200 .f32) (main_arg23 : FVec F S200x20 .f32) (main_arg24 : FVec F S20 .f32) (main_arg25 : FVec F S20x1 .f32) (main_arg26 : FVec F S1 .f32) (main_v98 : IVec S_ 1) (main_v101 : IVec S40x200 1) (main_c_39 : IVec S_ 1) : IVec S_ 1 :=
  let main_v102 : IVec S_ 1 := (fun x v => Host.reduce IntOp.andi x v reducesTo_S40x200_S_d0_1 h_S_) main_v101 main_c_39
  let main_v103 : IVec S_ 1 := andi main_v98 main_v102
  let main_v104 : FVec F S200 .f32 := Host.absf main_arg22
  let main_cst_40 : FVec F S_ .f32 := constant S_ .f32 0x7F800000#32
  let main_v105 : FVec F S200 .f32 := broadcastInDim S200 ![] bcast_S_S200 main_cst_40
  let main_v106 : IVec S200 1 := cmpf .olt main_v104 main_v105
  let main_c_41 : IVec S_ 1 := constantI S_ 1 1#1
  let main_v107 : IVec S_ 1 := (fun x v => Host.reduce IntOp.andi x v reducesTo_S200_S_d0 h_S_) main_v106 main_c_41
  let main_v108 : IVec S_ 1 := andi main_v103 main_v107
  let main_v109 : FVec F S200x20 .f32 := Host.absf main_arg23
  let main_cst_42 : FVec F S_ .f32 := constant S_ .f32 0x7F800000#32
  let main_v110 : FVec F S200x20 .f32 := broadcastInDim S200x20 ![] bcast_S_S200x20 main_cst_42
  let main_v111 : IVec S200x20 1 := cmpf .olt main_v109 main_v110
  let main_c_43 : IVec S_ 1 := constantI S_ 1 1#1
  let main_v112 : IVec S_ 1 := (fun x v => Host.reduce IntOp.andi x v reducesTo_S200x20_S_d0_1 h_S_) main_v111 main_c_43
  let main_v113 : IVec S_ 1 := andi main_v108 main_v112
  let main_v114 : FVec F S20 .f32 := Host.absf main_arg24
  let main_cst_44 : FVec F S_ .f32 := constant S_ .f32 0x7F800000#32
  let main_v115 : FVec F S20 .f32 := broadcastInDim S20 ![] bcast_S_S20 main_cst_44
  let main_v116 : IVec S20 1 := cmpf .olt main_v114 main_v115
  let main_c_45 : IVec S_ 1 := constantI S_ 1 1#1
  let main_v117 : IVec S_ 1 := (fun x v => Host.reduce IntOp.andi x v reducesTo_S20_S_d0 h_S_) main_v116 main_c_45
  let main_v118 : IVec S_ 1 := andi main_v113 main_v117
  let main_v119 : FVec F S20x1 .f32 := Host.absf main_arg25
  fn_part7 (F := F) main_arg1 main_arg26 main_v118 main_v119

def fn_part5 {F : FTy → Type} [FloatOps F] (main_arg1 : IVec S2x400000 32) (main_arg19 : FVec F S20x1 .f32) (main_arg20 : FVec F S1 .f32) (main_arg21 : FVec F S40x200 .f32) (main_arg22 : FVec F S200 .f32) (main_arg23 : FVec F S200x20 .f32) (main_arg24 : FVec F S20 .f32) (main_arg25 : FVec F S20x1 .f32) (main_arg26 : FVec F S1 .f32) (main_v83 : IVec S_ 1) (main_v84 : FVec F S20 .f32) (main_cst_32 : FVec F S_ .f32) : IVec S_ 1 :=
  let main_v85 : FVec F S20 .f32 := broadcastInDim S20 ![] bcast_S_S20 main_cst_32
  let main_v86 : IVec S20 1 := cmpf .olt main_v84 main_v85
  let main_c_33 : IVec S_ 1 := constantI S_ 1 1#1
  let main_v87 : IVec S_ 1 := (fun x v => Host.reduce IntOp.andi x v reducesTo_S20_S_d0 h_S_) main_v86 main_c_33
  let main_v88 : IVec S_ 1 := andi main_v83 main_v87
  let main_v89 : FVec F S20x1 .f32 := Host.absf main_arg19
  let main_cst_34 : FVec F S_ .f32 := constant S_ .f32 0x7F800000#32
  let main_v90 : FVec F S20x1 .f32 := broadcastInDim S20x1 ![] bcast_S_S20x1 main_cst_34
  let main_v91 : IVec S20x1 1 := cmpf .olt main_v89 main_v90
  let main_c_35 : IVec S_ 1 := constantI S_ 1 1#1
  let main_v92 : IVec S_ 1 := (fun x v => Host.reduce IntOp.andi x v reducesTo_S20x1_S_d0_1 h_S_) main_v91 main_c_35
  let main_v93 : IVec S_ 1 := andi main_v88 main_v92
  let main_v94 : FVec F S1 .f32 := Host.absf main_arg20
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S40x200 .f32 := Host.absf main_arg21
  let main_cst_38 : FVec F S_ .f32 := constant S_ .f32 0x7F800000#32
  let main_v100 : FVec F S40x200 .f32 := broadcastInDim S40x200 ![] bcast_S_S40x200 main_cst_38
  let main_v101 : IVec S40x200 1 := cmpf .olt main_v99 main_v100
  let main_c_39 : IVec S_ 1 := constantI S_ 1 1#1
  fn_part6 (F := F) main_arg1 main_arg22 main_arg23 main_arg24 main_arg25 main_arg26 main_v98 main_v101 main_c_39

def fn_part4 {F : FTy → Type} [FloatOps F] (main_arg1 : IVec S2x400000 32) (main_arg15 : FVec F S200x20 .f32) (main_arg16 : FVec F S20 .f32) (main_arg17 : FVec F S20x20 .f32) (main_arg18 : FVec F S20 .f32) (main_arg19 : FVec F S20x1 .f32) (main_arg20 : FVec F S1 .f32) (main_arg21 : FVec F S40x200 .f32) (main_arg22 : FVec F S200 .f32) (main_arg23 : FVec F S200x20 .f32) (main_arg24 : FVec F S20 .f32) (main_arg25 : FVec F S20x1 .f32) (main_arg26 : FVec F S1 .f32) (main_v63 : IVec S_ 1) (main_v67 : IVec S_ 1) : IVec S_ 1 :=
  let main_v68 : IVec S_ 1 := andi main_v63 main_v67
  let main_v69 : FVec F S200x20 .f32 := Host.absf main_arg15
  let main_cst_26 : FVec F S_ .f32 := constant S_ .f32 0x7F800000#32
  let main_v70 : FVec F S200x20 .f32 := broadcastInDim S200x20 ![] bcast_S_S200x20 main_cst_26
  let main_v71 : IVec S200x20 1 := cmpf .olt main_v69 main_v70
  let main_c_27 : IVec S_ 1 := constantI S_ 1 1#1
  let main_v72 : IVec S_ 1 := (fun x v => Host.reduce IntOp.andi x v reducesTo_S200x20_S_d0_1 h_S_) main_v71 main_c_27
  let main_v73 : IVec S_ 1 := andi main_v68 main_v72
  let main_v74 : FVec F S20 .f32 := Host.absf main_arg16
  let main_cst_28 : FVec F S_ .f32 := constant S_ .f32 0x7F800000#32
  let main_v75 : FVec F S20 .f32 := broadcastInDim S20 ![] bcast_S_S20 main_cst_28
  let main_v76 : IVec S20 1 := cmpf .olt main_v74 main_v75
  let main_c_29 : IVec S_ 1 := constantI S_ 1 1#1
  let main_v77 : IVec S_ 1 := (fun x v => Host.reduce IntOp.andi x v reducesTo_S20_S_d0 h_S_) main_v76 main_c_29
  let main_v78 : IVec S_ 1 := andi main_v73 main_v77
  let main_v79 : FVec F S20x20 .f32 := Host.absf main_arg17
  let main_cst_30 : FVec F S_ .f32 := constant S_ .f32 0x7F800000#32
  let main_v80 : FVec F S20x20 .f32 := broadcastInDim S20x20 ![] bcast_S_S20x20 main_cst_30
  let main_v81 : IVec S20x20 1 := cmpf .olt main_v79 main_v80
  let main_c_31 : IVec S_ 1 := constantI S_ 1 1#1
  let main_v82 : IVec S_ 1 := (fun x v => Host.reduce IntOp.andi x v reducesTo_S20x20_S_d0_1 h_S_) main_v81 main_c_31
  let main_v83 : IVec S_ 1 := andi main_v78 main_v82
  let main_v84 : FVec F S20 .f32 := Host.absf main_arg18
  let main_cst_32 : FVec F S_ .f32 := constant S_ .f32 0x7F800000#32
  fn_part5 (F := F) main_arg1 main_arg19 main_arg20 main_arg21 main_arg22 main_arg23 main_arg24 main_arg25 main_arg26 main_v83 main_v84 main_cst_32

def fn_part3 {F : FTy → Type} [FloatOps F] (main_arg1 : IVec S2x400000 32) (main_arg12 : FVec F S20 .f32) (main_arg13 : FVec F S40x200 .f32) (main_arg14 : FVec F S200 .f32) (main_arg15 : FVec F S200x20 .f32) (main_arg16 : FVec F S20 .f32) (main_arg17 : FVec F S20x20 .f32) (main_arg18 : FVec F S20 .f32) (main_arg19 : FVec F S20x1 .f32) (main_arg20 : FVec F S1 .f32) (main_arg21 : FVec F S40x200 .f32) (main_arg22 : FVec F S200 .f32) (main_arg23 : FVec F S200x20 .f32) (main_arg24 : FVec F S20 .f32) (main_arg25 : FVec F S20x1 .f32) (main_arg26 : FVec F S1 .f32) (main_v48 : IVec S_ 1) (main_v49 : FVec F S20x20 .f32) (main_v50 : FVec F S20x20 .f32) : IVec S_ 1 :=
  let main_v51 : IVec S20x20 1 := cmpf .olt main_v49 main_v50
  let main_c_19 : IVec S_ 1 := constantI S_ 1 1#1
  let main_v52 : IVec S_ 1 := (fun x v => Host.reduce IntOp.andi x v reducesTo_S20x20_S_d0_1 h_S_) main_v51 main_c_19
  let main_v53 : IVec S_ 1 := andi main_v48 main_v52
  let main_v54 : FVec F S20 .f32 := Host.absf main_arg12
  let main_cst_20 : FVec F S_ .f32 := constant S_ .f32 0x7F800000#32
  let main_v55 : FVec F S20 .f32 := broadcastInDim S20 ![] bcast_S_S20 main_cst_20
  let main_v56 : IVec S20 1 := cmpf .olt main_v54 main_v55
  let main_c_21 : IVec S_ 1 := constantI S_ 1 1#1
  let main_v57 : IVec S_ 1 := (fun x v => Host.reduce IntOp.andi x v reducesTo_S20_S_d0 h_S_) main_v56 main_c_21
  let main_v58 : IVec S_ 1 := andi main_v53 main_v57
  let main_v59 : FVec F S40x200 .f32 := Host.absf main_arg13
  let main_cst_22 : FVec F S_ .f32 := constant S_ .f32 0x7F800000#32
  let main_v60 : FVec F S40x200 .f32 := broadcastInDim S40x200 ![] bcast_S_S40x200 main_cst_22
  let main_v61 : IVec S40x200 1 := cmpf .olt main_v59 main_v60
  let main_c_23 : IVec S_ 1 := constantI S_ 1 1#1
  let main_v62 : IVec S_ 1 := (fun x v => Host.reduce IntOp.andi x v reducesTo_S40x200_S_d0_1 h_S_) main_v61 main_c_23
  let main_v63 : IVec S_ 1 := andi main_v58 main_v62
  let main_v64 : FVec F S200 .f32 := Host.absf main_arg14
  let main_cst_24 : FVec F S_ .f32 := constant S_ .f32 0x7F800000#32
  let main_v65 : FVec F S200 .f32 := broadcastInDim S200 ![] bcast_S_S200 main_cst_24
  let main_v66 : IVec S200 1 := cmpf .olt main_v64 main_v65
  let main_c_25 : IVec S_ 1 := constantI S_ 1 1#1
  let main_v67 : IVec S_ 1 := (fun x v => Host.reduce IntOp.andi x v reducesTo_S200_S_d0 h_S_) main_v66 main_c_25
  fn_part4 (F := F) main_arg1 main_arg15 main_arg16 main_arg17 main_arg18 main_arg19 main_arg20 main_arg21 main_arg22 main_arg23 main_arg24 main_arg25 main_arg26 main_v63 main_v67

def fn_part2 {F : FTy → Type} [FloatOps F] (main_arg1 : IVec S2x400000 32) (main_arg8 : FVec F S1 .f32) (main_arg9 : FVec F S1x20 .f32) (main_arg10 : FVec F S20 .f32) (main_arg11 : FVec F S20x20 .f32) (main_arg12 : FVec F S20 .f32) (main_arg13 : FVec F S40x200 .f32) (main_arg14 : FVec F S200 .f32) (main_arg15 : FVec F S200x20 .f32) (main_arg16 : FVec F S20 .f32) (main_arg17 : FVec F S20x20 .f32) (main_arg18 : FVec F S20 .f32) (main_arg19 : FVec F S20x1 .f32) (main_arg20 : FVec F S1 .f32) (main_arg21 : FVec F S40x200 .f32) (main_arg22 : FVec F S200 .f32) (main_arg23 : FVec F S200x20 .f32) (main_arg24 : FVec F S20 .f32) (main_arg25 : FVec F S20x1 .f32) (main_arg26 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1x20 .f32 := Host.absf main_arg9
  let main_cst_14 : FVec F S_ .f32 := constant S_ .f32 0x7F800000#32
  let main_v40 : FVec F S1x20 .f32 := broadcastInDim S1x20 ![] bcast_S_S1x20 main_cst_14
  let main_v41 : IVec S1x20 1 := cmpf .olt main_v39 main_v40
  let main_c_15 : IVec S_ 1 := constantI S_ 1 1#1
  let main_v42 : IVec S_ 1 := (fun x v => Host.reduce IntOp.andi x v reducesTo_S1x20_S_d0_1 h_S_) main_v41 main_c_15
  let main_v43 : IVec S_ 1 := andi main_v38 main_v42
  let main_v44 : FVec F S20 .f32 := Host.absf main_arg10
  let main_cst_16 : FVec F S_ .f32 := constant S_ .f32 0x7F800000#32
  let main_v45 : FVec F S20 .f32 := broadcastInDim S20 ![] bcast_S_S20 main_cst_16
  let main_v46 : IVec S20 1 := cmpf .olt main_v44 main_v45
  let main_c_17 : IVec S_ 1 := constantI S_ 1 1#1
  let main_v47 : IVec S_ 1 := (fun x v => Host.reduce IntOp.andi x v reducesTo_S20_S_d0 h_S_) main_v46 main_c_17
  let main_v48 : IVec S_ 1 := andi main_v43 main_v47
  let main_v49 : FVec F S20x20 .f32 := Host.absf main_arg11
  let main_cst_18 : FVec F S_ .f32 := constant S_ .f32 0x7F800000#32
  let main_v50 : FVec F S20x20 .f32 := broadcastInDim S20x20 ![] bcast_S_S20x20 main_cst_18
  fn_part3 (F := F) main_arg1 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg1 : IVec S2x400000 32) (main_arg5 : FVec F S2x200 .f32) (main_arg6 : FVec F S200 .f32) (main_arg7 : FVec F S200x1 .f32) (main_arg8 : FVec F S1 .f32) (main_arg9 : FVec F S1x20 .f32) (main_arg10 : FVec F S20 .f32) (main_arg11 : FVec F S20x20 .f32) (main_arg12 : FVec F S20 .f32) (main_arg13 : FVec F S40x200 .f32) (main_arg14 : FVec F S200 .f32) (main_arg15 : FVec F S200x20 .f32) (main_arg16 : FVec F S20 .f32) (main_arg17 : FVec F S20x20 .f32) (main_arg18 : FVec F S20 .f32) (main_arg19 : FVec F S20x1 .f32) (main_arg20 : FVec F S1 .f32) (main_arg21 : FVec F S40x200 .f32) (main_arg22 : FVec F S200 .f32) (main_arg23 : FVec F S200x20 .f32) (main_arg24 : FVec F S20 .f32) (main_arg25 : FVec F S20x1 .f32) (main_arg26 : FVec F S1 .f32) (main_v13 : IVec S_ 1) (main_v16 : IVec S20 1) : IVec S_ 1 :=
  let main_c_5 : IVec S_ 1 := constantI S_ 1 1#1
  let main_v17 : IVec S_ 1 := (fun x v => Host.reduce IntOp.andi x v reducesTo_S20_S_d0 h_S_) main_v16 main_c_5
  let main_v18 : IVec S_ 1 := andi main_v13 main_v17
  let main_v19 : FVec F S2x200 .f32 := Host.absf main_arg5
  let main_cst_6 : FVec F S_ .f32 := constant S_ .f32 0x7F800000#32
  let main_v20 : FVec F S2x200 .f32 := broadcastInDim S2x200 ![] bcast_S_S2x200 main_cst_6
  let main_v21 : IVec S2x200 1 := cmpf .olt main_v19 main_v20
  let main_c_7 : IVec S_ 1 := constantI S_ 1 1#1
  let main_v22 : IVec S_ 1 := (fun x v => Host.reduce IntOp.andi x v reducesTo_S2x200_S_d0_1 h_S_) main_v21 main_c_7
  let main_v23 : IVec S_ 1 := andi main_v18 main_v22
  let main_v24 : FVec F S200 .f32 := Host.absf main_arg6
  let main_cst_8 : FVec F S_ .f32 := constant S_ .f32 0x7F800000#32
  let main_v25 : FVec F S200 .f32 := broadcastInDim S200 ![] bcast_S_S200 main_cst_8
  let main_v26 : IVec S200 1 := cmpf .olt main_v24 main_v25
  let main_c_9 : IVec S_ 1 := constantI S_ 1 1#1
  let main_v27 : IVec S_ 1 := (fun x v => Host.reduce IntOp.andi x v reducesTo_S200_S_d0 h_S_) main_v26 main_c_9
  let main_v28 : IVec S_ 1 := andi main_v23 main_v27
  let main_v29 : FVec F S200x1 .f32 := Host.absf main_arg7
  let main_cst_10 : FVec F S_ .f32 := constant S_ .f32 0x7F800000#32
  let main_v30 : FVec F S200x1 .f32 := broadcastInDim S200x1 ![] bcast_S_S200x1 main_cst_10
  let main_v31 : IVec S200x1 1 := cmpf .olt main_v29 main_v30
  let main_c_11 : IVec S_ 1 := constantI S_ 1 1#1
  let main_v32 : IVec S_ 1 := (fun x v => Host.reduce IntOp.andi x v reducesTo_S200x1_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S25000x1 .f32) (main_arg1 : IVec S2x400000 32) (main_arg2 : FVec F S400000 .f32) (main_arg3 : FVec F S1x20 .f32) (main_arg4 : FVec F S20 .f32) (main_arg5 : FVec F S2x200 .f32) (main_arg6 : FVec F S200 .f32) (main_arg7 : FVec F S200x1 .f32) (main_arg8 : FVec F S1 .f32) (main_arg9 : FVec F S1x20 .f32) (main_arg10 : FVec F S20 .f32) (main_arg11 : FVec F S20x20 .f32) (main_arg12 : FVec F S20 .f32) (main_arg13 : FVec F S40x200 .f32) (main_arg14 : FVec F S200 .f32) (main_arg15 : FVec F S200x20 .f32) (main_arg16 : FVec F S20 .f32) (main_arg17 : FVec F S20x20 .f32) (main_arg18 : FVec F S20 .f32) (main_arg19 : FVec F S20x1 .f32) (main_arg20 : FVec F S1 .f32) (main_arg21 : FVec F S40x200 .f32) (main_arg22 : FVec F S200 .f32) (main_arg23 : FVec F S200x20 .f32) (main_arg24 : FVec F S20 .f32) (main_arg25 : FVec F S20x1 .f32) (main_arg26 : FVec F S1 .f32) : IVec S_ 1 :=
  let main_v0 : FVec F S25000x1 .f32 := Host.absf main_arg0
  let main_cst : FVec F S_ .f32 := constant S_ .f32 0x7F800000#32
  let main_v1 : FVec F S25000x1 .f32 := broadcastInDim S25000x1 ![] bcast_S_S25000x1 main_cst
  let main_v2 : IVec S25000x1 1 := cmpf .olt main_v0 main_v1
  let main_c : IVec S_ 1 := constantI S_ 1 1#1
  let main_v3 : IVec S_ 1 := (fun x v => Host.reduce IntOp.andi x v reducesTo_S25000x1_S_d0_1 h_S_) main_v2 main_c
  let main_v4 : FVec F S400000 .f32 := Host.absf main_arg2
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S1x20 .f32 := Host.absf main_arg3
  let main_cst_2 : FVec F S_ .f32 := constant S_ .f32 0x7F800000#32
  let main_v10 : FVec F S1x20 .f32 := broadcastInDim S1x20 ![] bcast_S_S1x20 main_cst_2
  let main_v11 : IVec S1x20 1 := cmpf .olt main_v9 main_v10
  let main_c_3 : IVec S_ 1 := constantI S_ 1 1#1
  let main_v12 : IVec S_ 1 := (fun x v => Host.reduce IntOp.andi x v reducesTo_S1x20_S_d0_1 h_S_) main_v11 main_c_3
  let main_v13 : IVec S_ 1 := andi main_v8 main_v12
  let main_v14 : FVec F S20 .f32 := Host.absf main_arg4
  let main_cst_4 : FVec F S_ .f32 := constant S_ .f32 0x7F800000#32
  let main_v15 : FVec F S20 .f32 := broadcastInDim S20 ![] bcast_S_S20 main_cst_4
  let main_v16 : IVec S20 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S25000x1 : Shape := ⟨2, ![25000, 1]⟩
abbrev S2x400000 : Shape := ⟨2, ![2, 400000]⟩
abbrev S400000 : Shape := ⟨1, ![400000]⟩
abbrev S1x20 : Shape := ⟨2, ![1, 20]⟩
abbrev S20 : Shape := ⟨1, ![20]⟩
abbrev S2x200 : Shape := ⟨2, ![2, 200]⟩
abbrev S200 : Shape := ⟨1, ![200]⟩
abbrev S200x1 : Shape := ⟨2, ![200, 1]⟩
abbrev S1 : Shape := ⟨1, ![1]⟩
abbrev S20x20 : Shape := ⟨2, ![20, 20]⟩
abbrev S40x200 : Shape := ⟨2, ![40, 200]⟩
abbrev S200x20 : Shape := ⟨2, ![200, 20]⟩
abbrev S20x1 : Shape := ⟨2, ![20, 1]⟩
abbrev S1x400000 : Shape := ⟨2, ![1, 400000]⟩
abbrev S_ : Shape := ⟨0, ![]⟩
abbrev S401408 : Shape := ⟨1, ![401408]⟩
abbrev S25600x1 : Shape := ⟨2, ![25600, 1]⟩
abbrev S401408x20 : Shape := ⟨2, ![401408, 20]⟩
abbrev S2048 : Shape := ⟨1, ![2048]⟩
abbrev S1024x1 : Shape := ⟨2, ![1024, 1]⟩
abbrev S2048x20 : Shape := ⟨2, ![2048, 20]⟩
abbrev S2048x1 : Shape := ⟨2, ![2048, 1]⟩
abbrev S1024x2048 : Shape := ⟨2, ![1024, 2048]⟩
abbrev S1x2048 : Shape := ⟨2, ![1, 2048]⟩
abbrev S2048x2 : Shape := ⟨2, ![2048, 2]⟩
abbrev S2048x200 : Shape := ⟨2, ![2048, 200]⟩
abbrev S1x200 : Shape := ⟨2, ![1, 200]⟩
abbrev S1x1 : Shape := ⟨2, ![1, 1]⟩
abbrev S25600x20 : Shape := ⟨2, ![25600, 20]⟩
abbrev S1024x20 : Shape := ⟨2, ![1024, 20]⟩
abbrev S2048x40 : Shape := ⟨2, ![2048, 40]⟩
abbrev S401408x1 : Shape := ⟨2, ![401408, 1]⟩

abbrev nBuf : Space → Nat
  | .hbm => 51
  | .vmem => 135
  | .smem => 0
  | _ => 0

abbrev vmemTy0_0 (i : Nat) : BufTy := match i % 128 with
  | 0 => ⟨S2048, .i32⟩
  | 1 => ⟨S2048, .i32⟩
  | 2 => ⟨S2048, .i32⟩
  | 3 => ⟨S2048, .i32⟩
  | 4 => ⟨S1024x1, .f32⟩
  | 5 => ⟨S1024x1, .f32⟩
  | 6 => ⟨S2x200, .f32⟩
  | 7 => ⟨S200, .f32⟩
  | 8 => ⟨S200x1, .f32⟩
  | 9 => ⟨S1, .f32⟩
  | 10 => ⟨S1x20, .f32⟩
  | 11 => ⟨S20, .f32⟩
  | 12 => ⟨S2048x20, .f32⟩
  | 13 => ⟨S2048x20, .f32⟩
  | 14 => ⟨S2048x1, .f32⟩
  | 15 => ⟨S2048x1, .f32⟩
  | 16 => ⟨S2048, .i32⟩
  | 17 => ⟨S2048, .i32⟩
  | 18 => ⟨S2048x20, .f32⟩
  | 19 => ⟨S2048x20, .f32⟩
  | 20 => ⟨S1024x1, .f32⟩
  | 21 => ⟨S1024x1, .f32⟩
  | 22 => ⟨S1x20, .f32⟩
  | 23 => ⟨S20, .f32⟩
  | 24 => ⟨S1024x20, .f32⟩
  | 25 => ⟨S1024x20, .f32⟩
  | 26 => ⟨S1024x20, .f32⟩
  | 27 => ⟨S2048, .i32⟩
  | 28 => ⟨S2048, .i32⟩
  | 29 => ⟨S2048, .i32⟩
  | 30 => ⟨S2048, .i32⟩
  | 31 => ⟨S1024x20, .f32⟩
  | 32 => ⟨S1024x20, .f32⟩
  | 33 => ⟨S40x200, .f32⟩
  | 34 => ⟨S200, .f32⟩
  | 35 => ⟨S200x20, .f32⟩
  | 36 => ⟨S20, .f32⟩
  | 37 => ⟨S20x20, .f32⟩
  | 38 => ⟨S20, .f32⟩
  | 39 => ⟨S2048x20, .f32⟩
  | 40 => ⟨S2048x20, .f32⟩
  | 41 => ⟨S2048x20, .f32⟩
  | 42 => ⟨S2048x20, .f32⟩
  | 43 => ⟨S2048, .i32⟩
  | 44 => ⟨S2048, .i32⟩
  | 45 => ⟨S2048x20, .f32⟩
  | 46 => ⟨S2048x20, .f32⟩
  | 47 => ⟨S1024x20, .f32⟩
  | 48 => ⟨S1024x20, .f32⟩
  | 49 => ⟨S20x20, .f32⟩
  | 50 => ⟨S20, .f32⟩
  | 51 => ⟨S1024x20, .f32⟩
  | 52 => ⟨S1024x20, .f32⟩
  | 53 => ⟨S1024x20, .f32⟩
  | 54 => ⟨S2048, .i32⟩
  | 55 => ⟨S2048, .i32⟩
  | 56 => ⟨S2048, .i32⟩
  | 57 => ⟨S2048, .i32⟩
  | 58 => ⟨S1024x20, .f32⟩
  | 59 => ⟨S1024x20, .f32⟩
  | 60 => ⟨S40x200, .f32⟩
  | 61 => ⟨S200, .f32⟩
  | 62 => ⟨S200x20, .f32⟩
  | 63 => ⟨S20, .f32⟩
  | 64 => ⟨S20x20, .f32⟩
  | 65 => ⟨S20, .f32⟩
  | 66 => ⟨S2048x20, .f32⟩
  | 67 => ⟨S2048x20, .f32⟩
  | 68 => ⟨S2048x20, .f32⟩
  | 69 => ⟨S2048x20, .f32⟩
  | 70 => ⟨S2048, .i32⟩
  | 71 => ⟨S2048, .i32⟩
  | 72 => ⟨S2048x20, .f32⟩
  | 73 => ⟨S2048x20, .f32⟩
  | 74 => ⟨S1024x20, .f32⟩
  | 75 => ⟨S1024x20, .f32⟩
  | 76 => ⟨S20x20, .f32⟩
  | 77 => ⟨S20, .f32⟩
  | 78 => ⟨S1024x20, .f32⟩
  | 79 => ⟨S1024x20, .f32⟩
  | 80 => ⟨S1024x20, .f32⟩
  | 81 => ⟨S2048, .i32⟩
  | 82 => ⟨S2048, .i32⟩
  | 83 => ⟨S2048, .i32⟩
  | 84 => ⟨S2048, .i32⟩
  | 85 => ⟨S1024x20, .f32⟩
  | 86 => ⟨S1024x20, .f32⟩
  | 87 => ⟨S40x200, .f32⟩
  | 88 => ⟨S200, .f32⟩
  | 89 => ⟨S200x20, .f32⟩
  | 90 => ⟨S20, .f32⟩
  | 91 => ⟨S20x20, .f32⟩
  | 92 => ⟨S20, .f32⟩
  | 93 => ⟨S2048x20, .f32⟩
  | 94 => ⟨S2048x20, .f32⟩
  | 95 => ⟨S2048x20, .f32⟩
  | 96 => ⟨S2048x20, .f32⟩
  | 97 => ⟨S2048, .i32⟩
  | 98 => ⟨S2048, .i32⟩
  | 99 => ⟨S2048x20, .f32⟩
  | 100 => ⟨S2048x20, .f32⟩
  | 101 => ⟨S1024x20, .f32⟩
  | 102 => ⟨S1024x20, .f32⟩
  | 103 => ⟨S20x20, .f32⟩
  | 104 => ⟨S20, .f32⟩
  | 105 => ⟨S1024x20, .f32⟩
  | 106 => ⟨S1024x20, .f32⟩
  | 107 => ⟨S1024x20, .f32⟩
  | 108 => ⟨S2048, .i32⟩
  | 109 => ⟨S2048, .i32⟩
  | 110 => ⟨S2048, .i32⟩
  | 111 => ⟨S2048, .i32⟩
  | 112 => ⟨S1024x20, .f32⟩
  | 113 => ⟨S1024x20, .f32⟩
  | 114 => ⟨S40x200, .f32⟩
  | 115 => ⟨S200, .f32⟩
  | 116 => ⟨S200x20, .f32⟩
  | 117 => ⟨S20, .f32⟩
  | 118 => ⟨S20x1, .f32⟩
  | 119 => ⟨S1, .f32⟩
  | 120 => ⟨S2048x1, .f32⟩
  | 121 => ⟨S2048x1, .f32⟩
  | 122 => ⟨S2048x20, .f32⟩
  | 123 => ⟨S2048x20, .f32⟩
  | 124 => ⟨S2048, .i32⟩
  | 125 => ⟨S2048, .i32⟩
  | 126 => ⟨S2048x1, .f32⟩
  | 127 => ⟨S2048x1, .f32⟩
  | _ => ⟨S25000x1, .f32⟩

abbrev vmemTy0_1 (i : Nat) : BufTy := match i % 128 with
  | 0 => ⟨S1024x20, .f32⟩
  | 1 => ⟨S1024x20, .f32⟩
  | 2 => ⟨S20x1, .f32⟩
  | 3 => ⟨S1, .f32⟩
  | 4 => ⟨S1024x1, .f32⟩
  | 5 => ⟨S1024x1, .f32⟩
  | 6 => ⟨S1024x1, .f32⟩
  | _ => ⟨S25000x1, .f32⟩

abbrev vmemTy (i : Nat) : BufTy := match i / 128 with
  | 0 => vmemTy0_0 i
  | 1 => vmemTy0_1 i
  | _ => ⟨S25000x1, .f32⟩

abbrev bufTy : (tb : Table) → Fin (tcTables nBuf tb) → BufTy
  | .hbm, ⟨0, _⟩ => ⟨S25000x1, .f32⟩
  | .hbm, ⟨1, _⟩ => ⟨S2x400000, .i32⟩
  | .hbm, ⟨2, _⟩ => ⟨S400000, .f32⟩
  | .hbm, ⟨3, _⟩ => ⟨S1x20, .f32⟩
  | .hbm, ⟨4, _⟩ => ⟨S20, .f32⟩
  | .hbm, ⟨5, _⟩ => ⟨S2x200, .f32⟩
  | .hbm, ⟨6, _⟩ => ⟨S200, .f32⟩
  | .hbm, ⟨7, _⟩ => ⟨S200x1, .f32⟩
  | .hbm, ⟨8, _⟩ => ⟨S1, .f32⟩
  | .hbm, ⟨9, _⟩ => ⟨S1x20, .f32⟩
  | .hbm, ⟨10, _⟩ => ⟨S20, .f32⟩
  | .hbm, ⟨11, _⟩ => ⟨S20x20, .f32⟩
  | .hbm, ⟨12, _⟩ => ⟨S20, .f32⟩
  | .hbm, ⟨13, _⟩ => ⟨S40x200, .f32⟩
  | .hbm, ⟨14, _⟩ => ⟨S200, .f32⟩
  | .hbm, ⟨15, _⟩ => ⟨S200x20, .f32⟩
  | .hbm, ⟨16, _⟩ => ⟨S20, .f32⟩
  | .hbm, ⟨17, _⟩ => ⟨S20x20, .f32⟩
  | .hbm, ⟨18, _⟩ => ⟨S20, .f32⟩
  | .hbm, ⟨19, _⟩ => ⟨S20x1, .f32⟩
  | .hbm, ⟨20, _⟩ => ⟨S1, .f32⟩
  | .hbm, ⟨21, _⟩ => ⟨S40x200, .f32⟩
  | .hbm, ⟨22, _⟩ => ⟨S200, .f32⟩
  | .hbm, ⟨23, _⟩ => ⟨S200x20, .f32⟩
  | .hbm, ⟨24, _⟩ => ⟨S20, .f32⟩
  | .hbm, ⟨25, _⟩ => ⟨S20x1, .f32⟩
  | .hbm, ⟨26, _⟩ => ⟨S1, .f32⟩
  | .hbm, ⟨27, _⟩ => ⟨S1x400000, .i32⟩
  | .hbm, ⟨28, _⟩ => ⟨S400000, .i32⟩
  | .hbm, ⟨29, _⟩ => ⟨S1x400000, .i32⟩
  | .hbm, ⟨30, _⟩ => ⟨S400000, .i32⟩
  | .hbm, ⟨31, _⟩ => ⟨S_, .i32⟩
  | .hbm, ⟨32, _⟩ => ⟨S_, .i32⟩
  | .hbm, ⟨33, _⟩ => ⟨S401408, .i32⟩
  | .hbm, ⟨34, _⟩ => ⟨S_, .i32⟩
  | .hbm, ⟨35, _⟩ => ⟨S_, .i32⟩
  | .hbm, ⟨36, _⟩ => ⟨S401408, .i32⟩
  | .hbm, ⟨37, _⟩ => ⟨S_, .i32⟩
  | .hbm, ⟨38, _⟩ => ⟨S_, .f32⟩
  | .hbm, ⟨39, _⟩ => ⟨S25600x1, .f32⟩
  | .hbm, ⟨40, _⟩ => ⟨S401408x20, .f32⟩
  | .hbm, ⟨41, _⟩ => ⟨S25600x20, .f32⟩
  | .hbm, ⟨42, _⟩ => ⟨S401408x20, .f32⟩
  | .hbm, ⟨43, _⟩ => ⟨S25600x20, .f32⟩
  | .hbm, ⟨44, _⟩ => ⟨S401408x20, .f32⟩
  | .hbm, ⟨45, _⟩ => ⟨S25600x20, .f32⟩
  | .hbm, ⟨46, _⟩ => ⟨S401408x20, .f32⟩
  | .hbm, ⟨47, _⟩ => ⟨S25600x20, .f32⟩
  | .hbm, ⟨48, _⟩ => ⟨S401408x1, .f32⟩
  | .hbm, ⟨49, _⟩ => ⟨S25600x1, .f32⟩
  | .hbm, ⟨50, _⟩ => ⟨S25000x1, .f32⟩
  | .local _ .vmem, ⟨i, _⟩ => vmemTy i
  | _, _ => ⟨S25000x1, .f32⟩

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_call0_v0 : Ref sig .tc := ⟨.hbm, 32, rfl⟩
abbrev main_v4 : Ref sig .tc := ⟨.hbm, 33, rfl⟩
abbrev main_c_0 : Ref sig .tc := ⟨.hbm, 34, rfl⟩
abbrev main_call1_v0 : Ref sig .tc := ⟨.hbm, 35, rfl⟩
abbrev main_v5 : Ref sig .tc := ⟨.hbm, 36, rfl⟩
abbrev main_c_1 : Ref sig .tc := ⟨.hbm, 37, rfl⟩
abbrev main_call2_v0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc1_scratch0 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg9_1 : Ref sig .tc := ⟨.vmem, 40, rfl⟩
abbrev cc2_scratch0 : Ref sig .tc := ⟨.vmem, 41, rfl⟩
abbrev cc2_scratch1 : Ref sig .tc := ⟨.vmem, 42, rfl⟩
abbrev cc3_stg0_0 : Ref sig .tc := ⟨.vmem, 43, rfl⟩
abbrev cc3_stg0_1 : Ref sig .tc := ⟨.vmem, 44, rfl⟩
abbrev cc3_stg1_0 : Ref sig .tc := ⟨.vmem, 45, rfl⟩
abbrev cc3_stg1_1 : Ref sig .tc := ⟨.vmem, 46, rfl⟩
abbrev cc3_stg2_0 : Ref sig .tc := ⟨.vmem, 47, rfl⟩
abbrev cc3_stg2_1 : Ref sig .tc := ⟨.vmem, 48, rfl⟩
abbrev cc3_stg3_0 : Ref sig .tc := ⟨.vmem, 49, rfl⟩
abbrev cc3_stg4_0 : Ref sig .tc := ⟨.vmem, 50, rfl⟩
abbrev cc3_stg5_0 : Ref sig .tc := ⟨.vmem, 51, rfl⟩
abbrev cc3_stg5_1 : Ref sig .tc := ⟨.vmem, 52, rfl⟩
abbrev cc3_scratch0 : Ref sig .tc := ⟨.vmem, 53, rfl⟩
abbrev cc4_stg0_0 : Ref sig .tc := ⟨.vmem, 54, rfl⟩
abbrev cc4_stg0_1 : Ref sig .tc := ⟨.vmem, 55, rfl⟩
abbrev cc4_stg1_0 : Ref sig .tc := ⟨.vmem, 56, rfl⟩
abbrev cc4_stg1_1 : Ref sig .tc := ⟨.vmem, 57, rfl⟩
abbrev cc4_stg2_0 : Ref sig .tc := ⟨.vmem, 58, rfl⟩
abbrev cc4_stg2_1 : Ref sig .tc := ⟨.vmem, 59, rfl⟩
abbrev cc4_stg3_0 : Ref sig .tc := ⟨.vmem, 60, rfl⟩
abbrev cc4_stg4_0 : Ref sig .tc := ⟨.vmem, 61, rfl⟩
abbrev cc4_stg5_0 : Ref sig .tc := ⟨.vmem, 62, rfl⟩
abbrev cc4_stg6_0 : Ref sig .tc := ⟨.vmem, 63, rfl⟩
abbrev cc4_stg7_0 : Ref sig .tc := ⟨.vmem, 64, rfl⟩
abbrev cc4_stg8_0 : Ref sig .tc := ⟨.vmem, 65, rfl⟩
abbrev cc4_stg9_0 : Ref sig .tc := ⟨.vmem, 66, rfl⟩
abbrev cc4_stg9_1 : Ref sig .tc := ⟨.vmem, 67, rfl⟩
abbrev cc4_scratch0 : Ref sig .tc := ⟨.vmem, 68, rfl⟩
abbrev cc4_scratch1 : Ref sig .tc := ⟨.vmem, 69, rfl⟩
abbrev cc5_stg0_0 : Ref sig .tc := ⟨.vmem, 70, rfl⟩
abbrev cc5_stg0_1 : Ref sig .tc := ⟨.vmem, 71, rfl⟩
abbrev cc5_stg1_0 : Ref sig .tc := ⟨.vmem, 72, rfl⟩
abbrev cc5_stg1_1 : Ref sig .tc := ⟨.vmem, 73, rfl⟩
abbrev cc5_stg2_0 : Ref sig .tc := ⟨.vmem, 74, rfl⟩
abbrev cc5_stg2_1 : Ref sig .tc := ⟨.vmem, 75, rfl⟩
abbrev cc5_stg3_0 : Ref sig .tc := ⟨.vmem, 76, rfl⟩
abbrev cc5_stg4_0 : Ref sig .tc := ⟨.vmem, 77, rfl⟩
abbrev cc5_stg5_0 : Ref sig .tc := ⟨.vmem, 78, rfl⟩
abbrev cc5_stg5_1 : Ref sig .tc := ⟨.vmem, 79, rfl⟩
abbrev cc5_scratch0 : Ref sig .tc := ⟨.vmem, 80, rfl⟩
abbrev cc6_stg0_0 : Ref sig .tc := ⟨.vmem, 81, rfl⟩
abbrev cc6_stg0_1 : Ref sig .tc := ⟨.vmem, 82, rfl⟩
abbrev cc6_stg1_0 : Ref sig .tc := ⟨.vmem, 83, rfl⟩
abbrev cc6_stg1_1 : Ref sig .tc := ⟨.vmem, 84, rfl⟩
abbrev cc6_stg2_0 : Ref sig .tc := ⟨.vmem, 85, rfl⟩
abbrev cc6_stg2_1 : Ref sig .tc := ⟨.vmem, 86, rfl⟩
abbrev cc6_stg3_0 : Ref sig .tc := ⟨.vmem, 87, rfl⟩
abbrev cc6_stg4_0 : Ref sig .tc := ⟨.vmem, 88, rfl⟩
abbrev cc6_stg5_0 : Ref sig .tc := ⟨.vmem, 89, rfl⟩
abbrev cc6_stg6_0 : Ref sig .tc := ⟨.vmem, 90, rfl⟩
abbrev cc6_stg7_0 : Ref sig .tc := ⟨.vmem, 91, rfl⟩
abbrev cc6_stg8_0 : Ref sig .tc := ⟨.vmem, 92, rfl⟩
abbrev cc6_stg9_0 : Ref sig .tc := ⟨.vmem, 93, rfl⟩
abbrev cc6_stg9_1 : Ref sig .tc := ⟨.vmem, 94, rfl⟩
abbrev cc6_scratch0 : Ref sig .tc := ⟨.vmem, 95, rfl⟩
abbrev cc6_scratch1 : Ref sig .tc := ⟨.vmem, 96, rfl⟩
abbrev cc7_stg0_0 : Ref sig .tc := ⟨.vmem, 97, rfl⟩
abbrev cc7_stg0_1 : Ref sig .tc := ⟨.vmem, 98, rfl⟩
abbrev cc7_stg1_0 : Ref sig .tc := ⟨.vmem, 99, rfl⟩
abbrev cc7_stg1_1 : Ref sig .tc := ⟨.vmem, 100, rfl⟩
abbrev cc7_stg2_0 : Ref sig .tc := ⟨.vmem, 101, rfl⟩
abbrev cc7_stg2_1 : Ref sig .tc := ⟨.vmem, 102, rfl⟩
abbrev cc7_stg3_0 : Ref sig .tc := ⟨.vmem, 103, rfl⟩
abbrev cc7_stg4_0 : Ref sig .tc := ⟨.vmem, 104, rfl⟩
abbrev cc7_stg5_0 : Ref sig .tc := ⟨.vmem, 105, rfl⟩
abbrev cc7_stg5_1 : Ref sig .tc := ⟨.vmem, 106, rfl⟩
abbrev cc7_scratch0 : Ref sig .tc := ⟨.vmem, 107, rfl⟩
abbrev cc8_stg0_0 : Ref sig .tc := ⟨.vmem, 108, rfl⟩
abbrev cc8_stg0_1 : Ref sig .tc := ⟨.vmem, 109, rfl⟩
abbrev cc8_stg1_0 : Ref sig .tc := ⟨.vmem, 110, rfl⟩
abbrev cc8_stg1_1 : Ref sig .tc := ⟨.vmem, 111, rfl⟩
abbrev cc8_stg2_0 : Ref sig .tc := ⟨.vmem, 112, rfl⟩
abbrev cc8_stg2_1 : Ref sig .tc := ⟨.vmem, 113, rfl⟩
abbrev cc8_stg3_0 : Ref sig .tc := ⟨.vmem, 114, rfl⟩
abbrev cc8_stg4_0 : Ref sig .tc := ⟨.vmem, 115, rfl⟩
abbrev cc8_stg5_0 : Ref sig .tc := ⟨.vmem, 116, rfl⟩
abbrev cc8_stg6_0 : Ref sig .tc := ⟨.vmem, 117, rfl⟩
abbrev cc8_stg7_0 : Ref sig .tc := ⟨.vmem, 118, rfl⟩
abbrev cc8_stg8_0 : Ref sig .tc := ⟨.vmem, 119, rfl⟩
abbrev cc8_stg9_0 : Ref sig .tc := ⟨.vmem, 120, rfl⟩
abbrev cc8_stg9_1 : Ref sig .tc := ⟨.vmem, 121, rfl⟩
abbrev cc8_scratch0 : Ref sig .tc := ⟨.vmem, 122, rfl⟩
abbrev cc8_scratch1 : Ref sig .tc := ⟨.vmem, 123, rfl⟩
abbrev cc9_stg0_0 : Ref sig .tc := ⟨.vmem, 124, rfl⟩
abbrev cc9_stg0_1 : Ref sig .tc := ⟨.vmem, 125, rfl⟩
abbrev cc9_stg1_0 : Ref sig .tc := ⟨.vmem, 126, rfl⟩
abbrev cc9_stg1_1 : Ref sig .tc := ⟨.vmem, 127, rfl⟩
abbrev cc9_stg2_0 : Ref sig .tc := ⟨.vmem, 128, rfl⟩
abbrev cc9_stg2_1 : Ref sig .tc := ⟨.vmem, 129, rfl⟩
abbrev cc9_stg3_0 : Ref sig .tc := ⟨.vmem, 130, rfl⟩
abbrev cc9_stg4_0 : Ref sig .tc := ⟨.vmem, 131, rfl⟩
abbrev cc9_stg5_0 : Ref sig .tc := ⟨.vmem, 132, rfl⟩
abbrev cc9_stg5_1 : Ref sig .tc := ⟨.vmem, 133, rfl⟩
abbrev cc9_scratch0 : Ref sig .tc := ⟨.vmem, 134, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem8_0 : DmaSem sig := 35
abbrev cc2_sem9_0 : DmaSem sig := 36
abbrev cc2_sem9_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem2_1 : DmaSem sig := 43
abbrev cc3_sem3_0 : DmaSem sig := 44
abbrev cc3_sem4_0 : DmaSem sig := 45
abbrev cc3_sem5_0 : DmaSem sig := 46
abbrev cc3_sem5_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem2_1 : DmaSem sig := 53
abbrev cc4_sem3_0 : DmaSem sig := 54
abbrev cc4_sem4_0 : DmaSem sig := 55
abbrev cc4_sem5_0 : DmaSem sig := 56
abbrev cc4_sem6_0 : DmaSem sig := 57
abbrev cc4_sem7_0 : DmaSem sig := 58
abbrev cc4_sem8_0 : DmaSem sig := 59
abbrev cc4_sem9_0 : DmaSem sig := 60
abbrev cc4_sem9_1 : DmaSem sig := 61
abbrev cc5_sem0_0 : DmaSem sig := 62
abbrev cc5_sem0_1 : DmaSem sig := 63
abbrev cc5_sem1_0 : DmaSem sig := 64
abbrev cc5_sem1_1 : DmaSem sig := 65
abbrev cc5_sem2_0 : DmaSem sig := 66
abbrev cc5_sem2_1 : DmaSem sig := 67
abbrev cc5_sem3_0 : DmaSem sig := 68
abbrev cc5_sem4_0 : DmaSem sig := 69
abbrev cc5_sem5_0 : DmaSem sig := 70
abbrev cc5_sem5_1 : DmaSem sig := 71
abbrev cc6_sem0_0 : DmaSem sig := 72
abbrev cc6_sem0_1 : DmaSem sig := 73
abbrev cc6_sem1_0 : DmaSem sig := 74
abbrev cc6_sem1_1 : DmaSem sig := 75
abbrev cc6_sem2_0 : DmaSem sig := 76
abbrev cc6_sem2_1 : DmaSem sig := 77
abbrev cc6_sem3_0 : DmaSem sig := 78
abbrev cc6_sem4_0 : DmaSem sig := 79
abbrev cc6_sem5_0 : DmaSem sig := 80
abbrev cc6_sem6_0 : DmaSem sig := 81
abbrev cc6_sem7_0 : DmaSem sig := 82
abbrev cc6_sem8_0 : DmaSem sig := 83
abbrev cc6_sem9_0 : DmaSem sig := 84
abbrev cc6_sem9_1 : DmaSem sig := 85
abbrev cc7_sem0_0 : DmaSem sig := 86
abbrev cc7_sem0_1 : DmaSem sig := 87
abbrev cc7_sem1_0 : DmaSem sig := 88
abbrev cc7_sem1_1 : DmaSem sig := 89
abbrev cc7_sem2_0 : DmaSem sig := 90
abbrev cc7_sem2_1 : DmaSem sig := 91
abbrev cc7_sem3_0 : DmaSem sig := 92
abbrev cc7_sem4_0 : DmaSem sig := 93
abbrev cc7_sem5_0 : DmaSem sig := 94
abbrev cc7_sem5_1 : DmaSem sig := 95
abbrev cc8_sem0_0 : DmaSem sig := 96
abbrev cc8_sem0_1 : DmaSem sig := 97
abbrev cc8_sem1_0 : DmaSem sig := 98
abbrev cc8_sem1_1 : DmaSem sig := 99
abbrev cc8_sem2_0 : DmaSem sig := 100
abbrev cc8_sem2_1 : DmaSem sig := 101
abbrev cc8_sem3_0 : DmaSem sig := 102
abbrev cc8_sem4_0 : DmaSem sig := 103
abbrev cc8_sem5_0 : DmaSem sig := 104
abbrev cc8_sem6_0 : DmaSem sig := 105
abbrev cc8_sem7_0 : DmaSem sig := 106
abbrev cc8_sem8_0 : DmaSem sig := 107
abbrev cc8_sem9_0 : DmaSem sig := 108
abbrev cc8_sem9_1 : DmaSem sig := 109
abbrev cc9_sem0_0 : DmaSem sig := 110
abbrev cc9_sem0_1 : DmaSem sig := 111
abbrev cc9_sem1_0 : DmaSem sig := 112
abbrev cc9_sem1_1 : DmaSem sig := 113
abbrev cc9_sem2_0 : DmaSem sig := 114
abbrev cc9_sem2_1 : DmaSem sig := 115
abbrev cc9_sem3_0 : DmaSem sig := 116
abbrev cc9_sem4_0 : DmaSem sig := 117
abbrev cc9_sem5_0 : DmaSem sig := 118
abbrev cc9_sem5_1 : DmaSem sig := 119

abbrev nD : Nat := 1
abbrev τ : Topo := Topo.v7x

variable {F : FTy → Type} [FloatOps F]

abbrev grid0 : Pipeline.Grid := ⟨2, ![196, 25], ![false, false]⟩

def k0_cond2 (i : grid0.Coords) : BitVec 1 :=
  let arg1 : BitVec 32 := BitVec.ofNat 32 (i 1).val
  let c24_i32 : BitVec 32 := 24#32
  let v38 : BitVec 1 := Scalar.cmpi .eq arg1 c24_i32
  let v39 : BitVec 32 := Scalar.extui v38
  let c0_i32_13 : BitVec 32 := 0#32
  let v40 : BitVec 1 := Scalar.cmpi .ne v39 c0_i32_13
  v40

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2x200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S200x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S20 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2048x20 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨2, ![25, 196], ![false, false]⟩

def k1_cond2 (i : grid1.Coords) : BitVec 1 :=
  let arg1 : BitVec 32 := BitVec.ofNat 32 (i 1).val
  let c195_i32 : BitVec 32 := 195#32
  let v24 : BitVec 1 := Scalar.cmpi .eq arg1 c195_i32
  let v25 : BitVec 32 := Scalar.extui v24
  let c0_i32_7 : BitVec 32 := 0#32
  let v26 : BitVec 1 := Scalar.cmpi .ne v25 c0_i32_7
  v26

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x20 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x20 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S20 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x20 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![196, 25], ![false, false]⟩

def k2_cond2 (i : grid2.Coords) : BitVec 1 :=
  let arg1 : BitVec 32 := BitVec.ofNat 32 (i 1).val
  let c24_i32 : BitVec 32 := 24#32
  let v38 : BitVec 1 := Scalar.cmpi .eq arg1 c24_i32
  let v39 : BitVec 32 := Scalar.extui v38
  let c0_i32_13 : BitVec 32 := 0#32
  let v40 : BitVec 1 := Scalar.cmpi .ne v39 c0_i32_13
  v40

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_1 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x20 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S40x200 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S200 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S200x20 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S20 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S20x20 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S20 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 2 → Memref sig .tc .vmem S2048x20 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

abbrev grid3 : Pipeline.Grid := ⟨2, ![25, 196], ![false, false]⟩

def k3_cond2 (i : grid3.Coords) : BitVec 1 :=
  let arg1 : BitVec 32 := BitVec.ofNat 32 (i 1).val
  let c195_i32 : BitVec 32 := 195#32
  let v24 : BitVec 1 := Scalar.cmpi .eq arg1 c195_i32
  let v25 : BitVec 32 := Scalar.extui v24
  let c0_i32_7 : BitVec 32 := 0#32
  let v26 : BitVec 1 := Scalar.cmpi .ne v25 c0_i32_7
  v26

def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  ![arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S2048x20 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x20 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S20x20 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S20 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1024x20 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev grid4 : Pipeline.Grid := ⟨2, ![196, 25], ![false, false]⟩

def k4_cond2 (i : grid4.Coords) : BitVec 1 :=
  let arg1 : BitVec 32 := BitVec.ofNat 32 (i 1).val
  let c24_i32 : BitVec 32 := 24#32
  let v38 : BitVec 1 := Scalar.cmpi .eq arg1 c24_i32
  let v39 : BitVec 32 := Scalar.extui v38
  let c0_i32_13 : BitVec 32 := 0#32
  let v40 : BitVec 1 := Scalar.cmpi .ne v39 c0_i32_13
  v40

def cc4_transform_0 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_1 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1024x20 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 1 → Memref sig .tc .vmem S40x200 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S200 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S200x20 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S20 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 1 → Memref sig .tc .vmem S20x20 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false, false]

abbrev stage4_8 : Fin 1 → Memref sig .tc .vmem S20 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false, false]

abbrev stage4_9 : Fin 2 → Memref sig .tc .vmem S2048x20 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true, false]

abbrev grid5 : Pipeline.Grid := ⟨2, ![25, 196], ![false, false]⟩

def k5_cond2 (i : grid5.Coords) : BitVec 1 :=
  let arg1 : BitVec 32 := BitVec.ofNat 32 (i 1).val
  let c195_i32 : BitVec 32 := 195#32
  let v24 : BitVec 1 := Scalar.cmpi .eq arg1 c195_i32
  let v25 : BitVec 32 := Scalar.extui v24
  let c0_i32_7 : BitVec 32 := 0#32
  let v26 : BitVec 1 := Scalar.cmpi .ne v25 c0_i32_7
  v26

def cc5_transform_0 (i : grid5.Coords) : Fin 1 → Nat :=
  let arg0 : BitVec 32 := BitVec.ofNat 32 (i 0).val
  let arg1 : BitVec 32 := BitVec.ofNat 32 (i 1).val
  let c0_i32 : BitVec 32 := 0#32
  ![arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2048 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S2048x20 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x20 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 1 → Memref sig .tc .vmem S20x20 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S20 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 2 → Memref sig .tc .vmem S1024x20 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev grid6 : Pipeline.Grid := ⟨2, ![196, 25], ![false, false]⟩

def k6_cond2 (i : grid6.Coords) : BitVec 1 :=
  let arg1 : BitVec 32 := BitVec.ofNat 32 (i 1).val
  let c24_i32 : BitVec 32 := 24#32
  let v38 : BitVec 1 := Scalar.cmpi .eq arg1 c24_i32
  let v39 : BitVec 32 := Scalar.extui v38
  let c0_i32_13 : BitVec 32 := 0#32
  let v40 : BitVec 1 := Scalar.cmpi .ne v39 c0_i32_13
  v40

def cc6_transform_0 (i : grid6.Coords) : Fin 1 → Nat :=
  let arg0 : BitVec 32 := BitVec.ofNat 32 (i 0).val
  let arg1 : BitVec 32 := BitVec.ofNat 32 (i 1).val
  let c0_i32 : BitVec 32 := 0#32
  ![arg0.toNat]

def cc6_transform_1 (i : grid6.Coords) : Fin 1 → Nat :=
  let arg0 : BitVec 32 := BitVec.ofNat 32 (i 0).val
  let arg1 : BitVec 32 := BitVec.ofNat 32 (i 1).val
  let c0_i32 : BitVec 32 := 0#32
  ![arg0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc6_transform_9 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S2048 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S2048 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1024x20 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 1 → Memref sig .tc .vmem S40x200 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false]

abbrev stage6_4 : Fin 1 → Memref sig .tc .vmem S200 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false, false]

abbrev stage6_5 : Fin 1 → Memref sig .tc .vmem S200x20 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false, false]

abbrev stage6_6 : Fin 1 → Memref sig .tc .vmem S20 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false, false]

abbrev stage6_7 : Fin 1 → Memref sig .tc .vmem S20x20 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false, false]

abbrev stage6_8 : Fin 1 → Memref sig .tc .vmem S20 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false, false]

abbrev stage6_9 : Fin 2 → Memref sig .tc .vmem S2048x20 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true, false]

abbrev grid7 : Pipeline.Grid := ⟨2, ![25, 196], ![false, false]⟩

def k7_cond2 (i : grid7.Coords) : BitVec 1 :=
  let arg1 : BitVec 32 := BitVec.ofNat 32 (i 1).val
  let c195_i32 : BitVec 32 := 195#32
  let v24 : BitVec 1 := Scalar.cmpi .eq arg1 c195_i32
  let v25 : BitVec 32 := Scalar.extui v24
  let c0_i32_7 : BitVec 32 := 0#32
  let v26 : BitVec 1 := Scalar.cmpi .ne v25 c0_i32_7
  v26

def cc7_transform_0 (i : grid7.Coords) : Fin 1 → Nat :=
  let arg0 : BitVec 32 := BitVec.ofNat 32 (i 0).val
  let arg1 : BitVec 32 := BitVec.ofNat 32 (i 1).val
  let c0_i32 : BitVec 32 := 0#32
  ![arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S2048 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S2048x20 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x20 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 1 → Memref sig .tc .vmem S20x20 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false]

abbrev stage7_4 : Fin 1 → Memref sig .tc .vmem S20 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false, false]

abbrev stage7_5 : Fin 2 → Memref sig .tc .vmem S1024x20 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, false]

abbrev grid8 : Pipeline.Grid := ⟨2, ![196, 25], ![false, false]⟩

def k8_cond2 (i : grid8.Coords) : BitVec 1 :=
  let arg1 : BitVec 32 := BitVec.ofNat 32 (i 1).val
  let c24_i32 : BitVec 32 := 24#32
  let v38 : BitVec 1 := Scalar.cmpi .eq arg1 c24_i32
  let v39 : BitVec 32 := Scalar.extui v38
  let c0_i32_13 : BitVec 32 := 0#32
  let v40 : BitVec 1 := Scalar.cmpi .ne v39 c0_i32_13
  v40

def cc8_transform_0 (i : grid8.Coords) : Fin 1 → Nat :=
  let arg0 : BitVec 32 := BitVec.ofNat 32 (i 0).val
  let arg1 : BitVec 32 := BitVec.ofNat 32 (i 1).val
  let c0_i32 : BitVec 32 := 0#32
  ![arg0.toNat]

def cc8_transform_1 (i : grid8.Coords) : Fin 1 → Nat :=
  let arg0 : BitVec 32 := BitVec.ofNat 32 (i 0).val
  let arg1 : BitVec 32 := BitVec.ofNat 32 (i 1).val
  let c0_i32 : BitVec 32 := 0#32
  ![arg0.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc8_transform_7 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc8_transform_9 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S2048 .i32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S2048 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, false]

abbrev stage8_2 : Fin 2 → Memref sig .tc .vmem S1024x20 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![false, true]

abbrev stage8_3 : Fin 1 → Memref sig .tc .vmem S40x200 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false, false]

abbrev stage8_4 : Fin 1 → Memref sig .tc .vmem S200 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false, false]

abbrev stage8_5 : Fin 1 → Memref sig .tc .vmem S200x20 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false, false]

abbrev stage8_6 : Fin 1 → Memref sig .tc .vmem S20 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false, false]

abbrev stage8_7 : Fin 1 → Memref sig .tc .vmem S20x1 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false, false]

abbrev stage8_8 : Fin 1 → Memref sig .tc .vmem S1 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false, false]

abbrev stage8_9 : Fin 2 → Memref sig .tc .vmem S2048x1 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true, false]

abbrev grid9 : Pipeline.Grid := ⟨2, ![25, 196], ![false, false]⟩

def k9_cond2 (i : grid9.Coords) : BitVec 1 :=
  let arg1 : BitVec 32 := BitVec.ofNat 32 (i 1).val
  let c195_i32 : BitVec 32 := 195#32
  let v24 : BitVec 1 := Scalar.cmpi .eq arg1 c195_i32
  let v25 : BitVec 32 := Scalar.extui v24
  let c0_i32_7 : BitVec 32 := 0#32
  let v26 : BitVec 1 := Scalar.cmpi .ne v25 c0_i32_7
  v26

def cc9_transform_0 (i : grid9.Coords) : Fin 1 → Nat :=
  let arg0 : BitVec 32 := BitVec.ofNat 32 (i 0).val
  let arg1 : BitVec 32 := BitVec.ofNat 32 (i 1).val
  let c0_i32 : BitVec 32 := 0#32
  ![arg1.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc9_transform_5 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S2048 .i32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true]

abbrev stage9_1 : Fin 2 → Memref sig .tc .vmem S2048x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S1024x20 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false]

abbrev stage9_3 : Fin 1 → Memref sig .tc .vmem S20x1 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false, false]

abbrev stage9_4 : Fin 1 → Memref sig .tc .vmem S1 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false, false]

abbrev stage9_5 : Fin 2 → Memref sig .tc .vmem S1024x1 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true, false]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  pads_S400000_S401408_014080 : S400000.Pads (![0] : Fin 1 → Nat) ![1408] ![0] S401408
  h_S_ : 0 < S_.numel
  pads_S25000x1_S25600x1_06000_000 : S25000x1.Pads (![0, 0] : Fin 2 → Nat) ![600, 0] ![0, 0] S25600x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S1024x2048_d0_w32 : S1024x2048.Iotas .tc 32 [0]
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  bitsLt_bf16_f32 : FTy.bits .bf16 < FTy.bits .f32
  broadcasts_S1x2048_S1024x2048 : S1x2048.Broadcasts S1024x2048
  natLt_1_32 : 1 < 32
  concatenates_S2048x1_S2048x1_S2048x2_d1 : Shape.Concatenates [S2048x1, S2048x1] S2048x2 1
  inb_S2x200_S2x200_0_0 : ∀ a, (![0, 0] : Fin 2 → Nat) a + S2x200.size a ≤ S2x200.size a
  h_S2x200 : 0 < S2x200.numel
  inb_S200_S200_0 : ∀ a, (![0] : Fin 1 → Nat) a + S200.size a ≤ S200.size a
  h_S200 : 0 < S200.numel
  shapeCasts_S200_S1x200 : S200.ShapeCasts S1x200
  broadcasts_S1x200_S2048x200 : S1x200.Broadcasts S2048x200
  inb_S200x1_S200x1_0_0 : ∀ a, (![0, 0] : Fin 2 → Nat) a + S200x1.size a ≤ S200x1.size a
  h_S200x1 : 0 < S200x1.numel
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S1x20_S1x20_0_0 : ∀ a, (![0, 0] : Fin 2 → Nat) a + S1x20.size a ≤ S1x20.size a
  h_S1x20 : 0 < S1x20.numel
  inb_S20_S20_0 : ∀ a, (![0] : Fin 1 → Nat) a + S20.size a ≤ S20.size a
  h_S20 : 0 < S20.numel
  shapeCasts_S20_S1x20 : S20.ShapeCasts S1x20
  broadcasts_S1x20_S2048x20 : S1x20.Broadcasts S2048x20
  inb_S2048x20_S2048x20_0_0 : ∀ a, (![0, 0] : Fin 2 → Nat) a + S2048x20.size a ≤ S2048x20.size a
  h_S2048x20 : 0 < S2048x20.numel
  inb_S1024x20_S1024x20_0_0 : ∀ a, (![0, 0] : Fin 2 → Nat) a + S1024x20.size a ≤ S1024x20.size a
  h_S1024x20 : 0 < S1024x20.numel
  shapeCasts_S1024x20_S1024x20 : S1024x20.ShapeCasts S1024x20
  shapeCasts_S2048x20_S2048x20 : S2048x20.ShapeCasts S2048x20
  broadcasts_S1x20_S1024x20 : S1x20.Broadcasts S1024x20
  concatenates_S2048x20_S2048x20_S2048x40_d1 : Shape.Concatenates [S2048x20, S2048x20] S2048x40 1
  inb_S40x200_S40x200_0_0 : ∀ a, (![0, 0] : Fin 2 → Nat) a + S40x200.size a ≤ S40x200.size a
  h_S40x200 : 0 < S40x200.numel
  inb_S200x20_S200x20_0_0 : ∀ a, (![0, 0] : Fin 2 → Nat) a + S200x20.size a ≤ S200x20.size a
  h_S200x20 : 0 < S200x20.numel
  inb_S20x20_S20x20_0_0 : ∀ a, (![0, 0] : Fin 2 → Nat) a + S20x20.size a ≤ S20x20.size a
  h_S20x20 : 0 < S20x20.numel
  inb_S20x1_S20x1_0_0 : ∀ a, (![0, 0] : Fin 2 → Nat) a + S20x1.size a ≤ S20x1.size a
  h_S20x1 : 0 < S20x1.numel
  broadcasts_S1x1_S1024x1 : S1x1.Broadcasts S1024x1
  slices_S25600x1_S25000x1_0_0 : S25600x1.Slices ![0, 0] S25000x1
  dot_S1024x2048_S1024x1_S2048x1_0_0_1_1_n_n_wf : DotDims.WF S1024x2048 S1024x1 S2048x1 [0] [0] [1] [1] [] []
  dot_S2048x2_S2x200_S2048x200_1_0_0_1_n_n_wf : DotDims.WF S2048x2 S2x200 S2048x200 [1] [0] [0] [1] [] []
  dot_S2048x200_S200x1_S2048x1_1_0_0_1_n_n_wf : DotDims.WF S2048x200 S200x1 S2048x1 [1] [0] [0] [1] [] []
  dot_S2048x1_S1x20_S2048x20_1_0_0_1_n_n_wf : DotDims.WF S2048x1 S1x20 S2048x20 [1] [0] [0] [1] [] []
  dot_S1024x2048_S2048x20_S1024x20_1_0_0_1_n_n_wf : DotDims.WF S1024x2048 S2048x20 S1024x20 [1] [0] [0] [1] [] []
  dot_S1024x1_S1x20_S1024x20_1_0_0_1_n_n_wf : DotDims.WF S1024x1 S1x20 S1024x20 [1] [0] [0] [1] [] []
  dot_S1024x2048_S1024x20_S2048x20_0_0_1_1_n_n_wf : DotDims.WF S1024x2048 S1024x20 S2048x20 [0] [0] [1] [1] [] []
  dot_S2048x40_S40x200_S2048x200_1_0_0_1_n_n_wf : DotDims.WF S2048x40 S40x200 S2048x200 [1] [0] [0] [1] [] []
  dot_S2048x200_S200x20_S2048x20_1_0_0_1_n_n_wf : DotDims.WF S2048x200 S200x20 S2048x20 [1] [0] [0] [1] [] []
  dot_S2048x20_S20x20_S2048x20_1_0_0_1_n_n_wf : DotDims.WF S2048x20 S20x20 S2048x20 [1] [0] [0] [1] [] []
  dot_S1024x20_S20x20_S1024x20_1_0_0_1_n_n_wf : DotDims.WF S1024x20 S20x20 S1024x20 [1] [0] [0] [1] [] []
  dot_S2048x20_S20x1_S2048x1_1_0_0_1_n_n_wf : DotDims.WF S2048x20 S20x1 S2048x1 [1] [0] [0] [1] [] []
  dot_S1024x2048_S2048x1_S1024x1_1_0_0_1_n_n_wf : DotDims.WF S1024x2048 S2048x1 S1024x1 [1] [0] [0] [1] [] []
  dot_S1024x20_S20x1_S1024x1_1_0_0_1_n_n_wf : DotDims.WF S1024x20 S20x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S401408.size a
  hwx0_0 : ∀ i : grid0.Coords, EltTy.bits .i32 = 32 ∨ (Rect.block (s := S401408) S2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S401408.size a
  hwx0_1 : ∀ i : grid0.Coords, EltTy.bits .i32 = 32 ∨ (Rect.block (s := S401408) S2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S25600x1.size a
  hwx0_2 : ∀ i : grid0.Coords, EltTy.bits .f32 = 32 ∨ (Rect.block (s := S25600x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x200.size a ≤ S2x200.size a
  hwx0_3 : ∀ i : grid0.Coords, EltTy.bits .f32 = 32 ∨ (Rect.block (s := S2x200) S2x200.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S200.size a ≤ S200.size a
  hwx0_4 : ∀ i : grid0.Coords, EltTy.bits .f32 = 32 ∨ (Rect.block (s := S200) S200.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S200x1.size a ≤ S200x1.size a
  hwx0_5 : ∀ i : grid0.Coords, EltTy.bits .f32 = 32 ∨ (Rect.block (s := S200x1) S200x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x20.size a ≤ S1x20.size a
  hwx0_7 : ∀ i : grid0.Coords, EltTy.bits .f32 = 32 ∨ (Rect.block (s := S1x20) S1x20.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S20.size a ≤ S20.size a
  hwx0_8 : ∀ i : grid0.Coords, EltTy.bits .f32 = 32 ∨ (Rect.block (s := S20) S20.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x20.size a ≤ S401408x20.size a
  hwx0_9 : ∀ i : grid0.Coords, EltTy.bits .f32 = 32 ∨ (Rect.block (s := S401408x20) S2048x20.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048.size a ≤ S401408.size a
  hwx1_0 : ∀ i : grid1.Coords, EltTy.bits .i32 = 32 ∨ (Rect.block (s := S401408) S2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x20.size a ≤ S401408x20.size a
  hwx1_1 : ∀ i : grid1.Coords, EltTy.bits .f32 = 32 ∨ (Rect.block (s := S401408x20) S2048x20.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S25600x1.size a
  hwx1_2 : ∀ i : grid1.Coords, EltTy.bits .f32 = 32 ∨ (Rect.block (s := S25600x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x20.size a ≤ S1x20.size a
  hwx1_3 : ∀ i : grid1.Coords, EltTy.bits .f32 = 32 ∨ (Rect.block (s := S1x20) S1x20.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S20.size a ≤ S20.size a
  hwx1_4 : ∀ i : grid1.Coords, EltTy.bits .f32 = 32 ∨ (Rect.block (s := S20) S20.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x20.size a ≤ S25600x20.size a
  hwx1_5 : ∀ i : grid1.Coords, EltTy.bits .f32 = 32 ∨ (Rect.block (s := S25600x20) S1024x20.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048.size a ≤ S401408.size a
  hwx2_0 : ∀ i : grid2.Coords, EltTy.bits .i32 = 32 ∨ (Rect.block (s := S401408) S2048.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048.size a ≤ S401408.size a
  hwx2_1 : ∀ i : grid2.Coords, EltTy.bits .i32 = 32 ∨ (Rect.block (s := S401408) S2048.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x20.size a ≤ S25600x20.size a
  hwx2_2 : ∀ i : grid2.Coords, EltTy.bits .f32 = 32 ∨ (Rect.block (s := S25600x20) S1024x20.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S40x200.size a ≤ S40x200.size a
  hwx2_3 : ∀ i : grid2.Coords, EltTy.bits .f32 = 32 ∨ (Rect.block (s := S40x200) S40x200.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S200.size a ≤ S200.size a
  hwx2_4 : ∀ i : grid2.Coords, EltTy.bits .f32 = 32 ∨ (Rect.block (s := S200) S200.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S200x20.size a ≤ S200x20.size a
  hwx2_5 : ∀ i : grid2.Coords, EltTy.bits .f32 = 32 ∨ (Rect.block (s := S200x20) S200x20.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S20.size a ≤ S20.size a
  hwx2_6 : ∀ i : grid2.Coords, EltTy.bits .f32 = 32 ∨ (Rect.block (s := S20) S20.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S20x20.size a ≤ S20x20.size a
  hwx2_7 : ∀ i : grid2.Coords, EltTy.bits .f32 = 32 ∨ (Rect.block (s := S20x20) S20x20.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S20.size a ≤ S20.size a
  hwx2_8 : ∀ i : grid2.Coords, EltTy.bits .f32 = 32 ∨ (Rect.block (s := S20) S20.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2048x20.size a ≤ S401408x20.size a
  hwx2_9 : ∀ i : grid2.Coords, EltTy.bits .f32 = 32 ∨ (Rect.block (s := S401408x20) S2048x20.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048.size a ≤ S401408.size a
  hwx3_0 : ∀ i : grid3.Coords, EltTy.bits .i32 = 32 ∨ (Rect.block (s := S401408) S2048.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x20.size a ≤ S401408x20.size a
  hwx3_1 : ∀ i : grid3.Coords, EltTy.bits .f32 = 32 ∨ (Rect.block (s := S401408x20) S2048x20.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x20.size a ≤ S25600x20.size a
  hwx3_2 : ∀ i : grid3.Coords, EltTy.bits .f32 = 32 ∨ (Rect.block (s := S25600x20) S1024x20.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S20x20.size a ≤ S20x20.size a
  hwx3_3 : ∀ i : grid3.Coords, EltTy.bits .f32 = 32 ∨ (Rect.block (s := S20x20) S20x20.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S20.size a ≤ S20.size a
  hwx3_4 : ∀ i : grid3.Coords, EltTy.bits .f32 = 32 ∨ (Rect.block (s := S20) S20.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x20.size a ≤ S25600x20.size a
  hwx3_5 : ∀ i : grid3.Coords, EltTy.bits .f32 = 32 ∨ (Rect.block (s := S25600x20) S1024x20.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048.size a ≤ S401408.size a
  hwx4_0 : ∀ i : grid4.Coords, EltTy.bits .i32 = 32 ∨ (Rect.block (s := S401408) S2048.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048.size a ≤ S401408.size a
  hwx4_1 : ∀ i : grid4.Coords, EltTy.bits .i32 = 32 ∨ (Rect.block (s := S401408) S2048.size (cc4_transform_1 i) (hinb4_1 i)).WholeWords (EltTy.packing .i32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x20.size a ≤ S25600x20.size a
  hwx4_2 : ∀ i : grid4.Coords, EltTy.bits .f32 = 32 ∨ (Rect.block (s := S25600x20) S1024x20.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S40x200.size a ≤ S40x200.size a
  hwx4_3 : ∀ i : grid4.Coords, EltTy.bits .f32 = 32 ∨ (Rect.block (s := S40x200) S40x200.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S200.size a ≤ S200.size a
  hwx4_4 : ∀ i : grid4.Coords, EltTy.bits .f32 = 32 ∨ (Rect.block (s := S200) S200.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S200x20.size a ≤ S200x20.size a
  hwx4_5 : ∀ i : grid4.Coords, EltTy.bits .f32 = 32 ∨ (Rect.block (s := S200x20) S200x20.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S20.size a ≤ S20.size a
  hwx4_6 : ∀ i : grid4.Coords, EltTy.bits .f32 = 32 ∨ (Rect.block (s := S20) S20.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S20x20.size a ≤ S20x20.size a
  hwx4_7 : ∀ i : grid4.Coords, EltTy.bits .f32 = 32 ∨ (Rect.block (s := S20x20) S20x20.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S20.size a ≤ S20.size a
  hwx4_8 : ∀ i : grid4.Coords, EltTy.bits .f32 = 32 ∨ (Rect.block (s := S20) S20.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S2048x20.size a ≤ S401408x20.size a
  hwx4_9 : ∀ i : grid4.Coords, EltTy.bits .f32 = 32 ∨ (Rect.block (s := S401408x20) S2048x20.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048.size a ≤ S401408.size a
  hwx5_0 : ∀ i : grid5.Coords, EltTy.bits .i32 = 32 ∨ (Rect.block (s := S401408) S2048.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x20.size a ≤ S401408x20.size a
  hwx5_1 : ∀ i : grid5.Coords, EltTy.bits .f32 = 32 ∨ (Rect.block (s := S401408x20) S2048x20.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x20.size a ≤ S25600x20.size a
  hwx5_2 : ∀ i : grid5.Coords, EltTy.bits .f32 = 32 ∨ (Rect.block (s := S25600x20) S1024x20.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S20x20.size a ≤ S20x20.size a
  hwx5_3 : ∀ i : grid5.Coords, EltTy.bits .f32 = 32 ∨ (Rect.block (s := S20x20) S20x20.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S20.size a ≤ S20.size a
  hwx5_4 : ∀ i : grid5.Coords, EltTy.bits .f32 = 32 ∨ (Rect.block (s := S20) S20.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1024x20.size a ≤ S25600x20.size a
  hwx5_5 : ∀ i : grid5.Coords, EltTy.bits .f32 = 32 ∨ (Rect.block (s := S25600x20) S1024x20.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048.size a ≤ S401408.size a
  hwx6_0 : ∀ i : grid6.Coords, EltTy.bits .i32 = 32 ∨ (Rect.block (s := S401408) S2048.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048.size a ≤ S401408.size a
  hwx6_1 : ∀ i : grid6.Coords, EltTy.bits .i32 = 32 ∨ (Rect.block (s := S401408) S2048.size (cc6_transform_1 i) (hinb6_1 i)).WholeWords (EltTy.packing .i32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x20.size a ≤ S25600x20.size a
  hwx6_2 : ∀ i : grid6.Coords, EltTy.bits .f32 = 32 ∨ (Rect.block (s := S25600x20) S1024x20.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S40x200.size a ≤ S40x200.size a
  hwx6_3 : ∀ i : grid6.Coords, EltTy.bits .f32 = 32 ∨ (Rect.block (s := S40x200) S40x200.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S200.size a ≤ S200.size a
  hwx6_4 : ∀ i : grid6.Coords, EltTy.bits .f32 = 32 ∨ (Rect.block (s := S200) S200.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S200x20.size a ≤ S200x20.size a
  hwx6_5 : ∀ i : grid6.Coords, EltTy.bits .f32 = 32 ∨ (Rect.block (s := S200x20) S200x20.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S20.size a ≤ S20.size a
  hwx6_6 : ∀ i : grid6.Coords, EltTy.bits .f32 = 32 ∨ (Rect.block (s := S20) S20.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S20x20.size a ≤ S20x20.size a
  hwx6_7 : ∀ i : grid6.Coords, EltTy.bits .f32 = 32 ∨ (Rect.block (s := S20x20) S20x20.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S20.size a ≤ S20.size a
  hwx6_8 : ∀ i : grid6.Coords, EltTy.bits .f32 = 32 ∨ (Rect.block (s := S20) S20.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S2048x20.size a ≤ S401408x20.size a
  hwx6_9 : ∀ i : grid6.Coords, EltTy.bits .f32 = 32 ∨ (Rect.block (s := S401408x20) S2048x20.size (cc6_transform_9 i) (hinb6_9 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048.size a ≤ S401408.size a
  hwx7_0 : ∀ i : grid7.Coords, EltTy.bits .i32 = 32 ∨ (Rect.block (s := S401408) S2048.size (cc7_transform_0 i) (hinb7_0 i)).WholeWords (EltTy.packing .i32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048x20.size a ≤ S401408x20.size a
  hwx7_1 : ∀ i : grid7.Coords, EltTy.bits .f32 = 32 ∨ (Rect.block (s := S401408x20) S2048x20.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x20.size a ≤ S25600x20.size a
  hwx7_2 : ∀ i : grid7.Coords, EltTy.bits .f32 = 32 ∨ (Rect.block (s := S25600x20) S1024x20.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S20x20.size a ≤ S20x20.size a
  hwx7_3 : ∀ i : grid7.Coords, EltTy.bits .f32 = 32 ∨ (Rect.block (s := S20x20) S20x20.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S20.size a ≤ S20.size a
  hwx7_4 : ∀ i : grid7.Coords, EltTy.bits .f32 = 32 ∨ (Rect.block (s := S20) S20.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1024x20.size a ≤ S25600x20.size a
  hwx7_5 : ∀ i : grid7.Coords, EltTy.bits .f32 = 32 ∨ (Rect.block (s := S25600x20) S1024x20.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048.size a ≤ S401408.size a
  hwx8_0 : ∀ i : grid8.Coords, EltTy.bits .i32 = 32 ∨ (Rect.block (s := S401408) S2048.size (cc8_transform_0 i) (hinb8_0 i)).WholeWords (EltTy.packing .i32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2048.size a ≤ S401408.size a
  hwx8_1 : ∀ i : grid8.Coords, EltTy.bits .i32 = 32 ∨ (Rect.block (s := S401408) S2048.size (cc8_transform_1 i) (hinb8_1 i)).WholeWords (EltTy.packing .i32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1024x20.size a ≤ S25600x20.size a
  hwx8_2 : ∀ i : grid8.Coords, EltTy.bits .f32 = 32 ∨ (Rect.block (s := S25600x20) S1024x20.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S40x200.size a ≤ S40x200.size a
  hwx8_3 : ∀ i : grid8.Coords, EltTy.bits .f32 = 32 ∨ (Rect.block (s := S40x200) S40x200.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S200.size a ≤ S200.size a
  hwx8_4 : ∀ i : grid8.Coords, EltTy.bits .f32 = 32 ∨ (Rect.block (s := S200) S200.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S200x20.size a ≤ S200x20.size a
  hwx8_5 : ∀ i : grid8.Coords, EltTy.bits .f32 = 32 ∨ (Rect.block (s := S200x20) S200x20.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S20.size a ≤ S20.size a
  hwx8_6 : ∀ i : grid8.Coords, EltTy.bits .f32 = 32 ∨ (Rect.block (s := S20) S20.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S20x1.size a ≤ S20x1.size a
  hwx8_7 : ∀ i : grid8.Coords, EltTy.bits .f32 = 32 ∨ (Rect.block (s := S20x1) S20x1.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1.size a ≤ S1.size a
  hwx8_8 : ∀ i : grid8.Coords, EltTy.bits .f32 = 32 ∨ (Rect.block (s := S1) S1.size (cc8_transform_8 i) (hinb8_8 i)).WholeWords (EltTy.packing .f32)
  hstage8_9 : ∀ j, (stage8_9 j).IsWhole
  nbuf8_9 : grid8.bufCount reads8_9 false = 2
  hreads8_9 : ∀ i i' : grid8.Coords, (∀ a, reads8_9 a = true → i a = i' a) → cc8_transform_9 i = cc8_transform_9 i'
  hinb8_9 : ∀ (i : grid8.Coords) a, (cc8_transform_9 i a + 1) * S2048x1.size a ≤ S401408x1.size a
  hwx8_9 : ∀ i : grid8.Coords, EltTy.bits .f32 = 32 ∨ (Rect.block (s := S401408x1) S2048x1.size (cc8_transform_9 i) (hinb8_9 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2048.size a ≤ S401408.size a
  hwx9_0 : ∀ i : grid9.Coords, EltTy.bits .i32 = 32 ∨ (Rect.block (s := S401408) S2048.size (cc9_transform_0 i) (hinb9_0 i)).WholeWords (EltTy.packing .i32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2048x1.size a ≤ S401408x1.size a
  hwx9_1 : ∀ i : grid9.Coords, EltTy.bits .f32 = 32 ∨ (Rect.block (s := S401408x1) S2048x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1024x20.size a ≤ S25600x20.size a
  hwx9_2 : ∀ i : grid9.Coords, EltTy.bits .f32 = 32 ∨ (Rect.block (s := S25600x20) S1024x20.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S20x1.size a ≤ S20x1.size a
  hwx9_3 : ∀ i : grid9.Coords, EltTy.bits .f32 = 32 ∨ (Rect.block (s := S20x1) S20x1.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1.size a ≤ S1.size a
  hwx9_4 : ∀ i : grid9.Coords, EltTy.bits .f32 = 32 ∨ (Rect.block (s := S1) S1.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S1024x1.size a ≤ S25600x1.size a
  hwx9_5 : ∀ i : grid9.Coords, EltTy.bits .f32 = 32 ∨ (Rect.block (s := S25600x1) S1024x1.size (cc9_transform_5 i) (hinb9_5 i)).WholeWords (EltTy.packing .f32)

variable [Facts₀]

def dot_S1024x2048_S1024x1_S2048x1_0_0_1_1_n_n : DotDims S1024x2048 S1024x1 S2048x1 where
  lhsContracting := [0]
  rhsContracting := [0]
  lhsNonContracting := [1]
  rhsNonContracting := [1]
  lhsBatch := []
  rhsBatch := []
  wf := dot_S1024x2048_S1024x1_S2048x1_0_0_1_1_n_n_wf
def dot_S2048x2_S2x200_S2048x200_1_0_0_1_n_n : DotDims S2048x2 S2x200 S2048x200 where
  lhsContracting := [1]
  rhsContracting := [0]
  lhsNonContracting := [0]
  rhsNonContracting := [1]
  lhsBatch := []
  rhsBatch := []
  wf := dot_S2048x2_S2x200_S2048x200_1_0_0_1_n_n_wf
def dot_S2048x200_S200x1_S2048x1_1_0_0_1_n_n : DotDims S2048x200 S200x1 S2048x1 where
  lhsContracting := [1]
  rhsContracting := [0]
  lhsNonContracting := [0]
  rhsNonContracting := [1]
  lhsBatch := []
  rhsBatch := []
  wf := dot_S2048x200_S200x1_S2048x1_1_0_0_1_n_n_wf
def dot_S2048x1_S1x20_S2048x20_1_0_0_1_n_n : DotDims S2048x1 S1x20 S2048x20 where
  lhsContracting := [1]
  rhsContracting := [0]
  lhsNonContracting := [0]
  rhsNonContracting := [1]
  lhsBatch := []
  rhsBatch := []
  wf := dot_S2048x1_S1x20_S2048x20_1_0_0_1_n_n_wf
def dot_S1024x2048_S2048x20_S1024x20_1_0_0_1_n_n : DotDims S1024x2048 S2048x20 S1024x20 where
  lhsContracting := [1]
  rhsContracting := [0]
  lhsNonContracting := [0]
  rhsNonContracting := [1]
  lhsBatch := []
  rhsBatch := []
  wf := dot_S1024x2048_S2048x20_S1024x20_1_0_0_1_n_n_wf
def dot_S1024x1_S1x20_S1024x20_1_0_0_1_n_n : DotDims S1024x1 S1x20 S1024x20 where
  lhsContracting := [1]
  rhsContracting := [0]
  lhsNonContracting := [0]
  rhsNonContracting := [1]
  lhsBatch := []
  rhsBatch := []
  wf := dot_S1024x1_S1x20_S1024x20_1_0_0_1_n_n_wf
def dot_S1024x2048_S1024x20_S2048x20_0_0_1_1_n_n : DotDims S1024x2048 S1024x20 S2048x20 where
  lhsContracting := [0]
  rhsContracting := [0]
  lhsNonContracting := [1]
  rhsNonContracting := [1]
  lhsBatch := []
  rhsBatch := []
  wf := dot_S1024x2048_S1024x20_S2048x20_0_0_1_1_n_n_wf
def dot_S2048x40_S40x200_S2048x200_1_0_0_1_n_n : DotDims S2048x40 S40x200 S2048x200 where
  lhsContracting := [1]
  rhsContracting := [0]
  lhsNonContracting := [0]
  rhsNonContracting := [1]
  lhsBatch := []
  rhsBatch := []
  wf := dot_S2048x40_S40x200_S2048x200_1_0_0_1_n_n_wf
def dot_S2048x200_S200x20_S2048x20_1_0_0_1_n_n : DotDims S2048x200 S200x20 S2048x20 where
  lhsContracting := [1]
  rhsContracting := [0]
  lhsNonContracting := [0]
  rhsNonContracting := [1]
  lhsBatch := []
  rhsBatch := []
  wf := dot_S2048x200_S200x20_S2048x20_1_0_0_1_n_n_wf
def dot_S2048x20_S20x20_S2048x20_1_0_0_1_n_n : DotDims S2048x20 S20x20 S2048x20 where
  lhsContracting := [1]
  rhsContracting := [0]
  lhsNonContracting := [0]
  rhsNonContracting := [1]
  lhsBatch := []
  rhsBatch := []
  wf := dot_S2048x20_S20x20_S2048x20_1_0_0_1_n_n_wf
def dot_S1024x20_S20x20_S1024x20_1_0_0_1_n_n : DotDims S1024x20 S20x20 S1024x20 where
  lhsContracting := [1]
  rhsContracting := [0]
  lhsNonContracting := [0]
  rhsNonContracting := [1]
  lhsBatch := []
  rhsBatch := []
  wf := dot_S1024x20_S20x20_S1024x20_1_0_0_1_n_n_wf
def dot_S2048x20_S20x1_S2048x1_1_0_0_1_n_n : DotDims S2048x20 S20x1 S2048x1 where
  lhsContracting := [1]
  rhsContracting := [0]
  lhsNonContracting := [0]
  rhsNonContracting := [1]
  lhsBatch := []
  rhsBatch := []
  wf := dot_S2048x20_S20x1_S2048x1_1_0_0_1_n_n_wf
def dot_S1024x2048_S2048x1_S1024x1_1_0_0_1_n_n : DotDims S1024x2048 S2048x1 S1024x1 where
  lhsContracting := [1]
  rhsContracting := [0]
  lhsNonContracting := [0]
  rhsNonContracting := [1]
  lhsBatch := []
  rhsBatch := []
  wf := dot_S1024x2048_S2048x1_S1024x1_1_0_0_1_n_n_wf
def dot_S1024x20_S20x1_S1024x1_1_0_0_1_n_n : DotDims S1024x20 S20x1 S1024x1 where
  lhsContracting := [1]
  rhsContracting := [0]
  lhsNonContracting := [0]
  rhsNonContracting := [1]
  lhsBatch := []
  rhsBatch := []
  wf := dot_S1024x20_S20x1_S1024x1_1_0_0_1_n_n_wf

abbrev win0_0 : Pipeline.Window sig grid0 :=
  Pipeline.Window.ofSpec (Memref.whole main_v4) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S2x200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S200x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S1x20.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S20.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S2048x20.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

abbrev win1_0 : Pipeline.Window sig grid1 :=
  Pipeline.Window.ofSpec (Memref.whole main_v5) S2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2048x20.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x20.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S20.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1024x20.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v4) S2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1024x20.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S40x200.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S200.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S200x20.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg16) S20.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg17) S20x20.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg18) S20.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v9) S2048x20.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev idle2 : Fin 10 → grid2.Coords → Bool := fun | 0 => fun _ => false | 1 => fun _ => false | 2 => fun _ => false | 3 => fun _ => false | 4 => fun _ => false | 5 => fun _ => false | 6 => fun _ => false | 7 => fun _ => false | 8 => fun _ => false | 9 => fun i => !(k2_cond2 i == 1#1) | ⟨_ + 10, h⟩ => absurd h (Nat.not_lt.2 (Nat.le_add_left _ _))

abbrev win3_0 : Pipeline.Window sig grid3 :=
  Pipeline.Window.ofSpec (Memref.whole main_v5) S2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S2048x20.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S1024x20.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S20x20.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S20.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v10) S1024x20.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

abbrev win4_0 : Pipeline.Window sig grid4 :=
  Pipeline.Window.ofSpec (Memref.whole main_v4) S2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v10) S1024x20.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S40x200.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg14) S200.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg15) S200x20.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg16) S20.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg17) S20x20.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg18) S20.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v11) S2048x20.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev idle4 : Fin 10 → grid4.Coords → Bool := fun | 0 => fun _ => false | 1 => fun _ => false | 2 => fun _ => false | 3 => fun _ => false | 4 => fun _ => false | 5 => fun _ => false | 6 => fun _ => false | 7 => fun _ => false | 8 => fun _ => false | 9 => fun i => !(k4_cond2 i == 1#1) | ⟨_ + 10, h⟩ => absurd h (Nat.not_lt.2 (Nat.le_add_left _ _))

abbrev win5_0 : Pipeline.Window sig grid5 :=
  Pipeline.Window.ofSpec (Memref.whole main_v5) S2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v11) S2048x20.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v10) S1024x20.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg11) S20x20.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg12) S20.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v12) S1024x20.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev idle5 : Fin 6 → grid5.Coords → Bool := fun | 0 => fun _ => false | 1 => fun _ => false | 2 => fun _ => false | 3 => fun _ => false | 4 => fun _ => false | 5 => fun i => !(k5_cond2 i == 1#1) | ⟨_ + 6, h⟩ => absurd h (Nat.not_lt.2 (Nat.le_add_left _ _))

abbrev win6_0 : Pipeline.Window sig grid6 :=
  Pipeline.Window.ofSpec (Memref.whole main_v4) S2048.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v5) S2048.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v12) S1024x20.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_arg13) S40x200.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg14) S200.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg15) S200x20.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_arg16) S20.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg17) S20x20.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_arg18) S20.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v13) S2048x20.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

abbrev idle6 : Fin 10 → grid6.Coords → Bool := fun | 0 => fun _ => false | 1 => fun _ => false | 2 => fun _ => false | 3 => fun _ => false | 4 => fun _ => false | 5 => fun _ => false | 6 => fun _ => false | 7 => fun _ => false | 8 => fun _ => false | 9 => fun i => !(k6_cond2 i == 1#1) | ⟨_ + 10, h⟩ => absurd h (Nat.not_lt.2 (Nat.le_add_left _ _))

abbrev win7_0 : Pipeline.Window sig grid7 :=
  Pipeline.Window.ofSpec (Memref.whole main_v5) S2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v13) S2048x20.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v12) S1024x20.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_arg11) S20x20.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg12) S20.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v14) S1024x20.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev idle7 : Fin 6 → grid7.Coords → Bool := fun | 0 => fun _ => false | 1 => fun _ => false | 2 => fun _ => false | 3 => fun _ => false | 4 => fun _ => false | 5 => fun i => !(k7_cond2 i == 1#1) | ⟨_ + 6, h⟩ => absurd h (Nat.not_lt.2 (Nat.le_add_left _ _))

abbrev win8_0 : Pipeline.Window sig grid8 :=
  Pipeline.Window.ofSpec (Memref.whole main_v4) S2048.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v5) S2048.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v14) S1024x20.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_arg21) S40x200.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg22) S200.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg23) S200x20.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_arg24) S20.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_arg25) S20x1.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_arg26) S1.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v15) S2048x1.size cc8_transform_9 reads8_9 true false 2 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

abbrev idle8 : Fin 10 → grid8.Coords → Bool := fun | 0 => fun _ => false | 1 => fun _ => false | 2 => fun _ => false | 3 => fun _ => false | 4 => fun _ => false | 5 => fun _ => false | 6 => fun _ => false | 7 => fun _ => false | 8 => fun _ => false | 9 => fun i => !(k8_cond2 i == 1#1) | ⟨_ + 10, h⟩ => absurd h (Nat.not_lt.2 (Nat.le_add_left _ _))

abbrev win9_0 : Pipeline.Window sig grid9 :=
  Pipeline.Window.ofSpec (Memref.whole main_v5) S2048.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v15) S2048x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v14) S1024x20.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_arg19) S20x1.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_arg20) S1.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v16) S1024x1.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev idle9 : Fin 6 → grid9.Coords → Bool := fun | 0 => fun _ => false | 1 => fun _ => false | 2 => fun _ => false | 3 => fun _ => false | 4 => fun _ => false | 5 => fun i => !(k9_cond2 i == 1#1) | ⟨_ + 6, h⟩ => absurd h (Nat.not_lt.2 (Nat.le_add_left _ _))

class Facts : Prop extends Facts₀ where

variable [Facts]
-- ==== ReferenceIdeal.lean ====
abbrev S25000x1 : Shape := ⟨2, ![25000, 1]⟩
abbrev S2x400000 : Shape := ⟨2, ![2, 400000]⟩
abbrev S400000 : Shape := ⟨1, ![400000]⟩
abbrev S1x20 : Shape := ⟨2, ![1, 20]⟩
abbrev S20 : Shape := ⟨1, ![20]⟩
abbrev S2x200 : Shape := ⟨2, ![2, 200]⟩
abbrev S200 : Shape := ⟨1, ![200]⟩
abbrev S200x1 : Shape := ⟨2, ![200, 1]⟩
abbrev S1 : Shape := ⟨1, ![1]⟩
abbrev S20x20 : Shape := ⟨2, ![20, 20]⟩
abbrev S40x200 : Shape := ⟨2, ![40, 200]⟩
abbrev S200x20 : Shape := ⟨2, ![200, 20]⟩
abbrev S20x1 : Shape := ⟨2, ![20, 1]⟩
abbrev S1x400000 : Shape := ⟨2, ![1, 400000]⟩
abbrev S_ : Shape := ⟨0, ![]⟩
abbrev S400000x1 : Shape := ⟨2, ![400000, 1]⟩
abbrev S400000x2 : Shape := ⟨2, ![400000, 2]⟩
abbrev S400000x200 : Shape := ⟨2, ![400000, 200]⟩
abbrev S1x200 : Shape := ⟨2, ![1, 200]⟩
abbrev S1x1 : Shape := ⟨2, ![1, 1]⟩
abbrev S400000x20 : Shape := ⟨2, ![400000, 20]⟩
abbrev S25000x20 : Shape := ⟨2, ![25000, 20]⟩
abbrev S400000x40 : Shape := ⟨2, ![400000, 40]⟩

abbrev nBuf : Space → Nat
  | .hbm => 268
  | .vmem => 0
  | .smem => 0
  | _ => 0

abbrev hbmTy0_0 (i : Nat) : BufTy := match i % 128 with
  | 0 => ⟨S25000x1, .f32⟩
  | 1 => ⟨S2x400000, .i32⟩
  | 2 => ⟨S400000, .f32⟩
  | 3 => ⟨S1x20, .f32⟩
  | 4 => ⟨S20, .f32⟩
  | 5 => ⟨S2x200, .f32⟩
  | 6 => ⟨S200, .f32⟩
  | 7 => ⟨S200x1, .f32⟩
  | 8 => ⟨S1, .f32⟩
  | 9 => ⟨S1x20, .f32⟩
  | 10 => ⟨S20, .f32⟩
  | 11 => ⟨S20x20, .f32⟩
  | 12 => ⟨S20, .f32⟩
  | 13 => ⟨S40x200, .f32⟩
  | 14 => ⟨S200, .f32⟩
  | 15 => ⟨S200x20, .f32⟩
  | 16 => ⟨S20, .f32⟩
  | 17 => ⟨S20x20, .f32⟩
  | 18 => ⟨S20, .f32⟩
  | 19 => ⟨S20x1, .f32⟩
  | 20 => ⟨S1, .f32⟩
  | 21 => ⟨S40x200, .f32⟩
  | 22 => ⟨S200, .f32⟩
  | 23 => ⟨S200x20, .f32⟩
  | 24 => ⟨S20, .f32⟩
  | 25 => ⟨S20x1, .f32⟩
  | 26 => ⟨S1, .f32⟩
  | 27 => ⟨S1x400000, .i32⟩
  | 28 => ⟨S400000, .i32⟩
  | 29 => ⟨S1x400000, .i32⟩
  | 30 => ⟨S400000, .i32⟩
  | 31 => ⟨S_, .i32⟩
  | 32 => ⟨S400000, .i32⟩
  | 33 => ⟨S400000, .i1⟩
  | 34 => ⟨S_, .i32⟩
  | 35 => ⟨S400000, .i32⟩
  | 36 => ⟨S400000, .i32⟩
  | 37 => ⟨S400000, .i32⟩
  | 38 => ⟨S400000x1, .i32⟩
  | 39 => ⟨S400000x1, .f32⟩
  | 40 => ⟨S_, .i32⟩
  | 41 => ⟨S400000, .i32⟩
  | 42 => ⟨S400000, .i1⟩
  | 43 => ⟨S_, .i32⟩
  | 44 => ⟨S400000, .i32⟩
  | 45 => ⟨S400000, .i32⟩
  | 46 => ⟨S400000, .i32⟩
  | 47 => ⟨S400000x1, .i32⟩
  | 48 => ⟨S400000x1, .f32⟩
  | 49 => ⟨S400000x2, .f32⟩
  | 50 => ⟨S400000x200, .f32⟩
  | 51 => ⟨S1x200, .f32⟩
  | 52 => ⟨S400000x200, .f32⟩
  | 53 => ⟨S400000x200, .f32⟩
  | 54 => ⟨S_, .f32⟩
  | 55 => ⟨S400000x200, .f32⟩
  | 56 => ⟨S400000x200, .f32⟩
  | 57 => ⟨S400000x1, .f32⟩
  | 58 => ⟨S1x1, .f32⟩
  | 59 => ⟨S400000x1, .f32⟩
  | 60 => ⟨S400000x1, .f32⟩
  | 61 => ⟨S400000x1, .f32⟩
  | 62 => ⟨S400000x1, .f32⟩
  | 63 => ⟨S400000x20, .f32⟩
  | 64 => ⟨S1x20, .f32⟩
  | 65 => ⟨S400000x20, .f32⟩
  | 66 => ⟨S400000x20, .f32⟩
  | 67 => ⟨S_, .f32⟩
  | 68 => ⟨S25000x20, .f32⟩
  | 69 => ⟨S400000x1, .i32⟩
  | 70 => ⟨S25000x20, .f32⟩
  | 71 => ⟨S25000x20, .f32⟩
  | 72 => ⟨S1x20, .f32⟩
  | 73 => ⟨S25000x20, .f32⟩
  | 74 => ⟨S25000x20, .f32⟩
  | 75 => ⟨S25000x20, .f32⟩
  | 76 => ⟨S_, .f32⟩
  | 77 => ⟨S25000x20, .f32⟩
  | 78 => ⟨S25000x20, .f32⟩
  | 79 => ⟨S_, .i32⟩
  | 80 => ⟨S400000, .i32⟩
  | 81 => ⟨S400000, .i1⟩
  | 82 => ⟨S_, .i32⟩
  | 83 => ⟨S400000, .i32⟩
  | 84 => ⟨S400000, .i32⟩
  | 85 => ⟨S400000, .i32⟩
  | 86 => ⟨S400000x1, .i32⟩
  | 87 => ⟨S400000x20, .f32⟩
  | 88 => ⟨S_, .i32⟩
  | 89 => ⟨S400000, .i32⟩
  | 90 => ⟨S400000, .i1⟩
  | 91 => ⟨S_, .i32⟩
  | 92 => ⟨S400000, .i32⟩
  | 93 => ⟨S400000, .i32⟩
  | 94 => ⟨S400000, .i32⟩
  | 95 => ⟨S400000x1, .i32⟩
  | 96 => ⟨S400000x20, .f32⟩
  | 97 => ⟨S400000x40, .f32⟩
  | 98 => ⟨S400000x200, .f32⟩
  | 99 => ⟨S1x200, .f32⟩
  | 100 => ⟨S400000x200, .f32⟩
  | 101 => ⟨S400000x200, .f32⟩
  | 102 => ⟨S_, .f32⟩
  | 103 => ⟨S400000x200, .f32⟩
  | 104 => ⟨S400000x200, .f32⟩
  | 105 => ⟨S400000x20, .f32⟩
  | 106 => ⟨S1x20, .f32⟩
  | 107 => ⟨S400000x20, .f32⟩
  | 108 => ⟨S400000x20, .f32⟩
  | 109 => ⟨S400000x20, .f32⟩
  | 110 => ⟨S400000x20, .f32⟩
  | 111 => ⟨S400000x20, .f32⟩
  | 112 => ⟨S1x20, .f32⟩
  | 113 => ⟨S400000x20, .f32⟩
  | 114 => ⟨S400000x20, .f32⟩
  | 115 => ⟨S_, .f32⟩
  | 116 => ⟨S25000x20, .f32⟩
  | 117 => ⟨S400000x1, .i32⟩
  | 118 => ⟨S25000x20, .f32⟩
  | 119 => ⟨S25000x20, .f32⟩
  | 120 => ⟨S1x20, .f32⟩
  | 121 => ⟨S25000x20, .f32⟩
  | 122 => ⟨S25000x20, .f32⟩
  | 123 => ⟨S25000x20, .f32⟩
  | 124 => ⟨S_, .f32⟩
  | 125 => ⟨S25000x20, .f32⟩
  | 126 => ⟨S25000x20, .f32⟩
  | 127 => ⟨S_, .i32⟩
  | _ => ⟨S25000x1, .f32⟩

abbrev hbmTy0_1 (i : Nat) : BufTy := match i % 128 with
  | 0 => ⟨S400000, .i32⟩
  | 1 => ⟨S400000, .i1⟩
  | 2 => ⟨S_, .i32⟩
  | 3 => ⟨S400000, .i32⟩
  | 4 => ⟨S400000, .i32⟩
  | 5 => ⟨S400000, .i32⟩
  | 6 => ⟨S400000x1, .i32⟩
  | 7 => ⟨S400000x20, .f32⟩
  | 8 => ⟨S_, .i32⟩
  | 9 => ⟨S400000, .i32⟩
  | 10 => ⟨S400000, .i1⟩
  | 11 => ⟨S_, .i32⟩
  | 12 => ⟨S400000, .i32⟩
  | 13 => ⟨S400000, .i32⟩
  | 14 => ⟨S400000, .i32⟩
  | 15 => ⟨S400000x1, .i32⟩
  | 16 => ⟨S400000x20, .f32⟩
  | 17 => ⟨S400000x40, .f32⟩
  | 18 => ⟨S400000x200, .f32⟩
  | 19 => ⟨S1x200, .f32⟩
  | 20 => ⟨S400000x200, .f32⟩
  | 21 => ⟨S400000x200, .f32⟩
  | 22 => ⟨S_, .f32⟩
  | 23 => ⟨S400000x200, .f32⟩
  | 24 => ⟨S400000x200, .f32⟩
  | 25 => ⟨S400000x20, .f32⟩
  | 26 => ⟨S1x20, .f32⟩
  | 27 => ⟨S400000x20, .f32⟩
  | 28 => ⟨S400000x20, .f32⟩
  | 29 => ⟨S400000x20, .f32⟩
  | 30 => ⟨S400000x20, .f32⟩
  | 31 => ⟨S400000x20, .f32⟩
  | 32 => ⟨S1x20, .f32⟩
  | 33 => ⟨S400000x20, .f32⟩
  | 34 => ⟨S400000x20, .f32⟩
  | 35 => ⟨S_, .f32⟩
  | 36 => ⟨S25000x20, .f32⟩
  | 37 => ⟨S400000x1, .i32⟩
  | 38 => ⟨S25000x20, .f32⟩
  | 39 => ⟨S25000x20, .f32⟩
  | 40 => ⟨S1x20, .f32⟩
  | 41 => ⟨S25000x20, .f32⟩
  | 42 => ⟨S25000x20, .f32⟩
  | 43 => ⟨S25000x20, .f32⟩
  | 44 => ⟨S_, .f32⟩
  | 45 => ⟨S25000x20, .f32⟩
  | 46 => ⟨S25000x20, .f32⟩
  | 47 => ⟨S_, .i32⟩
  | 48 => ⟨S400000, .i32⟩
  | 49 => ⟨S400000, .i1⟩
  | 50 => ⟨S_, .i32⟩
  | 51 => ⟨S400000, .i32⟩
  | 52 => ⟨S400000, .i32⟩
  | 53 => ⟨S400000, .i32⟩
  | 54 => ⟨S400000x1, .i32⟩
  | 55 => ⟨S400000x20, .f32⟩
  | 56 => ⟨S_, .i32⟩
  | 57 => ⟨S400000, .i32⟩
  | 58 => ⟨S400000, .i1⟩
  | 59 => ⟨S_, .i32⟩
  | 60 => ⟨S400000, .i32⟩
  | 61 => ⟨S400000, .i32⟩
  | 62 => ⟨S400000, .i32⟩
  | 63 => ⟨S400000x1, .i32⟩
  | 64 => ⟨S400000x20, .f32⟩
  | 65 => ⟨S400000x40, .f32⟩
  | 66 => ⟨S400000x200, .f32⟩
  | 67 => ⟨S1x200, .f32⟩
  | 68 => ⟨S400000x200, .f32⟩
  | 69 => ⟨S400000x200, .f32⟩
  | 70 => ⟨S_, .f32⟩
  | 71 => ⟨S400000x200, .f32⟩
  | 72 => ⟨S400000x200, .f32⟩
  | 73 => ⟨S400000x20, .f32⟩
  | 74 => ⟨S1x20, .f32⟩
  | 75 => ⟨S400000x20, .f32⟩
  | 76 => ⟨S400000x20, .f32⟩
  | 77 => ⟨S400000x20, .f32⟩
  | 78 => ⟨S400000x20, .f32⟩
  | 79 => ⟨S400000x20, .f32⟩
  | 80 => ⟨S1x20, .f32⟩
  | 81 => ⟨S400000x20, .f32⟩
  | 82 => ⟨S400000x20, .f32⟩
  | 83 => ⟨S_, .f32⟩
  | 84 => ⟨S25000x20, .f32⟩
  | 85 => ⟨S400000x1, .i32⟩
  | 86 => ⟨S25000x20, .f32⟩
  | 87 => ⟨S25000x20, .f32⟩
  | 88 => ⟨S1x20, .f32⟩
  | 89 => ⟨S25000x20, .f32⟩
  | 90 => ⟨S25000x20, .f32⟩
  | 91 => ⟨S25000x20, .f32⟩
  | 92 => ⟨S_, .f32⟩
  | 93 => ⟨S25000x20, .f32⟩
  | 94 => ⟨S25000x20, .f32⟩
  | 95 => ⟨S_, .i32⟩
  | 96 => ⟨S400000, .i32⟩
  | 97 => ⟨S400000, .i1⟩
  | 98 => ⟨S_, .i32⟩
  | 99 => ⟨S400000, .i32⟩
  | 100 => ⟨S400000, .i32⟩
  | 101 => ⟨S400000, .i32⟩
  | 102 => ⟨S400000x1, .i32⟩
  | 103 => ⟨S400000x20, .f32⟩
  | 104 => ⟨S_, .i32⟩
  | 105 => ⟨S400000, .i32⟩
  | 106 => ⟨S400000, .i1⟩
  | 107 => ⟨S_, .i32⟩
  | 108 => ⟨S400000, .i32⟩
  | 109 => ⟨S400000, .i32⟩
  | 110 => ⟨S400000, .i32⟩
  | 111 => ⟨S400000x1, .i32⟩
  | 112 => ⟨S400000x20, .f32⟩
  | 113 => ⟨S400000x40, .f32⟩
  | 114 => ⟨S400000x200, .f32⟩
  | 115 => ⟨S1x200, .f32⟩
  | 116 => ⟨S400000x200, .f32⟩
  | 117 => ⟨S400000x200, .f32⟩
  | 118 => ⟨S_, .f32⟩
  | 119 => ⟨S400000x200, .f32⟩
  | 120 => ⟨S400000x200, .f32⟩
  | 121 => ⟨S400000x20, .f32⟩
  | 122 => ⟨S1x20, .f32⟩
  | 123 => ⟨S400000x20, .f32⟩
  | 124 => ⟨S400000x20, .f32⟩
  | 125 => ⟨S400000x20, .f32⟩
  | 126 => ⟨S400000x20, .f32⟩
  | 127 => ⟨S400000x1, .f32⟩
  | _ => ⟨S25000x1, .f32⟩

abbrev hbmTy0_2 (i : Nat) : BufTy := match i % 128 with
  | 0 => ⟨S1x1, .f32⟩
  | 1 => ⟨S400000x1, .f32⟩
  | 2 => ⟨S400000x1, .f32⟩
  | 3 => ⟨S_, .f32⟩
  | 4 => ⟨S25000x1, .f32⟩
  | 5 => ⟨S400000x1, .i32⟩
  | 6 => ⟨S25000x1, .f32⟩
  | 7 => ⟨S25000x1, .f32⟩
  | 8 => ⟨S1x1, .f32⟩
  | 9 => ⟨S25000x1, .f32⟩
  | 10 => ⟨S25000x1, .f32⟩
  | 11 => ⟨S25000x1, .f32⟩
  | _ => ⟨S25000x1, .f32⟩

abbrev hbmTy (i : Nat) : BufTy := match i / 128 with
  | 0 => hbmTy0_0 i
  | 1 => hbmTy0_1 i
  | 2 => hbmTy0_2 i
  | _ => ⟨S25000x1, .f32⟩

abbrev bufTy : (tb : Table) → Fin (tcTables nBuf tb) → BufTy
  | .hbm, ⟨i, _⟩ => hbmTy i
  | _, _ => ⟨S25000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_c_1 : Ref sig .tc := ⟨.hbm, 40, rfl⟩
abbrev main_v11 : Ref sig .tc := ⟨.hbm, 41, rfl⟩
abbrev main_v12 : Ref sig .tc := ⟨.hbm, 42, rfl⟩
abbrev main_c_2 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_call0_cst : Ref sig .tc := ⟨.hbm, 54, rfl⟩
abbrev main_call0_v0 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_call1_cst : Ref sig .tc := ⟨.hbm, 76, rfl⟩
abbrev main_call1_v0 : Ref sig .tc := ⟨.hbm, 77, rfl⟩
abbrev main_v42 : Ref sig .tc := ⟨.hbm, 78, rfl⟩
abbrev main_c_3 : Ref sig .tc := ⟨.hbm, 79, rfl⟩
abbrev main_v43 : Ref sig .tc := ⟨.hbm, 80, rfl⟩
abbrev main_v44 : Ref sig .tc := ⟨.hbm, 81, rfl⟩
abbrev main_c_4 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_c_5 : Ref sig .tc := ⟨.hbm, 88, rfl⟩
abbrev main_v50 : Ref sig .tc := ⟨.hbm, 89, rfl⟩
abbrev main_v51 : Ref sig .tc := ⟨.hbm, 90, rfl⟩
abbrev main_c_6 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_call2_cst : Ref sig .tc := ⟨.hbm, 102, rfl⟩
abbrev main_call2_v0 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_7 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_call3_cst : Ref sig .tc := ⟨.hbm, 124, rfl⟩
abbrev main_call3_v0 : Ref sig .tc := ⟨.hbm, 125, rfl⟩
abbrev main_v81 : Ref sig .tc := ⟨.hbm, 126, rfl⟩
abbrev main_c_8 : Ref sig .tc := ⟨.hbm, 127, rfl⟩
abbrev main_v82 : Ref sig .tc := ⟨.hbm, 128, rfl⟩
abbrev main_v83 : Ref sig .tc := ⟨.hbm, 129, rfl⟩
abbrev main_c_9 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_c_10 : Ref sig .tc := ⟨.hbm, 136, rfl⟩
abbrev main_v89 : Ref sig .tc := ⟨.hbm, 137, rfl⟩
abbrev main_v90 : Ref sig .tc := ⟨.hbm, 138, rfl⟩
abbrev main_c_11 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_call4_cst : Ref sig .tc := ⟨.hbm, 150, rfl⟩
abbrev main_call4_v0 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_12 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_call5_cst : Ref sig .tc := ⟨.hbm, 172, rfl⟩
abbrev main_call5_v0 : Ref sig .tc := ⟨.hbm, 173, rfl⟩
abbrev main_v120 : Ref sig .tc := ⟨.hbm, 174, rfl⟩
abbrev main_c_13 : Ref sig .tc := ⟨.hbm, 175, rfl⟩
abbrev main_v121 : Ref sig .tc := ⟨.hbm, 176, rfl⟩
abbrev main_v122 : Ref sig .tc := ⟨.hbm, 177, rfl⟩
abbrev main_c_14 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_c_15 : Ref sig .tc := ⟨.hbm, 184, rfl⟩
abbrev main_v128 : Ref sig .tc := ⟨.hbm, 185, rfl⟩
abbrev main_v129 : Ref sig .tc := ⟨.hbm, 186, rfl⟩
abbrev main_c_16 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_call6_cst : Ref sig .tc := ⟨.hbm, 198, rfl⟩
abbrev main_call6_v0 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_cst_17 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_call7_cst : Ref sig .tc := ⟨.hbm, 220, rfl⟩
abbrev main_call7_v0 : Ref sig .tc := ⟨.hbm, 221, rfl⟩
abbrev main_v159 : Ref sig .tc := ⟨.hbm, 222, rfl⟩
abbrev main_c_18 : Ref sig .tc := ⟨.hbm, 223, rfl⟩
abbrev main_v160 : Ref sig .tc := ⟨.hbm, 224, rfl⟩
abbrev main_v161 : Ref sig .tc := ⟨.hbm, 225, rfl⟩
abbrev main_c_19 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_c_20 : Ref sig .tc := ⟨.hbm, 232, rfl⟩
abbrev main_v167 : Ref sig .tc := ⟨.hbm, 233, rfl⟩
abbrev main_v168 : Ref sig .tc := ⟨.hbm, 234, rfl⟩
abbrev main_c_21 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_call8_cst : Ref sig .tc := ⟨.hbm, 246, rfl⟩
abbrev main_call8_v0 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_cst_22 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x1_S400000x1_S400000x2_d1 : Shape.Concatenates [S400000x1, S400000x1] S400000x2 1
  bcast_S200_S1x200_1 : S200.BroadcastsInDim S1x200 (![1] : Fin 1 → Fin S1x200.rank)
  bcast_S1x200_S400000x200_0_1 : S1x200.BroadcastsInDim S400000x200 (![0, 1] : Fin 2 → Fin S400000x200.rank)
  bcast_S_S400000x200 : S_.BroadcastsInDim S400000x200 (![] : Fin 0 → Fin S400000x200.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  bcast_S20_S1x20_1 : S20.BroadcastsInDim S1x20 (![1] : Fin 1 → Fin S1x20.rank)
  bcast_S1x20_S400000x20_0_1 : S1x20.BroadcastsInDim S400000x20 (![0, 1] : Fin 2 → Fin S400000x20.rank)
  bcast_S_S25000x20 : S_.BroadcastsInDim S25000x20 (![] : Fin 0 → Fin S25000x20.rank)
  bcast_S1x20_S25000x20_0_1 : S1x20.BroadcastsInDim S25000x20 (![0, 1] : Fin 2 → Fin S25000x20.rank)
  concatenates_S400000x20_S400000x20_S400000x40_d1 : Shape.Concatenates [S400000x20, S400000x20] S400000x40 1
  bcast_S_S25000x1 : S_.BroadcastsInDim S25000x1 (![] : Fin 0 → Fin S25000x1.rank)
  bcast_S1x1_S25000x1_0_1 : S1x1.BroadcastsInDim S25000x1 (![0, 1] : Fin 2 → Fin S25000x1.rank)
  gather_S25000x1_S400000x1_S400000x1_1_0_n_n_0_1_11_wf : GatherDims.WF S25000x1 S400000x1 S400000x1 [1] [0] [] [0] [] 1 ![1, 1]
  dot_S400000x2_S2x200_S400000x200_1_0_0_1_n_n_wf : DotDims.WF S400000x2 S2x200 S400000x200 [1] [0] [0] [1] [] []
  dot_S400000x200_S200x1_S400000x1_1_0_0_1_n_n_wf : DotDims.WF S400000x200 S200x1 S400000x1 [1] [0] [0] [1] [] []
  dot_S400000x1_S1x20_S400000x20_1_0_0_1_n_n_wf : DotDims.WF S400000x1 S1x20 S400000x20 [1] [0] [0] [1] [] []
  scatter_S25000x20_S400000x1_S400000x20_1_0_0_1_wf : ScatterDims.WF S25000x20 S400000x1 S400000x20 [1] [0] [0] 1
  dot_S25000x1_S1x20_S25000x20_1_0_0_1_n_n_wf : DotDims.WF S25000x1 S1x20 S25000x20 [1] [0] [0] [1] [] []
  gather_S25000x20_S400000x1_S400000x20_1_0_n_n_0_1_120_wf : GatherDims.WF S25000x20 S400000x1 S400000x20 [1] [0] [] [0] [] 1 ![1, 20]
  dot_S400000x40_S40x200_S400000x200_1_0_0_1_n_n_wf : DotDims.WF S400000x40 S40x200 S400000x200 [1] [0] [0] [1] [] []
  dot_S400000x200_S200x20_S400000x20_1_0_0_1_n_n_wf : DotDims.WF S400000x200 S200x20 S400000x20 [1] [0] [0] [1] [] []
  dot_S400000x20_S20x20_S400000x20_1_0_0_1_n_n_wf : DotDims.WF S400000x20 S20x20 S400000x20 [1] [0] [0] [1] [] []
  dot_S25000x20_S20x20_S25000x20_1_0_0_1_n_n_wf : DotDims.WF S25000x20 S20x20 S25000x20 [1] [0] [0] [1] [] []
  dot_S400000x20_S20x1_S400000x1_1_0_0_1_n_n_wf : DotDims.WF S400000x20 S20x1 S400000x1 [1] [0] [0] [1] [] []
  scatter_S25000x1_S400000x1_S400000x1_1_0_0_1_wf : ScatterDims.WF S25000x1 S400000x1 S400000x1 [1] [0] [0] 1
  dot_S25000x20_S20x1_S25000x1_1_0_0_1_n_n_wf : DotDims.WF S25000x20 S20x1 S25000x1 [1] [0] [0] [1] [] []

variable [Facts₀]

def gather_S25000x1_S400000x1_S400000x1_1_0_n_n_0_1_11 : GatherDims S25000x1 S400000x1 S400000x1 where
  offsetDims := [1]
  collapsedSliceDims := [0]
  operandBatchingDims := []
  startIndicesBatchingDims := []
  startIndexMap := [0]
  indexVectorDim := 1
  sliceSizes := ![1, 1]
  wf := gather_S25000x1_S400000x1_S400000x1_1_0_n_n_0_1_11_wf
def dot_S400000x2_S2x200_S400000x200_1_0_0_1_n_n : DotDims S400000x2 S2x200 S400000x200 where
  lhsContracting := [1]
  rhsContracting := [0]
  lhsNonContracting := [0]
  rhsNonContracting := [1]
  lhsBatch := []
  rhsBatch := []
  wf := dot_S400000x2_S2x200_S400000x200_1_0_0_1_n_n_wf
def dot_S400000x200_S200x1_S400000x1_1_0_0_1_n_n : DotDims S400000x200 S200x1 S400000x1 where
  lhsContracting := [1]
  rhsContracting := [0]
  lhsNonContracting := [0]
  rhsNonContracting := [1]
  lhsBatch := []
  rhsBatch := []
  wf := dot_S400000x200_S200x1_S400000x1_1_0_0_1_n_n_wf
def dot_S400000x1_S1x20_S400000x20_1_0_0_1_n_n : DotDims S400000x1 S1x20 S400000x20 where
  lhsContracting := [1]
  rhsContracting := [0]
  lhsNonContracting := [0]
  rhsNonContracting := [1]
  lhsBatch := []
  rhsBatch := []
  wf := dot_S400000x1_S1x20_S400000x20_1_0_0_1_n_n_wf
def scatter_S25000x20_S400000x1_S400000x20_1_0_0_1 : ScatterDims S25000x20 S400000x1 S400000x20 where
  updateWindowDims := [1]
  insertedWindowDims := [0]
  scatterDimsToOperandDims := [0]
  indexVectorDim := 1
  wf := scatter_S25000x20_S400000x1_S400000x20_1_0_0_1_wf
def dot_S25000x1_S1x20_S25000x20_1_0_0_1_n_n : DotDims S25000x1 S1x20 S25000x20 where
  lhsContracting := [1]
  rhsContracting := [0]
  lhsNonContracting := [0]
  rhsNonContracting := [1]
  lhsBatch := []
  rhsBatch := []
  wf := dot_S25000x1_S1x20_S25000x20_1_0_0_1_n_n_wf
def gather_S25000x20_S400000x1_S400000x20_1_0_n_n_0_1_120 : GatherDims S25000x20 S400000x1 S400000x20 where
  offsetDims := [1]
  collapsedSliceDims := [0]
  operandBatchingDims := []
  startIndicesBatchingDims := []
  startIndexMap := [0]
  indexVectorDim := 1
  sliceSizes := ![1, 20]
  wf := gather_S25000x20_S400000x1_S400000x20_1_0_n_n_0_1_120_wf
def dot_S400000x40_S40x200_S400000x200_1_0_0_1_n_n : DotDims S400000x40 S40x200 S400000x200 where
  lhsContracting := [1]
  rhsContracting := [0]
  lhsNonContracting := [0]
  rhsNonContracting := [1]
  lhsBatch := []
  rhsBatch := []
  wf := dot_S400000x40_S40x200_S400000x200_1_0_0_1_n_n_wf
def dot_S400000x200_S200x20_S400000x20_1_0_0_1_n_n : DotDims S400000x200 S200x20 S400000x20 where
  lhsContracting := [1]
  rhsContracting := [0]
  lhsNonContracting := [0]
  rhsNonContracting := [1]
  lhsBatch := []
  rhsBatch := []
  wf := dot_S400000x200_S200x20_S400000x20_1_0_0_1_n_n_wf
def dot_S400000x20_S20x20_S400000x20_1_0_0_1_n_n : DotDims S400000x20 S20x20 S400000x20 where
  lhsContracting := [1]
  rhsContracting := [0]
  lhsNonContracting := [0]
  rhsNonContracting := [1]
  lhsBatch := []
  rhsBatch := []
  wf := dot_S400000x20_S20x20_S400000x20_1_0_0_1_n_n_wf
def dot_S25000x20_S20x20_S25000x20_1_0_0_1_n_n : DotDims S25000x20 S20x20 S25000x20 where
  lhsContracting := [1]
  rhsContracting := [0]
  lhsNonContracting := [0]
  rhsNonContracting := [1]
  lhsBatch := []
  rhsBatch := []
  wf := dot_S25000x20_S20x20_S25000x20_1_0_0_1_n_n_wf
def dot_S400000x20_S20x1_S400000x1_1_0_0_1_n_n : DotDims S400000x20 S20x1 S400000x1 where
  lhsContracting := [1]
  rhsContracting := [0]
  lhsNonContracting := [0]
  rhsNonContracting := [1]
  lhsBatch := []
  rhsBatch := []
  wf := dot_S400000x20_S20x1_S400000x1_1_0_0_1_n_n_wf
def scatter_S25000x1_S400000x1_S400000x1_1_0_0_1 : ScatterDims S25000x1 S400000x1 S400000x1 where
  updateWindowDims := [1]
  insertedWindowDims := [0]
  scatterDimsToOperandDims := [0]
  indexVectorDim := 1
  wf := scatter_S25000x1_S400000x1_S400000x1_1_0_0_1_wf
def dot_S25000x20_S20x1_S25000x1_1_0_0_1_n_n : DotDims S25000x20 S20x1 S25000x1 where
  lhsContracting := [1]
  rhsContracting := [0]
  lhsNonContracting := [0]
  rhsNonContracting := [1]
  lhsBatch := []
  rhsBatch := []
  wf := dot_S25000x20_S20x1_S25000x1_1_0_0_1_n_n_wf

class Facts : Prop extends Facts₀ where

variable [Facts]
-- ==== Proof.PreRange.lean ====
import proofs.«415925_j84189948936386_1_alg».proof.Pre_finite_inputs
import Idealize.ShloMosaic.Lib.ReduceAll
import Idealize.ShloMosaic.Lib.ValueLayout
import Idealize.ShloMosaic.Lib.KernelVsHost

noncomputable section

namespace Cert.PreRange

open Idealize.ShloMosaic Idealize.ShloMosaic.ValueIdx
open Cert.Pre_finite_inputs

theorem toInt_zero : (0#32 : BitVec 32).toInt = 0 := by decide
theorem toInt_25000 : (25000#32 : BitVec 32).toInt = 25000 := by decide

theorem word_toInt {w : BitVec 32} (h0 : IntOp.cmpi .sge w 0#32 = 1#1) (h1 : IntOp.cmpi .slt w 25000#32 = 1#1) :
    0 ≤ w.toInt ∧ w.toInt < 25000 := by
  rw [IntOp.cmpi_sge, toInt_zero] at h0
  rw [IntOp.cmpi_slt, toInt_25000] at h1
  exact ⟨h0, h1⟩

theorem toInt_eq_toNat {w : BitVec 32} (h0 : 0 ≤ w.toInt) : w.toInt = (w.toNat : Int) :=
  BitVec.toInt_eq_toNat_of_lt (BitVec.toInt_pos_iff.1 h0)

theorem word_toNat {w : BitVec 32} (h : 0 ≤ w.toInt ∧ w.toInt < 25000) : w.toNat < 25000 := by
  have e := toInt_eq_toNat h.1
  omega

theorem word_toInt_toNat {w : BitVec 32} (h0 : 0 ≤ w.toInt) : w.toInt.toNat = w.toNat := by
  rw [toInt_eq_toNat h0, Int.toNat_natCast]

theorem word_not_neg {w : BitVec 32} (h0 : 0 ≤ w.toInt) : IntOp.cmpi .slt w 0#32 = 0#1 := by
  rcases BitVec.eq_zero_or_eq_one (IntOp.cmpi .slt w 0#32) with e | e
  · exact e
  · rw [IntOp.cmpi_slt, toInt_zero] at e
    omega

theorem word_wrap_id {w : BitVec 32} (h0 : 0 ≤ w.toInt) :
    Scalar.select (IntOp.cmpi .slt w 0#32) (IntOp.addi w 25000#32) w = w := by
  unfold Scalar.select
  rw [word_not_neg h0]
  exact if_neg (by decide)

theorem word_clamp_id {w : BitVec 32} (h : 0 ≤ w.toInt ∧ w.toInt < 25000) : min w.toInt.toNat 24999 = w.toNat := by
  rw [word_toInt_toNat h.1]
  exact Nat.min_eq_left (by have := word_toNat h; omega)

section Decode
variable {F : FTy → Type} [FloatOps F] [Facts]

local instance subsingleton_scalarIdx : Subsingleton S_.Idx := ⟨fun a b => funext fun d => d.elim0⟩

theorem part7_cmp (a1 : IVec S2x400000 32) (a26 : FVec F S1 .f32) (v118 : IVec S_ 1) (v119 : FVec F S20x1 .f32)
    (h : fn_part7 (F := F) a1 a26 v118 v119 = fun _ => 1#1) (i : S2x400000.Idx) :
    IntOp.cmpi .sge (a1 i) 0#32 = 1#1 ∧ IntOp.cmpi .slt (a1 i) 25000#32 = 1#1 := by
  have e := congrFun h ix0
  unfold fn_part7 at e
  have e2 := (IntOp.andi_eq_one.1 e).2
  exact IntOp.andi_eq_one.1 (Host.reduce_andi_all _ _ _ _ _ e2 i)

variable {a0 : FVec F S25000x1 .f32} {a1 : IVec S2x400000 32} {a2 : FVec F S400000 .f32} {a3 : FVec F S1x20 .f32}
  {a4 : FVec F S20 .f32} {a5 : FVec F S2x200 .f32} {a6 : FVec F S200 .f32} {a7 : FVec F S200x1 .f32} {a8 : FVec F S1 .f32}
  {a9 : FVec F S1x20 .f32} {a10 : FVec F S20 .f32} {a11 : FVec F S20x20 .f32} {a12 : FVec F S20 .f32}
  {a13 : FVec F S40x200 .f32} {a14 : FVec F S200 .f32} {a15 : FVec F S200x20 .f32} {a16 : FVec F S20 .f32}
  {a17 : FVec F S20x20 .f32} {a18 : FVec F S20 .f32} {a19 : FVec F S20x1 .f32} {a20 : FVec F S1 .f32}
  {a21 : FVec F S40x200 .f32} {a22 : FVec F S200 .f32} {a23 : FVec F S200x20 .f32} {a24 : FVec F S20 .f32}
  {a25 : FVec F S20x1 .f32} {a26 : FVec F S1 .f32}

theorem edges_cmp
    (h : fn (F := F) a0 a1 a2 a3 a4 a5 a6 a7 a8 a9 a10 a11 a12 a13 a14 a15 a16 a17 a18 a19 a20 a21 a22 a23 a24 a25 a26 = fun _ => 1#1)
    (i : S2x400000.Idx) : IntOp.cmpi .sge (a1 i) 0#32 = 1#1 ∧ IntOp.cmpi .slt (a1 i) 25000#32 = 1#1 :=
  part7_cmp a1 a26 _ _ (show fn_part7 (F := F) a1 a26 _ _ = fun _ => 1#1 from h) i

theorem edges_toInt
    (h : fn (F := F) a0 a1 a2 a3 a4 a5 a6 a7 a8 a9 a10 a11 a12 a13 a14 a15 a16 a17 a18 a19 a20 a21 a22 a23 a24 a25 a26 = fun _ => 1#1)
    (i : S2x400000.Idx) : 0 ≤ (a1 i).toInt ∧ (a1 i).toInt < 25000 :=
  word_toInt (edges_cmp h i).1 (edges_cmp h i).2

theorem edges_toNat
    (h : fn (F := F) a0 a1 a2 a3 a4 a5 a6 a7 a8 a9 a10 a11 a12 a13 a14 a15 a16 a17 a18 a19 a20 a21 a22 a23 a24 a25 a26 = fun _ => 1#1)
    (i : S2x400000.Idx) : (a1 i).toNat < 25000 :=
  word_toNat (edges_toInt h i)

end Decode

section Padded
variable {α : Type}

theorem padded_row_apply {N M p : Nat} (o : Nat) (ho : o < 2) (A : (⟨2, ![2, N]⟩ : Shape).Idx → α) {u : Shape} (v : u.Idx → α)
    (hs : (⟨2, ![2, N]⟩ : Shape).Slices ![o, 0] ⟨2, ![1, N]⟩) (hc : (⟨2, ![1, N]⟩ : Shape).ShapeCasts ⟨1, ![N]⟩)
    (hp : (⟨1, ![N]⟩ : Shape).Pads ![0] ![p] ![0] ⟨1, ![M]⟩) (hu : 0 < u.numel) (j : (⟨1, ![M]⟩ : Shape).Idx) :
    pad ⟨1, ![M]⟩ ![0] ![p] ![0] (shapeCast ⟨1, ![N]⟩ (extractStridedSlice ⟨2, ![1, N]⟩ ![o, 0] A hs) hc) v hp hu j
      = if h : (j 0).val < N then A (ix2 ⟨o, ho⟩ ⟨(j 0).val, h⟩) else v (Shape.Idx.first hu) := by
  by_cases h : (j 0).val < N
  · rw [dif_pos h]
    refine (pad_apply_of_inside _ _ _ _ v hp hu j (ix1 ⟨(j 0).val, h⟩) (fun a => ?_)).trans ?_
    · have ha : a = 0 := Subsingleton.elim _ _
      subst ha
      show (j 0).val = 0 + (j 0).val * (0 + 1)
      omega
    · rw [shapeCast_1a_a_apply]
      exact slice2_axis0_apply o A hs (0 : Fin 1) ⟨(j 0).val, h⟩ ⟨o, ho⟩ rfl
  · rw [dif_neg h]
    refine pad_apply_of_not_inside _ _ _ _ v hp hu j (0 : Fin 1) (fun hin => h ?_)
    have h3 : ((j 0).val - 0) / (0 + 1) < N := hin.2.2
    rw [Nat.sub_zero, Nat.zero_add, Nat.div_one] at h3
    exact h3

theorem padWord_toNat : (4294967295#32 : BitVec 32).toNat = 4294967295 := rfl

end Padded

section PaddedEdges
variable {F : FTy → Type} [FloatOps F] [Facts]
variable {a0 : FVec F S25000x1 .f32} {a1 : IVec S2x400000 32} {a2 : FVec F S400000 .f32} {a3 : FVec F S1x20 .f32}
  {a4 : FVec F S20 .f32} {a5 : FVec F S2x200 .f32} {a6 : FVec F S200 .f32} {a7 : FVec F S200x1 .f32} {a8 : FVec F S1 .f32}
  {a9 : FVec F S1x20 .f32} {a10 : FVec F S20 .f32} {a11 : FVec F S20x20 .f32} {a12 : FVec F S20 .f32}
  {a13 : FVec F S40x200 .f32} {a14 : FVec F S200 .f32} {a15 : FVec F S200x20 .f32} {a16 : FVec F S20 .f32}
  {a17 : FVec F S20x20 .f32} {a18 : FVec F S20 .f32} {a19 : FVec F S20x1 .f32} {a20 : FVec F S1 .f32}
  {a21 : FVec F S40x200 .f32} {a22 : FVec F S200 .f32} {a23 : FVec F S200x20 .f32} {a24 : FVec F S20 .f32}
  {a25 : FVec F S20x1 .f32} {a26 : FVec F S1 .f32}

end PaddedEdges

end Cert.PreRange

end
-- ==== Proof.KI.Whole.lean ====
import Idealize.ShloMosaic.Lib.Pipeline.Value
import Idealize.ShloMosaic.Lib.Pipeline.FrameBody

noncomputable section

namespace Cert.KernelIdeal.Hand

open Idealize.ShloMosaic
open Idealize.SL Idealize.SL.Sem

variable {sig : RefSig} {κ : Kind} {sp : Space} {S : Shape} {e : EltTy} {Val : EltTy → Type}

theorem off_zero {off : Fin S.rank → Nat} (inb : ∀ a, off a + S.size a ≤ S.size a) : off = fun _ => 0 :=
  funext fun a => by have := inb a; omega

theorem readAt_unread_full {m : Memref sig κ sp S e} (h : m.IsWhole) {off : Fin S.rank → Nat}
    (inb : ∀ a, off a + S.size a ≤ S.size a) (X : S.Idx → Val e) :
    m.view.readAt Val (Rect.unit off S.size inb).toLoadRect (h.unread X) = X := by
  rw [View.readAt_eq_ld, h.read_unread]; exact View.ld_unit_zero (off_zero inb) inb X

theorem read_writes_full [∀ e, Nonempty (Val e)] (v : View sig κ sp S e) (f : v.ty.Contents Val) {off : Fin S.rank → Nat}
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero (off_zero inb) inb y⟩),
    View.canon_cons_unit_zero (off_zero inb) inb w L]

theorem readCov_full [∀ e, Nonempty (Val e)] (v : View sig κ sp S e) {off : Fin S.rank → Nat}
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w :=
  View.readCov_cons_toLoadRect v (Rect.unit off S.size inb) w L

end Cert.KernelIdeal.Hand

end
-- ==== Proof.KI.R0Run.lean ====
import proofs.«415925_j84189948936386_1_alg».proof.Proof.Gen.KernelIdeal.Launch
import proofs.«415925_j84189948936386_1_alg».proof.Proof.Gen.KernelIdeal.Skeleton
import proofs.«415925_j84189948936386_1_alg».proof.Proof.KI.Whole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop :=
  (Scalar.cmpi .ne (Scalar.extui (Scalar.cmpi .eq (BitVec.ofNat 32 (i 1).val) 0#32)) 0#32) = 1#1

abbrev cond0_1 (i : grid0.Coords) : Prop := k0_cond2 i = 1#1

theorem coords0_1 (t : Fin cfg0.N) : ((grid0.coords t) 1).val = t.val % 25 := by
  have hs : grid0.stride 1 = 1 := by decide
  have hb : grid0.bound 1 = 25 := rfl
  show t.val / grid0.stride 1 % grid0.bound 1 = t.val % 25
  rw [hs, hb, Nat.div_one]

theorem cond0_0_iff : ∀ j : Fin 25,
    ((Scalar.cmpi .ne (Scalar.extui (Scalar.cmpi .eq (BitVec.ofNat 32 j.val) 0#32)) 0#32) = 1#1) ↔ j.val = 0 := by decide
theorem cond0_1_iff : ∀ j : Fin 25,
    ((Scalar.cmpi .ne (Scalar.extui (Scalar.cmpi .eq (BitVec.ofNat 32 j.val) 24#32)) 0#32) = 1#1) ↔ j.val = 24 := by decide

theorem hcond0_0 (t : Fin cfg0.N) : cond0_0 (grid0.coords t) ↔ t.val % 25 = 0 :=
  (cond0_0_iff (grid0.coords t 1)).trans (by rw [coords0_1 t])

theorem hcond0_1 (t : Fin cfg0.N) : cond0_1 (grid0.coords t) ↔ t.val % 25 = 24 :=
  (cond0_1_iff (grid0.coords t 1)).trans (by rw [coords0_1 t])

variable (c : Dev nD) (i : grid0.Coords) (arg2 : Memref sig .tc .vmem S2048 .i32) (harg2 : arg2.IsWhole) (arg3 : Memref sig .tc .vmem S2048 .i32) (harg3 : arg3.IsWhole) (arg4 : Memref sig .tc .vmem S1024x1 .f32) (harg4 : arg4.IsWhole) (arg5 : Memref sig .tc .vmem S2x200 .f32) (harg5 : arg5.IsWhole) (arg6 : Memref sig .tc .vmem S200 .f32) (harg6 : arg6.IsWhole) (arg7 : Memref sig .tc .vmem S200x1 .f32) (harg7 : arg7.IsWhole) (arg8 : Memref sig .tc .vmem S1 .f32) (harg8 : arg8.IsWhole) (arg9 : Memref sig .tc .vmem S1x20 .f32) (harg9 : arg9.IsWhole) (arg10 : Memref sig .tc .vmem S20 .f32) (harg10 : arg10.IsWhole) (arg11 : Memref sig .tc .vmem S2048x20 .f32) (harg11 : arg11.IsWhole) (arg12 : Memref sig .tc .vmem S2048x1 .f32) (harg12 : arg12.IsWhole) (arg13 : Memref sig .tc .vmem S2048x1 .f32) (harg13 : arg13.IsWhole)

set_option maxHeartbeats 1000000 in

theorem run0_first
    (hc0 : cond0_0 i) (hc1 : ¬cond0_1 i)
    (x0 : Vec F S2048 .i32) (x1 : Vec F S2048 .i32) (x2 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2
            ∗ owns (c : Thread nD τ) arg12 fullShare (k0_pay6 i x1 x2 k0_pay2) ∗ owns (c : Thread nD τ) arg13 fullShare (k0_pay7 i x0 x2 k0_pay3)) -∗ K ⟨⟩))
      ⊢ wp frame (wpE (defs₀ (F := F)) Variants.none c none) E (cc0__gather_mlp_kernel i arg2 harg2 arg3 harg3 arg4 harg4 arg5 harg5 arg6 harg6 arg7 harg7 arg8 harg8 arg9 harg9 arg10 harg10 arg11 harg11 arg12 harg12 arg13 harg13) K := by
  sl_unfold [cc0__gather_mlp_kernel]
  unfold owns
  iintro ⟨⟨%f0, %hf0, H0⟩, ⟨%f1, %hf1, H1⟩, ⟨%f2, %hf2, H2⟩, ⟨%dI, %fI, -, HI⟩, ⟨%dJ, %fJ, -, HJ⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HI]
  · iexists _; isplitr
    swap; · iexact HI
    ipureintro
    refine (read_writes_full _ _ _ _ _).trans ?_
    sl_unfold_run_names
    rw [readAt_unread_full harg3, readAt_unread_full harg4, readCov_full]
  · iexists _; isplitr
    swap; · iexact HJ
    ipureintro
    refine (read_writes_full _ _ _ _ _).trans ?_
    sl_unfold_run_names
    rw [readAt_unread_full harg2, readAt_unread_full harg4, readCov_full]

set_option maxHeartbeats 1000000 in

theorem run0_mid
    (hc0 : ¬cond0_0 i) (hc1 : ¬cond0_1 i)
    (x0 : Vec F S2048 .i32) (x1 : Vec F S2048 .i32) (x2 : Vec F S1024x1 .f32)
    (a : Vec F S2048x1 .f32) (b : Vec F S2048x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg12 fullShare a ∗ owns (c : Thread nD τ) arg13 fullShare b
        ∗ (iprop(owns (c : Thread nD τ) arg2 fullShare x0 ∗ owns (c : Thread nD τ) arg3 fullShare x1 ∗ owns (c : Thread nD τ) arg4 fullShare x2
            ∗ owns (c : Thread nD τ) arg12 fullShare (k0_pay6 i x1 x2 a) ∗ owns (c : Thread nD τ) arg13 fullShare (k0_pay7 i x0 x2 b)) -∗ K ⟨⟩))
      ⊢ wp frame (wpE (defs₀ (F := F)) Variants.none c none) E (cc0__gather_mlp_kernel i arg2 harg2 arg3 harg3 arg4 harg4 arg5 harg5 arg6 harg6 arg7 harg7 arg8 harg8 arg9 harg9 arg10 harg10 arg11 harg11 arg12 harg12 arg13 harg13) K := by
  sl_unfold [cc0__gather_mlp_kernel]
  unfold owns
  iintro ⟨⟨%f0, %hf0, H0⟩, ⟨%f1, %hf1, H1⟩, ⟨%f2, %hf2, H2⟩, ⟨%fI, %hfI, HI⟩, ⟨%fJ, %hfJ, HJ⟩, Hk⟩
  obtain rfl := harg2.eq_unread hf0; obtain rfl := harg3.eq_unread hf1; obtain rfl := harg4.eq_unread hf2
  obtain rfl := harg12.eq_unread hfI; obtain rfl := harg13.eq_unread hfJ
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HI]
  · iexists _; isplitr
    swap; · iexact HI
    ipureintro
    refine (read_writes_full _ _ _ _ _).trans ?_
    sl_unfold_run_names
    rw [readAt_unread_full harg3, readAt_unread_full harg4, readAt_unread_full harg12]
  · iexists _; isplitr
    swap; · iexact HJ
    ipureintro
    refine (read_writes_full _ _ _ _ _).trans ?_
    sl_unfold_run_names
    rw [readAt_unread_full harg2, readAt_unread_full harg4, readAt_unread_full harg13]

set_option maxHeartbeats 1000000 in

theorem run0_last
    (hc0 : ¬cond0_0 i) (hc1 : cond0_1 i)
    (x0 : Vec F S2048 .i32) (x1 : Vec F S2048 .i32) (x2 : Vec F S1024x1 .f32)
    (x3 : Vec F S2x200 .f32) (x4 : Vec F S200 .f32) (x5 : Vec F S200x1 .f32) (x6 : Vec F S1 .f32) (x7 : Vec F S1x20 .f32) (x8 : Vec F S20 .f32)
    (a : Vec F S2048x1 .f32) (b : Vec F S2048x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8
        ∗ (∃ d, owns (c : Thread nD τ) arg11 fullShare d)
        ∗ owns (c : Thread nD τ) arg12 fullShare a ∗ owns (c : Thread nD τ) arg13 fullShare b
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare (k0_pay1 (k0_pay6 i x1 x2 a) (k0_pay7 i x0 x2 b) x3 x4 x5 x6 x7 x8)
            ∗ owns (c : Thread nD τ) arg12 fullShare (k0_pay6 i x1 x2 a) ∗ owns (c : Thread nD τ) arg13 fullShare (k0_pay7 i x0 x2 b)) -∗ K ⟨⟩))
      ⊢ wp frame (wpE (defs₀ (F := F)) Variants.none c none) E (cc0__gather_mlp_kernel i arg2 harg2 arg3 harg3 arg4 harg4 arg5 harg5 arg6 harg6 arg7 harg7 arg8 harg8 arg9 harg9 arg10 harg10 arg11 harg11 arg12 harg12 arg13 harg13) K := by
  sl_unfold [cc0__gather_mlp_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dO, %fO, -, HO⟩, ⟨%fI, %hfI, HI⟩, ⟨%fJ, %hfJ, HJ⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg12.eq_unread hfI; obtain rfl := harg13.eq_unread hfJ
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HO]
  · iexists _; isplitr
    swap; · iexact HO
    ipureintro
    refine (read_writes_full _ _ _ _ _).trans ?_
    sl_unfold_run_names
    rw [readCov_full, readCov_full, readAt_unread_full harg3, readAt_unread_full harg4, readAt_unread_full harg12, readAt_unread_full harg2, readAt_unread_full harg13, readAt_unread_full harg5, readAt_unread_full harg6, readAt_unread_full harg7, readAt_unread_full harg8, readAt_unread_full harg9, readAt_unread_full harg10]
  isplitl [HI]
  · iexists _; isplitr
    swap; · iexact HI
    ipureintro
    refine (read_writes_full _ _ _ _ _).trans ?_
    sl_unfold_run_names
    rw [readAt_unread_full harg3, readAt_unread_full harg4, readAt_unread_full harg12]
  · iexists _; isplitr
    swap; · iexact HJ
    ipureintro
    refine (read_writes_full _ _ _ _ _).trans ?_
    sl_unfold_run_names
    rw [readAt_unread_full harg2, readAt_unread_full harg4, readAt_unread_full harg13]

end Cert.KernelIdeal.Hand
end
-- ==== Proof.KI.R0Dat.lean ====
import proofs.«415925_j84189948936386_1_alg».proof.Proof.KI.R0Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S2048 .i32 := (cfg0.win 0).stage (cfg0.slots t 0)
abbrev hs0_0 (t : Fin cfg0.N) : (ms0_0 t).IsWhole := hstage0_0 ((cfg0.slots t 0).cast nbuf0_0)
abbrev ms0_1 (t : Fin cfg0.N) : Memref sig .tc .vmem S2048 .i32 := (cfg0.win 1).stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := (cfg0.win 2).stage (cfg0.slots t 2)
abbrev hs0_2 (t : Fin cfg0.N) : (ms0_2 t).IsWhole := hstage0_2 ((cfg0.slots t 2).cast nbuf0_2)
abbrev ms0_3 (t : Fin cfg0.N) : Memref sig .tc .vmem S2x200 .f32 := (cfg0.win 3).stage (cfg0.slots t 3)
abbrev hs0_3 (t : Fin cfg0.N) : (ms0_3 t).IsWhole := hstage0_3 ((cfg0.slots t 3).cast nbuf0_3)
abbrev ms0_4 (t : Fin cfg0.N) : Memref sig .tc .vmem S200 .f32 := (cfg0.win 4).stage (cfg0.slots t 4)
abbrev hs0_4 (t : Fin cfg0.N) : (ms0_4 t).IsWhole := hstage0_4 ((cfg0.slots t 4).cast nbuf0_4)
abbrev ms0_5 (t : Fin cfg0.N) : Memref sig .tc .vmem S200x1 .f32 := (cfg0.win 5).stage (cfg0.slots t 5)
abbrev hs0_5 (t : Fin cfg0.N) : (ms0_5 t).IsWhole := hstage0_5 ((cfg0.slots t 5).cast nbuf0_5)
abbrev ms0_6 (t : Fin cfg0.N) : Memref sig .tc .vmem S1 .f32 := (cfg0.win 6).stage (cfg0.slots t 6)
abbrev hs0_6 (t : Fin cfg0.N) : (ms0_6 t).IsWhole := hstage0_6 ((cfg0.slots t 6).cast nbuf0_6)
abbrev ms0_7 (t : Fin cfg0.N) : Memref sig .tc .vmem S1x20 .f32 := (cfg0.win 7).stage (cfg0.slots t 7)
abbrev hs0_7 (t : Fin cfg0.N) : (ms0_7 t).IsWhole := hstage0_7 ((cfg0.slots t 7).cast nbuf0_7)
abbrev ms0_8 (t : Fin cfg0.N) : Memref sig .tc .vmem S20 .f32 := (cfg0.win 8).stage (cfg0.slots t 8)
abbrev hs0_8 (t : Fin cfg0.N) : (ms0_8 t).IsWhole := hstage0_8 ((cfg0.slots t 8).cast nbuf0_8)
abbrev ms0_9 (t : Fin cfg0.N) : Memref sig .tc .vmem S2048x20 .f32 := (cfg0.win 9).stage (cfg0.slots t 9)
abbrev hs0_9 (t : Fin cfg0.N) : (ms0_9 t).IsWhole := hstage0_9 ((cfg0.slots t 9).cast nbuf0_9)

abbrev scM0_0 : Memref sig .tc .vmem S2048x1 .f32 := Memref.whole cc0_scratch0
abbrev scM0_1 : Memref sig .tc .vmem S2048x1 .f32 := Memref.whole cc0_scratch1

def scI0 (c : Dev nD) : (n : ℕ) → n < cfg0.N → Vec F S2048x1 .f32
  | 0, hn => k0_pay6 (grid0.coords ⟨0, hn⟩) (iblk0 V c 1 ⟨0, hn⟩) (iblk0 V c 2 ⟨0, hn⟩) k0_pay2
  | n + 1, hn => k0_pay6 (grid0.coords ⟨n + 1, hn⟩) (iblk0 V c 1 ⟨n + 1, hn⟩) (iblk0 V c 2 ⟨n + 1, hn⟩)
      (if (n + 1) % 25 = 0 then k0_pay2 else scI0 c n (Nat.lt_of_succ_lt hn))

def scJ0 (c : Dev nD) : (n : ℕ) → n < cfg0.N → Vec F S2048x1 .f32
  | 0, hn => k0_pay7 (grid0.coords ⟨0, hn⟩) (iblk0 V c 0 ⟨0, hn⟩) (iblk0 V c 2 ⟨0, hn⟩) k0_pay3
  | n + 1, hn => k0_pay7 (grid0.coords ⟨n + 1, hn⟩) (iblk0 V c 0 ⟨n + 1, hn⟩) (iblk0 V c 2 ⟨n + 1, hn⟩)
      (if (n + 1) % 25 = 0 then k0_pay3 else scJ0 c n (Nat.lt_of_succ_lt hn))

theorem scI0_eq (c : Dev nD) (t : Fin cfg0.N) :
    scI0 V c t.val t.isLt = k0_pay6 (grid0.coords t) (iblk0 V c 1 t) (iblk0 V c 2 t)
      (if t.val % 25 = 0 then k0_pay2 else scI0 V c (t.val - 1) (Nat.lt_of_le_of_lt (Nat.sub_le _ _) t.isLt)) := by
  obtain ⟨n, hn⟩ := t
  cases n with
  | zero => exact (congrArg (k0_pay6 _ _ _) (if_pos (Nat.zero_mod 25)).symm)
  | succ n => rfl

theorem scJ0_eq (c : Dev nD) (t : Fin cfg0.N) :
    scJ0 V c t.val t.isLt = k0_pay7 (grid0.coords t) (iblk0 V c 0 t) (iblk0 V c 2 t)
      (if t.val % 25 = 0 then k0_pay3 else scJ0 V c (t.val - 1) (Nat.lt_of_le_of_lt (Nat.sub_le _ _) t.isLt)) := by
  obtain ⟨n, hn⟩ := t
  cases n with
  | zero => exact (congrArg (k0_pay7 _ _ _) (if_pos (Nat.zero_mod 25)).symm)
  | succ n => rfl

abbrev rest0 (c : Dev nD) : sProp 𝕄 :=
  Pipeline.scopedRestBut (Ix := Unit) (Name := ℕ) (U := UR sig nD τ) (Lvl := ℕ) (Val := Elt F) spec0 c [cc0_scratch0, cc0_scratch1]

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c)
          ∗ (∃ r, prngReg c r)) := by
  unfold Pipeline.ΦA; rw [scopedRest0_split]; simp only [scM0_0, scM0_1, owns_whole]; try rfl

def PhiS0 (c : Dev nD) : (n : ℕ) → n ≤ cfg0.N → sProp 𝕄
  | 0, _ => Pipeline.ΦA spec0 c
  | n + 1, hn => iprop(iprop(iprop(owns (c : Thread nD τ) scM0_0 fullShare (scI0 V c n hn) ∗ owns (c : Thread nD τ) scM0_1 fullShare (scJ0 V c n hn)) ∗ rest0 c)
      ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (scI0 V c n hn) ∗ owns (c : Thread nD τ) scM0_1 fullShare (scJ0 V c n hn)) ∗ rest0 c)
      ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (scI0 V c (n - 1) (by omega)) ∗ owns (c : Thread nD τ) scM0_1 fullShare (scJ0 V c (n - 1) (by omega))) ∗ rest0 c)
      ∗ (∃ r, prngReg c r)) := by
  cases n with
  | zero => exact absurd rfl hz
  | succ n => rfl

theorem PhiS0_weak (c : Dev nD) (n : ℕ) (h : n ≤ cfg0.N) : PhiS0 V c n h ⊢ Pipeline.ΦA spec0 c := by
  cases n with
  | zero => exact Idealize.SL.BI.Entails.refl _
  | succ n =>
    rw [PhiS0_succ, PhiA0_eq]
    iintro ⟨⟨⟨HI, HJ⟩, HR⟩, Hg⟩
    isplitl [HI HJ HR]
    · isplitl [HI HJ]
      · isplitl [HI]; · iexists _; iexact HI
        iexists _; iexact HJ
      iexact HR
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => k0_pay1 (scI0 V c t.val t.isLt) (scJ0 V c t.val t.isLt) (iblk0 V c 3 t) (iblk0 V c 4 t) (iblk0 V c 5 t) (iblk0 V c 6 t) (iblk0 V c 7 t) (iblk0 V c 8 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_9 (c : Dev nD) (t : Fin cfg0.N) : (dat0 V c).after 9 t = k0_pay1 (scI0 V c t.val t.isLt) (scJ0 V c t.val t.isLt) (iblk0 V c 3 t) (iblk0 V c 4 t) (iblk0 V c 5 t) (iblk0 V c 6 t) (iblk0 V c 7 t) (iblk0 V c 8 t) := by dsimp only [dat0]

theorem after0_9_flush (c : Dev nD) (t : Fin cfg0.N) (h : t.val % 25 = 24) : (dat0 V c).after 9 t = k0_pay1 (scI0 V c t.val t.isLt) (scJ0 V c t.val t.isLt) (iblk0 V c 3 t) (iblk0 V c 4 t) (iblk0 V c 5 t) (iblk0 V c 6 t) (iblk0 V c 7 t) (iblk0 V c 8 t) :=
  after0_9 V c t

theorem before0_in (c : Dev nD) (w : Fin cfg0.W) (hw : w ≠ 9) (t : Fin cfg0.N) (d) : (dat0 V c).before w t d = (dat0 V c).after w t := by
  fin_cases w <;> first
    | exact absurd rfl hw
    | exact (dat0 V c).before_in_eq_fetched _ rfl (fun _ => rfl) (fun _ _ _ => rfl) (fun _ => rfl) t d

theorem leaves0_in (c : Dev nD) (w : Fin cfg0.W) (hw : w ≠ 9) (t : Fin cfg0.N) :
    (dat0 V c).leavesExact w t = owns (c : Thread nD τ) ((cfg0.win w).stage (cfg0.slots t w)) fullShare ((dat0 V c).after w t) := by
  fin_cases w <;> first | exact absurd rfl hw | rfl

theorem idle0_9 (i : grid0.Coords) (h : ¬cond0_1 i) : cfg0.idle 9 i = true := by
  show (!(k0_cond2 i == 1#1)) = true
  rw [Bool.not_eq_true', beq_eq_false_iff_ne]; exact h

theorem live0_9 (i : grid0.Coords) (h : cond0_1 i) : cfg0.idle 9 i = false := by
  show (!(k0_cond2 i == 1#1)) = false
  rw [Bool.not_eq_false', beq_iff_eq]; exact h

theorem noFlush0_9 (t : Fin cfg0.N) (h : ¬t.val % 25 = 24) : (cfg0.win 9).flush t = false := by
  have hN : grid0.N = 4900 := N_0
  have ht : t.val < 4900 := lt_of_lt_of_eq t.isLt hN
  have hs : grid0.stride 0 = 25 := by decide
  have hidx : ∀ h1 : t.val + 1 < grid0.N, win0_9.index ⟨t.val + 1, h1⟩ = win0_9.index t := fun h1 =>
    hreads0_9 _ _ (Fin.forall_fin_two.mpr ⟨fun _ => Fin.ext (by
      show (t.val + 1) / grid0.stride 0 % grid0.bound 0 = t.val / grid0.stride 0 % grid0.bound 0
      rw [hs]; congr 1; omega), fun ha => absurd ha (by decide)⟩)
  show (win0_9.isOut && (decide (t.val + 1 = grid0.N) || decide (∃ h1 : t.val + 1 < grid0.N, win0_9.index ⟨t.val + 1, h1⟩ ≠ win0_9.index t))) = false
  rw [Bool.and_eq_false_iff]; right
  rw [Bool.or_eq_false_iff]
  exact ⟨decide_eq_false (by omega), decide_eq_false fun ⟨h1, hne⟩ => hne (hidx h1)⟩

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 4800000 in
theorem sound_body0 (c : Dev nD) (t : Fin cfg0.N) :
    bodyPre0 V c t ⊢ wp frame (wpE (defs₀ (F := F)) Variants.none c none) Set.univ (cc0__gather_mlp_kernel (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _)) (fun _ => bodyPost0 V c t) := by
  unfold bodyPre0 bodyPost0
  simp (config := {decide := true}) only [before0_in]
  rw [show (dat0 V c).owesAt () t.succ = (dat0 V c).owesAt () t.castSucc from rfl]
  rw [show (dat0 V c).Φ t.succ = PhiS0 V c (t.val + 1) t.isLt from rfl, PhiS0_succ]
  simp (config := {decide := true}) only [leaves0_in]
  rw [scI0_eq V c t, scJ0_eq V c t]
  by_cases h0 : t.val % 25 = 0
  · have h1 : ¬t.val % 25 = 24 := by omega
    have hc0 : cond0_0 (grid0.coords t) := (hcond0_0 t).mpr h0
    have hc1 : ¬cond0_1 (grid0.coords t) := fun h => h1 ((hcond0_1 t).mp h)
    rw [Dat.leavesExact_idle (dat0 V c) 9 t (idle0_9 _ hc1) (noFlush0_9 t h1), if_pos h0, if_pos h0, PhiS0_castSucc V c t]
    refine (sep_mono_left (PhiS0_weak V c _ _)).trans ?_
    rw [PhiA0_eq]
    iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run0_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) hc0 hc1 ((dat0 V c).after 0 t) ((dat0 V c).after 1 t) ((dat0 V c).after 2 t) Set.univ _)
    iframe H0 H1 H2 HI HJ
    iintro ⟨H0, H1, H2, HI, HJ⟩
    iframe
    isplitl [HI HJ]
    · isplitl [HI]; · iexact HI
      iexact HJ
    iexists _; iexact H9
  · have hz : t.val ≠ 0 := fun e => h0 (by rw [e])
    have hc0 : ¬cond0_0 (grid0.coords t) := fun h => h0 ((hcond0_0 t).mp h)
    rw [if_neg h0, if_neg h0, PhiS0_castSucc V c t, PhiS0_pos V c _ _ hz]
    by_cases h1 : t.val % 25 = 24
    · have hc1 : cond0_1 (grid0.coords t) := (hcond0_1 t).mpr h1
      rw [show (dat0 V c).leavesExact 9 t = owns (c : Thread nD τ) (ms0_9 t) fullShare ((dat0 V c).after 9 t) from by
        unfold Dat.leavesExact; rw [live0_9 _ hc1], after0_9, scI0_eq V c t, scJ0_eq V c t, if_neg h0, if_neg h0]
      iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run0_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) hc0 hc1 ((dat0 V c).after 0 t) ((dat0 V c).after 1 t) ((dat0 V c).after 2 t) ((dat0 V c).after 3 t) ((dat0 V c).after 4 t) ((dat0 V c).after 5 t) ((dat0 V c).after 6 t) ((dat0 V c).after 7 t) ((dat0 V c).after 8 t) (scI0 V c (t.val - 1) (Nat.lt_of_le_of_lt (Nat.sub_le _ _) t.isLt)) (scJ0 V c (t.val - 1) (Nat.lt_of_le_of_lt (Nat.sub_le _ _) t.isLt)) Set.univ _)
      iframe H0 H1 H2 H3 H4 H5 H6 H7 H8
      isplitl [H9]; · iexists _; iexact H9
      iframe HI HJ
      iintro ⟨H0, H1, H2, H3, H4, H5, H6, H7, H8, H9, HI, HJ⟩
      iframe
      isplitl [HI HJ]
      · isplitl [HI]; · iexact HI
        iexact HJ
      iexact H9
    · have hc1 : ¬cond0_1 (grid0.coords t) := fun h => h1 ((hcond0_1 t).mp h)
      rw [Dat.leavesExact_idle (dat0 V c) 9 t (idle0_9 _ hc1) (noFlush0_9 t h1)]
      iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run0_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) hc0 hc1 ((dat0 V c).after 0 t) ((dat0 V c).after 1 t) ((dat0 V c).after 2 t) (scI0 V c (t.val - 1) (Nat.lt_of_le_of_lt (Nat.sub_le _ _) t.isLt)) (scJ0 V c (t.val - 1) (Nat.lt_of_le_of_lt (Nat.sub_le _ _) t.isLt)) Set.univ _)
      iframe H0 H1 H2 HI HJ
      iintro ⟨H0, H1, H2, HI, HJ⟩
      iframe
      isplitl [HI HJ]
      · isplitl [HI]; · iexact HI
        iexact HJ
      iexists _; iexact H9

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c :=
  PhiS0_weak V c (Fin.last cfg0.N).val (Nat.le_of_lt_succ (Fin.last cfg0.N).isLt)

end Cert.KernelIdeal.Hand
end
-- ==== Proof.KI.R1Run.lean ====
import proofs.«415925_j84189948936386_1_alg».proof.Proof.Gen.KernelIdeal.Launch
import proofs.«415925_j84189948936386_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.WholeRead
import Idealize.ShloMosaic.Lib.WritesUnit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem read_writes_whole1 {sg : RefSig} {κ : Kind} {sp : Space} {s : Shape} {e : EltTy} {Val : EltTy → Type}
    (v : View sg κ sp s e) (f : v.ty.Contents Val) {off : Fin s.rank → ℕ} (inb : ∀ a, off a + s.size a ≤ s.size a)
    (w : s.Idx → Val e) (L : List (View.Piece Val s e)) :
    v.read Val (v.writes Val f ((⟨Rect.unit off s.size inb, w⟩ : View.Piece Val s e) :: L)) = w :=
  funext fun y => View.read_writes_cons_unit_of_mem v f inb w L y y rfl fun a => by have := inb a; omega

theorem readAt_whole1 {sg : RefSig} {κ : Kind} {sp : Space} {s : Shape} {e : EltTy} {Val : EltTy → Type}
    {m : Memref sg κ sp s e} (h : m.IsWhole) (X : s.Idx → Val e) {off : Fin s.rank → ℕ}
    (inb : ∀ a, off a + s.size a ≤ s.size a) :
    m.view.readAt Val (Rect.unit off s.size inb).toLoadRect (h.unread X) = X :=
  funext fun x => (h.readAt_unread X _ x).trans (congrArg X (funext fun a => Fin.ext (by
    show off a + 1 * (x a).val = (x a).val
    have := inb a; omega)))

theorem coords1_1 (t : Fin cfg1.N) : ((grid1.coords t) 1).val = t.val % 196 := by
  have hs : grid1.stride 1 = 1 := by decide
  have hb : grid1.bound 1 = 196 := rfl
  show t.val / grid1.stride 1 % grid1.bound 1 = t.val % 196
  rw [hs, hb, Nat.div_one]

theorem coords1_0 (t : Fin cfg1.N) : ((grid1.coords t) 0).val = t.val / 196 % 25 := by
  have hs : grid1.stride 0 = 196 := by decide
  have hb : grid1.bound 0 = 25 := rfl
  show t.val / grid1.stride 0 % grid1.bound 0 = t.val / 196 % 25
  rw [hs, hb]

abbrev cond1_0 (i : grid1.Coords) : Prop :=
  (Scalar.cmpi .ne (Scalar.extui (Scalar.cmpi .eq (BitVec.ofNat 32 (i 1).val) 0#32)) 0#32) = 1#1

abbrev cond1_1 (i : grid1.Coords) : Prop := k1_cond2 i = 1#1

theorem cond1_0_iff : ∀ j : Fin 196,
    ((Scalar.cmpi .ne (Scalar.extui (Scalar.cmpi .eq (BitVec.ofNat 32 j.val) 0#32)) 0#32) = 1#1) ↔ j.val = 0 := by decide +kernel
theorem cond1_1_iff : ∀ j : Fin 196,
    ((Scalar.cmpi .ne (Scalar.extui (Scalar.cmpi .eq (BitVec.ofNat 32 j.val) 195#32)) 0#32) = 1#1) ↔ j.val = 195 := by decide +kernel

theorem hcond1_0 (t : Fin cfg1.N) : cond1_0 (grid1.coords t) ↔ t.val % 196 = 0 :=
  (cond1_0_iff (grid1.coords t 1)).trans (by rw [coords1_1 t])

theorem hcond1_1 (t : Fin cfg1.N) : cond1_1 (grid1.coords t) ↔ t.val % 196 = 195 :=
  (cond1_1_iff (grid1.coords t 1)).trans (by rw [coords1_1 t])

theorem idleAt1_5 (i : grid1.Coords) (h : ¬cond1_1 i) : cfg1.idle 5 i = true := by
  show (!(k1_cond2 i == 1#1)) = true
  rw [show (k1_cond2 i == 1#1) = false from beq_false_of_ne h]; rfl

theorem liveAt1_5 (i : grid1.Coords) (h : cond1_1 i) : cfg1.idle 5 i = false := by
  show (!(k1_cond2 i == 1#1)) = false
  rw [show (k1_cond2 i == 1#1) = true from beq_iff_eq.mpr h]; rfl

theorem noFlush1_5 (t : Fin cfg1.N) (h : ¬t.val % 196 = 195) : (cfg1.win 5).flush t = false := by
  have hN : grid1.N = 4900 := N_1
  have ht : t.val < 4900 := lt_of_lt_of_eq t.isLt hN
  have hidx : ∀ hlt : t.val + 1 < grid1.N, (cfg1.win 5).index ⟨t.val + 1, hlt⟩ = (cfg1.win 5).index t := fun hlt => by
    have e : grid1.coords ⟨t.val + 1, hlt⟩ 0 = grid1.coords t 0 :=
      Fin.ext ((coords1_0 ⟨t.val + 1, hlt⟩).trans (Eq.trans (by
        show (t.val + 1) / 196 % 25 = t.val / 196 % 25
        omega) (coords1_0 t).symm))
    show cc1_transform_5 (grid1.coords ⟨t.val + 1, hlt⟩) = cc1_transform_5 (grid1.coords t)
    unfold cc1_transform_5; rw [e]
  refine Bool.eq_false_iff.mpr fun hf => ?_
  simp only [Pipeline.Window.flush, Bool.and_eq_true, Bool.or_eq_true, decide_eq_true_eq] at hf
  rcases hf with ⟨-, hlast | ⟨hlt, hne⟩⟩
  · omega
  · exact hne (hidx hlt)

variable (c : Dev nD) (i : grid1.Coords) (arg2 : Memref sig .tc .vmem S2048 .i32) (harg2 : arg2.IsWhole) (arg3 : Memref sig .tc .vmem S2048x20 .f32) (harg3 : arg3.IsWhole) (arg4 : Memref sig .tc .vmem S1024x1 .f32) (harg4 : arg4.IsWhole) (arg5 : Memref sig .tc .vmem S1x20 .f32) (harg5 : arg5.IsWhole) (arg6 : Memref sig .tc .vmem S20 .f32) (harg6 : arg6.IsWhole) (arg7 : Memref sig .tc .vmem S1024x20 .f32) (harg7 : arg7.IsWhole) (arg8 : Memref sig .tc .vmem S1024x20 .f32) (harg8 : arg8.IsWhole)

set_option maxHeartbeats 1000000 in

theorem run1_first
    (hc0 : cond1_0 i) (hc1 : ¬cond1_1 i) (x0 : Vec F S2048 .i32) (x1 : Vec F S2048x20 .f32) (x2 : Vec F S1024x1 .f32) (x3 : Vec F S1x20 .f32) (x4 : Vec F S20 .f32) (xi5 : Vec F S1024x20 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (k1_pay2 i x0 x1 (k1_pay1 (F := F)))) -∗ K ⟨⟩))
      ⊢ wp frame (wpE (defs₀ (F := F)) Variants.none c none) E (cc1__scatter_residual_kernel i arg2 harg2 arg3 harg3 arg4 harg4 arg5 harg5 arg6 harg6 arg7 harg7 arg8 harg8) K := by
  simp only [cc1__scatter_residual_kernel_eq_skeleton]; unfold cc1__scatter_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  refine (read_writes_whole1 _ _ _ _ _).trans ?_
  rw [readAt_whole1 harg2, readAt_whole1 harg3]
  refine congrArg (k1_pay2 i x0 x1) ?_
  unfold run1_first.sl.v18 run1_first.sl.HS_1
  exact View.readCov_cons_toLoadRect _ _ _ _

set_option maxHeartbeats 1000000 in

theorem run1_mid
    (hc0 : ¬cond1_0 i) (hc1 : ¬cond1_1 i) (x0 : Vec F S2048 .i32) (x1 : Vec F S2048x20 .f32) (x2 : Vec F S1024x1 .f32) (x3 : Vec F S1x20 .f32) (x4 : Vec F S20 .f32) (xi5 : Vec F S1024x20 .f32) (xs : Vec F S1024x20 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (k1_pay2 i x0 x1 xs)) -∗ K ⟨⟩))
      ⊢ wp frame (wpE (defs₀ (F := F)) Variants.none c none) E (cc1__scatter_residual_kernel i arg2 harg2 arg3 harg3 arg4 harg4 arg5 harg5 arg6 harg6 arg7 harg7 arg8 harg8) K := by
  simp only [cc1__scatter_residual_kernel_eq_skeleton]; unfold cc1__scatter_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf5; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  refine (read_writes_whole1 _ _ _ _ _).trans ?_
  rw [readAt_whole1 harg2, readAt_whole1 harg3, readAt_whole1 harg8]

set_option maxHeartbeats 1000000 in

theorem run1_last
    (hc0 : ¬cond1_0 i) (hc1 : cond1_1 i) (x0 : Vec F S2048 .i32) (x1 : Vec F S2048x20 .f32) (x2 : Vec F S1024x1 .f32) (x3 : Vec F S1x20 .f32) (x4 : Vec F S20 .f32) (xs : Vec F S1024x20 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay3 x2 x3 x4 (k1_pay2 i x0 x1 xs))
            ∗ owns (c : Thread nD τ) arg8 fullShare (k1_pay2 i x0 x1 xs)) -∗ K ⟨⟩))
      ⊢ wp frame (wpE (defs₀ (F := F)) Variants.none c none) E (cc1__scatter_residual_kernel i arg2 harg2 arg3 harg3 arg4 harg4 arg5 harg5 arg6 harg6 arg7 harg7 arg8 harg8) K := by
  simp only [cc1__scatter_residual_kernel_eq_skeleton]; unfold cc1__scatter_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (read_writes_whole1 _ _ _ _ _).trans ?_
    rw [readAt_whole1 harg4, readAt_whole1 harg5, readAt_whole1 harg6]
    refine congrArg (k1_pay3 x2 x3 x4) ?_
    unfold run1_last.sl.v37
    refine (View.readCov_cons_toLoadRect _ _ _ _).trans ?_
    rw [readAt_whole1 harg2, readAt_whole1 harg3, readAt_whole1 harg8]
  iexists _; isplitr
  swap; · iexact HS
  ipureintro
  refine (read_writes_whole1 _ _ _ _ _).trans ?_
  rw [readAt_whole1 harg2, readAt_whole1 harg3, readAt_whole1 harg8]

end Cert.KernelIdeal.Hand

end
-- ==== Proof.KI.R1Dat.lean ====
import proofs.«415925_j84189948936386_1_alg».proof.Proof.KI.R1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def sc1 (c : Dev nD) : (n : ℕ) → n < cfg1.N → Vec F S1024x20 .f32
  | 0, hn => k1_pay2 (grid1.coords ⟨0, hn⟩) (iblk1 V c 0 ⟨0, hn⟩) (iblk1 V c 1 ⟨0, hn⟩) (k1_pay1 (F := F))
  | n + 1, hn => k1_pay2 (grid1.coords ⟨n + 1, hn⟩) (iblk1 V c 0 ⟨n + 1, hn⟩) (iblk1 V c 1 ⟨n + 1, hn⟩)
      (if (n + 1) % 196 = 0 then k1_pay1 (F := F) else sc1 c n (Nat.lt_of_succ_lt hn))

theorem sc1_eq (c : Dev nD) (t : Fin cfg1.N) :
    sc1 V c t.val t.isLt = k1_pay2 (grid1.coords t) (iblk1 V c 0 t) (iblk1 V c 1 t)
      (if t.val % 196 = 0 then k1_pay1 (F := F) else sc1 V c (t.val - 1) (Nat.lt_of_le_of_lt (Nat.sub_le _ _) t.isLt)) := by
  obtain ⟨n, hn⟩ := t
  cases n with
  | zero => exact (congrArg (k1_pay2 (grid1.coords ⟨0, hn⟩) (iblk1 V c 0 ⟨0, hn⟩) (iblk1 V c 1 ⟨0, hn⟩)) (if_pos (Nat.zero_mod 196)).symm)
  | succ n => exact rfl

abbrev scM1 : Memref sig .tc .vmem S1024x20 .f32 := Memref.whole cc1_scratch0

theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

def PhiS1 (c : Dev nD) : (n : ℕ) → n ≤ cfg1.N → sProp 𝕄
  | 0, _ => Pipeline.ΦA spec1 c
  | n + 1, hn => iprop(iprop(owns (c : Thread nD τ) scM1 fullShare (sc1 V c n hn) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (sc1 V c n hn) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (sc1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay3 (iblk1 V c 2 t) (iblk1 V c 3 t) (iblk1 V c 4 t) (sc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := rfl

theorem after1_5_flush (c : Dev nD) (t : Fin cfg1.N) (h : t.val % 196 = 195) :
    (dat1 V c).after 5 t = k1_pay3 (iblk1 V c 2 t) (iblk1 V c 3 t) (iblk1 V c 4 t) (sc1 V c t.val t.isLt) := by
  dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d

abbrev ms1_0 (t : Fin cfg1.N) : Memref sig .tc .vmem S2048 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x20 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x20 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S20 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x20 .f32 := win1_5.stage (cfg1.slots t 5)
abbrev hs1_5 (t : Fin cfg1.N) : (ms1_5 t).IsWhole := hstage1_5 ((cfg1.slots t 5).cast nbuf1_5)

abbrev bodyAt1 (t : Fin cfg1.N) : Prog (TpuEff nD τ sig (Elt F) Λ₀ .tc) PUnit :=
  cc1__scatter_residual_kernel (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _)

theorem leaves1_0 (c : Dev nD) (t : Fin cfg1.N) :
    (dat1 V c).leavesExact 0 t = owns (c : Thread nD τ) (ms1_0 t) fullShare (iblk1 V c 0 t) := rfl
theorem leaves1_1 (c : Dev nD) (t : Fin cfg1.N) :
    (dat1 V c).leavesExact 1 t = owns (c : Thread nD τ) (ms1_1 t) fullShare (iblk1 V c 1 t) := rfl
theorem leaves1_2 (c : Dev nD) (t : Fin cfg1.N) :
    (dat1 V c).leavesExact 2 t = owns (c : Thread nD τ) (ms1_2 t) fullShare (iblk1 V c 2 t) := rfl
theorem leaves1_3 (c : Dev nD) (t : Fin cfg1.N) :
    (dat1 V c).leavesExact 3 t = owns (c : Thread nD τ) (ms1_3 t) fullShare (iblk1 V c 3 t) := rfl
theorem leaves1_4 (c : Dev nD) (t : Fin cfg1.N) :
    (dat1 V c).leavesExact 4 t = owns (c : Thread nD τ) (ms1_4 t) fullShare (iblk1 V c 4 t) := rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

theorem Phi_out1 (c : Dev nD) (t : Fin (cfg1.N + 1)) : (dat1 V c).Φ t ⊢ Pipeline.ΦA spec1 c := by
  rw [show (dat1 V c).Φ t = PhiS1 V c t.val (Nat.le_of_lt_succ t.isLt) from rfl]
  by_cases ht : t.val = 0
  · rw [PhiS1_zero V c _ _ ht]
  rw [PhiS1_pos V c _ _ ht, PhiA1_eq]
  iintro ⟨⟨HS, HR⟩, Hg⟩
  iframe HR Hg
  iexists _; iexact HS

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V, before1_2 V, before1_3 V, before1_4 V]
  rw [show (dat1 V c).owesAt () t.succ = (dat1 V c).owesAt () t.castSucc from rfl]
  rw [show (dat1 V c).Φ t.succ = PhiS1 V c (t.val + 1) t.isLt from rfl, PhiS1_succ]
  rw [leaves1_0 V c t, leaves1_1 V c t, leaves1_2 V c t, leaves1_3 V c t, leaves1_4 V c t]
  by_cases h0 : t.val % 196 = 0
  · have h1 : ¬t.val % 196 = 195 := by omega
    rw [Dat.leavesExact_idle (dat1 V c) 5 t (idleAt1_5 _ (fun h => h1 ((hcond1_1 t).mp h))) (noFlush1_5 t h1)]
    rw [sc1_eq V c t, if_pos h0]
    refine (sep_mono_left (Phi_out1 V c t.castSucc)).trans ?_
    rw [PhiA1_eq]
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩⟩
    iapply (run1_first c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) _ Set.univ _)
    iframe H0 H1 H2 H3 H4 H5
    isplitl [HS]; · iexists _; iexact HS
    iintro ⟨H0, H1, H2, H3, H4, H5, HS⟩
    iframe HS HR Hg Ho H0 H1 H2 H3 H4
    iexists _; iexact H5
  · rw [PhiS1_castSucc V c t, PhiS1_pos V c _ _ (by omega)]
    by_cases h1 : t.val % 196 = 195
    · rw [show (dat1 V c).leavesExact 5 t = owns (c : Thread nD τ) (ms1_5 t) fullShare ((dat1 V c).after 5 t) from by
        unfold Dat.leavesExact; rw [liveAt1_5 _ ((hcond1_1 t).mpr h1)], after1_5_flush V c t h1]
      rw [sc1_eq V c t, if_neg h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run1_last c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) _ Set.univ _)
      iframe H0 H1 H2 H3 H4 HS
      isplitl [H5]; · iexists _; iexact H5
      iintro ⟨H0, H1, H2, H3, H4, H5, HS⟩
      iframe HS HR Hg Ho H0 H1 H2 H3 H4
      iexact H5
    · rw [Dat.leavesExact_idle (dat1 V c) 5 t (idleAt1_5 _ (fun h => h1 ((hcond1_1 t).mp h))) (noFlush1_5 t h1)]
      rw [sc1_eq V c t, if_neg h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run1_mid c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _ _ Set.univ _)
      iframe H0 H1 H2 H3 H4 H5 HS
      iintro ⟨H0, H1, H2, H3, H4, H5, HS⟩
      iframe HS HR Hg Ho H0 H1 H2 H3 H4
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 :=
  Idealize.SL.BI.Entails.refl _

theorem hout1 (c : Dev nD) : (dat1 V c).Φ (Fin.last cfg1.N) ⊢ Pipeline.ΦA spec1 c :=
  Phi_out1 V c _

end Cert.KernelIdeal.Hand

end
-- ==== Proof.KI.R2Run.lean ====
import proofs.«415925_j84189948936386_1_alg».proof.Proof.Gen.KernelIdeal.Launch
import proofs.«415925_j84189948936386_1_alg».proof.Proof.Gen.KernelIdeal.Skeleton
import proofs.«415925_j84189948936386_1_alg».proof.Proof.KI.Whole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop :=
  (Scalar.cmpi .ne (Scalar.extui (Scalar.cmpi .eq (BitVec.ofNat 32 (i 1).val) 0#32)) 0#32) = 1#1

abbrev cond2_1 (i : grid2.Coords) : Prop := k2_cond2 i = 1#1

theorem coords2_1 (t : Fin cfg2.N) : ((grid2.coords t) 1).val = t.val % 25 := by
  have hs : grid2.stride 1 = 1 := by decide
  have hb : grid2.bound 1 = 25 := rfl
  show t.val / grid2.stride 1 % grid2.bound 1 = t.val % 25
  rw [hs, hb, Nat.div_one]

theorem cond2_0_iff : ∀ j : Fin 25,
    ((Scalar.cmpi .ne (Scalar.extui (Scalar.cmpi .eq (BitVec.ofNat 32 j.val) 0#32)) 0#32) = 1#1) ↔ j.val = 0 := by decide
theorem cond2_1_iff : ∀ j : Fin 25,
    ((Scalar.cmpi .ne (Scalar.extui (Scalar.cmpi .eq (BitVec.ofNat 32 j.val) 24#32)) 0#32) = 1#1) ↔ j.val = 24 := by decide

theorem hcond2_0 (t : Fin cfg2.N) : cond2_0 (grid2.coords t) ↔ t.val % 25 = 0 :=
  (cond2_0_iff (grid2.coords t 1)).trans (by rw [coords2_1 t])

theorem hcond2_1 (t : Fin cfg2.N) : cond2_1 (grid2.coords t) ↔ t.val % 25 = 24 :=
  (cond2_1_iff (grid2.coords t 1)).trans (by rw [coords2_1 t])

variable (c : Dev nD) (i : grid2.Coords) (arg2 : Memref sig .tc .vmem S2048 .i32) (harg2 : arg2.IsWhole) (arg3 : Memref sig .tc .vmem S2048 .i32) (harg3 : arg3.IsWhole) (arg4 : Memref sig .tc .vmem S1024x20 .f32) (harg4 : arg4.IsWhole) (arg5 : Memref sig .tc .vmem S40x200 .f32) (harg5 : arg5.IsWhole) (arg6 : Memref sig .tc .vmem S200 .f32) (harg6 : arg6.IsWhole) (arg7 : Memref sig .tc .vmem S200x20 .f32) (harg7 : arg7.IsWhole) (arg8 : Memref sig .tc .vmem S20 .f32) (harg8 : arg8.IsWhole) (arg9 : Memref sig .tc .vmem S20x20 .f32) (harg9 : arg9.IsWhole) (arg10 : Memref sig .tc .vmem S20 .f32) (harg10 : arg10.IsWhole) (arg11 : Memref sig .tc .vmem S2048x20 .f32) (harg11 : arg11.IsWhole) (arg12 : Memref sig .tc .vmem S2048x20 .f32) (harg12 : arg12.IsWhole) (arg13 : Memref sig .tc .vmem S2048x20 .f32) (harg13 : arg13.IsWhole)

set_option maxHeartbeats 1000000 in

theorem run2_first
    (hc0 : cond2_0 i) (hc1 : ¬cond2_1 i)
    (x0 : Vec F S2048 .i32) (x1 : Vec F S2048 .i32) (x2 : Vec F S1024x20 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2
            ∗ owns (c : Thread nD τ) arg12 fullShare (k2_pay6 i x1 x2 k2_pay2) ∗ owns (c : Thread nD τ) arg13 fullShare (k2_pay7 i x0 x2 k2_pay3)) -∗ K ⟨⟩))
      ⊢ wp frame (wpE (defs₀ (F := F)) Variants.none c none) E (cc2__gather_mlp_kernel i arg2 harg2 arg3 harg3 arg4 harg4 arg5 harg5 arg6 harg6 arg7 harg7 arg8 harg8 arg9 harg9 arg10 harg10 arg11 harg11 arg12 harg12 arg13 harg13) K := by
  sl_unfold [cc2__gather_mlp_kernel]
  unfold owns
  iintro ⟨⟨%f0, %hf0, H0⟩, ⟨%f1, %hf1, H1⟩, ⟨%f2, %hf2, H2⟩, ⟨%dI, %fI, -, HI⟩, ⟨%dJ, %fJ, -, HJ⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HI]
  · iexists _; isplitr
    swap; · iexact HI
    ipureintro
    refine (read_writes_full _ _ _ _ _).trans ?_
    sl_unfold_run_names
    rw [readAt_unread_full harg3, readAt_unread_full harg4, readCov_full]
  · iexists _; isplitr
    swap; · iexact HJ
    ipureintro
    refine (read_writes_full _ _ _ _ _).trans ?_
    sl_unfold_run_names
    rw [readAt_unread_full harg2, readAt_unread_full harg4, readCov_full]

set_option maxHeartbeats 1000000 in

theorem run2_mid
    (hc0 : ¬cond2_0 i) (hc1 : ¬cond2_1 i)
    (x0 : Vec F S2048 .i32) (x1 : Vec F S2048 .i32) (x2 : Vec F S1024x20 .f32)
    (a : Vec F S2048x20 .f32) (b : Vec F S2048x20 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg12 fullShare a ∗ owns (c : Thread nD τ) arg13 fullShare b
        ∗ (iprop(owns (c : Thread nD τ) arg2 fullShare x0 ∗ owns (c : Thread nD τ) arg3 fullShare x1 ∗ owns (c : Thread nD τ) arg4 fullShare x2
            ∗ owns (c : Thread nD τ) arg12 fullShare (k2_pay6 i x1 x2 a) ∗ owns (c : Thread nD τ) arg13 fullShare (k2_pay7 i x0 x2 b)) -∗ K ⟨⟩))
      ⊢ wp frame (wpE (defs₀ (F := F)) Variants.none c none) E (cc2__gather_mlp_kernel i arg2 harg2 arg3 harg3 arg4 harg4 arg5 harg5 arg6 harg6 arg7 harg7 arg8 harg8 arg9 harg9 arg10 harg10 arg11 harg11 arg12 harg12 arg13 harg13) K := by
  sl_unfold [cc2__gather_mlp_kernel]
  unfold owns
  iintro ⟨⟨%f0, %hf0, H0⟩, ⟨%f1, %hf1, H1⟩, ⟨%f2, %hf2, H2⟩, ⟨%fI, %hfI, HI⟩, ⟨%fJ, %hfJ, HJ⟩, Hk⟩
  obtain rfl := harg2.eq_unread hf0; obtain rfl := harg3.eq_unread hf1; obtain rfl := harg4.eq_unread hf2
  obtain rfl := harg12.eq_unread hfI; obtain rfl := harg13.eq_unread hfJ
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HI]
  · iexists _; isplitr
    swap; · iexact HI
    ipureintro
    refine (read_writes_full _ _ _ _ _).trans ?_
    sl_unfold_run_names
    rw [readAt_unread_full harg3, readAt_unread_full harg4, readAt_unread_full harg12]
  · iexists _; isplitr
    swap; · iexact HJ
    ipureintro
    refine (read_writes_full _ _ _ _ _).trans ?_
    sl_unfold_run_names
    rw [readAt_unread_full harg2, readAt_unread_full harg4, readAt_unread_full harg13]

set_option maxHeartbeats 1000000 in

theorem run2_last
    (hc0 : ¬cond2_0 i) (hc1 : cond2_1 i)
    (x0 : Vec F S2048 .i32) (x1 : Vec F S2048 .i32) (x2 : Vec F S1024x20 .f32)
    (x3 : Vec F S40x200 .f32) (x4 : Vec F S200 .f32) (x5 : Vec F S200x20 .f32) (x6 : Vec F S20 .f32) (x7 : Vec F S20x20 .f32) (x8 : Vec F S20 .f32)
    (a : Vec F S2048x20 .f32) (b : Vec F S2048x20 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8
        ∗ (∃ d, owns (c : Thread nD τ) arg11 fullShare d)
        ∗ owns (c : Thread nD τ) arg12 fullShare a ∗ owns (c : Thread nD τ) arg13 fullShare b
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare (k2_pay1 (k2_pay6 i x1 x2 a) (k2_pay7 i x0 x2 b) x3 x4 x5 x6 x7 x8)
            ∗ owns (c : Thread nD τ) arg12 fullShare (k2_pay6 i x1 x2 a) ∗ owns (c : Thread nD τ) arg13 fullShare (k2_pay7 i x0 x2 b)) -∗ K ⟨⟩))
      ⊢ wp frame (wpE (defs₀ (F := F)) Variants.none c none) E (cc2__gather_mlp_kernel i arg2 harg2 arg3 harg3 arg4 harg4 arg5 harg5 arg6 harg6 arg7 harg7 arg8 harg8 arg9 harg9 arg10 harg10 arg11 harg11 arg12 harg12 arg13 harg13) K := by
  sl_unfold [cc2__gather_mlp_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dO, %fO, -, HO⟩, ⟨%fI, %hfI, HI⟩, ⟨%fJ, %hfJ, HJ⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg12.eq_unread hfI; obtain rfl := harg13.eq_unread hfJ
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HO]
  · iexists _; isplitr
    swap; · iexact HO
    ipureintro
    refine (read_writes_full _ _ _ _ _).trans ?_
    sl_unfold_run_names
    rw [readCov_full, readCov_full, readAt_unread_full harg3, readAt_unread_full harg4, readAt_unread_full harg12, readAt_unread_full harg2, readAt_unread_full harg13, readAt_unread_full harg5, readAt_unread_full harg6, readAt_unread_full harg7, readAt_unread_full harg8, readAt_unread_full harg9, readAt_unread_full harg10]
  isplitl [HI]
  · iexists _; isplitr
    swap; · iexact HI
    ipureintro
    refine (read_writes_full _ _ _ _ _).trans ?_
    sl_unfold_run_names
    rw [readAt_unread_full harg3, readAt_unread_full harg4, readAt_unread_full harg12]
  · iexists _; isplitr
    swap; · iexact HJ
    ipureintro
    refine (read_writes_full _ _ _ _ _).trans ?_
    sl_unfold_run_names
    rw [readAt_unread_full harg2, readAt_unread_full harg4, readAt_unread_full harg13]

end Cert.KernelIdeal.Hand
end
-- ==== Proof.KI.R2Dat.lean ====
import proofs.«415925_j84189948936386_1_alg».proof.Proof.KI.R2Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev ms2_0 (t : Fin cfg2.N) : Memref sig .tc .vmem S2048 .i32 := (cfg2.win 0).stage (cfg2.slots t 0)
abbrev hs2_0 (t : Fin cfg2.N) : (ms2_0 t).IsWhole := hstage2_0 ((cfg2.slots t 0).cast nbuf2_0)
abbrev ms2_1 (t : Fin cfg2.N) : Memref sig .tc .vmem S2048 .i32 := (cfg2.win 1).stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x20 .f32 := (cfg2.win 2).stage (cfg2.slots t 2)
abbrev hs2_2 (t : Fin cfg2.N) : (ms2_2 t).IsWhole := hstage2_2 ((cfg2.slots t 2).cast nbuf2_2)
abbrev ms2_3 (t : Fin cfg2.N) : Memref sig .tc .vmem S40x200 .f32 := (cfg2.win 3).stage (cfg2.slots t 3)
abbrev hs2_3 (t : Fin cfg2.N) : (ms2_3 t).IsWhole := hstage2_3 ((cfg2.slots t 3).cast nbuf2_3)
abbrev ms2_4 (t : Fin cfg2.N) : Memref sig .tc .vmem S200 .f32 := (cfg2.win 4).stage (cfg2.slots t 4)
abbrev hs2_4 (t : Fin cfg2.N) : (ms2_4 t).IsWhole := hstage2_4 ((cfg2.slots t 4).cast nbuf2_4)
abbrev ms2_5 (t : Fin cfg2.N) : Memref sig .tc .vmem S200x20 .f32 := (cfg2.win 5).stage (cfg2.slots t 5)
abbrev hs2_5 (t : Fin cfg2.N) : (ms2_5 t).IsWhole := hstage2_5 ((cfg2.slots t 5).cast nbuf2_5)
abbrev ms2_6 (t : Fin cfg2.N) : Memref sig .tc .vmem S20 .f32 := (cfg2.win 6).stage (cfg2.slots t 6)
abbrev hs2_6 (t : Fin cfg2.N) : (ms2_6 t).IsWhole := hstage2_6 ((cfg2.slots t 6).cast nbuf2_6)
abbrev ms2_7 (t : Fin cfg2.N) : Memref sig .tc .vmem S20x20 .f32 := (cfg2.win 7).stage (cfg2.slots t 7)
abbrev hs2_7 (t : Fin cfg2.N) : (ms2_7 t).IsWhole := hstage2_7 ((cfg2.slots t 7).cast nbuf2_7)
abbrev ms2_8 (t : Fin cfg2.N) : Memref sig .tc .vmem S20 .f32 := (cfg2.win 8).stage (cfg2.slots t 8)
abbrev hs2_8 (t : Fin cfg2.N) : (ms2_8 t).IsWhole := hstage2_8 ((cfg2.slots t 8).cast nbuf2_8)
abbrev ms2_9 (t : Fin cfg2.N) : Memref sig .tc .vmem S2048x20 .f32 := (cfg2.win 9).stage (cfg2.slots t 9)
abbrev hs2_9 (t : Fin cfg2.N) : (ms2_9 t).IsWhole := hstage2_9 ((cfg2.slots t 9).cast nbuf2_9)

abbrev scM2_0 : Memref sig .tc .vmem S2048x20 .f32 := Memref.whole cc2_scratch0
abbrev scM2_1 : Memref sig .tc .vmem S2048x20 .f32 := Memref.whole cc2_scratch1

def scI2 (c : Dev nD) : (n : ℕ) → n < cfg2.N → Vec F S2048x20 .f32
  | 0, hn => k2_pay6 (grid2.coords ⟨0, hn⟩) (iblk2 V c 1 ⟨0, hn⟩) (iblk2 V c 2 ⟨0, hn⟩) k2_pay2
  | n + 1, hn => k2_pay6 (grid2.coords ⟨n + 1, hn⟩) (iblk2 V c 1 ⟨n + 1, hn⟩) (iblk2 V c 2 ⟨n + 1, hn⟩)
      (if (n + 1) % 25 = 0 then k2_pay2 else scI2 c n (Nat.lt_of_succ_lt hn))

def scJ2 (c : Dev nD) : (n : ℕ) → n < cfg2.N → Vec F S2048x20 .f32
  | 0, hn => k2_pay7 (grid2.coords ⟨0, hn⟩) (iblk2 V c 0 ⟨0, hn⟩) (iblk2 V c 2 ⟨0, hn⟩) k2_pay3
  | n + 1, hn => k2_pay7 (grid2.coords ⟨n + 1, hn⟩) (iblk2 V c 0 ⟨n + 1, hn⟩) (iblk2 V c 2 ⟨n + 1, hn⟩)
      (if (n + 1) % 25 = 0 then k2_pay3 else scJ2 c n (Nat.lt_of_succ_lt hn))

theorem scI2_eq (c : Dev nD) (t : Fin cfg2.N) :
    scI2 V c t.val t.isLt = k2_pay6 (grid2.coords t) (iblk2 V c 1 t) (iblk2 V c 2 t)
      (if t.val % 25 = 0 then k2_pay2 else scI2 V c (t.val - 1) (Nat.lt_of_le_of_lt (Nat.sub_le _ _) t.isLt)) := by
  obtain ⟨n, hn⟩ := t
  cases n with
  | zero => exact (congrArg (k2_pay6 _ _ _) (if_pos (Nat.zero_mod 25)).symm)
  | succ n => rfl

theorem scJ2_eq (c : Dev nD) (t : Fin cfg2.N) :
    scJ2 V c t.val t.isLt = k2_pay7 (grid2.coords t) (iblk2 V c 0 t) (iblk2 V c 2 t)
      (if t.val % 25 = 0 then k2_pay3 else scJ2 V c (t.val - 1) (Nat.lt_of_le_of_lt (Nat.sub_le _ _) t.isLt)) := by
  obtain ⟨n, hn⟩ := t
  cases n with
  | zero => exact (congrArg (k2_pay7 _ _ _) (if_pos (Nat.zero_mod 25)).symm)
  | succ n => rfl

abbrev rest2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c)
          ∗ (∃ r, prngReg c r)) := by
  unfold Pipeline.ΦA; rw [scopedRest2_split]; simp only [scM2_0, scM2_1, owns_whole]; try rfl

def PhiS2 (c : Dev nD) : (n : ℕ) → n ≤ cfg2.N → sProp 𝕄
  | 0, _ => Pipeline.ΦA spec2 c
  | n + 1, hn => iprop(iprop(iprop(owns (c : Thread nD τ) scM2_0 fullShare (scI2 V c n hn) ∗ owns (c : Thread nD τ) scM2_1 fullShare (scJ2 V c n hn)) ∗ rest2 c)
      ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (scI2 V c n hn) ∗ owns (c : Thread nD τ) scM2_1 fullShare (scJ2 V c n hn)) ∗ rest2 c)
      ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (scI2 V c (n - 1) (by omega)) ∗ owns (c : Thread nD τ) scM2_1 fullShare (scJ2 V c (n - 1) (by omega))) ∗ rest2 c)
      ∗ (∃ r, prngReg c r)) := by
  cases n with
  | zero => exact absurd rfl hz
  | succ n => rfl

theorem PhiS2_weak (c : Dev nD) (n : ℕ) (h : n ≤ cfg2.N) : PhiS2 V c n h ⊢ Pipeline.ΦA spec2 c := by
  cases n with
  | zero => exact Idealize.SL.BI.Entails.refl _
  | succ n =>
    rw [PhiS2_succ, PhiA2_eq]
    iintro ⟨⟨⟨HI, HJ⟩, HR⟩, Hg⟩
    isplitl [HI HJ HR]
    · isplitl [HI HJ]
      · isplitl [HI]; · iexists _; iexact HI
        iexists _; iexact HJ
      iexact HR
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => k2_pay1 (scI2 V c t.val t.isLt) (scJ2 V c t.val t.isLt) (iblk2 V c 3 t) (iblk2 V c 4 t) (iblk2 V c 5 t) (iblk2 V c 6 t) (iblk2 V c 7 t) (iblk2 V c 8 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_9 (c : Dev nD) (t : Fin cfg2.N) : (dat2 V c).after 9 t = k2_pay1 (scI2 V c t.val t.isLt) (scJ2 V c t.val t.isLt) (iblk2 V c 3 t) (iblk2 V c 4 t) (iblk2 V c 5 t) (iblk2 V c 6 t) (iblk2 V c 7 t) (iblk2 V c 8 t) := by dsimp only [dat2]

theorem after2_9_flush (c : Dev nD) (t : Fin cfg2.N) (h : t.val % 25 = 24) : (dat2 V c).after 9 t = k2_pay1 (scI2 V c t.val t.isLt) (scJ2 V c t.val t.isLt) (iblk2 V c 3 t) (iblk2 V c 4 t) (iblk2 V c 5 t) (iblk2 V c 6 t) (iblk2 V c 7 t) (iblk2 V c 8 t) :=
  after2_9 V c t

theorem before2_in (c : Dev nD) (w : Fin cfg2.W) (hw : w ≠ 9) (t : Fin cfg2.N) (d) : (dat2 V c).before w t d = (dat2 V c).after w t := by
  fin_cases w <;> first
    | exact absurd rfl hw
    | exact (dat2 V c).before_in_eq_fetched _ rfl (fun _ => rfl) (fun _ _ _ => rfl) (fun _ => rfl) t d

theorem leaves2_in (c : Dev nD) (w : Fin cfg2.W) (hw : w ≠ 9) (t : Fin cfg2.N) :
    (dat2 V c).leavesExact w t = owns (c : Thread nD τ) ((cfg2.win w).stage (cfg2.slots t w)) fullShare ((dat2 V c).after w t) := by
  fin_cases w <;> first | exact absurd rfl hw | rfl

theorem idle2_9 (i : grid2.Coords) (h : ¬cond2_1 i) : cfg2.idle 9 i = true := by
  show (!(k2_cond2 i == 1#1)) = true
  rw [Bool.not_eq_true', beq_eq_false_iff_ne]; exact h

theorem live2_9 (i : grid2.Coords) (h : cond2_1 i) : cfg2.idle 9 i = false := by
  show (!(k2_cond2 i == 1#1)) = false
  rw [Bool.not_eq_false', beq_iff_eq]; exact h

theorem noFlush2_9 (t : Fin cfg2.N) (h : ¬t.val % 25 = 24) : (cfg2.win 9).flush t = false := by
  have hN : grid2.N = 4900 := N_2
  have ht : t.val < 4900 := lt_of_lt_of_eq t.isLt hN
  have hs : grid2.stride 0 = 25 := by decide
  have hidx : ∀ h1 : t.val + 1 < grid2.N, win2_9.index ⟨t.val + 1, h1⟩ = win2_9.index t := fun h1 =>
    hreads2_9 _ _ (Fin.forall_fin_two.mpr ⟨fun _ => Fin.ext (by
      show (t.val + 1) / grid2.stride 0 % grid2.bound 0 = t.val / grid2.stride 0 % grid2.bound 0
      rw [hs]; congr 1; omega), fun ha => absurd ha (by decide)⟩)
  show (win2_9.isOut && (decide (t.val + 1 = grid2.N) || decide (∃ h1 : t.val + 1 < grid2.N, win2_9.index ⟨t.val + 1, h1⟩ ≠ win2_9.index t))) = false
  rw [Bool.and_eq_false_iff]; right
  rw [Bool.or_eq_false_iff]
  exact ⟨decide_eq_false (by omega), decide_eq_false fun ⟨h1, hne⟩ => hne (hidx h1)⟩

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 4800000 in
theorem sound_body2 (c : Dev nD) (t : Fin cfg2.N) :
    bodyPre2 V c t ⊢ wp frame (wpE (defs₀ (F := F)) Variants.none c none) Set.univ (cc2__gather_mlp_kernel (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _)) (fun _ => bodyPost2 V c t) := by
  unfold bodyPre2 bodyPost2
  simp (config := {decide := true}) only [before2_in]
  rw [show (dat2 V c).owesAt () t.succ = (dat2 V c).owesAt () t.castSucc from rfl]
  rw [show (dat2 V c).Φ t.succ = PhiS2 V c (t.val + 1) t.isLt from rfl, PhiS2_succ]
  simp (config := {decide := true}) only [leaves2_in]
  rw [scI2_eq V c t, scJ2_eq V c t]
  by_cases h0 : t.val % 25 = 0
  · have h1 : ¬t.val % 25 = 24 := by omega
    have hc0 : cond2_0 (grid2.coords t) := (hcond2_0 t).mpr h0
    have hc1 : ¬cond2_1 (grid2.coords t) := fun h => h1 ((hcond2_1 t).mp h)
    rw [Dat.leavesExact_idle (dat2 V c) 9 t (idle2_9 _ hc1) (noFlush2_9 t h1), if_pos h0, if_pos h0, PhiS2_castSucc V c t]
    refine (sep_mono_left (PhiS2_weak V c _ _)).trans ?_
    rw [PhiA2_eq]
    iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run2_first c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0 hc1 ((dat2 V c).after 0 t) ((dat2 V c).after 1 t) ((dat2 V c).after 2 t) Set.univ _)
    iframe H0 H1 H2 HI HJ
    iintro ⟨H0, H1, H2, HI, HJ⟩
    iframe
    isplitl [HI HJ]
    · isplitl [HI]; · iexact HI
      iexact HJ
    iexists _; iexact H9
  · have hz : t.val ≠ 0 := fun e => h0 (by rw [e])
    have hc0 : ¬cond2_0 (grid2.coords t) := fun h => h0 ((hcond2_0 t).mp h)
    rw [if_neg h0, if_neg h0, PhiS2_castSucc V c t, PhiS2_pos V c _ _ hz]
    by_cases h1 : t.val % 25 = 24
    · have hc1 : cond2_1 (grid2.coords t) := (hcond2_1 t).mpr h1
      rw [show (dat2 V c).leavesExact 9 t = owns (c : Thread nD τ) (ms2_9 t) fullShare ((dat2 V c).after 9 t) from by
        unfold Dat.leavesExact; rw [live2_9 _ hc1], after2_9, scI2_eq V c t, scJ2_eq V c t, if_neg h0, if_neg h0]
      iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run2_last c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0 hc1 ((dat2 V c).after 0 t) ((dat2 V c).after 1 t) ((dat2 V c).after 2 t) ((dat2 V c).after 3 t) ((dat2 V c).after 4 t) ((dat2 V c).after 5 t) ((dat2 V c).after 6 t) ((dat2 V c).after 7 t) ((dat2 V c).after 8 t) (scI2 V c (t.val - 1) (Nat.lt_of_le_of_lt (Nat.sub_le _ _) t.isLt)) (scJ2 V c (t.val - 1) (Nat.lt_of_le_of_lt (Nat.sub_le _ _) t.isLt)) Set.univ _)
      iframe H0 H1 H2 H3 H4 H5 H6 H7 H8
      isplitl [H9]; · iexists _; iexact H9
      iframe HI HJ
      iintro ⟨H0, H1, H2, H3, H4, H5, H6, H7, H8, H9, HI, HJ⟩
      iframe
      isplitl [HI HJ]
      · isplitl [HI]; · iexact HI
        iexact HJ
      iexact H9
    · have hc1 : ¬cond2_1 (grid2.coords t) := fun h => h1 ((hcond2_1 t).mp h)
      rw [Dat.leavesExact_idle (dat2 V c) 9 t (idle2_9 _ hc1) (noFlush2_9 t h1)]
      iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run2_mid c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0 hc1 ((dat2 V c).after 0 t) ((dat2 V c).after 1 t) ((dat2 V c).after 2 t) (scI2 V c (t.val - 1) (Nat.lt_of_le_of_lt (Nat.sub_le _ _) t.isLt)) (scJ2 V c (t.val - 1) (Nat.lt_of_le_of_lt (Nat.sub_le _ _) t.isLt)) Set.univ _)
      iframe H0 H1 H2 HI HJ
      iintro ⟨H0, H1, H2, HI, HJ⟩
      iframe
      isplitl [HI HJ]
      · isplitl [HI]; · iexact HI
        iexact HJ
      iexists _; iexact H9

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c :=
  PhiS2_weak V c (Fin.last cfg2.N).val (Nat.le_of_lt_succ (Fin.last cfg2.N).isLt)

end Cert.KernelIdeal.Hand
end
-- ==== Proof.KI.R3Run.lean ====
import proofs.«415925_j84189948936386_1_alg».proof.Proof.Gen.KernelIdeal.Launch
import proofs.«415925_j84189948936386_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.WholeRead
import Idealize.ShloMosaic.Lib.WritesUnit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem read_writes_whole3 {sg : RefSig} {κ : Kind} {sp : Space} {s : Shape} {e : EltTy} {Val : EltTy → Type}
    (v : View sg κ sp s e) (f : v.ty.Contents Val) {off : Fin s.rank → ℕ} (inb : ∀ a, off a + s.size a ≤ s.size a)
    (w : s.Idx → Val e) (L : List (View.Piece Val s e)) :
    v.read Val (v.writes Val f ((⟨Rect.unit off s.size inb, w⟩ : View.Piece Val s e) :: L)) = w :=
  funext fun y => View.read_writes_cons_unit_of_mem v f inb w L y y rfl fun a => by have := inb a; omega

theorem readAt_whole3 {sg : RefSig} {κ : Kind} {sp : Space} {s : Shape} {e : EltTy} {Val : EltTy → Type}
    {m : Memref sg κ sp s e} (h : m.IsWhole) (X : s.Idx → Val e) {off : Fin s.rank → ℕ}
    (inb : ∀ a, off a + s.size a ≤ s.size a) :
    m.view.readAt Val (Rect.unit off s.size inb).toLoadRect (h.unread X) = X :=
  funext fun x => (h.readAt_unread X _ x).trans (congrArg X (funext fun a => Fin.ext (by
    show off a + 1 * (x a).val = (x a).val
    have := inb a; omega)))

theorem coords3_1 (t : Fin cfg3.N) : ((grid3.coords t) 1).val = t.val % 196 := by
  have hs : grid3.stride 1 = 1 := by decide
  have hb : grid3.bound 1 = 196 := rfl
  show t.val / grid3.stride 1 % grid3.bound 1 = t.val % 196
  rw [hs, hb, Nat.div_one]

theorem coords3_0 (t : Fin cfg3.N) : ((grid3.coords t) 0).val = t.val / 196 % 25 := by
  have hs : grid3.stride 0 = 196 := by decide
  have hb : grid3.bound 0 = 25 := rfl
  show t.val / grid3.stride 0 % grid3.bound 0 = t.val / 196 % 25
  rw [hs, hb]

abbrev cond3_0 (i : grid3.Coords) : Prop :=
  (Scalar.cmpi .ne (Scalar.extui (Scalar.cmpi .eq (BitVec.ofNat 32 (i 1).val) 0#32)) 0#32) = 1#1

abbrev cond3_1 (i : grid3.Coords) : Prop := k3_cond2 i = 1#1

theorem cond3_0_iff : ∀ j : Fin 196,
    ((Scalar.cmpi .ne (Scalar.extui (Scalar.cmpi .eq (BitVec.ofNat 32 j.val) 0#32)) 0#32) = 1#1) ↔ j.val = 0 := by decide +kernel
theorem cond3_1_iff : ∀ j : Fin 196,
    ((Scalar.cmpi .ne (Scalar.extui (Scalar.cmpi .eq (BitVec.ofNat 32 j.val) 195#32)) 0#32) = 1#1) ↔ j.val = 195 := by decide +kernel

theorem hcond3_0 (t : Fin cfg3.N) : cond3_0 (grid3.coords t) ↔ t.val % 196 = 0 :=
  (cond3_0_iff (grid3.coords t 1)).trans (by rw [coords3_1 t])

theorem hcond3_1 (t : Fin cfg3.N) : cond3_1 (grid3.coords t) ↔ t.val % 196 = 195 :=
  (cond3_1_iff (grid3.coords t 1)).trans (by rw [coords3_1 t])

theorem idleAt3_5 (i : grid3.Coords) (h : ¬cond3_1 i) : cfg3.idle 5 i = true := by
  show (!(k3_cond2 i == 1#1)) = true
  rw [show (k3_cond2 i == 1#1) = false from beq_false_of_ne h]; rfl

theorem liveAt3_5 (i : grid3.Coords) (h : cond3_1 i) : cfg3.idle 5 i = false := by
  show (!(k3_cond2 i == 1#1)) = false
  rw [show (k3_cond2 i == 1#1) = true from beq_iff_eq.mpr h]; rfl

theorem noFlush3_5 (t : Fin cfg3.N) (h : ¬t.val % 196 = 195) : (cfg3.win 5).flush t = false := by
  have hN : grid3.N = 4900 := N_3
  have ht : t.val < 4900 := lt_of_lt_of_eq t.isLt hN
  have hidx : ∀ hlt : t.val + 1 < grid3.N, (cfg3.win 5).index ⟨t.val + 1, hlt⟩ = (cfg3.win 5).index t := fun hlt => by
    have e : grid3.coords ⟨t.val + 1, hlt⟩ 0 = grid3.coords t 0 :=
      Fin.ext ((coords3_0 ⟨t.val + 1, hlt⟩).trans (Eq.trans (by
        show (t.val + 1) / 196 % 25 = t.val / 196 % 25
        omega) (coords3_0 t).symm))
    show cc3_transform_5 (grid3.coords ⟨t.val + 1, hlt⟩) = cc3_transform_5 (grid3.coords t)
    unfold cc3_transform_5; rw [e]
  refine Bool.eq_false_iff.mpr fun hf => ?_
  simp only [Pipeline.Window.flush, Bool.and_eq_true, Bool.or_eq_true, decide_eq_true_eq] at hf
  rcases hf with ⟨-, hlast | ⟨hlt, hne⟩⟩
  · omega
  · exact hne (hidx hlt)

variable (c : Dev nD) (i : grid3.Coords) (arg2 : Memref sig .tc .vmem S2048 .i32) (harg2 : arg2.IsWhole) (arg3 : Memref sig .tc .vmem S2048x20 .f32) (harg3 : arg3.IsWhole) (arg4 : Memref sig .tc .vmem S1024x20 .f32) (harg4 : arg4.IsWhole) (arg5 : Memref sig .tc .vmem S20x20 .f32) (harg5 : arg5.IsWhole) (arg6 : Memref sig .tc .vmem S20 .f32) (harg6 : arg6.IsWhole) (arg7 : Memref sig .tc .vmem S1024x20 .f32) (harg7 : arg7.IsWhole) (arg8 : Memref sig .tc .vmem S1024x20 .f32) (harg8 : arg8.IsWhole)

set_option maxHeartbeats 1000000 in

theorem run3_first
    (hc0 : cond3_0 i) (hc1 : ¬cond3_1 i) (x0 : Vec F S2048 .i32) (x1 : Vec F S2048x20 .f32) (x2 : Vec F S1024x20 .f32) (x3 : Vec F S20x20 .f32) (x4 : Vec F S20 .f32) (xi5 : Vec F S1024x20 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (k3_pay2 i x0 x1 (k3_pay1 (F := F)))) -∗ K ⟨⟩))
      ⊢ wp frame (wpE (defs₀ (F := F)) Variants.none c none) E (cc3__scatter_residual_kernel i arg2 harg2 arg3 harg3 arg4 harg4 arg5 harg5 arg6 harg6 arg7 harg7 arg8 harg8) K := by
  simp only [cc3__scatter_residual_kernel_eq_skeleton]; unfold cc3__scatter_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  refine (read_writes_whole3 _ _ _ _ _).trans ?_
  rw [readAt_whole3 harg2, readAt_whole3 harg3]
  refine congrArg (k3_pay2 i x0 x1) ?_
  unfold run3_first.sl.v18 run3_first.sl.HS_1
  exact View.readCov_cons_toLoadRect _ _ _ _

set_option maxHeartbeats 1000000 in

theorem run3_mid
    (hc0 : ¬cond3_0 i) (hc1 : ¬cond3_1 i) (x0 : Vec F S2048 .i32) (x1 : Vec F S2048x20 .f32) (x2 : Vec F S1024x20 .f32) (x3 : Vec F S20x20 .f32) (x4 : Vec F S20 .f32) (xi5 : Vec F S1024x20 .f32) (xs : Vec F S1024x20 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (k3_pay2 i x0 x1 xs)) -∗ K ⟨⟩))
      ⊢ wp frame (wpE (defs₀ (F := F)) Variants.none c none) E (cc3__scatter_residual_kernel i arg2 harg2 arg3 harg3 arg4 harg4 arg5 harg5 arg6 harg6 arg7 harg7 arg8 harg8) K := by
  simp only [cc3__scatter_residual_kernel_eq_skeleton]; unfold cc3__scatter_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf5; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  refine (read_writes_whole3 _ _ _ _ _).trans ?_
  rw [readAt_whole3 harg2, readAt_whole3 harg3, readAt_whole3 harg8]

set_option maxHeartbeats 1000000 in

theorem run3_last
    (hc0 : ¬cond3_0 i) (hc1 : cond3_1 i) (x0 : Vec F S2048 .i32) (x1 : Vec F S2048x20 .f32) (x2 : Vec F S1024x20 .f32) (x3 : Vec F S20x20 .f32) (x4 : Vec F S20 .f32) (xs : Vec F S1024x20 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k3_pay3 x2 x3 x4 (k3_pay2 i x0 x1 xs))
            ∗ owns (c : Thread nD τ) arg8 fullShare (k3_pay2 i x0 x1 xs)) -∗ K ⟨⟩))
      ⊢ wp frame (wpE (defs₀ (F := F)) Variants.none c none) E (cc3__scatter_residual_kernel i arg2 harg2 arg3 harg3 arg4 harg4 arg5 harg5 arg6 harg6 arg7 harg7 arg8 harg8) K := by
  simp only [cc3__scatter_residual_kernel_eq_skeleton]; unfold cc3__scatter_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (read_writes_whole3 _ _ _ _ _).trans ?_
    rw [readAt_whole3 harg4, readAt_whole3 harg5, readAt_whole3 harg6]
    refine congrArg (k3_pay3 x2 x3 x4) ?_
    unfold run3_last.sl.v37
    refine (View.readCov_cons_toLoadRect _ _ _ _).trans ?_
    rw [readAt_whole3 harg2, readAt_whole3 harg3, readAt_whole3 harg8]
  iexists _; isplitr
  swap; · iexact HS
  ipureintro
  refine (read_writes_whole3 _ _ _ _ _).trans ?_
  rw [readAt_whole3 harg2, readAt_whole3 harg3, readAt_whole3 harg8]

end Cert.KernelIdeal.Hand

end
-- ==== Proof.KI.R3Dat.lean ====
import proofs.«415925_j84189948936386_1_alg».proof.Proof.KI.R3Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def sc3 (c : Dev nD) : (n : ℕ) → n < cfg3.N → Vec F S1024x20 .f32
  | 0, hn => k3_pay2 (grid3.coords ⟨0, hn⟩) (iblk3 V c 0 ⟨0, hn⟩) (iblk3 V c 1 ⟨0, hn⟩) (k3_pay1 (F := F))
  | n + 1, hn => k3_pay2 (grid3.coords ⟨n + 1, hn⟩) (iblk3 V c 0 ⟨n + 1, hn⟩) (iblk3 V c 1 ⟨n + 1, hn⟩)
      (if (n + 1) % 196 = 0 then k3_pay1 (F := F) else sc3 c n (Nat.lt_of_succ_lt hn))

theorem sc3_eq (c : Dev nD) (t : Fin cfg3.N) :
    sc3 V c t.val t.isLt = k3_pay2 (grid3.coords t) (iblk3 V c 0 t) (iblk3 V c 1 t)
      (if t.val % 196 = 0 then k3_pay1 (F := F) else sc3 V c (t.val - 1) (Nat.lt_of_le_of_lt (Nat.sub_le _ _) t.isLt)) := by
  obtain ⟨n, hn⟩ := t
  cases n with
  | zero => exact (congrArg (k3_pay2 (grid3.coords ⟨0, hn⟩) (iblk3 V c 0 ⟨0, hn⟩) (iblk3 V c 1 ⟨0, hn⟩)) (if_pos (Nat.zero_mod 196)).symm)
  | succ n => exact rfl

abbrev scM3 : Memref sig .tc .vmem S1024x20 .f32 := Memref.whole cc3_scratch0

theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

def PhiS3 (c : Dev nD) : (n : ℕ) → n ≤ cfg3.N → sProp 𝕄
  | 0, _ => Pipeline.ΦA spec3 c
  | n + 1, hn => iprop(iprop(owns (c : Thread nD τ) scM3 fullShare (sc3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (sc3 V c n hn) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare (sc3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay3 (iblk3 V c 2 t) (iblk3 V c 3 t) (iblk3 V c 4 t) (sc3 V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := rfl

theorem after3_5_flush (c : Dev nD) (t : Fin cfg3.N) (h : t.val % 196 = 195) :
    (dat3 V c).after 5 t = k3_pay3 (iblk3 V c 2 t) (iblk3 V c 3 t) (iblk3 V c 4 t) (sc3 V c t.val t.isLt) := by
  dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d

abbrev ms3_0 (t : Fin cfg3.N) : Memref sig .tc .vmem S2048 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x20 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x20 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S20x20 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S20 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x20 .f32 := win3_5.stage (cfg3.slots t 5)
abbrev hs3_5 (t : Fin cfg3.N) : (ms3_5 t).IsWhole := hstage3_5 ((cfg3.slots t 5).cast nbuf3_5)

abbrev bodyAt3 (t : Fin cfg3.N) : Prog (TpuEff nD τ sig (Elt F) Λ₀ .tc) PUnit :=
  cc3__scatter_residual_kernel (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _)

theorem leaves3_0 (c : Dev nD) (t : Fin cfg3.N) :
    (dat3 V c).leavesExact 0 t = owns (c : Thread nD τ) (ms3_0 t) fullShare (iblk3 V c 0 t) := rfl
theorem leaves3_1 (c : Dev nD) (t : Fin cfg3.N) :
    (dat3 V c).leavesExact 1 t = owns (c : Thread nD τ) (ms3_1 t) fullShare (iblk3 V c 1 t) := rfl
theorem leaves3_2 (c : Dev nD) (t : Fin cfg3.N) :
    (dat3 V c).leavesExact 2 t = owns (c : Thread nD τ) (ms3_2 t) fullShare (iblk3 V c 2 t) := rfl
theorem leaves3_3 (c : Dev nD) (t : Fin cfg3.N) :
    (dat3 V c).leavesExact 3 t = owns (c : Thread nD τ) (ms3_3 t) fullShare (iblk3 V c 3 t) := rfl
theorem leaves3_4 (c : Dev nD) (t : Fin cfg3.N) :
    (dat3 V c).leavesExact 4 t = owns (c : Thread nD τ) (ms3_4 t) fullShare (iblk3 V c 4 t) := rfl

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

theorem Phi_out3 (c : Dev nD) (t : Fin (cfg3.N + 1)) : (dat3 V c).Φ t ⊢ Pipeline.ΦA spec3 c := by
  rw [show (dat3 V c).Φ t = PhiS3 V c t.val (Nat.le_of_lt_succ t.isLt) from rfl]
  by_cases ht : t.val = 0
  · rw [PhiS3_zero V c _ _ ht]
  rw [PhiS3_pos V c _ _ ht, PhiA3_eq]
  iintro ⟨⟨HS, HR⟩, Hg⟩
  iframe HR Hg
  iexists _; iexact HS

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0 V, before3_1 V, before3_2 V, before3_3 V, before3_4 V]
  rw [show (dat3 V c).owesAt () t.succ = (dat3 V c).owesAt () t.castSucc from rfl]
  rw [show (dat3 V c).Φ t.succ = PhiS3 V c (t.val + 1) t.isLt from rfl, PhiS3_succ]
  rw [leaves3_0 V c t, leaves3_1 V c t, leaves3_2 V c t, leaves3_3 V c t, leaves3_4 V c t]
  by_cases h0 : t.val % 196 = 0
  · have h1 : ¬t.val % 196 = 195 := by omega
    rw [Dat.leavesExact_idle (dat3 V c) 5 t (idleAt3_5 _ (fun h => h1 ((hcond3_1 t).mp h))) (noFlush3_5 t h1)]
    rw [sc3_eq V c t, if_pos h0]
    refine (sep_mono_left (Phi_out3 V c t.castSucc)).trans ?_
    rw [PhiA3_eq]
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩⟩
    iapply (run3_first c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) ((hcond3_0 t).mpr h0) (fun h => h1 ((hcond3_1 t).mp h)) (iblk3 V c 0 t) (iblk3 V c 1 t) (iblk3 V c 2 t) (iblk3 V c 3 t) (iblk3 V c 4 t) _ Set.univ _)
    iframe H0 H1 H2 H3 H4 H5
    isplitl [HS]; · iexists _; iexact HS
    iintro ⟨H0, H1, H2, H3, H4, H5, HS⟩
    iframe HS HR Hg Ho H0 H1 H2 H3 H4
    iexists _; iexact H5
  · rw [PhiS3_castSucc V c t, PhiS3_pos V c _ _ (by omega)]
    by_cases h1 : t.val % 196 = 195
    · rw [show (dat3 V c).leavesExact 5 t = owns (c : Thread nD τ) (ms3_5 t) fullShare ((dat3 V c).after 5 t) from by
        unfold Dat.leavesExact; rw [liveAt3_5 _ ((hcond3_1 t).mpr h1)], after3_5_flush V c t h1]
      rw [sc3_eq V c t, if_neg h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run3_last c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) ((hcond3_1 t).mpr h1) (iblk3 V c 0 t) (iblk3 V c 1 t) (iblk3 V c 2 t) (iblk3 V c 3 t) (iblk3 V c 4 t) _ Set.univ _)
      iframe H0 H1 H2 H3 H4 HS
      isplitl [H5]; · iexists _; iexact H5
      iintro ⟨H0, H1, H2, H3, H4, H5, HS⟩
      iframe HS HR Hg Ho H0 H1 H2 H3 H4
      iexact H5
    · rw [Dat.leavesExact_idle (dat3 V c) 5 t (idleAt3_5 _ (fun h => h1 ((hcond3_1 t).mp h))) (noFlush3_5 t h1)]
      rw [sc3_eq V c t, if_neg h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run3_mid c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) _ _ Set.univ _)
      iframe H0 H1 H2 H3 H4 H5 HS
      iintro ⟨H0, H1, H2, H3, H4, H5, HS⟩
      iframe HS HR Hg Ho H0 H1 H2 H3 H4
      iexists _; iexact H5

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 :=
  Idealize.SL.BI.Entails.refl _

theorem hout3 (c : Dev nD) : (dat3 V c).Φ (Fin.last cfg3.N) ⊢ Pipeline.ΦA spec3 c :=
  Phi_out3 V c _

end Cert.KernelIdeal.Hand

end
-- ==== Proof.KI.R4Dat.lean ====
import proofs.«415925_j84189948936386_1_alg».proof.Proof.KI.R2Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev ms4_0 (t : Fin cfg4.N) : Memref sig .tc .vmem S2048 .i32 := (cfg4.win 0).stage (cfg4.slots t 0)
abbrev hs4_0 (t : Fin cfg4.N) : (ms4_0 t).IsWhole := hstage4_0 ((cfg4.slots t 0).cast nbuf4_0)
abbrev ms4_1 (t : Fin cfg4.N) : Memref sig .tc .vmem S2048 .i32 := (cfg4.win 1).stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x20 .f32 := (cfg4.win 2).stage (cfg4.slots t 2)
abbrev hs4_2 (t : Fin cfg4.N) : (ms4_2 t).IsWhole := hstage4_2 ((cfg4.slots t 2).cast nbuf4_2)
abbrev ms4_3 (t : Fin cfg4.N) : Memref sig .tc .vmem S40x200 .f32 := (cfg4.win 3).stage (cfg4.slots t 3)
abbrev hs4_3 (t : Fin cfg4.N) : (ms4_3 t).IsWhole := hstage4_3 ((cfg4.slots t 3).cast nbuf4_3)
abbrev ms4_4 (t : Fin cfg4.N) : Memref sig .tc .vmem S200 .f32 := (cfg4.win 4).stage (cfg4.slots t 4)
abbrev hs4_4 (t : Fin cfg4.N) : (ms4_4 t).IsWhole := hstage4_4 ((cfg4.slots t 4).cast nbuf4_4)
abbrev ms4_5 (t : Fin cfg4.N) : Memref sig .tc .vmem S200x20 .f32 := (cfg4.win 5).stage (cfg4.slots t 5)
abbrev hs4_5 (t : Fin cfg4.N) : (ms4_5 t).IsWhole := hstage4_5 ((cfg4.slots t 5).cast nbuf4_5)
abbrev ms4_6 (t : Fin cfg4.N) : Memref sig .tc .vmem S20 .f32 := (cfg4.win 6).stage (cfg4.slots t 6)
abbrev hs4_6 (t : Fin cfg4.N) : (ms4_6 t).IsWhole := hstage4_6 ((cfg4.slots t 6).cast nbuf4_6)
abbrev ms4_7 (t : Fin cfg4.N) : Memref sig .tc .vmem S20x20 .f32 := (cfg4.win 7).stage (cfg4.slots t 7)
abbrev hs4_7 (t : Fin cfg4.N) : (ms4_7 t).IsWhole := hstage4_7 ((cfg4.slots t 7).cast nbuf4_7)
abbrev ms4_8 (t : Fin cfg4.N) : Memref sig .tc .vmem S20 .f32 := (cfg4.win 8).stage (cfg4.slots t 8)
abbrev hs4_8 (t : Fin cfg4.N) : (ms4_8 t).IsWhole := hstage4_8 ((cfg4.slots t 8).cast nbuf4_8)
abbrev ms4_9 (t : Fin cfg4.N) : Memref sig .tc .vmem S2048x20 .f32 := (cfg4.win 9).stage (cfg4.slots t 9)
abbrev hs4_9 (t : Fin cfg4.N) : (ms4_9 t).IsWhole := hstage4_9 ((cfg4.slots t 9).cast nbuf4_9)

abbrev scM4_0 : Memref sig .tc .vmem S2048x20 .f32 := Memref.whole cc4_scratch0
abbrev scM4_1 : Memref sig .tc .vmem S2048x20 .f32 := Memref.whole cc4_scratch1

def scI4 (c : Dev nD) : (n : ℕ) → n < cfg4.N → Vec F S2048x20 .f32
  | 0, hn => k2_pay6 (grid4.coords ⟨0, hn⟩) (iblk4 V c 1 ⟨0, hn⟩) (iblk4 V c 2 ⟨0, hn⟩) k2_pay2
  | n + 1, hn => k2_pay6 (grid4.coords ⟨n + 1, hn⟩) (iblk4 V c 1 ⟨n + 1, hn⟩) (iblk4 V c 2 ⟨n + 1, hn⟩)
      (if (n + 1) % 25 = 0 then k2_pay2 else scI4 c n (Nat.lt_of_succ_lt hn))

def scJ4 (c : Dev nD) : (n : ℕ) → n < cfg4.N → Vec F S2048x20 .f32
  | 0, hn => k2_pay7 (grid4.coords ⟨0, hn⟩) (iblk4 V c 0 ⟨0, hn⟩) (iblk4 V c 2 ⟨0, hn⟩) k2_pay3
  | n + 1, hn => k2_pay7 (grid4.coords ⟨n + 1, hn⟩) (iblk4 V c 0 ⟨n + 1, hn⟩) (iblk4 V c 2 ⟨n + 1, hn⟩)
      (if (n + 1) % 25 = 0 then k2_pay3 else scJ4 c n (Nat.lt_of_succ_lt hn))

theorem scI4_eq (c : Dev nD) (t : Fin cfg4.N) :
    scI4 V c t.val t.isLt = k2_pay6 (grid4.coords t) (iblk4 V c 1 t) (iblk4 V c 2 t)
      (if t.val % 25 = 0 then k2_pay2 else scI4 V c (t.val - 1) (Nat.lt_of_le_of_lt (Nat.sub_le _ _) t.isLt)) := by
  obtain ⟨n, hn⟩ := t
  cases n with
  | zero => exact (congrArg (k2_pay6 _ _ _) (if_pos (Nat.zero_mod 25)).symm)
  | succ n => rfl

theorem scJ4_eq (c : Dev nD) (t : Fin cfg4.N) :
    scJ4 V c t.val t.isLt = k2_pay7 (grid4.coords t) (iblk4 V c 0 t) (iblk4 V c 2 t)
      (if t.val % 25 = 0 then k2_pay3 else scJ4 V c (t.val - 1) (Nat.lt_of_le_of_lt (Nat.sub_le _ _) t.isLt)) := by
  obtain ⟨n, hn⟩ := t
  cases n with
  | zero => exact (congrArg (k2_pay7 _ _ _) (if_pos (Nat.zero_mod 25)).symm)
  | succ n => rfl

abbrev rest4 (c : Dev nD) : sProp 𝕄 :=
  Pipeline.scopedRestBut (Ix := Unit) (Name := ℕ) (U := UR sig nD τ) (Lvl := ℕ) (Val := Elt F) spec4 c [cc4_scratch0, cc4_scratch1]

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 c)
          ∗ (∃ r, prngReg c r)) := by
  unfold Pipeline.ΦA; rw [scopedRest4_split]; simp only [scM4_0, scM4_1, owns_whole]; try rfl

def PhiS4 (c : Dev nD) : (n : ℕ) → n ≤ cfg4.N → sProp 𝕄
  | 0, _ => Pipeline.ΦA spec4 c
  | n + 1, hn => iprop(iprop(iprop(owns (c : Thread nD τ) scM4_0 fullShare (scI4 V c n hn) ∗ owns (c : Thread nD τ) scM4_1 fullShare (scJ4 V c n hn)) ∗ rest4 c)
      ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (scI4 V c n hn) ∗ owns (c : Thread nD τ) scM4_1 fullShare (scJ4 V c n hn)) ∗ rest4 c)
      ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (scI4 V c (n - 1) (by omega)) ∗ owns (c : Thread nD τ) scM4_1 fullShare (scJ4 V c (n - 1) (by omega))) ∗ rest4 c)
      ∗ (∃ r, prngReg c r)) := by
  cases n with
  | zero => exact absurd rfl hz
  | succ n => rfl

theorem PhiS4_weak (c : Dev nD) (n : ℕ) (h : n ≤ cfg4.N) : PhiS4 V c n h ⊢ Pipeline.ΦA spec4 c := by
  cases n with
  | zero => exact Idealize.SL.BI.Entails.refl _
  | succ n =>
    rw [PhiS4_succ, PhiA4_eq]
    iintro ⟨⟨⟨HI, HJ⟩, HR⟩, Hg⟩
    isplitl [HI HJ HR]
    · isplitl [HI HJ]
      · isplitl [HI]; · iexists _; iexact HI
        iexists _; iexact HJ
      iexact HR
    iexact Hg

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => k2_pay1 (scI4 V c t.val t.isLt) (scJ4 V c t.val t.isLt) (iblk4 V c 3 t) (iblk4 V c 4 t) (iblk4 V c 5 t) (iblk4 V c 6 t) (iblk4 V c 7 t) (iblk4 V c 8 t)
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_9 (c : Dev nD) (t : Fin cfg4.N) : (dat4 V c).after 9 t = k2_pay1 (scI4 V c t.val t.isLt) (scJ4 V c t.val t.isLt) (iblk4 V c 3 t) (iblk4 V c 4 t) (iblk4 V c 5 t) (iblk4 V c 6 t) (iblk4 V c 7 t) (iblk4 V c 8 t) := by dsimp only [dat4]

theorem after4_9_flush (c : Dev nD) (t : Fin cfg4.N) (h : t.val % 25 = 24) : (dat4 V c).after 9 t = k2_pay1 (scI4 V c t.val t.isLt) (scJ4 V c t.val t.isLt) (iblk4 V c 3 t) (iblk4 V c 4 t) (iblk4 V c 5 t) (iblk4 V c 6 t) (iblk4 V c 7 t) (iblk4 V c 8 t) :=
  after4_9 V c t

theorem before4_in (c : Dev nD) (w : Fin cfg4.W) (hw : w ≠ 9) (t : Fin cfg4.N) (d) : (dat4 V c).before w t d = (dat4 V c).after w t := by
  fin_cases w <;> first
    | exact absurd rfl hw
    | exact (dat4 V c).before_in_eq_fetched _ rfl (fun _ => rfl) (fun _ _ _ => rfl) (fun _ => rfl) t d

theorem leaves4_in (c : Dev nD) (w : Fin cfg4.W) (hw : w ≠ 9) (t : Fin cfg4.N) :
    (dat4 V c).leavesExact w t = owns (c : Thread nD τ) ((cfg4.win w).stage (cfg4.slots t w)) fullShare ((dat4 V c).after w t) := by
  fin_cases w <;> first | exact absurd rfl hw | rfl

theorem idle4_9 (i : grid4.Coords) (h : ¬cond2_1 i) : cfg4.idle 9 i = true := by
  show (!(k2_cond2 i == 1#1)) = true
  rw [Bool.not_eq_true', beq_eq_false_iff_ne]; exact h

theorem live4_9 (i : grid4.Coords) (h : cond2_1 i) : cfg4.idle 9 i = false := by
  show (!(k2_cond2 i == 1#1)) = false
  rw [Bool.not_eq_false', beq_iff_eq]; exact h

theorem noFlush4_9 (t : Fin cfg4.N) (h : ¬t.val % 25 = 24) : (cfg4.win 9).flush t = false := by
  have hN : grid4.N = 4900 := N_4
  have ht : t.val < 4900 := lt_of_lt_of_eq t.isLt hN
  have hs : grid4.stride 0 = 25 := by decide
  have hidx : ∀ h1 : t.val + 1 < grid4.N, win4_9.index ⟨t.val + 1, h1⟩ = win4_9.index t := fun h1 =>
    hreads4_9 _ _ (Fin.forall_fin_two.mpr ⟨fun _ => Fin.ext (by
      show (t.val + 1) / grid4.stride 0 % grid4.bound 0 = t.val / grid4.stride 0 % grid4.bound 0
      rw [hs]; congr 1; omega), fun ha => absurd ha (by decide)⟩)
  show (win4_9.isOut && (decide (t.val + 1 = grid4.N) || decide (∃ h1 : t.val + 1 < grid4.N, win4_9.index ⟨t.val + 1, h1⟩ ≠ win4_9.index t))) = false
  rw [Bool.and_eq_false_iff]; right
  rw [Bool.or_eq_false_iff]
  exact ⟨decide_eq_false (by omega), decide_eq_false fun ⟨h1, hne⟩ => hne (hidx h1)⟩

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d))
    ∗ (∃ d, owns (c : Thread nD τ) (ms4_9 t) fullShare ((dat4 V c).before 9 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t
    ∗ (dat4 V c).leavesExact 9 t)

set_option maxHeartbeats 4800000 in
theorem sound_body4 (c : Dev nD) (t : Fin cfg4.N) :
    bodyPre4 V c t ⊢ wp frame (wpE (defs₀ (F := F)) Variants.none c none) Set.univ (cc4__gather_mlp_kernel (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _)) (fun _ => bodyPost4 V c t) := by
  unfold bodyPre4 bodyPost4
  simp (config := {decide := true}) only [before4_in]
  rw [show (dat4 V c).owesAt () t.succ = (dat4 V c).owesAt () t.castSucc from rfl]
  rw [show (dat4 V c).Φ t.succ = PhiS4 V c (t.val + 1) t.isLt from rfl, PhiS4_succ]
  simp (config := {decide := true}) only [leaves4_in]
  rw [scI4_eq V c t, scJ4_eq V c t]
  by_cases h0 : t.val % 25 = 0
  · have h1 : ¬t.val % 25 = 24 := by omega
    have hc0 : cond2_0 (grid4.coords t) := (hcond2_0 t).mpr h0
    have hc1 : ¬cond2_1 (grid4.coords t) := fun h => h1 ((hcond2_1 t).mp h)
    rw [Dat.leavesExact_idle (dat4 V c) 9 t (idle4_9 _ hc1) (noFlush4_9 t h1), if_pos h0, if_pos h0, PhiS4_castSucc V c t]
    refine (sep_mono_left (PhiS4_weak V c _ _)).trans ?_
    rw [PhiA4_eq]
    iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run2_first c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) hc0 hc1 ((dat4 V c).after 0 t) ((dat4 V c).after 1 t) ((dat4 V c).after 2 t) Set.univ _)
    iframe H0 H1 H2 HI HJ
    iintro ⟨H0, H1, H2, HI, HJ⟩
    iframe
    isplitl [HI HJ]
    · isplitl [HI]; · iexact HI
      iexact HJ
    iexists _; iexact H9
  · have hz : t.val ≠ 0 := fun e => h0 (by rw [e])
    have hc0 : ¬cond2_0 (grid4.coords t) := fun h => h0 ((hcond2_0 t).mp h)
    rw [if_neg h0, if_neg h0, PhiS4_castSucc V c t, PhiS4_pos V c _ _ hz]
    by_cases h1 : t.val % 25 = 24
    · have hc1 : cond2_1 (grid4.coords t) := (hcond2_1 t).mpr h1
      rw [show (dat4 V c).leavesExact 9 t = owns (c : Thread nD τ) (ms4_9 t) fullShare ((dat4 V c).after 9 t) from by
        unfold Dat.leavesExact; rw [live4_9 _ hc1], after4_9, scI4_eq V c t, scJ4_eq V c t, if_neg h0, if_neg h0]
      iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run2_last c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) hc0 hc1 ((dat4 V c).after 0 t) ((dat4 V c).after 1 t) ((dat4 V c).after 2 t) ((dat4 V c).after 3 t) ((dat4 V c).after 4 t) ((dat4 V c).after 5 t) ((dat4 V c).after 6 t) ((dat4 V c).after 7 t) ((dat4 V c).after 8 t) (scI4 V c (t.val - 1) (Nat.lt_of_le_of_lt (Nat.sub_le _ _) t.isLt)) (scJ4 V c (t.val - 1) (Nat.lt_of_le_of_lt (Nat.sub_le _ _) t.isLt)) Set.univ _)
      iframe H0 H1 H2 H3 H4 H5 H6 H7 H8
      isplitl [H9]; · iexists _; iexact H9
      iframe HI HJ
      iintro ⟨H0, H1, H2, H3, H4, H5, H6, H7, H8, H9, HI, HJ⟩
      iframe
      isplitl [HI HJ]
      · isplitl [HI]; · iexact HI
        iexact HJ
      iexact H9
    · have hc1 : ¬cond2_1 (grid4.coords t) := fun h => h1 ((hcond2_1 t).mp h)
      rw [Dat.leavesExact_idle (dat4 V c) 9 t (idle4_9 _ hc1) (noFlush4_9 t h1)]
      iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run2_mid c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) hc0 hc1 ((dat4 V c).after 0 t) ((dat4 V c).after 1 t) ((dat4 V c).after 2 t) (scI4 V c (t.val - 1) (Nat.lt_of_le_of_lt (Nat.sub_le _ _) t.isLt)) (scJ4 V c (t.val - 1) (Nat.lt_of_le_of_lt (Nat.sub_le _ _) t.isLt)) Set.univ _)
      iframe H0 H1 H2 HI HJ
      iintro ⟨H0, H1, H2, HI, HJ⟩
      iframe
      isplitl [HI HJ]
      · isplitl [HI]; · iexact HI
        iexact HJ
      iexists _; iexact H9

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.ΦA spec4 c :=
  PhiS4_weak V c (Fin.last cfg4.N).val (Nat.le_of_lt_succ (Fin.last cfg4.N).isLt)

end Cert.KernelIdeal.Hand
end
-- ==== Proof.KI.R5Run.lean ====
import proofs.«415925_j84189948936386_1_alg».proof.Proof.KI.R3Run

noncomputable section

namespace Cert.KernelIdeal.Hand

open Cert.KernelIdeal Cert.KernelIdeal.Gen
open Idealize.ShloMosaic

theorem idleAt5_5 (i : grid5.Coords) (h : ¬cond3_1 i) : cfg5.idle 5 i = true := idleAt3_5 i h
theorem liveAt5_5 (i : grid5.Coords) (h : cond3_1 i) : cfg5.idle 5 i = false := liveAt3_5 i h
theorem noFlush5_5 (t : Fin cfg5.N) (h : ¬t.val % 196 = 195) : (cfg5.win 5).flush t = false := noFlush3_5 t h

end Cert.KernelIdeal.Hand

end
-- ==== Proof.KI.R5Dat.lean ====
import proofs.«415925_j84189948936386_1_alg».proof.Proof.KI.R5Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def sc5 (c : Dev nD) : (n : ℕ) → n < cfg5.N → Vec F S1024x20 .f32
  | 0, hn => k3_pay2 (grid5.coords ⟨0, hn⟩) (iblk5 V c 0 ⟨0, hn⟩) (iblk5 V c 1 ⟨0, hn⟩) (k3_pay1 (F := F))
  | n + 1, hn => k3_pay2 (grid5.coords ⟨n + 1, hn⟩) (iblk5 V c 0 ⟨n + 1, hn⟩) (iblk5 V c 1 ⟨n + 1, hn⟩)
      (if (n + 1) % 196 = 0 then k3_pay1 (F := F) else sc5 c n (Nat.lt_of_succ_lt hn))

theorem sc5_eq (c : Dev nD) (t : Fin cfg5.N) :
    sc5 V c t.val t.isLt = k3_pay2 (grid5.coords t) (iblk5 V c 0 t) (iblk5 V c 1 t)
      (if t.val % 196 = 0 then k3_pay1 (F := F) else sc5 V c (t.val - 1) (Nat.lt_of_le_of_lt (Nat.sub_le _ _) t.isLt)) := by
  obtain ⟨n, hn⟩ := t
  cases n with
  | zero => exact (congrArg (k3_pay2 (grid5.coords ⟨0, hn⟩) (iblk5 V c 0 ⟨0, hn⟩) (iblk5 V c 1 ⟨0, hn⟩)) (if_pos (Nat.zero_mod 196)).symm)
  | succ n => exact rfl

abbrev scM5 : Memref sig .tc .vmem S1024x20 .f32 := Memref.whole cc5_scratch0

theorem PhiA5_eq (c : Dev nD) :
    (Pipeline.ΦA spec5 c : sProp 𝕄)
      = iprop(iprop((∃ d, owns (c : Thread nD τ) scM5 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

def PhiS5 (c : Dev nD) : (n : ℕ) → n ≤ cfg5.N → sProp 𝕄
  | 0, _ => Pipeline.ΦA spec5 c
  | n + 1, hn => iprop(iprop(owns (c : Thread nD τ) scM5 fullShare (sc5 V c n hn) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare (sc5 V c n hn) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5 fullShare (sc5 V c (n - 1) (by omega)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => k3_pay3 (iblk5 V c 2 t) (iblk5 V c 3 t) (iblk5 V c 4 t) (sc5 V c t.val t.isLt)
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := rfl

theorem after5_5_flush (c : Dev nD) (t : Fin cfg5.N) (h : t.val % 196 = 195) :
    (dat5 V c).after 5 t = k3_pay3 (iblk5 V c 2 t) (iblk5 V c 3 t) (iblk5 V c 4 t) (sc5 V c t.val t.isLt) := by
  dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d
theorem before5_4 (c : Dev nD) (t : Fin cfg5.N) (d) : (dat5 V c).before 4 t d = iblk5 V c 4 t :=
  (dat5 V c).before_in_eq_fetched 4 rfl (fun _ => rfl) (fun _ _ _ => rfl) (fun _ => rfl) t d

abbrev ms5_0 (t : Fin cfg5.N) : Memref sig .tc .vmem S2048 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x20 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x20 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S20x20 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S20 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1024x20 .f32 := win5_5.stage (cfg5.slots t 5)
abbrev hs5_5 (t : Fin cfg5.N) : (ms5_5 t).IsWhole := hstage5_5 ((cfg5.slots t 5).cast nbuf5_5)

abbrev bodyAt5 (t : Fin cfg5.N) : Prog (TpuEff nD τ sig (Elt F) Λ₀ .tc) PUnit :=
  cc5__scatter_residual_kernel (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _)

theorem leaves5_0 (c : Dev nD) (t : Fin cfg5.N) :
    (dat5 V c).leavesExact 0 t = owns (c : Thread nD τ) (ms5_0 t) fullShare (iblk5 V c 0 t) := rfl
theorem leaves5_1 (c : Dev nD) (t : Fin cfg5.N) :
    (dat5 V c).leavesExact 1 t = owns (c : Thread nD τ) (ms5_1 t) fullShare (iblk5 V c 1 t) := rfl
theorem leaves5_2 (c : Dev nD) (t : Fin cfg5.N) :
    (dat5 V c).leavesExact 2 t = owns (c : Thread nD τ) (ms5_2 t) fullShare (iblk5 V c 2 t) := rfl
theorem leaves5_3 (c : Dev nD) (t : Fin cfg5.N) :
    (dat5 V c).leavesExact 3 t = owns (c : Thread nD τ) (ms5_3 t) fullShare (iblk5 V c 3 t) := rfl
theorem leaves5_4 (c : Dev nD) (t : Fin cfg5.N) :
    (dat5 V c).leavesExact 4 t = owns (c : Thread nD τ) (ms5_4 t) fullShare (iblk5 V c 4 t) := rfl

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

theorem Phi_out5 (c : Dev nD) (t : Fin (cfg5.N + 1)) : (dat5 V c).Φ t ⊢ Pipeline.ΦA spec5 c := by
  rw [show (dat5 V c).Φ t = PhiS5 V c t.val (Nat.le_of_lt_succ t.isLt) from rfl]
  by_cases ht : t.val = 0
  · rw [PhiS5_zero V c _ _ ht]
  rw [PhiS5_pos V c _ _ ht, PhiA5_eq]
  iintro ⟨⟨HS, HR⟩, Hg⟩
  iframe HR Hg
  iexists _; iexact HS

set_option maxHeartbeats 4800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0 V, before5_1 V, before5_2 V, before5_3 V, before5_4 V]
  rw [show (dat5 V c).owesAt () t.succ = (dat5 V c).owesAt () t.castSucc from rfl]
  rw [show (dat5 V c).Φ t.succ = PhiS5 V c (t.val + 1) t.isLt from rfl, PhiS5_succ]
  rw [leaves5_0 V c t, leaves5_1 V c t, leaves5_2 V c t, leaves5_3 V c t, leaves5_4 V c t]
  by_cases h0 : t.val % 196 = 0
  · have h1 : ¬t.val % 196 = 195 := by omega
    rw [Dat.leavesExact_idle (dat5 V c) 5 t (idleAt5_5 _ (fun h => h1 ((hcond3_1 t).mp h))) (noFlush5_5 t h1)]
    rw [sc5_eq V c t, if_pos h0]
    refine (sep_mono_left (Phi_out5 V c t.castSucc)).trans ?_
    rw [PhiA5_eq]
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩⟩
    iapply (run3_first c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) ((hcond3_0 t).mpr h0) (fun h => h1 ((hcond3_1 t).mp h)) (iblk5 V c 0 t) (iblk5 V c 1 t) (iblk5 V c 2 t) (iblk5 V c 3 t) (iblk5 V c 4 t) _ Set.univ _)
    iframe H0 H1 H2 H3 H4 H5
    isplitl [HS]; · iexists _; iexact HS
    iintro ⟨H0, H1, H2, H3, H4, H5, HS⟩
    iframe HS HR Hg Ho H0 H1 H2 H3 H4
    iexists _; iexact H5
  · rw [PhiS5_castSucc V c t, PhiS5_pos V c _ _ (by omega)]
    by_cases h1 : t.val % 196 = 195
    · rw [show (dat5 V c).leavesExact 5 t = owns (c : Thread nD τ) (ms5_5 t) fullShare ((dat5 V c).after 5 t) from by
        unfold Dat.leavesExact; rw [liveAt5_5 _ ((hcond3_1 t).mpr h1)], after5_5_flush V c t h1]
      rw [sc5_eq V c t, if_neg h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run3_last c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (fun h => h0 ((hcond3_0 t).mp h)) ((hcond3_1 t).mpr h1) (iblk5 V c 0 t) (iblk5 V c 1 t) (iblk5 V c 2 t) (iblk5 V c 3 t) (iblk5 V c 4 t) _ Set.univ _)
      iframe H0 H1 H2 H3 H4 HS
      isplitl [H5]; · iexists _; iexact H5
      iintro ⟨H0, H1, H2, H3, H4, H5, HS⟩
      iframe HS HR Hg Ho H0 H1 H2 H3 H4
      iexact H5
    · rw [Dat.leavesExact_idle (dat5 V c) 5 t (idleAt5_5 _ (fun h => h1 ((hcond3_1 t).mp h))) (noFlush5_5 t h1)]
      rw [sc5_eq V c t, if_neg h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run3_mid c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (fun h => h0 ((hcond3_0 t).mp h)) (fun h => h1 ((hcond3_1 t).mp h)) (iblk5 V c 0 t) (iblk5 V c 1 t) (iblk5 V c 2 t) (iblk5 V c 3 t) (iblk5 V c 4 t) _ _ Set.univ _)
      iframe H0 H1 H2 H3 H4 H5 HS
      iintro ⟨H0, H1, H2, H3, H4, H5, HS⟩
      iframe HS HR Hg Ho H0 H1 H2 H3 H4
      iexists _; iexact H5

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 :=
  Idealize.SL.BI.Entails.refl _

theorem hout5 (c : Dev nD) : (dat5 V c).Φ (Fin.last cfg5.N) ⊢ Pipeline.ΦA spec5 c :=
  Phi_out5 V c _

end Cert.KernelIdeal.Hand

end
-- ==== Proof.KI.R6Dat.lean ====
import proofs.«415925_j84189948936386_1_alg».proof.Proof.KI.R2Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev ms6_0 (t : Fin cfg6.N) : Memref sig .tc .vmem S2048 .i32 := (cfg6.win 0).stage (cfg6.slots t 0)
abbrev hs6_0 (t : Fin cfg6.N) : (ms6_0 t).IsWhole := hstage6_0 ((cfg6.slots t 0).cast nbuf6_0)
abbrev ms6_1 (t : Fin cfg6.N) : Memref sig .tc .vmem S2048 .i32 := (cfg6.win 1).stage (cfg6.slots t 1)
abbrev hs6_1 (t : Fin cfg6.N) : (ms6_1 t).IsWhole := hstage6_1 ((cfg6.slots t 1).cast nbuf6_1)
abbrev ms6_2 (t : Fin cfg6.N) : Memref sig .tc .vmem S1024x20 .f32 := (cfg6.win 2).stage (cfg6.slots t 2)
abbrev hs6_2 (t : Fin cfg6.N) : (ms6_2 t).IsWhole := hstage6_2 ((cfg6.slots t 2).cast nbuf6_2)
abbrev ms6_3 (t : Fin cfg6.N) : Memref sig .tc .vmem S40x200 .f32 := (cfg6.win 3).stage (cfg6.slots t 3)
abbrev hs6_3 (t : Fin cfg6.N) : (ms6_3 t).IsWhole := hstage6_3 ((cfg6.slots t 3).cast nbuf6_3)
abbrev ms6_4 (t : Fin cfg6.N) : Memref sig .tc .vmem S200 .f32 := (cfg6.win 4).stage (cfg6.slots t 4)
abbrev hs6_4 (t : Fin cfg6.N) : (ms6_4 t).IsWhole := hstage6_4 ((cfg6.slots t 4).cast nbuf6_4)
abbrev ms6_5 (t : Fin cfg6.N) : Memref sig .tc .vmem S200x20 .f32 := (cfg6.win 5).stage (cfg6.slots t 5)
abbrev hs6_5 (t : Fin cfg6.N) : (ms6_5 t).IsWhole := hstage6_5 ((cfg6.slots t 5).cast nbuf6_5)
abbrev ms6_6 (t : Fin cfg6.N) : Memref sig .tc .vmem S20 .f32 := (cfg6.win 6).stage (cfg6.slots t 6)
abbrev hs6_6 (t : Fin cfg6.N) : (ms6_6 t).IsWhole := hstage6_6 ((cfg6.slots t 6).cast nbuf6_6)
abbrev ms6_7 (t : Fin cfg6.N) : Memref sig .tc .vmem S20x20 .f32 := (cfg6.win 7).stage (cfg6.slots t 7)
abbrev hs6_7 (t : Fin cfg6.N) : (ms6_7 t).IsWhole := hstage6_7 ((cfg6.slots t 7).cast nbuf6_7)
abbrev ms6_8 (t : Fin cfg6.N) : Memref sig .tc .vmem S20 .f32 := (cfg6.win 8).stage (cfg6.slots t 8)
abbrev hs6_8 (t : Fin cfg6.N) : (ms6_8 t).IsWhole := hstage6_8 ((cfg6.slots t 8).cast nbuf6_8)
abbrev ms6_9 (t : Fin cfg6.N) : Memref sig .tc .vmem S2048x20 .f32 := (cfg6.win 9).stage (cfg6.slots t 9)
abbrev hs6_9 (t : Fin cfg6.N) : (ms6_9 t).IsWhole := hstage6_9 ((cfg6.slots t 9).cast nbuf6_9)

abbrev scM6_0 : Memref sig .tc .vmem S2048x20 .f32 := Memref.whole cc6_scratch0
abbrev scM6_1 : Memref sig .tc .vmem S2048x20 .f32 := Memref.whole cc6_scratch1

def scI6 (c : Dev nD) : (n : ℕ) → n < cfg6.N → Vec F S2048x20 .f32
  | 0, hn => k2_pay6 (grid6.coords ⟨0, hn⟩) (iblk6 V c 1 ⟨0, hn⟩) (iblk6 V c 2 ⟨0, hn⟩) k2_pay2
  | n + 1, hn => k2_pay6 (grid6.coords ⟨n + 1, hn⟩) (iblk6 V c 1 ⟨n + 1, hn⟩) (iblk6 V c 2 ⟨n + 1, hn⟩)
      (if (n + 1) % 25 = 0 then k2_pay2 else scI6 c n (Nat.lt_of_succ_lt hn))

def scJ6 (c : Dev nD) : (n : ℕ) → n < cfg6.N → Vec F S2048x20 .f32
  | 0, hn => k2_pay7 (grid6.coords ⟨0, hn⟩) (iblk6 V c 0 ⟨0, hn⟩) (iblk6 V c 2 ⟨0, hn⟩) k2_pay3
  | n + 1, hn => k2_pay7 (grid6.coords ⟨n + 1, hn⟩) (iblk6 V c 0 ⟨n + 1, hn⟩) (iblk6 V c 2 ⟨n + 1, hn⟩)
      (if (n + 1) % 25 = 0 then k2_pay3 else scJ6 c n (Nat.lt_of_succ_lt hn))

theorem scI6_eq (c : Dev nD) (t : Fin cfg6.N) :
    scI6 V c t.val t.isLt = k2_pay6 (grid6.coords t) (iblk6 V c 1 t) (iblk6 V c 2 t)
      (if t.val % 25 = 0 then k2_pay2 else scI6 V c (t.val - 1) (Nat.lt_of_le_of_lt (Nat.sub_le _ _) t.isLt)) := by
  obtain ⟨n, hn⟩ := t
  cases n with
  | zero => exact (congrArg (k2_pay6 _ _ _) (if_pos (Nat.zero_mod 25)).symm)
  | succ n => rfl

theorem scJ6_eq (c : Dev nD) (t : Fin cfg6.N) :
    scJ6 V c t.val t.isLt = k2_pay7 (grid6.coords t) (iblk6 V c 0 t) (iblk6 V c 2 t)
      (if t.val % 25 = 0 then k2_pay3 else scJ6 V c (t.val - 1) (Nat.lt_of_le_of_lt (Nat.sub_le _ _) t.isLt)) := by
  obtain ⟨n, hn⟩ := t
  cases n with
  | zero => exact (congrArg (k2_pay7 _ _ _) (if_pos (Nat.zero_mod 25)).symm)
  | succ n => rfl

abbrev rest6 (c : Dev nD) : sProp 𝕄 :=
  Pipeline.scopedRestBut (Ix := Unit) (Name := ℕ) (U := UR sig nD τ) (Lvl := ℕ) (Val := Elt F) spec6 c [cc6_scratch0, cc6_scratch1]

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ rest6 c)
          ∗ (∃ r, prngReg c r)) := by
  unfold Pipeline.ΦA; rw [scopedRest6_split]; simp only [scM6_0, scM6_1, owns_whole]; try rfl

def PhiS6 (c : Dev nD) : (n : ℕ) → n ≤ cfg6.N → sProp 𝕄
  | 0, _ => Pipeline.ΦA spec6 c
  | n + 1, hn => iprop(iprop(iprop(owns (c : Thread nD τ) scM6_0 fullShare (scI6 V c n hn) ∗ owns (c : Thread nD τ) scM6_1 fullShare (scJ6 V c n hn)) ∗ rest6 c)
      ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (scI6 V c n hn) ∗ owns (c : Thread nD τ) scM6_1 fullShare (scJ6 V c n hn)) ∗ rest6 c)
      ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (scI6 V c (n - 1) (by omega)) ∗ owns (c : Thread nD τ) scM6_1 fullShare (scJ6 V c (n - 1) (by omega))) ∗ rest6 c)
      ∗ (∃ r, prngReg c r)) := by
  cases n with
  | zero => exact absurd rfl hz
  | succ n => rfl

theorem PhiS6_weak (c : Dev nD) (n : ℕ) (h : n ≤ cfg6.N) : PhiS6 V c n h ⊢ Pipeline.ΦA spec6 c := by
  cases n with
  | zero => exact Idealize.SL.BI.Entails.refl _
  | succ n =>
    rw [PhiS6_succ, PhiA6_eq]
    iintro ⟨⟨⟨HI, HJ⟩, HR⟩, Hg⟩
    isplitl [HI HJ HR]
    · isplitl [HI HJ]
      · isplitl [HI]; · iexists _; iexact HI
        iexists _; iexact HJ
      iexact HR
    iexact Hg

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => k2_pay1 (scI6 V c t.val t.isLt) (scJ6 V c t.val t.isLt) (iblk6 V c 3 t) (iblk6 V c 4 t) (iblk6 V c 5 t) (iblk6 V c 6 t) (iblk6 V c 7 t) (iblk6 V c 8 t)
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_9 (c : Dev nD) (t : Fin cfg6.N) : (dat6 V c).after 9 t = k2_pay1 (scI6 V c t.val t.isLt) (scJ6 V c t.val t.isLt) (iblk6 V c 3 t) (iblk6 V c 4 t) (iblk6 V c 5 t) (iblk6 V c 6 t) (iblk6 V c 7 t) (iblk6 V c 8 t) := by dsimp only [dat6]

theorem after6_9_flush (c : Dev nD) (t : Fin cfg6.N) (h : t.val % 25 = 24) : (dat6 V c).after 9 t = k2_pay1 (scI6 V c t.val t.isLt) (scJ6 V c t.val t.isLt) (iblk6 V c 3 t) (iblk6 V c 4 t) (iblk6 V c 5 t) (iblk6 V c 6 t) (iblk6 V c 7 t) (iblk6 V c 8 t) :=
  after6_9 V c t

theorem before6_in (c : Dev nD) (w : Fin cfg6.W) (hw : w ≠ 9) (t : Fin cfg6.N) (d) : (dat6 V c).before w t d = (dat6 V c).after w t := by
  fin_cases w <;> first
    | exact absurd rfl hw
    | exact (dat6 V c).before_in_eq_fetched _ rfl (fun _ => rfl) (fun _ _ _ => rfl) (fun _ => rfl) t d

theorem leaves6_in (c : Dev nD) (w : Fin cfg6.W) (hw : w ≠ 9) (t : Fin cfg6.N) :
    (dat6 V c).leavesExact w t = owns (c : Thread nD τ) ((cfg6.win w).stage (cfg6.slots t w)) fullShare ((dat6 V c).after w t) := by
  fin_cases w <;> first | exact absurd rfl hw | rfl

theorem idle6_9 (i : grid6.Coords) (h : ¬cond2_1 i) : cfg6.idle 9 i = true := by
  show (!(k2_cond2 i == 1#1)) = true
  rw [Bool.not_eq_true', beq_eq_false_iff_ne]; exact h

theorem live6_9 (i : grid6.Coords) (h : cond2_1 i) : cfg6.idle 9 i = false := by
  show (!(k2_cond2 i == 1#1)) = false
  rw [Bool.not_eq_false', beq_iff_eq]; exact h

theorem noFlush6_9 (t : Fin cfg6.N) (h : ¬t.val % 25 = 24) : (cfg6.win 9).flush t = false := by
  have hN : grid6.N = 4900 := N_6
  have ht : t.val < 4900 := lt_of_lt_of_eq t.isLt hN
  have hs : grid6.stride 0 = 25 := by decide
  have hidx : ∀ h1 : t.val + 1 < grid6.N, win6_9.index ⟨t.val + 1, h1⟩ = win6_9.index t := fun h1 =>
    hreads6_9 _ _ (Fin.forall_fin_two.mpr ⟨fun _ => Fin.ext (by
      show (t.val + 1) / grid6.stride 0 % grid6.bound 0 = t.val / grid6.stride 0 % grid6.bound 0
      rw [hs]; congr 1; omega), fun ha => absurd ha (by decide)⟩)
  show (win6_9.isOut && (decide (t.val + 1 = grid6.N) || decide (∃ h1 : t.val + 1 < grid6.N, win6_9.index ⟨t.val + 1, h1⟩ ≠ win6_9.index t))) = false
  rw [Bool.and_eq_false_iff]; right
  rw [Bool.or_eq_false_iff]
  exact ⟨decide_eq_false (by omega), decide_eq_false fun ⟨h1, hne⟩ => hne (hidx h1)⟩

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d))
    ∗ (∃ d, owns (c : Thread nD τ) (ms6_9 t) fullShare ((dat6 V c).before 9 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t
    ∗ (dat6 V c).leavesExact 8 t
    ∗ (dat6 V c).leavesExact 9 t)

set_option maxHeartbeats 4800000 in
theorem sound_body6 (c : Dev nD) (t : Fin cfg6.N) :
    bodyPre6 V c t ⊢ wp frame (wpE (defs₀ (F := F)) Variants.none c none) Set.univ (cc6__gather_mlp_kernel (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) scM6_0 (Memref.isWhole_whole _) scM6_1 (Memref.isWhole_whole _)) (fun _ => bodyPost6 V c t) := by
  unfold bodyPre6 bodyPost6
  simp (config := {decide := true}) only [before6_in]
  rw [show (dat6 V c).owesAt () t.succ = (dat6 V c).owesAt () t.castSucc from rfl]
  rw [show (dat6 V c).Φ t.succ = PhiS6 V c (t.val + 1) t.isLt from rfl, PhiS6_succ]
  simp (config := {decide := true}) only [leaves6_in]
  rw [scI6_eq V c t, scJ6_eq V c t]
  by_cases h0 : t.val % 25 = 0
  · have h1 : ¬t.val % 25 = 24 := by omega
    have hc0 : cond2_0 (grid6.coords t) := (hcond2_0 t).mpr h0
    have hc1 : ¬cond2_1 (grid6.coords t) := fun h => h1 ((hcond2_1 t).mp h)
    rw [Dat.leavesExact_idle (dat6 V c) 9 t (idle6_9 _ hc1) (noFlush6_9 t h1), if_pos h0, if_pos h0, PhiS6_castSucc V c t]
    refine (sep_mono_left (PhiS6_weak V c _ _)).trans ?_
    rw [PhiA6_eq]
    iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run2_first c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) scM6_0 (Memref.isWhole_whole _) scM6_1 (Memref.isWhole_whole _) hc0 hc1 ((dat6 V c).after 0 t) ((dat6 V c).after 1 t) ((dat6 V c).after 2 t) Set.univ _)
    iframe H0 H1 H2 HI HJ
    iintro ⟨H0, H1, H2, HI, HJ⟩
    iframe
    isplitl [HI HJ]
    · isplitl [HI]; · iexact HI
      iexact HJ
    iexists _; iexact H9
  · have hz : t.val ≠ 0 := fun e => h0 (by rw [e])
    have hc0 : ¬cond2_0 (grid6.coords t) := fun h => h0 ((hcond2_0 t).mp h)
    rw [if_neg h0, if_neg h0, PhiS6_castSucc V c t, PhiS6_pos V c _ _ hz]
    by_cases h1 : t.val % 25 = 24
    · have hc1 : cond2_1 (grid6.coords t) := (hcond2_1 t).mpr h1
      rw [show (dat6 V c).leavesExact 9 t = owns (c : Thread nD τ) (ms6_9 t) fullShare ((dat6 V c).after 9 t) from by
        unfold Dat.leavesExact; rw [live6_9 _ hc1], after6_9, scI6_eq V c t, scJ6_eq V c t, if_neg h0, if_neg h0]
      iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run2_last c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) scM6_0 (Memref.isWhole_whole _) scM6_1 (Memref.isWhole_whole _) hc0 hc1 ((dat6 V c).after 0 t) ((dat6 V c).after 1 t) ((dat6 V c).after 2 t) ((dat6 V c).after 3 t) ((dat6 V c).after 4 t) ((dat6 V c).after 5 t) ((dat6 V c).after 6 t) ((dat6 V c).after 7 t) ((dat6 V c).after 8 t) (scI6 V c (t.val - 1) (Nat.lt_of_le_of_lt (Nat.sub_le _ _) t.isLt)) (scJ6 V c (t.val - 1) (Nat.lt_of_le_of_lt (Nat.sub_le _ _) t.isLt)) Set.univ _)
      iframe H0 H1 H2 H3 H4 H5 H6 H7 H8
      isplitl [H9]; · iexists _; iexact H9
      iframe HI HJ
      iintro ⟨H0, H1, H2, H3, H4, H5, H6, H7, H8, H9, HI, HJ⟩
      iframe
      isplitl [HI HJ]
      · isplitl [HI]; · iexact HI
        iexact HJ
      iexact H9
    · have hc1 : ¬cond2_1 (grid6.coords t) := fun h => h1 ((hcond2_1 t).mp h)
      rw [Dat.leavesExact_idle (dat6 V c) 9 t (idle6_9 _ hc1) (noFlush6_9 t h1)]
      iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run2_mid c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) scM6_0 (Memref.isWhole_whole _) scM6_1 (Memref.isWhole_whole _) hc0 hc1 ((dat6 V c).after 0 t) ((dat6 V c).after 1 t) ((dat6 V c).after 2 t) (scI6 V c (t.val - 1) (Nat.lt_of_le_of_lt (Nat.sub_le _ _) t.isLt)) (scJ6 V c (t.val - 1) (Nat.lt_of_le_of_lt (Nat.sub_le _ _) t.isLt)) Set.univ _)
      iframe H0 H1 H2 HI HJ
      iintro ⟨H0, H1, H2, HI, HJ⟩
      iframe
      isplitl [HI HJ]
      · isplitl [HI]; · iexact HI
        iexact HJ
      iexists _; iexact H9

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem hout6 (c : Dev nD) : (dat6 V c).Φ (Fin.last cfg6.N) ⊢ Pipeline.ΦA spec6 c :=
  PhiS6_weak V c (Fin.last cfg6.N).val (Nat.le_of_lt_succ (Fin.last cfg6.N).isLt)

end Cert.KernelIdeal.Hand
end
-- ==== Proof.KI.R7Run.lean ====
import proofs.«415925_j84189948936386_1_alg».proof.Proof.KI.R3Run

noncomputable section

namespace Cert.KernelIdeal.Hand

open Cert.KernelIdeal Cert.KernelIdeal.Gen
open Idealize.ShloMosaic

theorem idleAt7_5 (i : grid7.Coords) (h : ¬cond3_1 i) : cfg7.idle 5 i = true := idleAt3_5 i h
theorem liveAt7_5 (i : grid7.Coords) (h : cond3_1 i) : cfg7.idle 5 i = false := liveAt3_5 i h
theorem noFlush7_5 (t : Fin cfg7.N) (h : ¬t.val % 196 = 195) : (cfg7.win 5).flush t = false := noFlush3_5 t h

end Cert.KernelIdeal.Hand

end
-- ==== Proof.KI.R7Dat.lean ====
import proofs.«415925_j84189948936386_1_alg».proof.Proof.KI.R7Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def sc7 (c : Dev nD) : (n : ℕ) → n < cfg7.N → Vec F S1024x20 .f32
  | 0, hn => k3_pay2 (grid7.coords ⟨0, hn⟩) (iblk7 V c 0 ⟨0, hn⟩) (iblk7 V c 1 ⟨0, hn⟩) (k3_pay1 (F := F))
  | n + 1, hn => k3_pay2 (grid7.coords ⟨n + 1, hn⟩) (iblk7 V c 0 ⟨n + 1, hn⟩) (iblk7 V c 1 ⟨n + 1, hn⟩)
      (if (n + 1) % 196 = 0 then k3_pay1 (F := F) else sc7 c n (Nat.lt_of_succ_lt hn))

theorem sc7_eq (c : Dev nD) (t : Fin cfg7.N) :
    sc7 V c t.val t.isLt = k3_pay2 (grid7.coords t) (iblk7 V c 0 t) (iblk7 V c 1 t)
      (if t.val % 196 = 0 then k3_pay1 (F := F) else sc7 V c (t.val - 1) (Nat.lt_of_le_of_lt (Nat.sub_le _ _) t.isLt)) := by
  obtain ⟨n, hn⟩ := t
  cases n with
  | zero => exact (congrArg (k3_pay2 (grid7.coords ⟨0, hn⟩) (iblk7 V c 0 ⟨0, hn⟩) (iblk7 V c 1 ⟨0, hn⟩)) (if_pos (Nat.zero_mod 196)).symm)
  | succ n => exact rfl

abbrev scM7 : Memref sig .tc .vmem S1024x20 .f32 := Memref.whole cc7_scratch0

theorem PhiA7_eq (c : Dev nD) :
    (Pipeline.ΦA spec7 c : sProp 𝕄)
      = iprop(iprop((∃ d, owns (c : Thread nD τ) scM7 fullShare d) ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7, owns_whole]; try rfl

def PhiS7 (c : Dev nD) : (n : ℕ) → n ≤ cfg7.N → sProp 𝕄
  | 0, _ => Pipeline.ΦA spec7 c
  | n + 1, hn => iprop(iprop(owns (c : Thread nD τ) scM7 fullShare (sc7 V c n hn) ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7 fullShare (sc7 V c n hn) ∗ Pipeline.scopedRestBut (Ix := Unit) (Name := ℕ) (U := UR sig nD τ) (Lvl := ℕ) (Val := Elt F) spec7 c [cc7_scratch0]) ∗ (∃ r, prngReg c r)) := rfl

theorem PhiS7_pos (c : Dev nD) (n : ℕ) (h : n ≤ cfg7.N) (hz : n ≠ 0) :
    PhiS7 V c n h = iprop(iprop(owns (c : Thread nD τ) scM7 fullShare (sc7 V c (n - 1) (by omega)) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => k3_pay3 (iblk7 V c 2 t) (iblk7 V c 3 t) (iblk7 V c 4 t) (sc7 V c t.val t.isLt)
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := rfl

theorem after7_5_flush (c : Dev nD) (t : Fin cfg7.N) (h : t.val % 196 = 195) :
    (dat7 V c).after 5 t = k3_pay3 (iblk7 V c 2 t) (iblk7 V c 3 t) (iblk7 V c 4 t) (sc7 V c t.val t.isLt) := by
  dsimp only [dat7]

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d
theorem before7_2 (c : Dev nD) (t : Fin cfg7.N) (d) : (dat7 V c).before 2 t d = iblk7 V c 2 t :=
  (dat7 V c).before_in_eq_fetched 2 rfl (fun _ => rfl) (fun _ _ _ => rfl) (fun _ => rfl) t d
theorem before7_3 (c : Dev nD) (t : Fin cfg7.N) (d) : (dat7 V c).before 3 t d = iblk7 V c 3 t :=
  (dat7 V c).before_in_eq_fetched 3 rfl (fun _ => rfl) (fun _ _ _ => rfl) (fun _ => rfl) t d
theorem before7_4 (c : Dev nD) (t : Fin cfg7.N) (d) : (dat7 V c).before 4 t d = iblk7 V c 4 t :=
  (dat7 V c).before_in_eq_fetched 4 rfl (fun _ => rfl) (fun _ _ _ => rfl) (fun _ => rfl) t d

abbrev ms7_0 (t : Fin cfg7.N) : Memref sig .tc .vmem S2048 .i32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S2048x20 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1024x20 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S20x20 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S20 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1024x20 .f32 := win7_5.stage (cfg7.slots t 5)
abbrev hs7_5 (t : Fin cfg7.N) : (ms7_5 t).IsWhole := hstage7_5 ((cfg7.slots t 5).cast nbuf7_5)

abbrev bodyAt7 (t : Fin cfg7.N) : Prog (TpuEff nD τ sig (Elt F) Λ₀ .tc) PUnit :=
  cc7__scatter_residual_kernel (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _)

theorem leaves7_0 (c : Dev nD) (t : Fin cfg7.N) :
    (dat7 V c).leavesExact 0 t = owns (c : Thread nD τ) (ms7_0 t) fullShare (iblk7 V c 0 t) := rfl
theorem leaves7_1 (c : Dev nD) (t : Fin cfg7.N) :
    (dat7 V c).leavesExact 1 t = owns (c : Thread nD τ) (ms7_1 t) fullShare (iblk7 V c 1 t) := rfl
theorem leaves7_2 (c : Dev nD) (t : Fin cfg7.N) :
    (dat7 V c).leavesExact 2 t = owns (c : Thread nD τ) (ms7_2 t) fullShare (iblk7 V c 2 t) := rfl
theorem leaves7_3 (c : Dev nD) (t : Fin cfg7.N) :
    (dat7 V c).leavesExact 3 t = owns (c : Thread nD τ) (ms7_3 t) fullShare (iblk7 V c 3 t) := rfl
theorem leaves7_4 (c : Dev nD) (t : Fin cfg7.N) :
    (dat7 V c).leavesExact 4 t = owns (c : Thread nD τ) (ms7_4 t) fullShare (iblk7 V c 4 t) := rfl

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t)

theorem Phi_out7 (c : Dev nD) (t : Fin (cfg7.N + 1)) : (dat7 V c).Φ t ⊢ Pipeline.ΦA spec7 c := by
  rw [show (dat7 V c).Φ t = PhiS7 V c t.val (Nat.le_of_lt_succ t.isLt) from rfl]
  by_cases ht : t.val = 0
  · rw [PhiS7_zero V c _ _ ht]
  rw [PhiS7_pos V c _ _ ht, PhiA7_eq]
  iintro ⟨⟨HS, HR⟩, Hg⟩
  iframe HR Hg
  iexists _; iexact HS

set_option maxHeartbeats 4800000 in
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0 V, before7_1 V, before7_2 V, before7_3 V, before7_4 V]
  rw [show (dat7 V c).owesAt () t.succ = (dat7 V c).owesAt () t.castSucc from rfl]
  rw [show (dat7 V c).Φ t.succ = PhiS7 V c (t.val + 1) t.isLt from rfl, PhiS7_succ]
  rw [leaves7_0 V c t, leaves7_1 V c t, leaves7_2 V c t, leaves7_3 V c t, leaves7_4 V c t]
  by_cases h0 : t.val % 196 = 0
  · have h1 : ¬t.val % 196 = 195 := by omega
    rw [Dat.leavesExact_idle (dat7 V c) 5 t (idleAt7_5 _ (fun h => h1 ((hcond3_1 t).mp h))) (noFlush7_5 t h1)]
    rw [sc7_eq V c t, if_pos h0]
    refine (sep_mono_left (Phi_out7 V c t.castSucc)).trans ?_
    rw [PhiA7_eq]
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩⟩
    iapply (run3_first c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) ((hcond3_0 t).mpr h0) (fun h => h1 ((hcond3_1 t).mp h)) (iblk7 V c 0 t) (iblk7 V c 1 t) (iblk7 V c 2 t) (iblk7 V c 3 t) (iblk7 V c 4 t) _ Set.univ _)
    iframe H0 H1 H2 H3 H4 H5
    isplitl [HS]; · iexists _; iexact HS
    iintro ⟨H0, H1, H2, H3, H4, H5, HS⟩
    iframe HS HR Hg Ho H0 H1 H2 H3 H4
    iexists _; iexact H5
  · rw [PhiS7_castSucc V c t, PhiS7_pos V c _ _ (by omega)]
    by_cases h1 : t.val % 196 = 195
    · rw [show (dat7 V c).leavesExact 5 t = owns (c : Thread nD τ) (ms7_5 t) fullShare ((dat7 V c).after 5 t) from by
        unfold Dat.leavesExact; rw [liveAt7_5 _ ((hcond3_1 t).mpr h1)], after7_5_flush V c t h1]
      rw [sc7_eq V c t, if_neg h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run3_last c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) (fun h => h0 ((hcond3_0 t).mp h)) ((hcond3_1 t).mpr h1) (iblk7 V c 0 t) (iblk7 V c 1 t) (iblk7 V c 2 t) (iblk7 V c 3 t) (iblk7 V c 4 t) _ Set.univ _)
      iframe H0 H1 H2 H3 H4 HS
      isplitl [H5]; · iexists _; iexact H5
      iintro ⟨H0, H1, H2, H3, H4, H5, HS⟩
      iframe HS HR Hg Ho H0 H1 H2 H3 H4
      iexact H5
    · rw [Dat.leavesExact_idle (dat7 V c) 5 t (idleAt7_5 _ (fun h => h1 ((hcond3_1 t).mp h))) (noFlush7_5 t h1)]
      rw [sc7_eq V c t, if_neg h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run3_mid c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) (fun h => h0 ((hcond3_0 t).mp h)) (fun h => h1 ((hcond3_1 t).mp h)) (iblk7 V c 0 t) (iblk7 V c 1 t) (iblk7 V c 2 t) (iblk7 V c 3 t) (iblk7 V c 4 t) _ _ Set.univ _)
      iframe H0 H1 H2 H3 H4 H5 HS
      iintro ⟨H0, H1, H2, H3, H4, H5, HS⟩
      iframe HS HR Hg Ho H0 H1 H2 H3 H4
      iexists _; iexact H5

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 :=
  Idealize.SL.BI.Entails.refl _

theorem hout7 (c : Dev nD) : (dat7 V c).Φ (Fin.last cfg7.N) ⊢ Pipeline.ΦA spec7 c :=
  Phi_out7 V c _

end Cert.KernelIdeal.Hand

end
-- ==== Proof.KI.R8Run.lean ====
import proofs.«415925_j84189948936386_1_alg».proof.Proof.Gen.KernelIdeal.Launch
import proofs.«415925_j84189948936386_1_alg».proof.Proof.Gen.KernelIdeal.Skeleton
import proofs.«415925_j84189948936386_1_alg».proof.Proof.KI.Whole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond8_0 (i : grid8.Coords) : Prop :=
  (Scalar.cmpi .ne (Scalar.extui (Scalar.cmpi .eq (BitVec.ofNat 32 (i 1).val) 0#32)) 0#32) = 1#1

abbrev cond8_1 (i : grid8.Coords) : Prop := k8_cond2 i = 1#1

theorem coords8_1 (t : Fin cfg8.N) : ((grid8.coords t) 1).val = t.val % 25 := by
  have hs : grid8.stride 1 = 1 := by decide
  have hb : grid8.bound 1 = 25 := rfl
  show t.val / grid8.stride 1 % grid8.bound 1 = t.val % 25
  rw [hs, hb, Nat.div_one]

theorem cond8_0_iff : ∀ j : Fin 25,
    ((Scalar.cmpi .ne (Scalar.extui (Scalar.cmpi .eq (BitVec.ofNat 32 j.val) 0#32)) 0#32) = 1#1) ↔ j.val = 0 := by decide
theorem cond8_1_iff : ∀ j : Fin 25,
    ((Scalar.cmpi .ne (Scalar.extui (Scalar.cmpi .eq (BitVec.ofNat 32 j.val) 24#32)) 0#32) = 1#1) ↔ j.val = 24 := by decide

theorem hcond8_0 (t : Fin cfg8.N) : cond8_0 (grid8.coords t) ↔ t.val % 25 = 0 :=
  (cond8_0_iff (grid8.coords t 1)).trans (by rw [coords8_1 t])

theorem hcond8_1 (t : Fin cfg8.N) : cond8_1 (grid8.coords t) ↔ t.val % 25 = 24 :=
  (cond8_1_iff (grid8.coords t 1)).trans (by rw [coords8_1 t])

variable (c : Dev nD) (i : grid8.Coords) (arg2 : Memref sig .tc .vmem S2048 .i32) (harg2 : arg2.IsWhole) (arg3 : Memref sig .tc .vmem S2048 .i32) (harg3 : arg3.IsWhole) (arg4 : Memref sig .tc .vmem S1024x20 .f32) (harg4 : arg4.IsWhole) (arg5 : Memref sig .tc .vmem S40x200 .f32) (harg5 : arg5.IsWhole) (arg6 : Memref sig .tc .vmem S200 .f32) (harg6 : arg6.IsWhole) (arg7 : Memref sig .tc .vmem S200x20 .f32) (harg7 : arg7.IsWhole) (arg8 : Memref sig .tc .vmem S20 .f32) (harg8 : arg8.IsWhole) (arg9 : Memref sig .tc .vmem S20x1 .f32) (harg9 : arg9.IsWhole) (arg10 : Memref sig .tc .vmem S1 .f32) (harg10 : arg10.IsWhole) (arg11 : Memref sig .tc .vmem S2048x1 .f32) (harg11 : arg11.IsWhole) (arg12 : Memref sig .tc .vmem S2048x20 .f32) (harg12 : arg12.IsWhole) (arg13 : Memref sig .tc .vmem S2048x20 .f32) (harg13 : arg13.IsWhole)

set_option maxHeartbeats 1000000 in

theorem run8_first
    (hc0 : cond8_0 i) (hc1 : ¬cond8_1 i)
    (x0 : Vec F S2048 .i32) (x1 : Vec F S2048 .i32) (x2 : Vec F S1024x20 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2
            ∗ owns (c : Thread nD τ) arg12 fullShare (k8_pay6 i x1 x2 k8_pay2) ∗ owns (c : Thread nD τ) arg13 fullShare (k8_pay7 i x0 x2 k8_pay3)) -∗ K ⟨⟩))
      ⊢ wp frame (wpE (defs₀ (F := F)) Variants.none c none) E (cc8__gather_mlp_kernel i arg2 harg2 arg3 harg3 arg4 harg4 arg5 harg5 arg6 harg6 arg7 harg7 arg8 harg8 arg9 harg9 arg10 harg10 arg11 harg11 arg12 harg12 arg13 harg13) K := by
  sl_unfold [cc8__gather_mlp_kernel]
  unfold owns
  iintro ⟨⟨%f0, %hf0, H0⟩, ⟨%f1, %hf1, H1⟩, ⟨%f2, %hf2, H2⟩, ⟨%dI, %fI, -, HI⟩, ⟨%dJ, %fJ, -, HJ⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HI]
  · iexists _; isplitr
    swap; · iexact HI
    ipureintro
    refine (read_writes_full _ _ _ _ _).trans ?_
    sl_unfold_run_names
    rw [readAt_unread_full harg3, readAt_unread_full harg4, readCov_full]
  · iexists _; isplitr
    swap; · iexact HJ
    ipureintro
    refine (read_writes_full _ _ _ _ _).trans ?_
    sl_unfold_run_names
    rw [readAt_unread_full harg2, readAt_unread_full harg4, readCov_full]

set_option maxHeartbeats 1000000 in

theorem run8_mid
    (hc0 : ¬cond8_0 i) (hc1 : ¬cond8_1 i)
    (x0 : Vec F S2048 .i32) (x1 : Vec F S2048 .i32) (x2 : Vec F S1024x20 .f32)
    (a : Vec F S2048x20 .f32) (b : Vec F S2048x20 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg12 fullShare a ∗ owns (c : Thread nD τ) arg13 fullShare b
        ∗ (iprop(owns (c : Thread nD τ) arg2 fullShare x0 ∗ owns (c : Thread nD τ) arg3 fullShare x1 ∗ owns (c : Thread nD τ) arg4 fullShare x2
            ∗ owns (c : Thread nD τ) arg12 fullShare (k8_pay6 i x1 x2 a) ∗ owns (c : Thread nD τ) arg13 fullShare (k8_pay7 i x0 x2 b)) -∗ K ⟨⟩))
      ⊢ wp frame (wpE (defs₀ (F := F)) Variants.none c none) E (cc8__gather_mlp_kernel i arg2 harg2 arg3 harg3 arg4 harg4 arg5 harg5 arg6 harg6 arg7 harg7 arg8 harg8 arg9 harg9 arg10 harg10 arg11 harg11 arg12 harg12 arg13 harg13) K := by
  sl_unfold [cc8__gather_mlp_kernel]
  unfold owns
  iintro ⟨⟨%f0, %hf0, H0⟩, ⟨%f1, %hf1, H1⟩, ⟨%f2, %hf2, H2⟩, ⟨%fI, %hfI, HI⟩, ⟨%fJ, %hfJ, HJ⟩, Hk⟩
  obtain rfl := harg2.eq_unread hf0; obtain rfl := harg3.eq_unread hf1; obtain rfl := harg4.eq_unread hf2
  obtain rfl := harg12.eq_unread hfI; obtain rfl := harg13.eq_unread hfJ
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HI]
  · iexists _; isplitr
    swap; · iexact HI
    ipureintro
    refine (read_writes_full _ _ _ _ _).trans ?_
    sl_unfold_run_names
    rw [readAt_unread_full harg3, readAt_unread_full harg4, readAt_unread_full harg12]
  · iexists _; isplitr
    swap; · iexact HJ
    ipureintro
    refine (read_writes_full _ _ _ _ _).trans ?_
    sl_unfold_run_names
    rw [readAt_unread_full harg2, readAt_unread_full harg4, readAt_unread_full harg13]

set_option maxHeartbeats 1000000 in

theorem run8_last
    (hc0 : ¬cond8_0 i) (hc1 : cond8_1 i)
    (x0 : Vec F S2048 .i32) (x1 : Vec F S2048 .i32) (x2 : Vec F S1024x20 .f32)
    (x3 : Vec F S40x200 .f32) (x4 : Vec F S200 .f32) (x5 : Vec F S200x20 .f32) (x6 : Vec F S20 .f32) (x7 : Vec F S20x1 .f32) (x8 : Vec F S1 .f32)
    (a : Vec F S2048x20 .f32) (b : Vec F S2048x20 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8
        ∗ (∃ d, owns (c : Thread nD τ) arg11 fullShare d)
        ∗ owns (c : Thread nD τ) arg12 fullShare a ∗ owns (c : Thread nD τ) arg13 fullShare b
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare (k8_pay1 (k8_pay6 i x1 x2 a) (k8_pay7 i x0 x2 b) x3 x4 x5 x6 x7 x8)
            ∗ owns (c : Thread nD τ) arg12 fullShare (k8_pay6 i x1 x2 a) ∗ owns (c : Thread nD τ) arg13 fullShare (k8_pay7 i x0 x2 b)) -∗ K ⟨⟩))
      ⊢ wp frame (wpE (defs₀ (F := F)) Variants.none c none) E (cc8__gather_mlp_kernel i arg2 harg2 arg3 harg3 arg4 harg4 arg5 harg5 arg6 harg6 arg7 harg7 arg8 harg8 arg9 harg9 arg10 harg10 arg11 harg11 arg12 harg12 arg13 harg13) K := by
  sl_unfold [cc8__gather_mlp_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dO, %fO, -, HO⟩, ⟨%fI, %hfI, HI⟩, ⟨%fJ, %hfJ, HJ⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg12.eq_unread hfI; obtain rfl := harg13.eq_unread hfJ
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HO]
  · iexists _; isplitr
    swap; · iexact HO
    ipureintro
    refine (read_writes_full _ _ _ _ _).trans ?_
    sl_unfold_run_names
    rw [readCov_full, readCov_full, readAt_unread_full harg3, readAt_unread_full harg4, readAt_unread_full harg12, readAt_unread_full harg2, readAt_unread_full harg13, readAt_unread_full harg5, readAt_unread_full harg6, readAt_unread_full harg7, readAt_unread_full harg8, readAt_unread_full harg9, readAt_unread_full harg10]
  isplitl [HI]
  · iexists _; isplitr
    swap; · iexact HI
    ipureintro
    refine (read_writes_full _ _ _ _ _).trans ?_
    sl_unfold_run_names
    rw [readAt_unread_full harg3, readAt_unread_full harg4, readAt_unread_full harg12]
  · iexists _; isplitr
    swap; · iexact HJ
    ipureintro
    refine (read_writes_full _ _ _ _ _).trans ?_
    sl_unfold_run_names
    rw [readAt_unread_full harg2, readAt_unread_full harg4, readAt_unread_full harg13]

end Cert.KernelIdeal.Hand
end
-- ==== Proof.KI.R8Dat.lean ====
import proofs.«415925_j84189948936386_1_alg».proof.Proof.KI.R8Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev ms8_0 (t : Fin cfg8.N) : Memref sig .tc .vmem S2048 .i32 := (cfg8.win 0).stage (cfg8.slots t 0)
abbrev hs8_0 (t : Fin cfg8.N) : (ms8_0 t).IsWhole := hstage8_0 ((cfg8.slots t 0).cast nbuf8_0)
abbrev ms8_1 (t : Fin cfg8.N) : Memref sig .tc .vmem S2048 .i32 := (cfg8.win 1).stage (cfg8.slots t 1)
abbrev hs8_1 (t : Fin cfg8.N) : (ms8_1 t).IsWhole := hstage8_1 ((cfg8.slots t 1).cast nbuf8_1)
abbrev ms8_2 (t : Fin cfg8.N) : Memref sig .tc .vmem S1024x20 .f32 := (cfg8.win 2).stage (cfg8.slots t 2)
abbrev hs8_2 (t : Fin cfg8.N) : (ms8_2 t).IsWhole := hstage8_2 ((cfg8.slots t 2).cast nbuf8_2)
abbrev ms8_3 (t : Fin cfg8.N) : Memref sig .tc .vmem S40x200 .f32 := (cfg8.win 3).stage (cfg8.slots t 3)
abbrev hs8_3 (t : Fin cfg8.N) : (ms8_3 t).IsWhole := hstage8_3 ((cfg8.slots t 3).cast nbuf8_3)
abbrev ms8_4 (t : Fin cfg8.N) : Memref sig .tc .vmem S200 .f32 := (cfg8.win 4).stage (cfg8.slots t 4)
abbrev hs8_4 (t : Fin cfg8.N) : (ms8_4 t).IsWhole := hstage8_4 ((cfg8.slots t 4).cast nbuf8_4)
abbrev ms8_5 (t : Fin cfg8.N) : Memref sig .tc .vmem S200x20 .f32 := (cfg8.win 5).stage (cfg8.slots t 5)
abbrev hs8_5 (t : Fin cfg8.N) : (ms8_5 t).IsWhole := hstage8_5 ((cfg8.slots t 5).cast nbuf8_5)
abbrev ms8_6 (t : Fin cfg8.N) : Memref sig .tc .vmem S20 .f32 := (cfg8.win 6).stage (cfg8.slots t 6)
abbrev hs8_6 (t : Fin cfg8.N) : (ms8_6 t).IsWhole := hstage8_6 ((cfg8.slots t 6).cast nbuf8_6)
abbrev ms8_7 (t : Fin cfg8.N) : Memref sig .tc .vmem S20x1 .f32 := (cfg8.win 7).stage (cfg8.slots t 7)
abbrev hs8_7 (t : Fin cfg8.N) : (ms8_7 t).IsWhole := hstage8_7 ((cfg8.slots t 7).cast nbuf8_7)
abbrev ms8_8 (t : Fin cfg8.N) : Memref sig .tc .vmem S1 .f32 := (cfg8.win 8).stage (cfg8.slots t 8)
abbrev hs8_8 (t : Fin cfg8.N) : (ms8_8 t).IsWhole := hstage8_8 ((cfg8.slots t 8).cast nbuf8_8)
abbrev ms8_9 (t : Fin cfg8.N) : Memref sig .tc .vmem S2048x1 .f32 := (cfg8.win 9).stage (cfg8.slots t 9)
abbrev hs8_9 (t : Fin cfg8.N) : (ms8_9 t).IsWhole := hstage8_9 ((cfg8.slots t 9).cast nbuf8_9)

abbrev scM8_0 : Memref sig .tc .vmem S2048x20 .f32 := Memref.whole cc8_scratch0
abbrev scM8_1 : Memref sig .tc .vmem S2048x20 .f32 := Memref.whole cc8_scratch1

def scI8 (c : Dev nD) : (n : ℕ) → n < cfg8.N → Vec F S2048x20 .f32
  | 0, hn => k8_pay6 (grid8.coords ⟨0, hn⟩) (iblk8 V c 1 ⟨0, hn⟩) (iblk8 V c 2 ⟨0, hn⟩) k8_pay2
  | n + 1, hn => k8_pay6 (grid8.coords ⟨n + 1, hn⟩) (iblk8 V c 1 ⟨n + 1, hn⟩) (iblk8 V c 2 ⟨n + 1, hn⟩)
      (if (n + 1) % 25 = 0 then k8_pay2 else scI8 c n (Nat.lt_of_succ_lt hn))

def scJ8 (c : Dev nD) : (n : ℕ) → n < cfg8.N → Vec F S2048x20 .f32
  | 0, hn => k8_pay7 (grid8.coords ⟨0, hn⟩) (iblk8 V c 0 ⟨0, hn⟩) (iblk8 V c 2 ⟨0, hn⟩) k8_pay3
  | n + 1, hn => k8_pay7 (grid8.coords ⟨n + 1, hn⟩) (iblk8 V c 0 ⟨n + 1, hn⟩) (iblk8 V c 2 ⟨n + 1, hn⟩)
      (if (n + 1) % 25 = 0 then k8_pay3 else scJ8 c n (Nat.lt_of_succ_lt hn))

theorem scI8_eq (c : Dev nD) (t : Fin cfg8.N) :
    scI8 V c t.val t.isLt = k8_pay6 (grid8.coords t) (iblk8 V c 1 t) (iblk8 V c 2 t)
      (if t.val % 25 = 0 then k8_pay2 else scI8 V c (t.val - 1) (Nat.lt_of_le_of_lt (Nat.sub_le _ _) t.isLt)) := by
  obtain ⟨n, hn⟩ := t
  cases n with
  | zero => exact (congrArg (k8_pay6 _ _ _) (if_pos (Nat.zero_mod 25)).symm)
  | succ n => rfl

theorem scJ8_eq (c : Dev nD) (t : Fin cfg8.N) :
    scJ8 V c t.val t.isLt = k8_pay7 (grid8.coords t) (iblk8 V c 0 t) (iblk8 V c 2 t)
      (if t.val % 25 = 0 then k8_pay3 else scJ8 V c (t.val - 1) (Nat.lt_of_le_of_lt (Nat.sub_le _ _) t.isLt)) := by
  obtain ⟨n, hn⟩ := t
  cases n with
  | zero => exact (congrArg (k8_pay7 _ _ _) (if_pos (Nat.zero_mod 25)).symm)
  | succ n => rfl

abbrev rest8 (c : Dev nD) : sProp 𝕄 :=
  Pipeline.scopedRestBut (Ix := Unit) (Name := ℕ) (U := UR sig nD τ) (Lvl := ℕ) (Val := Elt F) spec8 c [cc8_scratch0, cc8_scratch1]

theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d)) ∗ rest8 c)
          ∗ (∃ r, prngReg c r)) := by
  unfold Pipeline.ΦA; rw [scopedRest8_split]; simp only [scM8_0, scM8_1, owns_whole]; try rfl

def PhiS8 (c : Dev nD) : (n : ℕ) → n ≤ cfg8.N → sProp 𝕄
  | 0, _ => Pipeline.ΦA spec8 c
  | n + 1, hn => iprop(iprop(iprop(owns (c : Thread nD τ) scM8_0 fullShare (scI8 V c n hn) ∗ owns (c : Thread nD τ) scM8_1 fullShare (scJ8 V c n hn)) ∗ rest8 c)
      ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(iprop(owns (c : Thread nD τ) scM8_0 fullShare (scI8 V c n hn) ∗ owns (c : Thread nD τ) scM8_1 fullShare (scJ8 V c n hn)) ∗ rest8 c)
      ∗ (∃ r, prngReg c r)) := rfl

theorem PhiS8_pos (c : Dev nD) (n : ℕ) (h : n ≤ cfg8.N) (hz : n ≠ 0) :
    PhiS8 V c n h = iprop(iprop(iprop(owns (c : Thread nD τ) scM8_0 fullShare (scI8 V c (n - 1) (by omega)) ∗ owns (c : Thread nD τ) scM8_1 fullShare (scJ8 V c (n - 1) (by omega))) ∗ rest8 c)
      ∗ (∃ r, prngReg c r)) := by
  cases n with
  | zero => exact absurd rfl hz
  | succ n => rfl

theorem PhiS8_weak (c : Dev nD) (n : ℕ) (h : n ≤ cfg8.N) : PhiS8 V c n h ⊢ Pipeline.ΦA spec8 c := by
  cases n with
  | zero => exact Idealize.SL.BI.Entails.refl _
  | succ n =>
    rw [PhiS8_succ, PhiA8_eq]
    iintro ⟨⟨⟨HI, HJ⟩, HR⟩, Hg⟩
    isplitl [HI HJ HR]
    · isplitl [HI HJ]
      · isplitl [HI]; · iexists _; iexact HI
        iexists _; iexact HJ
      iexact HR
    iexact Hg

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => k8_pay1 (scI8 V c t.val t.isLt) (scJ8 V c t.val t.isLt) (iblk8 V c 3 t) (iblk8 V c 4 t) (iblk8 V c 5 t) (iblk8 V c 6 t) (iblk8 V c 7 t) (iblk8 V c 8 t)
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_9 (c : Dev nD) (t : Fin cfg8.N) : (dat8 V c).after 9 t = k8_pay1 (scI8 V c t.val t.isLt) (scJ8 V c t.val t.isLt) (iblk8 V c 3 t) (iblk8 V c 4 t) (iblk8 V c 5 t) (iblk8 V c 6 t) (iblk8 V c 7 t) (iblk8 V c 8 t) := by dsimp only [dat8]

theorem after8_9_flush (c : Dev nD) (t : Fin cfg8.N) (h : t.val % 25 = 24) : (dat8 V c).after 9 t = k8_pay1 (scI8 V c t.val t.isLt) (scJ8 V c t.val t.isLt) (iblk8 V c 3 t) (iblk8 V c 4 t) (iblk8 V c 5 t) (iblk8 V c 6 t) (iblk8 V c 7 t) (iblk8 V c 8 t) :=
  after8_9 V c t

theorem before8_in (c : Dev nD) (w : Fin cfg8.W) (hw : w ≠ 9) (t : Fin cfg8.N) (d) : (dat8 V c).before w t d = (dat8 V c).after w t := by
  fin_cases w <;> first
    | exact absurd rfl hw
    | exact (dat8 V c).before_in_eq_fetched _ rfl (fun _ => rfl) (fun _ _ _ => rfl) (fun _ => rfl) t d

theorem leaves8_in (c : Dev nD) (w : Fin cfg8.W) (hw : w ≠ 9) (t : Fin cfg8.N) :
    (dat8 V c).leavesExact w t = owns (c : Thread nD τ) ((cfg8.win w).stage (cfg8.slots t w)) fullShare ((dat8 V c).after w t) := by
  fin_cases w <;> first | exact absurd rfl hw | rfl

theorem idle8_9 (i : grid8.Coords) (h : ¬cond8_1 i) : cfg8.idle 9 i = true := by
  show (!(k8_cond2 i == 1#1)) = true
  rw [Bool.not_eq_true', beq_eq_false_iff_ne]; exact h

theorem live8_9 (i : grid8.Coords) (h : cond8_1 i) : cfg8.idle 9 i = false := by
  show (!(k8_cond2 i == 1#1)) = false
  rw [Bool.not_eq_false', beq_iff_eq]; exact h

theorem noFlush8_9 (t : Fin cfg8.N) (h : ¬t.val % 25 = 24) : (cfg8.win 9).flush t = false := by
  have hN : grid8.N = 4900 := N_8
  have ht : t.val < 4900 := lt_of_lt_of_eq t.isLt hN
  have hs : grid8.stride 0 = 25 := by decide
  have hidx : ∀ h1 : t.val + 1 < grid8.N, win8_9.index ⟨t.val + 1, h1⟩ = win8_9.index t := fun h1 =>
    hreads8_9 _ _ (Fin.forall_fin_two.mpr ⟨fun _ => Fin.ext (by
      show (t.val + 1) / grid8.stride 0 % grid8.bound 0 = t.val / grid8.stride 0 % grid8.bound 0
      rw [hs]; congr 1; omega), fun ha => absurd ha (by decide)⟩)
  show (win8_9.isOut && (decide (t.val + 1 = grid8.N) || decide (∃ h1 : t.val + 1 < grid8.N, win8_9.index ⟨t.val + 1, h1⟩ ≠ win8_9.index t))) = false
  rw [Bool.and_eq_false_iff]; right
  rw [Bool.or_eq_false_iff]
  exact ⟨decide_eq_false (by omega), decide_eq_false fun ⟨h1, hne⟩ => hne (hidx h1)⟩

def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d))
    ∗ (∃ d, owns (c : Thread nD τ) (ms8_7 t) fullShare ((dat8 V c).before 7 t d))
    ∗ (∃ d, owns (c : Thread nD τ) (ms8_8 t) fullShare ((dat8 V c).before 8 t d))
    ∗ (∃ d, owns (c : Thread nD τ) (ms8_9 t) fullShare ((dat8 V c).before 9 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t
    ∗ (dat8 V c).leavesExact 8 t
    ∗ (dat8 V c).leavesExact 9 t)

set_option maxHeartbeats 4800000 in
theorem sound_body8 (c : Dev nD) (t : Fin cfg8.N) :
    bodyPre8 V c t ⊢ wp frame (wpE (defs₀ (F := F)) Variants.none c none) Set.univ (cc8__gather_mlp_kernel (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) scM8_0 (Memref.isWhole_whole _) scM8_1 (Memref.isWhole_whole _)) (fun _ => bodyPost8 V c t) := by
  unfold bodyPre8 bodyPost8
  simp (config := {decide := true}) only [before8_in]
  rw [show (dat8 V c).owesAt () t.succ = (dat8 V c).owesAt () t.castSucc from rfl]
  rw [show (dat8 V c).Φ t.succ = PhiS8 V c (t.val + 1) t.isLt from rfl, PhiS8_succ]
  simp (config := {decide := true}) only [leaves8_in]
  rw [scI8_eq V c t, scJ8_eq V c t]
  by_cases h0 : t.val % 25 = 0
  · have h1 : ¬t.val % 25 = 24 := by omega
    have hc0 : cond8_0 (grid8.coords t) := (hcond8_0 t).mpr h0
    have hc1 : ¬cond8_1 (grid8.coords t) := fun h => h1 ((hcond8_1 t).mp h)
    rw [Dat.leavesExact_idle (dat8 V c) 9 t (idle8_9 _ hc1) (noFlush8_9 t h1), if_pos h0, if_pos h0, PhiS8_castSucc V c t]
    refine (sep_mono_left (PhiS8_weak V c _ _)).trans ?_
    rw [PhiA8_eq]
    iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run8_first c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) scM8_0 (Memref.isWhole_whole _) scM8_1 (Memref.isWhole_whole _) hc0 hc1 ((dat8 V c).after 0 t) ((dat8 V c).after 1 t) ((dat8 V c).after 2 t) Set.univ _)
    iframe H0 H1 H2 HI HJ
    iintro ⟨H0, H1, H2, HI, HJ⟩
    iframe
    isplitl [HI HJ]
    · isplitl [HI]; · iexact HI
      iexact HJ
    iexists _; iexact H9
  · have hz : t.val ≠ 0 := fun e => h0 (by rw [e])
    have hc0 : ¬cond8_0 (grid8.coords t) := fun h => h0 ((hcond8_0 t).mp h)
    rw [if_neg h0, if_neg h0, PhiS8_castSucc V c t, PhiS8_pos V c _ _ hz]
    by_cases h1 : t.val % 25 = 24
    · have hc1 : cond8_1 (grid8.coords t) := (hcond8_1 t).mpr h1
      rw [show (dat8 V c).leavesExact 9 t = owns (c : Thread nD τ) (ms8_9 t) fullShare ((dat8 V c).after 9 t) from by
        unfold Dat.leavesExact; rw [live8_9 _ hc1], after8_9, scI8_eq V c t, scJ8_eq V c t, if_neg h0, if_neg h0]
      iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run8_last c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) scM8_0 (Memref.isWhole_whole _) scM8_1 (Memref.isWhole_whole _) hc0 hc1 ((dat8 V c).after 0 t) ((dat8 V c).after 1 t) ((dat8 V c).after 2 t) ((dat8 V c).after 3 t) ((dat8 V c).after 4 t) ((dat8 V c).after 5 t) ((dat8 V c).after 6 t) ((dat8 V c).after 7 t) ((dat8 V c).after 8 t) (scI8 V c (t.val - 1) (Nat.lt_of_le_of_lt (Nat.sub_le _ _) t.isLt)) (scJ8 V c (t.val - 1) (Nat.lt_of_le_of_lt (Nat.sub_le _ _) t.isLt)) Set.univ _)
      iframe H0 H1 H2 H3 H4 H5 H6 H7 H8
      isplitl [H9]; · iexists _; iexact H9
      iframe HI HJ
      iintro ⟨H0, H1, H2, H3, H4, H5, H6, H7, H8, H9, HI, HJ⟩
      iframe
      isplitl [HI HJ]
      · isplitl [HI]; · iexact HI
        iexact HJ
      iexact H9
    · have hc1 : ¬cond8_1 (grid8.coords t) := fun h => h1 ((hcond8_1 t).mp h)
      rw [Dat.leavesExact_idle (dat8 V c) 9 t (idle8_9 _ hc1) (noFlush8_9 t h1)]
      iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run8_mid c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) scM8_0 (Memref.isWhole_whole _) scM8_1 (Memref.isWhole_whole _) hc0 hc1 ((dat8 V c).after 0 t) ((dat8 V c).after 1 t) ((dat8 V c).after 2 t) (scI8 V c (t.val - 1) (Nat.lt_of_le_of_lt (Nat.sub_le _ _) t.isLt)) (scJ8 V c (t.val - 1) (Nat.lt_of_le_of_lt (Nat.sub_le _ _) t.isLt)) Set.univ _)
      iframe H0 H1 H2 HI HJ
      iintro ⟨H0, H1, H2, HI, HJ⟩
      iframe
      isplitl [HI HJ]
      · isplitl [HI]; · iexact HI
        iexact HJ
      iexists _; iexact H9

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

theorem hout8 (c : Dev nD) : (dat8 V c).Φ (Fin.last cfg8.N) ⊢ Pipeline.ΦA spec8 c :=
  PhiS8_weak V c (Fin.last cfg8.N).val (Nat.le_of_lt_succ (Fin.last cfg8.N).isLt)

end Cert.KernelIdeal.Hand
end
-- ==== Proof.KI.R9Run.lean ====
import proofs.«415925_j84189948936386_1_alg».proof.Proof.Gen.KernelIdeal.Launch
import proofs.«415925_j84189948936386_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.WholeRead
import Idealize.ShloMosaic.Lib.WritesUnit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem read_writes_whole9 {sg : RefSig} {κ : Kind} {sp : Space} {s : Shape} {e : EltTy} {Val : EltTy → Type}
    (v : View sg κ sp s e) (f : v.ty.Contents Val) {off : Fin s.rank → ℕ} (inb : ∀ a, off a + s.size a ≤ s.size a)
    (w : s.Idx → Val e) (L : List (View.Piece Val s e)) :
    v.read Val (v.writes Val f ((⟨Rect.unit off s.size inb, w⟩ : View.Piece Val s e) :: L)) = w :=
  funext fun y => View.read_writes_cons_unit_of_mem v f inb w L y y rfl fun a => by have := inb a; omega

theorem readAt_whole9 {sg : RefSig} {κ : Kind} {sp : Space} {s : Shape} {e : EltTy} {Val : EltTy → Type}
    {m : Memref sg κ sp s e} (h : m.IsWhole) (X : s.Idx → Val e) {off : Fin s.rank → ℕ}
    (inb : ∀ a, off a + s.size a ≤ s.size a) :
    m.view.readAt Val (Rect.unit off s.size inb).toLoadRect (h.unread X) = X :=
  funext fun x => (h.readAt_unread X _ x).trans (congrArg X (funext fun a => Fin.ext (by
    show off a + 1 * (x a).val = (x a).val
    have := inb a; omega)))

theorem coords9_1 (t : Fin cfg9.N) : ((grid9.coords t) 1).val = t.val % 196 := by
  have hs : grid9.stride 1 = 1 := by decide
  have hb : grid9.bound 1 = 196 := rfl
  show t.val / grid9.stride 1 % grid9.bound 1 = t.val % 196
  rw [hs, hb, Nat.div_one]

theorem coords9_0 (t : Fin cfg9.N) : ((grid9.coords t) 0).val = t.val / 196 % 25 := by
  have hs : grid9.stride 0 = 196 := by decide
  have hb : grid9.bound 0 = 25 := rfl
  show t.val / grid9.stride 0 % grid9.bound 0 = t.val / 196 % 25
  rw [hs, hb]

abbrev cond9_0 (i : grid9.Coords) : Prop :=
  (Scalar.cmpi .ne (Scalar.extui (Scalar.cmpi .eq (BitVec.ofNat 32 (i 1).val) 0#32)) 0#32) = 1#1

abbrev cond9_1 (i : grid9.Coords) : Prop := k9_cond2 i = 1#1

theorem cond9_0_iff : ∀ j : Fin 196,
    ((Scalar.cmpi .ne (Scalar.extui (Scalar.cmpi .eq (BitVec.ofNat 32 j.val) 0#32)) 0#32) = 1#1) ↔ j.val = 0 := by decide +kernel
theorem cond9_1_iff : ∀ j : Fin 196,
    ((Scalar.cmpi .ne (Scalar.extui (Scalar.cmpi .eq (BitVec.ofNat 32 j.val) 195#32)) 0#32) = 1#1) ↔ j.val = 195 := by decide +kernel

theorem hcond9_0 (t : Fin cfg9.N) : cond9_0 (grid9.coords t) ↔ t.val % 196 = 0 :=
  (cond9_0_iff (grid9.coords t 1)).trans (by rw [coords9_1 t])

theorem hcond9_1 (t : Fin cfg9.N) : cond9_1 (grid9.coords t) ↔ t.val % 196 = 195 :=
  (cond9_1_iff (grid9.coords t 1)).trans (by rw [coords9_1 t])

theorem idleAt9_5 (i : grid9.Coords) (h : ¬cond9_1 i) : cfg9.idle 5 i = true := by
  show (!(k9_cond2 i == 1#1)) = true
  rw [show (k9_cond2 i == 1#1) = false from beq_false_of_ne h]; rfl

theorem liveAt9_5 (i : grid9.Coords) (h : cond9_1 i) : cfg9.idle 5 i = false := by
  show (!(k9_cond2 i == 1#1)) = false
  rw [show (k9_cond2 i == 1#1) = true from beq_iff_eq.mpr h]; rfl

theorem noFlush9_5 (t : Fin cfg9.N) (h : ¬t.val % 196 = 195) : (cfg9.win 5).flush t = false := by
  have hN : grid9.N = 4900 := N_9
  have ht : t.val < 4900 := lt_of_lt_of_eq t.isLt hN
  have hidx : ∀ hlt : t.val + 1 < grid9.N, (cfg9.win 5).index ⟨t.val + 1, hlt⟩ = (cfg9.win 5).index t := fun hlt => by
    have e : grid9.coords ⟨t.val + 1, hlt⟩ 0 = grid9.coords t 0 :=
      Fin.ext ((coords9_0 ⟨t.val + 1, hlt⟩).trans (Eq.trans (by
        show (t.val + 1) / 196 % 25 = t.val / 196 % 25
        omega) (coords9_0 t).symm))
    show cc9_transform_5 (grid9.coords ⟨t.val + 1, hlt⟩) = cc9_transform_5 (grid9.coords t)
    unfold cc9_transform_5; rw [e]
  refine Bool.eq_false_iff.mpr fun hf => ?_
  simp only [Pipeline.Window.flush, Bool.and_eq_true, Bool.or_eq_true, decide_eq_true_eq] at hf
  rcases hf with ⟨-, hlast | ⟨hlt, hne⟩⟩
  · omega
  · exact hne (hidx hlt)

variable (c : Dev nD) (i : grid9.Coords) (arg2 : Memref sig .tc .vmem S2048 .i32) (harg2 : arg2.IsWhole) (arg3 : Memref sig .tc .vmem S2048x1 .f32) (harg3 : arg3.IsWhole) (arg4 : Memref sig .tc .vmem S1024x20 .f32) (harg4 : arg4.IsWhole) (arg5 : Memref sig .tc .vmem S20x1 .f32) (harg5 : arg5.IsWhole) (arg6 : Memref sig .tc .vmem S1 .f32) (harg6 : arg6.IsWhole) (arg7 : Memref sig .tc .vmem S1024x1 .f32) (harg7 : arg7.IsWhole) (arg8 : Memref sig .tc .vmem S1024x1 .f32) (harg8 : arg8.IsWhole)

set_option maxHeartbeats 1000000 in

theorem run9_first
    (hc0 : cond9_0 i) (hc1 : ¬cond9_1 i) (x0 : Vec F S2048 .i32) (x1 : Vec F S2048x1 .f32) (x2 : Vec F S1024x20 .f32) (x3 : Vec F S20x1 .f32) (x4 : Vec F S1 .f32) (xi5 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (k9_pay2 i x0 x1 (k9_pay1 (F := F)))) -∗ K ⟨⟩))
      ⊢ wp frame (wpE (defs₀ (F := F)) Variants.none c none) E (cc9__scatter_residual_kernel i arg2 harg2 arg3 harg3 arg4 harg4 arg5 harg5 arg6 harg6 arg7 harg7 arg8 harg8) K := by
  simp only [cc9__scatter_residual_kernel_eq_skeleton]; unfold cc9__scatter_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  refine (read_writes_whole9 _ _ _ _ _).trans ?_
  rw [readAt_whole9 harg2, readAt_whole9 harg3]
  refine congrArg (k9_pay2 i x0 x1) ?_
  unfold run9_first.sl.v18 run9_first.sl.HS_1
  exact View.readCov_cons_toLoadRect _ _ _ _

set_option maxHeartbeats 1000000 in

theorem run9_mid
    (hc0 : ¬cond9_0 i) (hc1 : ¬cond9_1 i) (x0 : Vec F S2048 .i32) (x1 : Vec F S2048x1 .f32) (x2 : Vec F S1024x20 .f32) (x3 : Vec F S20x1 .f32) (x4 : Vec F S1 .f32) (xi5 : Vec F S1024x1 .f32) (xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (k9_pay2 i x0 x1 xs)) -∗ K ⟨⟩))
      ⊢ wp frame (wpE (defs₀ (F := F)) Variants.none c none) E (cc9__scatter_residual_kernel i arg2 harg2 arg3 harg3 arg4 harg4 arg5 harg5 arg6 harg6 arg7 harg7 arg8 harg8) K := by
  simp only [cc9__scatter_residual_kernel_eq_skeleton]; unfold cc9__scatter_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf5; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  refine (read_writes_whole9 _ _ _ _ _).trans ?_
  rw [readAt_whole9 harg2, readAt_whole9 harg3, readAt_whole9 harg8]

set_option maxHeartbeats 1000000 in

theorem run9_last
    (hc0 : ¬cond9_0 i) (hc1 : cond9_1 i) (x0 : Vec F S2048 .i32) (x1 : Vec F S2048x1 .f32) (x2 : Vec F S1024x20 .f32) (x3 : Vec F S20x1 .f32) (x4 : Vec F S1 .f32) (xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k9_pay3 x2 x3 x4 (k9_pay2 i x0 x1 xs))
            ∗ owns (c : Thread nD τ) arg8 fullShare (k9_pay2 i x0 x1 xs)) -∗ K ⟨⟩))
      ⊢ wp frame (wpE (defs₀ (F := F)) Variants.none c none) E (cc9__scatter_residual_kernel i arg2 harg2 arg3 harg3 arg4 harg4 arg5 harg5 arg6 harg6 arg7 harg7 arg8 harg8) K := by
  simp only [cc9__scatter_residual_kernel_eq_skeleton]; unfold cc9__scatter_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (read_writes_whole9 _ _ _ _ _).trans ?_
    rw [readAt_whole9 harg4, readAt_whole9 harg5, readAt_whole9 harg6]
    refine congrArg (k9_pay3 x2 x3 x4) ?_
    unfold run9_last.sl.v37
    refine (View.readCov_cons_toLoadRect _ _ _ _).trans ?_
    rw [readAt_whole9 harg2, readAt_whole9 harg3, readAt_whole9 harg8]
  iexists _; isplitr
  swap; · iexact HS
  ipureintro
  refine (read_writes_whole9 _ _ _ _ _).trans ?_
  rw [readAt_whole9 harg2, readAt_whole9 harg3, readAt_whole9 harg8]

end Cert.KernelIdeal.Hand

end
-- ==== Proof.KI.R9Dat.lean ====
import proofs.«415925_j84189948936386_1_alg».proof.Proof.KI.R9Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

def sc9 (c : Dev nD) : (n : ℕ) → n < cfg9.N → Vec F S1024x1 .f32
  | 0, hn => k9_pay2 (grid9.coords ⟨0, hn⟩) (iblk9 V c 0 ⟨0, hn⟩) (iblk9 V c 1 ⟨0, hn⟩) (k9_pay1 (F := F))
  | n + 1, hn => k9_pay2 (grid9.coords ⟨n + 1, hn⟩) (iblk9 V c 0 ⟨n + 1, hn⟩) (iblk9 V c 1 ⟨n + 1, hn⟩)
      (if (n + 1) % 196 = 0 then k9_pay1 (F := F) else sc9 c n (Nat.lt_of_succ_lt hn))

theorem sc9_eq (c : Dev nD) (t : Fin cfg9.N) :
    sc9 V c t.val t.isLt = k9_pay2 (grid9.coords t) (iblk9 V c 0 t) (iblk9 V c 1 t)
      (if t.val % 196 = 0 then k9_pay1 (F := F) else sc9 V c (t.val - 1) (Nat.lt_of_le_of_lt (Nat.sub_le _ _) t.isLt)) := by
  obtain ⟨n, hn⟩ := t
  cases n with
  | zero => exact (congrArg (k9_pay2 (grid9.coords ⟨0, hn⟩) (iblk9 V c 0 ⟨0, hn⟩) (iblk9 V c 1 ⟨0, hn⟩)) (if_pos (Nat.zero_mod 196)).symm)
  | succ n => exact rfl

abbrev scM9 : Memref sig .tc .vmem S1024x1 .f32 := Memref.whole cc9_scratch0

theorem PhiA9_eq (c : Dev nD) :
    (Pipeline.ΦA spec9 c : sProp 𝕄)
      = iprop(iprop((∃ d, owns (c : Thread nD τ) scM9 fullShare d) ∗ Pipeline.scopedRestBut (Ix := Unit) (Name := ℕ) (U := UR sig nD τ) (Lvl := ℕ) (Val := Elt F) spec9 c [cc9_scratch0]) ∗ (∃ r, prngReg c r)) := by
  unfold Pipeline.ΦA; rw [scopedRest9_split]; simp only [scM9, owns_whole]; try rfl

def PhiS9 (c : Dev nD) : (n : ℕ) → n ≤ cfg9.N → sProp 𝕄
  | 0, _ => Pipeline.ΦA spec9 c
  | n + 1, hn => iprop(iprop(owns (c : Thread nD τ) scM9 fullShare (sc9 V c n hn) ∗ Pipeline.scopedRestBut (Ix := Unit) (Name := ℕ) (U := UR sig nD τ) (Lvl := ℕ) (Val := Elt F) spec9 c [cc9_scratch0]) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(owns (c : Thread nD τ) scM9 fullShare (sc9 V c n hn) ∗ Pipeline.scopedRestBut (Ix := Unit) (Name := ℕ) (U := UR sig nD τ) (Lvl := ℕ) (Val := Elt F) spec9 c [cc9_scratch0]) ∗ (∃ r, prngReg c r)) := rfl

theorem PhiS9_pos (c : Dev nD) (n : ℕ) (h : n ≤ cfg9.N) (hz : n ≠ 0) :
    PhiS9 V c n h = iprop(iprop(owns (c : Thread nD τ) scM9 fullShare (sc9 V c (n - 1) (by omega)) ∗ Pipeline.scopedRestBut (Ix := Unit) (Name := ℕ) (U := UR sig nD τ) (Lvl := ℕ) (Val := Elt F) spec9 c [cc9_scratch0]) ∗ (∃ r, prngReg c r)) := by
  cases n with
  | zero => exact absurd rfl hz
  | succ n => rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => k9_pay3 (iblk9 V c 2 t) (iblk9 V c 3 t) (iblk9 V c 4 t) (sc9 V c t.val t.isLt)
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := rfl

theorem after9_5_flush (c : Dev nD) (t : Fin cfg9.N) (h : t.val % 196 = 195) :
    (dat9 V c).after 5 t = k9_pay3 (iblk9 V c 2 t) (iblk9 V c 3 t) (iblk9 V c 4 t) (sc9 V c t.val t.isLt) := by
  dsimp only [dat9]

theorem before9_0 (c : Dev nD) (t : Fin cfg9.N) (d) : (dat9 V c).before 0 t d = iblk9 V c 0 t :=
  (dat9 V c).before_in_eq_fetched 0 rfl (fun _ => rfl) (fun _ _ _ => rfl) (fun _ => rfl) t d
theorem before9_1 (c : Dev nD) (t : Fin cfg9.N) (d) : (dat9 V c).before 1 t d = iblk9 V c 1 t :=
  (dat9 V c).before_in_eq_fetched 1 rfl (fun _ => rfl) (fun _ _ _ => rfl) (fun _ => rfl) t d
theorem before9_2 (c : Dev nD) (t : Fin cfg9.N) (d) : (dat9 V c).before 2 t d = iblk9 V c 2 t :=
  (dat9 V c).before_in_eq_fetched 2 rfl (fun _ => rfl) (fun _ _ _ => rfl) (fun _ => rfl) t d
theorem before9_3 (c : Dev nD) (t : Fin cfg9.N) (d) : (dat9 V c).before 3 t d = iblk9 V c 3 t :=
  (dat9 V c).before_in_eq_fetched 3 rfl (fun _ => rfl) (fun _ _ _ => rfl) (fun _ => rfl) t d
theorem before9_4 (c : Dev nD) (t : Fin cfg9.N) (d) : (dat9 V c).before 4 t d = iblk9 V c 4 t :=
  (dat9 V c).before_in_eq_fetched 4 rfl (fun _ => rfl) (fun _ _ _ => rfl) (fun _ => rfl) t d

abbrev ms9_0 (t : Fin cfg9.N) : Memref sig .tc .vmem S2048 .i32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S2048x1 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1024x20 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S20x1 .f32 := win9_3.stage (cfg9.slots t 3)
abbrev hs9_3 (t : Fin cfg9.N) : (ms9_3 t).IsWhole := hstage9_3 ((cfg9.slots t 3).cast nbuf9_3)
abbrev ms9_4 (t : Fin cfg9.N) : Memref sig .tc .vmem S1 .f32 := win9_4.stage (cfg9.slots t 4)
abbrev hs9_4 (t : Fin cfg9.N) : (ms9_4 t).IsWhole := hstage9_4 ((cfg9.slots t 4).cast nbuf9_4)
abbrev ms9_5 (t : Fin cfg9.N) : Memref sig .tc .vmem S1024x1 .f32 := win9_5.stage (cfg9.slots t 5)
abbrev hs9_5 (t : Fin cfg9.N) : (ms9_5 t).IsWhole := hstage9_5 ((cfg9.slots t 5).cast nbuf9_5)

abbrev bodyAt9 (t : Fin cfg9.N) : Prog (TpuEff nD τ sig (Elt F) Λ₀ .tc) PUnit :=
  cc9__scatter_residual_kernel (grid9.coords t) (ms9_0 t) (hs9_0 t) (ms9_1 t) (hs9_1 t) (ms9_2 t) (hs9_2 t) (ms9_3 t) (hs9_3 t) (ms9_4 t) (hs9_4 t) (ms9_5 t) (hs9_5 t) scM9 (Memref.isWhole_whole _)

theorem leaves9_0 (c : Dev nD) (t : Fin cfg9.N) :
    (dat9 V c).leavesExact 0 t = owns (c : Thread nD τ) (ms9_0 t) fullShare (iblk9 V c 0 t) := rfl
theorem leaves9_1 (c : Dev nD) (t : Fin cfg9.N) :
    (dat9 V c).leavesExact 1 t = owns (c : Thread nD τ) (ms9_1 t) fullShare (iblk9 V c 1 t) := rfl
theorem leaves9_2 (c : Dev nD) (t : Fin cfg9.N) :
    (dat9 V c).leavesExact 2 t = owns (c : Thread nD τ) (ms9_2 t) fullShare (iblk9 V c 2 t) := rfl
theorem leaves9_3 (c : Dev nD) (t : Fin cfg9.N) :
    (dat9 V c).leavesExact 3 t = owns (c : Thread nD τ) (ms9_3 t) fullShare (iblk9 V c 3 t) := rfl
theorem leaves9_4 (c : Dev nD) (t : Fin cfg9.N) :
    (dat9 V c).leavesExact 4 t = owns (c : Thread nD τ) (ms9_4 t) fullShare (iblk9 V c 4 t) := rfl

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d))
    ∗ (∃ d, owns (c : Thread nD τ) (ms9_5 t) fullShare ((dat9 V c).before 5 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t
    ∗ (dat9 V c).leavesExact 4 t
    ∗ (dat9 V c).leavesExact 5 t)

theorem Phi_out9 (c : Dev nD) (t : Fin (cfg9.N + 1)) : (dat9 V c).Φ t ⊢ Pipeline.ΦA spec9 c := by
  rw [show (dat9 V c).Φ t = PhiS9 V c t.val (Nat.le_of_lt_succ t.isLt) from rfl]
  by_cases ht : t.val = 0
  · rw [PhiS9_zero V c _ _ ht]
  rw [PhiS9_pos V c _ _ ht, PhiA9_eq]
  iintro ⟨⟨HS, HR⟩, Hg⟩
  iframe HR Hg
  iexists _; iexact HS

set_option maxHeartbeats 4800000 in
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0 V, before9_1 V, before9_2 V, before9_3 V, before9_4 V]
  rw [show (dat9 V c).owesAt () t.succ = (dat9 V c).owesAt () t.castSucc from rfl]
  rw [show (dat9 V c).Φ t.succ = PhiS9 V c (t.val + 1) t.isLt from rfl, PhiS9_succ]
  rw [leaves9_0 V c t, leaves9_1 V c t, leaves9_2 V c t, leaves9_3 V c t, leaves9_4 V c t]
  by_cases h0 : t.val % 196 = 0
  · have h1 : ¬t.val % 196 = 195 := by omega
    rw [Dat.leavesExact_idle (dat9 V c) 5 t (idleAt9_5 _ (fun h => h1 ((hcond9_1 t).mp h))) (noFlush9_5 t h1)]
    rw [sc9_eq V c t, if_pos h0]
    refine (sep_mono_left (Phi_out9 V c t.castSucc)).trans ?_
    rw [PhiA9_eq]
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩⟩
    iapply (run9_first c (grid9.coords t) (ms9_0 t) (hs9_0 t) (ms9_1 t) (hs9_1 t) (ms9_2 t) (hs9_2 t) (ms9_3 t) (hs9_3 t) (ms9_4 t) (hs9_4 t) (ms9_5 t) (hs9_5 t) scM9 (Memref.isWhole_whole _) ((hcond9_0 t).mpr h0) (fun h => h1 ((hcond9_1 t).mp h)) (iblk9 V c 0 t) (iblk9 V c 1 t) (iblk9 V c 2 t) (iblk9 V c 3 t) (iblk9 V c 4 t) _ Set.univ _)
    iframe H0 H1 H2 H3 H4 H5
    isplitl [HS]; · iexists _; iexact HS
    iintro ⟨H0, H1, H2, H3, H4, H5, HS⟩
    iframe HS HR Hg Ho H0 H1 H2 H3 H4
    iexists _; iexact H5
  · rw [PhiS9_castSucc V c t, PhiS9_pos V c _ _ (by omega)]
    by_cases h1 : t.val % 196 = 195
    · rw [show (dat9 V c).leavesExact 5 t = owns (c : Thread nD τ) (ms9_5 t) fullShare ((dat9 V c).after 5 t) from by
        unfold Dat.leavesExact; rw [liveAt9_5 _ ((hcond9_1 t).mpr h1)], after9_5_flush V c t h1]
      rw [sc9_eq V c t, if_neg h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run9_last c (grid9.coords t) (ms9_0 t) (hs9_0 t) (ms9_1 t) (hs9_1 t) (ms9_2 t) (hs9_2 t) (ms9_3 t) (hs9_3 t) (ms9_4 t) (hs9_4 t) (ms9_5 t) (hs9_5 t) scM9 (Memref.isWhole_whole _) (fun h => h0 ((hcond9_0 t).mp h)) ((hcond9_1 t).mpr h1) (iblk9 V c 0 t) (iblk9 V c 1 t) (iblk9 V c 2 t) (iblk9 V c 3 t) (iblk9 V c 4 t) _ Set.univ _)
      iframe H0 H1 H2 H3 H4 HS
      isplitl [H5]; · iexists _; iexact H5
      iintro ⟨H0, H1, H2, H3, H4, H5, HS⟩
      iframe HS HR Hg Ho H0 H1 H2 H3 H4
      iexact H5
    · rw [Dat.leavesExact_idle (dat9 V c) 5 t (idleAt9_5 _ (fun h => h1 ((hcond9_1 t).mp h))) (noFlush9_5 t h1)]
      rw [sc9_eq V c t, if_neg h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run9_mid c (grid9.coords t) (ms9_0 t) (hs9_0 t) (ms9_1 t) (hs9_1 t) (ms9_2 t) (hs9_2 t) (ms9_3 t) (hs9_3 t) (ms9_4 t) (hs9_4 t) (ms9_5 t) (hs9_5 t) scM9 (Memref.isWhole_whole _) (fun h => h0 ((hcond9_0 t).mp h)) (fun h => h1 ((hcond9_1 t).mp h)) (iblk9 V c 0 t) (iblk9 V c 1 t) (iblk9 V c 2 t) (iblk9 V c 3 t) (iblk9 V c 4 t) _ _ Set.univ _)
      iframe H0 H1 H2 H3 H4 H5 HS
      iintro ⟨H0, H1, H2, H3, H4, H5, HS⟩
      iframe HS HR Hg Ho H0 H1 H2 H3 H4
      iexists _; iexact H5

theorem body_obligation9 (c : Dev nD) : BodyObligation (dat9 (F := F) V c) (defs₀ (F := F)) Variants.none () Set.univ := fun t => by
  rw [bigSep_W9, bigSep_W9]
  exact sound_body9 V c t

theorem hin9 (c : Dev nD) : Pipeline.ΦA spec9 c ⊢ (dat9 V c).Φ 0 :=
  Idealize.SL.BI.Entails.refl _

theorem hout9 (c : Dev nD) : (dat9 V c).Φ (Fin.last cfg9.N) ⊢ Pipeline.ΦA spec9 c :=
  Phi_out9 V c _

end Cert.KernelIdeal.Hand

end
-- ==== Proof.KI.Segs.lean ====
import proofs.«415925_j84189948936386_1_alg».proof.Proof.Gen.KernelIdeal.Launch
import proofs.«415925_j84189948936386_1_alg».proof.Proof.Gen.KernelIdeal.Regions
import proofs.«415925_j84189948936386_1_alg».proof.Proof.KI.R0Dat
import proofs.«415925_j84189948936386_1_alg».proof.Proof.KI.R1Dat
import proofs.«415925_j84189948936386_1_alg».proof.Proof.KI.R2Dat
import proofs.«415925_j84189948936386_1_alg».proof.Proof.KI.R3Dat
import proofs.«415925_j84189948936386_1_alg».proof.Proof.KI.R4Dat
import proofs.«415925_j84189948936386_1_alg».proof.Proof.KI.R5Dat
import proofs.«415925_j84189948936386_1_alg».proof.Proof.KI.R6Dat
import proofs.«415925_j84189948936386_1_alg».proof.Proof.KI.R7Dat
import proofs.«415925_j84189948936386_1_alg».proof.Proof.KI.R8Dat
import proofs.«415925_j84189948936386_1_alg».proof.Proof.KI.R9Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev noL : GSem nD τ sig → Finset Unit := fun _ => ∅
abbrev noLv : GSem nD τ sig → Unit → ℕ := fun _ _ => 0

abbrev Rr (c : Dev nD) : sProp 𝕄 :=
  iprop((∃ r, prngReg c r) ∗ ∃ W, owes (c : Thread nD τ) (0 : CellTallies nD τ sig Unit) W)

theorem in_of {gr W : ℕ} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hg, -, Hs⟩
  isplitl [Hs]; · iexact Hs
  iexact Hg

theorem out_of {gr W : ℕ} (win : Fin W → Pipeline.WinSpec sig gr) (c : Dev nD) :
    (Pipeline.ΦA win c : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) win c) := by
  rw [Pipeline.ownSems0_none]; unfold Pipeline.ΦA
  iintro ⟨Hs, Hg⟩
  isplitl [Hg]; · iexact Hg
  isplitr; · iempintro
  iexact Hs

section Protocol

variable (pd : (p : Fin 10) → (c : Dev nD) → Dat τ (Elt F) Unit ℕ (UR sig nD τ) ℕ (cfgs p) c)

set_option backward.isDefEq.respectTransparency.types false in

theorem entry_of (p : Fin 10) (hw : Pipeline.WinFacts (cfgs p).spec) (harr : ∀ w, ((cfgs p).spec w).arr.IsWhole) (c : Dev nD)
    (hq : ∀ w, (pd p c).q w = fullShare) (ho : (pd p c).owed 0 = 0) (hrec : (pd p c).recorded 0 = Set.univ)
    (V : Valuation τ sig (Elt F)) (hA : ∀ w, (pd p c).A w = V (Pipeline.arrRef (cfgs p).spec w)) :
    iprop(iprop(StableHlo.held (c : Thread nD τ) (Pipeline.ucRefs τ sig) V ∗ Rr c)
        ∗ Pipeline.ownSems0 (fun k : PEmpty => k.elim) c ∗ levAts noL noLv)
      ⊢ |={Set.univ}=> iprop((pd p c).arrays ((pd p c).arrAt · 0)
          ∗ Pipeline.prefHeld (pcfgs (F := F) p).pre c (fun _ => fullShare) (adm p).1
          ∗ (pd p c).owesAt () 0 ∗ (∃ r, prngReg c r)
          ∗ Pipeline.unscopedRest (Ix := Unit) (Name := ℕ) (U := UR sig nD τ) (Lvl := ℕ) (cfgs p).spec c (fun b => V b)) := by
  have hsplit := Pipeline.arrays_of_unscopedBufs (p := p) (pcfgs (F := F)) adm pd hw harr c
    ((pd p c).share_full hq) (fun b => V b) hA
  rw [Pipeline.unscopedBufs_held] at hsplit
  iintro ⟨⟨Hub, Hg, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    rw [ho]
    icases HO with ⟨%W, HO⟩; iexists W; isplitr; · ipureintro; exact fun _ _ => Or.inl (hrec ▸ trivial)
    iexact HO
  isplitl [Hg]; · iexact Hg
  iexact Hrest

set_option backward.isDefEq.respectTransparency.types false in

theorem exit_of (p : Fin 10) (hw : Pipeline.WinFacts (cfgs p).spec) (harr : ∀ w, ((cfgs p).spec w).arr.IsWhole) (c : Dev nD)
    (hq : ∀ w, (pd p c).q w = fullShare) (ho : (pd p c).owed (Fin.last (cfgs p).N) = 0)
    (V : Valuation τ sig (Elt F)) :
    iprop((pd p c).arrays ((pd p c).arrAt · (cfgs p).N) ∗ (pd p c).owesAt () (Fin.last (cfgs p).N) ∗ (∃ r, prngReg c r)
        ∗ Pipeline.unscopedRest (Ix := Unit) (Name := ℕ) (U := UR sig nD τ) (Lvl := ℕ) (cfgs p).spec c (fun b => V b))
      ⊢ |={Set.univ}=> iprop(StableHlo.held (c : Thread nD τ) (Pipeline.ucRefs τ sig)
            (Pipeline.withArrays (cfgs p).spec c V fun w => (pd p c).arrAt w (cfgs p).N) ∗ Rr c) := by
  have hjoin := Pipeline.unscopedBufs_of_arrays (p := p) (pcfgs (F := F)) adm (Ix := Unit) (Name := ℕ) (U := UR sig nD τ) (Lvl := ℕ)
    hw harr c pd ((pd p c).share_full hq) (fun b => V b)
    (fun b => Pipeline.withArrays (cfgs p).spec c V (fun w => (pd p c).arrAt w (cfgs p).N) b)
    ((pd p c).arrAt · (cfgs p).N)
    (fun w => (Pipeline.withArrays_arr (cfgs p).spec hw.arr_inj c V (fun w => (pd p c).arrAt w (cfgs p).N) w).symm)
    (fun b hb => Pipeline.withArrays_of_ne (cfgs p).spec c V (fun w => (pd p c).arrAt w (cfgs p).N) b
      fun w e => hb (Finset.mem_image.mpr ⟨w, Finset.mem_univ _, e⟩))
  rw [Pipeline.unscopedBufs_held] at hjoin
  iintro ⟨Ha, HO, Hg, Hrest⟩
  imodintro
  isplitl [Ha Hrest]
  · iapply hjoin; isplitl [Ha] <;> iassumption
  isplitl [Hg]; · iexact Hg
  unfold Pipeline.Dat.owesAt Pipeline.owesWithin
  rw [ho]
  icases HO with ⟨%W, -, HO⟩; iexists W; iexact HO

end Protocol

theorem withArrays_off {gr W : ℕ} (win : Fin W → Pipeline.WinSpec sig gr) (hinj : Function.Injective (Pipeline.arrRef win)) (c : Dev nD)
    (V : Valuation τ sig (Elt F)) (A : (w : Fin W) → Buf (Elt F) ((win w).arr.view.loc (c : Thread nD τ)))
    (r : Ref sig .tc) (hA : ∀ w, Pipeline.arrRef win w ≠ r → A w = V (Proc.devRef .tc (Pipeline.arrRef win w)))
    (b : DevRef τ sig) (hb : b ≠ Proc.devRef .tc r) : Pipeline.withArrays win c V A b = V b := by
  by_cases h : ∃ w, Proc.devRef .tc (Pipeline.arrRef win w) = b
  · obtain ⟨w, rfl⟩ := h
    rw [Pipeline.withArrays_arr win hinj c V A w]
    exact hA w fun e => hb (by rw [e])
  · unfold Pipeline.withArrays; rw [dif_neg h]

theorem update_eq_of (V V' : Valuation τ sig (Elt F)) (r : Ref sig .tc) (h : ∀ b, b ≠ Proc.devRef .tc r → V' b = V b) :
    Function.update V (Proc.devRef .tc r) (V' (Proc.devRef .tc r)) = V' := by
  funext b
  by_cases hb : b = Proc.devRef .tc r
  · subst hb; exact Function.update_self ..
  · rw [Function.update_of_ne hb, h b hb]

abbrev U6 (c : Dev nD) : Valuation τ sig (Elt F) := V6 m c

noncomputable def U7 (c : Dev nD) : Valuation τ sig (Elt F) :=
  Pipeline.withArrays spec0 c (U6 m c) fun w => (dat0 (fun c b => U6 m c b) c).arrAt w cfg0.N

noncomputable def U8 (c : Dev nD) : Valuation τ sig (Elt F) :=
  Pipeline.withArrays spec1 c (U7 m c) fun w => (dat1 (fun c b => U7 m c b) c).arrAt w cfg1.N

noncomputable def U9 (c : Dev nD) : Valuation τ sig (Elt F) :=
  Pipeline.withArrays spec2 c (U8 m c) fun w => (dat2 (fun c b => U8 m c b) c).arrAt w cfg2.N

noncomputable def U10 (c : Dev nD) : Valuation τ sig (Elt F) :=
  Pipeline.withArrays spec3 c (U9 m c) fun w => (dat3 (fun c b => U9 m c b) c).arrAt w cfg3.N

noncomputable def U11 (c : Dev nD) : Valuation τ sig (Elt F) :=
  Pipeline.withArrays spec4 c (U10 m c) fun w => (dat4 (fun c b => U10 m c b) c).arrAt w cfg4.N

noncomputable def U12 (c : Dev nD) : Valuation τ sig (Elt F) :=
  Pipeline.withArrays spec5 c (U11 m c) fun w => (dat5 (fun c b => U11 m c b) c).arrAt w cfg5.N

noncomputable def U13 (c : Dev nD) : Valuation τ sig (Elt F) :=
  Pipeline.withArrays spec6 c (U12 m c) fun w => (dat6 (fun c b => U12 m c b) c).arrAt w cfg6.N

noncomputable def U14 (c : Dev nD) : Valuation τ sig (Elt F) :=
  Pipeline.withArrays spec7 c (U13 m c) fun w => (dat7 (fun c b => U13 m c b) c).arrAt w cfg7.N

noncomputable def U15 (c : Dev nD) : Valuation τ sig (Elt F) :=
  Pipeline.withArrays spec8 c (U14 m c) fun w => (dat8 (fun c b => U14 m c b) c).arrAt w cfg8.N

noncomputable def U16 (c : Dev nD) : Valuation τ sig (Elt F) :=
  Pipeline.withArrays spec9 c (U15 m c) fun w => (dat9 (fun c b => U15 m c b) c).arrAt w cfg9.N

noncomputable def U17 (c : Dev nD) : Valuation τ sig (Elt F) := StableHlo.after hostOps10 (U16 m c)

theorem in0 : ∀ w : Fin 10, Pipeline.arrRef spec0 w ≠ main_v7 → (cfg0.win w).isOut = false := by decide
theorem in1 : ∀ w : Fin 6, Pipeline.arrRef spec1 w ≠ main_v8 → (cfg1.win w).isOut = false := by decide
theorem in2 : ∀ w : Fin 10, Pipeline.arrRef spec2 w ≠ main_v9 → (cfg2.win w).isOut = false := by decide
theorem in3 : ∀ w : Fin 6, Pipeline.arrRef spec3 w ≠ main_v10 → (cfg3.win w).isOut = false := by decide
theorem in4 : ∀ w : Fin 10, Pipeline.arrRef spec4 w ≠ main_v11 → (cfg4.win w).isOut = false := by decide
theorem in5 : ∀ w : Fin 6, Pipeline.arrRef spec5 w ≠ main_v12 → (cfg5.win w).isOut = false := by decide
theorem in6 : ∀ w : Fin 10, Pipeline.arrRef spec6 w ≠ main_v13 → (cfg6.win w).isOut = false := by decide
theorem in7 : ∀ w : Fin 6, Pipeline.arrRef spec7 w ≠ main_v14 → (cfg7.win w).isOut = false := by decide
theorem in8 : ∀ w : Fin 10, Pipeline.arrRef spec8 w ≠ main_v15 → (cfg8.win w).isOut = false := by decide
theorem in9 : ∀ w : Fin 6, Pipeline.arrRef spec9 w ≠ main_v16 → (cfg9.win w).isOut = false := by decide

theorem U_out0 (c : Dev nD) : U7 m c (Pipeline.arrRef spec0 9) = (dat0 (fun c b => U6 m c b) c).arrAt 9 cfg0.N := by
  unfold U7; exact Pipeline.withArrays_arr spec0 winFacts0.arr_inj c _ _ 9

theorem U_off0 (c : Dev nD) (b : DevRef τ sig) (hb : b ≠ Proc.devRef .tc main_v7) : U7 m c b = U6 m c b := by
  unfold U7
  exact withArrays_off spec0 winFacts0.arr_inj c _ _ main_v7
    (fun w hw => ((dat0 (fun c b => U6 m c b) c).arrAt_in w (in0 w hw) _).trans (A_eq0 _ c w)) b hb

theorem U_out1 (c : Dev nD) : U8 m c (Pipeline.arrRef spec1 5) = (dat1 (fun c b => U7 m c b) c).arrAt 5 cfg1.N := by
  unfold U8; exact Pipeline.withArrays_arr spec1 winFacts1.arr_inj c _ _ 5
theorem U_off1 (c : Dev nD) (b : DevRef τ sig) (hb : b ≠ Proc.devRef .tc main_v8) : U8 m c b = U7 m c b := by
  unfold U8
  exact withArrays_off spec1 winFacts1.arr_inj c _ _ main_v8
    (fun w hw => ((dat1 (fun c b => U7 m c b) c).arrAt_in w (in1 w hw) _).trans (A_eq1 _ c w)) b hb

theorem U_out2 (c : Dev nD) : U9 m c (Pipeline.arrRef spec2 9) = (dat2 (fun c b => U8 m c b) c).arrAt 9 cfg2.N := by
  unfold U9; exact Pipeline.withArrays_arr spec2 winFacts2.arr_inj c _ _ 9
theorem U_off2 (c : Dev nD) (b : DevRef τ sig) (hb : b ≠ Proc.devRef .tc main_v9) : U9 m c b = U8 m c b := by
  unfold U9
  exact withArrays_off spec2 winFacts2.arr_inj c _ _ main_v9
    (fun w hw => ((dat2 (fun c b => U8 m c b) c).arrAt_in w (in2 w hw) _).trans (A_eq2 _ c w)) b hb

theorem U_out3 (c : Dev nD) : U10 m c (Pipeline.arrRef spec3 5) = (dat3 (fun c b => U9 m c b) c).arrAt 5 cfg3.N := by
  unfold U10; exact Pipeline.withArrays_arr spec3 winFacts3.arr_inj c _ _ 5
theorem U_off3 (c : Dev nD) (b : DevRef τ sig) (hb : b ≠ Proc.devRef .tc main_v10) : U10 m c b = U9 m c b := by
  unfold U10
  exact withArrays_off spec3 winFacts3.arr_inj c _ _ main_v10
    (fun w hw => ((dat3 (fun c b => U9 m c b) c).arrAt_in w (in3 w hw) _).trans (A_eq3 _ c w)) b hb

theorem U_out4 (c : Dev nD) : U11 m c (Pipeline.arrRef spec4 9) = (dat4 (fun c b => U10 m c b) c).arrAt 9 cfg4.N := by
  unfold U11; exact Pipeline.withArrays_arr spec4 winFacts4.arr_inj c _ _ 9
theorem U_off4 (c : Dev nD) (b : DevRef τ sig) (hb : b ≠ Proc.devRef .tc main_v11) : U11 m c b = U10 m c b := by
  unfold U11
  exact withArrays_off spec4 winFacts4.arr_inj c _ _ main_v11
    (fun w hw => ((dat4 (fun c b => U10 m c b) c).arrAt_in w (in4 w hw) _).trans (A_eq4 _ c w)) b hb

theorem U_out5 (c : Dev nD) : U12 m c (Pipeline.arrRef spec5 5) = (dat5 (fun c b => U11 m c b) c).arrAt 5 cfg5.N := by
  unfold U12; exact Pipeline.withArrays_arr spec5 winFacts5.arr_inj c _ _ 5
theorem U_off5 (c : Dev nD) (b : DevRef τ sig) (hb : b ≠ Proc.devRef .tc main_v12) : U12 m c b = U11 m c b := by
  unfold U12
  exact withArrays_off spec5 winFacts5.arr_inj c _ _ main_v12
    (fun w hw => ((dat5 (fun c b => U11 m c b) c).arrAt_in w (in5 w hw) _).trans (A_eq5 _ c w)) b hb

theorem U_out6 (c : Dev nD) : U13 m c (Pipeline.arrRef spec6 9) = (dat6 (fun c b => U12 m c b) c).arrAt 9 cfg6.N := by
  unfold U13; exact Pipeline.withArrays_arr spec6 winFacts6.arr_inj c _ _ 9
theorem U_off6 (c : Dev nD) (b : DevRef τ sig) (hb : b ≠ Proc.devRef .tc main_v13) : U13 m c b = U12 m c b := by
  unfold U13
  exact withArrays_off spec6 winFacts6.arr_inj c _ _ main_v13
    (fun w hw => ((dat6 (fun c b => U12 m c b) c).arrAt_in w (in6 w hw) _).trans (A_eq6 _ c w)) b hb

theorem U_out7 (c : Dev nD) : U14 m c (Pipeline.arrRef spec7 5) = (dat7 (fun c b => U13 m c b) c).arrAt 5 cfg7.N := by
  unfold U14; exact Pipeline.withArrays_arr spec7 winFacts7.arr_inj c _ _ 5
theorem U_off7 (c : Dev nD) (b : DevRef τ sig) (hb : b ≠ Proc.devRef .tc main_v14) : U14 m c b = U13 m c b := by
  unfold U14
  exact withArrays_off spec7 winFacts7.arr_inj c _ _ main_v14
    (fun w hw => ((dat7 (fun c b => U13 m c b) c).arrAt_in w (in7 w hw) _).trans (A_eq7 _ c w)) b hb

theorem U_out8 (c : Dev nD) : U15 m c (Pipeline.arrRef spec8 9) = (dat8 (fun c b => U14 m c b) c).arrAt 9 cfg8.N := by
  unfold U15; exact Pipeline.withArrays_arr spec8 winFacts8.arr_inj c _ _ 9
theorem U_off8 (c : Dev nD) (b : DevRef τ sig) (hb : b ≠ Proc.devRef .tc main_v15) : U15 m c b = U14 m c b := by
  unfold U15
  exact withArrays_off spec8 winFacts8.arr_inj c _ _ main_v15
    (fun w hw => ((dat8 (fun c b => U14 m c b) c).arrAt_in w (in8 w hw) _).trans (A_eq8 _ c w)) b hb

theorem U_out9 (c : Dev nD) : U16 m c (Pipeline.arrRef spec9 5) = (dat9 (fun c b => U15 m c b) c).arrAt 5 cfg9.N := by
  unfold U16; exact Pipeline.withArrays_arr spec9 winFacts9.arr_inj c _ _ 5
theorem U_off9 (c : Dev nD) (b : DevRef τ sig) (hb : b ≠ Proc.devRef .tc main_v16) : U16 m c b = U15 m c b := by
  unfold U16
  exact withArrays_off spec9 winFacts9.arr_inj c _ _ main_v16
    (fun w hw => ((dat9 (fun c b => U15 m c b) c).arrAt_in w (in9 w hw) _).trans (A_eq9 _ c w)) b hb

noncomputable def outsU : Outs (F := F) := fun J r c =>
  match J with
  | 7 => U7 m c r
  | 8 => U8 m c r
  | 9 => U9 m c r
  | 10 => U10 m c r
  | 11 => U11 m c r
  | 12 => U12 m c r
  | 13 => U13 m c r
  | 14 => U14 m c r
  | 15 => U15 m c r
  | 16 => U16 m c r
  | _ => U6 m c r

theorem V7_eq (c : Dev nD) : V7 m (outsU m) c = U7 m c :=
  update_eq_of (U6 m c) (U7 m c) main_v7 (U_off0 m c)
theorem V8_eq (c : Dev nD) : V8 m (outsU m) c = U8 m c := by
  rw [show V8 m (outsU m) c = Function.update (V7 m (outsU m) c) (Proc.devRef .tc main_v8) (U8 m c (Proc.devRef .tc main_v8)) from rfl, V7_eq]
  exact update_eq_of (U7 m c) (U8 m c) main_v8 (U_off1 m c)
theorem V9_eq (c : Dev nD) : V9 m (outsU m) c = U9 m c := by
  rw [show V9 m (outsU m) c = Function.update (V8 m (outsU m) c) (Proc.devRef .tc main_v9) (U9 m c (Proc.devRef .tc main_v9)) from rfl, V8_eq]
  exact update_eq_of (U8 m c) (U9 m c) main_v9 (U_off2 m c)
theorem V10_eq (c : Dev nD) : V10 m (outsU m) c = U10 m c := by
  rw [show V10 m (outsU m) c = Function.update (V9 m (outsU m) c) (Proc.devRef .tc main_v10) (U10 m c (Proc.devRef .tc main_v10)) from rfl, V9_eq]
  exact update_eq_of (U9 m c) (U10 m c) main_v10 (U_off3 m c)
theorem V11_eq (c : Dev nD) : V11 m (outsU m) c = U11 m c := by
  rw [show V11 m (outsU m) c = Function.update (V10 m (outsU m) c) (Proc.devRef .tc main_v11) (U11 m c (Proc.devRef .tc main_v11)) from rfl, V10_eq]
  exact update_eq_of (U10 m c) (U11 m c) main_v11 (U_off4 m c)
theorem V12_eq (c : Dev nD) : V12 m (outsU m) c = U12 m c := by
  rw [show V12 m (outsU m) c = Function.update (V11 m (outsU m) c) (Proc.devRef .tc main_v12) (U12 m c (Proc.devRef .tc main_v12)) from rfl, V11_eq]
  exact update_eq_of (U11 m c) (U12 m c) main_v12 (U_off5 m c)
theorem V13_eq (c : Dev nD) : V13 m (outsU m) c = U13 m c := by
  rw [show V13 m (outsU m) c = Function.update (V12 m (outsU m) c) (Proc.devRef .tc main_v13) (U13 m c (Proc.devRef .tc main_v13)) from rfl, V12_eq]
  exact update_eq_of (U12 m c) (U13 m c) main_v13 (U_off6 m c)
theorem V14_eq (c : Dev nD) : V14 m (outsU m) c = U14 m c := by
  rw [show V14 m (outsU m) c = Function.update (V13 m (outsU m) c) (Proc.devRef .tc main_v14) (U14 m c (Proc.devRef .tc main_v14)) from rfl, V13_eq]
  exact update_eq_of (U13 m c) (U14 m c) main_v14 (U_off7 m c)
theorem V15_eq (c : Dev nD) : V15 m (outsU m) c = U15 m c := by
  rw [show V15 m (outsU m) c = Function.update (V14 m (outsU m) c) (Proc.devRef .tc main_v15) (U15 m c (Proc.devRef .tc main_v15)) from rfl, V14_eq]
  exact update_eq_of (U14 m c) (U15 m c) main_v15 (U_off8 m c)
theorem V16_eq (c : Dev nD) : V16 m (outsU m) c = U16 m c := by
  rw [show V16 m (outsU m) c = Function.update (V15 m (outsU m) c) (Proc.devRef .tc main_v16) (U16 m c (Proc.devRef .tc main_v16)) from rfl, V15_eq]
  exact update_eq_of (U15 m c) (U16 m c) main_v16 (U_off9 m c)
theorem V17_eq (c : Dev nD) : V17 m (outsU m) c = U17 m c := by
  unfold U17; rw [← V16_eq]

noncomputable def pdats : (p : Fin 10) → (c : Dev nD) → Dat τ (Elt F) Unit ℕ (UR sig nD τ) ℕ (cfgs p) c
  | ⟨0, _⟩ => fun c => dat0 (fun c b => U6 m c b) c
  | ⟨1, _⟩ => fun c => dat1 (fun c b => U7 m c b) c
  | ⟨2, _⟩ => fun c => dat2 (fun c b => U8 m c b) c
  | ⟨3, _⟩ => fun c => dat3 (fun c b => U9 m c b) c
  | ⟨4, _⟩ => fun c => dat4 (fun c b => U10 m c b) c
  | ⟨5, _⟩ => fun c => dat5 (fun c b => U11 m c b) c
  | ⟨6, _⟩ => fun c => dat6 (fun c b => U12 m c b) c
  | ⟨7, _⟩ => fun c => dat7 (fun c b => U13 m c b) c
  | ⟨8, _⟩ => fun c => dat8 (fun c b => U14 m c b) c
  | ⟨9, _⟩ => fun c => dat9 (fun c b => U15 m c b) c

set_option backward.isDefEq.respectTransparency.types false in

noncomputable def reg0 : Pipeline.RegionSeg (pcfgs (F := F)) adm (pdats m) () defs₀ Variants.none noL noLv 0 where
  win := winFacts0.to₀
  block_pos := block_pos0
  stage_whole := stage_whole0
  K := PEmpty
  osem k := k.elim
  ho := Pipeline.OwnSemFacts.none _
  hbody c := (body_obligation0 (fun c b => U6 m c b) c).loose
  hwaits := Pipeline.hwaits_of_owed_zero _ _ _ _ noL noLv 0 fun _ _ => rfl
  pre c := iprop(StableHlo.held (c : Thread nD τ) (Pipeline.ucRefs τ sig) (U6 m c) ∗ Rr c)
  post c := iprop(StableHlo.held (c : Thread nD τ) (Pipeline.ucRefs τ sig) (U7 m c) ∗ Rr c)
  X c := iprop(∃ r, prngReg c r)
  Y c := iprop(∃ r, prngReg c r)
  Z c := Pipeline.unscopedRest (Ix := Unit) (Name := ℕ) (U := UR sig nD τ) (Lvl := ℕ) spec0 c (fun b => U6 m c b)
  hentry c := entry_of (pdats m) 0 winFacts0 arr_whole0 c (fun _ => rfl) rfl rfl (U6 m c) (fun w => A_eq0 (fun c b => U6 m c b) c w)
  hin c := (in_of spec0 c _).trans (hin0 (fun c b => U6 m c b) c)
  hout c := (hout0 (fun c b => U6 m c b) c).trans (out_of spec0 c)
  hexit c := exit_of (pdats m) 0 winFacts0 arr_whole0 c (fun _ => rfl) rfl (U6 m c)

set_option backward.isDefEq.respectTransparency.types false in

noncomputable def reg1 : Pipeline.RegionSeg (pcfgs (F := F)) adm (pdats m) () defs₀ Variants.none noL noLv 1 where
  win := winFacts1.to₀
  block_pos := block_pos1
  stage_whole := stage_whole1
  K := PEmpty
  osem k := k.elim
  ho := Pipeline.OwnSemFacts.none _
  hbody c := (body_obligation1 (fun c b => U7 m c b) c).loose
  hwaits := Pipeline.hwaits_of_owed_zero _ _ _ _ noL noLv 1 fun _ _ => rfl
  pre c := iprop(StableHlo.held (c : Thread nD τ) (Pipeline.ucRefs τ sig) (U7 m c) ∗ Rr c)
  post c := iprop(StableHlo.held (c : Thread nD τ) (Pipeline.ucRefs τ sig) (U8 m c) ∗ Rr c)
  X c := iprop(∃ r, prngReg c r)
  Y c := iprop(∃ r, prngReg c r)
  Z c := Pipeline.unscopedRest (Ix := Unit) (Name := ℕ) (U := UR sig nD τ) (Lvl := ℕ) spec1 c (fun b => U7 m c b)
  hentry c := entry_of (pdats m) 1 winFacts1 arr_whole1 c (fun _ => rfl) rfl rfl (U7 m c) (fun w => A_eq1 (fun c b => U7 m c b) c w)
  hin c := (in_of spec1 c _).trans (hin1 (fun c b => U7 m c b) c)
  hout c := (hout1 (fun c b => U7 m c b) c).trans (out_of spec1 c)
  hexit c := exit_of (pdats m) 1 winFacts1 arr_whole1 c (fun _ => rfl) rfl (U7 m c)

set_option backward.isDefEq.respectTransparency.types false in

noncomputable def reg2 : Pipeline.RegionSeg (pcfgs (F := F)) adm (pdats m) () defs₀ Variants.none noL noLv 2 where
  win := winFacts2.to₀
  block_pos := block_pos2
  stage_whole := stage_whole2
  K := PEmpty
  osem k := k.elim
  ho := Pipeline.OwnSemFacts.none _
  hbody c := (body_obligation2 (fun c b => U8 m c b) c).loose
  hwaits := Pipeline.hwaits_of_owed_zero _ _ _ _ noL noLv 2 fun _ _ => rfl
  pre c := iprop(StableHlo.held (c : Thread nD τ) (Pipeline.ucRefs τ sig) (U8 m c) ∗ Rr c)
  post c := iprop(StableHlo.held (c : Thread nD τ) (Pipeline.ucRefs τ sig) (U9 m c) ∗ Rr c)
  X c := iprop(∃ r, prngReg c r)
  Y c := iprop(∃ r, prngReg c r)
  Z c := Pipeline.unscopedRest (Ix := Unit) (Name := ℕ) (U := UR sig nD τ) (Lvl := ℕ) spec2 c (fun b => U8 m c b)
  hentry c := entry_of (pdats m) 2 winFacts2 arr_whole2 c (fun _ => rfl) rfl rfl (U8 m c) (fun w => A_eq2 (fun c b => U8 m c b) c w)
  hin c := (in_of spec2 c _).trans (hin2 (fun c b => U8 m c b) c)
  hout c := (hout2 (fun c b => U8 m c b) c).trans (out_of spec2 c)
  hexit c := exit_of (pdats m) 2 winFacts2 arr_whole2 c (fun _ => rfl) rfl (U8 m c)

set_option backward.isDefEq.respectTransparency.types false in

noncomputable def reg3 : Pipeline.RegionSeg (pcfgs (F := F)) adm (pdats m) () defs₀ Variants.none noL noLv 3 where
  win := winFacts3.to₀
  block_pos := block_pos3
  stage_whole := stage_whole3
  K := PEmpty
  osem k := k.elim
  ho := Pipeline.OwnSemFacts.none _
  hbody c := (body_obligation3 (fun c b => U9 m c b) c).loose
  hwaits := Pipeline.hwaits_of_owed_zero _ _ _ _ noL noLv 3 fun _ _ => rfl
  pre c := iprop(StableHlo.held (c : Thread nD τ) (Pipeline.ucRefs τ sig) (U9 m c) ∗ Rr c)
  post c := iprop(StableHlo.held (c : Thread nD τ) (Pipeline.ucRefs τ sig) (U10 m c) ∗ Rr c)
  X c := iprop(∃ r, prngReg c r)
  Y c := iprop(∃ r, prngReg c r)
  Z c := Pipeline.unscopedRest (Ix := Unit) (Name := ℕ) (U := UR sig nD τ) (Lvl := ℕ) spec3 c (fun b => U9 m c b)
  hentry c := entry_of (pdats m) 3 winFacts3 arr_whole3 c (fun _ => rfl) rfl rfl (U9 m c) (fun w => A_eq3 (fun c b => U9 m c b) c w)
  hin c := (in_of spec3 c _).trans (hin3 (fun c b => U9 m c b) c)
  hout c := (hout3 (fun c b => U9 m c b) c).trans (out_of spec3 c)
  hexit c := exit_of (pdats m) 3 winFacts3 arr_whole3 c (fun _ => rfl) rfl (U9 m c)

set_option backward.isDefEq.respectTransparency.types false in

noncomputable def reg4 : Pipeline.RegionSeg (pcfgs (F := F)) adm (pdats m) () defs₀ Variants.none noL noLv 4 where
  win := winFacts4.to₀
  block_pos := block_pos4
  stage_whole := stage_whole4
  K := PEmpty
  osem k := k.elim
  ho := Pipeline.OwnSemFacts.none _
  hbody c := (body_obligation4 (fun c b => U10 m c b) c).loose
  hwaits := Pipeline.hwaits_of_owed_zero _ _ _ _ noL noLv 4 fun _ _ => rfl
  pre c := iprop(StableHlo.held (c : Thread nD τ) (Pipeline.ucRefs τ sig) (U10 m c) ∗ Rr c)
  post c := iprop(StableHlo.held (c : Thread nD τ) (Pipeline.ucRefs τ sig) (U11 m c) ∗ Rr c)
  X c := iprop(∃ r, prngReg c r)
  Y c := iprop(∃ r, prngReg c r)
  Z c := Pipeline.unscopedRest (Ix := Unit) (Name := ℕ) (U := UR sig nD τ) (Lvl := ℕ) spec4 c (fun b => U10 m c b)
  hentry c := entry_of (pdats m) 4 winFacts4 arr_whole4 c (fun _ => rfl) rfl rfl (U10 m c) (fun w => A_eq4 (fun c b => U10 m c b) c w)
  hin c := (in_of spec4 c _).trans (hin4 (fun c b => U10 m c b) c)
  hout c := (hout4 (fun c b => U10 m c b) c).trans (out_of spec4 c)
  hexit c := exit_of (pdats m) 4 winFacts4 arr_whole4 c (fun _ => rfl) rfl (U10 m c)

set_option backward.isDefEq.respectTransparency.types false in

noncomputable def reg5 : Pipeline.RegionSeg (pcfgs (F := F)) adm (pdats m) () defs₀ Variants.none noL noLv 5 where
  win := winFacts5.to₀
  block_pos := block_pos5
  stage_whole := stage_whole5
  K := PEmpty
  osem k := k.elim
  ho := Pipeline.OwnSemFacts.none _
  hbody c := (body_obligation5 (fun c b => U11 m c b) c).loose
  hwaits := Pipeline.hwaits_of_owed_zero _ _ _ _ noL noLv 5 fun _ _ => rfl
  pre c := iprop(StableHlo.held (c : Thread nD τ) (Pipeline.ucRefs τ sig) (U11 m c) ∗ Rr c)
  post c := iprop(StableHlo.held (c : Thread nD τ) (Pipeline.ucRefs τ sig) (U12 m c) ∗ Rr c)
  X c := iprop(∃ r, prngReg c r)
  Y c := iprop(∃ r, prngReg c r)
  Z c := Pipeline.unscopedRest (Ix := Unit) (Name := ℕ) (U := UR sig nD τ) (Lvl := ℕ) spec5 c (fun b => U11 m c b)
  hentry c := entry_of (pdats m) 5 winFacts5 arr_whole5 c (fun _ => rfl) rfl rfl (U11 m c) (fun w => A_eq5 (fun c b => U11 m c b) c w)
  hin c := (in_of spec5 c _).trans (hin5 (fun c b => U11 m c b) c)
  hout c := (hout5 (fun c b => U11 m c b) c).trans (out_of spec5 c)
  hexit c := exit_of (pdats m) 5 winFacts5 arr_whole5 c (fun _ => rfl) rfl (U11 m c)

set_option backward.isDefEq.respectTransparency.types false in

noncomputable def reg6 : Pipeline.RegionSeg (pcfgs (F := F)) adm (pdats m) () defs₀ Variants.none noL noLv 6 where
  win := winFacts6.to₀
  block_pos := block_pos6
  stage_whole := stage_whole6
  K := PEmpty
  osem k := k.elim
  ho := Pipeline.OwnSemFacts.none _
  hbody c := (body_obligation6 (fun c b => U12 m c b) c).loose
  hwaits := Pipeline.hwaits_of_owed_zero _ _ _ _ noL noLv 6 fun _ _ => rfl
  pre c := iprop(StableHlo.held (c : Thread nD τ) (Pipeline.ucRefs τ sig) (U12 m c) ∗ Rr c)
  post c := iprop(StableHlo.held (c : Thread nD τ) (Pipeline.ucRefs τ sig) (U13 m c) ∗ Rr c)
  X c := iprop(∃ r, prngReg c r)
  Y c := iprop(∃ r, prngReg c r)
  Z c := Pipeline.unscopedRest (Ix := Unit) (Name := ℕ) (U := UR sig nD τ) (Lvl := ℕ) spec6 c (fun b => U12 m c b)
  hentry c := entry_of (pdats m) 6 winFacts6 arr_whole6 c (fun _ => rfl) rfl rfl (U12 m c) (fun w => A_eq6 (fun c b => U12 m c b) c w)
  hin c := (in_of spec6 c _).trans (hin6 (fun c b => U12 m c b) c)
  hout c := (hout6 (fun c b => U12 m c b) c).trans (out_of spec6 c)
  hexit c := exit_of (pdats m) 6 winFacts6 arr_whole6 c (fun _ => rfl) rfl (U12 m c)

set_option backward.isDefEq.respectTransparency.types false in

noncomputable def reg7 : Pipeline.RegionSeg (pcfgs (F := F)) adm (pdats m) () defs₀ Variants.none noL noLv 7 where
  win := winFacts7.to₀
  block_pos := block_pos7
  stage_whole := stage_whole7
  K := PEmpty
  osem k := k.elim
  ho := Pipeline.OwnSemFacts.none _
  hbody c := (body_obligation7 (fun c b => U13 m c b) c).loose
  hwaits := Pipeline.hwaits_of_owed_zero _ _ _ _ noL noLv 7 fun _ _ => rfl
  pre c := iprop(StableHlo.held (c : Thread nD τ) (Pipeline.ucRefs τ sig) (U13 m c) ∗ Rr c)
  post c := iprop(StableHlo.held (c : Thread nD τ) (Pipeline.ucRefs τ sig) (U14 m c) ∗ Rr c)
  X c := iprop(∃ r, prngReg c r)
  Y c := iprop(∃ r, prngReg c r)
  Z c := Pipeline.unscopedRest (Ix := Unit) (Name := ℕ) (U := UR sig nD τ) (Lvl := ℕ) spec7 c (fun b => U13 m c b)
  hentry c := entry_of (pdats m) 7 winFacts7 arr_whole7 c (fun _ => rfl) rfl rfl (U13 m c) (fun w => A_eq7 (fun c b => U13 m c b) c w)
  hin c := (in_of spec7 c _).trans (hin7 (fun c b => U13 m c b) c)
  hout c := (hout7 (fun c b => U13 m c b) c).trans (out_of spec7 c)
  hexit c := exit_of (pdats m) 7 winFacts7 arr_whole7 c (fun _ => rfl) rfl (U13 m c)

set_option backward.isDefEq.respectTransparency.types false in

noncomputable def reg8 : Pipeline.RegionSeg (pcfgs (F := F)) adm (pdats m) () defs₀ Variants.none noL noLv 8 where
  win := winFacts8.to₀
  block_pos := block_pos8
  stage_whole := stage_whole8
  K := PEmpty
  osem k := k.elim
  ho := Pipeline.OwnSemFacts.none _
  hbody c := (body_obligation8 (fun c b => U14 m c b) c).loose
  hwaits := Pipeline.hwaits_of_owed_zero _ _ _ _ noL noLv 8 fun _ _ => rfl
  pre c := iprop(StableHlo.held (c : Thread nD τ) (Pipeline.ucRefs τ sig) (U14 m c) ∗ Rr c)
  post c := iprop(StableHlo.held (c : Thread nD τ) (Pipeline.ucRefs τ sig) (U15 m c) ∗ Rr c)
  X c := iprop(∃ r, prngReg c r)
  Y c := iprop(∃ r, prngReg c r)
  Z c := Pipeline.unscopedRest (Ix := Unit) (Name := ℕ) (U := UR sig nD τ) (Lvl := ℕ) spec8 c (fun b => U14 m c b)
  hentry c := entry_of (pdats m) 8 winFacts8 arr_whole8 c (fun _ => rfl) rfl rfl (U14 m c) (fun w => A_eq8 (fun c b => U14 m c b) c w)
  hin c := (in_of spec8 c _).trans (hin8 (fun c b => U14 m c b) c)
  hout c := (hout8 (fun c b => U14 m c b) c).trans (out_of spec8 c)
  hexit c := exit_of (pdats m) 8 winFacts8 arr_whole8 c (fun _ => rfl) rfl (U14 m c)

set_option backward.isDefEq.respectTransparency.types false in

noncomputable def reg9 : Pipeline.RegionSeg (pcfgs (F := F)) adm (pdats m) () defs₀ Variants.none noL noLv 9 where
  win := winFacts9.to₀
  block_pos := block_pos9
  stage_whole := stage_whole9
  K := PEmpty
  osem k := k.elim
  ho := Pipeline.OwnSemFacts.none _
  hbody c := (body_obligation9 (fun c b => U15 m c b) c).loose
  hwaits := Pipeline.hwaits_of_owed_zero _ _ _ _ noL noLv 9 fun _ _ => rfl
  pre c := iprop(StableHlo.held (c : Thread nD τ) (Pipeline.ucRefs τ sig) (U15 m c) ∗ Rr c)
  post c := iprop(StableHlo.held (c : Thread nD τ) (Pipeline.ucRefs τ sig) (U16 m c) ∗ Rr c)
  X c := iprop(∃ r, prngReg c r)
  Y c := iprop(∃ r, prngReg c r)
  Z c := Pipeline.unscopedRest (Ix := Unit) (Name := ℕ) (U := UR sig nD τ) (Lvl := ℕ) spec9 c (fun b => U15 m c b)
  hentry c := entry_of (pdats m) 9 winFacts9 arr_whole9 c (fun _ => rfl) rfl rfl (U15 m c) (fun w => A_eq9 (fun c b => U15 m c b) c w)
  hin c := (in_of spec9 c _).trans (hin9 (fun c b => U15 m c b) c)
  hout c := (hout9 (fun c b => U15 m c b) c).trans (out_of spec9 c)
  hexit c := exit_of (pdats m) 9 winFacts9 arr_whole9 c (fun _ => rfl) rfl (U15 m c)

theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in

theorem run_val (ρ : Dev nD → PrngReg) :
    θ_run defs (onTc (τ := τ) (main (F := F))) ⟨m, fun _ => 0, ρ⟩ (fun r => ∀ c : Dev nD,
      r.2.mem ((c.tc : Thread nD τ).loc main_v17) = U17 m c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) := by
  refine Pipeline.θ_run_regions_kit_dev (pcfgs (F := F)) adm (pdats m) () cellOf_inj emb₁ defs₀ Variants.none noL noLv m ρ main
    (segs m (outsU m) Variants.none noL noLv (fun _ c => Rr c) () (pdats m)
      (reg0 m) (reg1 m) (reg2 m) (reg3 m) (reg4 m) (reg5 m) (reg6 m) (reg7 m) (reg8 m) (reg9 m))
    (fun c Q => by
      rewrite [main_chain c, Pipeline.Seg.run_eq_chain,
        show (segs m (outsU m) Variants.none noL noLv (fun _ c => Rr c) () (pdats m)
            (reg0 m) (reg1 m) (reg2 m) (reg3 m) (reg4 m) (reg5 m) (reg6 m) (reg7 m) (reg8 m) (reg9 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()),
          Prog.lift (.customCall (Pipeline.entry 5) ()),
          Prog.lift (.customCall (Pipeline.entry 6) ()),
          Prog.lift (.customCall (Pipeline.entry 7) ()),
          Prog.lift (.customCall (Pipeline.entry 8) ()),
          Prog.lift (.customCall (Pipeline.entry 9) ()),
          StableHlo.seq hostOps10 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := launch_ghost)
    (T₀ := fun c => iprop(StableHlo.held (c : Thread nD τ) (Pipeline.ucRefs τ sig) (V0 m c) ∗ Rr c))
    (Tₙ := fun c => iprop(StableHlo.held (c : Thread nD τ) (Pipeline.ucRefs τ sig) (V17 m (outsU m) c) ∗ ∃ r, prngReg c r))
    (hch := fun c => ⟨.rfl, .rfl, .rfl, .rfl, .rfl, .rfl, .rfl, .rfl, .rfl, .rfl, .rfl, .rfl, .rfl, .rfl, .rfl, .rfl,
      (show iprop(StableHlo.held (c : Thread nD τ) (Pipeline.ucRefs τ sig) (U16 m c) ∗ Rr c)
          ⊢ iprop(StableHlo.held (c : Thread nD τ) (Pipeline.ucRefs τ sig) (V16 m (outsU m) c) ∗ Rr c) from by rw [V16_eq m c]),
      ?_⟩)
    (hinit := ?_)
    (QY := fun c s => s.mem ((c.tc : Thread nD τ).loc main_v17) = U17 m c main_v17
        ∧ s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_arg2) = m ((c.tc : Thread nD τ).loc main_arg2)
        ∧ s.mem ((c.tc : Thread nD τ).loc main_arg3) = m ((c.tc : Thread nD τ).loc main_arg3)
        ∧ s.mem ((c.tc : Thread nD τ).loc main_arg4) = m ((c.tc : Thread nD τ).loc main_arg4)
        ∧ s.mem ((c.tc : Thread nD τ).loc main_arg5) = m ((c.tc : Thread nD τ).loc main_arg5)
        ∧ s.mem ((c.tc : Thread nD τ).loc main_arg6) = m ((c.tc : Thread nD τ).loc main_arg6)
        ∧ s.mem ((c.tc : Thread nD τ).loc main_arg7) = m ((c.tc : Thread nD τ).loc main_arg7)
        ∧ s.mem ((c.tc : Thread nD τ).loc main_arg8) = m ((c.tc : Thread nD τ).loc main_arg8)
        ∧ s.mem ((c.tc : Thread nD τ).loc main_arg9) = m ((c.tc : Thread nD τ).loc main_arg9)
        ∧ s.mem ((c.tc : Thread nD τ).loc main_arg10) = m ((c.tc : Thread nD τ).loc main_arg10)
        ∧ s.mem ((c.tc : Thread nD τ).loc main_arg11) = m ((c.tc : Thread nD τ).loc main_arg11)
        ∧ s.mem ((c.tc : Thread nD τ).loc main_arg12) = m ((c.tc : Thread nD τ).loc main_arg12)
        ∧ s.mem ((c.tc : Thread nD τ).loc main_arg13) = m ((c.tc : Thread nD τ).loc main_arg13)
        ∧ s.mem ((c.tc : Thread nD τ).loc main_arg14) = m ((c.tc : Thread nD τ).loc main_arg14)
        ∧ s.mem ((c.tc : Thread nD τ).loc main_arg15) = m ((c.tc : Thread nD τ).loc main_arg15)
        ∧ s.mem ((c.tc : Thread nD τ).loc main_arg16) = m ((c.tc : Thread nD τ).loc main_arg16)
        ∧ s.mem ((c.tc : Thread nD τ).loc main_arg17) = m ((c.tc : Thread nD τ).loc main_arg17)
        ∧ s.mem ((c.tc : Thread nD τ).loc main_arg18) = m ((c.tc : Thread nD τ).loc main_arg18)
        ∧ s.mem ((c.tc : Thread nD τ).loc main_arg19) = m ((c.tc : Thread nD τ).loc main_arg19)
        ∧ s.mem ((c.tc : Thread nD τ).loc main_arg20) = m ((c.tc : Thread nD τ).loc main_arg20)
        ∧ s.mem ((c.tc : Thread nD τ).loc main_arg21) = m ((c.tc : Thread nD τ).loc main_arg21)
        ∧ s.mem ((c.tc : Thread nD τ).loc main_arg22) = m ((c.tc : Thread nD τ).loc main_arg22)
        ∧ s.mem ((c.tc : Thread nD τ).loc main_arg23) = m ((c.tc : Thread nD τ).loc main_arg23)
        ∧ s.mem ((c.tc : Thread nD τ).loc main_arg24) = m ((c.tc : Thread nD τ).loc main_arg24)
        ∧ s.mem ((c.tc : Thread nD τ).loc main_arg25) = m ((c.tc : Thread nD τ).loc main_arg25)
        ∧ s.mem ((c.tc : Thread nD τ).loc main_arg26) = m ((c.tc : Thread nD τ).loc main_arg26))
    (hfin := fun c s' => ?_) (hQ := fun _ h => h)
  ·
    show iprop(StableHlo.held (c : Thread nD τ) (Pipeline.ucRefs τ sig) (V17 m (outsU m) c) ∗ Rr c)
      ⊢ iprop(iprop(StableHlo.held (c : Thread nD τ) (Pipeline.ucRefs τ sig) (V17 m (outsU m) c) ∗ ∃ r, prngReg c r)
          ∗ ∃ W, owes (c.tc : Thread nD τ) (0 : CellTallies nD τ sig Unit) W)
    iintro ⟨Hh, Hg, HO⟩
    isplitl [Hh Hg]
    · isplitl [Hh]; · iexact Hh
      iexact Hg
    iexact HO
  ·

    refine Pipeline.initEach noL noLv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hg, -⟩, -⟩
    imodintro
    isplitl [Hh]; · iexact Hh
    isplitl [Hg]; · iexists _; iexact Hg
    iexists ∅; iexact HO
  ·
    unfold StableHlo.held
    iintro ⟨⟨Hh, -⟩, HSI⟩
    ihave Hr := (pointsTo_read_all (Pipeline.ucRefs τ sig) (fun b => ((c : Thread nD τ).1, b)) (V17 m (outsU m) c) s') $$ [Hh HSI]
    · isplitl [Hh] <;> iassumption
    icases Hr with ⟨%h, HSI⟩
    imodintro
    isplitr
    · ipureintro
      have hr : ∀ r : Ref sig .tc, ¬ (Proc.devRef .tc r : DevRef τ sig).isScoped →
          s'.mem.mem ((c.tc : Thread nD τ).loc r) = V17 m (outsU m) c (Proc.devRef .tc r) := fun r hs =>
        h (Proc.devRef .tc r) (Finset.mem_filter.mpr ⟨StableHlo.devRef_mem_tcRefs r, hs⟩)
      exact ⟨(hr main_v17 (by decide)).trans (congrFun (V17_eq m c) _),
        (hr main_arg0 (by decide)).trans (V17_main_arg0 m (outsU m) c),
        (hr main_arg1 (by decide)).trans (V17_main_arg1 m (outsU m) c),
        (hr main_arg2 (by decide)).trans (V17_main_arg2 m (outsU m) c),
        (hr main_arg3 (by decide)).trans (V17_main_arg3 m (outsU m) c),
        (hr main_arg4 (by decide)).trans (V17_main_arg4 m (outsU m) c),
        (hr main_arg5 (by decide)).trans (V17_main_arg5 m (outsU m) c),
        (hr main_arg6 (by decide)).trans (V17_main_arg6 m (outsU m) c),
        (hr main_arg7 (by decide)).trans (V17_main_arg7 m (outsU m) c),
        (hr main_arg8 (by decide)).trans (V17_main_arg8 m (outsU m) c),
        (hr main_arg9 (by decide)).trans (V17_main_arg9 m (outsU m) c),
        (hr main_arg10 (by decide)).trans (V17_main_arg10 m (outsU m) c),
        (hr main_arg11 (by decide)).trans (V17_main_arg11 m (outsU m) c),
        (hr main_arg12 (by decide)).trans (V17_main_arg12 m (outsU m) c),
        (hr main_arg13 (by decide)).trans (V17_main_arg13 m (outsU m) c),
        (hr main_arg14 (by decide)).trans (V17_main_arg14 m (outsU m) c),
        (hr main_arg15 (by decide)).trans (V17_main_arg15 m (outsU m) c),
        (hr main_arg16 (by decide)).trans (V17_main_arg16 m (outsU m) c),
        (hr main_arg17 (by decide)).trans (V17_main_arg17 m (outsU m) c),
        (hr main_arg18 (by decide)).trans (V17_main_arg18 m (outsU m) c),
        (hr main_arg19 (by decide)).trans (V17_main_arg19 m (outsU m) c),
        (hr main_arg20 (by decide)).trans (V17_main_arg20 m (outsU m) c),
        (hr main_arg21 (by decide)).trans (V17_main_arg21 m (outsU m) c),
        (hr main_arg22 (by decide)).trans (V17_main_arg22 m (outsU m) c),
        (hr main_arg23 (by decide)).trans (V17_main_arg23 m (outsU m) c),
        (hr main_arg24 (by decide)).trans (V17_main_arg24 m (outsU m) c),
        (hr main_arg25 (by decide)).trans (V17_main_arg25 m (outsU m) c),
        (hr main_arg26 (by decide)).trans (V17_main_arg26 m (outsU m) c)⟩
    · iexact HSI

end Cert.KernelIdeal.Hand

end
-- ==== Proof.K.R0Run.lean ====
import proofs.«415925_j84189948936386_1_alg».proof.Proof.Gen.Kernel.Launch
import proofs.«415925_j84189948936386_1_alg».proof.Proof.Gen.Kernel.Skeleton
import proofs.«415925_j84189948936386_1_alg».proof.Proof.KI.Whole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.KernelIdeal.Hand (off_zero readAt_unread_full read_writes_full readCov_full)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop :=
  (Scalar.cmpi .ne (Scalar.extui (Scalar.cmpi .eq (BitVec.ofNat 32 (i 1).val) 0#32)) 0#32) = 1#1

abbrev cond0_1 (i : grid0.Coords) : Prop := k0_cond2 i = 1#1

theorem coords0_1 (t : Fin cfg0.N) : ((grid0.coords t) 1).val = t.val % 25 := by
  have hs : grid0.stride 1 = 1 := by decide
  have hb : grid0.bound 1 = 25 := rfl
  show t.val / grid0.stride 1 % grid0.bound 1 = t.val % 25
  rw [hs, hb, Nat.div_one]

theorem cond0_0_iff : ∀ j : Fin 25,
    ((Scalar.cmpi .ne (Scalar.extui (Scalar.cmpi .eq (BitVec.ofNat 32 j.val) 0#32)) 0#32) = 1#1) ↔ j.val = 0 := by decide
theorem cond0_1_iff : ∀ j : Fin 25,
    ((Scalar.cmpi .ne (Scalar.extui (Scalar.cmpi .eq (BitVec.ofNat 32 j.val) 24#32)) 0#32) = 1#1) ↔ j.val = 24 := by decide

theorem hcond0_0 (t : Fin cfg0.N) : cond0_0 (grid0.coords t) ↔ t.val % 25 = 0 :=
  (cond0_0_iff (grid0.coords t 1)).trans (by rw [coords0_1 t])

theorem hcond0_1 (t : Fin cfg0.N) : cond0_1 (grid0.coords t) ↔ t.val % 25 = 24 :=
  (cond0_1_iff (grid0.coords t 1)).trans (by rw [coords0_1 t])

variable (c : Dev nD) (i : grid0.Coords) (arg2 : Memref sig .tc .vmem S2048 .i32) (harg2 : arg2.IsWhole) (arg3 : Memref sig .tc .vmem S2048 .i32) (harg3 : arg3.IsWhole) (arg4 : Memref sig .tc .vmem S1024x1 .f32) (harg4 : arg4.IsWhole) (arg5 : Memref sig .tc .vmem S2x200 .f32) (harg5 : arg5.IsWhole) (arg6 : Memref sig .tc .vmem S200 .f32) (harg6 : arg6.IsWhole) (arg7 : Memref sig .tc .vmem S200x1 .f32) (harg7 : arg7.IsWhole) (arg8 : Memref sig .tc .vmem S1 .f32) (harg8 : arg8.IsWhole) (arg9 : Memref sig .tc .vmem S1x20 .f32) (harg9 : arg9.IsWhole) (arg10 : Memref sig .tc .vmem S20 .f32) (harg10 : arg10.IsWhole) (arg11 : Memref sig .tc .vmem S2048x20 .f32) (harg11 : arg11.IsWhole) (arg12 : Memref sig .tc .vmem S2048x1 .f32) (harg12 : arg12.IsWhole) (arg13 : Memref sig .tc .vmem S2048x1 .f32) (harg13 : arg13.IsWhole)

set_option maxHeartbeats 1000000 in

theorem run0_first
    (hc0 : cond0_0 i) (hc1 : ¬cond0_1 i)
    (x0 : Vec F S2048 .i32) (x1 : Vec F S2048 .i32) (x2 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2
            ∗ owns (c : Thread nD τ) arg12 fullShare (k0_pay6 i x1 x2 k0_pay2) ∗ owns (c : Thread nD τ) arg13 fullShare (k0_pay7 i x0 x2 k0_pay3)) -∗ K ⟨⟩))
      ⊢ wp frame (wpE (defs₀ (F := F)) Variants.none c none) E (cc0__gather_mlp_kernel i arg2 harg2 arg3 harg3 arg4 harg4 arg5 harg5 arg6 harg6 arg7 harg7 arg8 harg8 arg9 harg9 arg10 harg10 arg11 harg11 arg12 harg12 arg13 harg13) K := by
  sl_unfold [cc0__gather_mlp_kernel]
  unfold owns
  iintro ⟨⟨%f0, %hf0, H0⟩, ⟨%f1, %hf1, H1⟩, ⟨%f2, %hf2, H2⟩, ⟨%dI, %fI, -, HI⟩, ⟨%dJ, %fJ, -, HJ⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HI]
  · iexists _; isplitr
    swap; · iexact HI
    ipureintro
    refine (read_writes_full _ _ _ _ _).trans ?_
    sl_unfold_run_names
    rw [readAt_unread_full harg3, readAt_unread_full harg4, readCov_full]
  · iexists _; isplitr
    swap; · iexact HJ
    ipureintro
    refine (read_writes_full _ _ _ _ _).trans ?_
    sl_unfold_run_names
    rw [readAt_unread_full harg2, readAt_unread_full harg4, readCov_full]

set_option maxHeartbeats 1000000 in

theorem run0_mid
    (hc0 : ¬cond0_0 i) (hc1 : ¬cond0_1 i)
    (x0 : Vec F S2048 .i32) (x1 : Vec F S2048 .i32) (x2 : Vec F S1024x1 .f32)
    (a : Vec F S2048x1 .f32) (b : Vec F S2048x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg12 fullShare a ∗ owns (c : Thread nD τ) arg13 fullShare b
        ∗ (iprop(owns (c : Thread nD τ) arg2 fullShare x0 ∗ owns (c : Thread nD τ) arg3 fullShare x1 ∗ owns (c : Thread nD τ) arg4 fullShare x2
            ∗ owns (c : Thread nD τ) arg12 fullShare (k0_pay6 i x1 x2 a) ∗ owns (c : Thread nD τ) arg13 fullShare (k0_pay7 i x0 x2 b)) -∗ K ⟨⟩))
      ⊢ wp frame (wpE (defs₀ (F := F)) Variants.none c none) E (cc0__gather_mlp_kernel i arg2 harg2 arg3 harg3 arg4 harg4 arg5 harg5 arg6 harg6 arg7 harg7 arg8 harg8 arg9 harg9 arg10 harg10 arg11 harg11 arg12 harg12 arg13 harg13) K := by
  sl_unfold [cc0__gather_mlp_kernel]
  unfold owns
  iintro ⟨⟨%f0, %hf0, H0⟩, ⟨%f1, %hf1, H1⟩, ⟨%f2, %hf2, H2⟩, ⟨%fI, %hfI, HI⟩, ⟨%fJ, %hfJ, HJ⟩, Hk⟩
  obtain rfl := harg2.eq_unread hf0; obtain rfl := harg3.eq_unread hf1; obtain rfl := harg4.eq_unread hf2
  obtain rfl := harg12.eq_unread hfI; obtain rfl := harg13.eq_unread hfJ
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HI]
  · iexists _; isplitr
    swap; · iexact HI
    ipureintro
    refine (read_writes_full _ _ _ _ _).trans ?_
    sl_unfold_run_names
    rw [readAt_unread_full harg3, readAt_unread_full harg4, readAt_unread_full harg12]
  · iexists _; isplitr
    swap; · iexact HJ
    ipureintro
    refine (read_writes_full _ _ _ _ _).trans ?_
    sl_unfold_run_names
    rw [readAt_unread_full harg2, readAt_unread_full harg4, readAt_unread_full harg13]

set_option maxHeartbeats 1000000 in

theorem run0_last
    (hc0 : ¬cond0_0 i) (hc1 : cond0_1 i)
    (x0 : Vec F S2048 .i32) (x1 : Vec F S2048 .i32) (x2 : Vec F S1024x1 .f32)
    (x3 : Vec F S2x200 .f32) (x4 : Vec F S200 .f32) (x5 : Vec F S200x1 .f32) (x6 : Vec F S1 .f32) (x7 : Vec F S1x20 .f32) (x8 : Vec F S20 .f32)
    (a : Vec F S2048x1 .f32) (b : Vec F S2048x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8
        ∗ (∃ d, owns (c : Thread nD τ) arg11 fullShare d)
        ∗ owns (c : Thread nD τ) arg12 fullShare a ∗ owns (c : Thread nD τ) arg13 fullShare b
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare (k0_pay1 (k0_pay6 i x1 x2 a) (k0_pay7 i x0 x2 b) x3 x4 x5 x6 x7 x8)
            ∗ owns (c : Thread nD τ) arg12 fullShare (k0_pay6 i x1 x2 a) ∗ owns (c : Thread nD τ) arg13 fullShare (k0_pay7 i x0 x2 b)) -∗ K ⟨⟩))
      ⊢ wp frame (wpE (defs₀ (F := F)) Variants.none c none) E (cc0__gather_mlp_kernel i arg2 harg2 arg3 harg3 arg4 harg4 arg5 harg5 arg6 harg6 arg7 harg7 arg8 harg8 arg9 harg9 arg10 harg10 arg11 harg11 arg12 harg12 arg13 harg13) K := by
  sl_unfold [cc0__gather_mlp_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dO, %fO, -, HO⟩, ⟨%fI, %hfI, HI⟩, ⟨%fJ, %hfJ, HJ⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg12.eq_unread hfI; obtain rfl := harg13.eq_unread hfJ
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HO]
  · iexists _; isplitr
    swap; · iexact HO
    ipureintro
    refine (read_writes_full _ _ _ _ _).trans ?_
    sl_unfold_run_names
    rw [readCov_full, readCov_full, readAt_unread_full harg3, readAt_unread_full harg4, readAt_unread_full harg12, readAt_unread_full harg2, readAt_unread_full harg13, readAt_unread_full harg5, readAt_unread_full harg6, readAt_unread_full harg7, readAt_unread_full harg8, readAt_unread_full harg9, readAt_unread_full harg10]
  isplitl [HI]
  · iexists _; isplitr
    swap; · iexact HI
    ipureintro
    refine (read_writes_full _ _ _ _ _).trans ?_
    sl_unfold_run_names
    rw [readAt_unread_full harg3, readAt_unread_full harg4, readAt_unread_full harg12]
  · iexists _; isplitr
    swap; · iexact HJ
    ipureintro
    refine (read_writes_full _ _ _ _ _).trans ?_
    sl_unfold_run_names
    rw [readAt_unread_full harg2, readAt_unread_full harg4, readAt_unread_full harg13]

end Cert.Kernel.Hand
end
-- ==== Proof.K.R0Dat.lean ====
import proofs.«415925_j84189948936386_1_alg».proof.Proof.K.R0Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S2048 .i32 := (cfg0.win 0).stage (cfg0.slots t 0)
abbrev hs0_0 (t : Fin cfg0.N) : (ms0_0 t).IsWhole := hstage0_0 ((cfg0.slots t 0).cast nbuf0_0)
abbrev ms0_1 (t : Fin cfg0.N) : Memref sig .tc .vmem S2048 .i32 := (cfg0.win 1).stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := (cfg0.win 2).stage (cfg0.slots t 2)
abbrev hs0_2 (t : Fin cfg0.N) : (ms0_2 t).IsWhole := hstage0_2 ((cfg0.slots t 2).cast nbuf0_2)
abbrev ms0_3 (t : Fin cfg0.N) : Memref sig .tc .vmem S2x200 .f32 := (cfg0.win 3).stage (cfg0.slots t 3)
abbrev hs0_3 (t : Fin cfg0.N) : (ms0_3 t).IsWhole := hstage0_3 ((cfg0.slots t 3).cast nbuf0_3)
abbrev ms0_4 (t : Fin cfg0.N) : Memref sig .tc .vmem S200 .f32 := (cfg0.win 4).stage (cfg0.slots t 4)
abbrev hs0_4 (t : Fin cfg0.N) : (ms0_4 t).IsWhole := hstage0_4 ((cfg0.slots t 4).cast nbuf0_4)
abbrev ms0_5 (t : Fin cfg0.N) : Memref sig .tc .vmem S200x1 .f32 := (cfg0.win 5).stage (cfg0.slots t 5)
abbrev hs0_5 (t : Fin cfg0.N) : (ms0_5 t).IsWhole := hstage0_5 ((cfg0.slots t 5).cast nbuf0_5)
abbrev ms0_6 (t : Fin cfg0.N) : Memref sig .tc .vmem S1 .f32 := (cfg0.win 6).stage (cfg0.slots t 6)
abbrev hs0_6 (t : Fin cfg0.N) : (ms0_6 t).IsWhole := hstage0_6 ((cfg0.slots t 6).cast nbuf0_6)
abbrev ms0_7 (t : Fin cfg0.N) : Memref sig .tc .vmem S1x20 .f32 := (cfg0.win 7).stage (cfg0.slots t 7)
abbrev hs0_7 (t : Fin cfg0.N) : (ms0_7 t).IsWhole := hstage0_7 ((cfg0.slots t 7).cast nbuf0_7)
abbrev ms0_8 (t : Fin cfg0.N) : Memref sig .tc .vmem S20 .f32 := (cfg0.win 8).stage (cfg0.slots t 8)
abbrev hs0_8 (t : Fin cfg0.N) : (ms0_8 t).IsWhole := hstage0_8 ((cfg0.slots t 8).cast nbuf0_8)
abbrev ms0_9 (t : Fin cfg0.N) : Memref sig .tc .vmem S2048x20 .f32 := (cfg0.win 9).stage (cfg0.slots t 9)
abbrev hs0_9 (t : Fin cfg0.N) : (ms0_9 t).IsWhole := hstage0_9 ((cfg0.slots t 9).cast nbuf0_9)

abbrev scM0_0 : Memref sig .tc .vmem S2048x1 .f32 := Memref.whole cc0_scratch0
abbrev scM0_1 : Memref sig .tc .vmem S2048x1 .f32 := Memref.whole cc0_scratch1

def scI0 (c : Dev nD) : (n : ℕ) → n < cfg0.N → Vec F S2048x1 .f32
  | 0, hn => k0_pay6 (grid0.coords ⟨0, hn⟩) (iblk0 V c 1 ⟨0, hn⟩) (iblk0 V c 2 ⟨0, hn⟩) k0_pay2
  | n + 1, hn => k0_pay6 (grid0.coords ⟨n + 1, hn⟩) (iblk0 V c 1 ⟨n + 1, hn⟩) (iblk0 V c 2 ⟨n + 1, hn⟩)
      (if (n + 1) % 25 = 0 then k0_pay2 else scI0 c n (Nat.lt_of_succ_lt hn))

def scJ0 (c : Dev nD) : (n : ℕ) → n < cfg0.N → Vec F S2048x1 .f32
  | 0, hn => k0_pay7 (grid0.coords ⟨0, hn⟩) (iblk0 V c 0 ⟨0, hn⟩) (iblk0 V c 2 ⟨0, hn⟩) k0_pay3
  | n + 1, hn => k0_pay7 (grid0.coords ⟨n + 1, hn⟩) (iblk0 V c 0 ⟨n + 1, hn⟩) (iblk0 V c 2 ⟨n + 1, hn⟩)
      (if (n + 1) % 25 = 0 then k0_pay3 else scJ0 c n (Nat.lt_of_succ_lt hn))

theorem scI0_eq (c : Dev nD) (t : Fin cfg0.N) :
    scI0 V c t.val t.isLt = k0_pay6 (grid0.coords t) (iblk0 V c 1 t) (iblk0 V c 2 t)
      (if t.val % 25 = 0 then k0_pay2 else scI0 V c (t.val - 1) (Nat.lt_of_le_of_lt (Nat.sub_le _ _) t.isLt)) := by
  obtain ⟨n, hn⟩ := t
  cases n with
  | zero => exact (congrArg (k0_pay6 _ _ _) (if_pos (Nat.zero_mod 25)).symm)
  | succ n => rfl

theorem scJ0_eq (c : Dev nD) (t : Fin cfg0.N) :
    scJ0 V c t.val t.isLt = k0_pay7 (grid0.coords t) (iblk0 V c 0 t) (iblk0 V c 2 t)
      (if t.val % 25 = 0 then k0_pay3 else scJ0 V c (t.val - 1) (Nat.lt_of_le_of_lt (Nat.sub_le _ _) t.isLt)) := by
  obtain ⟨n, hn⟩ := t
  cases n with
  | zero => exact (congrArg (k0_pay7 _ _ _) (if_pos (Nat.zero_mod 25)).symm)
  | succ n => rfl

abbrev rest0 (c : Dev nD) : sProp 𝕄 :=
  Pipeline.scopedRestBut (Ix := Unit) (Name := ℕ) (U := UR sig nD τ) (Lvl := ℕ) (Val := Elt F) spec0 c [cc0_scratch0, cc0_scratch1]

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c)
          ∗ (∃ r, prngReg c r)) := by
  unfold Pipeline.ΦA; rw [scopedRest0_split]; simp only [scM0_0, scM0_1, owns_whole]; try rfl

def PhiS0 (c : Dev nD) : (n : ℕ) → n ≤ cfg0.N → sProp 𝕄
  | 0, _ => Pipeline.ΦA spec0 c
  | n + 1, hn => iprop(iprop(iprop(owns (c : Thread nD τ) scM0_0 fullShare (scI0 V c n hn) ∗ owns (c : Thread nD τ) scM0_1 fullShare (scJ0 V c n hn)) ∗ rest0 c)
      ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (scI0 V c n hn) ∗ owns (c : Thread nD τ) scM0_1 fullShare (scJ0 V c n hn)) ∗ rest0 c)
      ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (scI0 V c (n - 1) (by omega)) ∗ owns (c : Thread nD τ) scM0_1 fullShare (scJ0 V c (n - 1) (by omega))) ∗ rest0 c)
      ∗ (∃ r, prngReg c r)) := by
  cases n with
  | zero => exact absurd rfl hz
  | succ n => rfl

theorem PhiS0_weak (c : Dev nD) (n : ℕ) (h : n ≤ cfg0.N) : PhiS0 V c n h ⊢ Pipeline.ΦA spec0 c := by
  cases n with
  | zero => exact Idealize.SL.BI.Entails.refl _
  | succ n =>
    rw [PhiS0_succ, PhiA0_eq]
    iintro ⟨⟨⟨HI, HJ⟩, HR⟩, Hg⟩
    isplitl [HI HJ HR]
    · isplitl [HI HJ]
      · isplitl [HI]; · iexists _; iexact HI
        iexists _; iexact HJ
      iexact HR
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => k0_pay1 (scI0 V c t.val t.isLt) (scJ0 V c t.val t.isLt) (iblk0 V c 3 t) (iblk0 V c 4 t) (iblk0 V c 5 t) (iblk0 V c 6 t) (iblk0 V c 7 t) (iblk0 V c 8 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_9 (c : Dev nD) (t : Fin cfg0.N) : (dat0 V c).after 9 t = k0_pay1 (scI0 V c t.val t.isLt) (scJ0 V c t.val t.isLt) (iblk0 V c 3 t) (iblk0 V c 4 t) (iblk0 V c 5 t) (iblk0 V c 6 t) (iblk0 V c 7 t) (iblk0 V c 8 t) := by dsimp only [dat0]

theorem after0_9_flush (c : Dev nD) (t : Fin cfg0.N) (h : t.val % 25 = 24) : (dat0 V c).after 9 t = k0_pay1 (scI0 V c t.val t.isLt) (scJ0 V c t.val t.isLt) (iblk0 V c 3 t) (iblk0 V c 4 t) (iblk0 V c 5 t) (iblk0 V c 6 t) (iblk0 V c 7 t) (iblk0 V c 8 t) :=
  after0_9 V c t

theorem before0_in (c : Dev nD) (w : Fin cfg0.W) (hw : w ≠ 9) (t : Fin cfg0.N) (d) : (dat0 V c).before w t d = (dat0 V c).after w t := by
  fin_cases w <;> first
    | exact absurd rfl hw
    | exact (dat0 V c).before_in_eq_fetched _ rfl (fun _ => rfl) (fun _ _ _ => rfl) (fun _ => rfl) t d

theorem leaves0_in (c : Dev nD) (w : Fin cfg0.W) (hw : w ≠ 9) (t : Fin cfg0.N) :
    (dat0 V c).leavesExact w t = owns (c : Thread nD τ) ((cfg0.win w).stage (cfg0.slots t w)) fullShare ((dat0 V c).after w t) := by
  fin_cases w <;> first | exact absurd rfl hw | rfl

theorem idle0_9 (i : grid0.Coords) (h : ¬cond0_1 i) : cfg0.idle 9 i = true := by
  show (!(k0_cond2 i == 1#1)) = true
  rw [Bool.not_eq_true', beq_eq_false_iff_ne]; exact h

theorem live0_9 (i : grid0.Coords) (h : cond0_1 i) : cfg0.idle 9 i = false := by
  show (!(k0_cond2 i == 1#1)) = false
  rw [Bool.not_eq_false', beq_iff_eq]; exact h

theorem noFlush0_9 (t : Fin cfg0.N) (h : ¬t.val % 25 = 24) : (cfg0.win 9).flush t = false := by
  have hN : grid0.N = 4900 := N_0
  have ht : t.val < 4900 := lt_of_lt_of_eq t.isLt hN
  have hs : grid0.stride 0 = 25 := by decide
  have hidx : ∀ h1 : t.val + 1 < grid0.N, win0_9.index ⟨t.val + 1, h1⟩ = win0_9.index t := fun h1 =>
    hreads0_9 _ _ (Fin.forall_fin_two.mpr ⟨fun _ => Fin.ext (by
      show (t.val + 1) / grid0.stride 0 % grid0.bound 0 = t.val / grid0.stride 0 % grid0.bound 0
      rw [hs]; congr 1; omega), fun ha => absurd ha (by decide)⟩)
  show (win0_9.isOut && (decide (t.val + 1 = grid0.N) || decide (∃ h1 : t.val + 1 < grid0.N, win0_9.index ⟨t.val + 1, h1⟩ ≠ win0_9.index t))) = false
  rw [Bool.and_eq_false_iff]; right
  rw [Bool.or_eq_false_iff]
  exact ⟨decide_eq_false (by omega), decide_eq_false fun ⟨h1, hne⟩ => hne (hidx h1)⟩

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 4800000 in
theorem sound_body0 (c : Dev nD) (t : Fin cfg0.N) :
    bodyPre0 V c t ⊢ wp frame (wpE (defs₀ (F := F)) Variants.none c none) Set.univ (cc0__gather_mlp_kernel (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _)) (fun _ => bodyPost0 V c t) := by
  unfold bodyPre0 bodyPost0
  simp (config := {decide := true}) only [before0_in]
  rw [show (dat0 V c).owesAt () t.succ = (dat0 V c).owesAt () t.castSucc from rfl]
  rw [show (dat0 V c).Φ t.succ = PhiS0 V c (t.val + 1) t.isLt from rfl, PhiS0_succ]
  simp (config := {decide := true}) only [leaves0_in]
  rw [scI0_eq V c t, scJ0_eq V c t]
  by_cases h0 : t.val % 25 = 0
  · have h1 : ¬t.val % 25 = 24 := by omega
    have hc0 : cond0_0 (grid0.coords t) := (hcond0_0 t).mpr h0
    have hc1 : ¬cond0_1 (grid0.coords t) := fun h => h1 ((hcond0_1 t).mp h)
    rw [Dat.leavesExact_idle (dat0 V c) 9 t (idle0_9 _ hc1) (noFlush0_9 t h1), if_pos h0, if_pos h0, PhiS0_castSucc V c t]
    refine (sep_mono_left (PhiS0_weak V c _ _)).trans ?_
    rw [PhiA0_eq]
    iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run0_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) hc0 hc1 ((dat0 V c).after 0 t) ((dat0 V c).after 1 t) ((dat0 V c).after 2 t) Set.univ _)
    iframe H0 H1 H2 HI HJ
    iintro ⟨H0, H1, H2, HI, HJ⟩
    iframe
    isplitl [HI HJ]
    · isplitl [HI]; · iexact HI
      iexact HJ
    iexists _; iexact H9
  · have hz : t.val ≠ 0 := fun e => h0 (by rw [e])
    have hc0 : ¬cond0_0 (grid0.coords t) := fun h => h0 ((hcond0_0 t).mp h)
    rw [if_neg h0, if_neg h0, PhiS0_castSucc V c t, PhiS0_pos V c _ _ hz]
    by_cases h1 : t.val % 25 = 24
    · have hc1 : cond0_1 (grid0.coords t) := (hcond0_1 t).mpr h1
      rw [show (dat0 V c).leavesExact 9 t = owns (c : Thread nD τ) (ms0_9 t) fullShare ((dat0 V c).after 9 t) from by
        unfold Dat.leavesExact; rw [live0_9 _ hc1], after0_9, scI0_eq V c t, scJ0_eq V c t, if_neg h0, if_neg h0]
      iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run0_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) hc0 hc1 ((dat0 V c).after 0 t) ((dat0 V c).after 1 t) ((dat0 V c).after 2 t) ((dat0 V c).after 3 t) ((dat0 V c).after 4 t) ((dat0 V c).after 5 t) ((dat0 V c).after 6 t) ((dat0 V c).after 7 t) ((dat0 V c).after 8 t) (scI0 V c (t.val - 1) (Nat.lt_of_le_of_lt (Nat.sub_le _ _) t.isLt)) (scJ0 V c (t.val - 1) (Nat.lt_of_le_of_lt (Nat.sub_le _ _) t.isLt)) Set.univ _)
      iframe H0 H1 H2 H3 H4 H5 H6 H7 H8
      isplitl [H9]; · iexists _; iexact H9
      iframe HI HJ
      iintro ⟨H0, H1, H2, H3, H4, H5, H6, H7, H8, H9, HI, HJ⟩
      iframe
      isplitl [HI HJ]
      · isplitl [HI]; · iexact HI
        iexact HJ
      iexact H9
    · have hc1 : ¬cond0_1 (grid0.coords t) := fun h => h1 ((hcond0_1 t).mp h)
      rw [Dat.leavesExact_idle (dat0 V c) 9 t (idle0_9 _ hc1) (noFlush0_9 t h1)]
      iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run0_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) hc0 hc1 ((dat0 V c).after 0 t) ((dat0 V c).after 1 t) ((dat0 V c).after 2 t) (scI0 V c (t.val - 1) (Nat.lt_of_le_of_lt (Nat.sub_le _ _) t.isLt)) (scJ0 V c (t.val - 1) (Nat.lt_of_le_of_lt (Nat.sub_le _ _) t.isLt)) Set.univ _)
      iframe H0 H1 H2 HI HJ
      iintro ⟨H0, H1, H2, HI, HJ⟩
      iframe
      isplitl [HI HJ]
      · isplitl [HI]; · iexact HI
        iexact HJ
      iexists _; iexact H9

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c :=
  PhiS0_weak V c (Fin.last cfg0.N).val (Nat.le_of_lt_succ (Fin.last cfg0.N).isLt)

end Cert.Kernel.Hand
end
-- ==== Proof.K.R1Run.lean ====
import proofs.«415925_j84189948936386_1_alg».proof.Proof.Gen.Kernel.Launch
import proofs.«415925_j84189948936386_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.WholeRead
import Idealize.ShloMosaic.Lib.WritesUnit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem read_writes_whole1 {sg : RefSig} {κ : Kind} {sp : Space} {s : Shape} {e : EltTy} {Val : EltTy → Type}
    (v : View sg κ sp s e) (f : v.ty.Contents Val) {off : Fin s.rank → ℕ} (inb : ∀ a, off a + s.size a ≤ s.size a)
    (w : s.Idx → Val e) (L : List (View.Piece Val s e)) :
    v.read Val (v.writes Val f ((⟨Rect.unit off s.size inb, w⟩ : View.Piece Val s e) :: L)) = w :=
  funext fun y => View.read_writes_cons_unit_of_mem v f inb w L y y rfl fun a => by have := inb a; omega

theorem readAt_whole1 {sg : RefSig} {κ : Kind} {sp : Space} {s : Shape} {e : EltTy} {Val : EltTy → Type}
    {m : Memref sg κ sp s e} (h : m.IsWhole) (X : s.Idx → Val e) {off : Fin s.rank → ℕ}
    (inb : ∀ a, off a + s.size a ≤ s.size a) :
    m.view.readAt Val (Rect.unit off s.size inb).toLoadRect (h.unread X) = X :=
  funext fun x => (h.readAt_unread X _ x).trans (congrArg X (funext fun a => Fin.ext (by
    show off a + 1 * (x a).val = (x a).val
    have := inb a; omega)))

theorem coords1_1 (t : Fin cfg1.N) : ((grid1.coords t) 1).val = t.val % 196 := by
  have hs : grid1.stride 1 = 1 := by decide
  have hb : grid1.bound 1 = 196 := rfl
  show t.val / grid1.stride 1 % grid1.bound 1 = t.val % 196
  rw [hs, hb, Nat.div_one]

theorem coords1_0 (t : Fin cfg1.N) : ((grid1.coords t) 0).val = t.val / 196 % 25 := by
  have hs : grid1.stride 0 = 196 := by decide
  have hb : grid1.bound 0 = 25 := rfl
  show t.val / grid1.stride 0 % grid1.bound 0 = t.val / 196 % 25
  rw [hs, hb]

abbrev cond1_0 (i : grid1.Coords) : Prop :=
  (Scalar.cmpi .ne (Scalar.extui (Scalar.cmpi .eq (BitVec.ofNat 32 (i 1).val) 0#32)) 0#32) = 1#1

abbrev cond1_1 (i : grid1.Coords) : Prop := k1_cond2 i = 1#1

theorem cond1_0_iff : ∀ j : Fin 196,
    ((Scalar.cmpi .ne (Scalar.extui (Scalar.cmpi .eq (BitVec.ofNat 32 j.val) 0#32)) 0#32) = 1#1) ↔ j.val = 0 := by decide +kernel
theorem cond1_1_iff : ∀ j : Fin 196,
    ((Scalar.cmpi .ne (Scalar.extui (Scalar.cmpi .eq (BitVec.ofNat 32 j.val) 195#32)) 0#32) = 1#1) ↔ j.val = 195 := by decide +kernel

theorem hcond1_0 (t : Fin cfg1.N) : cond1_0 (grid1.coords t) ↔ t.val % 196 = 0 :=
  (cond1_0_iff (grid1.coords t 1)).trans (by rw [coords1_1 t])

theorem hcond1_1 (t : Fin cfg1.N) : cond1_1 (grid1.coords t) ↔ t.val % 196 = 195 :=
  (cond1_1_iff (grid1.coords t 1)).trans (by rw [coords1_1 t])

theorem idleAt1_5 (i : grid1.Coords) (h : ¬cond1_1 i) : cfg1.idle 5 i = true := by
  show (!(k1_cond2 i == 1#1)) = true
  rw [show (k1_cond2 i == 1#1) = false from beq_false_of_ne h]; rfl

theorem liveAt1_5 (i : grid1.Coords) (h : cond1_1 i) : cfg1.idle 5 i = false := by
  show (!(k1_cond2 i == 1#1)) = false
  rw [show (k1_cond2 i == 1#1) = true from beq_iff_eq.mpr h]; rfl

theorem noFlush1_5 (t : Fin cfg1.N) (h : ¬t.val % 196 = 195) : (cfg1.win 5).flush t = false := by
  have hN : grid1.N = 4900 := N_1
  have ht : t.val < 4900 := lt_of_lt_of_eq t.isLt hN
  have hidx : ∀ hlt : t.val + 1 < grid1.N, (cfg1.win 5).index ⟨t.val + 1, hlt⟩ = (cfg1.win 5).index t := fun hlt => by
    have e : grid1.coords ⟨t.val + 1, hlt⟩ 0 = grid1.coords t 0 :=
      Fin.ext ((coords1_0 ⟨t.val + 1, hlt⟩).trans (Eq.trans (by
        show (t.val + 1) / 196 % 25 = t.val / 196 % 25
        omega) (coords1_0 t).symm))
    show cc1_transform_5 (grid1.coords ⟨t.val + 1, hlt⟩) = cc1_transform_5 (grid1.coords t)
    unfold cc1_transform_5; rw [e]
  refine Bool.eq_false_iff.mpr fun hf => ?_
  simp only [Pipeline.Window.flush, Bool.and_eq_true, Bool.or_eq_true, decide_eq_true_eq] at hf
  rcases hf with ⟨-, hlast | ⟨hlt, hne⟩⟩
  · omega
  · exact hne (hidx hlt)

variable (c : Dev nD) (i : grid1.Coords) (arg2 : Memref sig .tc .vmem S2048 .i32) (harg2 : arg2.IsWhole) (arg3 : Memref sig .tc .vmem S2048x20 .f32) (harg3 : arg3.IsWhole) (arg4 : Memref sig .tc .vmem S1024x1 .f32) (harg4 : arg4.IsWhole) (arg5 : Memref sig .tc .vmem S1x20 .f32) (harg5 : arg5.IsWhole) (arg6 : Memref sig .tc .vmem S20 .f32) (harg6 : arg6.IsWhole) (arg7 : Memref sig .tc .vmem S1024x20 .f32) (harg7 : arg7.IsWhole) (arg8 : Memref sig .tc .vmem S1024x20 .f32) (harg8 : arg8.IsWhole)

set_option maxHeartbeats 1000000 in

theorem run1_first
    (hc0 : cond1_0 i) (hc1 : ¬cond1_1 i) (x0 : Vec F S2048 .i32) (x1 : Vec F S2048x20 .f32) (x2 : Vec F S1024x1 .f32) (x3 : Vec F S1x20 .f32) (x4 : Vec F S20 .f32) (xi5 : Vec F S1024x20 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (k1_pay2 i x0 x1 (k1_pay1 (F := F)))) -∗ K ⟨⟩))
      ⊢ wp frame (wpE (defs₀ (F := F)) Variants.none c none) E (cc1__scatter_residual_kernel i arg2 harg2 arg3 harg3 arg4 harg4 arg5 harg5 arg6 harg6 arg7 harg7 arg8 harg8) K := by
  simp only [cc1__scatter_residual_kernel_eq_skeleton]; unfold cc1__scatter_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  refine (read_writes_whole1 _ _ _ _ _).trans ?_
  rw [readAt_whole1 harg2, readAt_whole1 harg3]
  refine congrArg (k1_pay2 i x0 x1) ?_
  unfold run1_first.sl.v18 run1_first.sl.HS_1
  exact View.readCov_cons_toLoadRect _ _ _ _

set_option maxHeartbeats 1000000 in

theorem run1_mid
    (hc0 : ¬cond1_0 i) (hc1 : ¬cond1_1 i) (x0 : Vec F S2048 .i32) (x1 : Vec F S2048x20 .f32) (x2 : Vec F S1024x1 .f32) (x3 : Vec F S1x20 .f32) (x4 : Vec F S20 .f32) (xi5 : Vec F S1024x20 .f32) (xs : Vec F S1024x20 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (k1_pay2 i x0 x1 xs)) -∗ K ⟨⟩))
      ⊢ wp frame (wpE (defs₀ (F := F)) Variants.none c none) E (cc1__scatter_residual_kernel i arg2 harg2 arg3 harg3 arg4 harg4 arg5 harg5 arg6 harg6 arg7 harg7 arg8 harg8) K := by
  simp only [cc1__scatter_residual_kernel_eq_skeleton]; unfold cc1__scatter_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf5; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  refine (read_writes_whole1 _ _ _ _ _).trans ?_
  rw [readAt_whole1 harg2, readAt_whole1 harg3, readAt_whole1 harg8]

set_option maxHeartbeats 1000000 in

theorem run1_last
    (hc0 : ¬cond1_0 i) (hc1 : cond1_1 i) (x0 : Vec F S2048 .i32) (x1 : Vec F S2048x20 .f32) (x2 : Vec F S1024x1 .f32) (x3 : Vec F S1x20 .f32) (x4 : Vec F S20 .f32) (xs : Vec F S1024x20 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay3 x2 x3 x4 (k1_pay2 i x0 x1 xs))
            ∗ owns (c : Thread nD τ) arg8 fullShare (k1_pay2 i x0 x1 xs)) -∗ K ⟨⟩))
      ⊢ wp frame (wpE (defs₀ (F := F)) Variants.none c none) E (cc1__scatter_residual_kernel i arg2 harg2 arg3 harg3 arg4 harg4 arg5 harg5 arg6 harg6 arg7 harg7 arg8 harg8) K := by
  simp only [cc1__scatter_residual_kernel_eq_skeleton]; unfold cc1__scatter_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (read_writes_whole1 _ _ _ _ _).trans ?_
    rw [readAt_whole1 harg4, readAt_whole1 harg5, readAt_whole1 harg6]
    refine congrArg (k1_pay3 x2 x3 x4) ?_
    unfold run1_last.sl.v37
    refine (View.readCov_cons_toLoadRect _ _ _ _).trans ?_
    rw [readAt_whole1 harg2, readAt_whole1 harg3, readAt_whole1 harg8]
  iexists _; isplitr
  swap; · iexact HS
  ipureintro
  refine (read_writes_whole1 _ _ _ _ _).trans ?_
  rw [readAt_whole1 harg2, readAt_whole1 harg3, readAt_whole1 harg8]

end Cert.Kernel.Hand

end
-- ==== Proof.K.R1Dat.lean ====
import proofs.«415925_j84189948936386_1_alg».proof.Proof.K.R1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def sc1 (c : Dev nD) : (n : ℕ) → n < cfg1.N → Vec F S1024x20 .f32
  | 0, hn => k1_pay2 (grid1.coords ⟨0, hn⟩) (iblk1 V c 0 ⟨0, hn⟩) (iblk1 V c 1 ⟨0, hn⟩) (k1_pay1 (F := F))
  | n + 1, hn => k1_pay2 (grid1.coords ⟨n + 1, hn⟩) (iblk1 V c 0 ⟨n + 1, hn⟩) (iblk1 V c 1 ⟨n + 1, hn⟩)
      (if (n + 1) % 196 = 0 then k1_pay1 (F := F) else sc1 c n (Nat.lt_of_succ_lt hn))

theorem sc1_eq (c : Dev nD) (t : Fin cfg1.N) :
    sc1 V c t.val t.isLt = k1_pay2 (grid1.coords t) (iblk1 V c 0 t) (iblk1 V c 1 t)
      (if t.val % 196 = 0 then k1_pay1 (F := F) else sc1 V c (t.val - 1) (Nat.lt_of_le_of_lt (Nat.sub_le _ _) t.isLt)) := by
  obtain ⟨n, hn⟩ := t
  cases n with
  | zero => exact (congrArg (k1_pay2 (grid1.coords ⟨0, hn⟩) (iblk1 V c 0 ⟨0, hn⟩) (iblk1 V c 1 ⟨0, hn⟩)) (if_pos (Nat.zero_mod 196)).symm)
  | succ n => exact rfl

abbrev scM1 : Memref sig .tc .vmem S1024x20 .f32 := Memref.whole cc1_scratch0

theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

def PhiS1 (c : Dev nD) : (n : ℕ) → n ≤ cfg1.N → sProp 𝕄
  | 0, _ => Pipeline.ΦA spec1 c
  | n + 1, hn => iprop(iprop(owns (c : Thread nD τ) scM1 fullShare (sc1 V c n hn) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (sc1 V c n hn) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (sc1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay3 (iblk1 V c 2 t) (iblk1 V c 3 t) (iblk1 V c 4 t) (sc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := rfl

theorem after1_5_flush (c : Dev nD) (t : Fin cfg1.N) (h : t.val % 196 = 195) :
    (dat1 V c).after 5 t = k1_pay3 (iblk1 V c 2 t) (iblk1 V c 3 t) (iblk1 V c 4 t) (sc1 V c t.val t.isLt) := by
  dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d

abbrev ms1_0 (t : Fin cfg1.N) : Memref sig .tc .vmem S2048 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x20 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x20 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S20 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x20 .f32 := win1_5.stage (cfg1.slots t 5)
abbrev hs1_5 (t : Fin cfg1.N) : (ms1_5 t).IsWhole := hstage1_5 ((cfg1.slots t 5).cast nbuf1_5)

abbrev bodyAt1 (t : Fin cfg1.N) : Prog (TpuEff nD τ sig (Elt F) Λ₀ .tc) PUnit :=
  cc1__scatter_residual_kernel (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _)

theorem leaves1_0 (c : Dev nD) (t : Fin cfg1.N) :
    (dat1 V c).leavesExact 0 t = owns (c : Thread nD τ) (ms1_0 t) fullShare (iblk1 V c 0 t) := rfl
theorem leaves1_1 (c : Dev nD) (t : Fin cfg1.N) :
    (dat1 V c).leavesExact 1 t = owns (c : Thread nD τ) (ms1_1 t) fullShare (iblk1 V c 1 t) := rfl
theorem leaves1_2 (c : Dev nD) (t : Fin cfg1.N) :
    (dat1 V c).leavesExact 2 t = owns (c : Thread nD τ) (ms1_2 t) fullShare (iblk1 V c 2 t) := rfl
theorem leaves1_3 (c : Dev nD) (t : Fin cfg1.N) :
    (dat1 V c).leavesExact 3 t = owns (c : Thread nD τ) (ms1_3 t) fullShare (iblk1 V c 3 t) := rfl
theorem leaves1_4 (c : Dev nD) (t : Fin cfg1.N) :
    (dat1 V c).leavesExact 4 t = owns (c : Thread nD τ) (ms1_4 t) fullShare (iblk1 V c 4 t) := rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

theorem Phi_out1 (c : Dev nD) (t : Fin (cfg1.N + 1)) : (dat1 V c).Φ t ⊢ Pipeline.ΦA spec1 c := by
  rw [show (dat1 V c).Φ t = PhiS1 V c t.val (Nat.le_of_lt_succ t.isLt) from rfl]
  by_cases ht : t.val = 0
  · rw [PhiS1_zero V c _ _ ht]
  rw [PhiS1_pos V c _ _ ht, PhiA1_eq]
  iintro ⟨⟨HS, HR⟩, Hg⟩
  iframe HR Hg
  iexists _; iexact HS

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V, before1_2 V, before1_3 V, before1_4 V]
  rw [show (dat1 V c).owesAt () t.succ = (dat1 V c).owesAt () t.castSucc from rfl]
  rw [show (dat1 V c).Φ t.succ = PhiS1 V c (t.val + 1) t.isLt from rfl, PhiS1_succ]
  rw [leaves1_0 V c t, leaves1_1 V c t, leaves1_2 V c t, leaves1_3 V c t, leaves1_4 V c t]
  by_cases h0 : t.val % 196 = 0
  · have h1 : ¬t.val % 196 = 195 := by omega
    rw [Dat.leavesExact_idle (dat1 V c) 5 t (idleAt1_5 _ (fun h => h1 ((hcond1_1 t).mp h))) (noFlush1_5 t h1)]
    rw [sc1_eq V c t, if_pos h0]
    refine (sep_mono_left (Phi_out1 V c t.castSucc)).trans ?_
    rw [PhiA1_eq]
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩⟩
    iapply (run1_first c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) _ Set.univ _)
    iframe H0 H1 H2 H3 H4 H5
    isplitl [HS]; · iexists _; iexact HS
    iintro ⟨H0, H1, H2, H3, H4, H5, HS⟩
    iframe HS HR Hg Ho H0 H1 H2 H3 H4
    iexists _; iexact H5
  · rw [PhiS1_castSucc V c t, PhiS1_pos V c _ _ (by omega)]
    by_cases h1 : t.val % 196 = 195
    · rw [show (dat1 V c).leavesExact 5 t = owns (c : Thread nD τ) (ms1_5 t) fullShare ((dat1 V c).after 5 t) from by
        unfold Dat.leavesExact; rw [liveAt1_5 _ ((hcond1_1 t).mpr h1)], after1_5_flush V c t h1]
      rw [sc1_eq V c t, if_neg h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run1_last c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) _ Set.univ _)
      iframe H0 H1 H2 H3 H4 HS
      isplitl [H5]; · iexists _; iexact H5
      iintro ⟨H0, H1, H2, H3, H4, H5, HS⟩
      iframe HS HR Hg Ho H0 H1 H2 H3 H4
      iexact H5
    · rw [Dat.leavesExact_idle (dat1 V c) 5 t (idleAt1_5 _ (fun h => h1 ((hcond1_1 t).mp h))) (noFlush1_5 t h1)]
      rw [sc1_eq V c t, if_neg h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run1_mid c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _ _ Set.univ _)
      iframe H0 H1 H2 H3 H4 H5 HS
      iintro ⟨H0, H1, H2, H3, H4, H5, HS⟩
      iframe HS HR Hg Ho H0 H1 H2 H3 H4
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 :=
  Idealize.SL.BI.Entails.refl _

theorem hout1 (c : Dev nD) : (dat1 V c).Φ (Fin.last cfg1.N) ⊢ Pipeline.ΦA spec1 c :=
  Phi_out1 V c _

end Cert.Kernel.Hand

end
-- ==== Proof.K.R2Run.lean ====
import proofs.«415925_j84189948936386_1_alg».proof.Proof.Gen.Kernel.Launch
import proofs.«415925_j84189948936386_1_alg».proof.Proof.Gen.Kernel.Skeleton
import proofs.«415925_j84189948936386_1_alg».proof.Proof.KI.Whole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.KernelIdeal.Hand (off_zero readAt_unread_full read_writes_full readCov_full)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop :=
  (Scalar.cmpi .ne (Scalar.extui (Scalar.cmpi .eq (BitVec.ofNat 32 (i 1).val) 0#32)) 0#32) = 1#1

abbrev cond2_1 (i : grid2.Coords) : Prop := k2_cond2 i = 1#1

theorem coords2_1 (t : Fin cfg2.N) : ((grid2.coords t) 1).val = t.val % 25 := by
  have hs : grid2.stride 1 = 1 := by decide
  have hb : grid2.bound 1 = 25 := rfl
  show t.val / grid2.stride 1 % grid2.bound 1 = t.val % 25
  rw [hs, hb, Nat.div_one]

theorem cond2_0_iff : ∀ j : Fin 25,
    ((Scalar.cmpi .ne (Scalar.extui (Scalar.cmpi .eq (BitVec.ofNat 32 j.val) 0#32)) 0#32) = 1#1) ↔ j.val = 0 := by decide
theorem cond2_1_iff : ∀ j : Fin 25,
    ((Scalar.cmpi .ne (Scalar.extui (Scalar.cmpi .eq (BitVec.ofNat 32 j.val) 24#32)) 0#32) = 1#1) ↔ j.val = 24 := by decide

theorem hcond2_0 (t : Fin cfg2.N) : cond2_0 (grid2.coords t) ↔ t.val % 25 = 0 :=
  (cond2_0_iff (grid2.coords t 1)).trans (by rw [coords2_1 t])

theorem hcond2_1 (t : Fin cfg2.N) : cond2_1 (grid2.coords t) ↔ t.val % 25 = 24 :=
  (cond2_1_iff (grid2.coords t 1)).trans (by rw [coords2_1 t])

variable (c : Dev nD) (i : grid2.Coords) (arg2 : Memref sig .tc .vmem S2048 .i32) (harg2 : arg2.IsWhole) (arg3 : Memref sig .tc .vmem S2048 .i32) (harg3 : arg3.IsWhole) (arg4 : Memref sig .tc .vmem S1024x20 .f32) (harg4 : arg4.IsWhole) (arg5 : Memref sig .tc .vmem S40x200 .f32) (harg5 : arg5.IsWhole) (arg6 : Memref sig .tc .vmem S200 .f32) (harg6 : arg6.IsWhole) (arg7 : Memref sig .tc .vmem S200x20 .f32) (harg7 : arg7.IsWhole) (arg8 : Memref sig .tc .vmem S20 .f32) (harg8 : arg8.IsWhole) (arg9 : Memref sig .tc .vmem S20x20 .f32) (harg9 : arg9.IsWhole) (arg10 : Memref sig .tc .vmem S20 .f32) (harg10 : arg10.IsWhole) (arg11 : Memref sig .tc .vmem S2048x20 .f32) (harg11 : arg11.IsWhole) (arg12 : Memref sig .tc .vmem S2048x20 .f32) (harg12 : arg12.IsWhole) (arg13 : Memref sig .tc .vmem S2048x20 .f32) (harg13 : arg13.IsWhole)

set_option maxHeartbeats 1000000 in

theorem run2_first
    (hc0 : cond2_0 i) (hc1 : ¬cond2_1 i)
    (x0 : Vec F S2048 .i32) (x1 : Vec F S2048 .i32) (x2 : Vec F S1024x20 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2
            ∗ owns (c : Thread nD τ) arg12 fullShare (k2_pay6 i x1 x2 k2_pay2) ∗ owns (c : Thread nD τ) arg13 fullShare (k2_pay7 i x0 x2 k2_pay3)) -∗ K ⟨⟩))
      ⊢ wp frame (wpE (defs₀ (F := F)) Variants.none c none) E (cc2__gather_mlp_kernel i arg2 harg2 arg3 harg3 arg4 harg4 arg5 harg5 arg6 harg6 arg7 harg7 arg8 harg8 arg9 harg9 arg10 harg10 arg11 harg11 arg12 harg12 arg13 harg13) K := by
  sl_unfold [cc2__gather_mlp_kernel]
  unfold owns
  iintro ⟨⟨%f0, %hf0, H0⟩, ⟨%f1, %hf1, H1⟩, ⟨%f2, %hf2, H2⟩, ⟨%dI, %fI, -, HI⟩, ⟨%dJ, %fJ, -, HJ⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HI]
  · iexists _; isplitr
    swap; · iexact HI
    ipureintro
    refine (read_writes_full _ _ _ _ _).trans ?_
    sl_unfold_run_names
    rw [readAt_unread_full harg3, readAt_unread_full harg4, readCov_full]
  · iexists _; isplitr
    swap; · iexact HJ
    ipureintro
    refine (read_writes_full _ _ _ _ _).trans ?_
    sl_unfold_run_names
    rw [readAt_unread_full harg2, readAt_unread_full harg4, readCov_full]

set_option maxHeartbeats 1000000 in

theorem run2_mid
    (hc0 : ¬cond2_0 i) (hc1 : ¬cond2_1 i)
    (x0 : Vec F S2048 .i32) (x1 : Vec F S2048 .i32) (x2 : Vec F S1024x20 .f32)
    (a : Vec F S2048x20 .f32) (b : Vec F S2048x20 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg12 fullShare a ∗ owns (c : Thread nD τ) arg13 fullShare b
        ∗ (iprop(owns (c : Thread nD τ) arg2 fullShare x0 ∗ owns (c : Thread nD τ) arg3 fullShare x1 ∗ owns (c : Thread nD τ) arg4 fullShare x2
            ∗ owns (c : Thread nD τ) arg12 fullShare (k2_pay6 i x1 x2 a) ∗ owns (c : Thread nD τ) arg13 fullShare (k2_pay7 i x0 x2 b)) -∗ K ⟨⟩))
      ⊢ wp frame (wpE (defs₀ (F := F)) Variants.none c none) E (cc2__gather_mlp_kernel i arg2 harg2 arg3 harg3 arg4 harg4 arg5 harg5 arg6 harg6 arg7 harg7 arg8 harg8 arg9 harg9 arg10 harg10 arg11 harg11 arg12 harg12 arg13 harg13) K := by
  sl_unfold [cc2__gather_mlp_kernel]
  unfold owns
  iintro ⟨⟨%f0, %hf0, H0⟩, ⟨%f1, %hf1, H1⟩, ⟨%f2, %hf2, H2⟩, ⟨%fI, %hfI, HI⟩, ⟨%fJ, %hfJ, HJ⟩, Hk⟩
  obtain rfl := harg2.eq_unread hf0; obtain rfl := harg3.eq_unread hf1; obtain rfl := harg4.eq_unread hf2
  obtain rfl := harg12.eq_unread hfI; obtain rfl := harg13.eq_unread hfJ
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HI]
  · iexists _; isplitr
    swap; · iexact HI
    ipureintro
    refine (read_writes_full _ _ _ _ _).trans ?_
    sl_unfold_run_names
    rw [readAt_unread_full harg3, readAt_unread_full harg4, readAt_unread_full harg12]
  · iexists _; isplitr
    swap; · iexact HJ
    ipureintro
    refine (read_writes_full _ _ _ _ _).trans ?_
    sl_unfold_run_names
    rw [readAt_unread_full harg2, readAt_unread_full harg4, readAt_unread_full harg13]

set_option maxHeartbeats 1000000 in

theorem run2_last
    (hc0 : ¬cond2_0 i) (hc1 : cond2_1 i)
    (x0 : Vec F S2048 .i32) (x1 : Vec F S2048 .i32) (x2 : Vec F S1024x20 .f32)
    (x3 : Vec F S40x200 .f32) (x4 : Vec F S200 .f32) (x5 : Vec F S200x20 .f32) (x6 : Vec F S20 .f32) (x7 : Vec F S20x20 .f32) (x8 : Vec F S20 .f32)
    (a : Vec F S2048x20 .f32) (b : Vec F S2048x20 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8
        ∗ (∃ d, owns (c : Thread nD τ) arg11 fullShare d)
        ∗ owns (c : Thread nD τ) arg12 fullShare a ∗ owns (c : Thread nD τ) arg13 fullShare b
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare (k2_pay1 (k2_pay6 i x1 x2 a) (k2_pay7 i x0 x2 b) x3 x4 x5 x6 x7 x8)
            ∗ owns (c : Thread nD τ) arg12 fullShare (k2_pay6 i x1 x2 a) ∗ owns (c : Thread nD τ) arg13 fullShare (k2_pay7 i x0 x2 b)) -∗ K ⟨⟩))
      ⊢ wp frame (wpE (defs₀ (F := F)) Variants.none c none) E (cc2__gather_mlp_kernel i arg2 harg2 arg3 harg3 arg4 harg4 arg5 harg5 arg6 harg6 arg7 harg7 arg8 harg8 arg9 harg9 arg10 harg10 arg11 harg11 arg12 harg12 arg13 harg13) K := by
  sl_unfold [cc2__gather_mlp_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dO, %fO, -, HO⟩, ⟨%fI, %hfI, HI⟩, ⟨%fJ, %hfJ, HJ⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg12.eq_unread hfI; obtain rfl := harg13.eq_unread hfJ
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HO]
  · iexists _; isplitr
    swap; · iexact HO
    ipureintro
    refine (read_writes_full _ _ _ _ _).trans ?_
    sl_unfold_run_names
    rw [readCov_full, readCov_full, readAt_unread_full harg3, readAt_unread_full harg4, readAt_unread_full harg12, readAt_unread_full harg2, readAt_unread_full harg13, readAt_unread_full harg5, readAt_unread_full harg6, readAt_unread_full harg7, readAt_unread_full harg8, readAt_unread_full harg9, readAt_unread_full harg10]
  isplitl [HI]
  · iexists _; isplitr
    swap; · iexact HI
    ipureintro
    refine (read_writes_full _ _ _ _ _).trans ?_
    sl_unfold_run_names
    rw [readAt_unread_full harg3, readAt_unread_full harg4, readAt_unread_full harg12]
  · iexists _; isplitr
    swap; · iexact HJ
    ipureintro
    refine (read_writes_full _ _ _ _ _).trans ?_
    sl_unfold_run_names
    rw [readAt_unread_full harg2, readAt_unread_full harg4, readAt_unread_full harg13]

end Cert.Kernel.Hand
end
-- ==== Proof.K.R2Dat.lean ====
import proofs.«415925_j84189948936386_1_alg».proof.Proof.K.R2Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev ms2_0 (t : Fin cfg2.N) : Memref sig .tc .vmem S2048 .i32 := (cfg2.win 0).stage (cfg2.slots t 0)
abbrev hs2_0 (t : Fin cfg2.N) : (ms2_0 t).IsWhole := hstage2_0 ((cfg2.slots t 0).cast nbuf2_0)
abbrev ms2_1 (t : Fin cfg2.N) : Memref sig .tc .vmem S2048 .i32 := (cfg2.win 1).stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x20 .f32 := (cfg2.win 2).stage (cfg2.slots t 2)
abbrev hs2_2 (t : Fin cfg2.N) : (ms2_2 t).IsWhole := hstage2_2 ((cfg2.slots t 2).cast nbuf2_2)
abbrev ms2_3 (t : Fin cfg2.N) : Memref sig .tc .vmem S40x200 .f32 := (cfg2.win 3).stage (cfg2.slots t 3)
abbrev hs2_3 (t : Fin cfg2.N) : (ms2_3 t).IsWhole := hstage2_3 ((cfg2.slots t 3).cast nbuf2_3)
abbrev ms2_4 (t : Fin cfg2.N) : Memref sig .tc .vmem S200 .f32 := (cfg2.win 4).stage (cfg2.slots t 4)
abbrev hs2_4 (t : Fin cfg2.N) : (ms2_4 t).IsWhole := hstage2_4 ((cfg2.slots t 4).cast nbuf2_4)
abbrev ms2_5 (t : Fin cfg2.N) : Memref sig .tc .vmem S200x20 .f32 := (cfg2.win 5).stage (cfg2.slots t 5)
abbrev hs2_5 (t : Fin cfg2.N) : (ms2_5 t).IsWhole := hstage2_5 ((cfg2.slots t 5).cast nbuf2_5)
abbrev ms2_6 (t : Fin cfg2.N) : Memref sig .tc .vmem S20 .f32 := (cfg2.win 6).stage (cfg2.slots t 6)
abbrev hs2_6 (t : Fin cfg2.N) : (ms2_6 t).IsWhole := hstage2_6 ((cfg2.slots t 6).cast nbuf2_6)
abbrev ms2_7 (t : Fin cfg2.N) : Memref sig .tc .vmem S20x20 .f32 := (cfg2.win 7).stage (cfg2.slots t 7)
abbrev hs2_7 (t : Fin cfg2.N) : (ms2_7 t).IsWhole := hstage2_7 ((cfg2.slots t 7).cast nbuf2_7)
abbrev ms2_8 (t : Fin cfg2.N) : Memref sig .tc .vmem S20 .f32 := (cfg2.win 8).stage (cfg2.slots t 8)
abbrev hs2_8 (t : Fin cfg2.N) : (ms2_8 t).IsWhole := hstage2_8 ((cfg2.slots t 8).cast nbuf2_8)
abbrev ms2_9 (t : Fin cfg2.N) : Memref sig .tc .vmem S2048x20 .f32 := (cfg2.win 9).stage (cfg2.slots t 9)
abbrev hs2_9 (t : Fin cfg2.N) : (ms2_9 t).IsWhole := hstage2_9 ((cfg2.slots t 9).cast nbuf2_9)

abbrev scM2_0 : Memref sig .tc .vmem S2048x20 .f32 := Memref.whole cc2_scratch0
abbrev scM2_1 : Memref sig .tc .vmem S2048x20 .f32 := Memref.whole cc2_scratch1

def scI2 (c : Dev nD) : (n : ℕ) → n < cfg2.N → Vec F S2048x20 .f32
  | 0, hn => k2_pay6 (grid2.coords ⟨0, hn⟩) (iblk2 V c 1 ⟨0, hn⟩) (iblk2 V c 2 ⟨0, hn⟩) k2_pay2
  | n + 1, hn => k2_pay6 (grid2.coords ⟨n + 1, hn⟩) (iblk2 V c 1 ⟨n + 1, hn⟩) (iblk2 V c 2 ⟨n + 1, hn⟩)
      (if (n + 1) % 25 = 0 then k2_pay2 else scI2 c n (Nat.lt_of_succ_lt hn))

def scJ2 (c : Dev nD) : (n : ℕ) → n < cfg2.N → Vec F S2048x20 .f32
  | 0, hn => k2_pay7 (grid2.coords ⟨0, hn⟩) (iblk2 V c 0 ⟨0, hn⟩) (iblk2 V c 2 ⟨0, hn⟩) k2_pay3
  | n + 1, hn => k2_pay7 (grid2.coords ⟨n + 1, hn⟩) (iblk2 V c 0 ⟨n + 1, hn⟩) (iblk2 V c 2 ⟨n + 1, hn⟩)
      (if (n + 1) % 25 = 0 then k2_pay3 else scJ2 c n (Nat.lt_of_succ_lt hn))

theorem scI2_eq (c : Dev nD) (t : Fin cfg2.N) :
    scI2 V c t.val t.isLt = k2_pay6 (grid2.coords t) (iblk2 V c 1 t) (iblk2 V c 2 t)
      (if t.val % 25 = 0 then k2_pay2 else scI2 V c (t.val - 1) (Nat.lt_of_le_of_lt (Nat.sub_le _ _) t.isLt)) := by
  obtain ⟨n, hn⟩ := t
  cases n with
  | zero => exact (congrArg (k2_pay6 _ _ _) (if_pos (Nat.zero_mod 25)).symm)
  | succ n => rfl

theorem scJ2_eq (c : Dev nD) (t : Fin cfg2.N) :
    scJ2 V c t.val t.isLt = k2_pay7 (grid2.coords t) (iblk2 V c 0 t) (iblk2 V c 2 t)
      (if t.val % 25 = 0 then k2_pay3 else scJ2 V c (t.val - 1) (Nat.lt_of_le_of_lt (Nat.sub_le _ _) t.isLt)) := by
  obtain ⟨n, hn⟩ := t
  cases n with
  | zero => exact (congrArg (k2_pay7 _ _ _) (if_pos (Nat.zero_mod 25)).symm)
  | succ n => rfl

abbrev rest2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c)
          ∗ (∃ r, prngReg c r)) := by
  unfold Pipeline.ΦA; rw [scopedRest2_split]; simp only [scM2_0, scM2_1, owns_whole]; try rfl

def PhiS2 (c : Dev nD) : (n : ℕ) → n ≤ cfg2.N → sProp 𝕄
  | 0, _ => Pipeline.ΦA spec2 c
  | n + 1, hn => iprop(iprop(iprop(owns (c : Thread nD τ) scM2_0 fullShare (scI2 V c n hn) ∗ owns (c : Thread nD τ) scM2_1 fullShare (scJ2 V c n hn)) ∗ rest2 c)
      ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (scI2 V c n hn) ∗ owns (c : Thread nD τ) scM2_1 fullShare (scJ2 V c n hn)) ∗ rest2 c)
      ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (scI2 V c (n - 1) (by omega)) ∗ owns (c : Thread nD τ) scM2_1 fullShare (scJ2 V c (n - 1) (by omega))) ∗ rest2 c)
      ∗ (∃ r, prngReg c r)) := by
  cases n with
  | zero => exact absurd rfl hz
  | succ n => rfl

theorem PhiS2_weak (c : Dev nD) (n : ℕ) (h : n ≤ cfg2.N) : PhiS2 V c n h ⊢ Pipeline.ΦA spec2 c := by
  cases n with
  | zero => exact Idealize.SL.BI.Entails.refl _
  | succ n =>
    rw [PhiS2_succ, PhiA2_eq]
    iintro ⟨⟨⟨HI, HJ⟩, HR⟩, Hg⟩
    isplitl [HI HJ HR]
    · isplitl [HI HJ]
      · isplitl [HI]; · iexists _; iexact HI
        iexists _; iexact HJ
      iexact HR
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => k2_pay1 (scI2 V c t.val t.isLt) (scJ2 V c t.val t.isLt) (iblk2 V c 3 t) (iblk2 V c 4 t) (iblk2 V c 5 t) (iblk2 V c 6 t) (iblk2 V c 7 t) (iblk2 V c 8 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_9 (c : Dev nD) (t : Fin cfg2.N) : (dat2 V c).after 9 t = k2_pay1 (scI2 V c t.val t.isLt) (scJ2 V c t.val t.isLt) (iblk2 V c 3 t) (iblk2 V c 4 t) (iblk2 V c 5 t) (iblk2 V c 6 t) (iblk2 V c 7 t) (iblk2 V c 8 t) := by dsimp only [dat2]

theorem after2_9_flush (c : Dev nD) (t : Fin cfg2.N) (h : t.val % 25 = 24) : (dat2 V c).after 9 t = k2_pay1 (scI2 V c t.val t.isLt) (scJ2 V c t.val t.isLt) (iblk2 V c 3 t) (iblk2 V c 4 t) (iblk2 V c 5 t) (iblk2 V c 6 t) (iblk2 V c 7 t) (iblk2 V c 8 t) :=
  after2_9 V c t

theorem before2_in (c : Dev nD) (w : Fin cfg2.W) (hw : w ≠ 9) (t : Fin cfg2.N) (d) : (dat2 V c).before w t d = (dat2 V c).after w t := by
  fin_cases w <;> first
    | exact absurd rfl hw
    | exact (dat2 V c).before_in_eq_fetched _ rfl (fun _ => rfl) (fun _ _ _ => rfl) (fun _ => rfl) t d

theorem leaves2_in (c : Dev nD) (w : Fin cfg2.W) (hw : w ≠ 9) (t : Fin cfg2.N) :
    (dat2 V c).leavesExact w t = owns (c : Thread nD τ) ((cfg2.win w).stage (cfg2.slots t w)) fullShare ((dat2 V c).after w t) := by
  fin_cases w <;> first | exact absurd rfl hw | rfl

theorem idle2_9 (i : grid2.Coords) (h : ¬cond2_1 i) : cfg2.idle 9 i = true := by
  show (!(k2_cond2 i == 1#1)) = true
  rw [Bool.not_eq_true', beq_eq_false_iff_ne]; exact h

theorem live2_9 (i : grid2.Coords) (h : cond2_1 i) : cfg2.idle 9 i = false := by
  show (!(k2_cond2 i == 1#1)) = false
  rw [Bool.not_eq_false', beq_iff_eq]; exact h

theorem noFlush2_9 (t : Fin cfg2.N) (h : ¬t.val % 25 = 24) : (cfg2.win 9).flush t = false := by
  have hN : grid2.N = 4900 := N_2
  have ht : t.val < 4900 := lt_of_lt_of_eq t.isLt hN
  have hs : grid2.stride 0 = 25 := by decide
  have hidx : ∀ h1 : t.val + 1 < grid2.N, win2_9.index ⟨t.val + 1, h1⟩ = win2_9.index t := fun h1 =>
    hreads2_9 _ _ (Fin.forall_fin_two.mpr ⟨fun _ => Fin.ext (by
      show (t.val + 1) / grid2.stride 0 % grid2.bound 0 = t.val / grid2.stride 0 % grid2.bound 0
      rw [hs]; congr 1; omega), fun ha => absurd ha (by decide)⟩)
  show (win2_9.isOut && (decide (t.val + 1 = grid2.N) || decide (∃ h1 : t.val + 1 < grid2.N, win2_9.index ⟨t.val + 1, h1⟩ ≠ win2_9.index t))) = false
  rw [Bool.and_eq_false_iff]; right
  rw [Bool.or_eq_false_iff]
  exact ⟨decide_eq_false (by omega), decide_eq_false fun ⟨h1, hne⟩ => hne (hidx h1)⟩

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 4800000 in
theorem sound_body2 (c : Dev nD) (t : Fin cfg2.N) :
    bodyPre2 V c t ⊢ wp frame (wpE (defs₀ (F := F)) Variants.none c none) Set.univ (cc2__gather_mlp_kernel (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _)) (fun _ => bodyPost2 V c t) := by
  unfold bodyPre2 bodyPost2
  simp (config := {decide := true}) only [before2_in]
  rw [show (dat2 V c).owesAt () t.succ = (dat2 V c).owesAt () t.castSucc from rfl]
  rw [show (dat2 V c).Φ t.succ = PhiS2 V c (t.val + 1) t.isLt from rfl, PhiS2_succ]
  simp (config := {decide := true}) only [leaves2_in]
  rw [scI2_eq V c t, scJ2_eq V c t]
  by_cases h0 : t.val % 25 = 0
  · have h1 : ¬t.val % 25 = 24 := by omega
    have hc0 : cond2_0 (grid2.coords t) := (hcond2_0 t).mpr h0
    have hc1 : ¬cond2_1 (grid2.coords t) := fun h => h1 ((hcond2_1 t).mp h)
    rw [Dat.leavesExact_idle (dat2 V c) 9 t (idle2_9 _ hc1) (noFlush2_9 t h1), if_pos h0, if_pos h0, PhiS2_castSucc V c t]
    refine (sep_mono_left (PhiS2_weak V c _ _)).trans ?_
    rw [PhiA2_eq]
    iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run2_first c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0 hc1 ((dat2 V c).after 0 t) ((dat2 V c).after 1 t) ((dat2 V c).after 2 t) Set.univ _)
    iframe H0 H1 H2 HI HJ
    iintro ⟨H0, H1, H2, HI, HJ⟩
    iframe
    isplitl [HI HJ]
    · isplitl [HI]; · iexact HI
      iexact HJ
    iexists _; iexact H9
  · have hz : t.val ≠ 0 := fun e => h0 (by rw [e])
    have hc0 : ¬cond2_0 (grid2.coords t) := fun h => h0 ((hcond2_0 t).mp h)
    rw [if_neg h0, if_neg h0, PhiS2_castSucc V c t, PhiS2_pos V c _ _ hz]
    by_cases h1 : t.val % 25 = 24
    · have hc1 : cond2_1 (grid2.coords t) := (hcond2_1 t).mpr h1
      rw [show (dat2 V c).leavesExact 9 t = owns (c : Thread nD τ) (ms2_9 t) fullShare ((dat2 V c).after 9 t) from by
        unfold Dat.leavesExact; rw [live2_9 _ hc1], after2_9, scI2_eq V c t, scJ2_eq V c t, if_neg h0, if_neg h0]
      iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run2_last c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0 hc1 ((dat2 V c).after 0 t) ((dat2 V c).after 1 t) ((dat2 V c).after 2 t) ((dat2 V c).after 3 t) ((dat2 V c).after 4 t) ((dat2 V c).after 5 t) ((dat2 V c).after 6 t) ((dat2 V c).after 7 t) ((dat2 V c).after 8 t) (scI2 V c (t.val - 1) (Nat.lt_of_le_of_lt (Nat.sub_le _ _) t.isLt)) (scJ2 V c (t.val - 1) (Nat.lt_of_le_of_lt (Nat.sub_le _ _) t.isLt)) Set.univ _)
      iframe H0 H1 H2 H3 H4 H5 H6 H7 H8
      isplitl [H9]; · iexists _; iexact H9
      iframe HI HJ
      iintro ⟨H0, H1, H2, H3, H4, H5, H6, H7, H8, H9, HI, HJ⟩
      iframe
      isplitl [HI HJ]
      · isplitl [HI]; · iexact HI
        iexact HJ
      iexact H9
    · have hc1 : ¬cond2_1 (grid2.coords t) := fun h => h1 ((hcond2_1 t).mp h)
      rw [Dat.leavesExact_idle (dat2 V c) 9 t (idle2_9 _ hc1) (noFlush2_9 t h1)]
      iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run2_mid c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0 hc1 ((dat2 V c).after 0 t) ((dat2 V c).after 1 t) ((dat2 V c).after 2 t) (scI2 V c (t.val - 1) (Nat.lt_of_le_of_lt (Nat.sub_le _ _) t.isLt)) (scJ2 V c (t.val - 1) (Nat.lt_of_le_of_lt (Nat.sub_le _ _) t.isLt)) Set.univ _)
      iframe H0 H1 H2 HI HJ
      iintro ⟨H0, H1, H2, HI, HJ⟩
      iframe
      isplitl [HI HJ]
      · isplitl [HI]; · iexact HI
        iexact HJ
      iexists _; iexact H9

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c :=
  PhiS2_weak V c (Fin.last cfg2.N).val (Nat.le_of_lt_succ (Fin.last cfg2.N).isLt)

end Cert.Kernel.Hand
end
-- ==== Proof.K.R3Run.lean ====
import proofs.«415925_j84189948936386_1_alg».proof.Proof.Gen.Kernel.Launch
import proofs.«415925_j84189948936386_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.WholeRead
import Idealize.ShloMosaic.Lib.WritesUnit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem read_writes_whole3 {sg : RefSig} {κ : Kind} {sp : Space} {s : Shape} {e : EltTy} {Val : EltTy → Type}
    (v : View sg κ sp s e) (f : v.ty.Contents Val) {off : Fin s.rank → ℕ} (inb : ∀ a, off a + s.size a ≤ s.size a)
    (w : s.Idx → Val e) (L : List (View.Piece Val s e)) :
    v.read Val (v.writes Val f ((⟨Rect.unit off s.size inb, w⟩ : View.Piece Val s e) :: L)) = w :=
  funext fun y => View.read_writes_cons_unit_of_mem v f inb w L y y rfl fun a => by have := inb a; omega

theorem readAt_whole3 {sg : RefSig} {κ : Kind} {sp : Space} {s : Shape} {e : EltTy} {Val : EltTy → Type}
    {m : Memref sg κ sp s e} (h : m.IsWhole) (X : s.Idx → Val e) {off : Fin s.rank → ℕ}
    (inb : ∀ a, off a + s.size a ≤ s.size a) :
    m.view.readAt Val (Rect.unit off s.size inb).toLoadRect (h.unread X) = X :=
  funext fun x => (h.readAt_unread X _ x).trans (congrArg X (funext fun a => Fin.ext (by
    show off a + 1 * (x a).val = (x a).val
    have := inb a; omega)))

theorem coords3_1 (t : Fin cfg3.N) : ((grid3.coords t) 1).val = t.val % 196 := by
  have hs : grid3.stride 1 = 1 := by decide
  have hb : grid3.bound 1 = 196 := rfl
  show t.val / grid3.stride 1 % grid3.bound 1 = t.val % 196
  rw [hs, hb, Nat.div_one]

theorem coords3_0 (t : Fin cfg3.N) : ((grid3.coords t) 0).val = t.val / 196 % 25 := by
  have hs : grid3.stride 0 = 196 := by decide
  have hb : grid3.bound 0 = 25 := rfl
  show t.val / grid3.stride 0 % grid3.bound 0 = t.val / 196 % 25
  rw [hs, hb]

abbrev cond3_0 (i : grid3.Coords) : Prop :=
  (Scalar.cmpi .ne (Scalar.extui (Scalar.cmpi .eq (BitVec.ofNat 32 (i 1).val) 0#32)) 0#32) = 1#1

abbrev cond3_1 (i : grid3.Coords) : Prop := k3_cond2 i = 1#1

theorem cond3_0_iff : ∀ j : Fin 196,
    ((Scalar.cmpi .ne (Scalar.extui (Scalar.cmpi .eq (BitVec.ofNat 32 j.val) 0#32)) 0#32) = 1#1) ↔ j.val = 0 := by decide +kernel
theorem cond3_1_iff : ∀ j : Fin 196,
    ((Scalar.cmpi .ne (Scalar.extui (Scalar.cmpi .eq (BitVec.ofNat 32 j.val) 195#32)) 0#32) = 1#1) ↔ j.val = 195 := by decide +kernel

theorem hcond3_0 (t : Fin cfg3.N) : cond3_0 (grid3.coords t) ↔ t.val % 196 = 0 :=
  (cond3_0_iff (grid3.coords t 1)).trans (by rw [coords3_1 t])

theorem hcond3_1 (t : Fin cfg3.N) : cond3_1 (grid3.coords t) ↔ t.val % 196 = 195 :=
  (cond3_1_iff (grid3.coords t 1)).trans (by rw [coords3_1 t])

theorem idleAt3_5 (i : grid3.Coords) (h : ¬cond3_1 i) : cfg3.idle 5 i = true := by
  show (!(k3_cond2 i == 1#1)) = true
  rw [show (k3_cond2 i == 1#1) = false from beq_false_of_ne h]; rfl

theorem liveAt3_5 (i : grid3.Coords) (h : cond3_1 i) : cfg3.idle 5 i = false := by
  show (!(k3_cond2 i == 1#1)) = false
  rw [show (k3_cond2 i == 1#1) = true from beq_iff_eq.mpr h]; rfl

theorem noFlush3_5 (t : Fin cfg3.N) (h : ¬t.val % 196 = 195) : (cfg3.win 5).flush t = false := by
  have hN : grid3.N = 4900 := N_3
  have ht : t.val < 4900 := lt_of_lt_of_eq t.isLt hN
  have hidx : ∀ hlt : t.val + 1 < grid3.N, (cfg3.win 5).index ⟨t.val + 1, hlt⟩ = (cfg3.win 5).index t := fun hlt => by
    have e : grid3.coords ⟨t.val + 1, hlt⟩ 0 = grid3.coords t 0 :=
      Fin.ext ((coords3_0 ⟨t.val + 1, hlt⟩).trans (Eq.trans (by
        show (t.val + 1) / 196 % 25 = t.val / 196 % 25
        omega) (coords3_0 t).symm))
    show cc3_transform_5 (grid3.coords ⟨t.val + 1, hlt⟩) = cc3_transform_5 (grid3.coords t)
    unfold cc3_transform_5; rw [e]
  refine Bool.eq_false_iff.mpr fun hf => ?_
  simp only [Pipeline.Window.flush, Bool.and_eq_true, Bool.or_eq_true, decide_eq_true_eq] at hf
  rcases hf with ⟨-, hlast | ⟨hlt, hne⟩⟩
  · omega
  · exact hne (hidx hlt)

variable (c : Dev nD) (i : grid3.Coords) (arg2 : Memref sig .tc .vmem S2048 .i32) (harg2 : arg2.IsWhole) (arg3 : Memref sig .tc .vmem S2048x20 .f32) (harg3 : arg3.IsWhole) (arg4 : Memref sig .tc .vmem S1024x20 .f32) (harg4 : arg4.IsWhole) (arg5 : Memref sig .tc .vmem S20x20 .f32) (harg5 : arg5.IsWhole) (arg6 : Memref sig .tc .vmem S20 .f32) (harg6 : arg6.IsWhole) (arg7 : Memref sig .tc .vmem S1024x20 .f32) (harg7 : arg7.IsWhole) (arg8 : Memref sig .tc .vmem S1024x20 .f32) (harg8 : arg8.IsWhole)

set_option maxHeartbeats 1000000 in

theorem run3_first
    (hc0 : cond3_0 i) (hc1 : ¬cond3_1 i) (x0 : Vec F S2048 .i32) (x1 : Vec F S2048x20 .f32) (x2 : Vec F S1024x20 .f32) (x3 : Vec F S20x20 .f32) (x4 : Vec F S20 .f32) (xi5 : Vec F S1024x20 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (k3_pay2 i x0 x1 (k3_pay1 (F := F)))) -∗ K ⟨⟩))
      ⊢ wp frame (wpE (defs₀ (F := F)) Variants.none c none) E (cc3__scatter_residual_kernel i arg2 harg2 arg3 harg3 arg4 harg4 arg5 harg5 arg6 harg6 arg7 harg7 arg8 harg8) K := by
  simp only [cc3__scatter_residual_kernel_eq_skeleton]; unfold cc3__scatter_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  refine (read_writes_whole3 _ _ _ _ _).trans ?_
  rw [readAt_whole3 harg2, readAt_whole3 harg3]
  refine congrArg (k3_pay2 i x0 x1) ?_
  unfold run3_first.sl.v18 run3_first.sl.HS_1
  exact View.readCov_cons_toLoadRect _ _ _ _

set_option maxHeartbeats 1000000 in

theorem run3_mid
    (hc0 : ¬cond3_0 i) (hc1 : ¬cond3_1 i) (x0 : Vec F S2048 .i32) (x1 : Vec F S2048x20 .f32) (x2 : Vec F S1024x20 .f32) (x3 : Vec F S20x20 .f32) (x4 : Vec F S20 .f32) (xi5 : Vec F S1024x20 .f32) (xs : Vec F S1024x20 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (k3_pay2 i x0 x1 xs)) -∗ K ⟨⟩))
      ⊢ wp frame (wpE (defs₀ (F := F)) Variants.none c none) E (cc3__scatter_residual_kernel i arg2 harg2 arg3 harg3 arg4 harg4 arg5 harg5 arg6 harg6 arg7 harg7 arg8 harg8) K := by
  simp only [cc3__scatter_residual_kernel_eq_skeleton]; unfold cc3__scatter_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf5; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  refine (read_writes_whole3 _ _ _ _ _).trans ?_
  rw [readAt_whole3 harg2, readAt_whole3 harg3, readAt_whole3 harg8]

set_option maxHeartbeats 1000000 in

theorem run3_last
    (hc0 : ¬cond3_0 i) (hc1 : cond3_1 i) (x0 : Vec F S2048 .i32) (x1 : Vec F S2048x20 .f32) (x2 : Vec F S1024x20 .f32) (x3 : Vec F S20x20 .f32) (x4 : Vec F S20 .f32) (xs : Vec F S1024x20 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k3_pay3 x2 x3 x4 (k3_pay2 i x0 x1 xs))
            ∗ owns (c : Thread nD τ) arg8 fullShare (k3_pay2 i x0 x1 xs)) -∗ K ⟨⟩))
      ⊢ wp frame (wpE (defs₀ (F := F)) Variants.none c none) E (cc3__scatter_residual_kernel i arg2 harg2 arg3 harg3 arg4 harg4 arg5 harg5 arg6 harg6 arg7 harg7 arg8 harg8) K := by
  simp only [cc3__scatter_residual_kernel_eq_skeleton]; unfold cc3__scatter_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (read_writes_whole3 _ _ _ _ _).trans ?_
    rw [readAt_whole3 harg4, readAt_whole3 harg5, readAt_whole3 harg6]
    refine congrArg (k3_pay3 x2 x3 x4) ?_
    unfold run3_last.sl.v37
    refine (View.readCov_cons_toLoadRect _ _ _ _).trans ?_
    rw [readAt_whole3 harg2, readAt_whole3 harg3, readAt_whole3 harg8]
  iexists _; isplitr
  swap; · iexact HS
  ipureintro
  refine (read_writes_whole3 _ _ _ _ _).trans ?_
  rw [readAt_whole3 harg2, readAt_whole3 harg3, readAt_whole3 harg8]

end Cert.Kernel.Hand

end
-- ==== Proof.K.R3Dat.lean ====
import proofs.«415925_j84189948936386_1_alg».proof.Proof.K.R3Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def sc3 (c : Dev nD) : (n : ℕ) → n < cfg3.N → Vec F S1024x20 .f32
  | 0, hn => k3_pay2 (grid3.coords ⟨0, hn⟩) (iblk3 V c 0 ⟨0, hn⟩) (iblk3 V c 1 ⟨0, hn⟩) (k3_pay1 (F := F))
  | n + 1, hn => k3_pay2 (grid3.coords ⟨n + 1, hn⟩) (iblk3 V c 0 ⟨n + 1, hn⟩) (iblk3 V c 1 ⟨n + 1, hn⟩)
      (if (n + 1) % 196 = 0 then k3_pay1 (F := F) else sc3 c n (Nat.lt_of_succ_lt hn))

theorem sc3_eq (c : Dev nD) (t : Fin cfg3.N) :
    sc3 V c t.val t.isLt = k3_pay2 (grid3.coords t) (iblk3 V c 0 t) (iblk3 V c 1 t)
      (if t.val % 196 = 0 then k3_pay1 (F := F) else sc3 V c (t.val - 1) (Nat.lt_of_le_of_lt (Nat.sub_le _ _) t.isLt)) := by
  obtain ⟨n, hn⟩ := t
  cases n with
  | zero => exact (congrArg (k3_pay2 (grid3.coords ⟨0, hn⟩) (iblk3 V c 0 ⟨0, hn⟩) (iblk3 V c 1 ⟨0, hn⟩)) (if_pos (Nat.zero_mod 196)).symm)
  | succ n => exact rfl

abbrev scM3 : Memref sig .tc .vmem S1024x20 .f32 := Memref.whole cc3_scratch0

theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

def PhiS3 (c : Dev nD) : (n : ℕ) → n ≤ cfg3.N → sProp 𝕄
  | 0, _ => Pipeline.ΦA spec3 c
  | n + 1, hn => iprop(iprop(owns (c : Thread nD τ) scM3 fullShare (sc3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (sc3 V c n hn) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare (sc3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay3 (iblk3 V c 2 t) (iblk3 V c 3 t) (iblk3 V c 4 t) (sc3 V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := rfl

theorem after3_5_flush (c : Dev nD) (t : Fin cfg3.N) (h : t.val % 196 = 195) :
    (dat3 V c).after 5 t = k3_pay3 (iblk3 V c 2 t) (iblk3 V c 3 t) (iblk3 V c 4 t) (sc3 V c t.val t.isLt) := by
  dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d

abbrev ms3_0 (t : Fin cfg3.N) : Memref sig .tc .vmem S2048 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x20 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x20 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S20x20 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S20 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x20 .f32 := win3_5.stage (cfg3.slots t 5)
abbrev hs3_5 (t : Fin cfg3.N) : (ms3_5 t).IsWhole := hstage3_5 ((cfg3.slots t 5).cast nbuf3_5)

abbrev bodyAt3 (t : Fin cfg3.N) : Prog (TpuEff nD τ sig (Elt F) Λ₀ .tc) PUnit :=
  cc3__scatter_residual_kernel (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _)

theorem leaves3_0 (c : Dev nD) (t : Fin cfg3.N) :
    (dat3 V c).leavesExact 0 t = owns (c : Thread nD τ) (ms3_0 t) fullShare (iblk3 V c 0 t) := rfl
theorem leaves3_1 (c : Dev nD) (t : Fin cfg3.N) :
    (dat3 V c).leavesExact 1 t = owns (c : Thread nD τ) (ms3_1 t) fullShare (iblk3 V c 1 t) := rfl
theorem leaves3_2 (c : Dev nD) (t : Fin cfg3.N) :
    (dat3 V c).leavesExact 2 t = owns (c : Thread nD τ) (ms3_2 t) fullShare (iblk3 V c 2 t) := rfl
theorem leaves3_3 (c : Dev nD) (t : Fin cfg3.N) :
    (dat3 V c).leavesExact 3 t = owns (c : Thread nD τ) (ms3_3 t) fullShare (iblk3 V c 3 t) := rfl
theorem leaves3_4 (c : Dev nD) (t : Fin cfg3.N) :
    (dat3 V c).leavesExact 4 t = owns (c : Thread nD τ) (ms3_4 t) fullShare (iblk3 V c 4 t) := rfl

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

theorem Phi_out3 (c : Dev nD) (t : Fin (cfg3.N + 1)) : (dat3 V c).Φ t ⊢ Pipeline.ΦA spec3 c := by
  rw [show (dat3 V c).Φ t = PhiS3 V c t.val (Nat.le_of_lt_succ t.isLt) from rfl]
  by_cases ht : t.val = 0
  · rw [PhiS3_zero V c _ _ ht]
  rw [PhiS3_pos V c _ _ ht, PhiA3_eq]
  iintro ⟨⟨HS, HR⟩, Hg⟩
  iframe HR Hg
  iexists _; iexact HS

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0 V, before3_1 V, before3_2 V, before3_3 V, before3_4 V]
  rw [show (dat3 V c).owesAt () t.succ = (dat3 V c).owesAt () t.castSucc from rfl]
  rw [show (dat3 V c).Φ t.succ = PhiS3 V c (t.val + 1) t.isLt from rfl, PhiS3_succ]
  rw [leaves3_0 V c t, leaves3_1 V c t, leaves3_2 V c t, leaves3_3 V c t, leaves3_4 V c t]
  by_cases h0 : t.val % 196 = 0
  · have h1 : ¬t.val % 196 = 195 := by omega
    rw [Dat.leavesExact_idle (dat3 V c) 5 t (idleAt3_5 _ (fun h => h1 ((hcond3_1 t).mp h))) (noFlush3_5 t h1)]
    rw [sc3_eq V c t, if_pos h0]
    refine (sep_mono_left (Phi_out3 V c t.castSucc)).trans ?_
    rw [PhiA3_eq]
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩⟩
    iapply (run3_first c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) ((hcond3_0 t).mpr h0) (fun h => h1 ((hcond3_1 t).mp h)) (iblk3 V c 0 t) (iblk3 V c 1 t) (iblk3 V c 2 t) (iblk3 V c 3 t) (iblk3 V c 4 t) _ Set.univ _)
    iframe H0 H1 H2 H3 H4 H5
    isplitl [HS]; · iexists _; iexact HS
    iintro ⟨H0, H1, H2, H3, H4, H5, HS⟩
    iframe HS HR Hg Ho H0 H1 H2 H3 H4
    iexists _; iexact H5
  · rw [PhiS3_castSucc V c t, PhiS3_pos V c _ _ (by omega)]
    by_cases h1 : t.val % 196 = 195
    · rw [show (dat3 V c).leavesExact 5 t = owns (c : Thread nD τ) (ms3_5 t) fullShare ((dat3 V c).after 5 t) from by
        unfold Dat.leavesExact; rw [liveAt3_5 _ ((hcond3_1 t).mpr h1)], after3_5_flush V c t h1]
      rw [sc3_eq V c t, if_neg h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run3_last c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) ((hcond3_1 t).mpr h1) (iblk3 V c 0 t) (iblk3 V c 1 t) (iblk3 V c 2 t) (iblk3 V c 3 t) (iblk3 V c 4 t) _ Set.univ _)
      iframe H0 H1 H2 H3 H4 HS
      isplitl [H5]; · iexists _; iexact H5
      iintro ⟨H0, H1, H2, H3, H4, H5, HS⟩
      iframe HS HR Hg Ho H0 H1 H2 H3 H4
      iexact H5
    · rw [Dat.leavesExact_idle (dat3 V c) 5 t (idleAt3_5 _ (fun h => h1 ((hcond3_1 t).mp h))) (noFlush3_5 t h1)]
      rw [sc3_eq V c t, if_neg h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run3_mid c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) _ _ Set.univ _)
      iframe H0 H1 H2 H3 H4 H5 HS
      iintro ⟨H0, H1, H2, H3, H4, H5, HS⟩
      iframe HS HR Hg Ho H0 H1 H2 H3 H4
      iexists _; iexact H5

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 :=
  Idealize.SL.BI.Entails.refl _

theorem hout3 (c : Dev nD) : (dat3 V c).Φ (Fin.last cfg3.N) ⊢ Pipeline.ΦA spec3 c :=
  Phi_out3 V c _

end Cert.Kernel.Hand

end
-- ==== Proof.K.R4Dat.lean ====
import proofs.«415925_j84189948936386_1_alg».proof.Proof.K.R2Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev ms4_0 (t : Fin cfg4.N) : Memref sig .tc .vmem S2048 .i32 := (cfg4.win 0).stage (cfg4.slots t 0)
abbrev hs4_0 (t : Fin cfg4.N) : (ms4_0 t).IsWhole := hstage4_0 ((cfg4.slots t 0).cast nbuf4_0)
abbrev ms4_1 (t : Fin cfg4.N) : Memref sig .tc .vmem S2048 .i32 := (cfg4.win 1).stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x20 .f32 := (cfg4.win 2).stage (cfg4.slots t 2)
abbrev hs4_2 (t : Fin cfg4.N) : (ms4_2 t).IsWhole := hstage4_2 ((cfg4.slots t 2).cast nbuf4_2)
abbrev ms4_3 (t : Fin cfg4.N) : Memref sig .tc .vmem S40x200 .f32 := (cfg4.win 3).stage (cfg4.slots t 3)
abbrev hs4_3 (t : Fin cfg4.N) : (ms4_3 t).IsWhole := hstage4_3 ((cfg4.slots t 3).cast nbuf4_3)
abbrev ms4_4 (t : Fin cfg4.N) : Memref sig .tc .vmem S200 .f32 := (cfg4.win 4).stage (cfg4.slots t 4)
abbrev hs4_4 (t : Fin cfg4.N) : (ms4_4 t).IsWhole := hstage4_4 ((cfg4.slots t 4).cast nbuf4_4)
abbrev ms4_5 (t : Fin cfg4.N) : Memref sig .tc .vmem S200x20 .f32 := (cfg4.win 5).stage (cfg4.slots t 5)
abbrev hs4_5 (t : Fin cfg4.N) : (ms4_5 t).IsWhole := hstage4_5 ((cfg4.slots t 5).cast nbuf4_5)
abbrev ms4_6 (t : Fin cfg4.N) : Memref sig .tc .vmem S20 .f32 := (cfg4.win 6).stage (cfg4.slots t 6)
abbrev hs4_6 (t : Fin cfg4.N) : (ms4_6 t).IsWhole := hstage4_6 ((cfg4.slots t 6).cast nbuf4_6)
abbrev ms4_7 (t : Fin cfg4.N) : Memref sig .tc .vmem S20x20 .f32 := (cfg4.win 7).stage (cfg4.slots t 7)
abbrev hs4_7 (t : Fin cfg4.N) : (ms4_7 t).IsWhole := hstage4_7 ((cfg4.slots t 7).cast nbuf4_7)
abbrev ms4_8 (t : Fin cfg4.N) : Memref sig .tc .vmem S20 .f32 := (cfg4.win 8).stage (cfg4.slots t 8)
abbrev hs4_8 (t : Fin cfg4.N) : (ms4_8 t).IsWhole := hstage4_8 ((cfg4.slots t 8).cast nbuf4_8)
abbrev ms4_9 (t : Fin cfg4.N) : Memref sig .tc .vmem S2048x20 .f32 := (cfg4.win 9).stage (cfg4.slots t 9)
abbrev hs4_9 (t : Fin cfg4.N) : (ms4_9 t).IsWhole := hstage4_9 ((cfg4.slots t 9).cast nbuf4_9)

abbrev scM4_0 : Memref sig .tc .vmem S2048x20 .f32 := Memref.whole cc4_scratch0
abbrev scM4_1 : Memref sig .tc .vmem S2048x20 .f32 := Memref.whole cc4_scratch1

def scI4 (c : Dev nD) : (n : ℕ) → n < cfg4.N → Vec F S2048x20 .f32
  | 0, hn => k2_pay6 (grid4.coords ⟨0, hn⟩) (iblk4 V c 1 ⟨0, hn⟩) (iblk4 V c 2 ⟨0, hn⟩) k2_pay2
  | n + 1, hn => k2_pay6 (grid4.coords ⟨n + 1, hn⟩) (iblk4 V c 1 ⟨n + 1, hn⟩) (iblk4 V c 2 ⟨n + 1, hn⟩)
      (if (n + 1) % 25 = 0 then k2_pay2 else scI4 c n (Nat.lt_of_succ_lt hn))

def scJ4 (c : Dev nD) : (n : ℕ) → n < cfg4.N → Vec F S2048x20 .f32
  | 0, hn => k2_pay7 (grid4.coords ⟨0, hn⟩) (iblk4 V c 0 ⟨0, hn⟩) (iblk4 V c 2 ⟨0, hn⟩) k2_pay3
  | n + 1, hn => k2_pay7 (grid4.coords ⟨n + 1, hn⟩) (iblk4 V c 0 ⟨n + 1, hn⟩) (iblk4 V c 2 ⟨n + 1, hn⟩)
      (if (n + 1) % 25 = 0 then k2_pay3 else scJ4 c n (Nat.lt_of_succ_lt hn))

theorem scI4_eq (c : Dev nD) (t : Fin cfg4.N) :
    scI4 V c t.val t.isLt = k2_pay6 (grid4.coords t) (iblk4 V c 1 t) (iblk4 V c 2 t)
      (if t.val % 25 = 0 then k2_pay2 else scI4 V c (t.val - 1) (Nat.lt_of_le_of_lt (Nat.sub_le _ _) t.isLt)) := by
  obtain ⟨n, hn⟩ := t
  cases n with
  | zero => exact (congrArg (k2_pay6 _ _ _) (if_pos (Nat.zero_mod 25)).symm)
  | succ n => rfl

theorem scJ4_eq (c : Dev nD) (t : Fin cfg4.N) :
    scJ4 V c t.val t.isLt = k2_pay7 (grid4.coords t) (iblk4 V c 0 t) (iblk4 V c 2 t)
      (if t.val % 25 = 0 then k2_pay3 else scJ4 V c (t.val - 1) (Nat.lt_of_le_of_lt (Nat.sub_le _ _) t.isLt)) := by
  obtain ⟨n, hn⟩ := t
  cases n with
  | zero => exact (congrArg (k2_pay7 _ _ _) (if_pos (Nat.zero_mod 25)).symm)
  | succ n => rfl

abbrev rest4 (c : Dev nD) : sProp 𝕄 :=
  Pipeline.scopedRestBut (Ix := Unit) (Name := ℕ) (U := UR sig nD τ) (Lvl := ℕ) (Val := Elt F) spec4 c [cc4_scratch0, cc4_scratch1]

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 c)
          ∗ (∃ r, prngReg c r)) := by
  unfold Pipeline.ΦA; rw [scopedRest4_split]; simp only [scM4_0, scM4_1, owns_whole]; try rfl

def PhiS4 (c : Dev nD) : (n : ℕ) → n ≤ cfg4.N → sProp 𝕄
  | 0, _ => Pipeline.ΦA spec4 c
  | n + 1, hn => iprop(iprop(iprop(owns (c : Thread nD τ) scM4_0 fullShare (scI4 V c n hn) ∗ owns (c : Thread nD τ) scM4_1 fullShare (scJ4 V c n hn)) ∗ rest4 c)
      ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (scI4 V c n hn) ∗ owns (c : Thread nD τ) scM4_1 fullShare (scJ4 V c n hn)) ∗ rest4 c)
      ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (scI4 V c (n - 1) (by omega)) ∗ owns (c : Thread nD τ) scM4_1 fullShare (scJ4 V c (n - 1) (by omega))) ∗ rest4 c)
      ∗ (∃ r, prngReg c r)) := by
  cases n with
  | zero => exact absurd rfl hz
  | succ n => rfl

theorem PhiS4_weak (c : Dev nD) (n : ℕ) (h : n ≤ cfg4.N) : PhiS4 V c n h ⊢ Pipeline.ΦA spec4 c := by
  cases n with
  | zero => exact Idealize.SL.BI.Entails.refl _
  | succ n =>
    rw [PhiS4_succ, PhiA4_eq]
    iintro ⟨⟨⟨HI, HJ⟩, HR⟩, Hg⟩
    isplitl [HI HJ HR]
    · isplitl [HI HJ]
      · isplitl [HI]; · iexists _; iexact HI
        iexists _; iexact HJ
      iexact HR
    iexact Hg

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => k2_pay1 (scI4 V c t.val t.isLt) (scJ4 V c t.val t.isLt) (iblk4 V c 3 t) (iblk4 V c 4 t) (iblk4 V c 5 t) (iblk4 V c 6 t) (iblk4 V c 7 t) (iblk4 V c 8 t)
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_9 (c : Dev nD) (t : Fin cfg4.N) : (dat4 V c).after 9 t = k2_pay1 (scI4 V c t.val t.isLt) (scJ4 V c t.val t.isLt) (iblk4 V c 3 t) (iblk4 V c 4 t) (iblk4 V c 5 t) (iblk4 V c 6 t) (iblk4 V c 7 t) (iblk4 V c 8 t) := by dsimp only [dat4]

theorem after4_9_flush (c : Dev nD) (t : Fin cfg4.N) (h : t.val % 25 = 24) : (dat4 V c).after 9 t = k2_pay1 (scI4 V c t.val t.isLt) (scJ4 V c t.val t.isLt) (iblk4 V c 3 t) (iblk4 V c 4 t) (iblk4 V c 5 t) (iblk4 V c 6 t) (iblk4 V c 7 t) (iblk4 V c 8 t) :=
  after4_9 V c t

theorem before4_in (c : Dev nD) (w : Fin cfg4.W) (hw : w ≠ 9) (t : Fin cfg4.N) (d) : (dat4 V c).before w t d = (dat4 V c).after w t := by
  fin_cases w <;> first
    | exact absurd rfl hw
    | exact (dat4 V c).before_in_eq_fetched _ rfl (fun _ => rfl) (fun _ _ _ => rfl) (fun _ => rfl) t d

theorem leaves4_in (c : Dev nD) (w : Fin cfg4.W) (hw : w ≠ 9) (t : Fin cfg4.N) :
    (dat4 V c).leavesExact w t = owns (c : Thread nD τ) ((cfg4.win w).stage (cfg4.slots t w)) fullShare ((dat4 V c).after w t) := by
  fin_cases w <;> first | exact absurd rfl hw | rfl

theorem idle4_9 (i : grid4.Coords) (h : ¬cond2_1 i) : cfg4.idle 9 i = true := by
  show (!(k2_cond2 i == 1#1)) = true
  rw [Bool.not_eq_true', beq_eq_false_iff_ne]; exact h

theorem live4_9 (i : grid4.Coords) (h : cond2_1 i) : cfg4.idle 9 i = false := by
  show (!(k2_cond2 i == 1#1)) = false
  rw [Bool.not_eq_false', beq_iff_eq]; exact h

theorem noFlush4_9 (t : Fin cfg4.N) (h : ¬t.val % 25 = 24) : (cfg4.win 9).flush t = false := by
  have hN : grid4.N = 4900 := N_4
  have ht : t.val < 4900 := lt_of_lt_of_eq t.isLt hN
  have hs : grid4.stride 0 = 25 := by decide
  have hidx : ∀ h1 : t.val + 1 < grid4.N, win4_9.index ⟨t.val + 1, h1⟩ = win4_9.index t := fun h1 =>
    hreads4_9 _ _ (Fin.forall_fin_two.mpr ⟨fun _ => Fin.ext (by
      show (t.val + 1) / grid4.stride 0 % grid4.bound 0 = t.val / grid4.stride 0 % grid4.bound 0
      rw [hs]; congr 1; omega), fun ha => absurd ha (by decide)⟩)
  show (win4_9.isOut && (decide (t.val + 1 = grid4.N) || decide (∃ h1 : t.val + 1 < grid4.N, win4_9.index ⟨t.val + 1, h1⟩ ≠ win4_9.index t))) = false
  rw [Bool.and_eq_false_iff]; right
  rw [Bool.or_eq_false_iff]
  exact ⟨decide_eq_false (by omega), decide_eq_false fun ⟨h1, hne⟩ => hne (hidx h1)⟩

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d))
    ∗ (∃ d, owns (c : Thread nD τ) (ms4_9 t) fullShare ((dat4 V c).before 9 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t
    ∗ (dat4 V c).leavesExact 9 t)

set_option maxHeartbeats 4800000 in
theorem sound_body4 (c : Dev nD) (t : Fin cfg4.N) :
    bodyPre4 V c t ⊢ wp frame (wpE (defs₀ (F := F)) Variants.none c none) Set.univ (cc4__gather_mlp_kernel (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _)) (fun _ => bodyPost4 V c t) := by
  unfold bodyPre4 bodyPost4
  simp (config := {decide := true}) only [before4_in]
  rw [show (dat4 V c).owesAt () t.succ = (dat4 V c).owesAt () t.castSucc from rfl]
  rw [show (dat4 V c).Φ t.succ = PhiS4 V c (t.val + 1) t.isLt from rfl, PhiS4_succ]
  simp (config := {decide := true}) only [leaves4_in]
  rw [scI4_eq V c t, scJ4_eq V c t]
  by_cases h0 : t.val % 25 = 0
  · have h1 : ¬t.val % 25 = 24 := by omega
    have hc0 : cond2_0 (grid4.coords t) := (hcond2_0 t).mpr h0
    have hc1 : ¬cond2_1 (grid4.coords t) := fun h => h1 ((hcond2_1 t).mp h)
    rw [Dat.leavesExact_idle (dat4 V c) 9 t (idle4_9 _ hc1) (noFlush4_9 t h1), if_pos h0, if_pos h0, PhiS4_castSucc V c t]
    refine (sep_mono_left (PhiS4_weak V c _ _)).trans ?_
    rw [PhiA4_eq]
    iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run2_first c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) hc0 hc1 ((dat4 V c).after 0 t) ((dat4 V c).after 1 t) ((dat4 V c).after 2 t) Set.univ _)
    iframe H0 H1 H2 HI HJ
    iintro ⟨H0, H1, H2, HI, HJ⟩
    iframe
    isplitl [HI HJ]
    · isplitl [HI]; · iexact HI
      iexact HJ
    iexists _; iexact H9
  · have hz : t.val ≠ 0 := fun e => h0 (by rw [e])
    have hc0 : ¬cond2_0 (grid4.coords t) := fun h => h0 ((hcond2_0 t).mp h)
    rw [if_neg h0, if_neg h0, PhiS4_castSucc V c t, PhiS4_pos V c _ _ hz]
    by_cases h1 : t.val % 25 = 24
    · have hc1 : cond2_1 (grid4.coords t) := (hcond2_1 t).mpr h1
      rw [show (dat4 V c).leavesExact 9 t = owns (c : Thread nD τ) (ms4_9 t) fullShare ((dat4 V c).after 9 t) from by
        unfold Dat.leavesExact; rw [live4_9 _ hc1], after4_9, scI4_eq V c t, scJ4_eq V c t, if_neg h0, if_neg h0]
      iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run2_last c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) hc0 hc1 ((dat4 V c).after 0 t) ((dat4 V c).after 1 t) ((dat4 V c).after 2 t) ((dat4 V c).after 3 t) ((dat4 V c).after 4 t) ((dat4 V c).after 5 t) ((dat4 V c).after 6 t) ((dat4 V c).after 7 t) ((dat4 V c).after 8 t) (scI4 V c (t.val - 1) (Nat.lt_of_le_of_lt (Nat.sub_le _ _) t.isLt)) (scJ4 V c (t.val - 1) (Nat.lt_of_le_of_lt (Nat.sub_le _ _) t.isLt)) Set.univ _)
      iframe H0 H1 H2 H3 H4 H5 H6 H7 H8
      isplitl [H9]; · iexists _; iexact H9
      iframe HI HJ
      iintro ⟨H0, H1, H2, H3, H4, H5, H6, H7, H8, H9, HI, HJ⟩
      iframe
      isplitl [HI HJ]
      · isplitl [HI]; · iexact HI
        iexact HJ
      iexact H9
    · have hc1 : ¬cond2_1 (grid4.coords t) := fun h => h1 ((hcond2_1 t).mp h)
      rw [Dat.leavesExact_idle (dat4 V c) 9 t (idle4_9 _ hc1) (noFlush4_9 t h1)]
      iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run2_mid c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) hc0 hc1 ((dat4 V c).after 0 t) ((dat4 V c).after 1 t) ((dat4 V c).after 2 t) (scI4 V c (t.val - 1) (Nat.lt_of_le_of_lt (Nat.sub_le _ _) t.isLt)) (scJ4 V c (t.val - 1) (Nat.lt_of_le_of_lt (Nat.sub_le _ _) t.isLt)) Set.univ _)
      iframe H0 H1 H2 HI HJ
      iintro ⟨H0, H1, H2, HI, HJ⟩
      iframe
      isplitl [HI HJ]
      · isplitl [HI]; · iexact HI
        iexact HJ
      iexists _; iexact H9

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.ΦA spec4 c :=
  PhiS4_weak V c (Fin.last cfg4.N).val (Nat.le_of_lt_succ (Fin.last cfg4.N).isLt)

end Cert.Kernel.Hand
end
-- ==== Proof.K.R5Run.lean ====
import proofs.«415925_j84189948936386_1_alg».proof.Proof.K.R3Run

noncomputable section

namespace Cert.Kernel.Hand

open Cert.Kernel Cert.Kernel.Gen
open Idealize.ShloMosaic

theorem idleAt5_5 (i : grid5.Coords) (h : ¬cond3_1 i) : cfg5.idle 5 i = true := idleAt3_5 i h
theorem liveAt5_5 (i : grid5.Coords) (h : cond3_1 i) : cfg5.idle 5 i = false := liveAt3_5 i h
theorem noFlush5_5 (t : Fin cfg5.N) (h : ¬t.val % 196 = 195) : (cfg5.win 5).flush t = false := noFlush3_5 t h

end Cert.Kernel.Hand

end
-- ==== Proof.K.R5Dat.lean ====
import proofs.«415925_j84189948936386_1_alg».proof.Proof.K.R5Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def sc5 (c : Dev nD) : (n : ℕ) → n < cfg5.N → Vec F S1024x20 .f32
  | 0, hn => k3_pay2 (grid5.coords ⟨0, hn⟩) (iblk5 V c 0 ⟨0, hn⟩) (iblk5 V c 1 ⟨0, hn⟩) (k3_pay1 (F := F))
  | n + 1, hn => k3_pay2 (grid5.coords ⟨n + 1, hn⟩) (iblk5 V c 0 ⟨n + 1, hn⟩) (iblk5 V c 1 ⟨n + 1, hn⟩)
      (if (n + 1) % 196 = 0 then k3_pay1 (F := F) else sc5 c n (Nat.lt_of_succ_lt hn))

theorem sc5_eq (c : Dev nD) (t : Fin cfg5.N) :
    sc5 V c t.val t.isLt = k3_pay2 (grid5.coords t) (iblk5 V c 0 t) (iblk5 V c 1 t)
      (if t.val % 196 = 0 then k3_pay1 (F := F) else sc5 V c (t.val - 1) (Nat.lt_of_le_of_lt (Nat.sub_le _ _) t.isLt)) := by
  obtain ⟨n, hn⟩ := t
  cases n with
  | zero => exact (congrArg (k3_pay2 (grid5.coords ⟨0, hn⟩) (iblk5 V c 0 ⟨0, hn⟩) (iblk5 V c 1 ⟨0, hn⟩)) (if_pos (Nat.zero_mod 196)).symm)
  | succ n => exact rfl

abbrev scM5 : Memref sig .tc .vmem S1024x20 .f32 := Memref.whole cc5_scratch0

theorem PhiA5_eq (c : Dev nD) :
    (Pipeline.ΦA spec5 c : sProp 𝕄)
      = iprop(iprop((∃ d, owns (c : Thread nD τ) scM5 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

def PhiS5 (c : Dev nD) : (n : ℕ) → n ≤ cfg5.N → sProp 𝕄
  | 0, _ => Pipeline.ΦA spec5 c
  | n + 1, hn => iprop(iprop(owns (c : Thread nD τ) scM5 fullShare (sc5 V c n hn) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare (sc5 V c n hn) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5 fullShare (sc5 V c (n - 1) (by omega)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => k3_pay3 (iblk5 V c 2 t) (iblk5 V c 3 t) (iblk5 V c 4 t) (sc5 V c t.val t.isLt)
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := rfl

theorem after5_5_flush (c : Dev nD) (t : Fin cfg5.N) (h : t.val % 196 = 195) :
    (dat5 V c).after 5 t = k3_pay3 (iblk5 V c 2 t) (iblk5 V c 3 t) (iblk5 V c 4 t) (sc5 V c t.val t.isLt) := by
  dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d
theorem before5_4 (c : Dev nD) (t : Fin cfg5.N) (d) : (dat5 V c).before 4 t d = iblk5 V c 4 t :=
  (dat5 V c).before_in_eq_fetched 4 rfl (fun _ => rfl) (fun _ _ _ => rfl) (fun _ => rfl) t d

abbrev ms5_0 (t : Fin cfg5.N) : Memref sig .tc .vmem S2048 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x20 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x20 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S20x20 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S20 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1024x20 .f32 := win5_5.stage (cfg5.slots t 5)
abbrev hs5_5 (t : Fin cfg5.N) : (ms5_5 t).IsWhole := hstage5_5 ((cfg5.slots t 5).cast nbuf5_5)

abbrev bodyAt5 (t : Fin cfg5.N) : Prog (TpuEff nD τ sig (Elt F) Λ₀ .tc) PUnit :=
  cc5__scatter_residual_kernel (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _)

theorem leaves5_0 (c : Dev nD) (t : Fin cfg5.N) :
    (dat5 V c).leavesExact 0 t = owns (c : Thread nD τ) (ms5_0 t) fullShare (iblk5 V c 0 t) := rfl
theorem leaves5_1 (c : Dev nD) (t : Fin cfg5.N) :
    (dat5 V c).leavesExact 1 t = owns (c : Thread nD τ) (ms5_1 t) fullShare (iblk5 V c 1 t) := rfl
theorem leaves5_2 (c : Dev nD) (t : Fin cfg5.N) :
    (dat5 V c).leavesExact 2 t = owns (c : Thread nD τ) (ms5_2 t) fullShare (iblk5 V c 2 t) := rfl
theorem leaves5_3 (c : Dev nD) (t : Fin cfg5.N) :
    (dat5 V c).leavesExact 3 t = owns (c : Thread nD τ) (ms5_3 t) fullShare (iblk5 V c 3 t) := rfl
theorem leaves5_4 (c : Dev nD) (t : Fin cfg5.N) :
    (dat5 V c).leavesExact 4 t = owns (c : Thread nD τ) (ms5_4 t) fullShare (iblk5 V c 4 t) := rfl

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

theorem Phi_out5 (c : Dev nD) (t : Fin (cfg5.N + 1)) : (dat5 V c).Φ t ⊢ Pipeline.ΦA spec5 c := by
  rw [show (dat5 V c).Φ t = PhiS5 V c t.val (Nat.le_of_lt_succ t.isLt) from rfl]
  by_cases ht : t.val = 0
  · rw [PhiS5_zero V c _ _ ht]
  rw [PhiS5_pos V c _ _ ht, PhiA5_eq]
  iintro ⟨⟨HS, HR⟩, Hg⟩
  iframe HR Hg
  iexists _; iexact HS

set_option maxHeartbeats 4800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0 V, before5_1 V, before5_2 V, before5_3 V, before5_4 V]
  rw [show (dat5 V c).owesAt () t.succ = (dat5 V c).owesAt () t.castSucc from rfl]
  rw [show (dat5 V c).Φ t.succ = PhiS5 V c (t.val + 1) t.isLt from rfl, PhiS5_succ]
  rw [leaves5_0 V c t, leaves5_1 V c t, leaves5_2 V c t, leaves5_3 V c t, leaves5_4 V c t]
  by_cases h0 : t.val % 196 = 0
  · have h1 : ¬t.val % 196 = 195 := by omega
    rw [Dat.leavesExact_idle (dat5 V c) 5 t (idleAt5_5 _ (fun h => h1 ((hcond3_1 t).mp h))) (noFlush5_5 t h1)]
    rw [sc5_eq V c t, if_pos h0]
    refine (sep_mono_left (Phi_out5 V c t.castSucc)).trans ?_
    rw [PhiA5_eq]
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩⟩
    iapply (run3_first c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) ((hcond3_0 t).mpr h0) (fun h => h1 ((hcond3_1 t).mp h)) (iblk5 V c 0 t) (iblk5 V c 1 t) (iblk5 V c 2 t) (iblk5 V c 3 t) (iblk5 V c 4 t) _ Set.univ _)
    iframe H0 H1 H2 H3 H4 H5
    isplitl [HS]; · iexists _; iexact HS
    iintro ⟨H0, H1, H2, H3, H4, H5, HS⟩
    iframe HS HR Hg Ho H0 H1 H2 H3 H4
    iexists _; iexact H5
  · rw [PhiS5_castSucc V c t, PhiS5_pos V c _ _ (by omega)]
    by_cases h1 : t.val % 196 = 195
    · rw [show (dat5 V c).leavesExact 5 t = owns (c : Thread nD τ) (ms5_5 t) fullShare ((dat5 V c).after 5 t) from by
        unfold Dat.leavesExact; rw [liveAt5_5 _ ((hcond3_1 t).mpr h1)], after5_5_flush V c t h1]
      rw [sc5_eq V c t, if_neg h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run3_last c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (fun h => h0 ((hcond3_0 t).mp h)) ((hcond3_1 t).mpr h1) (iblk5 V c 0 t) (iblk5 V c 1 t) (iblk5 V c 2 t) (iblk5 V c 3 t) (iblk5 V c 4 t) _ Set.univ _)
      iframe H0 H1 H2 H3 H4 HS
      isplitl [H5]; · iexists _; iexact H5
      iintro ⟨H0, H1, H2, H3, H4, H5, HS⟩
      iframe HS HR Hg Ho H0 H1 H2 H3 H4
      iexact H5
    · rw [Dat.leavesExact_idle (dat5 V c) 5 t (idleAt5_5 _ (fun h => h1 ((hcond3_1 t).mp h))) (noFlush5_5 t h1)]
      rw [sc5_eq V c t, if_neg h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run3_mid c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (fun h => h0 ((hcond3_0 t).mp h)) (fun h => h1 ((hcond3_1 t).mp h)) (iblk5 V c 0 t) (iblk5 V c 1 t) (iblk5 V c 2 t) (iblk5 V c 3 t) (iblk5 V c 4 t) _ _ Set.univ _)
      iframe H0 H1 H2 H3 H4 H5 HS
      iintro ⟨H0, H1, H2, H3, H4, H5, HS⟩
      iframe HS HR Hg Ho H0 H1 H2 H3 H4
      iexists _; iexact H5

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 :=
  Idealize.SL.BI.Entails.refl _

theorem hout5 (c : Dev nD) : (dat5 V c).Φ (Fin.last cfg5.N) ⊢ Pipeline.ΦA spec5 c :=
  Phi_out5 V c _

end Cert.Kernel.Hand

end
-- ==== Proof.K.R6Dat.lean ====
import proofs.«415925_j84189948936386_1_alg».proof.Proof.K.R2Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev ms6_0 (t : Fin cfg6.N) : Memref sig .tc .vmem S2048 .i32 := (cfg6.win 0).stage (cfg6.slots t 0)
abbrev hs6_0 (t : Fin cfg6.N) : (ms6_0 t).IsWhole := hstage6_0 ((cfg6.slots t 0).cast nbuf6_0)
abbrev ms6_1 (t : Fin cfg6.N) : Memref sig .tc .vmem S2048 .i32 := (cfg6.win 1).stage (cfg6.slots t 1)
abbrev hs6_1 (t : Fin cfg6.N) : (ms6_1 t).IsWhole := hstage6_1 ((cfg6.slots t 1).cast nbuf6_1)
abbrev ms6_2 (t : Fin cfg6.N) : Memref sig .tc .vmem S1024x20 .f32 := (cfg6.win 2).stage (cfg6.slots t 2)
abbrev hs6_2 (t : Fin cfg6.N) : (ms6_2 t).IsWhole := hstage6_2 ((cfg6.slots t 2).cast nbuf6_2)
abbrev ms6_3 (t : Fin cfg6.N) : Memref sig .tc .vmem S40x200 .f32 := (cfg6.win 3).stage (cfg6.slots t 3)
abbrev hs6_3 (t : Fin cfg6.N) : (ms6_3 t).IsWhole := hstage6_3 ((cfg6.slots t 3).cast nbuf6_3)
abbrev ms6_4 (t : Fin cfg6.N) : Memref sig .tc .vmem S200 .f32 := (cfg6.win 4).stage (cfg6.slots t 4)
abbrev hs6_4 (t : Fin cfg6.N) : (ms6_4 t).IsWhole := hstage6_4 ((cfg6.slots t 4).cast nbuf6_4)
abbrev ms6_5 (t : Fin cfg6.N) : Memref sig .tc .vmem S200x20 .f32 := (cfg6.win 5).stage (cfg6.slots t 5)
abbrev hs6_5 (t : Fin cfg6.N) : (ms6_5 t).IsWhole := hstage6_5 ((cfg6.slots t 5).cast nbuf6_5)
abbrev ms6_6 (t : Fin cfg6.N) : Memref sig .tc .vmem S20 .f32 := (cfg6.win 6).stage (cfg6.slots t 6)
abbrev hs6_6 (t : Fin cfg6.N) : (ms6_6 t).IsWhole := hstage6_6 ((cfg6.slots t 6).cast nbuf6_6)
abbrev ms6_7 (t : Fin cfg6.N) : Memref sig .tc .vmem S20x20 .f32 := (cfg6.win 7).stage (cfg6.slots t 7)
abbrev hs6_7 (t : Fin cfg6.N) : (ms6_7 t).IsWhole := hstage6_7 ((cfg6.slots t 7).cast nbuf6_7)
abbrev ms6_8 (t : Fin cfg6.N) : Memref sig .tc .vmem S20 .f32 := (cfg6.win 8).stage (cfg6.slots t 8)
abbrev hs6_8 (t : Fin cfg6.N) : (ms6_8 t).IsWhole := hstage6_8 ((cfg6.slots t 8).cast nbuf6_8)
abbrev ms6_9 (t : Fin cfg6.N) : Memref sig .tc .vmem S2048x20 .f32 := (cfg6.win 9).stage (cfg6.slots t 9)
abbrev hs6_9 (t : Fin cfg6.N) : (ms6_9 t).IsWhole := hstage6_9 ((cfg6.slots t 9).cast nbuf6_9)

abbrev scM6_0 : Memref sig .tc .vmem S2048x20 .f32 := Memref.whole cc6_scratch0
abbrev scM6_1 : Memref sig .tc .vmem S2048x20 .f32 := Memref.whole cc6_scratch1

def scI6 (c : Dev nD) : (n : ℕ) → n < cfg6.N → Vec F S2048x20 .f32
  | 0, hn => k2_pay6 (grid6.coords ⟨0, hn⟩) (iblk6 V c 1 ⟨0, hn⟩) (iblk6 V c 2 ⟨0, hn⟩) k2_pay2
  | n + 1, hn => k2_pay6 (grid6.coords ⟨n + 1, hn⟩) (iblk6 V c 1 ⟨n + 1, hn⟩) (iblk6 V c 2 ⟨n + 1, hn⟩)
      (if (n + 1) % 25 = 0 then k2_pay2 else scI6 c n (Nat.lt_of_succ_lt hn))

def scJ6 (c : Dev nD) : (n : ℕ) → n < cfg6.N → Vec F S2048x20 .f32
  | 0, hn => k2_pay7 (grid6.coords ⟨0, hn⟩) (iblk6 V c 0 ⟨0, hn⟩) (iblk6 V c 2 ⟨0, hn⟩) k2_pay3
  | n + 1, hn => k2_pay7 (grid6.coords ⟨n + 1, hn⟩) (iblk6 V c 0 ⟨n + 1, hn⟩) (iblk6 V c 2 ⟨n + 1, hn⟩)
      (if (n + 1) % 25 = 0 then k2_pay3 else scJ6 c n (Nat.lt_of_succ_lt hn))

theorem scI6_eq (c : Dev nD) (t : Fin cfg6.N) :
    scI6 V c t.val t.isLt = k2_pay6 (grid6.coords t) (iblk6 V c 1 t) (iblk6 V c 2 t)
      (if t.val % 25 = 0 then k2_pay2 else scI6 V c (t.val - 1) (Nat.lt_of_le_of_lt (Nat.sub_le _ _) t.isLt)) := by
  obtain ⟨n, hn⟩ := t
  cases n with
  | zero => exact (congrArg (k2_pay6 _ _ _) (if_pos (Nat.zero_mod 25)).symm)
  | succ n => rfl

theorem scJ6_eq (c : Dev nD) (t : Fin cfg6.N) :
    scJ6 V c t.val t.isLt = k2_pay7 (grid6.coords t) (iblk6 V c 0 t) (iblk6 V c 2 t)
      (if t.val % 25 = 0 then k2_pay3 else scJ6 V c (t.val - 1) (Nat.lt_of_le_of_lt (Nat.sub_le _ _) t.isLt)) := by
  obtain ⟨n, hn⟩ := t
  cases n with
  | zero => exact (congrArg (k2_pay7 _ _ _) (if_pos (Nat.zero_mod 25)).symm)
  | succ n => rfl

abbrev rest6 (c : Dev nD) : sProp 𝕄 :=
  Pipeline.scopedRestBut (Ix := Unit) (Name := ℕ) (U := UR sig nD τ) (Lvl := ℕ) (Val := Elt F) spec6 c [cc6_scratch0, cc6_scratch1]

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ rest6 c)
          ∗ (∃ r, prngReg c r)) := by
  unfold Pipeline.ΦA; rw [scopedRest6_split]; simp only [scM6_0, scM6_1, owns_whole]; try rfl

def PhiS6 (c : Dev nD) : (n : ℕ) → n ≤ cfg6.N → sProp 𝕄
  | 0, _ => Pipeline.ΦA spec6 c
  | n + 1, hn => iprop(iprop(iprop(owns (c : Thread nD τ) scM6_0 fullShare (scI6 V c n hn) ∗ owns (c : Thread nD τ) scM6_1 fullShare (scJ6 V c n hn)) ∗ rest6 c)
      ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (scI6 V c n hn) ∗ owns (c : Thread nD τ) scM6_1 fullShare (scJ6 V c n hn)) ∗ rest6 c)
      ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (scI6 V c (n - 1) (by omega)) ∗ owns (c : Thread nD τ) scM6_1 fullShare (scJ6 V c (n - 1) (by omega))) ∗ rest6 c)
      ∗ (∃ r, prngReg c r)) := by
  cases n with
  | zero => exact absurd rfl hz
  | succ n => rfl

theorem PhiS6_weak (c : Dev nD) (n : ℕ) (h : n ≤ cfg6.N) : PhiS6 V c n h ⊢ Pipeline.ΦA spec6 c := by
  cases n with
  | zero => exact Idealize.SL.BI.Entails.refl _
  | succ n =>
    rw [PhiS6_succ, PhiA6_eq]
    iintro ⟨⟨⟨HI, HJ⟩, HR⟩, Hg⟩
    isplitl [HI HJ HR]
    · isplitl [HI HJ]
      · isplitl [HI]; · iexists _; iexact HI
        iexists _; iexact HJ
      iexact HR
    iexact Hg

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => k2_pay1 (scI6 V c t.val t.isLt) (scJ6 V c t.val t.isLt) (iblk6 V c 3 t) (iblk6 V c 4 t) (iblk6 V c 5 t) (iblk6 V c 6 t) (iblk6 V c 7 t) (iblk6 V c 8 t)
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_9 (c : Dev nD) (t : Fin cfg6.N) : (dat6 V c).after 9 t = k2_pay1 (scI6 V c t.val t.isLt) (scJ6 V c t.val t.isLt) (iblk6 V c 3 t) (iblk6 V c 4 t) (iblk6 V c 5 t) (iblk6 V c 6 t) (iblk6 V c 7 t) (iblk6 V c 8 t) := by dsimp only [dat6]

theorem after6_9_flush (c : Dev nD) (t : Fin cfg6.N) (h : t.val % 25 = 24) : (dat6 V c).after 9 t = k2_pay1 (scI6 V c t.val t.isLt) (scJ6 V c t.val t.isLt) (iblk6 V c 3 t) (iblk6 V c 4 t) (iblk6 V c 5 t) (iblk6 V c 6 t) (iblk6 V c 7 t) (iblk6 V c 8 t) :=
  after6_9 V c t

theorem before6_in (c : Dev nD) (w : Fin cfg6.W) (hw : w ≠ 9) (t : Fin cfg6.N) (d) : (dat6 V c).before w t d = (dat6 V c).after w t := by
  fin_cases w <;> first
    | exact absurd rfl hw
    | exact (dat6 V c).before_in_eq_fetched _ rfl (fun _ => rfl) (fun _ _ _ => rfl) (fun _ => rfl) t d

theorem leaves6_in (c : Dev nD) (w : Fin cfg6.W) (hw : w ≠ 9) (t : Fin cfg6.N) :
    (dat6 V c).leavesExact w t = owns (c : Thread nD τ) ((cfg6.win w).stage (cfg6.slots t w)) fullShare ((dat6 V c).after w t) := by
  fin_cases w <;> first | exact absurd rfl hw | rfl

theorem idle6_9 (i : grid6.Coords) (h : ¬cond2_1 i) : cfg6.idle 9 i = true := by
  show (!(k2_cond2 i == 1#1)) = true
  rw [Bool.not_eq_true', beq_eq_false_iff_ne]; exact h

theorem live6_9 (i : grid6.Coords) (h : cond2_1 i) : cfg6.idle 9 i = false := by
  show (!(k2_cond2 i == 1#1)) = false
  rw [Bool.not_eq_false', beq_iff_eq]; exact h

theorem noFlush6_9 (t : Fin cfg6.N) (h : ¬t.val % 25 = 24) : (cfg6.win 9).flush t = false := by
  have hN : grid6.N = 4900 := N_6
  have ht : t.val < 4900 := lt_of_lt_of_eq t.isLt hN
  have hs : grid6.stride 0 = 25 := by decide
  have hidx : ∀ h1 : t.val + 1 < grid6.N, win6_9.index ⟨t.val + 1, h1⟩ = win6_9.index t := fun h1 =>
    hreads6_9 _ _ (Fin.forall_fin_two.mpr ⟨fun _ => Fin.ext (by
      show (t.val + 1) / grid6.stride 0 % grid6.bound 0 = t.val / grid6.stride 0 % grid6.bound 0
      rw [hs]; congr 1; omega), fun ha => absurd ha (by decide)⟩)
  show (win6_9.isOut && (decide (t.val + 1 = grid6.N) || decide (∃ h1 : t.val + 1 < grid6.N, win6_9.index ⟨t.val + 1, h1⟩ ≠ win6_9.index t))) = false
  rw [Bool.and_eq_false_iff]; right
  rw [Bool.or_eq_false_iff]
  exact ⟨decide_eq_false (by omega), decide_eq_false fun ⟨h1, hne⟩ => hne (hidx h1)⟩

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d))
    ∗ (∃ d, owns (c : Thread nD τ) (ms6_9 t) fullShare ((dat6 V c).before 9 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t
    ∗ (dat6 V c).leavesExact 8 t
    ∗ (dat6 V c).leavesExact 9 t)

set_option maxHeartbeats 4800000 in
theorem sound_body6 (c : Dev nD) (t : Fin cfg6.N) :
    bodyPre6 V c t ⊢ wp frame (wpE (defs₀ (F := F)) Variants.none c none) Set.univ (cc6__gather_mlp_kernel (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) scM6_0 (Memref.isWhole_whole _) scM6_1 (Memref.isWhole_whole _)) (fun _ => bodyPost6 V c t) := by
  unfold bodyPre6 bodyPost6
  simp (config := {decide := true}) only [before6_in]
  rw [show (dat6 V c).owesAt () t.succ = (dat6 V c).owesAt () t.castSucc from rfl]
  rw [show (dat6 V c).Φ t.succ = PhiS6 V c (t.val + 1) t.isLt from rfl, PhiS6_succ]
  simp (config := {decide := true}) only [leaves6_in]
  rw [scI6_eq V c t, scJ6_eq V c t]
  by_cases h0 : t.val % 25 = 0
  · have h1 : ¬t.val % 25 = 24 := by omega
    have hc0 : cond2_0 (grid6.coords t) := (hcond2_0 t).mpr h0
    have hc1 : ¬cond2_1 (grid6.coords t) := fun h => h1 ((hcond2_1 t).mp h)
    rw [Dat.leavesExact_idle (dat6 V c) 9 t (idle6_9 _ hc1) (noFlush6_9 t h1), if_pos h0, if_pos h0, PhiS6_castSucc V c t]
    refine (sep_mono_left (PhiS6_weak V c _ _)).trans ?_
    rw [PhiA6_eq]
    iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run2_first c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) scM6_0 (Memref.isWhole_whole _) scM6_1 (Memref.isWhole_whole _) hc0 hc1 ((dat6 V c).after 0 t) ((dat6 V c).after 1 t) ((dat6 V c).after 2 t) Set.univ _)
    iframe H0 H1 H2 HI HJ
    iintro ⟨H0, H1, H2, HI, HJ⟩
    iframe
    isplitl [HI HJ]
    · isplitl [HI]; · iexact HI
      iexact HJ
    iexists _; iexact H9
  · have hz : t.val ≠ 0 := fun e => h0 (by rw [e])
    have hc0 : ¬cond2_0 (grid6.coords t) := fun h => h0 ((hcond2_0 t).mp h)
    rw [if_neg h0, if_neg h0, PhiS6_castSucc V c t, PhiS6_pos V c _ _ hz]
    by_cases h1 : t.val % 25 = 24
    · have hc1 : cond2_1 (grid6.coords t) := (hcond2_1 t).mpr h1
      rw [show (dat6 V c).leavesExact 9 t = owns (c : Thread nD τ) (ms6_9 t) fullShare ((dat6 V c).after 9 t) from by
        unfold Dat.leavesExact; rw [live6_9 _ hc1], after6_9, scI6_eq V c t, scJ6_eq V c t, if_neg h0, if_neg h0]
      iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run2_last c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) scM6_0 (Memref.isWhole_whole _) scM6_1 (Memref.isWhole_whole _) hc0 hc1 ((dat6 V c).after 0 t) ((dat6 V c).after 1 t) ((dat6 V c).after 2 t) ((dat6 V c).after 3 t) ((dat6 V c).after 4 t) ((dat6 V c).after 5 t) ((dat6 V c).after 6 t) ((dat6 V c).after 7 t) ((dat6 V c).after 8 t) (scI6 V c (t.val - 1) (Nat.lt_of_le_of_lt (Nat.sub_le _ _) t.isLt)) (scJ6 V c (t.val - 1) (Nat.lt_of_le_of_lt (Nat.sub_le _ _) t.isLt)) Set.univ _)
      iframe H0 H1 H2 H3 H4 H5 H6 H7 H8
      isplitl [H9]; · iexists _; iexact H9
      iframe HI HJ
      iintro ⟨H0, H1, H2, H3, H4, H5, H6, H7, H8, H9, HI, HJ⟩
      iframe
      isplitl [HI HJ]
      · isplitl [HI]; · iexact HI
        iexact HJ
      iexact H9
    · have hc1 : ¬cond2_1 (grid6.coords t) := fun h => h1 ((hcond2_1 t).mp h)
      rw [Dat.leavesExact_idle (dat6 V c) 9 t (idle6_9 _ hc1) (noFlush6_9 t h1)]
      iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run2_mid c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) scM6_0 (Memref.isWhole_whole _) scM6_1 (Memref.isWhole_whole _) hc0 hc1 ((dat6 V c).after 0 t) ((dat6 V c).after 1 t) ((dat6 V c).after 2 t) (scI6 V c (t.val - 1) (Nat.lt_of_le_of_lt (Nat.sub_le _ _) t.isLt)) (scJ6 V c (t.val - 1) (Nat.lt_of_le_of_lt (Nat.sub_le _ _) t.isLt)) Set.univ _)
      iframe H0 H1 H2 HI HJ
      iintro ⟨H0, H1, H2, HI, HJ⟩
      iframe
      isplitl [HI HJ]
      · isplitl [HI]; · iexact HI
        iexact HJ
      iexists _; iexact H9

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem hout6 (c : Dev nD) : (dat6 V c).Φ (Fin.last cfg6.N) ⊢ Pipeline.ΦA spec6 c :=
  PhiS6_weak V c (Fin.last cfg6.N).val (Nat.le_of_lt_succ (Fin.last cfg6.N).isLt)

end Cert.Kernel.Hand
end
-- ==== Proof.K.R7Run.lean ====
import proofs.«415925_j84189948936386_1_alg».proof.Proof.K.R3Run

noncomputable section

namespace Cert.Kernel.Hand

open Cert.Kernel Cert.Kernel.Gen
open Idealize.ShloMosaic

theorem idleAt7_5 (i : grid7.Coords) (h : ¬cond3_1 i) : cfg7.idle 5 i = true := idleAt3_5 i h
theorem liveAt7_5 (i : grid7.Coords) (h : cond3_1 i) : cfg7.idle 5 i = false := liveAt3_5 i h
theorem noFlush7_5 (t : Fin cfg7.N) (h : ¬t.val % 196 = 195) : (cfg7.win 5).flush t = false := noFlush3_5 t h

end Cert.Kernel.Hand

end
-- ==== Proof.K.R7Dat.lean ====
import proofs.«415925_j84189948936386_1_alg».proof.Proof.K.R7Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def sc7 (c : Dev nD) : (n : ℕ) → n < cfg7.N → Vec F S1024x20 .f32
  | 0, hn => k3_pay2 (grid7.coords ⟨0, hn⟩) (iblk7 V c 0 ⟨0, hn⟩) (iblk7 V c 1 ⟨0, hn⟩) (k3_pay1 (F := F))
  | n + 1, hn => k3_pay2 (grid7.coords ⟨n + 1, hn⟩) (iblk7 V c 0 ⟨n + 1, hn⟩) (iblk7 V c 1 ⟨n + 1, hn⟩)
      (if (n + 1) % 196 = 0 then k3_pay1 (F := F) else sc7 c n (Nat.lt_of_succ_lt hn))

theorem sc7_eq (c : Dev nD) (t : Fin cfg7.N) :
    sc7 V c t.val t.isLt = k3_pay2 (grid7.coords t) (iblk7 V c 0 t) (iblk7 V c 1 t)
      (if t.val % 196 = 0 then k3_pay1 (F := F) else sc7 V c (t.val - 1) (Nat.lt_of_le_of_lt (Nat.sub_le _ _) t.isLt)) := by
  obtain ⟨n, hn⟩ := t
  cases n with
  | zero => exact (congrArg (k3_pay2 (grid7.coords ⟨0, hn⟩) (iblk7 V c 0 ⟨0, hn⟩) (iblk7 V c 1 ⟨0, hn⟩)) (if_pos (Nat.zero_mod 196)).symm)
  | succ n => exact rfl

abbrev scM7 : Memref sig .tc .vmem S1024x20 .f32 := Memref.whole cc7_scratch0

theorem PhiA7_eq (c : Dev nD) :
    (Pipeline.ΦA spec7 c : sProp 𝕄)
      = iprop(iprop((∃ d, owns (c : Thread nD τ) scM7 fullShare d) ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7, owns_whole]; try rfl

def PhiS7 (c : Dev nD) : (n : ℕ) → n ≤ cfg7.N → sProp 𝕄
  | 0, _ => Pipeline.ΦA spec7 c
  | n + 1, hn => iprop(iprop(owns (c : Thread nD τ) scM7 fullShare (sc7 V c n hn) ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7 fullShare (sc7 V c n hn) ∗ Pipeline.scopedRestBut (Ix := Unit) (Name := ℕ) (U := UR sig nD τ) (Lvl := ℕ) (Val := Elt F) spec7 c [cc7_scratch0]) ∗ (∃ r, prngReg c r)) := rfl

theorem PhiS7_pos (c : Dev nD) (n : ℕ) (h : n ≤ cfg7.N) (hz : n ≠ 0) :
    PhiS7 V c n h = iprop(iprop(owns (c : Thread nD τ) scM7 fullShare (sc7 V c (n - 1) (by omega)) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => k3_pay3 (iblk7 V c 2 t) (iblk7 V c 3 t) (iblk7 V c 4 t) (sc7 V c t.val t.isLt)
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := rfl

theorem after7_5_flush (c : Dev nD) (t : Fin cfg7.N) (h : t.val % 196 = 195) :
    (dat7 V c).after 5 t = k3_pay3 (iblk7 V c 2 t) (iblk7 V c 3 t) (iblk7 V c 4 t) (sc7 V c t.val t.isLt) := by
  dsimp only [dat7]

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d
theorem before7_2 (c : Dev nD) (t : Fin cfg7.N) (d) : (dat7 V c).before 2 t d = iblk7 V c 2 t :=
  (dat7 V c).before_in_eq_fetched 2 rfl (fun _ => rfl) (fun _ _ _ => rfl) (fun _ => rfl) t d
theorem before7_3 (c : Dev nD) (t : Fin cfg7.N) (d) : (dat7 V c).before 3 t d = iblk7 V c 3 t :=
  (dat7 V c).before_in_eq_fetched 3 rfl (fun _ => rfl) (fun _ _ _ => rfl) (fun _ => rfl) t d
theorem before7_4 (c : Dev nD) (t : Fin cfg7.N) (d) : (dat7 V c).before 4 t d = iblk7 V c 4 t :=
  (dat7 V c).before_in_eq_fetched 4 rfl (fun _ => rfl) (fun _ _ _ => rfl) (fun _ => rfl) t d

abbrev ms7_0 (t : Fin cfg7.N) : Memref sig .tc .vmem S2048 .i32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S2048x20 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1024x20 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S20x20 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S20 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1024x20 .f32 := win7_5.stage (cfg7.slots t 5)
abbrev hs7_5 (t : Fin cfg7.N) : (ms7_5 t).IsWhole := hstage7_5 ((cfg7.slots t 5).cast nbuf7_5)

abbrev bodyAt7 (t : Fin cfg7.N) : Prog (TpuEff nD τ sig (Elt F) Λ₀ .tc) PUnit :=
  cc7__scatter_residual_kernel (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _)

theorem leaves7_0 (c : Dev nD) (t : Fin cfg7.N) :
    (dat7 V c).leavesExact 0 t = owns (c : Thread nD τ) (ms7_0 t) fullShare (iblk7 V c 0 t) := rfl
theorem leaves7_1 (c : Dev nD) (t : Fin cfg7.N) :
    (dat7 V c).leavesExact 1 t = owns (c : Thread nD τ) (ms7_1 t) fullShare (iblk7 V c 1 t) := rfl
theorem leaves7_2 (c : Dev nD) (t : Fin cfg7.N) :
    (dat7 V c).leavesExact 2 t = owns (c : Thread nD τ) (ms7_2 t) fullShare (iblk7 V c 2 t) := rfl
theorem leaves7_3 (c : Dev nD) (t : Fin cfg7.N) :
    (dat7 V c).leavesExact 3 t = owns (c : Thread nD τ) (ms7_3 t) fullShare (iblk7 V c 3 t) := rfl
theorem leaves7_4 (c : Dev nD) (t : Fin cfg7.N) :
    (dat7 V c).leavesExact 4 t = owns (c : Thread nD τ) (ms7_4 t) fullShare (iblk7 V c 4 t) := rfl

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t)

theorem Phi_out7 (c : Dev nD) (t : Fin (cfg7.N + 1)) : (dat7 V c).Φ t ⊢ Pipeline.ΦA spec7 c := by
  rw [show (dat7 V c).Φ t = PhiS7 V c t.val (Nat.le_of_lt_succ t.isLt) from rfl]
  by_cases ht : t.val = 0
  · rw [PhiS7_zero V c _ _ ht]
  rw [PhiS7_pos V c _ _ ht, PhiA7_eq]
  iintro ⟨⟨HS, HR⟩, Hg⟩
  iframe HR Hg
  iexists _; iexact HS

set_option maxHeartbeats 4800000 in
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0 V, before7_1 V, before7_2 V, before7_3 V, before7_4 V]
  rw [show (dat7 V c).owesAt () t.succ = (dat7 V c).owesAt () t.castSucc from rfl]
  rw [show (dat7 V c).Φ t.succ = PhiS7 V c (t.val + 1) t.isLt from rfl, PhiS7_succ]
  rw [leaves7_0 V c t, leaves7_1 V c t, leaves7_2 V c t, leaves7_3 V c t, leaves7_4 V c t]
  by_cases h0 : t.val % 196 = 0
  · have h1 : ¬t.val % 196 = 195 := by omega
    rw [Dat.leavesExact_idle (dat7 V c) 5 t (idleAt7_5 _ (fun h => h1 ((hcond3_1 t).mp h))) (noFlush7_5 t h1)]
    rw [sc7_eq V c t, if_pos h0]
    refine (sep_mono_left (Phi_out7 V c t.castSucc)).trans ?_
    rw [PhiA7_eq]
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩⟩
    iapply (run3_first c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) ((hcond3_0 t).mpr h0) (fun h => h1 ((hcond3_1 t).mp h)) (iblk7 V c 0 t) (iblk7 V c 1 t) (iblk7 V c 2 t) (iblk7 V c 3 t) (iblk7 V c 4 t) _ Set.univ _)
    iframe H0 H1 H2 H3 H4 H5
    isplitl [HS]; · iexists _; iexact HS
    iintro ⟨H0, H1, H2, H3, H4, H5, HS⟩
    iframe HS HR Hg Ho H0 H1 H2 H3 H4
    iexists _; iexact H5
  · rw [PhiS7_castSucc V c t, PhiS7_pos V c _ _ (by omega)]
    by_cases h1 : t.val % 196 = 195
    · rw [show (dat7 V c).leavesExact 5 t = owns (c : Thread nD τ) (ms7_5 t) fullShare ((dat7 V c).after 5 t) from by
        unfold Dat.leavesExact; rw [liveAt7_5 _ ((hcond3_1 t).mpr h1)], after7_5_flush V c t h1]
      rw [sc7_eq V c t, if_neg h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run3_last c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) (fun h => h0 ((hcond3_0 t).mp h)) ((hcond3_1 t).mpr h1) (iblk7 V c 0 t) (iblk7 V c 1 t) (iblk7 V c 2 t) (iblk7 V c 3 t) (iblk7 V c 4 t) _ Set.univ _)
      iframe H0 H1 H2 H3 H4 HS
      isplitl [H5]; · iexists _; iexact H5
      iintro ⟨H0, H1, H2, H3, H4, H5, HS⟩
      iframe HS HR Hg Ho H0 H1 H2 H3 H4
      iexact H5
    · rw [Dat.leavesExact_idle (dat7 V c) 5 t (idleAt7_5 _ (fun h => h1 ((hcond3_1 t).mp h))) (noFlush7_5 t h1)]
      rw [sc7_eq V c t, if_neg h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run3_mid c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) (fun h => h0 ((hcond3_0 t).mp h)) (fun h => h1 ((hcond3_1 t).mp h)) (iblk7 V c 0 t) (iblk7 V c 1 t) (iblk7 V c 2 t) (iblk7 V c 3 t) (iblk7 V c 4 t) _ _ Set.univ _)
      iframe H0 H1 H2 H3 H4 H5 HS
      iintro ⟨H0, H1, H2, H3, H4, H5, HS⟩
      iframe HS HR Hg Ho H0 H1 H2 H3 H4
      iexists _; iexact H5

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 :=
  Idealize.SL.BI.Entails.refl _

theorem hout7 (c : Dev nD) : (dat7 V c).Φ (Fin.last cfg7.N) ⊢ Pipeline.ΦA spec7 c :=
  Phi_out7 V c _

end Cert.Kernel.Hand

end
-- ==== Proof.K.R8Run.lean ====
import proofs.«415925_j84189948936386_1_alg».proof.Proof.Gen.Kernel.Launch
import proofs.«415925_j84189948936386_1_alg».proof.Proof.Gen.Kernel.Skeleton
import proofs.«415925_j84189948936386_1_alg».proof.Proof.KI.Whole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.KernelIdeal.Hand (off_zero readAt_unread_full read_writes_full readCov_full)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond8_0 (i : grid8.Coords) : Prop :=
  (Scalar.cmpi .ne (Scalar.extui (Scalar.cmpi .eq (BitVec.ofNat 32 (i 1).val) 0#32)) 0#32) = 1#1

abbrev cond8_1 (i : grid8.Coords) : Prop := k8_cond2 i = 1#1

theorem coords8_1 (t : Fin cfg8.N) : ((grid8.coords t) 1).val = t.val % 25 := by
  have hs : grid8.stride 1 = 1 := by decide
  have hb : grid8.bound 1 = 25 := rfl
  show t.val / grid8.stride 1 % grid8.bound 1 = t.val % 25
  rw [hs, hb, Nat.div_one]

theorem cond8_0_iff : ∀ j : Fin 25,
    ((Scalar.cmpi .ne (Scalar.extui (Scalar.cmpi .eq (BitVec.ofNat 32 j.val) 0#32)) 0#32) = 1#1) ↔ j.val = 0 := by decide
theorem cond8_1_iff : ∀ j : Fin 25,
    ((Scalar.cmpi .ne (Scalar.extui (Scalar.cmpi .eq (BitVec.ofNat 32 j.val) 24#32)) 0#32) = 1#1) ↔ j.val = 24 := by decide

theorem hcond8_0 (t : Fin cfg8.N) : cond8_0 (grid8.coords t) ↔ t.val % 25 = 0 :=
  (cond8_0_iff (grid8.coords t 1)).trans (by rw [coords8_1 t])

theorem hcond8_1 (t : Fin cfg8.N) : cond8_1 (grid8.coords t) ↔ t.val % 25 = 24 :=
  (cond8_1_iff (grid8.coords t 1)).trans (by rw [coords8_1 t])

variable (c : Dev nD) (i : grid8.Coords) (arg2 : Memref sig .tc .vmem S2048 .i32) (harg2 : arg2.IsWhole) (arg3 : Memref sig .tc .vmem S2048 .i32) (harg3 : arg3.IsWhole) (arg4 : Memref sig .tc .vmem S1024x20 .f32) (harg4 : arg4.IsWhole) (arg5 : Memref sig .tc .vmem S40x200 .f32) (harg5 : arg5.IsWhole) (arg6 : Memref sig .tc .vmem S200 .f32) (harg6 : arg6.IsWhole) (arg7 : Memref sig .tc .vmem S200x20 .f32) (harg7 : arg7.IsWhole) (arg8 : Memref sig .tc .vmem S20 .f32) (harg8 : arg8.IsWhole) (arg9 : Memref sig .tc .vmem S20x1 .f32) (harg9 : arg9.IsWhole) (arg10 : Memref sig .tc .vmem S1 .f32) (harg10 : arg10.IsWhole) (arg11 : Memref sig .tc .vmem S2048x1 .f32) (harg11 : arg11.IsWhole) (arg12 : Memref sig .tc .vmem S2048x20 .f32) (harg12 : arg12.IsWhole) (arg13 : Memref sig .tc .vmem S2048x20 .f32) (harg13 : arg13.IsWhole)

set_option maxHeartbeats 1000000 in

theorem run8_first
    (hc0 : cond8_0 i) (hc1 : ¬cond8_1 i)
    (x0 : Vec F S2048 .i32) (x1 : Vec F S2048 .i32) (x2 : Vec F S1024x20 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2
            ∗ owns (c : Thread nD τ) arg12 fullShare (k8_pay6 i x1 x2 k8_pay2) ∗ owns (c : Thread nD τ) arg13 fullShare (k8_pay7 i x0 x2 k8_pay3)) -∗ K ⟨⟩))
      ⊢ wp frame (wpE (defs₀ (F := F)) Variants.none c none) E (cc8__gather_mlp_kernel i arg2 harg2 arg3 harg3 arg4 harg4 arg5 harg5 arg6 harg6 arg7 harg7 arg8 harg8 arg9 harg9 arg10 harg10 arg11 harg11 arg12 harg12 arg13 harg13) K := by
  sl_unfold [cc8__gather_mlp_kernel]
  unfold owns
  iintro ⟨⟨%f0, %hf0, H0⟩, ⟨%f1, %hf1, H1⟩, ⟨%f2, %hf2, H2⟩, ⟨%dI, %fI, -, HI⟩, ⟨%dJ, %fJ, -, HJ⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HI]
  · iexists _; isplitr
    swap; · iexact HI
    ipureintro
    refine (read_writes_full _ _ _ _ _).trans ?_
    sl_unfold_run_names
    rw [readAt_unread_full harg3, readAt_unread_full harg4, readCov_full]
  · iexists _; isplitr
    swap; · iexact HJ
    ipureintro
    refine (read_writes_full _ _ _ _ _).trans ?_
    sl_unfold_run_names
    rw [readAt_unread_full harg2, readAt_unread_full harg4, readCov_full]

set_option maxHeartbeats 1000000 in

theorem run8_mid
    (hc0 : ¬cond8_0 i) (hc1 : ¬cond8_1 i)
    (x0 : Vec F S2048 .i32) (x1 : Vec F S2048 .i32) (x2 : Vec F S1024x20 .f32)
    (a : Vec F S2048x20 .f32) (b : Vec F S2048x20 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg12 fullShare a ∗ owns (c : Thread nD τ) arg13 fullShare b
        ∗ (iprop(owns (c : Thread nD τ) arg2 fullShare x0 ∗ owns (c : Thread nD τ) arg3 fullShare x1 ∗ owns (c : Thread nD τ) arg4 fullShare x2
            ∗ owns (c : Thread nD τ) arg12 fullShare (k8_pay6 i x1 x2 a) ∗ owns (c : Thread nD τ) arg13 fullShare (k8_pay7 i x0 x2 b)) -∗ K ⟨⟩))
      ⊢ wp frame (wpE (defs₀ (F := F)) Variants.none c none) E (cc8__gather_mlp_kernel i arg2 harg2 arg3 harg3 arg4 harg4 arg5 harg5 arg6 harg6 arg7 harg7 arg8 harg8 arg9 harg9 arg10 harg10 arg11 harg11 arg12 harg12 arg13 harg13) K := by
  sl_unfold [cc8__gather_mlp_kernel]
  unfold owns
  iintro ⟨⟨%f0, %hf0, H0⟩, ⟨%f1, %hf1, H1⟩, ⟨%f2, %hf2, H2⟩, ⟨%fI, %hfI, HI⟩, ⟨%fJ, %hfJ, HJ⟩, Hk⟩
  obtain rfl := harg2.eq_unread hf0; obtain rfl := harg3.eq_unread hf1; obtain rfl := harg4.eq_unread hf2
  obtain rfl := harg12.eq_unread hfI; obtain rfl := harg13.eq_unread hfJ
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HI]
  · iexists _; isplitr
    swap; · iexact HI
    ipureintro
    refine (read_writes_full _ _ _ _ _).trans ?_
    sl_unfold_run_names
    rw [readAt_unread_full harg3, readAt_unread_full harg4, readAt_unread_full harg12]
  · iexists _; isplitr
    swap; · iexact HJ
    ipureintro
    refine (read_writes_full _ _ _ _ _).trans ?_
    sl_unfold_run_names
    rw [readAt_unread_full harg2, readAt_unread_full harg4, readAt_unread_full harg13]

set_option maxHeartbeats 1000000 in

theorem run8_last
    (hc0 : ¬cond8_0 i) (hc1 : cond8_1 i)
    (x0 : Vec F S2048 .i32) (x1 : Vec F S2048 .i32) (x2 : Vec F S1024x20 .f32)
    (x3 : Vec F S40x200 .f32) (x4 : Vec F S200 .f32) (x5 : Vec F S200x20 .f32) (x6 : Vec F S20 .f32) (x7 : Vec F S20x1 .f32) (x8 : Vec F S1 .f32)
    (a : Vec F S2048x20 .f32) (b : Vec F S2048x20 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8
        ∗ (∃ d, owns (c : Thread nD τ) arg11 fullShare d)
        ∗ owns (c : Thread nD τ) arg12 fullShare a ∗ owns (c : Thread nD τ) arg13 fullShare b
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare (k8_pay1 (k8_pay6 i x1 x2 a) (k8_pay7 i x0 x2 b) x3 x4 x5 x6 x7 x8)
            ∗ owns (c : Thread nD τ) arg12 fullShare (k8_pay6 i x1 x2 a) ∗ owns (c : Thread nD τ) arg13 fullShare (k8_pay7 i x0 x2 b)) -∗ K ⟨⟩))
      ⊢ wp frame (wpE (defs₀ (F := F)) Variants.none c none) E (cc8__gather_mlp_kernel i arg2 harg2 arg3 harg3 arg4 harg4 arg5 harg5 arg6 harg6 arg7 harg7 arg8 harg8 arg9 harg9 arg10 harg10 arg11 harg11 arg12 harg12 arg13 harg13) K := by
  sl_unfold [cc8__gather_mlp_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dO, %fO, -, HO⟩, ⟨%fI, %hfI, HI⟩, ⟨%fJ, %hfJ, HJ⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg12.eq_unread hfI; obtain rfl := harg13.eq_unread hfJ
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HO]
  · iexists _; isplitr
    swap; · iexact HO
    ipureintro
    refine (read_writes_full _ _ _ _ _).trans ?_
    sl_unfold_run_names
    rw [readCov_full, readCov_full, readAt_unread_full harg3, readAt_unread_full harg4, readAt_unread_full harg12, readAt_unread_full harg2, readAt_unread_full harg13, readAt_unread_full harg5, readAt_unread_full harg6, readAt_unread_full harg7, readAt_unread_full harg8, readAt_unread_full harg9, readAt_unread_full harg10]
  isplitl [HI]
  · iexists _; isplitr
    swap; · iexact HI
    ipureintro
    refine (read_writes_full _ _ _ _ _).trans ?_
    sl_unfold_run_names
    rw [readAt_unread_full harg3, readAt_unread_full harg4, readAt_unread_full harg12]
  · iexists _; isplitr
    swap; · iexact HJ
    ipureintro
    refine (read_writes_full _ _ _ _ _).trans ?_
    sl_unfold_run_names
    rw [readAt_unread_full harg2, readAt_unread_full harg4, readAt_unread_full harg13]

end Cert.Kernel.Hand
end
-- ==== Proof.K.R8Dat.lean ====
import proofs.«415925_j84189948936386_1_alg».proof.Proof.K.R8Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev ms8_0 (t : Fin cfg8.N) : Memref sig .tc .vmem S2048 .i32 := (cfg8.win 0).stage (cfg8.slots t 0)
abbrev hs8_0 (t : Fin cfg8.N) : (ms8_0 t).IsWhole := hstage8_0 ((cfg8.slots t 0).cast nbuf8_0)
abbrev ms8_1 (t : Fin cfg8.N) : Memref sig .tc .vmem S2048 .i32 := (cfg8.win 1).stage (cfg8.slots t 1)
abbrev hs8_1 (t : Fin cfg8.N) : (ms8_1 t).IsWhole := hstage8_1 ((cfg8.slots t 1).cast nbuf8_1)
abbrev ms8_2 (t : Fin cfg8.N) : Memref sig .tc .vmem S1024x20 .f32 := (cfg8.win 2).stage (cfg8.slots t 2)
abbrev hs8_2 (t : Fin cfg8.N) : (ms8_2 t).IsWhole := hstage8_2 ((cfg8.slots t 2).cast nbuf8_2)
abbrev ms8_3 (t : Fin cfg8.N) : Memref sig .tc .vmem S40x200 .f32 := (cfg8.win 3).stage (cfg8.slots t 3)
abbrev hs8_3 (t : Fin cfg8.N) : (ms8_3 t).IsWhole := hstage8_3 ((cfg8.slots t 3).cast nbuf8_3)
abbrev ms8_4 (t : Fin cfg8.N) : Memref sig .tc .vmem S200 .f32 := (cfg8.win 4).stage (cfg8.slots t 4)
abbrev hs8_4 (t : Fin cfg8.N) : (ms8_4 t).IsWhole := hstage8_4 ((cfg8.slots t 4).cast nbuf8_4)
abbrev ms8_5 (t : Fin cfg8.N) : Memref sig .tc .vmem S200x20 .f32 := (cfg8.win 5).stage (cfg8.slots t 5)
abbrev hs8_5 (t : Fin cfg8.N) : (ms8_5 t).IsWhole := hstage8_5 ((cfg8.slots t 5).cast nbuf8_5)
abbrev ms8_6 (t : Fin cfg8.N) : Memref sig .tc .vmem S20 .f32 := (cfg8.win 6).stage (cfg8.slots t 6)
abbrev hs8_6 (t : Fin cfg8.N) : (ms8_6 t).IsWhole := hstage8_6 ((cfg8.slots t 6).cast nbuf8_6)
abbrev ms8_7 (t : Fin cfg8.N) : Memref sig .tc .vmem S20x1 .f32 := (cfg8.win 7).stage (cfg8.slots t 7)
abbrev hs8_7 (t : Fin cfg8.N) : (ms8_7 t).IsWhole := hstage8_7 ((cfg8.slots t 7).cast nbuf8_7)
abbrev ms8_8 (t : Fin cfg8.N) : Memref sig .tc .vmem S1 .f32 := (cfg8.win 8).stage (cfg8.slots t 8)
abbrev hs8_8 (t : Fin cfg8.N) : (ms8_8 t).IsWhole := hstage8_8 ((cfg8.slots t 8).cast nbuf8_8)
abbrev ms8_9 (t : Fin cfg8.N) : Memref sig .tc .vmem S2048x1 .f32 := (cfg8.win 9).stage (cfg8.slots t 9)
abbrev hs8_9 (t : Fin cfg8.N) : (ms8_9 t).IsWhole := hstage8_9 ((cfg8.slots t 9).cast nbuf8_9)

abbrev scM8_0 : Memref sig .tc .vmem S2048x20 .f32 := Memref.whole cc8_scratch0
abbrev scM8_1 : Memref sig .tc .vmem S2048x20 .f32 := Memref.whole cc8_scratch1

def scI8 (c : Dev nD) : (n : ℕ) → n < cfg8.N → Vec F S2048x20 .f32
  | 0, hn => k8_pay6 (grid8.coords ⟨0, hn⟩) (iblk8 V c 1 ⟨0, hn⟩) (iblk8 V c 2 ⟨0, hn⟩) k8_pay2
  | n + 1, hn => k8_pay6 (grid8.coords ⟨n + 1, hn⟩) (iblk8 V c 1 ⟨n + 1, hn⟩) (iblk8 V c 2 ⟨n + 1, hn⟩)
      (if (n + 1) % 25 = 0 then k8_pay2 else scI8 c n (Nat.lt_of_succ_lt hn))

def scJ8 (c : Dev nD) : (n : ℕ) → n < cfg8.N → Vec F S2048x20 .f32
  | 0, hn => k8_pay7 (grid8.coords ⟨0, hn⟩) (iblk8 V c 0 ⟨0, hn⟩) (iblk8 V c 2 ⟨0, hn⟩) k8_pay3
  | n + 1, hn => k8_pay7 (grid8.coords ⟨n + 1, hn⟩) (iblk8 V c 0 ⟨n + 1, hn⟩) (iblk8 V c 2 ⟨n + 1, hn⟩)
      (if (n + 1) % 25 = 0 then k8_pay3 else scJ8 c n (Nat.lt_of_succ_lt hn))

theorem scI8_eq (c : Dev nD) (t : Fin cfg8.N) :
    scI8 V c t.val t.isLt = k8_pay6 (grid8.coords t) (iblk8 V c 1 t) (iblk8 V c 2 t)
      (if t.val % 25 = 0 then k8_pay2 else scI8 V c (t.val - 1) (Nat.lt_of_le_of_lt (Nat.sub_le _ _) t.isLt)) := by
  obtain ⟨n, hn⟩ := t
  cases n with
  | zero => exact (congrArg (k8_pay6 _ _ _) (if_pos (Nat.zero_mod 25)).symm)
  | succ n => rfl

theorem scJ8_eq (c : Dev nD) (t : Fin cfg8.N) :
    scJ8 V c t.val t.isLt = k8_pay7 (grid8.coords t) (iblk8 V c 0 t) (iblk8 V c 2 t)
      (if t.val % 25 = 0 then k8_pay3 else scJ8 V c (t.val - 1) (Nat.lt_of_le_of_lt (Nat.sub_le _ _) t.isLt)) := by
  obtain ⟨n, hn⟩ := t
  cases n with
  | zero => exact (congrArg (k8_pay7 _ _ _) (if_pos (Nat.zero_mod 25)).symm)
  | succ n => rfl

abbrev rest8 (c : Dev nD) : sProp 𝕄 :=
  Pipeline.scopedRestBut (Ix := Unit) (Name := ℕ) (U := UR sig nD τ) (Lvl := ℕ) (Val := Elt F) spec8 c [cc8_scratch0, cc8_scratch1]

theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d)) ∗ rest8 c)
          ∗ (∃ r, prngReg c r)) := by
  unfold Pipeline.ΦA; rw [scopedRest8_split]; simp only [scM8_0, scM8_1, owns_whole]; try rfl

def PhiS8 (c : Dev nD) : (n : ℕ) → n ≤ cfg8.N → sProp 𝕄
  | 0, _ => Pipeline.ΦA spec8 c
  | n + 1, hn => iprop(iprop(iprop(owns (c : Thread nD τ) scM8_0 fullShare (scI8 V c n hn) ∗ owns (c : Thread nD τ) scM8_1 fullShare (scJ8 V c n hn)) ∗ rest8 c)
      ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(iprop(owns (c : Thread nD τ) scM8_0 fullShare (scI8 V c n hn) ∗ owns (c : Thread nD τ) scM8_1 fullShare (scJ8 V c n hn)) ∗ rest8 c)
      ∗ (∃ r, prngReg c r)) := rfl

theorem PhiS8_pos (c : Dev nD) (n : ℕ) (h : n ≤ cfg8.N) (hz : n ≠ 0) :
    PhiS8 V c n h = iprop(iprop(iprop(owns (c : Thread nD τ) scM8_0 fullShare (scI8 V c (n - 1) (by omega)) ∗ owns (c : Thread nD τ) scM8_1 fullShare (scJ8 V c (n - 1) (by omega))) ∗ rest8 c)
      ∗ (∃ r, prngReg c r)) := by
  cases n with
  | zero => exact absurd rfl hz
  | succ n => rfl

theorem PhiS8_weak (c : Dev nD) (n : ℕ) (h : n ≤ cfg8.N) : PhiS8 V c n h ⊢ Pipeline.ΦA spec8 c := by
  cases n with
  | zero => exact Idealize.SL.BI.Entails.refl _
  | succ n =>
    rw [PhiS8_succ, PhiA8_eq]
    iintro ⟨⟨⟨HI, HJ⟩, HR⟩, Hg⟩
    isplitl [HI HJ HR]
    · isplitl [HI HJ]
      · isplitl [HI]; · iexists _; iexact HI
        iexists _; iexact HJ
      iexact HR
    iexact Hg

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => k8_pay1 (scI8 V c t.val t.isLt) (scJ8 V c t.val t.isLt) (iblk8 V c 3 t) (iblk8 V c 4 t) (iblk8 V c 5 t) (iblk8 V c 6 t) (iblk8 V c 7 t) (iblk8 V c 8 t)
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_9 (c : Dev nD) (t : Fin cfg8.N) : (dat8 V c).after 9 t = k8_pay1 (scI8 V c t.val t.isLt) (scJ8 V c t.val t.isLt) (iblk8 V c 3 t) (iblk8 V c 4 t) (iblk8 V c 5 t) (iblk8 V c 6 t) (iblk8 V c 7 t) (iblk8 V c 8 t) := by dsimp only [dat8]

theorem after8_9_flush (c : Dev nD) (t : Fin cfg8.N) (h : t.val % 25 = 24) : (dat8 V c).after 9 t = k8_pay1 (scI8 V c t.val t.isLt) (scJ8 V c t.val t.isLt) (iblk8 V c 3 t) (iblk8 V c 4 t) (iblk8 V c 5 t) (iblk8 V c 6 t) (iblk8 V c 7 t) (iblk8 V c 8 t) :=
  after8_9 V c t

theorem before8_in (c : Dev nD) (w : Fin cfg8.W) (hw : w ≠ 9) (t : Fin cfg8.N) (d) : (dat8 V c).before w t d = (dat8 V c).after w t := by
  fin_cases w <;> first
    | exact absurd rfl hw
    | exact (dat8 V c).before_in_eq_fetched _ rfl (fun _ => rfl) (fun _ _ _ => rfl) (fun _ => rfl) t d

theorem leaves8_in (c : Dev nD) (w : Fin cfg8.W) (hw : w ≠ 9) (t : Fin cfg8.N) :
    (dat8 V c).leavesExact w t = owns (c : Thread nD τ) ((cfg8.win w).stage (cfg8.slots t w)) fullShare ((dat8 V c).after w t) := by
  fin_cases w <;> first | exact absurd rfl hw | rfl

theorem idle8_9 (i : grid8.Coords) (h : ¬cond8_1 i) : cfg8.idle 9 i = true := by
  show (!(k8_cond2 i == 1#1)) = true
  rw [Bool.not_eq_true', beq_eq_false_iff_ne]; exact h

theorem live8_9 (i : grid8.Coords) (h : cond8_1 i) : cfg8.idle 9 i = false := by
  show (!(k8_cond2 i == 1#1)) = false
  rw [Bool.not_eq_false', beq_iff_eq]; exact h

theorem noFlush8_9 (t : Fin cfg8.N) (h : ¬t.val % 25 = 24) : (cfg8.win 9).flush t = false := by
  have hN : grid8.N = 4900 := N_8
  have ht : t.val < 4900 := lt_of_lt_of_eq t.isLt hN
  have hs : grid8.stride 0 = 25 := by decide
  have hidx : ∀ h1 : t.val + 1 < grid8.N, win8_9.index ⟨t.val + 1, h1⟩ = win8_9.index t := fun h1 =>
    hreads8_9 _ _ (Fin.forall_fin_two.mpr ⟨fun _ => Fin.ext (by
      show (t.val + 1) / grid8.stride 0 % grid8.bound 0 = t.val / grid8.stride 0 % grid8.bound 0
      rw [hs]; congr 1; omega), fun ha => absurd ha (by decide)⟩)
  show (win8_9.isOut && (decide (t.val + 1 = grid8.N) || decide (∃ h1 : t.val + 1 < grid8.N, win8_9.index ⟨t.val + 1, h1⟩ ≠ win8_9.index t))) = false
  rw [Bool.and_eq_false_iff]; right
  rw [Bool.or_eq_false_iff]
  exact ⟨decide_eq_false (by omega), decide_eq_false fun ⟨h1, hne⟩ => hne (hidx h1)⟩

def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d))
    ∗ (∃ d, owns (c : Thread nD τ) (ms8_7 t) fullShare ((dat8 V c).before 7 t d))
    ∗ (∃ d, owns (c : Thread nD τ) (ms8_8 t) fullShare ((dat8 V c).before 8 t d))
    ∗ (∃ d, owns (c : Thread nD τ) (ms8_9 t) fullShare ((dat8 V c).before 9 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t
    ∗ (dat8 V c).leavesExact 8 t
    ∗ (dat8 V c).leavesExact 9 t)

set_option maxHeartbeats 4800000 in
theorem sound_body8 (c : Dev nD) (t : Fin cfg8.N) :
    bodyPre8 V c t ⊢ wp frame (wpE (defs₀ (F := F)) Variants.none c none) Set.univ (cc8__gather_mlp_kernel (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) scM8_0 (Memref.isWhole_whole _) scM8_1 (Memref.isWhole_whole _)) (fun _ => bodyPost8 V c t) := by
  unfold bodyPre8 bodyPost8
  simp (config := {decide := true}) only [before8_in]
  rw [show (dat8 V c).owesAt () t.succ = (dat8 V c).owesAt () t.castSucc from rfl]
  rw [show (dat8 V c).Φ t.succ = PhiS8 V c (t.val + 1) t.isLt from rfl, PhiS8_succ]
  simp (config := {decide := true}) only [leaves8_in]
  rw [scI8_eq V c t, scJ8_eq V c t]
  by_cases h0 : t.val % 25 = 0
  · have h1 : ¬t.val % 25 = 24 := by omega
    have hc0 : cond8_0 (grid8.coords t) := (hcond8_0 t).mpr h0
    have hc1 : ¬cond8_1 (grid8.coords t) := fun h => h1 ((hcond8_1 t).mp h)
    rw [Dat.leavesExact_idle (dat8 V c) 9 t (idle8_9 _ hc1) (noFlush8_9 t h1), if_pos h0, if_pos h0, PhiS8_castSucc V c t]
    refine (sep_mono_left (PhiS8_weak V c _ _)).trans ?_
    rw [PhiA8_eq]
    iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run8_first c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) scM8_0 (Memref.isWhole_whole _) scM8_1 (Memref.isWhole_whole _) hc0 hc1 ((dat8 V c).after 0 t) ((dat8 V c).after 1 t) ((dat8 V c).after 2 t) Set.univ _)
    iframe H0 H1 H2 HI HJ
    iintro ⟨H0, H1, H2, HI, HJ⟩
    iframe
    isplitl [HI HJ]
    · isplitl [HI]; · iexact HI
      iexact HJ
    iexists _; iexact H9
  · have hz : t.val ≠ 0 := fun e => h0 (by rw [e])
    have hc0 : ¬cond8_0 (grid8.coords t) := fun h => h0 ((hcond8_0 t).mp h)
    rw [if_neg h0, if_neg h0, PhiS8_castSucc V c t, PhiS8_pos V c _ _ hz]
    by_cases h1 : t.val % 25 = 24
    · have hc1 : cond8_1 (grid8.coords t) := (hcond8_1 t).mpr h1
      rw [show (dat8 V c).leavesExact 9 t = owns (c : Thread nD τ) (ms8_9 t) fullShare ((dat8 V c).after 9 t) from by
        unfold Dat.leavesExact; rw [live8_9 _ hc1], after8_9, scI8_eq V c t, scJ8_eq V c t, if_neg h0, if_neg h0]
      iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run8_last c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) scM8_0 (Memref.isWhole_whole _) scM8_1 (Memref.isWhole_whole _) hc0 hc1 ((dat8 V c).after 0 t) ((dat8 V c).after 1 t) ((dat8 V c).after 2 t) ((dat8 V c).after 3 t) ((dat8 V c).after 4 t) ((dat8 V c).after 5 t) ((dat8 V c).after 6 t) ((dat8 V c).after 7 t) ((dat8 V c).after 8 t) (scI8 V c (t.val - 1) (Nat.lt_of_le_of_lt (Nat.sub_le _ _) t.isLt)) (scJ8 V c (t.val - 1) (Nat.lt_of_le_of_lt (Nat.sub_le _ _) t.isLt)) Set.univ _)
      iframe H0 H1 H2 H3 H4 H5 H6 H7 H8
      isplitl [H9]; · iexists _; iexact H9
      iframe HI HJ
      iintro ⟨H0, H1, H2, H3, H4, H5, H6, H7, H8, H9, HI, HJ⟩
      iframe
      isplitl [HI HJ]
      · isplitl [HI]; · iexact HI
        iexact HJ
      iexact H9
    · have hc1 : ¬cond8_1 (grid8.coords t) := fun h => h1 ((hcond8_1 t).mp h)
      rw [Dat.leavesExact_idle (dat8 V c) 9 t (idle8_9 _ hc1) (noFlush8_9 t h1)]
      iintro ⟨⟨⟨⟨HI, HJ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run8_mid c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) scM8_0 (Memref.isWhole_whole _) scM8_1 (Memref.isWhole_whole _) hc0 hc1 ((dat8 V c).after 0 t) ((dat8 V c).after 1 t) ((dat8 V c).after 2 t) (scI8 V c (t.val - 1) (Nat.lt_of_le_of_lt (Nat.sub_le _ _) t.isLt)) (scJ8 V c (t.val - 1) (Nat.lt_of_le_of_lt (Nat.sub_le _ _) t.isLt)) Set.univ _)
      iframe H0 H1 H2 HI HJ
      iintro ⟨H0, H1, H2, HI, HJ⟩
      iframe
      isplitl [HI HJ]
      · isplitl [HI]; · iexact HI
        iexact HJ
      iexists _; iexact H9

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

theorem hout8 (c : Dev nD) : (dat8 V c).Φ (Fin.last cfg8.N) ⊢ Pipeline.ΦA spec8 c :=
  PhiS8_weak V c (Fin.last cfg8.N).val (Nat.le_of_lt_succ (Fin.last cfg8.N).isLt)

end Cert.Kernel.Hand
end
-- ==== Proof.K.R9Run.lean ====
import proofs.«415925_j84189948936386_1_alg».proof.Proof.Gen.Kernel.Launch
import proofs.«415925_j84189948936386_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.WholeRead
import Idealize.ShloMosaic.Lib.WritesUnit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem read_writes_whole9 {sg : RefSig} {κ : Kind} {sp : Space} {s : Shape} {e : EltTy} {Val : EltTy → Type}
    (v : View sg κ sp s e) (f : v.ty.Contents Val) {off : Fin s.rank → ℕ} (inb : ∀ a, off a + s.size a ≤ s.size a)
    (w : s.Idx → Val e) (L : List (View.Piece Val s e)) :
    v.read Val (v.writes Val f ((⟨Rect.unit off s.size inb, w⟩ : View.Piece Val s e) :: L)) = w :=
  funext fun y => View.read_writes_cons_unit_of_mem v f inb w L y y rfl fun a => by have := inb a; omega

theorem readAt_whole9 {sg : RefSig} {κ : Kind} {sp : Space} {s : Shape} {e : EltTy} {Val : EltTy → Type}
    {m : Memref sg κ sp s e} (h : m.IsWhole) (X : s.Idx → Val e) {off : Fin s.rank → ℕ}
    (inb : ∀ a, off a + s.size a ≤ s.size a) :
    m.view.readAt Val (Rect.unit off s.size inb).toLoadRect (h.unread X) = X :=
  funext fun x => (h.readAt_unread X _ x).trans (congrArg X (funext fun a => Fin.ext (by
    show off a + 1 * (x a).val = (x a).val
    have := inb a; omega)))

theorem coords9_1 (t : Fin cfg9.N) : ((grid9.coords t) 1).val = t.val % 196 := by
  have hs : grid9.stride 1 = 1 := by decide
  have hb : grid9.bound 1 = 196 := rfl
  show t.val / grid9.stride 1 % grid9.bound 1 = t.val % 196
  rw [hs, hb, Nat.div_one]

theorem coords9_0 (t : Fin cfg9.N) : ((grid9.coords t) 0).val = t.val / 196 % 25 := by
  have hs : grid9.stride 0 = 196 := by decide
  have hb : grid9.bound 0 = 25 := rfl
  show t.val / grid9.stride 0 % grid9.bound 0 = t.val / 196 % 25
  rw [hs, hb]

abbrev cond9_0 (i : grid9.Coords) : Prop :=
  (Scalar.cmpi .ne (Scalar.extui (Scalar.cmpi .eq (BitVec.ofNat 32 (i 1).val) 0#32)) 0#32) = 1#1

abbrev cond9_1 (i : grid9.Coords) : Prop := k9_cond2 i = 1#1

theorem cond9_0_iff : ∀ j : Fin 196,
    ((Scalar.cmpi .ne (Scalar.extui (Scalar.cmpi .eq (BitVec.ofNat 32 j.val) 0#32)) 0#32) = 1#1) ↔ j.val = 0 := by decide +kernel
theorem cond9_1_iff : ∀ j : Fin 196,
    ((Scalar.cmpi .ne (Scalar.extui (Scalar.cmpi .eq (BitVec.ofNat 32 j.val) 195#32)) 0#32) = 1#1) ↔ j.val = 195 := by decide +kernel

theorem hcond9_0 (t : Fin cfg9.N) : cond9_0 (grid9.coords t) ↔ t.val % 196 = 0 :=
  (cond9_0_iff (grid9.coords t 1)).trans (by rw [coords9_1 t])

theorem hcond9_1 (t : Fin cfg9.N) : cond9_1 (grid9.coords t) ↔ t.val % 196 = 195 :=
  (cond9_1_iff (grid9.coords t 1)).trans (by rw [coords9_1 t])

theorem idleAt9_5 (i : grid9.Coords) (h : ¬cond9_1 i) : cfg9.idle 5 i = true := by
  show (!(k9_cond2 i == 1#1)) = true
  rw [show (k9_cond2 i == 1#1) = false from beq_false_of_ne h]; rfl

theorem liveAt9_5 (i : grid9.Coords) (h : cond9_1 i) : cfg9.idle 5 i = false := by
  show (!(k9_cond2 i == 1#1)) = false
  rw [show (k9_cond2 i == 1#1) = true from beq_iff_eq.mpr h]; rfl

theorem noFlush9_5 (t : Fin cfg9.N) (h : ¬t.val % 196 = 195) : (cfg9.win 5).flush t = false := by
  have hN : grid9.N = 4900 := N_9
  have ht : t.val < 4900 := lt_of_lt_of_eq t.isLt hN
  have hidx : ∀ hlt : t.val + 1 < grid9.N, (cfg9.win 5).index ⟨t.val + 1, hlt⟩ = (cfg9.win 5).index t := fun hlt => by
    have e : grid9.coords ⟨t.val + 1, hlt⟩ 0 = grid9.coords t 0 :=
      Fin.ext ((coords9_0 ⟨t.val + 1, hlt⟩).trans (Eq.trans (by
        show (t.val + 1) / 196 % 25 = t.val / 196 % 25
        omega) (coords9_0 t).symm))
    show cc9_transform_5 (grid9.coords ⟨t.val + 1, hlt⟩) = cc9_transform_5 (grid9.coords t)
    unfold cc9_transform_5; rw [e]
  refine Bool.eq_false_iff.mpr fun hf => ?_
  simp only [Pipeline.Window.flush, Bool.and_eq_true, Bool.or_eq_true, decide_eq_true_eq] at hf
  rcases hf with ⟨-, hlast | ⟨hlt, hne⟩⟩
  · omega
  · exact hne (hidx hlt)

variable (c : Dev nD) (i : grid9.Coords) (arg2 : Memref sig .tc .vmem S2048 .i32) (harg2 : arg2.IsWhole) (arg3 : Memref sig .tc .vmem S2048x1 .f32) (harg3 : arg3.IsWhole) (arg4 : Memref sig .tc .vmem S1024x20 .f32) (harg4 : arg4.IsWhole) (arg5 : Memref sig .tc .vmem S20x1 .f32) (harg5 : arg5.IsWhole) (arg6 : Memref sig .tc .vmem S1 .f32) (harg6 : arg6.IsWhole) (arg7 : Memref sig .tc .vmem S1024x1 .f32) (harg7 : arg7.IsWhole) (arg8 : Memref sig .tc .vmem S1024x1 .f32) (harg8 : arg8.IsWhole)

set_option maxHeartbeats 1000000 in

theorem run9_first
    (hc0 : cond9_0 i) (hc1 : ¬cond9_1 i) (x0 : Vec F S2048 .i32) (x1 : Vec F S2048x1 .f32) (x2 : Vec F S1024x20 .f32) (x3 : Vec F S20x1 .f32) (x4 : Vec F S1 .f32) (xi5 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (k9_pay2 i x0 x1 (k9_pay1 (F := F)))) -∗ K ⟨⟩))
      ⊢ wp frame (wpE (defs₀ (F := F)) Variants.none c none) E (cc9__scatter_residual_kernel i arg2 harg2 arg3 harg3 arg4 harg4 arg5 harg5 arg6 harg6 arg7 harg7 arg8 harg8) K := by
  simp only [cc9__scatter_residual_kernel_eq_skeleton]; unfold cc9__scatter_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  refine (read_writes_whole9 _ _ _ _ _).trans ?_
  rw [readAt_whole9 harg2, readAt_whole9 harg3]
  refine congrArg (k9_pay2 i x0 x1) ?_
  unfold run9_first.sl.v18 run9_first.sl.HS_1
  exact View.readCov_cons_toLoadRect _ _ _ _

set_option maxHeartbeats 1000000 in

theorem run9_mid
    (hc0 : ¬cond9_0 i) (hc1 : ¬cond9_1 i) (x0 : Vec F S2048 .i32) (x1 : Vec F S2048x1 .f32) (x2 : Vec F S1024x20 .f32) (x3 : Vec F S20x1 .f32) (x4 : Vec F S1 .f32) (xi5 : Vec F S1024x1 .f32) (xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (k9_pay2 i x0 x1 xs)) -∗ K ⟨⟩))
      ⊢ wp frame (wpE (defs₀ (F := F)) Variants.none c none) E (cc9__scatter_residual_kernel i arg2 harg2 arg3 harg3 arg4 harg4 arg5 harg5 arg6 harg6 arg7 harg7 arg8 harg8) K := by
  simp only [cc9__scatter_residual_kernel_eq_skeleton]; unfold cc9__scatter_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf5; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  refine (read_writes_whole9 _ _ _ _ _).trans ?_
  rw [readAt_whole9 harg2, readAt_whole9 harg3, readAt_whole9 harg8]

set_option maxHeartbeats 1000000 in

theorem run9_last
    (hc0 : ¬cond9_0 i) (hc1 : cond9_1 i) (x0 : Vec F S2048 .i32) (x1 : Vec F S2048x1 .f32) (x2 : Vec F S1024x20 .f32) (x3 : Vec F S20x1 .f32) (x4 : Vec F S1 .f32) (xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k9_pay3 x2 x3 x4 (k9_pay2 i x0 x1 xs))
            ∗ owns (c : Thread nD τ) arg8 fullShare (k9_pay2 i x0 x1 xs)) -∗ K ⟨⟩))
      ⊢ wp frame (wpE (defs₀ (F := F)) Variants.none c none) E (cc9__scatter_residual_kernel i arg2 harg2 arg3 harg3 arg4 harg4 arg5 harg5 arg6 harg6 arg7 harg7 arg8 harg8) K := by
  simp only [cc9__scatter_residual_kernel_eq_skeleton]; unfold cc9__scatter_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (read_writes_whole9 _ _ _ _ _).trans ?_
    rw [readAt_whole9 harg4, readAt_whole9 harg5, readAt_whole9 harg6]
    refine congrArg (k9_pay3 x2 x3 x4) ?_
    unfold run9_last.sl.v37
    refine (View.readCov_cons_toLoadRect _ _ _ _).trans ?_
    rw [readAt_whole9 harg2, readAt_whole9 harg3, readAt_whole9 harg8]
  iexists _; isplitr
  swap; · iexact HS
  ipureintro
  refine (read_writes_whole9 _ _ _ _ _).trans ?_
  rw [readAt_whole9 harg2, readAt_whole9 harg3, readAt_whole9 harg8]

end Cert.Kernel.Hand

end
-- ==== Proof.K.R9Dat.lean ====
import proofs.«415925_j84189948936386_1_alg».proof.Proof.K.R9Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

def sc9 (c : Dev nD) : (n : ℕ) → n < cfg9.N → Vec F S1024x1 .f32
  | 0, hn => k9_pay2 (grid9.coords ⟨0, hn⟩) (iblk9 V c 0 ⟨0, hn⟩) (iblk9 V c 1 ⟨0, hn⟩) (k9_pay1 (F := F))
  | n + 1, hn => k9_pay2 (grid9.coords ⟨n + 1, hn⟩) (iblk9 V c 0 ⟨n + 1, hn⟩) (iblk9 V c 1 ⟨n + 1, hn⟩)
      (if (n + 1) % 196 = 0 then k9_pay1 (F := F) else sc9 c n (Nat.lt_of_succ_lt hn))

theorem sc9_eq (c : Dev nD) (t : Fin cfg9.N) :
    sc9 V c t.val t.isLt = k9_pay2 (grid9.coords t) (iblk9 V c 0 t) (iblk9 V c 1 t)
      (if t.val % 196 = 0 then k9_pay1 (F := F) else sc9 V c (t.val - 1) (Nat.lt_of_le_of_lt (Nat.sub_le _ _) t.isLt)) := by
  obtain ⟨n, hn⟩ := t
  cases n with
  | zero => exact (congrArg (k9_pay2 (grid9.coords ⟨0, hn⟩) (iblk9 V c 0 ⟨0, hn⟩) (iblk9 V c 1 ⟨0, hn⟩)) (if_pos (Nat.zero_mod 196)).symm)
  | succ n => exact rfl

abbrev scM9 : Memref sig .tc .vmem S1024x1 .f32 := Memref.whole cc9_scratch0

theorem PhiA9_eq (c : Dev nD) :
    (Pipeline.ΦA spec9 c : sProp 𝕄)
      = iprop(iprop((∃ d, owns (c : Thread nD τ) scM9 fullShare d) ∗ Pipeline.scopedRestBut (Ix := Unit) (Name := ℕ) (U := UR sig nD τ) (Lvl := ℕ) (Val := Elt F) spec9 c [cc9_scratch0]) ∗ (∃ r, prngReg c r)) := by
  unfold Pipeline.ΦA; rw [scopedRest9_split]; simp only [scM9, owns_whole]; try rfl

def PhiS9 (c : Dev nD) : (n : ℕ) → n ≤ cfg9.N → sProp 𝕄
  | 0, _ => Pipeline.ΦA spec9 c
  | n + 1, hn => iprop(iprop(owns (c : Thread nD τ) scM9 fullShare (sc9 V c n hn) ∗ Pipeline.scopedRestBut (Ix := Unit) (Name := ℕ) (U := UR sig nD τ) (Lvl := ℕ) (Val := Elt F) spec9 c [cc9_scratch0]) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(owns (c : Thread nD τ) scM9 fullShare (sc9 V c n hn) ∗ Pipeline.scopedRestBut (Ix := Unit) (Name := ℕ) (U := UR sig nD τ) (Lvl := ℕ) (Val := Elt F) spec9 c [cc9_scratch0]) ∗ (∃ r, prngReg c r)) := rfl

theorem PhiS9_pos (c : Dev nD) (n : ℕ) (h : n ≤ cfg9.N) (hz : n ≠ 0) :
    PhiS9 V c n h = iprop(iprop(owns (c : Thread nD τ) scM9 fullShare (sc9 V c (n - 1) (by omega)) ∗ Pipeline.scopedRestBut (Ix := Unit) (Name := ℕ) (U := UR sig nD τ) (Lvl := ℕ) (Val := Elt F) spec9 c [cc9_scratch0]) ∗ (∃ r, prngReg c r)) := by
  cases n with
  | zero => exact absurd rfl hz
  | succ n => rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => k9_pay3 (iblk9 V c 2 t) (iblk9 V c 3 t) (iblk9 V c 4 t) (sc9 V c t.val t.isLt)
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := rfl

theorem after9_5_flush (c : Dev nD) (t : Fin cfg9.N) (h : t.val % 196 = 195) :
    (dat9 V c).after 5 t = k9_pay3 (iblk9 V c 2 t) (iblk9 V c 3 t) (iblk9 V c 4 t) (sc9 V c t.val t.isLt) := by
  dsimp only [dat9]

theorem before9_0 (c : Dev nD) (t : Fin cfg9.N) (d) : (dat9 V c).before 0 t d = iblk9 V c 0 t :=
  (dat9 V c).before_in_eq_fetched 0 rfl (fun _ => rfl) (fun _ _ _ => rfl) (fun _ => rfl) t d
theorem before9_1 (c : Dev nD) (t : Fin cfg9.N) (d) : (dat9 V c).before 1 t d = iblk9 V c 1 t :=
  (dat9 V c).before_in_eq_fetched 1 rfl (fun _ => rfl) (fun _ _ _ => rfl) (fun _ => rfl) t d
theorem before9_2 (c : Dev nD) (t : Fin cfg9.N) (d) : (dat9 V c).before 2 t d = iblk9 V c 2 t :=
  (dat9 V c).before_in_eq_fetched 2 rfl (fun _ => rfl) (fun _ _ _ => rfl) (fun _ => rfl) t d
theorem before9_3 (c : Dev nD) (t : Fin cfg9.N) (d) : (dat9 V c).before 3 t d = iblk9 V c 3 t :=
  (dat9 V c).before_in_eq_fetched 3 rfl (fun _ => rfl) (fun _ _ _ => rfl) (fun _ => rfl) t d
theorem before9_4 (c : Dev nD) (t : Fin cfg9.N) (d) : (dat9 V c).before 4 t d = iblk9 V c 4 t :=
  (dat9 V c).before_in_eq_fetched 4 rfl (fun _ => rfl) (fun _ _ _ => rfl) (fun _ => rfl) t d

abbrev ms9_0 (t : Fin cfg9.N) : Memref sig .tc .vmem S2048 .i32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S2048x1 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1024x20 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S20x1 .f32 := win9_3.stage (cfg9.slots t 3)
abbrev hs9_3 (t : Fin cfg9.N) : (ms9_3 t).IsWhole := hstage9_3 ((cfg9.slots t 3).cast nbuf9_3)
abbrev ms9_4 (t : Fin cfg9.N) : Memref sig .tc .vmem S1 .f32 := win9_4.stage (cfg9.slots t 4)
abbrev hs9_4 (t : Fin cfg9.N) : (ms9_4 t).IsWhole := hstage9_4 ((cfg9.slots t 4).cast nbuf9_4)
abbrev ms9_5 (t : Fin cfg9.N) : Memref sig .tc .vmem S1024x1 .f32 := win9_5.stage (cfg9.slots t 5)
abbrev hs9_5 (t : Fin cfg9.N) : (ms9_5 t).IsWhole := hstage9_5 ((cfg9.slots t 5).cast nbuf9_5)

abbrev bodyAt9 (t : Fin cfg9.N) : Prog (TpuEff nD τ sig (Elt F) Λ₀ .tc) PUnit :=
  cc9__scatter_residual_kernel (grid9.coords t) (ms9_0 t) (hs9_0 t) (ms9_1 t) (hs9_1 t) (ms9_2 t) (hs9_2 t) (ms9_3 t) (hs9_3 t) (ms9_4 t) (hs9_4 t) (ms9_5 t) (hs9_5 t) scM9 (Memref.isWhole_whole _)

theorem leaves9_0 (c : Dev nD) (t : Fin cfg9.N) :
    (dat9 V c).leavesExact 0 t = owns (c : Thread nD τ) (ms9_0 t) fullShare (iblk9 V c 0 t) := rfl
theorem leaves9_1 (c : Dev nD) (t : Fin cfg9.N) :
    (dat9 V c).leavesExact 1 t = owns (c : Thread nD τ) (ms9_1 t) fullShare (iblk9 V c 1 t) := rfl
theorem leaves9_2 (c : Dev nD) (t : Fin cfg9.N) :
    (dat9 V c).leavesExact 2 t = owns (c : Thread nD τ) (ms9_2 t) fullShare (iblk9 V c 2 t) := rfl
theorem leaves9_3 (c : Dev nD) (t : Fin cfg9.N) :
    (dat9 V c).leavesExact 3 t = owns (c : Thread nD τ) (ms9_3 t) fullShare (iblk9 V c 3 t) := rfl
theorem leaves9_4 (c : Dev nD) (t : Fin cfg9.N) :
    (dat9 V c).leavesExact 4 t = owns (c : Thread nD τ) (ms9_4 t) fullShare (iblk9 V c 4 t) := rfl

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d))
    ∗ (∃ d, owns (c : Thread nD τ) (ms9_5 t) fullShare ((dat9 V c).before 5 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t
    ∗ (dat9 V c).leavesExact 4 t
    ∗ (dat9 V c).leavesExact 5 t)

theorem Phi_out9 (c : Dev nD) (t : Fin (cfg9.N + 1)) : (dat9 V c).Φ t ⊢ Pipeline.ΦA spec9 c := by
  rw [show (dat9 V c).Φ t = PhiS9 V c t.val (Nat.le_of_lt_succ t.isLt) from rfl]
  by_cases ht : t.val = 0
  · rw [PhiS9_zero V c _ _ ht]
  rw [PhiS9_pos V c _ _ ht, PhiA9_eq]
  iintro ⟨⟨HS, HR⟩, Hg⟩
  iframe HR Hg
  iexists _; iexact HS

set_option maxHeartbeats 4800000 in
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0 V, before9_1 V, before9_2 V, before9_3 V, before9_4 V]
  rw [show (dat9 V c).owesAt () t.succ = (dat9 V c).owesAt () t.castSucc from rfl]
  rw [show (dat9 V c).Φ t.succ = PhiS9 V c (t.val + 1) t.isLt from rfl, PhiS9_succ]
  rw [leaves9_0 V c t, leaves9_1 V c t, leaves9_2 V c t, leaves9_3 V c t, leaves9_4 V c t]
  by_cases h0 : t.val % 196 = 0
  · have h1 : ¬t.val % 196 = 195 := by omega
    rw [Dat.leavesExact_idle (dat9 V c) 5 t (idleAt9_5 _ (fun h => h1 ((hcond9_1 t).mp h))) (noFlush9_5 t h1)]
    rw [sc9_eq V c t, if_pos h0]
    refine (sep_mono_left (Phi_out9 V c t.castSucc)).trans ?_
    rw [PhiA9_eq]
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩⟩
    iapply (run9_first c (grid9.coords t) (ms9_0 t) (hs9_0 t) (ms9_1 t) (hs9_1 t) (ms9_2 t) (hs9_2 t) (ms9_3 t) (hs9_3 t) (ms9_4 t) (hs9_4 t) (ms9_5 t) (hs9_5 t) scM9 (Memref.isWhole_whole _) ((hcond9_0 t).mpr h0) (fun h => h1 ((hcond9_1 t).mp h)) (iblk9 V c 0 t) (iblk9 V c 1 t) (iblk9 V c 2 t) (iblk9 V c 3 t) (iblk9 V c 4 t) _ Set.univ _)
    iframe H0 H1 H2 H3 H4 H5
    isplitl [HS]; · iexists _; iexact HS
    iintro ⟨H0, H1, H2, H3, H4, H5, HS⟩
    iframe HS HR Hg Ho H0 H1 H2 H3 H4
    iexists _; iexact H5
  · rw [PhiS9_castSucc V c t, PhiS9_pos V c _ _ (by omega)]
    by_cases h1 : t.val % 196 = 195
    · rw [show (dat9 V c).leavesExact 5 t = owns (c : Thread nD τ) (ms9_5 t) fullShare ((dat9 V c).after 5 t) from by
        unfold Dat.leavesExact; rw [liveAt9_5 _ ((hcond9_1 t).mpr h1)], after9_5_flush V c t h1]
      rw [sc9_eq V c t, if_neg h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run9_last c (grid9.coords t) (ms9_0 t) (hs9_0 t) (ms9_1 t) (hs9_1 t) (ms9_2 t) (hs9_2 t) (ms9_3 t) (hs9_3 t) (ms9_4 t) (hs9_4 t) (ms9_5 t) (hs9_5 t) scM9 (Memref.isWhole_whole _) (fun h => h0 ((hcond9_0 t).mp h)) ((hcond9_1 t).mpr h1) (iblk9 V c 0 t) (iblk9 V c 1 t) (iblk9 V c 2 t) (iblk9 V c 3 t) (iblk9 V c 4 t) _ Set.univ _)
      iframe H0 H1 H2 H3 H4 HS
      isplitl [H5]; · iexists _; iexact H5
      iintro ⟨H0, H1, H2, H3, H4, H5, HS⟩
      iframe HS HR Hg Ho H0 H1 H2 H3 H4
      iexact H5
    · rw [Dat.leavesExact_idle (dat9 V c) 5 t (idleAt9_5 _ (fun h => h1 ((hcond9_1 t).mp h))) (noFlush9_5 t h1)]
      rw [sc9_eq V c t, if_neg h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run9_mid c (grid9.coords t) (ms9_0 t) (hs9_0 t) (ms9_1 t) (hs9_1 t) (ms9_2 t) (hs9_2 t) (ms9_3 t) (hs9_3 t) (ms9_4 t) (hs9_4 t) (ms9_5 t) (hs9_5 t) scM9 (Memref.isWhole_whole _) (fun h => h0 ((hcond9_0 t).mp h)) (fun h => h1 ((hcond9_1 t).mp h)) (iblk9 V c 0 t) (iblk9 V c 1 t) (iblk9 V c 2 t) (iblk9 V c 3 t) (iblk9 V c 4 t) _ _ Set.univ _)
      iframe H0 H1 H2 H3 H4 H5 HS
      iintro ⟨H0, H1, H2, H3, H4, H5, HS⟩
      iframe HS HR Hg Ho H0 H1 H2 H3 H4
      iexists _; iexact H5

theorem body_obligation9 (c : Dev nD) : BodyObligation (dat9 (F := F) V c) (defs₀ (F := F)) Variants.none () Set.univ := fun t => by
  rw [bigSep_W9, bigSep_W9]
  exact sound_body9 V c t

theorem hin9 (c : Dev nD) : Pipeline.ΦA spec9 c ⊢ (dat9 V c).Φ 0 :=
  Idealize.SL.BI.Entails.refl _

theorem hout9 (c : Dev nD) : (dat9 V c).Φ (Fin.last cfg9.N) ⊢ Pipeline.ΦA spec9 c :=
  Phi_out9 V c _

end Cert.Kernel.Hand

end
-- ==== Proof.K.Segs.lean ====
import proofs.«415925_j84189948936386_1_alg».proof.Proof.Gen.Kernel.Launch
import proofs.«415925_j84189948936386_1_alg».proof.Proof.Gen.Kernel.Regions
import proofs.«415925_j84189948936386_1_alg».proof.Proof.K.R0Dat
import proofs.«415925_j84189948936386_1_alg».proof.Proof.K.R1Dat
import proofs.«415925_j84189948936386_1_alg».proof.Proof.K.R2Dat
import proofs.«415925_j84189948936386_1_alg».proof.Proof.K.R3Dat
import proofs.«415925_j84189948936386_1_alg».proof.Proof.K.R4Dat
import proofs.«415925_j84189948936386_1_alg».proof.Proof.K.R5Dat
import proofs.«415925_j84189948936386_1_alg».proof.Proof.K.R6Dat
import proofs.«415925_j84189948936386_1_alg».proof.Proof.K.R7Dat
import proofs.«415925_j84189948936386_1_alg».proof.Proof.K.R8Dat
import proofs.«415925_j84189948936386_1_alg».proof.Proof.K.R9Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev noL : GSem nD τ sig → Finset Unit := fun _ => ∅
abbrev noLv : GSem nD τ sig → Unit → ℕ := fun _ _ => 0

abbrev Rr (c : Dev nD) : sProp 𝕄 :=
  iprop((∃ r, prngReg c r) ∗ ∃ W, owes (c : Thread nD τ) (0 : CellTallies nD τ sig Unit) W)

theorem in_of {gr W : ℕ} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hg, -, Hs⟩
  isplitl [Hs]; · iexact Hs
  iexact Hg

theorem out_of {gr W : ℕ} (win : Fin W → Pipeline.WinSpec sig gr) (c : Dev nD) :
    (Pipeline.ΦA win c : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) win c) := by
  rw [Pipeline.ownSems0_none]; unfold Pipeline.ΦA
  iintro ⟨Hs, Hg⟩
  isplitl [Hg]; · iexact Hg
  isplitr; · iempintro
  iexact Hs

section Protocol

variable (pd : (p : Fin 10) → (c : Dev nD) → Dat τ (Elt F) Unit ℕ (UR sig nD τ) ℕ (cfgs p) c)

set_option backward.isDefEq.respectTransparency.types false in

theorem entry_of (p : Fin 10) (hw : Pipeline.WinFacts (cfgs p).spec) (harr : ∀ w, ((cfgs p).spec w).arr.IsWhole) (c : Dev nD)
    (hq : ∀ w, (pd p c).q w = fullShare) (ho : (pd p c).owed 0 = 0) (hrec : (pd p c).recorded 0 = Set.univ)
    (V : Valuation τ sig (Elt F)) (hA : ∀ w, (pd p c).A w = V (Pipeline.arrRef (cfgs p).spec w)) :
    iprop(iprop(StableHlo.held (c : Thread nD τ) (Pipeline.ucRefs τ sig) V ∗ Rr c)
        ∗ Pipeline.ownSems0 (fun k : PEmpty => k.elim) c ∗ levAts noL noLv)
      ⊢ |={Set.univ}=> iprop((pd p c).arrays ((pd p c).arrAt · 0)
          ∗ Pipeline.prefHeld (pcfgs (F := F) p).pre c (fun _ => fullShare) (adm p).1
          ∗ (pd p c).owesAt () 0 ∗ (∃ r, prngReg c r)
          ∗ Pipeline.unscopedRest (Ix := Unit) (Name := ℕ) (U := UR sig nD τ) (Lvl := ℕ) (cfgs p).spec c (fun b => V b)) := by
  have hsplit := Pipeline.arrays_of_unscopedBufs (p := p) (pcfgs (F := F)) adm pd hw harr c
    ((pd p c).share_full hq) (fun b => V b) hA
  rw [Pipeline.unscopedBufs_held] at hsplit
  iintro ⟨⟨Hub, Hg, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    rw [ho]
    icases HO with ⟨%W, HO⟩; iexists W; isplitr; · ipureintro; exact fun _ _ => Or.inl (hrec ▸ trivial)
    iexact HO
  isplitl [Hg]; · iexact Hg
  iexact Hrest

set_option backward.isDefEq.respectTransparency.types false in

theorem exit_of (p : Fin 10) (hw : Pipeline.WinFacts (cfgs p).spec) (harr : ∀ w, ((cfgs p).spec w).arr.IsWhole) (c : Dev nD)
    (hq : ∀ w, (pd p c).q w = fullShare) (ho : (pd p c).owed (Fin.last (cfgs p).N) = 0)
    (V : Valuation τ sig (Elt F)) :
    iprop((pd p c).arrays ((pd p c).arrAt · (cfgs p).N) ∗ (pd p c).owesAt () (Fin.last (cfgs p).N) ∗ (∃ r, prngReg c r)
        ∗ Pipeline.unscopedRest (Ix := Unit) (Name := ℕ) (U := UR sig nD τ) (Lvl := ℕ) (cfgs p).spec c (fun b => V b))
      ⊢ |={Set.univ}=> iprop(StableHlo.held (c : Thread nD τ) (Pipeline.ucRefs τ sig)
            (Pipeline.withArrays (cfgs p).spec c V fun w => (pd p c).arrAt w (cfgs p).N) ∗ Rr c) := by
  have hjoin := Pipeline.unscopedBufs_of_arrays (p := p) (pcfgs (F := F)) adm (Ix := Unit) (Name := ℕ) (U := UR sig nD τ) (Lvl := ℕ)
    hw harr c pd ((pd p c).share_full hq) (fun b => V b)
    (fun b => Pipeline.withArrays (cfgs p).spec c V (fun w => (pd p c).arrAt w (cfgs p).N) b)
    ((pd p c).arrAt · (cfgs p).N)
    (fun w => (Pipeline.withArrays_arr (cfgs p).spec hw.arr_inj c V (fun w => (pd p c).arrAt w (cfgs p).N) w).symm)
    (fun b hb => Pipeline.withArrays_of_ne (cfgs p).spec c V (fun w => (pd p c).arrAt w (cfgs p).N) b
      fun w e => hb (Finset.mem_image.mpr ⟨w, Finset.mem_univ _, e⟩))
  rw [Pipeline.unscopedBufs_held] at hjoin
  iintro ⟨Ha, HO, Hg, Hrest⟩
  imodintro
  isplitl [Ha Hrest]
  · iapply hjoin; isplitl [Ha] <;> iassumption
  isplitl [Hg]; · iexact Hg
  unfold Pipeline.Dat.owesAt Pipeline.owesWithin
  rw [ho]
  icases HO with ⟨%W, -, HO⟩; iexists W; iexact HO

end Protocol

theorem withArrays_off {gr W : ℕ} (win : Fin W → Pipeline.WinSpec sig gr) (hinj : Function.Injective (Pipeline.arrRef win)) (c : Dev nD)
    (V : Valuation τ sig (Elt F)) (A : (w : Fin W) → Buf (Elt F) ((win w).arr.view.loc (c : Thread nD τ)))
    (r : Ref sig .tc) (hA : ∀ w, Pipeline.arrRef win w ≠ r → A w = V (Proc.devRef .tc (Pipeline.arrRef win w)))
    (b : DevRef τ sig) (hb : b ≠ Proc.devRef .tc r) : Pipeline.withArrays win c V A b = V b := by
  by_cases h : ∃ w, Proc.devRef .tc (Pipeline.arrRef win w) = b
  · obtain ⟨w, rfl⟩ := h
    rw [Pipeline.withArrays_arr win hinj c V A w]
    exact hA w fun e => hb (by rw [e])
  · unfold Pipeline.withArrays; rw [dif_neg h]

theorem update_eq_of (V V' : Valuation τ sig (Elt F)) (r : Ref sig .tc) (h : ∀ b, b ≠ Proc.devRef .tc r → V' b = V b) :
    Function.update V (Proc.devRef .tc r) (V' (Proc.devRef .tc r)) = V' := by
  funext b
  by_cases hb : b = Proc.devRef .tc r
  · subst hb; exact Function.update_self ..
  · rw [Function.update_of_ne hb, h b hb]

abbrev U6 (c : Dev nD) : Valuation τ sig (Elt F) := V6 m c

noncomputable def U7 (c : Dev nD) : Valuation τ sig (Elt F) :=
  Pipeline.withArrays spec0 c (U6 m c) fun w => (dat0 (fun c b => U6 m c b) c).arrAt w cfg0.N

noncomputable def U8 (c : Dev nD) : Valuation τ sig (Elt F) :=
  Pipeline.withArrays spec1 c (U7 m c) fun w => (dat1 (fun c b => U7 m c b) c).arrAt w cfg1.N

noncomputable def U9 (c : Dev nD) : Valuation τ sig (Elt F) :=
  Pipeline.withArrays spec2 c (U8 m c) fun w => (dat2 (fun c b => U8 m c b) c).arrAt w cfg2.N

noncomputable def U10 (c : Dev nD) : Valuation τ sig (Elt F) :=
  Pipeline.withArrays spec3 c (U9 m c) fun w => (dat3 (fun c b => U9 m c b) c).arrAt w cfg3.N

noncomputable def U11 (c : Dev nD) : Valuation τ sig (Elt F) :=
  Pipeline.withArrays spec4 c (U10 m c) fun w => (dat4 (fun c b => U10 m c b) c).arrAt w cfg4.N

noncomputable def U12 (c : Dev nD) : Valuation τ sig (Elt F) :=
  Pipeline.withArrays spec5 c (U11 m c) fun w => (dat5 (fun c b => U11 m c b) c).arrAt w cfg5.N

noncomputable def U13 (c : Dev nD) : Valuation τ sig (Elt F) :=
  Pipeline.withArrays spec6 c (U12 m c) fun w => (dat6 (fun c b => U12 m c b) c).arrAt w cfg6.N

noncomputable def U14 (c : Dev nD) : Valuation τ sig (Elt F) :=
  Pipeline.withArrays spec7 c (U13 m c) fun w => (dat7 (fun c b => U13 m c b) c).arrAt w cfg7.N

noncomputable def U15 (c : Dev nD) : Valuation τ sig (Elt F) :=
  Pipeline.withArrays spec8 c (U14 m c) fun w => (dat8 (fun c b => U14 m c b) c).arrAt w cfg8.N

noncomputable def U16 (c : Dev nD) : Valuation τ sig (Elt F) :=
  Pipeline.withArrays spec9 c (U15 m c) fun w => (dat9 (fun c b => U15 m c b) c).arrAt w cfg9.N

noncomputable def U17 (c : Dev nD) : Valuation τ sig (Elt F) := StableHlo.after hostOps10 (U16 m c)

theorem in0 : ∀ w : Fin 10, Pipeline.arrRef spec0 w ≠ main_v7 → (cfg0.win w).isOut = false := by decide
theorem in1 : ∀ w : Fin 6, Pipeline.arrRef spec1 w ≠ main_v8 → (cfg1.win w).isOut = false := by decide
theorem in2 : ∀ w : Fin 10, Pipeline.arrRef spec2 w ≠ main_v9 → (cfg2.win w).isOut = false := by decide
theorem in3 : ∀ w : Fin 6, Pipeline.arrRef spec3 w ≠ main_v10 → (cfg3.win w).isOut = false := by decide
theorem in4 : ∀ w : Fin 10, Pipeline.arrRef spec4 w ≠ main_v11 → (cfg4.win w).isOut = false := by decide
theorem in5 : ∀ w : Fin 6, Pipeline.arrRef spec5 w ≠ main_v12 → (cfg5.win w).isOut = false := by decide
theorem in6 : ∀ w : Fin 10, Pipeline.arrRef spec6 w ≠ main_v13 → (cfg6.win w).isOut = false := by decide
theorem in7 : ∀ w : Fin 6, Pipeline.arrRef spec7 w ≠ main_v14 → (cfg7.win w).isOut = false := by decide
theorem in8 : ∀ w : Fin 10, Pipeline.arrRef spec8 w ≠ main_v15 → (cfg8.win w).isOut = false := by decide
theorem in9 : ∀ w : Fin 6, Pipeline.arrRef spec9 w ≠ main_v16 → (cfg9.win w).isOut = false := by decide

theorem U_out0 (c : Dev nD) : U7 m c (Pipeline.arrRef spec0 9) = (dat0 (fun c b => U6 m c b) c).arrAt 9 cfg0.N := by
  unfold U7; exact Pipeline.withArrays_arr spec0 winFacts0.arr_inj c _ _ 9

theorem U_off0 (c : Dev nD) (b : DevRef τ sig) (hb : b ≠ Proc.devRef .tc main_v7) : U7 m c b = U6 m c b := by
  unfold U7
  exact withArrays_off spec0 winFacts0.arr_inj c _ _ main_v7
    (fun w hw => ((dat0 (fun c b => U6 m c b) c).arrAt_in w (in0 w hw) _).trans (A_eq0 _ c w)) b hb

theorem U_out1 (c : Dev nD) : U8 m c (Pipeline.arrRef spec1 5) = (dat1 (fun c b => U7 m c b) c).arrAt 5 cfg1.N := by
  unfold U8; exact Pipeline.withArrays_arr spec1 winFacts1.arr_inj c _ _ 5
theorem U_off1 (c : Dev nD) (b : DevRef τ sig) (hb : b ≠ Proc.devRef .tc main_v8) : U8 m c b = U7 m c b := by
  unfold U8
  exact withArrays_off spec1 winFacts1.arr_inj c _ _ main_v8
    (fun w hw => ((dat1 (fun c b => U7 m c b) c).arrAt_in w (in1 w hw) _).trans (A_eq1 _ c w)) b hb

theorem U_out2 (c : Dev nD) : U9 m c (Pipeline.arrRef spec2 9) = (dat2 (fun c b => U8 m c b) c).arrAt 9 cfg2.N := by
  unfold U9; exact Pipeline.withArrays_arr spec2 winFacts2.arr_inj c _ _ 9
theorem U_off2 (c : Dev nD) (b : DevRef τ sig) (hb : b ≠ Proc.devRef .tc main_v9) : U9 m c b = U8 m c b := by
  unfold U9
  exact withArrays_off spec2 winFacts2.arr_inj c _ _ main_v9
    (fun w hw => ((dat2 (fun c b => U8 m c b) c).arrAt_in w (in2 w hw) _).trans (A_eq2 _ c w)) b hb

theorem U_out3 (c : Dev nD) : U10 m c (Pipeline.arrRef spec3 5) = (dat3 (fun c b => U9 m c b) c).arrAt 5 cfg3.N := by
  unfold U10; exact Pipeline.withArrays_arr spec3 winFacts3.arr_inj c _ _ 5
theorem U_off3 (c : Dev nD) (b : DevRef τ sig) (hb : b ≠ Proc.devRef .tc main_v10) : U10 m c b = U9 m c b := by
  unfold U10
  exact withArrays_off spec3 winFacts3.arr_inj c _ _ main_v10
    (fun w hw => ((dat3 (fun c b => U9 m c b) c).arrAt_in w (in3 w hw) _).trans (A_eq3 _ c w)) b hb

theorem U_out4 (c : Dev nD) : U11 m c (Pipeline.arrRef spec4 9) = (dat4 (fun c b => U10 m c b) c).arrAt 9 cfg4.N := by
  unfold U11; exact Pipeline.withArrays_arr spec4 winFacts4.arr_inj c _ _ 9
theorem U_off4 (c : Dev nD) (b : DevRef τ sig) (hb : b ≠ Proc.devRef .tc main_v11) : U11 m c b = U10 m c b := by
  unfold U11
  exact withArrays_off spec4 winFacts4.arr_inj c _ _ main_v11
    (fun w hw => ((dat4 (fun c b => U10 m c b) c).arrAt_in w (in4 w hw) _).trans (A_eq4 _ c w)) b hb

theorem U_out5 (c : Dev nD) : U12 m c (Pipeline.arrRef spec5 5) = (dat5 (fun c b => U11 m c b) c).arrAt 5 cfg5.N := by
  unfold U12; exact Pipeline.withArrays_arr spec5 winFacts5.arr_inj c _ _ 5
theorem U_off5 (c : Dev nD) (b : DevRef τ sig) (hb : b ≠ Proc.devRef .tc main_v12) : U12 m c b = U11 m c b := by
  unfold U12
  exact withArrays_off spec5 winFacts5.arr_inj c _ _ main_v12
    (fun w hw => ((dat5 (fun c b => U11 m c b) c).arrAt_in w (in5 w hw) _).trans (A_eq5 _ c w)) b hb

theorem U_out6 (c : Dev nD) : U13 m c (Pipeline.arrRef spec6 9) = (dat6 (fun c b => U12 m c b) c).arrAt 9 cfg6.N := by
  unfold U13; exact Pipeline.withArrays_arr spec6 winFacts6.arr_inj c _ _ 9
theorem U_off6 (c : Dev nD) (b : DevRef τ sig) (hb : b ≠ Proc.devRef .tc main_v13) : U13 m c b = U12 m c b := by
  unfold U13
  exact withArrays_off spec6 winFacts6.arr_inj c _ _ main_v13
    (fun w hw => ((dat6 (fun c b => U12 m c b) c).arrAt_in w (in6 w hw) _).trans (A_eq6 _ c w)) b hb

theorem U_out7 (c : Dev nD) : U14 m c (Pipeline.arrRef spec7 5) = (dat7 (fun c b => U13 m c b) c).arrAt 5 cfg7.N := by
  unfold U14; exact Pipeline.withArrays_arr spec7 winFacts7.arr_inj c _ _ 5
theorem U_off7 (c : Dev nD) (b : DevRef τ sig) (hb : b ≠ Proc.devRef .tc main_v14) : U14 m c b = U13 m c b := by
  unfold U14
  exact withArrays_off spec7 winFacts7.arr_inj c _ _ main_v14
    (fun w hw => ((dat7 (fun c b => U13 m c b) c).arrAt_in w (in7 w hw) _).trans (A_eq7 _ c w)) b hb

theorem U_out8 (c : Dev nD) : U15 m c (Pipeline.arrRef spec8 9) = (dat8 (fun c b => U14 m c b) c).arrAt 9 cfg8.N := by
  unfold U15; exact Pipeline.withArrays_arr spec8 winFacts8.arr_inj c _ _ 9
theorem U_off8 (c : Dev nD) (b : DevRef τ sig) (hb : b ≠ Proc.devRef .tc main_v15) : U15 m c b = U14 m c b := by
  unfold U15
  exact withArrays_off spec8 winFacts8.arr_inj c _ _ main_v15
    (fun w hw => ((dat8 (fun c b => U14 m c b) c).arrAt_in w (in8 w hw) _).trans (A_eq8 _ c w)) b hb

theorem U_out9 (c : Dev nD) : U16 m c (Pipeline.arrRef spec9 5) = (dat9 (fun c b => U15 m c b) c).arrAt 5 cfg9.N := by
  unfold U16; exact Pipeline.withArrays_arr spec9 winFacts9.arr_inj c _ _ 5
theorem U_off9 (c : Dev nD) (b : DevRef τ sig) (hb : b ≠ Proc.devRef .tc main_v16) : U16 m c b = U15 m c b := by
  unfold U16
  exact withArrays_off spec9 winFacts9.arr_inj c _ _ main_v16
    (fun w hw => ((dat9 (fun c b => U15 m c b) c).arrAt_in w (in9 w hw) _).trans (A_eq9 _ c w)) b hb

noncomputable def outsU : Outs (F := F) := fun J r c =>
  match J with
  | 7 => U7 m c r
  | 8 => U8 m c r
  | 9 => U9 m c r
  | 10 => U10 m c r
  | 11 => U11 m c r
  | 12 => U12 m c r
  | 13 => U13 m c r
  | 14 => U14 m c r
  | 15 => U15 m c r
  | 16 => U16 m c r
  | _ => U6 m c r

theorem V7_eq (c : Dev nD) : V7 m (outsU m) c = U7 m c :=
  update_eq_of (U6 m c) (U7 m c) main_v7 (U_off0 m c)
theorem V8_eq (c : Dev nD) : V8 m (outsU m) c = U8 m c := by
  rw [show V8 m (outsU m) c = Function.update (V7 m (outsU m) c) (Proc.devRef .tc main_v8) (U8 m c (Proc.devRef .tc main_v8)) from rfl, V7_eq]
  exact update_eq_of (U7 m c) (U8 m c) main_v8 (U_off1 m c)
theorem V9_eq (c : Dev nD) : V9 m (outsU m) c = U9 m c := by
  rw [show V9 m (outsU m) c = Function.update (V8 m (outsU m) c) (Proc.devRef .tc main_v9) (U9 m c (Proc.devRef .tc main_v9)) from rfl, V8_eq]
  exact update_eq_of (U8 m c) (U9 m c) main_v9 (U_off2 m c)
theorem V10_eq (c : Dev nD) : V10 m (outsU m) c = U10 m c := by
  rw [show V10 m (outsU m) c = Function.update (V9 m (outsU m) c) (Proc.devRef .tc main_v10) (U10 m c (Proc.devRef .tc main_v10)) from rfl, V9_eq]
  exact update_eq_of (U9 m c) (U10 m c) main_v10 (U_off3 m c)
theorem V11_eq (c : Dev nD) : V11 m (outsU m) c = U11 m c := by
  rw [show V11 m (outsU m) c = Function.update (V10 m (outsU m) c) (Proc.devRef .tc main_v11) (U11 m c (Proc.devRef .tc main_v11)) from rfl, V10_eq]
  exact update_eq_of (U10 m c) (U11 m c) main_v11 (U_off4 m c)
theorem V12_eq (c : Dev nD) : V12 m (outsU m) c = U12 m c := by
  rw [show V12 m (outsU m) c = Function.update (V11 m (outsU m) c) (Proc.devRef .tc main_v12) (U12 m c (Proc.devRef .tc main_v12)) from rfl, V11_eq]
  exact update_eq_of (U11 m c) (U12 m c) main_v12 (U_off5 m c)
theorem V13_eq (c : Dev nD) : V13 m (outsU m) c = U13 m c := by
  rw [show V13 m (outsU m) c = Function.update (V12 m (outsU m) c) (Proc.devRef .tc main_v13) (U13 m c (Proc.devRef .tc main_v13)) from rfl, V12_eq]
  exact update_eq_of (U12 m c) (U13 m c) main_v13 (U_off6 m c)
theorem V14_eq (c : Dev nD) : V14 m (outsU m) c = U14 m c := by
  rw [show V14 m (outsU m) c = Function.update (V13 m (outsU m) c) (Proc.devRef .tc main_v14) (U14 m c (Proc.devRef .tc main_v14)) from rfl, V13_eq]
  exact update_eq_of (U13 m c) (U14 m c) main_v14 (U_off7 m c)
theorem V15_eq (c : Dev nD) : V15 m (outsU m) c = U15 m c := by
  rw [show V15 m (outsU m) c = Function.update (V14 m (outsU m) c) (Proc.devRef .tc main_v15) (U15 m c (Proc.devRef .tc main_v15)) from rfl, V14_eq]
  exact update_eq_of (U14 m c) (U15 m c) main_v15 (U_off8 m c)
theorem V16_eq (c : Dev nD) : V16 m (outsU m) c = U16 m c := by
  rw [show V16 m (outsU m) c = Function.update (V15 m (outsU m) c) (Proc.devRef .tc main_v16) (U16 m c (Proc.devRef .tc main_v16)) from rfl, V15_eq]
  exact update_eq_of (U15 m c) (U16 m c) main_v16 (U_off9 m c)
theorem V17_eq (c : Dev nD) : V17 m (outsU m) c = U17 m c := by
  unfold U17; rw [← V16_eq]

noncomputable def pdats : (p : Fin 10) → (c : Dev nD) → Dat τ (Elt F) Unit ℕ (UR sig nD τ) ℕ (cfgs p) c
  | ⟨0, _⟩ => fun c => dat0 (fun c b => U6 m c b) c
  | ⟨1, _⟩ => fun c => dat1 (fun c b => U7 m c b) c
  | ⟨2, _⟩ => fun c => dat2 (fun c b => U8 m c b) c
  | ⟨3, _⟩ => fun c => dat3 (fun c b => U9 m c b) c
  | ⟨4, _⟩ => fun c => dat4 (fun c b => U10 m c b) c
  | ⟨5, _⟩ => fun c => dat5 (fun c b => U11 m c b) c
  | ⟨6, _⟩ => fun c => dat6 (fun c b => U12 m c b) c
  | ⟨7, _⟩ => fun c => dat7 (fun c b => U13 m c b) c
  | ⟨8, _⟩ => fun c => dat8 (fun c b => U14 m c b) c
  | ⟨9, _⟩ => fun c => dat9 (fun c b => U15 m c b) c

set_option backward.isDefEq.respectTransparency.types false in

noncomputable def reg0 : Pipeline.RegionSeg (pcfgs (F := F)) adm (pdats m) () defs₀ Variants.none noL noLv 0 where
  win := winFacts0.to₀
  block_pos := block_pos0
  stage_whole := stage_whole0
  K := PEmpty
  osem k := k.elim
  ho := Pipeline.OwnSemFacts.none _
  hbody c := (body_obligation0 (fun c b => U6 m c b) c).loose
  hwaits := Pipeline.hwaits_of_owed_zero _ _ _ _ noL noLv 0 fun _ _ => rfl
  pre c := iprop(StableHlo.held (c : Thread nD τ) (Pipeline.ucRefs τ sig) (U6 m c) ∗ Rr c)
  post c := iprop(StableHlo.held (c : Thread nD τ) (Pipeline.ucRefs τ sig) (U7 m c) ∗ Rr c)
  X c := iprop(∃ r, prngReg c r)
  Y c := iprop(∃ r, prngReg c r)
  Z c := Pipeline.unscopedRest (Ix := Unit) (Name := ℕ) (U := UR sig nD τ) (Lvl := ℕ) spec0 c (fun b => U6 m c b)
  hentry c := entry_of (pdats m) 0 winFacts0 arr_whole0 c (fun _ => rfl) rfl rfl (U6 m c) (fun w => A_eq0 (fun c b => U6 m c b) c w)
  hin c := (in_of spec0 c _).trans (hin0 (fun c b => U6 m c b) c)
  hout c := (hout0 (fun c b => U6 m c b) c).trans (out_of spec0 c)
  hexit c := exit_of (pdats m) 0 winFacts0 arr_whole0 c (fun _ => rfl) rfl (U6 m c)

set_option backward.isDefEq.respectTransparency.types false in

noncomputable def reg1 : Pipeline.RegionSeg (pcfgs (F := F)) adm (pdats m) () defs₀ Variants.none noL noLv 1 where
  win := winFacts1.to₀
  block_pos := block_pos1
  stage_whole := stage_whole1
  K := PEmpty
  osem k := k.elim
  ho := Pipeline.OwnSemFacts.none _
  hbody c := (body_obligation1 (fun c b => U7 m c b) c).loose
  hwaits := Pipeline.hwaits_of_owed_zero _ _ _ _ noL noLv 1 fun _ _ => rfl
  pre c := iprop(StableHlo.held (c : Thread nD τ) (Pipeline.ucRefs τ sig) (U7 m c) ∗ Rr c)
  post c := iprop(StableHlo.held (c : Thread nD τ) (Pipeline.ucRefs τ sig) (U8 m c) ∗ Rr c)
  X c := iprop(∃ r, prngReg c r)
  Y c := iprop(∃ r, prngReg c r)
  Z c := Pipeline.unscopedRest (Ix := Unit) (Name := ℕ) (U := UR sig nD τ) (Lvl := ℕ) spec1 c (fun b => U7 m c b)
  hentry c := entry_of (pdats m) 1 winFacts1 arr_whole1 c (fun _ => rfl) rfl rfl (U7 m c) (fun w => A_eq1 (fun c b => U7 m c b) c w)
  hin c := (in_of spec1 c _).trans (hin1 (fun c b => U7 m c b) c)
  hout c := (hout1 (fun c b => U7 m c b) c).trans (out_of spec1 c)
  hexit c := exit_of (pdats m) 1 winFacts1 arr_whole1 c (fun _ => rfl) rfl (U7 m c)

set_option backward.isDefEq.respectTransparency.types false in

noncomputable def reg2 : Pipeline.RegionSeg (pcfgs (F := F)) adm (pdats m) () defs₀ Variants.none noL noLv 2 where
  win := winFacts2.to₀
  block_pos := block_pos2
  stage_whole := stage_whole2
  K := PEmpty
  osem k := k.elim
  ho := Pipeline.OwnSemFacts.none _
  hbody c := (body_obligation2 (fun c b => U8 m c b) c).loose
  hwaits := Pipeline.hwaits_of_owed_zero _ _ _ _ noL noLv 2 fun _ _ => rfl
  pre c := iprop(StableHlo.held (c : Thread nD τ) (Pipeline.ucRefs τ sig) (U8 m c) ∗ Rr c)
  post c := iprop(StableHlo.held (c : Thread nD τ) (Pipeline.ucRefs τ sig) (U9 m c) ∗ Rr c)
  X c := iprop(∃ r, prngReg c r)
  Y c := iprop(∃ r, prngReg c r)
  Z c := Pipeline.unscopedRest (Ix := Unit) (Name := ℕ) (U := UR sig nD τ) (Lvl := ℕ) spec2 c (fun b => U8 m c b)
  hentry c := entry_of (pdats m) 2 winFacts2 arr_whole2 c (fun _ => rfl) rfl rfl (U8 m c) (fun w => A_eq2 (fun c b => U8 m c b) c w)
  hin c := (in_of spec2 c _).trans (hin2 (fun c b => U8 m c b) c)
  hout c := (hout2 (fun c b => U8 m c b) c).trans (out_of spec2 c)
  hexit c := exit_of (pdats m) 2 winFacts2 arr_whole2 c (fun _ => rfl) rfl (U8 m c)

set_option backward.isDefEq.respectTransparency.types false in

noncomputable def reg3 : Pipeline.RegionSeg (pcfgs (F := F)) adm (pdats m) () defs₀ Variants.none noL noLv 3 where
  win := winFacts3.to₀
  block_pos := block_pos3
  stage_whole := stage_whole3
  K := PEmpty
  osem k := k.elim
  ho := Pipeline.OwnSemFacts.none _
  hbody c := (body_obligation3 (fun c b => U9 m c b) c).loose
  hwaits := Pipeline.hwaits_of_owed_zero _ _ _ _ noL noLv 3 fun _ _ => rfl
  pre c := iprop(StableHlo.held (c : Thread nD τ) (Pipeline.ucRefs τ sig) (U9 m c) ∗ Rr c)
  post c := iprop(StableHlo.held (c : Thread nD τ) (Pipeline.ucRefs τ sig) (U10 m c) ∗ Rr c)
  X c := iprop(∃ r, prngReg c r)
  Y c := iprop(∃ r, prngReg c r)
  Z c := Pipeline.unscopedRest (Ix := Unit) (Name := ℕ) (U := UR sig nD τ) (Lvl := ℕ) spec3 c (fun b => U9 m c b)
  hentry c := entry_of (pdats m) 3 winFacts3 arr_whole3 c (fun _ => rfl) rfl rfl (U9 m c) (fun w => A_eq3 (fun c b => U9 m c b) c w)
  hin c := (in_of spec3 c _).trans (hin3 (fun c b => U9 m c b) c)
  hout c := (hout3 (fun c b => U9 m c b) c).trans (out_of spec3 c)
  hexit c := exit_of (pdats m) 3 winFacts3 arr_whole3 c (fun _ => rfl) rfl (U9 m c)

set_option backward.isDefEq.respectTransparency.types false in

noncomputable def reg4 : Pipeline.RegionSeg (pcfgs (F := F)) adm (pdats m) () defs₀ Variants.none noL noLv 4 where
  win := winFacts4.to₀
  block_pos := block_pos4
  stage_whole := stage_whole4
  K := PEmpty
  osem k := k.elim
  ho := Pipeline.OwnSemFacts.none _
  hbody c := (body_obligation4 (fun c b => U10 m c b) c).loose
  hwaits := Pipeline.hwaits_of_owed_zero _ _ _ _ noL noLv 4 fun _ _ => rfl
  pre c := iprop(StableHlo.held (c : Thread nD τ) (Pipeline.ucRefs τ sig) (U10 m c) ∗ Rr c)
  post c := iprop(StableHlo.held (c : Thread nD τ) (Pipeline.ucRefs τ sig) (U11 m c) ∗ Rr c)
  X c := iprop(∃ r, prngReg c r)
  Y c := iprop(∃ r, prngReg c r)
  Z c := Pipeline.unscopedRest (Ix := Unit) (Name := ℕ) (U := UR sig nD τ) (Lvl := ℕ) spec4 c (fun b => U10 m c b)
  hentry c := entry_of (pdats m) 4 winFacts4 arr_whole4 c (fun _ => rfl) rfl rfl (U10 m c) (fun w => A_eq4 (fun c b => U10 m c b) c w)
  hin c := (in_of spec4 c _).trans (hin4 (fun c b => U10 m c b) c)
  hout c := (hout4 (fun c b => U10 m c b) c).trans (out_of spec4 c)
  hexit c := exit_of (pdats m) 4 winFacts4 arr_whole4 c (fun _ => rfl) rfl (U10 m c)

set_option backward.isDefEq.respectTransparency.types false in

noncomputable def reg5 : Pipeline.RegionSeg (pcfgs (F := F)) adm (pdats m) () defs₀ Variants.none noL noLv 5 where
  win := winFacts5.to₀
  block_pos := block_pos5
  stage_whole := stage_whole5
  K := PEmpty
  osem k := k.elim
  ho := Pipeline.OwnSemFacts.none _
  hbody c := (body_obligation5 (fun c b => U11 m c b) c).loose
  hwaits := Pipeline.hwaits_of_owed_zero _ _ _ _ noL noLv 5 fun _ _ => rfl
  pre c := iprop(StableHlo.held (c : Thread nD τ) (Pipeline.ucRefs τ sig) (U11 m c) ∗ Rr c)
  post c := iprop(StableHlo.held (c : Thread nD τ) (Pipeline.ucRefs τ sig) (U12 m c) ∗ Rr c)
  X c := iprop(∃ r, prngReg c r)
  Y c := iprop(∃ r, prngReg c r)
  Z c := Pipeline.unscopedRest (Ix := Unit) (Name := ℕ) (U := UR sig nD τ) (Lvl := ℕ) spec5 c (fun b => U11 m c b)
  hentry c := entry_of (pdats m) 5 winFacts5 arr_whole5 c (fun _ => rfl) rfl rfl (U11 m c) (fun w => A_eq5 (fun c b => U11 m c b) c w)
  hin c := (in_of spec5 c _).trans (hin5 (fun c b => U11 m c b) c)
  hout c := (hout5 (fun c b => U11 m c b) c).trans (out_of spec5 c)
  hexit c := exit_of (pdats m) 5 winFacts5 arr_whole5 c (fun _ => rfl) rfl (U11 m c)

set_option backward.isDefEq.respectTransparency.types false in

noncomputable def reg6 : Pipeline.RegionSeg (pcfgs (F := F)) adm (pdats m) () defs₀ Variants.none noL noLv 6 where
  win := winFacts6.to₀
  block_pos := block_pos6
  stage_whole := stage_whole6
  K := PEmpty
  osem k := k.elim
  ho := Pipeline.OwnSemFacts.none _
  hbody c := (body_obligation6 (fun c b => U12 m c b) c).loose
  hwaits := Pipeline.hwaits_of_owed_zero _ _ _ _ noL noLv 6 fun _ _ => rfl
  pre c := iprop(StableHlo.held (c : Thread nD τ) (Pipeline.ucRefs τ sig) (U12 m c) ∗ Rr c)
  post c := iprop(StableHlo.held (c : Thread nD τ) (Pipeline.ucRefs τ sig) (U13 m c) ∗ Rr c)
  X c := iprop(∃ r, prngReg c r)
  Y c := iprop(∃ r, prngReg c r)
  Z c := Pipeline.unscopedRest (Ix := Unit) (Name := ℕ) (U := UR sig nD τ) (Lvl := ℕ) spec6 c (fun b => U12 m c b)
  hentry c := entry_of (pdats m) 6 winFacts6 arr_whole6 c (fun _ => rfl) rfl rfl (U12 m c) (fun w => A_eq6 (fun c b => U12 m c b) c w)
  hin c := (in_of spec6 c _).trans (hin6 (fun c b => U12 m c b) c)
  hout c := (hout6 (fun c b => U12 m c b) c).trans (out_of spec6 c)
  hexit c := exit_of (pdats m) 6 winFacts6 arr_whole6 c (fun _ => rfl) rfl (U12 m c)

set_option backward.isDefEq.respectTransparency.types false in

noncomputable def reg7 : Pipeline.RegionSeg (pcfgs (F := F)) adm (pdats m) () defs₀ Variants.none noL noLv 7 where
  win := winFacts7.to₀
  block_pos := block_pos7
  stage_whole := stage_whole7
  K := PEmpty
  osem k := k.elim
  ho := Pipeline.OwnSemFacts.none _
  hbody c := (body_obligation7 (fun c b => U13 m c b) c).loose
  hwaits := Pipeline.hwaits_of_owed_zero _ _ _ _ noL noLv 7 fun _ _ => rfl
  pre c := iprop(StableHlo.held (c : Thread nD τ) (Pipeline.ucRefs τ sig) (U13 m c) ∗ Rr c)
  post c := iprop(StableHlo.held (c : Thread nD τ) (Pipeline.ucRefs τ sig) (U14 m c) ∗ Rr c)
  X c := iprop(∃ r, prngReg c r)
  Y c := iprop(∃ r, prngReg c r)
  Z c := Pipeline.unscopedRest (Ix := Unit) (Name := ℕ) (U := UR sig nD τ) (Lvl := ℕ) spec7 c (fun b => U13 m c b)
  hentry c := entry_of (pdats m) 7 winFacts7 arr_whole7 c (fun _ => rfl) rfl rfl (U13 m c) (fun w => A_eq7 (fun c b => U13 m c b) c w)
  hin c := (in_of spec7 c _).trans (hin7 (fun c b => U13 m c b) c)
  hout c := (hout7 (fun c b => U13 m c b) c).trans (out_of spec7 c)
  hexit c := exit_of (pdats m) 7 winFacts7 arr_whole7 c (fun _ => rfl) rfl (U13 m c)

set_option backward.isDefEq.respectTransparency.types false in

noncomputable def reg8 : Pipeline.RegionSeg (pcfgs (F := F)) adm (pdats m) () defs₀ Variants.none noL noLv 8 where
  win := winFacts8.to₀
  block_pos := block_pos8
  stage_whole := stage_whole8
  K := PEmpty
  osem k := k.elim
  ho := Pipeline.OwnSemFacts.none _
  hbody c := (body_obligation8 (fun c b => U14 m c b) c).loose
  hwaits := Pipeline.hwaits_of_owed_zero _ _ _ _ noL noLv 8 fun _ _ => rfl
  pre c := iprop(StableHlo.held (c : Thread nD τ) (Pipeline.ucRefs τ sig) (U14 m c) ∗ Rr c)
  post c := iprop(StableHlo.held (c : Thread nD τ) (Pipeline.ucRefs τ sig) (U15 m c) ∗ Rr c)
  X c := iprop(∃ r, prngReg c r)
  Y c := iprop(∃ r, prngReg c r)
  Z c := Pipeline.unscopedRest (Ix := Unit) (Name := ℕ) (U := UR sig nD τ) (Lvl := ℕ) spec8 c (fun b => U14 m c b)
  hentry c := entry_of (pdats m) 8 winFacts8 arr_whole8 c (fun _ => rfl) rfl rfl (U14 m c) (fun w => A_eq8 (fun c b => U14 m c b) c w)
  hin c := (in_of spec8 c _).trans (hin8 (fun c b => U14 m c b) c)
  hout c := (hout8 (fun c b => U14 m c b) c).trans (out_of spec8 c)
  hexit c := exit_of (pdats m) 8 winFacts8 arr_whole8 c (fun _ => rfl) rfl (U14 m c)

set_option backward.isDefEq.respectTransparency.types false in

noncomputable def reg9 : Pipeline.RegionSeg (pcfgs (F := F)) adm (pdats m) () defs₀ Variants.none noL noLv 9 where
  win := winFacts9.to₀
  block_pos := block_pos9
  stage_whole := stage_whole9
  K := PEmpty
  osem k := k.elim
  ho := Pipeline.OwnSemFacts.none _
  hbody c := (body_obligation9 (fun c b => U15 m c b) c).loose
  hwaits := Pipeline.hwaits_of_owed_zero _ _ _ _ noL noLv 9 fun _ _ => rfl
  pre c := iprop(StableHlo.held (c : Thread nD τ) (Pipeline.ucRefs τ sig) (U15 m c) ∗ Rr c)
  post c := iprop(StableHlo.held (c : Thread nD τ) (Pipeline.ucRefs τ sig) (U16 m c) ∗ Rr c)
  X c := iprop(∃ r, prngReg c r)
  Y c := iprop(∃ r, prngReg c r)
  Z c := Pipeline.unscopedRest (Ix := Unit) (Name := ℕ) (U := UR sig nD τ) (Lvl := ℕ) spec9 c (fun b => U15 m c b)
  hentry c := entry_of (pdats m) 9 winFacts9 arr_whole9 c (fun _ => rfl) rfl rfl (U15 m c) (fun w => A_eq9 (fun c b => U15 m c b) c w)
  hin c := (in_of spec9 c _).trans (hin9 (fun c b => U15 m c b) c)
  hout c := (hout9 (fun c b => U15 m c b) c).trans (out_of spec9 c)
  hexit c := exit_of (pdats m) 9 winFacts9 arr_whole9 c (fun _ => rfl) rfl (U15 m c)

theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in

theorem run_val (ρ : Dev nD → PrngReg) :
    θ_run defs (onTc (τ := τ) (main (F := F))) ⟨m, fun _ => 0, ρ⟩ (fun r => ∀ c : Dev nD,
      r.2.mem ((c.tc : Thread nD τ).loc main_v17) = U17 m c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) := by
  refine Pipeline.θ_run_regions_kit_dev (pcfgs (F := F)) adm (pdats m) () cellOf_inj emb₁ defs₀ Variants.none noL noLv m ρ main
    (segs m (outsU m) Variants.none noL noLv (fun _ c => Rr c) () (pdats m)
      (reg0 m) (reg1 m) (reg2 m) (reg3 m) (reg4 m) (reg5 m) (reg6 m) (reg7 m) (reg8 m) (reg9 m))
    (fun c Q => by
      rewrite [main_chain c, Pipeline.Seg.run_eq_chain,
        show (segs m (outsU m) Variants.none noL noLv (fun _ c => Rr c) () (pdats m)
            (reg0 m) (reg1 m) (reg2 m) (reg3 m) (reg4 m) (reg5 m) (reg6 m) (reg7 m) (reg8 m) (reg9 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()),
          Prog.lift (.customCall (Pipeline.entry 5) ()),
          Prog.lift (.customCall (Pipeline.entry 6) ()),
          Prog.lift (.customCall (Pipeline.entry 7) ()),
          Prog.lift (.customCall (Pipeline.entry 8) ()),
          Prog.lift (.customCall (Pipeline.entry 9) ()),
          StableHlo.seq hostOps10 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := launch_ghost)
    (T₀ := fun c => iprop(StableHlo.held (c : Thread nD τ) (Pipeline.ucRefs τ sig) (V0 m c) ∗ Rr c))
    (Tₙ := fun c => iprop(StableHlo.held (c : Thread nD τ) (Pipeline.ucRefs τ sig) (V17 m (outsU m) c) ∗ ∃ r, prngReg c r))
    (hch := fun c => ⟨.rfl, .rfl, .rfl, .rfl, .rfl, .rfl, .rfl, .rfl, .rfl, .rfl, .rfl, .rfl, .rfl, .rfl, .rfl, .rfl,
      (show iprop(StableHlo.held (c : Thread nD τ) (Pipeline.ucRefs τ sig) (U16 m c) ∗ Rr c)
          ⊢ iprop(StableHlo.held (c : Thread nD τ) (Pipeline.ucRefs τ sig) (V16 m (outsU m) c) ∗ Rr c) from by rw [V16_eq m c]),
      ?_⟩)
    (hinit := ?_)
    (QY := fun c s => s.mem ((c.tc : Thread nD τ).loc main_v17) = U17 m c main_v17
        ∧ s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_arg2) = m ((c.tc : Thread nD τ).loc main_arg2)
        ∧ s.mem ((c.tc : Thread nD τ).loc main_arg3) = m ((c.tc : Thread nD τ).loc main_arg3)
        ∧ s.mem ((c.tc : Thread nD τ).loc main_arg4) = m ((c.tc : Thread nD τ).loc main_arg4)
        ∧ s.mem ((c.tc : Thread nD τ).loc main_arg5) = m ((c.tc : Thread nD τ).loc main_arg5)
        ∧ s.mem ((c.tc : Thread nD τ).loc main_arg6) = m ((c.tc : Thread nD τ).loc main_arg6)
        ∧ s.mem ((c.tc : Thread nD τ).loc main_arg7) = m ((c.tc : Thread nD τ).loc main_arg7)
        ∧ s.mem ((c.tc : Thread nD τ).loc main_arg8) = m ((c.tc : Thread nD τ).loc main_arg8)
        ∧ s.mem ((c.tc : Thread nD τ).loc main_arg9) = m ((c.tc : Thread nD τ).loc main_arg9)
        ∧ s.mem ((c.tc : Thread nD τ).loc main_arg10) = m ((c.tc : Thread nD τ).loc main_arg10)
        ∧ s.mem ((c.tc : Thread nD τ).loc main_arg11) = m ((c.tc : Thread nD τ).loc main_arg11)
        ∧ s.mem ((c.tc : Thread nD τ).loc main_arg12) = m ((c.tc : Thread nD τ).loc main_arg12)
        ∧ s.mem ((c.tc : Thread nD τ).loc main_arg13) = m ((c.tc : Thread nD τ).loc main_arg13)
        ∧ s.mem ((c.tc : Thread nD τ).loc main_arg14) = m ((c.tc : Thread nD τ).loc main_arg14)
        ∧ s.mem ((c.tc : Thread nD τ).loc main_arg15) = m ((c.tc : Thread nD τ).loc main_arg15)
        ∧ s.mem ((c.tc : Thread nD τ).loc main_arg16) = m ((c.tc : Thread nD τ).loc main_arg16)
        ∧ s.mem ((c.tc : Thread nD τ).loc main_arg17) = m ((c.tc : Thread nD τ).loc main_arg17)
        ∧ s.mem ((c.tc : Thread nD τ).loc main_arg18) = m ((c.tc : Thread nD τ).loc main_arg18)
        ∧ s.mem ((c.tc : Thread nD τ).loc main_arg19) = m ((c.tc : Thread nD τ).loc main_arg19)
        ∧ s.mem ((c.tc : Thread nD τ).loc main_arg20) = m ((c.tc : Thread nD τ).loc main_arg20)
        ∧ s.mem ((c.tc : Thread nD τ).loc main_arg21) = m ((c.tc : Thread nD τ).loc main_arg21)
        ∧ s.mem ((c.tc : Thread nD τ).loc main_arg22) = m ((c.tc : Thread nD τ).loc main_arg22)
        ∧ s.mem ((c.tc : Thread nD τ).loc main_arg23) = m ((c.tc : Thread nD τ).loc main_arg23)
        ∧ s.mem ((c.tc : Thread nD τ).loc main_arg24) = m ((c.tc : Thread nD τ).loc main_arg24)
        ∧ s.mem ((c.tc : Thread nD τ).loc main_arg25) = m ((c.tc : Thread nD τ).loc main_arg25)
        ∧ s.mem ((c.tc : Thread nD τ).loc main_arg26) = m ((c.tc : Thread nD τ).loc main_arg26))
    (hfin := fun c s' => ?_) (hQ := fun _ h => h)
  ·
    show iprop(StableHlo.held (c : Thread nD τ) (Pipeline.ucRefs τ sig) (V17 m (outsU m) c) ∗ Rr c)
      ⊢ iprop(iprop(StableHlo.held (c : Thread nD τ) (Pipeline.ucRefs τ sig) (V17 m (outsU m) c) ∗ ∃ r, prngReg c r)
          ∗ ∃ W, owes (c.tc : Thread nD τ) (0 : CellTallies nD τ sig Unit) W)
    iintro ⟨Hh, Hg, HO⟩
    isplitl [Hh Hg]
    · isplitl [Hh]; · iexact Hh
      iexact Hg
    iexact HO
  ·

    refine Pipeline.initEach noL noLv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hg, -⟩, -⟩
    imodintro
    isplitl [Hh]; · iexact Hh
    isplitl [Hg]; · iexists _; iexact Hg
    iexists ∅; iexact HO
  ·
    unfold StableHlo.held
    iintro ⟨⟨Hh, -⟩, HSI⟩
    ihave Hr := (pointsTo_read_all (Pipeline.ucRefs τ sig) (fun b => ((c : Thread nD τ).1, b)) (V17 m (outsU m) c) s') $$ [Hh HSI]
    · isplitl [Hh] <;> iassumption
    icases Hr with ⟨%h, HSI⟩
    imodintro
    isplitr
    · ipureintro
      have hr : ∀ r : Ref sig .tc, ¬ (Proc.devRef .tc r : DevRef τ sig).isScoped →
          s'.mem.mem ((c.tc : Thread nD τ).loc r) = V17 m (outsU m) c (Proc.devRef .tc r) := fun r hs =>
        h (Proc.devRef .tc r) (Finset.mem_filter.mpr ⟨StableHlo.devRef_mem_tcRefs r, hs⟩)
      exact ⟨(hr main_v17 (by decide)).trans (congrFun (V17_eq m c) _),
        (hr main_arg0 (by decide)).trans (V17_main_arg0 m (outsU m) c),
        (hr main_arg1 (by decide)).trans (V17_main_arg1 m (outsU m) c),
        (hr main_arg2 (by decide)).trans (V17_main_arg2 m (outsU m) c),
        (hr main_arg3 (by decide)).trans (V17_main_arg3 m (outsU m) c),
        (hr main_arg4 (by decide)).trans (V17_main_arg4 m (outsU m) c),
        (hr main_arg5 (by decide)).trans (V17_main_arg5 m (outsU m) c),
        (hr main_arg6 (by decide)).trans (V17_main_arg6 m (outsU m) c),
        (hr main_arg7 (by decide)).trans (V17_main_arg7 m (outsU m) c),
        (hr main_arg8 (by decide)).trans (V17_main_arg8 m (outsU m) c),
        (hr main_arg9 (by decide)).trans (V17_main_arg9 m (outsU m) c),
        (hr main_arg10 (by decide)).trans (V17_main_arg10 m (outsU m) c),
        (hr main_arg11 (by decide)).trans (V17_main_arg11 m (outsU m) c),
        (hr main_arg12 (by decide)).trans (V17_main_arg12 m (outsU m) c),
        (hr main_arg13 (by decide)).trans (V17_main_arg13 m (outsU m) c),
        (hr main_arg14 (by decide)).trans (V17_main_arg14 m (outsU m) c),
        (hr main_arg15 (by decide)).trans (V17_main_arg15 m (outsU m) c),
        (hr main_arg16 (by decide)).trans (V17_main_arg16 m (outsU m) c),
        (hr main_arg17 (by decide)).trans (V17_main_arg17 m (outsU m) c),
        (hr main_arg18 (by decide)).trans (V17_main_arg18 m (outsU m) c),
        (hr main_arg19 (by decide)).trans (V17_main_arg19 m (outsU m) c),
        (hr main_arg20 (by decide)).trans (V17_main_arg20 m (outsU m) c),
        (hr main_arg21 (by decide)).trans (V17_main_arg21 m (outsU m) c),
        (hr main_arg22 (by decide)).trans (V17_main_arg22 m (outsU m) c),
        (hr main_arg23 (by decide)).trans (V17_main_arg23 m (outsU m) c),
        (hr main_arg24 (by decide)).trans (V17_main_arg24 m (outsU m) c),
        (hr main_arg25 (by decide)).trans (V17_main_arg25 m (outsU m) c),
        (hr main_arg26 (by decide)).trans (V17_main_arg26 m (outsU m) c)⟩
    · iexact HSI

end Cert.Kernel.Hand

end
-- ==== Proof.Spec.lean ====
import Idealize.ShloMosaic.PureOps.Ideal
import Idealize.ShloMosaic.PureOps.Ideal.Laws
import Idealize.ShloMosaic.Lib.ValueIdx
import Mathlib.Algebra.BigOperators.Fin
import Mathlib.Data.EReal.Operations
import Mathlib.Logic.Equiv.Fin.Basic

noncomputable section

open scoped BigOperators
open Idealize.ShloMosaic Idealize.ShloMosaic.ValueIdx

namespace Cert.Spec

theorem ofNat_eq_iff {n : ℕ} (hn : n < 2 ^ 32) (w : BitVec 32) : BitVec.ofNat 32 n = w ↔ w.toNat = n := by
  constructor
  · rintro rfl
    rw [BitVec.toNat_ofNat]
    exact Nat.mod_eq_of_lt hn
  · intro h
    apply BitVec.eq_of_toNat_eq
    rw [BitVec.toNat_ofNat, h]
    exact Nat.mod_eq_of_lt hn

theorem ite_one_zero_mul (c : Prop) [Decidable c] (v : EReal) : (if c then (1 : EReal) else 0) * v = if c then v else 0 := by
  split
  · exact one_mul v
  · exact zero_mul v

theorem blk_lt {B T E : ℕ} (hE : B * T = E) (s : Fin B) (q : Fin T) : T * s.val + q.val < E := by
  have hs := s.isLt
  have hq := q.isLt
  have h1 : T * s.val + T ≤ T * B := by
    calc T * s.val + T = T * (s.val + 1) := by ring
      _ ≤ T * B := Nat.mul_le_mul_left _ hs
  have h2 : T * B = E := by rw [Nat.mul_comm]; exact hE
  omega

theorem sum_blocks {M : Type*} [AddCommMonoid M] (B T E : ℕ) (hE : B * T = E) (f : Fin E → M) :
    ∑ s : Fin B, ∑ q : Fin T, f ⟨T * s.val + q.val, blk_lt hE s q⟩ = ∑ e : Fin E, f e := by
  subst hE
  rw [← Equiv.sum_comp (finProdFinEquiv (m := B) (n := T)) f, Fintype.sum_prod_type]
  refine Finset.sum_congr rfl fun s _ => Finset.sum_congr rfl fun q _ => ?_
  congr 1
  apply Fin.ext
  simp only [finProdFinEquiv, Equiv.coe_fn_mk]
  omega

def windowEmb (m T E : ℕ) (hm : m + T ≤ E) : Fin T ↪ Fin E where
  toFun q := ⟨m + q.val, by have := q.isLt; omega⟩
  inj' := by
    intro a b h
    have h' := congrArg Fin.val h
    simp only at h'
    exact Fin.ext (by omega)

theorem windowEmb_val (m T E : ℕ) (hm : m + T ≤ E) (q : Fin T) : (windowEmb m T E hm q).val = m + q.val := rfl

theorem sum_window {M : Type*} [AddCommMonoid M] (m T E : ℕ) (hm : m + T ≤ E) (g : Fin E → M) :
    ∑ q : Fin T, g ⟨m + q.val, by have := q.isLt; omega⟩
      = ∑ e : Fin E, if m ≤ e.val ∧ e.val < m + T then g e else 0 := by
  rw [← Finset.sum_filter]
  have hmap : (Finset.univ.filter fun e : Fin E => m ≤ e.val ∧ e.val < m + T) = Finset.univ.map (windowEmb m T E hm) := by
    ext e
    simp only [Finset.mem_filter, Finset.mem_univ, true_and, Finset.mem_map]
    constructor
    · intro h
      exact ⟨⟨e.val - m, by omega⟩, Fin.ext (by rw [windowEmb_val]; simp only; omega)⟩
    · rintro ⟨q, rfl⟩
      have := q.isLt
      rw [windowEmb_val]
      omega
  rw [hmap, Finset.sum_map]
  rfl

def castLEEmb' {E E' : ℕ} (h : E ≤ E') : Fin E ↪ Fin E' where
  toFun := Fin.castLE h
  inj' := by
    intro a b hab
    have h' := congrArg Fin.val hab
    simp only [Fin.coe_castLE] at h'
    exact Fin.ext h'

variable {E N cin hid cout : ℕ}

def gatherAt (x : Fin N → EReal) (i : BitVec 32) : EReal :=
  if h : i.toNat < N then x ⟨i.toNat, h⟩ else 0

def gatherBelow (x : Fin N → EReal) (m : ℕ) (i : BitVec 32) : EReal :=
  if h : i.toNat < N then (if i.toNat < m then x ⟨i.toNat, h⟩ else 0) else 0

theorem gatherBelow_zero (x : Fin N → EReal) (i : BitVec 32) : gatherBelow x 0 i = 0 := by
  unfold gatherBelow
  split
  · rw [if_neg (Nat.not_lt_zero _)]
  · rfl

theorem gatherBelow_all (x : Fin N → EReal) (i : BitVec 32) : gatherBelow x N i = gatherAt x i := by
  unfold gatherBelow gatherAt
  by_cases h : i.toNat < N
  · rw [dif_pos h, dif_pos h, if_pos h]
  · rw [dif_neg h, dif_neg h]

theorem sum_oneHot_window (x : Fin N → EReal) (m R : ℕ) (hm : m + R ≤ N) (hN : N ≤ 2 ^ 32) (i : BitVec 32) :
    ∑ r : Fin R, (if BitVec.ofNat 32 (m + r.val) = i then (1 : EReal) else 0) * x ⟨m + r.val, by have := r.isLt; omega⟩
      = if h : m ≤ i.toNat ∧ i.toNat < m + R then x ⟨i.toNat, by omega⟩ else 0 := by
  by_cases h : m ≤ i.toNat ∧ i.toNat < m + R
  · rw [dif_pos h]
    rw [Finset.sum_eq_single (⟨i.toNat - m, by omega⟩ : Fin R)]
    · rw [ite_one_zero_mul, if_pos ((ofNat_eq_iff (by omega) i).2 (by simp only; omega))]
      congr 1
      apply Fin.ext
      simp only
      omega
    · intro r _ hr
      have hlt := r.isLt
      rw [ite_one_zero_mul, if_neg]
      intro heq
      have h1 := (ofNat_eq_iff (by omega) i).1 heq
      exact hr (Fin.ext (by simp only; omega))
    · intro hnot
      exact absurd (Finset.mem_univ _) hnot
  · rw [dif_neg h]
    apply Finset.sum_eq_zero
    intro r _
    have hlt := r.isLt
    rw [ite_one_zero_mul, if_neg]
    intro heq
    have h1 := (ofNat_eq_iff (by omega) i).1 heq
    exact h (by omega)

theorem gatherBelow_step (x : Fin N → EReal) (m R : ℕ) (hm : m + R ≤ N) (hN : N ≤ 2 ^ 32) (i : BitVec 32) :
    gatherBelow x m i
        + ∑ r : Fin R, (if BitVec.ofNat 32 (m + r.val) = i then (1 : EReal) else 0) * x ⟨m + r.val, by have := r.isLt; omega⟩
      = gatherBelow x (m + R) i := by
  rw [sum_oneHot_window x m R hm hN i]
  unfold gatherBelow
  by_cases h1 : i.toNat < m
  · have hN' : i.toNat < N := by omega
    have h2 : ¬(m ≤ i.toNat ∧ i.toNat < m + R) := by omega
    have h3 : i.toNat < m + R := by omega
    simp only [dif_pos hN', if_pos h1, dif_neg h2, if_pos h3, add_zero]
  · by_cases h2 : i.toNat < m + R
    · have hN' : i.toNat < N := by omega
      have h3 : m ≤ i.toNat ∧ i.toNat < m + R := ⟨by omega, h2⟩
      simp only [dif_pos hN', if_neg h1, dif_pos h3, if_pos h2, zero_add]
    · have h3 : ¬(m ≤ i.toNat ∧ i.toNat < m + R) := by omega
      by_cases hN' : i.toNat < N
      · simp only [dif_pos hN', if_neg h1, dif_neg h3, if_neg h2, add_zero]
      · simp only [dif_neg hN', dif_neg h3, add_zero]

theorem sum_oneHot_eq_gatherAt (x : Fin N → EReal) (hN : N ≤ 2 ^ 32) (i : BitVec 32) :
    ∑ n : Fin N, (if BitVec.ofNat 32 n.val = i then (1 : EReal) else 0) * x n = gatherAt x i := by
  have h := gatherBelow_step x 0 N (by omega) hN i
  simp only [Nat.zero_add, gatherBelow_zero, zero_add, gatherBelow_all] at h
  exact h

def mlp (Wm1 : Fin (cin + cin) → Fin hid → EReal) (bm1 : Fin hid → EReal) (Wm2 : Fin hid → Fin cin → EReal)
    (bm2 : Fin cin → EReal) (W2 : Fin cin → Fin cout → EReal) (b2 : Fin cout → EReal)
    (xi xj : Fin cin → EReal) (o : Fin cout) : EReal :=
  ∑ k : Fin cin, ((∑ j : Fin hid, max (∑ q : Fin (cin + cin), Fin.append xi xj q * Wm1 q j + bm1 j) 0 * Wm2 j k + bm2 k)
      * (xi k - xj k)) * W2 k o + b2 o

theorem append_apply (xi xj : Fin cin → EReal) (q : Fin (cin + cin)) :
    Fin.append xi xj q = if h : q.val < cin then xi ⟨q.val, h⟩ else xj ⟨q.val - cin, by have := q.isLt; omega⟩ := by
  by_cases h : q.val < cin
  · rw [dif_pos h]
    have key := Fin.append_left xi xj ⟨q.val, h⟩
    have hq : Fin.castAdd cin (⟨q.val, h⟩ : Fin cin) = q := Fin.ext rfl
    rw [hq] at key
    exact key
  · rw [dif_neg h]
    have hlt : q.val - cin < cin := by have := q.isLt; omega
    have key := Fin.append_right xi xj ⟨q.val - cin, hlt⟩
    have hq : Fin.natAdd cin (⟨q.val - cin, hlt⟩ : Fin cin) = q := Fin.ext (by simp only [Fin.coe_natAdd]; omega)
    rw [hq] at key
    exact key

def gatherMsg (src dst : Fin E → BitVec 32) (x : Fin N → Fin cin → EReal)
    (Wm1 : Fin (cin + cin) → Fin hid → EReal) (bm1 : Fin hid → EReal) (Wm2 : Fin hid → Fin cin → EReal)
    (bm2 : Fin cin → EReal) (W2 : Fin cin → Fin cout → EReal) (b2 : Fin cout → EReal)
    (e : Fin E) (o : Fin cout) : EReal :=
  mlp Wm1 bm1 Wm2 bm2 W2 b2 (fun k => gatherAt (fun n => x n k) (dst e)) (fun k => gatherAt (fun n => x n k) (src e)) o

def segSum (dst : Fin E → BitVec 32) (u : Fin E → EReal) (n : ℕ) : EReal :=
  ∑ e : Fin E, if (dst e).toNat = n then u e else 0

def segSumBelow (dst : Fin E → BitVec 32) (u : Fin E → EReal) (m n : ℕ) : EReal :=
  ∑ e : Fin E, if e.val < m ∧ (dst e).toNat = n then u e else 0

theorem segSumBelow_zero (dst : Fin E → BitVec 32) (u : Fin E → EReal) (n : ℕ) : segSumBelow dst u 0 n = 0 := by
  unfold segSumBelow
  apply Finset.sum_eq_zero
  intro e _
  rw [if_neg]
  rintro ⟨h, _⟩
  exact Nat.not_lt_zero _ h

theorem segSumBelow_all (dst : Fin E → BitVec 32) (u : Fin E → EReal) (n : ℕ) : segSumBelow dst u E n = segSum dst u n := by
  unfold segSumBelow segSum
  refine Finset.sum_congr rfl fun e _ => ?_
  simp only [e.isLt, true_and]

theorem segSum_oneHot (dst : Fin E → BitVec 32) (u : Fin E → EReal) {n : ℕ} (hn : n < 2 ^ 32) :
    ∑ e : Fin E, (if BitVec.ofNat 32 n = dst e then (1 : EReal) else 0) * u e = segSum dst u n := by
  unfold segSum
  refine Finset.sum_congr rfl fun e _ => ?_
  rw [ite_one_zero_mul]
  simp only [ofNat_eq_iff hn]

theorem segSumBelow_step (dst : Fin E → BitVec 32) (u : Fin E → EReal) (m T n : ℕ) (hm : m + T ≤ E) (hn : n < 2 ^ 32) :
    segSumBelow dst u m n
        + ∑ q : Fin T, (if BitVec.ofNat 32 n = dst ⟨m + q.val, by have := q.isLt; omega⟩ then (1 : EReal) else 0)
            * u ⟨m + q.val, by have := q.isLt; omega⟩
      = segSumBelow dst u (m + T) n := by
  have hw := sum_window m T E hm (fun e => (if BitVec.ofNat 32 n = dst e then (1 : EReal) else 0) * u e)
  rw [hw]
  unfold segSumBelow
  rw [← Finset.sum_add_distrib]
  refine Finset.sum_congr rfl fun e _ => ?_
  rw [ite_one_zero_mul]
  simp only [ofNat_eq_iff hn]
  by_cases hP : (dst e).toNat = n
  · by_cases h1 : e.val < m
    · have c1 : e.val < m ∧ (dst e).toNat = n := ⟨h1, hP⟩
      have c2 : ¬(m ≤ e.val ∧ e.val < m + T) := by omega
      have c3 : e.val < m + T ∧ (dst e).toNat = n := ⟨by omega, hP⟩
      rw [if_pos c1, if_neg c2, if_pos c3, add_zero]
    · by_cases h3 : e.val < m + T
      · have c1 : ¬(e.val < m ∧ (dst e).toNat = n) := fun h => h1 h.1
        have c2 : m ≤ e.val ∧ e.val < m + T := ⟨by omega, h3⟩
        have c3 : e.val < m + T ∧ (dst e).toNat = n := ⟨h3, hP⟩
        rw [if_neg c1, if_pos c2, if_pos hP, if_pos c3, zero_add]
      · have c1 : ¬(e.val < m ∧ (dst e).toNat = n) := fun h => h1 h.1
        have c2 : ¬(m ≤ e.val ∧ e.val < m + T) := fun h => h3 h.2
        have c3 : ¬(e.val < m + T ∧ (dst e).toNat = n) := fun h => h3 h.1
        rw [if_neg c1, if_neg c2, if_neg c3, add_zero]
  · have c1 : ¬(e.val < m ∧ (dst e).toNat = n) := fun h => hP h.2
    have c3 : ¬(e.val < m + T ∧ (dst e).toNat = n) := fun h => hP h.2
    rw [if_neg c1, if_neg c3, if_neg hP, ite_self, add_zero]

def act (relu : Bool) (v : EReal) : EReal := if relu then max v 0 else v

@[simp] theorem act_true (v : EReal) : act true v = max v 0 := rfl
@[simp] theorem act_false (v : EReal) : act false v = v := rfl

def scatterOut (relu : Bool) (dst : Fin E → BitVec 32) (msg : Fin E → Fin cout → EReal) (x : Fin N → Fin cin → EReal)
    (W1 : Fin cin → Fin cout → EReal) (b1 : Fin cout → EReal) (n : Fin N) (o : Fin cout) : EReal :=
  act relu (segSum dst (fun e => msg e o) n.val + (∑ k : Fin cin, x n k * W1 k o + b1 o))

def layerOut (relu : Bool) (src dst : Fin E → BitVec 32) (x : Fin N → Fin cin → EReal)
    (W1 : Fin cin → Fin cout → EReal) (b1 : Fin cout → EReal)
    (Wm1 : Fin (cin + cin) → Fin hid → EReal) (bm1 : Fin hid → EReal) (Wm2 : Fin hid → Fin cin → EReal)
    (bm2 : Fin cin → EReal) (W2 : Fin cin → Fin cout → EReal) (b2 : Fin cout → EReal) : Fin N → Fin cout → EReal :=
  scatterOut relu dst (gatherMsg src dst x Wm1 bm1 Wm2 bm2 W2 b2) x W1 b1

def refNet (src dst : Fin E → BitVec 32) (x0 : Fin N → Fin 1 → EReal)
    (dW1 : Fin 1 → Fin 20 → EReal) (db1 : Fin 20 → EReal) (dWm1 : Fin (1 + 1) → Fin 200 → EReal) (dbm1 : Fin 200 → EReal)
    (dWm2 : Fin 200 → Fin 1 → EReal) (dbm2 : Fin 1 → EReal) (dW2 : Fin 1 → Fin 20 → EReal) (db2 : Fin 20 → EReal)
    (hW1 : Fin 20 → Fin 20 → EReal) (hb1 : Fin 20 → EReal) (hWm1 : Fin (20 + 20) → Fin 200 → EReal) (hbm1 : Fin 200 → EReal)
    (hWm2 : Fin 200 → Fin 20 → EReal) (hbm2 : Fin 20 → EReal) (hW2 : Fin 20 → Fin 20 → EReal) (hb2 : Fin 20 → EReal)
    (oW1 : Fin 20 → Fin 1 → EReal) (ob1 : Fin 1 → EReal) (oWm1 : Fin (20 + 20) → Fin 200 → EReal) (obm1 : Fin 200 → EReal)
    (oWm2 : Fin 200 → Fin 20 → EReal) (obm2 : Fin 20 → EReal) (oW2 : Fin 20 → Fin 1 → EReal) (ob2 : Fin 1 → EReal) :
    Fin N → Fin 1 → EReal :=
  layerOut false src dst
    (layerOut true src dst
      (layerOut true src dst
        (layerOut true src dst
          (layerOut true src dst x0 dW1 db1 dWm1 dbm1 dWm2 dbm2 dW2 db2)
          hW1 hb1 hWm1 hbm1 hWm2 hbm2 hW2 hb2)
        hW1 hb1 hWm1 hbm1 hWm2 hbm2 hW2 hb2)
      hW1 hb1 hWm1 hbm1 hWm2 hbm2 hW2 hb2)
    oW1 ob1 oWm1 obm1 oWm2 obm2 oW2 ob2

def mat {A B : ℕ} {α : Type} (a : (⟨2, ![A, B]⟩ : Shape).Idx → α) : Fin A → Fin B → α := fun i j => a (ix2 i j)

def vec {A : ℕ} {α : Type} (a : (⟨1, ![A]⟩ : Shape).Idx → α) : Fin A → α := fun i => a (ix1 i)

def row {E : ℕ} (r : Fin 2) (edges : (⟨2, ![2, E]⟩ : Shape).Idx → BitVec 32) : Fin E → BitVec 32 := fun e => edges (ix2 r e)

section Pad
variable {E' N' : ℕ}

theorem gatherAt_pad (hNN : N ≤ N') (x : Fin N → EReal) (x' : Fin N' → EReal)
    (hx : ∀ n : Fin N, x' (Fin.castLE hNN n) = x n) (i : BitVec 32) (hi : i.toNat < N) :
    gatherAt x' i = gatherAt x i := by
  unfold gatherAt
  rw [dif_pos hi, dif_pos (show i.toNat < N' by omega)]
  exact hx ⟨i.toNat, hi⟩

theorem gatherMsg_pad (hEE : E ≤ E') (hNN : N ≤ N') (src dst : Fin E → BitVec 32) (src' dst' : Fin E' → BitVec 32)
    (x : Fin N → Fin cin → EReal) (x' : Fin N' → Fin cin → EReal)
    (hsrc : ∀ e : Fin E, src' (Fin.castLE hEE e) = src e) (hdst : ∀ e : Fin E, dst' (Fin.castLE hEE e) = dst e)
    (hx : ∀ (n : Fin N) (k : Fin cin), x' (Fin.castLE hNN n) k = x n k)
    (hsr : ∀ e : Fin E, (src e).toNat < N) (hdr : ∀ e : Fin E, (dst e).toNat < N)
    (Wm1 : Fin (cin + cin) → Fin hid → EReal) (bm1 : Fin hid → EReal) (Wm2 : Fin hid → Fin cin → EReal)
    (bm2 : Fin cin → EReal) (W2 : Fin cin → Fin cout → EReal) (b2 : Fin cout → EReal) (e : Fin E) (o : Fin cout) :
    gatherMsg src' dst' x' Wm1 bm1 Wm2 bm2 W2 b2 (Fin.castLE hEE e) o = gatherMsg src dst x Wm1 bm1 Wm2 bm2 W2 b2 e o := by
  unfold gatherMsg
  rw [hsrc e, hdst e]
  have h1 : (fun k => gatherAt (fun n => x' n k) (dst e)) = fun k => gatherAt (fun n => x n k) (dst e) :=
    funext fun k => gatherAt_pad hNN _ _ (fun n => hx n k) _ (hdr e)
  have h2 : (fun k => gatherAt (fun n => x' n k) (src e)) = fun k => gatherAt (fun n => x n k) (src e) :=
    funext fun k => gatherAt_pad hNN _ _ (fun n => hx n k) _ (hsr e)
  rw [h1, h2]

theorem segSum_pad (hEE : E ≤ E') (dst : Fin E → BitVec 32) (dst' : Fin E' → BitVec 32) (u : Fin E → EReal) (u' : Fin E' → EReal)
    (hdst : ∀ e : Fin E, dst' (Fin.castLE hEE e) = dst e) (hu : ∀ e : Fin E, u' (Fin.castLE hEE e) = u e) (n : ℕ)
    (hpad : ∀ e' : Fin E', E ≤ e'.val → (dst' e').toNat ≠ n) : segSum dst' u' n = segSum dst u n := by
  unfold segSum
  have hmap : ∑ e : Fin E, (if (dst e).toNat = n then u e else 0)
      = ∑ e' ∈ Finset.univ.map (castLEEmb' hEE), (if (dst' e').toNat = n then u' e' else 0) := by
    rw [Finset.sum_map]
    refine Finset.sum_congr rfl fun e _ => ?_
    show _ = if (dst' (Fin.castLE hEE e)).toNat = n then u' (Fin.castLE hEE e) else 0
    rw [hdst e, hu e]
  rw [hmap]
  symm
  apply Finset.sum_subset (Finset.subset_univ _)
  intro e' _ hnot
  rw [if_neg]
  apply hpad
  by_contra hlt
  apply hnot
  rw [Finset.mem_map]
  exact ⟨⟨e'.val, by omega⟩, Finset.mem_univ _, Fin.ext rfl⟩

theorem scatterOut_pad (relu : Bool) (hEE : E ≤ E') (hNN : N ≤ N') (dst : Fin E → BitVec 32) (dst' : Fin E' → BitVec 32)
    (msg : Fin E → Fin cout → EReal) (msg' : Fin E' → Fin cout → EReal)
    (x : Fin N → Fin cin → EReal) (x' : Fin N' → Fin cin → EReal)
    (hdst : ∀ e : Fin E, dst' (Fin.castLE hEE e) = dst e)
    (hmsg : ∀ (e : Fin E) (o : Fin cout), msg' (Fin.castLE hEE e) o = msg e o)
    (hx : ∀ (n : Fin N) (k : Fin cin), x' (Fin.castLE hNN n) k = x n k)
    (hpad : ∀ e' : Fin E', E ≤ e'.val → N ≤ (dst' e').toNat)
    (W1 : Fin cin → Fin cout → EReal) (b1 : Fin cout → EReal) (n : Fin N) (o : Fin cout) :
    scatterOut relu dst' msg' x' W1 b1 (Fin.castLE hNN n) o = scatterOut relu dst msg x W1 b1 n o := by
  unfold scatterOut
  have hs : segSum dst' (fun e => msg' e o) (Fin.castLE hNN n).val = segSum dst (fun e => msg e o) n.val := by
    rw [Fin.coe_castLE]
    exact segSum_pad hEE dst dst' _ _ hdst (fun e => hmsg e o) n.val (fun e' he' => by
      have := hpad e' he'; have := n.isLt; omega)
  have hk : ∑ k : Fin cin, x' (Fin.castLE hNN n) k * W1 k o = ∑ k : Fin cin, x n k * W1 k o :=
    Finset.sum_congr rfl fun k _ => by rw [hx n k]
  rw [hs, hk]

theorem layerOut_pad (relu : Bool) (hEE : E ≤ E') (hNN : N ≤ N') (src dst : Fin E → BitVec 32) (src' dst' : Fin E' → BitVec 32)
    (x : Fin N → Fin cin → EReal) (x' : Fin N' → Fin cin → EReal)
    (hsrc : ∀ e : Fin E, src' (Fin.castLE hEE e) = src e) (hdst : ∀ e : Fin E, dst' (Fin.castLE hEE e) = dst e)
    (hx : ∀ (n : Fin N) (k : Fin cin), x' (Fin.castLE hNN n) k = x n k)
    (hsr : ∀ e : Fin E, (src e).toNat < N) (hdr : ∀ e : Fin E, (dst e).toNat < N)
    (hpad : ∀ e' : Fin E', E ≤ e'.val → N ≤ (dst' e').toNat)
    (W1 : Fin cin → Fin cout → EReal) (b1 : Fin cout → EReal)
    (Wm1 : Fin (cin + cin) → Fin hid → EReal) (bm1 : Fin hid → EReal) (Wm2 : Fin hid → Fin cin → EReal)
    (bm2 : Fin cin → EReal) (W2 : Fin cin → Fin cout → EReal) (b2 : Fin cout → EReal) (n : Fin N) (o : Fin cout) :
    layerOut relu src' dst' x' W1 b1 Wm1 bm1 Wm2 bm2 W2 b2 (Fin.castLE hNN n) o
      = layerOut relu src dst x W1 b1 Wm1 bm1 Wm2 bm2 W2 b2 n o := by
  unfold layerOut
  exact scatterOut_pad relu hEE hNN dst dst' _ _ x x' hdst
    (fun e o => gatherMsg_pad hEE hNN src dst src' dst' x x' hsrc hdst hx hsr hdr Wm1 bm1 Wm2 bm2 W2 b2 e o)
    hx hpad W1 b1 n o

end Pad

end Cert.Spec

end
-- ==== Proof.KI.P0.lean ====
import proofs.«415925_j84189948936386_1_alg».proof.Proof.Gen.KernelIdeal.Launch
import proofs.«415925_j84189948936386_1_alg».proof.Proof.Gen.KernelIdeal.Skeleton
import proofs.«415925_j84189948936386_1_alg».proof.Proof.Spec
import Idealize.ShloMosaic.Lib.Pipeline.FrameBody
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

namespace P0

variable {F : FTy → Type} [FloatOps F]

theorem onehot_ideal (a b : BitVec 32) :
    (FloatOps.sitofp (F := Ideal) .f32 ((IntOp.cmpi .eq a b).setWidth 32) : EReal) = if a = b then (1 : EReal) else 0 := by
  by_cases h : a = b
  · subst h
    rw [if_pos rfl]
    have e1 : IntOp.cmpi .eq a a = 1#1 := by simp [IntOp.cmpi]
    rw [e1]
    show (((BitVec.setWidth 32 1#1).toInt : ℝ) : EReal) = 1
    rw [show (BitVec.setWidth 32 1#1).toInt = 1 from by decide]
    norm_num
  · rw [if_neg h]
    have hb : (a == b) = false := beq_eq_false_iff_ne.mpr h
    have e0 : IntOp.cmpi .eq a b = 0#1 := by
      show BitVec.ofBool (a == b) = 0#1
      rw [hb]
      rfl
    rw [e0]
    show (((BitVec.setWidth 32 0#1).toInt : ℝ) : EReal) = 0
    rw [show (BitVec.setWidth 32 0#1).toInt = 0 from by decide]
    norm_num

theorem nodeWord (nb k : Nat) :
    IntOp.addi (Scalar.muli (BitVec.ofNat 32 nb) 1024#32) (BitVec.ofNat 32 k) = BitVec.ofNat 32 (1024 * nb + k) := by
  show BitVec.ofNat 32 nb * 1024#32 + BitVec.ofNat 32 k = _
  rw [show (1024#32 : BitVec 32) = BitVec.ofNat 32 1024 from rfl, ← BitVec.ofNat_mul, ← BitVec.ofNat_add, Nat.mul_comm]

abbrev Dg := dot_S1024x2048_S1024x1_S2048x1_0_0_1_1_n_n
abbrev Dh := dot_S2048x2_S2x200_S2048x200_1_0_0_1_n_n
abbrev Dq := dot_S2048x200_S200x1_S2048x1_1_0_0_1_n_n
abbrev Do := dot_S2048x1_S1x20_S2048x20_1_0_0_1_n_n

theorem Dg_rank : Dg.contr.rank = 1 := rfl
theorem Dg_size : Dg.contr.size ⟨0, by decide⟩ = 1024 := by decide
theorem Dh_size : Dh.contr.size ⟨0, by decide⟩ = 0x1 + 0x1 := by decide
theorem Dq_size : Dq.contr.size ⟨0, by decide⟩ = 200 := by decide
theorem Do_size : Do.contr.size ⟨0, by decide⟩ = 0x1 := by decide
theorem Dh_rank : Dh.contr.rank = 1 := rfl
theorem Dq_rank : Dq.contr.rank = 1 := rfl
theorem Do_rank : Do.contr.rank = 1 := rfl

theorem Dg_lhs0 (j : S2048x1.Idx) (k : Dg.contr.Idx) : (Dg.lhsIdx j k 0).val = (k ⟨0, by decide⟩).val := Dg.lhsIdx_val_of_single rfl j k
theorem Dg_lhs1 (j : S2048x1.Idx) (k : Dg.contr.Idx) : (Dg.lhsIdx j k 1).val = (j 0).val := rfl
theorem Dg_rhs0 (j : S2048x1.Idx) (k : Dg.contr.Idx) : (Dg.rhsIdx j k 0).val = (k ⟨0, by decide⟩).val := Dg.rhsIdx_val_of_single rfl j k
theorem Dg_rhs1 (j : S2048x1.Idx) (k : Dg.contr.Idx) : (Dg.rhsIdx j k 1).val = (j 1).val := rfl

theorem idxRow_apply (idx : IVec S2048 32) (p : S1024x2048.Idx) :
    broadcastTo S1024x2048 (shapeCast S1x2048 idx shapeCasts_S2048_S1x2048) broadcasts_S1x2048_S1024x2048 p
      = idx (ix1 (p 1)) := by
  refine (broadcastTo_apply _ broadcasts_S1x2048_S1024x2048 p (ix2 (0 : Fin 1) (p 1)) ?_).trans ?_
  · intro a
    match a with
    | ⟨0, _⟩ => rfl
    | ⟨1, _⟩ => rfl
  · refine (shapeCast_addUnit_apply ![2048] idx shapeCasts_S2048_S1x2048 _).trans ?_
    congr 1
    funext a
    match a with
    | ⟨0, _⟩ => rfl

theorem pay4_apply (i : grid0.Coords) (p : S1024x2048.Idx) :
    k0_pay4 i p = BitVec.ofNat 32 (1024 * (i 1).val + (p 0).val) := by
  unfold k0_pay4
  show IntOp.addi (Scalar.muli (BitVec.ofNat 32 (i 1).val) 1024#32) (iota .tc S1024x2048 32 [0] iota_S1024x2048_d0_w32 p) = _
  rw [iota_single_apply, nodeWord]

theorem pay5_eq (xb : Vec Ideal S1024x1 .f32) : k0_pay5 (F := Ideal) xb = xb := by
  unfold k0_pay5
  simp only [shapeCast_self]
  rfl

theorem pay6_apply (i : grid0.Coords) (idx : Vec Ideal S2048 .i32) (xb : Vec Ideal S1024x1 .f32) (acc : Vec Ideal S2048x1 .f32)
    (r : Fin 2048) (z : Fin 0x1) :
    k0_pay6 (F := Ideal) i idx xb acc (ix2 r z)
      = acc (ix2 r z) + ∑ k : Fin 1024,
          (if BitVec.ofNat 32 (1024 * (i 1).val + k.val) = idx (ix1 r) then (1 : EReal) else 0) * xb (ix2 k z) := by
  unfold k0_pay6
  simp only [shapeCast_self]
  show acc (ix2 r z) + FloatOps.matmul (F := Ideal) Dg none _ _ (constant S2048x1 .f32 0x00000000#32) (ix2 r z) = _
  refine congrArg (acc (ix2 r z) + ·) ?_
  refine (Ideal.matmul_constant_zero_apply Dg none _ _ (ix2 r z)).trans ?_
  rw [← Equiv.sum_comp (contrEquiv1 Dg 1024 Dg_rank Dg_size).symm]
  refine Finset.sum_congr rfl fun k _ => ?_
  have hk := contrEquiv1_symm_val Dg 1024 Dg_rank Dg_size k
  congr 1
  ·
    show FloatOps.sitofp (F := Ideal) .f32 ((IntOp.cmpi .eq (k0_pay4 i _) (broadcastTo S1024x2048 _ _ _)).setWidth 32) = _
    rw [onehot_ideal, pay4_apply, idxRow_apply]
    have e0 : ((Dg.lhsIdx (ix2 r z) ((contrEquiv1 Dg 1024 Dg_rank Dg_size).symm k)) 0).val = k.val := (Dg_lhs0 _ _).trans hk
    have e1 : ((Dg.lhsIdx (ix2 r z) ((contrEquiv1 Dg 1024 Dg_rank Dg_size).symm k)) 1) = r := Fin.ext (Dg_lhs1 _ _)
    rw [e0, e1]
  ·
    rw [pay5_eq]
    congr 1
    refine Shape.idx_ext₂ ?_ ?_
    · exact (Dg_rhs0 _ _).trans hk
    · exact Dg_rhs1 _ _

theorem pay2_apply (j : S2048x1.Idx) : k0_pay2 (F := Ideal) j = 0 := by
  unfold k0_pay2
  simp only [shapeCast_self]
  show Ideal.ofBits .f32 0x00000000#32 = 0
  exact Ideal.ofBits_zero_f32

theorem Dh_l0 (j : S2048x200.Idx) (k : Dh.contr.Idx) : (Dh.lhsIdx j k 0).val = (j 0).val := rfl
theorem Dh_l1 (j : S2048x200.Idx) (k : Dh.contr.Idx) : (Dh.lhsIdx j k 1).val = (k ⟨0, by decide⟩).val := Dh.lhsIdx_val_of_single rfl j k
theorem Dh_r0 (j : S2048x200.Idx) (k : Dh.contr.Idx) : (Dh.rhsIdx j k 0).val = (k ⟨0, by decide⟩).val := Dh.rhsIdx_val_of_single rfl j k
theorem Dh_r1 (j : S2048x200.Idx) (k : Dh.contr.Idx) : (Dh.rhsIdx j k 1).val = (j 1).val := rfl
theorem Dq_l0 (j : S2048x1.Idx) (k : Dq.contr.Idx) : (Dq.lhsIdx j k 0).val = (j 0).val := rfl
theorem Dq_l1 (j : S2048x1.Idx) (k : Dq.contr.Idx) : (Dq.lhsIdx j k 1).val = (k ⟨0, by decide⟩).val := Dq.lhsIdx_val_of_single rfl j k
theorem Dq_r0 (j : S2048x1.Idx) (k : Dq.contr.Idx) : (Dq.rhsIdx j k 0).val = (k ⟨0, by decide⟩).val := Dq.rhsIdx_val_of_single rfl j k
theorem Dq_r1 (j : S2048x1.Idx) (k : Dq.contr.Idx) : (Dq.rhsIdx j k 1).val = (j 1).val := rfl
theorem Do_l0 (j : S2048x20.Idx) (k : Do.contr.Idx) : (Do.lhsIdx j k 0).val = (j 0).val := rfl
theorem Do_l1 (j : S2048x20.Idx) (k : Do.contr.Idx) : (Do.lhsIdx j k 1).val = (k ⟨0, by decide⟩).val := Do.lhsIdx_val_of_single rfl j k
theorem Do_r0 (j : S2048x20.Idx) (k : Do.contr.Idx) : (Do.rhsIdx j k 0).val = (k ⟨0, by decide⟩).val := Do.rhsIdx_val_of_single rfl j k
theorem Do_r1 (j : S2048x20.Idx) (k : Do.contr.Idx) : (Do.rhsIdx j k 1).val = (j 1).val := rfl

theorem dot_apply_of_coords {M K N : Nat} {φ₁ φ₂ : FTy} (D : DotDims ⟨2, ![M, K]⟩ ⟨2, ![K, N]⟩ ⟨2, ![M, N]⟩)
    (hrk : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (lhs : FVec Ideal ⟨2, ![M, K]⟩ φ₁) (rhs : FVec Ideal ⟨2, ![K, N]⟩ φ₂) (r : Fin M) (o : Fin N) :
    FloatOps.matmul (F := Ideal) D none lhs rhs (constant ⟨2, ![M, N]⟩ .f32 0x00000000#32) (ix2 r o)
      = ∑ k : Fin K, lhs (ix2 r k) * rhs (ix2 k o) := by
  refine (Ideal.matmul_constant_zero_apply D none lhs rhs (ix2 r o)).trans ?_
  rw [← Equiv.sum_comp (contrEquiv1 D K hrk hs).symm]
  refine Finset.sum_congr rfl fun k _ => ?_
  have hk := contrEquiv1_symm_val D K hrk hs k
  congr 1
  · congr 1
    exact Shape.idx_ext₂ (hl0 _ _) ((hl1 _ _).trans hk)
  · congr 1
    exact Shape.idx_ext₂ ((hr0 _ _).trans hk) (hr1 _ _)

theorem biasRow_apply {α : Type} {m n : Nat} (b : (⟨1, ![n]⟩ : Shape).Idx → α)
    (h1 : (⟨1, ![n]⟩ : Shape).ShapeCasts ⟨2, ![1, n]⟩) (h2 : (⟨2, ![1, n]⟩ : Shape).Broadcasts ⟨2, ![m, n]⟩)
    (r : Fin m) (o : Fin n) :
    broadcastTo ⟨2, ![m, n]⟩ (shapeCast ⟨2, ![1, n]⟩ b h1) h2 (ix2 r o) = b (ix1 o) := by
  refine (broadcastTo_apply _ h2 (ix2 r o) (ix2 (0 : Fin 1) o) ?_).trans ?_
  · intro a
    match a with
    | ⟨0, _⟩ => rfl
    | ⟨1, _⟩ =>
      show o.val = if n = 1 then 0 else o.val
      have := o.isLt
      split <;> omega
  · refine (shapeCast_addUnit_apply ![n] b h1 _).trans ?_
    congr 1
    funext a
    match a with
    | ⟨0, _⟩ => rfl

theorem cat_apply (xi xj : Vec Ideal S2048x1 .f32) (r : Fin 2048) (q : Fin (0x1 + 0x1)) :
    concatenate S2048x2 1 [⟨S2048x1, xi⟩, ⟨S2048x1, xj⟩] concatenates_S2048x1_S2048x1_S2048x2_d1 (ix2 r q)
      = Fin.append (fun k : Fin 0x1 => xi (ix2 r k)) (fun k : Fin 0x1 => xj (ix2 r k)) q := by
  rw [Spec.append_apply]
  by_cases h : q.val < 0x1
  · rw [dif_pos h]
    refine concatenate_pair_apply_left (1 : Fin 2) xi xj _ (ix2 r q) rfl (ix2 r ⟨q.val, h⟩) ?_
    intro b
    match b with
    | ⟨0, _⟩ => rfl
    | ⟨1, _⟩ => rfl
  · rw [dif_neg h]
    have hq := q.isLt
    refine concatenate_pair_apply_right (1 : Fin 2) xi xj _ (ix2 r q) rfl rfl (ix2 r ⟨q.val - 0x1, by omega⟩) ?_ ?_
    · intro b hb
      match b with
      | ⟨0, _⟩ => rfl
      | ⟨1, _⟩ => exact absurd rfl hb
    · show q.val - 0x1 + 0x1 = q.val
      omega

theorem pay1_apply (xi xj : Vec Ideal S2048x1 .f32) (Wm1 : Vec Ideal S2x200 .f32) (bm1 : Vec Ideal S200 .f32)
    (Wm2 : Vec Ideal S200x1 .f32) (bm2 : Vec Ideal S1 .f32) (W2 : Vec Ideal S1x20 .f32) (b2 : Vec Ideal S20 .f32)
    (r : Fin 2048) (o : Fin 0x14) :
    k0_pay1 (F := Ideal) xi xj Wm1 bm1 Wm2 bm2 W2 b2 (ix2 r o)
      = Spec.mlp (cin := 0x1) (Spec.mat Wm1) (Spec.vec bm1) (Spec.mat Wm2) (Spec.vec bm2) (Spec.mat W2) (Spec.vec b2)
          (fun k => xi (ix2 r k)) (fun k => xj (ix2 r k)) o := by
  unfold k0_pay1 Spec.mlp
  show FloatOps.matmul (F := Ideal) Do none _ _ (constant S2048x20 .f32 0x00000000#32) (ix2 r o)
      + broadcastTo S2048x20 (shapeCast _ b2 shapeCasts_S20_S1x20) broadcasts_S1x20_S2048x20 (ix2 r o) = _
  refine congrArg₂ (· + ·) ((dot_apply_of_coords Do Do_rank Do_size Do_l0 Do_l1 Do_r0 Do_r1 _ _ r o).trans ?_)
    (biasRow_apply b2 shapeCasts_S20_S1x20 broadcasts_S1x20_S2048x20 r o)
  refine Finset.sum_congr rfl fun k _ => congrArg₂ (· * ·) ?_ rfl

  show (FloatOps.matmul (F := Ideal) Dq none _ _ (constant S2048x1 .f32 0x00000000#32) (ix2 r k)
      + broadcastTo S2048x1 (shapeCast _ bm2 shapeCasts_S1_S1x1) broadcasts_S1x1_S2048x1 (ix2 r k))
      * (xi (ix2 r k) - xj (ix2 r k)) = _
  refine congrArg₂ (· * ·) (congrArg₂ (· + ·) ((dot_apply_of_coords Dq Dq_rank Dq_size Dq_l0 Dq_l1 Dq_r0 Dq_r1 _ _ r k).trans ?_)
    (biasRow_apply bm2 shapeCasts_S1_S1x1 broadcasts_S1x1_S2048x1 r k)) rfl
  refine Finset.sum_congr rfl fun j _ => congrArg₂ (· * ·) ?_ rfl

  show max (FloatOps.matmul (F := Ideal) Dh none _ _ (constant S2048x200 .f32 0x00000000#32) (ix2 r j)
      + broadcastTo S2048x200 (shapeCast _ bm1 shapeCasts_S200_S1x200) broadcasts_S1x200_S2048x200 (ix2 r j))
      (Ideal.ofBits .f32 0x00000000#32) = _
  rw [Ideal.ofBits_zero_f32]
  refine congrArg (max · 0) (congrArg₂ (· + ·) ((dot_apply_of_coords Dh Dh_rank Dh_size Dh_l0 Dh_l1 Dh_r0 Dh_r1 _ _ r j).trans ?_)
    (biasRow_apply bm1 shapeCasts_S200_S1x200 broadcasts_S1x200_S2048x200 r j))
  exact Finset.sum_congr rfl fun q _ => congrArg₂ (· * ·) (cat_apply xi xj r q) rfl

end P0

end Cert.KernelIdeal.Hand

end
-- ==== Proof.KI.V0.lean ====
import proofs.«415925_j84189948936386_1_alg».proof.Proof.KI.R0Dat
import proofs.«415925_j84189948936386_1_alg».proof.Proof.KI.P0
import proofs.«415925_j84189948936386_1_alg».proof.Proof.Spec
import Idealize.ShloMosaic.Lib.Pipeline.FrameBody
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

namespace R0

open P0

section Generic
variable {F : FTy → Type} [FloatOps F]
variable (V : (c : Dev nD) → (b : Ref sig .tc) → Buf (Elt F) ((c : Thread nD τ).loc b))

abbrev srcA (c : Dev nD) : Vec F S401408 .i32 := V c (Pipeline.arrRef spec0 0)
abbrev dstA (c : Dev nD) : Vec F S401408 .i32 := V c (Pipeline.arrRef spec0 1)
abbrev xA (c : Dev nD) : Vec F S25600x1 .f32 := V c (Pipeline.arrRef spec0 2)
abbrev Wm1A (c : Dev nD) : Vec F S2x200 .f32 := V c (Pipeline.arrRef spec0 3)
abbrev bm1A (c : Dev nD) : Vec F S200 .f32 := V c (Pipeline.arrRef spec0 4)
abbrev Wm2A (c : Dev nD) : Vec F S200x1 .f32 := V c (Pipeline.arrRef spec0 5)
abbrev bm2A (c : Dev nD) : Vec F S1 .f32 := V c (Pipeline.arrRef spec0 6)
abbrev W2A (c : Dev nD) : Vec F S1x20 .f32 := V c (Pipeline.arrRef spec0 7)
abbrev b2A (c : Dev nD) : Vec F S20 .f32 := V c (Pipeline.arrRef spec0 8)

abbrev srcB (c : Dev nD) (t : Fin cfg0.N) : Vec F S2048 .i32 := iblk0 V c 0 t
abbrev dstB (c : Dev nD) (t : Fin cfg0.N) : Vec F S2048 .i32 := iblk0 V c 1 t
abbrev xB (c : Dev nD) (t : Fin cfg0.N) : Vec F S1024x1 .f32 := iblk0 V c 2 t
abbrev Wm1B (c : Dev nD) (t : Fin cfg0.N) : Vec F S2x200 .f32 := iblk0 V c 3 t
abbrev bm1B (c : Dev nD) (t : Fin cfg0.N) : Vec F S200 .f32 := iblk0 V c 4 t
abbrev Wm2B (c : Dev nD) (t : Fin cfg0.N) : Vec F S200x1 .f32 := iblk0 V c 5 t
abbrev bm2B (c : Dev nD) (t : Fin cfg0.N) : Vec F S1 .f32 := iblk0 V c 6 t
abbrev W2B (c : Dev nD) (t : Fin cfg0.N) : Vec F S1x20 .f32 := iblk0 V c 7 t
abbrev b2B (c : Dev nD) (t : Fin cfg0.N) : Vec F S20 .f32 := iblk0 V c 8 t

theorem lt_N0 (t : Fin cfg0.N) : t.val < 4900 := by
  have h : t.val < cfg0.N := t.isLt
  have e : cfg0.N = 4900 := N_0
  omega

theorem coords0_0 (t : Fin cfg0.N) : ((grid0.coords t) 0).val = t.val / 25 := by
  have h := lt_N0 t
  show t.val / grid0.stride 0 % 196 = _
  rw [show grid0.stride 0 = 25 from by decide]
  omega

theorem coords0_1 (t : Fin cfg0.N) : ((grid0.coords t) 1).val = t.val % 25 := by
  show t.val / grid0.stride 1 % 25 = _
  rw [show grid0.stride 1 = 1 from by decide]
  omega

theorem toNat_ofNat32 (n : Nat) (h : n < 4294967296) : (BitVec.ofNat 32 n).toNat = n := by
  rw [BitVec.toNat_ofNat]
  exact Nat.mod_eq_of_lt h

theorem index0_0 (t : Fin cfg0.N) : win0_0.index t 0 = t.val / 25 := by
  have h := lt_N0 t
  show (BitVec.ofNat 32 ((grid0.coords t) 0).val).toNat = _
  rw [coords0_0, toNat_ofNat32 _ (by omega)]
theorem index0_1 (t : Fin cfg0.N) : win0_1.index t 0 = t.val / 25 := by
  have h := lt_N0 t
  show (BitVec.ofNat 32 ((grid0.coords t) 0).val).toNat = _
  rw [coords0_0, toNat_ofNat32 _ (by omega)]
theorem index0_2 (t : Fin cfg0.N) : win0_2.index t 0 = t.val % 25 ∧ win0_2.index t 1 = 0 := by
  refine ⟨?_, rfl⟩
  show (BitVec.ofNat 32 ((grid0.coords t) 1).val).toNat = _
  rw [coords0_1, toNat_ofNat32 _ (by omega)]
theorem index0_9 (t : Fin cfg0.N) : win0_9.index t 0 = t.val / 25 ∧ win0_9.index t 1 = 0 := by
  have h := lt_N0 t
  refine ⟨?_, rfl⟩
  show (BitVec.ofNat 32 ((grid0.coords t) 0).val).toNat = _
  rw [coords0_0, toNat_ofNat32 _ (by omega)]

theorem flush9_iff (t : Fin cfg0.N) : (cfg0.win 9).flush t = true ↔ t.val % 25 = 24 := by
  have hN : grid0.N = 4900 := N_0
  have ht := lt_N0 t
  show win0_9.flush t = true ↔ _
  unfold Pipeline.Window.flush
  simp only [Bool.and_eq_true, Bool.or_eq_true, decide_eq_true_eq]
  constructor
  · rintro ⟨-, h | ⟨h, hne⟩⟩
    · omega
    · by_contra hc
      apply hne
      funext a
      match a with
      | ⟨0, _⟩ =>
        show win0_9.index ⟨t.val + 1, h⟩ 0 = win0_9.index t 0
        rw [(index0_9 ⟨t.val + 1, h⟩).1, (index0_9 t).1]
        show (t.val + 1) / 25 = t.val / 25
        omega
      | ⟨1, _⟩ =>
        show win0_9.index ⟨t.val + 1, h⟩ 1 = win0_9.index t 1
        rw [(index0_9 ⟨t.val + 1, h⟩).2, (index0_9 t).2]
  · intro h24
    refine ⟨trivial, ?_⟩
    by_cases hl : t.val + 1 = grid0.N
    · exact Or.inl hl
    · have hlt : t.val + 1 < grid0.N := by omega
      refine Or.inr ⟨hlt, fun he => ?_⟩
      have h0 := congrFun he 0
      rw [(index0_9 ⟨t.val + 1, hlt⟩).1, (index0_9 t).1] at h0
      have h0' : (t.val + 1) / 25 = t.val / 25 := h0
      omega

theorem srcB_apply (c : Dev nD) (t : Fin cfg0.N) (r : Fin 2048) (e : Fin 401408) (he : e.val = 2048 * (t.val / 25) + r.val) :
    srcB V c t (ix1 r) = srcA V c (ix1 e) := by
  unfold srcB iblk0
  rw [View.read_apply]
  show V c _ _ = V c _ _
  congr 1
  funext a
  apply Fin.ext
  match a with
  | ⟨0, _⟩ => show win0_0.index t 0 * 2048 + 1 * r.val = e.val; rw [index0_0, he]; omega

theorem dstB_apply (c : Dev nD) (t : Fin cfg0.N) (r : Fin 2048) (e : Fin 401408) (he : e.val = 2048 * (t.val / 25) + r.val) :
    dstB V c t (ix1 r) = dstA V c (ix1 e) := by
  unfold dstB iblk0
  rw [View.read_apply]
  show V c _ _ = V c _ _
  congr 1
  funext a
  apply Fin.ext
  match a with
  | ⟨0, _⟩ => show win0_1.index t 0 * 2048 + 1 * r.val = e.val; rw [index0_1, he]; omega

theorem xB_apply (c : Dev nD) (t : Fin cfg0.N) (k : Fin 1024) (z : Fin 0x1) (n : Fin 25600) (hn : n.val = 1024 * (t.val % 25) + k.val) :
    xB V c t (ix2 k z) = xA V c (ix2 n z) := by
  unfold xB iblk0
  rw [View.read_apply]
  show V c _ _ = V c _ _
  congr 1
  funext a
  apply Fin.ext
  match a with
  | ⟨0, _⟩ => show win0_2.index t 0 * 1024 + 1 * k.val = n.val; rw [(index0_2 t).1, hn]; omega
  | ⟨1, _⟩ => show win0_2.index t 1 * 0x1 + 1 * z.val = z.val; rw [(index0_2 t).2]; omega

theorem Wm1B_eq (c : Dev nD) (t : Fin cfg0.N) : Wm1B V c t = Wm1A V c := by
  funext j
  unfold Wm1B iblk0
  rw [View.read_apply]
  show V c _ _ = V c _ _
  congr 1
  funext a
  apply Fin.ext
  match a with
  | ⟨0, _⟩ => show 0 * (0x1 + 0x1) + 1 * (j 0).val = (j 0).val; omega
  | ⟨1, _⟩ => show 0 * 200 + 1 * (j 1).val = (j 1).val; omega
theorem bm1B_eq (c : Dev nD) (t : Fin cfg0.N) : bm1B V c t = bm1A V c := by
  funext j
  unfold bm1B iblk0
  rw [View.read_apply]
  show V c _ _ = V c _ _
  congr 1
  funext a
  apply Fin.ext
  match a with
  | ⟨0, _⟩ => show 0 * 200 + 1 * (j 0).val = (j 0).val; omega
theorem Wm2B_eq (c : Dev nD) (t : Fin cfg0.N) : Wm2B V c t = Wm2A V c := by
  funext j
  unfold Wm2B iblk0
  rw [View.read_apply]
  show V c _ _ = V c _ _
  congr 1
  funext a
  apply Fin.ext
  match a with
  | ⟨0, _⟩ => show 0 * 200 + 1 * (j 0).val = (j 0).val; omega
  | ⟨1, _⟩ => show 0 * 0x1 + 1 * (j 1).val = (j 1).val; omega
theorem bm2B_eq (c : Dev nD) (t : Fin cfg0.N) : bm2B V c t = bm2A V c := by
  funext j
  unfold bm2B iblk0
  rw [View.read_apply]
  show V c _ _ = V c _ _
  congr 1
  funext a
  apply Fin.ext
  match a with
  | ⟨0, _⟩ => show 0 * 0x1 + 1 * (j 0).val = (j 0).val; omega
theorem W2B_eq (c : Dev nD) (t : Fin cfg0.N) : W2B V c t = W2A V c := by
  funext j
  unfold W2B iblk0
  rw [View.read_apply]
  show V c _ _ = V c _ _
  congr 1
  funext a
  apply Fin.ext
  match a with
  | ⟨0, _⟩ => show 0 * 0x1 + 1 * (j 0).val = (j 0).val; omega
  | ⟨1, _⟩ => show 0 * 0x14 + 1 * (j 1).val = (j 1).val; omega
theorem b2B_eq (c : Dev nD) (t : Fin cfg0.N) : b2B V c t = b2A V c := by
  funext j
  unfold b2B iblk0
  rw [View.read_apply]
  show V c _ _ = V c _ _
  congr 1
  funext a
  apply Fin.ext
  match a with
  | ⟨0, _⟩ => show 0 * 0x14 + 1 * (j 0).val = (j 0).val; omega

end Generic

section AtIdeal
variable (V : (c : Dev nD) → (b : Ref sig .tc) → Buf (Elt Ideal) ((c : Thread nD τ).loc b))

abbrev xcol (c : Dev nD) (z : Fin 0x1) : Fin 25600 → EReal := fun n => xA V c (ix2 n z)

theorem acc_step (c : Dev nD) (t : Fin cfg0.N) (idx : Vec Ideal S2048 .i32) (w : BitVec 32) (r : Fin 2048) (z : Fin 0x1)
    (hw : idx (ix1 r) = w) (prev : Vec Ideal S2048x1 .f32)
    (hprev : prev (ix2 r z) = Spec.gatherBelow (xcol V c z) (1024 * (t.val % 25)) w) :
    k0_pay6 (F := Ideal) (grid0.coords t) idx (xB V c t) prev (ix2 r z)
      = Spec.gatherBelow (xcol V c z) (1024 * (t.val % 25) + 1024) w := by
  have h25 : t.val % 25 < 25 := Nat.mod_lt _ (by decide)
  refine (pay6_apply (grid0.coords t) idx (xB V c t) prev r z).trans ?_
  rw [hprev, hw, coords0_1,
    ← Spec.gatherBelow_step (xcol V c z) (1024 * (t.val % 25)) 1024 (by omega) (by norm_num) w]
  refine congrArg (Spec.gatherBelow (xcol V c z) (1024 * (t.val % 25)) w + ·) (Finset.sum_congr rfl fun k _ => ?_)
  refine congrArg (fun y : EReal => (if BitVec.ofNat 32 (1024 * (t.val % 25) + k.val) = w then (1 : EReal) else 0) * y) ?_
  exact xB_apply V c t k z ⟨1024 * (t.val % 25) + k.val, by have := k.isLt; omega⟩ rfl

theorem scI0_val (c : Dev nD) : ∀ (n : ℕ) (h : n < cfg0.N) (r : Fin 2048) (z : Fin 0x1) (e : Fin 401408),
    e.val = 2048 * (n / 25) + r.val →
    scI0 V c n h (ix2 r z) = Spec.gatherBelow (xcol V c z) (1024 * (n % 25) + 1024) (dstA V c (ix1 e)) := by
  intro n
  induction n with
  | zero =>
    intro h r z e he
    refine (congrFun (scI0_eq V c ⟨0, h⟩) (ix2 r z)).trans ?_
    refine acc_step V c ⟨0, h⟩ (dstB V c ⟨0, h⟩) (dstA V c (ix1 e)) r z (dstB_apply V c ⟨0, h⟩ r e he) _ ?_
    show k0_pay2 (F := Ideal) (ix2 r z) = _
    rw [pay2_apply]
    exact (Spec.gatherBelow_zero _ _).symm
  | succ m ih =>
    intro h r z e he
    refine (congrFun (scI0_eq V c ⟨m + 1, h⟩) (ix2 r z)).trans ?_
    refine acc_step V c ⟨m + 1, h⟩ (dstB V c ⟨m + 1, h⟩) (dstA V c (ix1 e)) r z (dstB_apply V c ⟨m + 1, h⟩ r e he) _ ?_
    by_cases h0 : (m + 1) % 25 = 0
    · show (if (m + 1) % 25 = 0 then k0_pay2 (F := Ideal) else _) (ix2 r z) = _
      rw [if_pos h0, pay2_apply]
      show (0 : EReal) = Spec.gatherBelow (xcol V c z) (1024 * ((m + 1) % 25)) _
      rw [h0]
      exact (Spec.gatherBelow_zero _ _).symm
    · show (if (m + 1) % 25 = 0 then k0_pay2 (F := Ideal) else scI0 V c m _) (ix2 r z) = _
      rw [if_neg h0]
      have := ih (by omega) r z e (by omega)
      show _ = Spec.gatherBelow (xcol V c z) (1024 * ((m + 1) % 25)) _
      rw [show 1024 * ((m + 1) % 25) = 1024 * (m % 25) + 1024 from by omega]
      exact this

theorem scJ0_val (c : Dev nD) : ∀ (n : ℕ) (h : n < cfg0.N) (r : Fin 2048) (z : Fin 0x1) (e : Fin 401408),
    e.val = 2048 * (n / 25) + r.val →
    scJ0 V c n h (ix2 r z) = Spec.gatherBelow (xcol V c z) (1024 * (n % 25) + 1024) (srcA V c (ix1 e)) := by
  intro n
  induction n with
  | zero =>
    intro h r z e he
    refine (congrFun (scJ0_eq V c ⟨0, h⟩) (ix2 r z)).trans ?_
    refine acc_step V c ⟨0, h⟩ (srcB V c ⟨0, h⟩) (srcA V c (ix1 e)) r z (srcB_apply V c ⟨0, h⟩ r e he) _ ?_
    show k0_pay2 (F := Ideal) (ix2 r z) = _
    rw [pay2_apply]
    exact (Spec.gatherBelow_zero _ _).symm
  | succ m ih =>
    intro h r z e he
    refine (congrFun (scJ0_eq V c ⟨m + 1, h⟩) (ix2 r z)).trans ?_
    refine acc_step V c ⟨m + 1, h⟩ (srcB V c ⟨m + 1, h⟩) (srcA V c (ix1 e)) r z (srcB_apply V c ⟨m + 1, h⟩ r e he) _ ?_
    by_cases h0 : (m + 1) % 25 = 0
    · show (if (m + 1) % 25 = 0 then k0_pay2 (F := Ideal) else _) (ix2 r z) = _
      rw [if_pos h0, pay2_apply]
      show (0 : EReal) = Spec.gatherBelow (xcol V c z) (1024 * ((m + 1) % 25)) _
      rw [h0]
      exact (Spec.gatherBelow_zero _ _).symm
    · show (if (m + 1) % 25 = 0 then k0_pay2 (F := Ideal) else scJ0 V c m _) (ix2 r z) = _
      rw [if_neg h0]
      have := ih (by omega) r z e (by omega)
      show _ = Spec.gatherBelow (xcol V c z) (1024 * ((m + 1) % 25)) _
      rw [show 1024 * ((m + 1) % 25) = 1024 * (m % 25) + 1024 from by omega]
      exact this

theorem scI0_last (c : Dev nD) (t : Fin cfg0.N) (h24 : t.val % 25 = 24) (r : Fin 2048) (z : Fin 0x1) (e : Fin 401408)
    (he : e.val = 2048 * (t.val / 25) + r.val) :
    scI0 V c t.val t.isLt (ix2 r z) = Spec.gatherAt (xcol V c z) (dstA V c (ix1 e)) := by
  rw [scI0_val V c t.val t.isLt r z e he, h24]
  exact Spec.gatherBelow_all _ _
theorem scJ0_last (c : Dev nD) (t : Fin cfg0.N) (h24 : t.val % 25 = 24) (r : Fin 2048) (z : Fin 0x1) (e : Fin 401408)
    (he : e.val = 2048 * (t.val / 25) + r.val) :
    scJ0 V c t.val t.isLt (ix2 r z) = Spec.gatherAt (xcol V c z) (srcA V c (ix1 e)) := by
  rw [scJ0_val V c t.val t.isLt r z e he, h24]
  exact Spec.gatherBelow_all _ _

def G0 (c : Dev nD) : Vec Ideal S401408x20 .f32 := fun i =>
  Spec.gatherMsg (cin := 0x1) (Spec.vec (srcA V c)) (Spec.vec (dstA V c)) (Spec.mat (xA V c)) (Spec.mat (Wm1A V c))
    (Spec.vec (bm1A V c)) (Spec.mat (Wm2A V c)) (Spec.vec (bm2A V c)) (Spec.mat (W2A V c)) (Spec.vec (b2A V c)) (i 0) (i 1)

theorem flushed_eq (c : Dev nD) (t : Fin cfg0.N) (hf : (cfg0.win 9).flush t = true) :
    (dat0 V c).flushed 9 t = ((cfg0.win 9).blk t).view.read (Elt Ideal) (G0 V c) := by
  have h24 : t.val % 25 = 24 := (flush9_iff t).mp hf
  have hN := lt_N0 t
  show (cfg0.win 9).cut (grid0.coords t) ((dat0 V c).after 9 t) = _
  rw [after0_9_flush V c t h24]
  refine funext fun (j : S2048x20.Idx) => ?_
  obtain ⟨r, o, rfl⟩ : ∃ (r : Fin 2048) (o : Fin 0x14), j = ix2 r o := ⟨j 0, j 1, eq_ix2 j⟩
  have hr := r.isLt
  rw [View.read_apply]
  show k0_pay1 (F := Ideal) (scI0 V c t.val t.isLt) (scJ0 V c t.val t.isLt) (Wm1B V c t) (bm1B V c t) (Wm2B V c t)
      (bm2B V c t) (W2B V c t) (b2B V c t) (ix2 r o) = G0 V c (((cfg0.win 9).blk t).view.emb (ix2 r o))
  rw [Wm1B_eq, bm1B_eq, Wm2B_eq, bm2B_eq, W2B_eq, b2B_eq]
  refine (pay1_apply _ _ _ _ _ _ _ _ r o).trans ?_

  have he : (⟨2048 * (t.val / 25) + r.val, by omega⟩ : Fin 401408).val = 2048 * (t.val / 25) + r.val := rfl
  have hxi : (fun k : Fin 0x1 => scI0 V c t.val t.isLt (ix2 r k))
      = fun k => Spec.gatherAt (fun n => Spec.mat (xA V c) n k) (Spec.vec (dstA V c) ⟨2048 * (t.val / 25) + r.val, by omega⟩) :=
    funext fun k => scI0_last V c t h24 r k _ he
  have hxj : (fun k : Fin 0x1 => scJ0 V c t.val t.isLt (ix2 r k))
      = fun k => Spec.gatherAt (fun n => Spec.mat (xA V c) n k) (Spec.vec (srcA V c) ⟨2048 * (t.val / 25) + r.val, by omega⟩) :=
    funext fun k => scJ0_last V c t h24 r k _ he
  rw [hxi, hxj]
  unfold G0 Spec.gatherMsg
  have e0 : (((cfg0.win 9).blk t).view.emb (ix2 r o)) 0 = (⟨2048 * (t.val / 25) + r.val, by omega⟩ : Fin 401408) := by
    apply Fin.ext
    show win0_9.index t 0 * 2048 + 1 * r.val = 2048 * (t.val / 25) + r.val
    rw [(index0_9 t).1]; omega
  have e1 : (((cfg0.win 9).blk t).view.emb (ix2 r o)) 1 = o := by
    apply Fin.ext
    show win0_9.index t 1 * 0x14 + 1 * o.val = o.val
    rw [(index0_9 t).2]; omega
  rw [e0, e1]

theorem mem_blk9 (t : Fin cfg0.N) (i : S401408x20.Idx) :
    i ∈ ((cfg0.win 9).blk t).view.set ↔ ∀ a : Fin 2, win0_9.index t a * S2048x20.size a ≤ (i a).val
      ∧ (i a).val < win0_9.index t a * S2048x20.size a + S2048x20.size a := by
  show i ∈ ((View.whole main_v7).slice (win0_9.rect t)).set ↔ _
  rw [View.set_slice_whole, Rect.mem_set_unit]
  exact Iff.rfl

end AtIdeal

end R0

theorem out0_value (V : (c : Dev nD) → (b : Ref sig .tc) → Buf (Elt Ideal) ((c : Thread nD τ).loc b)) (c : Dev nD) :
    (dat0 V c).arrAt 9 cfg0.N = R0.G0 V c :=
  (dat0 V c).arrAt_eq_of_cover 9 (R0.G0 V c) (R0.flushed_eq V c) fun i => by
    have hi0 : (i 0).val < 401408 := (i 0).isLt
    have hi1 : (i 1).val < 0x14 := (i 1).isLt
    have hlt : (i 0).val / 2048 * 25 + 24 < cfg0.N := by rw [show cfg0.N = 4900 from N_0]; omega
    refine ⟨⟨(i 0).val / 2048 * 25 + 24, hlt⟩, (R0.flush9_iff _).mpr (by show ((i 0).val / 2048 * 25 + 24) % 25 = 24; omega), ?_⟩
    have q := R0.index0_9 ⟨(i 0).val / 2048 * 25 + 24, hlt⟩
    refine (R0.mem_blk9 ⟨(i 0).val / 2048 * 25 + 24, hlt⟩ i).mpr ?_
    intro a
    match a with
    | ⟨0, _⟩ =>
      show win0_9.index _ 0 * 2048 ≤ (i 0).val ∧ (i 0).val < win0_9.index _ 0 * 2048 + 2048
      rw [q.1]
      show ((i 0).val / 2048 * 25 + 24) / 25 * 2048 ≤ (i 0).val ∧ (i 0).val < ((i 0).val / 2048 * 25 + 24) / 25 * 2048 + 2048
      omega
    | ⟨1, _⟩ =>
      show win0_9.index _ 1 * 0x14 ≤ (i 1).val ∧ (i 1).val < win0_9.index _ 1 * 0x14 + 0x14
      rw [q.2]
      omega

end Cert.KernelIdeal.Hand

end
-- ==== Proof.KI.Post1.lean ====
import proofs.«415925_j84189948936386_1_alg».proof.Proof.Gen.KernelIdeal.Skeleton
import proofs.«415925_j84189948936386_1_alg».proof.Proof.Spec
import Idealize.ShloMosaic.PureOps.Ideal.Laws

noncomputable section

namespace Cert.KernelIdeal.Hand.R1

open Cert.KernelIdeal Cert.KernelIdeal.Gen Idealize.ShloMosaic

abbrev relu1 : Bool := true

theorem post1_apply (v : FVec Ideal S1024x20 .f32) (j : S1024x20.Idx) :
    maximumf v (broadcast S1024x20 (Scalar.ofBits (F := Ideal) .f32 0x00000000#32)) j = Cert.Spec.act relu1 (v j) := by
  show max (v j) (Ideal.ofBits .f32 0x00000000#32) = max (v j) 0
  rw [Ideal.ofBits_zero_f32]

end Cert.KernelIdeal.Hand.R1

end
-- ==== Proof.KI.P1.lean ====
import proofs.«415925_j84189948936386_1_alg».proof.Proof.Gen.KernelIdeal.Launch
import proofs.«415925_j84189948936386_1_alg».proof.Proof.Gen.KernelIdeal.Skeleton
import proofs.«415925_j84189948936386_1_alg».proof.Proof.KI.Post1
import proofs.«415925_j84189948936386_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

namespace P1

open R1 (relu1 post1_apply)

theorem oh_word (a b : BitVec 32) :
    (FloatOps.sitofp .f32 ((IntOp.cmpi .eq a b).setWidth 32) : Ideal .f32) = if a = b then (1 : EReal) else 0 := by
  by_cases h : a = b
  · subst h
    rw [if_pos rfl]
    have hc : IntOp.cmpi .eq a a = 1#1 := by simp [IntOp.cmpi]
    rw [hc]
    show (((BitVec.setWidth 32 (1#1)).toInt : ℝ) : EReal) = 1
    rw [show (BitVec.setWidth 32 (1#1)).toInt = 1 from by decide]
    simp
  · rw [if_neg h]
    have hb : (a == b) = false := beq_eq_false_iff_ne.mpr h
    have hc : IntOp.cmpi .eq a b = 0#1 := by simp [IntOp.cmpi, hb]
    rw [hc]
    show (((BitVec.setWidth 32 (0#1)).toInt : ℝ) : EReal) = 0
    rw [show (BitVec.setWidth 32 (0#1)).toInt = 0 from by decide]
    simp

theorem node_word (nb r : ℕ) :
    IntOp.addi (Scalar.muli (BitVec.ofNat 32 nb) 1024#32) (BitVec.ofNat 32 r) = BitVec.ofNat 32 (1024 * nb + r) := by
  apply BitVec.eq_of_toNat_eq
  simp only [IntOp.addi, Scalar.muli, IntOp.muli, BitVec.toNat_add, BitVec.toNat_mul, BitVec.toNat_ofNat]
  omega

theorem lhs_scat_row (j : S1024x20.Idx) (k : dot_S1024x2048_S2048x20_S1024x20_1_0_0_1_n_n.contr.Idx) :
    (dot_S1024x2048_S2048x20_S1024x20_1_0_0_1_n_n.lhsIdx j k 0).val = (j 0).val := by
  unfold DotDims.lhsIdx
  rw [dif_neg (show ¬(0 : Fin S1024x2048.rank) ∈ dot_S1024x2048_S2048x20_S1024x20_1_0_0_1_n_n.lhsBatch from by decide),
    dif_pos (show (0 : Fin S1024x2048.rank) ∈ dot_S1024x2048_S2048x20_S1024x20_1_0_0_1_n_n.lhsNonContracting from by decide)]
  rfl

theorem lhs_scat_col (j : S1024x20.Idx) (k : dot_S1024x2048_S2048x20_S1024x20_1_0_0_1_n_n.contr.Idx) :
    (dot_S1024x2048_S2048x20_S1024x20_1_0_0_1_n_n.lhsIdx j k 1).val = (k ⟨0, by decide⟩).val :=
  dot_S1024x2048_S2048x20_S1024x20_1_0_0_1_n_n.lhsIdx_val_of_single (cl := 1) rfl j k

theorem rhs_scat_row (j : S1024x20.Idx) (k : dot_S1024x2048_S2048x20_S1024x20_1_0_0_1_n_n.contr.Idx) :
    (dot_S1024x2048_S2048x20_S1024x20_1_0_0_1_n_n.rhsIdx j k 0).val = (k ⟨0, by decide⟩).val :=
  dot_S1024x2048_S2048x20_S1024x20_1_0_0_1_n_n.rhsIdx_val_of_single (cr := 0) rfl j k

theorem rhs_scat_col (j : S1024x20.Idx) (k : dot_S1024x2048_S2048x20_S1024x20_1_0_0_1_n_n.contr.Idx) :
    (dot_S1024x2048_S2048x20_S1024x20_1_0_0_1_n_n.rhsIdx j k 1).val = (j 1).val := by
  unfold DotDims.rhsIdx
  rw [dif_neg (show ¬(1 : Fin S2048x20.rank) ∈ dot_S1024x2048_S2048x20_S1024x20_1_0_0_1_n_n.rhsBatch from by decide),
    dif_pos (show (1 : Fin S2048x20.rank) ∈ dot_S1024x2048_S2048x20_S1024x20_1_0_0_1_n_n.rhsNonContracting from by decide)]
  rfl

theorem scat_matmul_apply (L : FVec Ideal S1024x2048 .bf16) (R : FVec Ideal S2048x20 .bf16) (r : Fin 1024) (q : Fin 0x14) :
    matmul dot_S1024x2048_S2048x20_S1024x20_1_0_0_1_n_n none L R (constant S1024x20 .f32 0x00000000#32) (ix2 r q)
      = ∑ e : Fin 2048, L (ix2 r e) * R (ix2 e q) := by
  refine (Ideal.matmul_constant_zero_apply dot_S1024x2048_S2048x20_S1024x20_1_0_0_1_n_n none L R (ix2 r q)).trans ?_
  refine (Equiv.sum_comp (contrEquiv1 dot_S1024x2048_S2048x20_S1024x20_1_0_0_1_n_n 2048 rfl rfl).symm _).symm.trans ?_
  refine Finset.sum_congr rfl fun e _ => ?_
  refine congrArg₂ (· * ·) (congrArg L ?_) (congrArg R ?_)
  · exact Shape.idx_ext₂ (lhs_scat_row _ _)
      ((lhs_scat_col _ _).trans (contrEquiv1_symm_val dot_S1024x2048_S2048x20_S1024x20_1_0_0_1_n_n 2048 rfl rfl e))
  · exact Shape.idx_ext₂
      ((rhs_scat_row _ _).trans (contrEquiv1_symm_val dot_S1024x2048_S2048x20_S1024x20_1_0_0_1_n_n 2048 rfl rfl e))
      (rhs_scat_col _ _)

theorem lhs_res_row (j : S1024x20.Idx) (k : dot_S1024x1_S1x20_S1024x20_1_0_0_1_n_n.contr.Idx) :
    (dot_S1024x1_S1x20_S1024x20_1_0_0_1_n_n.lhsIdx j k 0).val = (j 0).val := by
  unfold DotDims.lhsIdx
  rw [dif_neg (show ¬(0 : Fin S1024x1.rank) ∈ dot_S1024x1_S1x20_S1024x20_1_0_0_1_n_n.lhsBatch from by decide),
    dif_pos (show (0 : Fin S1024x1.rank) ∈ dot_S1024x1_S1x20_S1024x20_1_0_0_1_n_n.lhsNonContracting from by decide)]
  rfl

theorem lhs_res_col (j : S1024x20.Idx) (k : dot_S1024x1_S1x20_S1024x20_1_0_0_1_n_n.contr.Idx) :
    (dot_S1024x1_S1x20_S1024x20_1_0_0_1_n_n.lhsIdx j k 1).val = (k ⟨0, by decide⟩).val :=
  dot_S1024x1_S1x20_S1024x20_1_0_0_1_n_n.lhsIdx_val_of_single (cl := 1) rfl j k

theorem rhs_res_row (j : S1024x20.Idx) (k : dot_S1024x1_S1x20_S1024x20_1_0_0_1_n_n.contr.Idx) :
    (dot_S1024x1_S1x20_S1024x20_1_0_0_1_n_n.rhsIdx j k 0).val = (k ⟨0, by decide⟩).val :=
  dot_S1024x1_S1x20_S1024x20_1_0_0_1_n_n.rhsIdx_val_of_single (cr := 0) rfl j k

theorem rhs_res_col (j : S1024x20.Idx) (k : dot_S1024x1_S1x20_S1024x20_1_0_0_1_n_n.contr.Idx) :
    (dot_S1024x1_S1x20_S1024x20_1_0_0_1_n_n.rhsIdx j k 1).val = (j 1).val := by
  unfold DotDims.rhsIdx
  rw [dif_neg (show ¬(1 : Fin S1x20.rank) ∈ dot_S1024x1_S1x20_S1024x20_1_0_0_1_n_n.rhsBatch from by decide),
    dif_pos (show (1 : Fin S1x20.rank) ∈ dot_S1024x1_S1x20_S1024x20_1_0_0_1_n_n.rhsNonContracting from by decide)]
  rfl

theorem res_matmul_apply (L : FVec Ideal S1024x1 .bf16) (R : FVec Ideal S1x20 .bf16) (r : Fin 1024) (q : Fin 0x14) :
    matmul dot_S1024x1_S1x20_S1024x20_1_0_0_1_n_n none L R (constant S1024x20 .f32 0x00000000#32) (ix2 r q)
      = ∑ p : Fin 0x1, L (ix2 r p) * R (ix2 p q) := by
  refine (Ideal.matmul_constant_zero_apply dot_S1024x1_S1x20_S1024x20_1_0_0_1_n_n none L R (ix2 r q)).trans ?_
  refine (Equiv.sum_comp (contrEquiv1 dot_S1024x1_S1x20_S1024x20_1_0_0_1_n_n 0x1 rfl rfl).symm _).symm.trans ?_
  refine Finset.sum_congr rfl fun p _ => ?_
  refine congrArg₂ (· * ·) (congrArg L ?_) (congrArg R ?_)
  · exact Shape.idx_ext₂ (lhs_res_row _ _)
      ((lhs_res_col _ _).trans (contrEquiv1_symm_val dot_S1024x1_S1x20_S1024x20_1_0_0_1_n_n 0x1 rfl rfl p))
  · exact Shape.idx_ext₂
      ((rhs_res_row _ _).trans (contrEquiv1_symm_val dot_S1024x1_S1x20_S1024x20_1_0_0_1_n_n 0x1 rfl rfl p))
      (rhs_res_col _ _)

theorem dstRow_apply (d : Vec Ideal S2048 .i32) (r : Fin 1024) (e : Fin 2048) :
    broadcastTo S1024x2048 (shapeCast S1x2048 (shapeCast S2048 d shapeCasts_S2048_S2048) shapeCasts_S2048_S1x2048)
      broadcasts_S1x2048_S1024x2048 (ix2 r e) = d (ix1 e) := by
  rw [shapeCast_self]
  refine (broadcastTo_apply _ broadcasts_S1x2048_S1024x2048 (ix2 r e) (ix2 (0 : Fin 1) e) (fun a => ?_)).trans ?_
  · match a with
    | ⟨0, _⟩ => rfl
    | ⟨1, _⟩ => rfl
  · refine shapeCast_apply d shapeCasts_S2048_S1x2048 (ix2 (0 : Fin 1) e) (ix1 e) ?_
    rw [Shape.rowMajor_val_one, Shape.rowMajor_val_two]
    show e.val = 0 * 2048 + e.val
    omega

theorem biasRow_apply (b : Vec Ideal S20 .f32) (r : Fin 1024) (q : Fin 0x14) :
    broadcastTo S1024x20 (shapeCast _ b shapeCasts_S20_S1x20) broadcasts_S1x20_S1024x20 (ix2 r q) = b (ix1 q) := by
  refine (broadcastTo_apply _ broadcasts_S1x20_S1024x20 (ix2 r q) (ix2 (0 : Fin 1) q) (fun a => ?_)).trans ?_
  · match a with
    | ⟨0, _⟩ => rfl
    | ⟨1, _⟩ =>
      show q.val = if (0x14 : ℕ) = 1 then 0 else q.val
      have := q.isLt
      split <;> omega
  · refine shapeCast_apply b shapeCasts_S20_S1x20 (ix2 (0 : Fin 1) q) (ix1 q) ?_
    rw [Shape.rowMajor_val_one, Shape.rowMajor_val_two]
    show q.val = 0 * 0x14 + q.val
    omega

theorem reset_apply (j : S1024x20.Idx) : (k1_pay1 (F := Ideal)) j = 0 := by
  unfold k1_pay1
  refine (congrFun (shapeCast_self _ _) j).trans ?_
  exact Ideal.ofBits_zero_f32

theorem step_apply (i : grid1.Coords) (d : Vec Ideal S2048 .i32) (mg : Vec Ideal S2048x20 .f32) (acc : Vec Ideal S1024x20 .f32)
    (r : Fin 1024) (q : Fin 0x14) :
    k1_pay2 i d mg acc (ix2 r q) = acc (ix2 r q)
      + ∑ e : Fin 2048, (if BitVec.ofNat 32 (1024 * (i 0).val + r.val) = d (ix1 e) then (1 : EReal) else 0) * mg (ix2 e q) := by
  unfold k1_pay2
  refine (congrFun (shapeCast_self _ _) (ix2 r q)).trans ?_
  show acc (ix2 r q) + matmul (F := Ideal) dot_S1024x2048_S2048x20_S1024x20_1_0_0_1_n_n none _ _ (constant (F := Ideal) S1024x20 .f32 0x00000000#32) (ix2 r q) = _
  refine congrArg (acc (ix2 r q) + ·) ?_
  refine (scat_matmul_apply _ _ r q).trans ?_
  refine Finset.sum_congr rfl fun e _ => ?_
  refine congrArg₂ (· * ·) ?_ ?_
  · have hi : iota .tc S1024x2048 32 [0] iota_S1024x2048_d0_w32 (ix2 r e) = BitVec.ofNat 32 r.val :=
      iota_single_apply .tc S1024x2048 32 0 iota_S1024x2048_d0_w32 (ix2 r e)
    have hd := dstRow_apply d r e
    show (FloatOps.sitofp .f32 ((IntOp.cmpi .eq
        (IntOp.addi (Scalar.muli (BitVec.ofNat 32 (i 0).val) 1024#32) (iota .tc S1024x2048 32 [0] iota_S1024x2048_d0_w32 (ix2 r e)))
        (broadcastTo S1024x2048 (shapeCast S1x2048 (shapeCast S2048 d shapeCasts_S2048_S2048) shapeCasts_S2048_S1x2048)
          broadcasts_S1x2048_S1024x2048 (ix2 r e))).setWidth 32) : Ideal .f32) = _
    rw [hi, hd, node_word, oh_word]
  · exact congrFun (shapeCast_self mg shapeCasts_S2048x20_S2048x20) (ix2 e q)

theorem last_apply (xb : Vec Ideal S1024x1 .f32) (wb : Vec Ideal S1x20 .f32) (bb : Vec Ideal S20 .f32) (acc : Vec Ideal S1024x20 .f32)
    (r : Fin 1024) (q : Fin 0x14) :
    k1_pay3 xb wb bb acc (ix2 r q)
      = Cert.Spec.act relu1 (acc (ix2 r q) + ((∑ p : Fin 0x1, xb (ix2 r p) * wb (ix2 p q)) + bb (ix1 q))) := by
  unfold k1_pay3
  refine (post1_apply _ (ix2 r q)).trans ?_
  refine congrArg (Cert.Spec.act relu1) ?_
  show acc (ix2 r q)
      + (matmul (F := Ideal) dot_S1024x1_S1x20_S1024x20_1_0_0_1_n_n none (truncf (F := Ideal) .bf16 (shapeCast S1024x1 xb shapeCasts_S1024x1_S1024x1) bitsLt_bf16_f32)
            (truncf (F := Ideal) .bf16 wb bitsLt_bf16_f32) (constant (F := Ideal) S1024x20 .f32 0x00000000#32) (ix2 r q)
          + broadcastTo S1024x20 (shapeCast _ bb shapeCasts_S20_S1x20) broadcasts_S1x20_S1024x20 (ix2 r q)) = _
  rw [shapeCast_self, res_matmul_apply, biasRow_apply]
  rfl

end P1

end Cert.KernelIdeal.Hand

end
-- ==== Proof.KI.V1.lean ====
import proofs.«415925_j84189948936386_1_alg».proof.Proof.KI.R1Dat
import proofs.«415925_j84189948936386_1_alg».proof.Proof.KI.P1
import proofs.«415925_j84189948936386_1_alg».proof.Proof.KI.Post1
import proofs.«415925_j84189948936386_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

namespace R1

open P1

section Value

variable (V : (c : Dev nD) → (b : Ref sig .tc) → Buf (Elt Ideal) ((c : Thread nD τ).loc b))

abbrev dstArr (c : Dev nD) : S401408.Idx → BitVec 32 := V c (Pipeline.arrRef spec1 0)

abbrev msgArr (c : Dev nD) : S401408x20.Idx → Ideal .f32 := V c (Pipeline.arrRef spec1 1)

abbrev xArr (c : Dev nD) : S25600x1.Idx → Ideal .f32 := V c (Pipeline.arrRef spec1 2)

abbrev w1Arr (c : Dev nD) : S1x20.Idx → Ideal .f32 := V c (Pipeline.arrRef spec1 3)

abbrev b1Arr (c : Dev nD) : S20.Idx → Ideal .f32 := V c (Pipeline.arrRef spec1 4)

abbrev dstBlk (c : Dev nD) (t : Fin cfg1.N) : Vec Ideal S2048 .i32 := iblk1 V c 0 t
abbrev msgBlk (c : Dev nD) (t : Fin cfg1.N) : Vec Ideal S2048x20 .f32 := iblk1 V c 1 t
abbrev xBlk (c : Dev nD) (t : Fin cfg1.N) : Vec Ideal S1024x1 .f32 := iblk1 V c 2 t
abbrev w1Blk (c : Dev nD) (t : Fin cfg1.N) : Vec Ideal S1x20 .f32 := iblk1 V c 3 t
abbrev b1Blk (c : Dev nD) (t : Fin cfg1.N) : Vec Ideal S20 .f32 := iblk1 V c 4 t

theorem lt_N1 (t : Fin cfg1.N) : t.val < 4900 := by
  have h : t.val < grid1.N := t.isLt
  rw [N_1] at h
  exact h

theorem coords1_0 (t : Fin cfg1.N) : ((grid1.coords t) 0).val = t.val / 196 := by
  have ht := lt_N1 t
  show t.val / grid1.stride 0 % 25 = t.val / 196
  rw [show grid1.stride 0 = 196 from by decide]
  omega

theorem coords1_1 (t : Fin cfg1.N) : ((grid1.coords t) 1).val = t.val % 196 := by
  show t.val / grid1.stride 1 % 196 = t.val % 196
  rw [show grid1.stride 1 = 1 from by decide, Nat.div_one]

theorem toNat_ofNat_small {n : ℕ} (h : n < 4900) : (BitVec.ofNat 32 n).toNat = n := by
  rw [BitVec.toNat_ofNat]
  omega

theorem idx_dst (t : Fin cfg1.N) : win1_0.index t 0 = t.val % 196 := by
  show (BitVec.ofNat 32 ((grid1.coords t) 1).val).toNat = t.val % 196
  rw [coords1_1]
  exact toNat_ofNat_small (by omega)

theorem idx_msg (t : Fin cfg1.N) : win1_1.index t 0 = t.val % 196 ∧ win1_1.index t 1 = 0 := by
  refine ⟨?_, rfl⟩
  show (BitVec.ofNat 32 ((grid1.coords t) 1).val).toNat = t.val % 196
  rw [coords1_1]
  exact toNat_ofNat_small (by omega)

theorem idx_x (t : Fin cfg1.N) : win1_2.index t 0 = t.val / 196 ∧ win1_2.index t 1 = 0 := by
  have ht := lt_N1 t
  refine ⟨?_, rfl⟩
  show (BitVec.ofNat 32 ((grid1.coords t) 0).val).toNat = t.val / 196
  rw [coords1_0]
  exact toNat_ofNat_small (by omega)

theorem idx_out (t : Fin cfg1.N) : win1_5.index t 0 = t.val / 196 ∧ win1_5.index t 1 = 0 := by
  have ht := lt_N1 t
  refine ⟨?_, rfl⟩
  show (BitVec.ofNat 32 ((grid1.coords t) 0).val).toNat = t.val / 196
  rw [coords1_0]
  exact toNat_ofNat_small (by omega)

theorem idx_w1 (t : Fin cfg1.N) : win1_3.index t 0 = 0 ∧ win1_3.index t 1 = 0 := ⟨rfl, rfl⟩
theorem idx_b1 (t : Fin cfg1.N) : win1_4.index t 0 = 0 := rfl

theorem dstBlk_apply (c : Dev nD) (t : Fin cfg1.N) (e : Fin 2048) (k : S401408.Idx)
    (hk : (k 0).val = 2048 * (t.val % 196) + e.val) : dstBlk V c t (ix1 e) = dstArr V c k := by
  show ((cfg1.win 0).blk t).view.read (Elt Ideal) (V c (Pipeline.arrRef spec1 0)) (ix1 e) = V c (Pipeline.arrRef spec1 0) k
  rw [View.read_apply]
  show V c (Pipeline.arrRef spec1 0) (((cfg1.win 0).blk t).view.emb (ix1 e)) = V c (Pipeline.arrRef spec1 0) k
  refine congrArg _ (funext fun a => Fin.ext ?_)
  match a with
  | ⟨0, _⟩ =>
    show win1_0.index t 0 * 2048 + 1 * e.val = (k 0).val
    rw [idx_dst, hk]; omega

theorem msgBlk_apply (c : Dev nD) (t : Fin cfg1.N) (e : Fin 2048) (q : Fin 0x14) (k : S401408x20.Idx)
    (hk0 : (k 0).val = 2048 * (t.val % 196) + e.val) (hk1 : (k 1).val = q.val) :
    msgBlk V c t (ix2 e q) = msgArr V c k := by
  show ((cfg1.win 1).blk t).view.read (Elt Ideal) (V c (Pipeline.arrRef spec1 1)) (ix2 e q) = V c (Pipeline.arrRef spec1 1) k
  rw [View.read_apply]
  show V c (Pipeline.arrRef spec1 1) (((cfg1.win 1).blk t).view.emb (ix2 e q)) = V c (Pipeline.arrRef spec1 1) k
  refine congrArg _ (funext fun a => Fin.ext ?_)
  match a with
  | ⟨0, _⟩ =>
    show win1_1.index t 0 * 2048 + 1 * e.val = (k 0).val
    rw [(idx_msg t).1, hk0]; omega
  | ⟨1, _⟩ =>
    show win1_1.index t 1 * 0x14 + 1 * q.val = (k 1).val
    rw [(idx_msg t).2, hk1]; omega

theorem xBlk_apply (c : Dev nD) (t : Fin cfg1.N) (r : Fin 1024) (p : Fin 0x1) (k : S25600x1.Idx)
    (hk0 : (k 0).val = 1024 * (t.val / 196) + r.val) (hk1 : (k 1).val = p.val) :
    xBlk V c t (ix2 r p) = xArr V c k := by
  show ((cfg1.win 2).blk t).view.read (Elt Ideal) (V c (Pipeline.arrRef spec1 2)) (ix2 r p) = V c (Pipeline.arrRef spec1 2) k
  rw [View.read_apply]
  show V c (Pipeline.arrRef spec1 2) (((cfg1.win 2).blk t).view.emb (ix2 r p)) = V c (Pipeline.arrRef spec1 2) k
  refine congrArg _ (funext fun a => Fin.ext ?_)
  match a with
  | ⟨0, _⟩ =>
    show win1_2.index t 0 * 1024 + 1 * r.val = (k 0).val
    rw [(idx_x t).1, hk0]; omega
  | ⟨1, _⟩ =>
    show win1_2.index t 1 * 0x1 + 1 * p.val = (k 1).val
    rw [(idx_x t).2, hk1]; omega

theorem w1Blk_apply (c : Dev nD) (t : Fin cfg1.N) (p : Fin 0x1) (q : Fin 0x14) :
    w1Blk V c t (ix2 p q) = w1Arr V c (ix2 p q) := by
  show ((cfg1.win 3).blk t).view.read (Elt Ideal) (V c (Pipeline.arrRef spec1 3)) (ix2 p q) = V c (Pipeline.arrRef spec1 3) (ix2 p q)
  rw [View.read_apply]
  show V c (Pipeline.arrRef spec1 3) (((cfg1.win 3).blk t).view.emb (ix2 p q)) = V c (Pipeline.arrRef spec1 3) (ix2 p q)
  refine congrArg _ (funext fun a => Fin.ext ?_)
  match a with
  | ⟨0, _⟩ =>
    show win1_3.index t 0 * 0x1 + 1 * p.val = p.val
    rw [(idx_w1 t).1]; omega
  | ⟨1, _⟩ =>
    show win1_3.index t 1 * 0x14 + 1 * q.val = q.val
    rw [(idx_w1 t).2]; omega

theorem b1Blk_apply (c : Dev nD) (t : Fin cfg1.N) (q : Fin 0x14) : b1Blk V c t (ix1 q) = b1Arr V c (ix1 q) := by
  show ((cfg1.win 4).blk t).view.read (Elt Ideal) (V c (Pipeline.arrRef spec1 4)) (ix1 q) = V c (Pipeline.arrRef spec1 4) (ix1 q)
  rw [View.read_apply]
  show V c (Pipeline.arrRef spec1 4) (((cfg1.win 4).blk t).view.emb (ix1 q)) = V c (Pipeline.arrRef spec1 4) (ix1 q)
  refine congrArg _ (funext fun a => Fin.ext ?_)
  match a with
  | ⟨0, _⟩ =>
    show win1_4.index t 0 * 0x14 + 1 * q.val = q.val
    rw [idx_b1 t]; omega

end Value

section Run

variable (V : (c : Dev nD) → (b : Ref sig .tc) → Buf (Elt Ideal) ((c : Thread nD τ).loc b))

theorem step_eq (c : Dev nD) (t : Fin cfg1.N) (r : Fin 1024) (q : Fin 0x14) (A : EReal)
    (hA : A = Cert.Spec.segSumBelow (Cert.Spec.vec (dstArr V c)) (fun e => Cert.Spec.mat (msgArr V c) e q)
      (2048 * (t.val % 196)) (1024 * (t.val / 196) + r.val)) :
    A + ∑ e : Fin 2048, (if BitVec.ofNat 32 (1024 * (t.val / 196) + r.val) = dstBlk V c t (ix1 e) then (1 : EReal) else 0)
          * msgBlk V c t (ix2 e q)
      = Cert.Spec.segSumBelow (Cert.Spec.vec (dstArr V c)) (fun e => Cert.Spec.mat (msgArr V c) e q)
          (2048 * (t.val % 196 + 1)) (1024 * (t.val / 196) + r.val) := by
  have ht := lt_N1 t
  rw [hA]
  have hstep := Cert.Spec.segSumBelow_step (Cert.Spec.vec (dstArr V c)) (fun e => Cert.Spec.mat (msgArr V c) e q)
    (2048 * (t.val % 196)) 2048 (1024 * (t.val / 196) + r.val) (by omega) (by omega)
  have e1 : 2048 * (t.val % 196 + 1) = 2048 * (t.val % 196) + 2048 := by omega
  rw [e1, ← hstep]
  refine congrArg₂ (· + ·) rfl (Finset.sum_congr rfl fun e _ => ?_)
  have h1 : dstBlk V c t (ix1 e)
      = Cert.Spec.vec (dstArr V c) ⟨2048 * (t.val % 196) + e.val, by have := e.isLt; omega⟩ :=
    dstBlk_apply V c t e _ rfl
  have h2 : msgBlk V c t (ix2 e q)
      = Cert.Spec.mat (msgArr V c) ⟨2048 * (t.val % 196) + e.val, by have := e.isLt; omega⟩ q :=
    msgBlk_apply V c t e q _ rfl rfl
  rw [h1, h2]

theorem acc_eq (c : Dev nD) : ∀ (n : ℕ) (h : n < cfg1.N) (r : Fin 1024) (q : Fin 0x14),
    sc1 V c n h (ix2 r q)
      = Cert.Spec.segSumBelow (Cert.Spec.vec (dstArr V c)) (fun e => Cert.Spec.mat (msgArr V c) e q)
          (2048 * (n % 196 + 1)) (1024 * (n / 196) + r.val) := by
  intro n
  induction n with
  | zero =>
    intro h r q
    have hsc := sc1_eq V c ⟨0, h⟩
    rw [if_pos (show (⟨0, h⟩ : Fin cfg1.N).val % 196 = 0 from rfl)] at hsc
    refine (congrFun hsc (ix2 r q)).trans ?_
    refine (step_apply (grid1.coords ⟨0, h⟩) (dstBlk V c ⟨0, h⟩) (msgBlk V c ⟨0, h⟩) (k1_pay1 (F := Ideal)) r q).trans ?_
    rw [reset_apply, coords1_0]
    exact step_eq V c ⟨0, h⟩ r q 0 (Cert.Spec.segSumBelow_zero _ _ _).symm
  | succ n ih =>
    intro h r q
    have hsc := sc1_eq V c ⟨n + 1, h⟩
    by_cases h0 : (n + 1) % 196 = 0
    · rw [if_pos (show (⟨n + 1, h⟩ : Fin cfg1.N).val % 196 = 0 from h0)] at hsc
      refine (congrFun hsc (ix2 r q)).trans ?_
      refine (step_apply (grid1.coords ⟨n + 1, h⟩) (dstBlk V c ⟨n + 1, h⟩) (msgBlk V c ⟨n + 1, h⟩) (k1_pay1 (F := Ideal)) r q).trans ?_
      rw [reset_apply, coords1_0]
      refine step_eq V c ⟨n + 1, h⟩ r q 0 ?_
      show (0 : EReal) = Cert.Spec.segSumBelow _ _ (2048 * ((n + 1) % 196)) _
      rw [h0]
      exact (Cert.Spec.segSumBelow_zero _ _ _).symm
    · rw [if_neg (show ¬(⟨n + 1, h⟩ : Fin cfg1.N).val % 196 = 0 from h0)] at hsc
      refine (congrFun hsc (ix2 r q)).trans ?_
      refine (step_apply (grid1.coords ⟨n + 1, h⟩) (dstBlk V c ⟨n + 1, h⟩) (msgBlk V c ⟨n + 1, h⟩)
        (sc1 V c n (Nat.lt_of_succ_lt h)) r q).trans ?_
      rw [coords1_0]
      refine step_eq V c ⟨n + 1, h⟩ r q _ ?_
      rw [ih (Nat.lt_of_succ_lt h) r q]
      show Cert.Spec.segSumBelow _ _ (2048 * (n % 196 + 1)) (1024 * (n / 196) + r.val)
        = Cert.Spec.segSumBelow _ _ (2048 * ((n + 1) % 196)) (1024 * ((n + 1) / 196) + r.val)
      have e1 : n % 196 + 1 = (n + 1) % 196 := by omega
      have e2 : n / 196 = (n + 1) / 196 := by omega
      rw [e1, e2]

abbrev outArr (c : Dev nD) : S25600x20.Idx → Ideal .f32 := fun i =>
  Cert.Spec.scatterOut relu1 (Cert.Spec.vec (dstArr V c)) (Cert.Spec.mat (msgArr V c)) (Cert.Spec.mat (xArr V c))
    (Cert.Spec.mat (w1Arr V c)) (Cert.Spec.vec (b1Arr V c)) (i 0) (i 1)

theorem out_emb (t : Fin cfg1.N) (r : Fin 1024) (q : Fin 0x14) :
    (((cfg1.win 5).blk t).view.emb (ix2 r q) : S25600x20.Idx)
      = ix2 ⟨1024 * (t.val / 196) + r.val, by have := lt_N1 t; have := r.isLt; omega⟩ q := by
  refine funext fun a => Fin.ext ?_
  match a with
  | ⟨0, _⟩ =>
    show win1_5.index t 0 * 1024 + 1 * r.val = 1024 * (t.val / 196) + r.val
    rw [(idx_out t).1]; omega
  | ⟨1, _⟩ =>
    show win1_5.index t 1 * 0x14 + 1 * q.val = q.val
    rw [(idx_out t).2]; omega

theorem idx_out_eq (t : Fin cfg1.N) : win1_5.index t = ![t.val / 196, 0] := by
  refine funext fun a => ?_
  match a with
  | ⟨0, _⟩ => exact (idx_out t).1
  | ⟨1, _⟩ => exact (idx_out t).2

theorem flush_out_iff (t : Fin cfg1.N) : (cfg1.win 5).flush t = true ↔ t.val % 196 = 195 := by
  have ht := lt_N1 t
  show win1_5.flush t = true ↔ _
  unfold Window.flush
  rw [show win1_5.isOut = true from rfl, Bool.true_and, Bool.or_eq_true, decide_eq_true_eq, decide_eq_true_eq]
  show (t.val + 1 = grid1.N ∨ ∃ h : t.val + 1 < grid1.N, win1_5.index ⟨t.val + 1, h⟩ ≠ win1_5.index t) ↔ _
  constructor
  · rintro (h | ⟨h, hne⟩)
    · rw [N_1] at h; omega
    · rw [N_1] at h
      by_contra hc
      refine hne ?_
      rw [idx_out_eq, idx_out_eq]
      show ![(t.val + 1) / 196, 0] = ![t.val / 196, 0]
      rw [show (t.val + 1) / 196 = t.val / 196 from by omega]
  · intro h
    by_cases hl : t.val + 1 = 4900
    · exact Or.inl (by rw [N_1]; exact hl)
    · refine Or.inr ⟨by rw [N_1]; omega, ?_⟩
      rw [idx_out_eq, idx_out_eq]
      intro he
      have h0 : (t.val + 1) / 196 = t.val / 196 := congrFun he 0
      omega

theorem flushed_eq (c : Dev nD) (t : Fin cfg1.N) (hf : (cfg1.win 5).flush t = true) :
    (dat1 V c).flushed 5 t = ((cfg1.win 5).blk t).view.read (Elt Ideal) (outArr V c) := by
  have h195 : t.val % 196 = 195 := (flush_out_iff t).mp hf
  have ht := lt_N1 t
  show (cfg1.win 5).cut (grid1.coords t) ((dat1 V c).after 5 t) = _
  rw [after1_5_flush V c t h195]
  refine funext fun (j : S1024x20.Idx) => ?_
  obtain ⟨r, q, rfl⟩ : ∃ (r : Fin 1024) (q : Fin 0x14), j = ix2 r q := ⟨j 0, j 1, eq_ix2 j⟩
  rw [View.read_apply]
  show k1_pay3 (xBlk V c t) (w1Blk V c t) (b1Blk V c t) (sc1 V c t.val t.isLt) (ix2 r q)
    = outArr V c (((cfg1.win 5).blk t).view.emb (ix2 r q))
  refine (last_apply (xBlk V c t) (w1Blk V c t) (b1Blk V c t) (sc1 V c t.val t.isLt) r q).trans ?_
  rw [acc_eq V c t.val t.isLt r q, show 2048 * (t.val % 196 + 1) = 401408 from by omega, Cert.Spec.segSumBelow_all, out_emb t r q]
  show _ = Cert.Spec.act relu1 (Cert.Spec.segSum (Cert.Spec.vec (dstArr V c)) (fun e => Cert.Spec.mat (msgArr V c) e q) (1024 * (t.val / 196) + r.val)
      + ((∑ p : Fin 0x1, Cert.Spec.mat (xArr V c) ⟨1024 * (t.val / 196) + r.val, by have := r.isLt; omega⟩ p
            * Cert.Spec.mat (w1Arr V c) p q)
          + Cert.Spec.vec (b1Arr V c) q))
  refine congrArg (Cert.Spec.act relu1) (congrArg₂ (· + ·) rfl (congrArg₂ (· + ·) (Finset.sum_congr rfl fun p _ => ?_) ?_))
  · have hx : xBlk V c t (ix2 r p)
        = Cert.Spec.mat (xArr V c) ⟨1024 * (t.val / 196) + r.val, by have := r.isLt; omega⟩ p :=
      xBlk_apply V c t r p _ rfl rfl
    have hw : w1Blk V c t (ix2 p q) = Cert.Spec.mat (w1Arr V c) p q := w1Blk_apply V c t p q
    rw [hx, hw]
  · exact b1Blk_apply V c t q

theorem covered (i : S25600x20.Idx) :
    ∃ t : Fin cfg1.N, (cfg1.win 5).flush t = true ∧ i ∈ ((cfg1.win 5).blk t).view.set := by
  have h0 : (i 0).val < 25600 := (i 0).isLt
  have h1 : (i 1).val < 0x14 := (i 1).isLt
  have hlt : (i 0).val / 1024 * 196 + 195 < cfg1.N := by
    show _ < grid1.N
    rw [N_1]; omega
  refine ⟨⟨(i 0).val / 1024 * 196 + 195, hlt⟩, (flush_out_iff _).mpr (by show ((i 0).val / 1024 * 196 + 195) % 196 = 195; omega), ?_⟩
  show i ∈ ((View.whole (Pipeline.arrRef spec1 5)).slice (win1_5.rect ⟨(i 0).val / 1024 * 196 + 195, hlt⟩)).set
  rw [View.set_slice_whole, Rect.mem_set_unit]
  intro a
  match a with
  | ⟨0, _⟩ =>
    show win1_5.index ⟨(i 0).val / 1024 * 196 + 195, hlt⟩ 0 * 1024 ≤ (i 0).val
      ∧ (i 0).val < win1_5.index ⟨(i 0).val / 1024 * 196 + 195, hlt⟩ 0 * 1024 + 1024
    rw [(idx_out ⟨(i 0).val / 1024 * 196 + 195, hlt⟩).1]
    show ((i 0).val / 1024 * 196 + 195) / 196 * 1024 ≤ (i 0).val ∧ (i 0).val < ((i 0).val / 1024 * 196 + 195) / 196 * 1024 + 1024
    omega
  | ⟨1, _⟩ =>
    show win1_5.index ⟨(i 0).val / 1024 * 196 + 195, hlt⟩ 1 * 0x14 ≤ (i 1).val
      ∧ (i 1).val < win1_5.index ⟨(i 0).val / 1024 * 196 + 195, hlt⟩ 1 * 0x14 + 0x14
    rw [(idx_out ⟨(i 0).val / 1024 * 196 + 195, hlt⟩).2]
    omega

end Run

end R1

section Value

variable (V : (c : Dev nD) → (b : Ref sig .tc) → Buf (Elt Ideal) ((c : Thread nD τ).loc b))

theorem out1_value (c : Dev nD) :
    (dat1 (F := Ideal) V c).arrAt 5 cfg1.N = fun i =>
      Cert.Spec.scatterOut R1.relu1
        (Cert.Spec.vec (V c (Pipeline.arrRef spec1 0) : S401408.Idx → BitVec 32))
        (Cert.Spec.mat (V c (Pipeline.arrRef spec1 1) : S401408x20.Idx → Ideal .f32))
        (Cert.Spec.mat (V c (Pipeline.arrRef spec1 2) : S25600x1.Idx → Ideal .f32))
        (Cert.Spec.mat (V c (Pipeline.arrRef spec1 3) : S1x20.Idx → Ideal .f32))
        (Cert.Spec.vec (V c (Pipeline.arrRef spec1 4) : S20.Idx → Ideal .f32)) (i 0) (i 1) :=
  (dat1 (F := Ideal) V c).arrAt_eq_of_cover 5 (R1.outArr V c) (R1.flushed_eq V c) R1.covered

end Value

end Cert.KernelIdeal.Hand

end
-- ==== Proof.KI.P2.lean ====
import proofs.«415925_j84189948936386_1_alg».proof.Proof.Gen.KernelIdeal.Launch
import proofs.«415925_j84189948936386_1_alg».proof.Proof.Gen.KernelIdeal.Skeleton
import proofs.«415925_j84189948936386_1_alg».proof.Proof.Spec
import Idealize.ShloMosaic.Lib.Pipeline.FrameBody
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

namespace P2

variable {F : FTy → Type} [FloatOps F]

theorem onehot_ideal (a b : BitVec 32) :
    (FloatOps.sitofp (F := Ideal) .f32 ((IntOp.cmpi .eq a b).setWidth 32) : EReal) = if a = b then (1 : EReal) else 0 := by
  by_cases h : a = b
  · subst h
    rw [if_pos rfl]
    have e1 : IntOp.cmpi .eq a a = 1#1 := by simp [IntOp.cmpi]
    rw [e1]
    show (((BitVec.setWidth 32 1#1).toInt : ℝ) : EReal) = 1
    rw [show (BitVec.setWidth 32 1#1).toInt = 1 from by decide]
    norm_num
  · rw [if_neg h]
    have hb : (a == b) = false := beq_eq_false_iff_ne.mpr h
    have e0 : IntOp.cmpi .eq a b = 0#1 := by
      show BitVec.ofBool (a == b) = 0#1
      rw [hb]
      rfl
    rw [e0]
    show (((BitVec.setWidth 32 0#1).toInt : ℝ) : EReal) = 0
    rw [show (BitVec.setWidth 32 0#1).toInt = 0 from by decide]
    norm_num

theorem nodeWord (nb k : Nat) :
    IntOp.addi (Scalar.muli (BitVec.ofNat 32 nb) 1024#32) (BitVec.ofNat 32 k) = BitVec.ofNat 32 (1024 * nb + k) := by
  show BitVec.ofNat 32 nb * 1024#32 + BitVec.ofNat 32 k = _
  rw [show (1024#32 : BitVec 32) = BitVec.ofNat 32 1024 from rfl, ← BitVec.ofNat_mul, ← BitVec.ofNat_add, Nat.mul_comm]

abbrev Dg := dot_S1024x2048_S1024x20_S2048x20_0_0_1_1_n_n
abbrev Dh := dot_S2048x40_S40x200_S2048x200_1_0_0_1_n_n
abbrev Dq := dot_S2048x200_S200x20_S2048x20_1_0_0_1_n_n
abbrev Do := dot_S2048x20_S20x20_S2048x20_1_0_0_1_n_n

theorem Dg_rank : Dg.contr.rank = 1 := rfl
theorem Dg_size : Dg.contr.size ⟨0, by decide⟩ = 1024 := by decide
theorem Dh_size : Dh.contr.size ⟨0, by decide⟩ = 0x14 + 0x14 := by decide
theorem Dq_size : Dq.contr.size ⟨0, by decide⟩ = 200 := by decide
theorem Do_size : Do.contr.size ⟨0, by decide⟩ = 0x14 := by decide
theorem Dh_rank : Dh.contr.rank = 1 := rfl
theorem Dq_rank : Dq.contr.rank = 1 := rfl
theorem Do_rank : Do.contr.rank = 1 := rfl

theorem Dg_lhs0 (j : S2048x20.Idx) (k : Dg.contr.Idx) : (Dg.lhsIdx j k 0).val = (k ⟨0, by decide⟩).val := Dg.lhsIdx_val_of_single rfl j k
theorem Dg_lhs1 (j : S2048x20.Idx) (k : Dg.contr.Idx) : (Dg.lhsIdx j k 1).val = (j 0).val := rfl
theorem Dg_rhs0 (j : S2048x20.Idx) (k : Dg.contr.Idx) : (Dg.rhsIdx j k 0).val = (k ⟨0, by decide⟩).val := Dg.rhsIdx_val_of_single rfl j k
theorem Dg_rhs1 (j : S2048x20.Idx) (k : Dg.contr.Idx) : (Dg.rhsIdx j k 1).val = (j 1).val := rfl

theorem idxRow_apply (idx : IVec S2048 32) (p : S1024x2048.Idx) :
    broadcastTo S1024x2048 (shapeCast S1x2048 idx shapeCasts_S2048_S1x2048) broadcasts_S1x2048_S1024x2048 p
      = idx (ix1 (p 1)) := by
  refine (broadcastTo_apply _ broadcasts_S1x2048_S1024x2048 p (ix2 (0 : Fin 1) (p 1)) ?_).trans ?_
  · intro a
    match a with
    | ⟨0, _⟩ => rfl
    | ⟨1, _⟩ => rfl
  · refine (shapeCast_addUnit_apply ![2048] idx shapeCasts_S2048_S1x2048 _).trans ?_
    congr 1
    funext a
    match a with
    | ⟨0, _⟩ => rfl

theorem pay4_apply (i : grid2.Coords) (p : S1024x2048.Idx) :
    k2_pay4 i p = BitVec.ofNat 32 (1024 * (i 1).val + (p 0).val) := by
  unfold k2_pay4
  show IntOp.addi (Scalar.muli (BitVec.ofNat 32 (i 1).val) 1024#32) (iota .tc S1024x2048 32 [0] iota_S1024x2048_d0_w32 p) = _
  rw [iota_single_apply, nodeWord]

theorem pay5_eq (xb : Vec Ideal S1024x20 .f32) : k2_pay5 (F := Ideal) xb = xb := by
  unfold k2_pay5
  simp only [shapeCast_self]
  rfl

theorem pay6_apply (i : grid2.Coords) (idx : Vec Ideal S2048 .i32) (xb : Vec Ideal S1024x20 .f32) (acc : Vec Ideal S2048x20 .f32)
    (r : Fin 2048) (z : Fin 0x14) :
    k2_pay6 (F := Ideal) i idx xb acc (ix2 r z)
      = acc (ix2 r z) + ∑ k : Fin 1024,
          (if BitVec.ofNat 32 (1024 * (i 1).val + k.val) = idx (ix1 r) then (1 : EReal) else 0) * xb (ix2 k z) := by
  unfold k2_pay6
  simp only [shapeCast_self]
  show acc (ix2 r z) + FloatOps.matmul (F := Ideal) Dg none _ _ (constant S2048x20 .f32 0x00000000#32) (ix2 r z) = _
  refine congrArg (acc (ix2 r z) + ·) ?_
  refine (Ideal.matmul_constant_zero_apply Dg none _ _ (ix2 r z)).trans ?_
  rw [← Equiv.sum_comp (contrEquiv1 Dg 1024 Dg_rank Dg_size).symm]
  refine Finset.sum_congr rfl fun k _ => ?_
  have hk := contrEquiv1_symm_val Dg 1024 Dg_rank Dg_size k
  congr 1
  ·
    show FloatOps.sitofp (F := Ideal) .f32 ((IntOp.cmpi .eq (k2_pay4 i _) (broadcastTo S1024x2048 _ _ _)).setWidth 32) = _
    rw [onehot_ideal, pay4_apply, idxRow_apply]
    have e0 : ((Dg.lhsIdx (ix2 r z) ((contrEquiv1 Dg 1024 Dg_rank Dg_size).symm k)) 0).val = k.val := (Dg_lhs0 _ _).trans hk
    have e1 : ((Dg.lhsIdx (ix2 r z) ((contrEquiv1 Dg 1024 Dg_rank Dg_size).symm k)) 1) = r := Fin.ext (Dg_lhs1 _ _)
    rw [e0, e1]
  ·
    rw [pay5_eq]
    congr 1
    refine Shape.idx_ext₂ ?_ ?_
    · exact (Dg_rhs0 _ _).trans hk
    · exact Dg_rhs1 _ _

theorem pay2_apply (j : S2048x20.Idx) : k2_pay2 (F := Ideal) j = 0 := by
  unfold k2_pay2
  simp only [shapeCast_self]
  show Ideal.ofBits .f32 0x00000000#32 = 0
  exact Ideal.ofBits_zero_f32

theorem Dh_l0 (j : S2048x200.Idx) (k : Dh.contr.Idx) : (Dh.lhsIdx j k 0).val = (j 0).val := rfl
theorem Dh_l1 (j : S2048x200.Idx) (k : Dh.contr.Idx) : (Dh.lhsIdx j k 1).val = (k ⟨0, by decide⟩).val := Dh.lhsIdx_val_of_single rfl j k
theorem Dh_r0 (j : S2048x200.Idx) (k : Dh.contr.Idx) : (Dh.rhsIdx j k 0).val = (k ⟨0, by decide⟩).val := Dh.rhsIdx_val_of_single rfl j k
theorem Dh_r1 (j : S2048x200.Idx) (k : Dh.contr.Idx) : (Dh.rhsIdx j k 1).val = (j 1).val := rfl
theorem Dq_l0 (j : S2048x20.Idx) (k : Dq.contr.Idx) : (Dq.lhsIdx j k 0).val = (j 0).val := rfl
theorem Dq_l1 (j : S2048x20.Idx) (k : Dq.contr.Idx) : (Dq.lhsIdx j k 1).val = (k ⟨0, by decide⟩).val := Dq.lhsIdx_val_of_single rfl j k
theorem Dq_r0 (j : S2048x20.Idx) (k : Dq.contr.Idx) : (Dq.rhsIdx j k 0).val = (k ⟨0, by decide⟩).val := Dq.rhsIdx_val_of_single rfl j k
theorem Dq_r1 (j : S2048x20.Idx) (k : Dq.contr.Idx) : (Dq.rhsIdx j k 1).val = (j 1).val := rfl
theorem Do_l0 (j : S2048x20.Idx) (k : Do.contr.Idx) : (Do.lhsIdx j k 0).val = (j 0).val := rfl
theorem Do_l1 (j : S2048x20.Idx) (k : Do.contr.Idx) : (Do.lhsIdx j k 1).val = (k ⟨0, by decide⟩).val := Do.lhsIdx_val_of_single rfl j k
theorem Do_r0 (j : S2048x20.Idx) (k : Do.contr.Idx) : (Do.rhsIdx j k 0).val = (k ⟨0, by decide⟩).val := Do.rhsIdx_val_of_single rfl j k
theorem Do_r1 (j : S2048x20.Idx) (k : Do.contr.Idx) : (Do.rhsIdx j k 1).val = (j 1).val := rfl

theorem dot_apply_of_coords {M K N : Nat} {φ₁ φ₂ : FTy} (D : DotDims ⟨2, ![M, K]⟩ ⟨2, ![K, N]⟩ ⟨2, ![M, N]⟩)
    (hrk : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (lhs : FVec Ideal ⟨2, ![M, K]⟩ φ₁) (rhs : FVec Ideal ⟨2, ![K, N]⟩ φ₂) (r : Fin M) (o : Fin N) :
    FloatOps.matmul (F := Ideal) D none lhs rhs (constant ⟨2, ![M, N]⟩ .f32 0x00000000#32) (ix2 r o)
      = ∑ k : Fin K, lhs (ix2 r k) * rhs (ix2 k o) := by
  refine (Ideal.matmul_constant_zero_apply D none lhs rhs (ix2 r o)).trans ?_
  rw [← Equiv.sum_comp (contrEquiv1 D K hrk hs).symm]
  refine Finset.sum_congr rfl fun k _ => ?_
  have hk := contrEquiv1_symm_val D K hrk hs k
  congr 1
  · congr 1
    exact Shape.idx_ext₂ (hl0 _ _) ((hl1 _ _).trans hk)
  · congr 1
    exact Shape.idx_ext₂ ((hr0 _ _).trans hk) (hr1 _ _)

theorem biasRow_apply {α : Type} {m n : Nat} (b : (⟨1, ![n]⟩ : Shape).Idx → α)
    (h1 : (⟨1, ![n]⟩ : Shape).ShapeCasts ⟨2, ![1, n]⟩) (h2 : (⟨2, ![1, n]⟩ : Shape).Broadcasts ⟨2, ![m, n]⟩)
    (r : Fin m) (o : Fin n) :
    broadcastTo ⟨2, ![m, n]⟩ (shapeCast ⟨2, ![1, n]⟩ b h1) h2 (ix2 r o) = b (ix1 o) := by
  refine (broadcastTo_apply _ h2 (ix2 r o) (ix2 (0 : Fin 1) o) ?_).trans ?_
  · intro a
    match a with
    | ⟨0, _⟩ => rfl
    | ⟨1, _⟩ =>
      show o.val = if n = 1 then 0 else o.val
      have := o.isLt
      split <;> omega
  · refine (shapeCast_addUnit_apply ![n] b h1 _).trans ?_
    congr 1
    funext a
    match a with
    | ⟨0, _⟩ => rfl

theorem cat_apply (xi xj : Vec Ideal S2048x20 .f32) (r : Fin 2048) (q : Fin (0x14 + 0x14)) :
    concatenate S2048x40 1 [⟨S2048x20, xi⟩, ⟨S2048x20, xj⟩] concatenates_S2048x20_S2048x20_S2048x40_d1 (ix2 r q)
      = Fin.append (fun k : Fin 0x14 => xi (ix2 r k)) (fun k : Fin 0x14 => xj (ix2 r k)) q := by
  rw [Spec.append_apply]
  by_cases h : q.val < 0x14
  · rw [dif_pos h]
    refine concatenate_pair_apply_left (1 : Fin 2) xi xj _ (ix2 r q) rfl (ix2 r ⟨q.val, h⟩) ?_
    intro b
    match b with
    | ⟨0, _⟩ => rfl
    | ⟨1, _⟩ => rfl
  · rw [dif_neg h]
    have hq := q.isLt
    refine concatenate_pair_apply_right (1 : Fin 2) xi xj _ (ix2 r q) rfl rfl (ix2 r ⟨q.val - 0x14, by omega⟩) ?_ ?_
    · intro b hb
      match b with
      | ⟨0, _⟩ => rfl
      | ⟨1, _⟩ => exact absurd rfl hb
    · show q.val - 0x14 + 0x14 = q.val
      omega

theorem pay1_apply (xi xj : Vec Ideal S2048x20 .f32) (Wm1 : Vec Ideal S40x200 .f32) (bm1 : Vec Ideal S200 .f32)
    (Wm2 : Vec Ideal S200x20 .f32) (bm2 : Vec Ideal S20 .f32) (W2 : Vec Ideal S20x20 .f32) (b2 : Vec Ideal S20 .f32)
    (r : Fin 2048) (o : Fin 0x14) :
    k2_pay1 (F := Ideal) xi xj Wm1 bm1 Wm2 bm2 W2 b2 (ix2 r o)
      = Spec.mlp (cin := 0x14) (Spec.mat Wm1) (Spec.vec bm1) (Spec.mat Wm2) (Spec.vec bm2) (Spec.mat W2) (Spec.vec b2)
          (fun k => xi (ix2 r k)) (fun k => xj (ix2 r k)) o := by
  unfold k2_pay1 Spec.mlp
  show FloatOps.matmul (F := Ideal) Do none _ _ (constant S2048x20 .f32 0x00000000#32) (ix2 r o)
      + broadcastTo S2048x20 (shapeCast _ b2 shapeCasts_S20_S1x20) broadcasts_S1x20_S2048x20 (ix2 r o) = _
  refine congrArg₂ (· + ·) ((dot_apply_of_coords Do Do_rank Do_size Do_l0 Do_l1 Do_r0 Do_r1 _ _ r o).trans ?_)
    (biasRow_apply b2 shapeCasts_S20_S1x20 broadcasts_S1x20_S2048x20 r o)
  refine Finset.sum_congr rfl fun k _ => congrArg₂ (· * ·) ?_ rfl

  show (FloatOps.matmul (F := Ideal) Dq none _ _ (constant S2048x20 .f32 0x00000000#32) (ix2 r k)
      + broadcastTo S2048x20 (shapeCast _ bm2 shapeCasts_S20_S1x20) broadcasts_S1x20_S2048x20 (ix2 r k))
      * (xi (ix2 r k) - xj (ix2 r k)) = _
  refine congrArg₂ (· * ·) (congrArg₂ (· + ·) ((dot_apply_of_coords Dq Dq_rank Dq_size Dq_l0 Dq_l1 Dq_r0 Dq_r1 _ _ r k).trans ?_)
    (biasRow_apply bm2 shapeCasts_S20_S1x20 broadcasts_S1x20_S2048x20 r k)) rfl
  refine Finset.sum_congr rfl fun j _ => congrArg₂ (· * ·) ?_ rfl

  show max (FloatOps.matmul (F := Ideal) Dh none _ _ (constant S2048x200 .f32 0x00000000#32) (ix2 r j)
      + broadcastTo S2048x200 (shapeCast _ bm1 shapeCasts_S200_S1x200) broadcasts_S1x200_S2048x200 (ix2 r j))
      (Ideal.ofBits .f32 0x00000000#32) = _
  rw [Ideal.ofBits_zero_f32]
  refine congrArg (max · 0) (congrArg₂ (· + ·) ((dot_apply_of_coords Dh Dh_rank Dh_size Dh_l0 Dh_l1 Dh_r0 Dh_r1 _ _ r j).trans ?_)
    (biasRow_apply bm1 shapeCasts_S200_S1x200 broadcasts_S1x200_S2048x200 r j))
  exact Finset.sum_congr rfl fun q _ => congrArg₂ (· * ·) (cat_apply xi xj r q) rfl

end P2

end Cert.KernelIdeal.Hand

end
-- ==== Proof.KI.V2.lean ====
import proofs.«415925_j84189948936386_1_alg».proof.Proof.KI.R2Dat
import proofs.«415925_j84189948936386_1_alg».proof.Proof.KI.P2
import proofs.«415925_j84189948936386_1_alg».proof.Proof.Spec
import Idealize.ShloMosaic.Lib.Pipeline.FrameBody
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

namespace R2

open P2

section Generic
variable {F : FTy → Type} [FloatOps F]
variable (V : (c : Dev nD) → (b : Ref sig .tc) → Buf (Elt F) ((c : Thread nD τ).loc b))

abbrev srcA (c : Dev nD) : Vec F S401408 .i32 := V c (Pipeline.arrRef spec2 0)
abbrev dstA (c : Dev nD) : Vec F S401408 .i32 := V c (Pipeline.arrRef spec2 1)
abbrev xA (c : Dev nD) : Vec F S25600x20 .f32 := V c (Pipeline.arrRef spec2 2)
abbrev Wm1A (c : Dev nD) : Vec F S40x200 .f32 := V c (Pipeline.arrRef spec2 3)
abbrev bm1A (c : Dev nD) : Vec F S200 .f32 := V c (Pipeline.arrRef spec2 4)
abbrev Wm2A (c : Dev nD) : Vec F S200x20 .f32 := V c (Pipeline.arrRef spec2 5)
abbrev bm2A (c : Dev nD) : Vec F S20 .f32 := V c (Pipeline.arrRef spec2 6)
abbrev W2A (c : Dev nD) : Vec F S20x20 .f32 := V c (Pipeline.arrRef spec2 7)
abbrev b2A (c : Dev nD) : Vec F S20 .f32 := V c (Pipeline.arrRef spec2 8)

abbrev srcB (c : Dev nD) (t : Fin cfg2.N) : Vec F S2048 .i32 := iblk2 V c 0 t
abbrev dstB (c : Dev nD) (t : Fin cfg2.N) : Vec F S2048 .i32 := iblk2 V c 1 t
abbrev xB (c : Dev nD) (t : Fin cfg2.N) : Vec F S1024x20 .f32 := iblk2 V c 2 t
abbrev Wm1B (c : Dev nD) (t : Fin cfg2.N) : Vec F S40x200 .f32 := iblk2 V c 3 t
abbrev bm1B (c : Dev nD) (t : Fin cfg2.N) : Vec F S200 .f32 := iblk2 V c 4 t
abbrev Wm2B (c : Dev nD) (t : Fin cfg2.N) : Vec F S200x20 .f32 := iblk2 V c 5 t
abbrev bm2B (c : Dev nD) (t : Fin cfg2.N) : Vec F S20 .f32 := iblk2 V c 6 t
abbrev W2B (c : Dev nD) (t : Fin cfg2.N) : Vec F S20x20 .f32 := iblk2 V c 7 t
abbrev b2B (c : Dev nD) (t : Fin cfg2.N) : Vec F S20 .f32 := iblk2 V c 8 t

theorem lt_N0 (t : Fin cfg2.N) : t.val < 4900 := by
  have h : t.val < cfg2.N := t.isLt
  have e : cfg2.N = 4900 := N_2
  omega

theorem coords2_0 (t : Fin cfg2.N) : ((grid2.coords t) 0).val = t.val / 25 := by
  have h := lt_N0 t
  show t.val / grid2.stride 0 % 196 = _
  rw [show grid2.stride 0 = 25 from by decide]
  omega

theorem coords2_1 (t : Fin cfg2.N) : ((grid2.coords t) 1).val = t.val % 25 := by
  show t.val / grid2.stride 1 % 25 = _
  rw [show grid2.stride 1 = 1 from by decide]
  omega

theorem toNat_ofNat32 (n : Nat) (h : n < 4294967296) : (BitVec.ofNat 32 n).toNat = n := by
  rw [BitVec.toNat_ofNat]
  exact Nat.mod_eq_of_lt h

theorem index0_0 (t : Fin cfg2.N) : win2_0.index t 0 = t.val / 25 := by
  have h := lt_N0 t
  show (BitVec.ofNat 32 ((grid2.coords t) 0).val).toNat = _
  rw [coords2_0, toNat_ofNat32 _ (by omega)]
theorem index0_1 (t : Fin cfg2.N) : win2_1.index t 0 = t.val / 25 := by
  have h := lt_N0 t
  show (BitVec.ofNat 32 ((grid2.coords t) 0).val).toNat = _
  rw [coords2_0, toNat_ofNat32 _ (by omega)]
theorem index0_2 (t : Fin cfg2.N) : win2_2.index t 0 = t.val % 25 ∧ win2_2.index t 1 = 0 := by
  refine ⟨?_, rfl⟩
  show (BitVec.ofNat 32 ((grid2.coords t) 1).val).toNat = _
  rw [coords2_1, toNat_ofNat32 _ (by omega)]
theorem index0_9 (t : Fin cfg2.N) : win2_9.index t 0 = t.val / 25 ∧ win2_9.index t 1 = 0 := by
  have h := lt_N0 t
  refine ⟨?_, rfl⟩
  show (BitVec.ofNat 32 ((grid2.coords t) 0).val).toNat = _
  rw [coords2_0, toNat_ofNat32 _ (by omega)]

theorem flush9_iff (t : Fin cfg2.N) : (cfg2.win 9).flush t = true ↔ t.val % 25 = 24 := by
  have hN : grid2.N = 4900 := N_2
  have ht := lt_N0 t
  show win2_9.flush t = true ↔ _
  unfold Pipeline.Window.flush
  simp only [Bool.and_eq_true, Bool.or_eq_true, decide_eq_true_eq]
  constructor
  · rintro ⟨-, h | ⟨h, hne⟩⟩
    · omega
    · by_contra hc
      apply hne
      funext a
      match a with
      | ⟨0, _⟩ =>
        show win2_9.index ⟨t.val + 1, h⟩ 0 = win2_9.index t 0
        rw [(index0_9 ⟨t.val + 1, h⟩).1, (index0_9 t).1]
        show (t.val + 1) / 25 = t.val / 25
        omega
      | ⟨1, _⟩ =>
        show win2_9.index ⟨t.val + 1, h⟩ 1 = win2_9.index t 1
        rw [(index0_9 ⟨t.val + 1, h⟩).2, (index0_9 t).2]
  · intro h24
    refine ⟨trivial, ?_⟩
    by_cases hl : t.val + 1 = grid2.N
    · exact Or.inl hl
    · have hlt : t.val + 1 < grid2.N := by omega
      refine Or.inr ⟨hlt, fun he => ?_⟩
      have h0 := congrFun he 0
      rw [(index0_9 ⟨t.val + 1, hlt⟩).1, (index0_9 t).1] at h0
      have h0' : (t.val + 1) / 25 = t.val / 25 := h0
      omega

theorem srcB_apply (c : Dev nD) (t : Fin cfg2.N) (r : Fin 2048) (e : Fin 401408) (he : e.val = 2048 * (t.val / 25) + r.val) :
    srcB V c t (ix1 r) = srcA V c (ix1 e) := by
  unfold srcB iblk2
  rw [View.read_apply]
  show V c _ _ = V c _ _
  congr 1
  funext a
  apply Fin.ext
  match a with
  | ⟨0, _⟩ => show win2_0.index t 0 * 2048 + 1 * r.val = e.val; rw [index0_0, he]; omega

theorem dstB_apply (c : Dev nD) (t : Fin cfg2.N) (r : Fin 2048) (e : Fin 401408) (he : e.val = 2048 * (t.val / 25) + r.val) :
    dstB V c t (ix1 r) = dstA V c (ix1 e) := by
  unfold dstB iblk2
  rw [View.read_apply]
  show V c _ _ = V c _ _
  congr 1
  funext a
  apply Fin.ext
  match a with
  | ⟨0, _⟩ => show win2_1.index t 0 * 2048 + 1 * r.val = e.val; rw [index0_1, he]; omega

theorem xB_apply (c : Dev nD) (t : Fin cfg2.N) (k : Fin 1024) (z : Fin 0x14) (n : Fin 25600) (hn : n.val = 1024 * (t.val % 25) + k.val) :
    xB V c t (ix2 k z) = xA V c (ix2 n z) := by
  unfold xB iblk2
  rw [View.read_apply]
  show V c _ _ = V c _ _
  congr 1
  funext a
  apply Fin.ext
  match a with
  | ⟨0, _⟩ => show win2_2.index t 0 * 1024 + 1 * k.val = n.val; rw [(index0_2 t).1, hn]; omega
  | ⟨1, _⟩ => show win2_2.index t 1 * 0x14 + 1 * z.val = z.val; rw [(index0_2 t).2]; omega

theorem Wm1B_eq (c : Dev nD) (t : Fin cfg2.N) : Wm1B V c t = Wm1A V c := by
  funext j
  unfold Wm1B iblk2
  rw [View.read_apply]
  show V c _ _ = V c _ _
  congr 1
  funext a
  apply Fin.ext
  match a with
  | ⟨0, _⟩ => show 0 * (0x14 + 0x14) + 1 * (j 0).val = (j 0).val; omega
  | ⟨1, _⟩ => show 0 * 200 + 1 * (j 1).val = (j 1).val; omega
theorem bm1B_eq (c : Dev nD) (t : Fin cfg2.N) : bm1B V c t = bm1A V c := by
  funext j
  unfold bm1B iblk2
  rw [View.read_apply]
  show V c _ _ = V c _ _
  congr 1
  funext a
  apply Fin.ext
  match a with
  | ⟨0, _⟩ => show 0 * 200 + 1 * (j 0).val = (j 0).val; omega
theorem Wm2B_eq (c : Dev nD) (t : Fin cfg2.N) : Wm2B V c t = Wm2A V c := by
  funext j
  unfold Wm2B iblk2
  rw [View.read_apply]
  show V c _ _ = V c _ _
  congr 1
  funext a
  apply Fin.ext
  match a with
  | ⟨0, _⟩ => show 0 * 200 + 1 * (j 0).val = (j 0).val; omega
  | ⟨1, _⟩ => show 0 * 0x14 + 1 * (j 1).val = (j 1).val; omega
theorem bm2B_eq (c : Dev nD) (t : Fin cfg2.N) : bm2B V c t = bm2A V c := by
  funext j
  unfold bm2B iblk2
  rw [View.read_apply]
  show V c _ _ = V c _ _
  congr 1
  funext a
  apply Fin.ext
  match a with
  | ⟨0, _⟩ => show 0 * 0x14 + 1 * (j 0).val = (j 0).val; omega
theorem W2B_eq (c : Dev nD) (t : Fin cfg2.N) : W2B V c t = W2A V c := by
  funext j
  unfold W2B iblk2
  rw [View.read_apply]
  show V c _ _ = V c _ _
  congr 1
  funext a
  apply Fin.ext
  match a with
  | ⟨0, _⟩ => show 0 * 0x14 + 1 * (j 0).val = (j 0).val; omega
  | ⟨1, _⟩ => show 0 * 0x14 + 1 * (j 1).val = (j 1).val; omega
theorem b2B_eq (c : Dev nD) (t : Fin cfg2.N) : b2B V c t = b2A V c := by
  funext j
  unfold b2B iblk2
  rw [View.read_apply]
  show V c _ _ = V c _ _
  congr 1
  funext a
  apply Fin.ext
  match a with
  | ⟨0, _⟩ => show 0 * 0x14 + 1 * (j 0).val = (j 0).val; omega

end Generic

section AtIdeal
variable (V : (c : Dev nD) → (b : Ref sig .tc) → Buf (Elt Ideal) ((c : Thread nD τ).loc b))

abbrev xcol (c : Dev nD) (z : Fin 0x14) : Fin 25600 → EReal := fun n => xA V c (ix2 n z)

theorem acc_step (c : Dev nD) (t : Fin cfg2.N) (idx : Vec Ideal S2048 .i32) (w : BitVec 32) (r : Fin 2048) (z : Fin 0x14)
    (hw : idx (ix1 r) = w) (prev : Vec Ideal S2048x20 .f32)
    (hprev : prev (ix2 r z) = Spec.gatherBelow (xcol V c z) (1024 * (t.val % 25)) w) :
    k2_pay6 (F := Ideal) (grid2.coords t) idx (xB V c t) prev (ix2 r z)
      = Spec.gatherBelow (xcol V c z) (1024 * (t.val % 25) + 1024) w := by
  have h25 : t.val % 25 < 25 := Nat.mod_lt _ (by decide)
  refine (pay6_apply (grid2.coords t) idx (xB V c t) prev r z).trans ?_
  rw [hprev, hw, coords2_1,
    ← Spec.gatherBelow_step (xcol V c z) (1024 * (t.val % 25)) 1024 (by omega) (by norm_num) w]
  refine congrArg (Spec.gatherBelow (xcol V c z) (1024 * (t.val % 25)) w + ·) (Finset.sum_congr rfl fun k _ => ?_)
  refine congrArg (fun y : EReal => (if BitVec.ofNat 32 (1024 * (t.val % 25) + k.val) = w then (1 : EReal) else 0) * y) ?_
  exact xB_apply V c t k z ⟨1024 * (t.val % 25) + k.val, by have := k.isLt; omega⟩ rfl

theorem scI2_val (c : Dev nD) : ∀ (n : ℕ) (h : n < cfg2.N) (r : Fin 2048) (z : Fin 0x14) (e : Fin 401408),
    e.val = 2048 * (n / 25) + r.val →
    scI2 V c n h (ix2 r z) = Spec.gatherBelow (xcol V c z) (1024 * (n % 25) + 1024) (dstA V c (ix1 e)) := by
  intro n
  induction n with
  | zero =>
    intro h r z e he
    refine (congrFun (scI2_eq V c ⟨0, h⟩) (ix2 r z)).trans ?_
    refine acc_step V c ⟨0, h⟩ (dstB V c ⟨0, h⟩) (dstA V c (ix1 e)) r z (dstB_apply V c ⟨0, h⟩ r e he) _ ?_
    show k2_pay2 (F := Ideal) (ix2 r z) = _
    rw [pay2_apply]
    exact (Spec.gatherBelow_zero _ _).symm
  | succ m ih =>
    intro h r z e he
    refine (congrFun (scI2_eq V c ⟨m + 1, h⟩) (ix2 r z)).trans ?_
    refine acc_step V c ⟨m + 1, h⟩ (dstB V c ⟨m + 1, h⟩) (dstA V c (ix1 e)) r z (dstB_apply V c ⟨m + 1, h⟩ r e he) _ ?_
    by_cases h0 : (m + 1) % 25 = 0
    · show (if (m + 1) % 25 = 0 then k2_pay2 (F := Ideal) else _) (ix2 r z) = _
      rw [if_pos h0, pay2_apply]
      show (0 : EReal) = Spec.gatherBelow (xcol V c z) (1024 * ((m + 1) % 25)) _
      rw [h0]
      exact (Spec.gatherBelow_zero _ _).symm
    · show (if (m + 1) % 25 = 0 then k2_pay2 (F := Ideal) else scI2 V c m _) (ix2 r z) = _
      rw [if_neg h0]
      have := ih (by omega) r z e (by omega)
      show _ = Spec.gatherBelow (xcol V c z) (1024 * ((m + 1) % 25)) _
      rw [show 1024 * ((m + 1) % 25) = 1024 * (m % 25) + 1024 from by omega]
      exact this

theorem scJ2_val (c : Dev nD) : ∀ (n : ℕ) (h : n < cfg2.N) (r : Fin 2048) (z : Fin 0x14) (e : Fin 401408),
    e.val = 2048 * (n / 25) + r.val →
    scJ2 V c n h (ix2 r z) = Spec.gatherBelow (xcol V c z) (1024 * (n % 25) + 1024) (srcA V c (ix1 e)) := by
  intro n
  induction n with
  | zero =>
    intro h r z e he
    refine (congrFun (scJ2_eq V c ⟨0, h⟩) (ix2 r z)).trans ?_
    refine acc_step V c ⟨0, h⟩ (srcB V c ⟨0, h⟩) (srcA V c (ix1 e)) r z (srcB_apply V c ⟨0, h⟩ r e he) _ ?_
    show k2_pay2 (F := Ideal) (ix2 r z) = _
    rw [pay2_apply]
    exact (Spec.gatherBelow_zero _ _).symm
  | succ m ih =>
    intro h r z e he
    refine (congrFun (scJ2_eq V c ⟨m + 1, h⟩) (ix2 r z)).trans ?_
    refine acc_step V c ⟨m + 1, h⟩ (srcB V c ⟨m + 1, h⟩) (srcA V c (ix1 e)) r z (srcB_apply V c ⟨m + 1, h⟩ r e he) _ ?_
    by_cases h0 : (m + 1) % 25 = 0
    · show (if (m + 1) % 25 = 0 then k2_pay2 (F := Ideal) else _) (ix2 r z) = _
      rw [if_pos h0, pay2_apply]
      show (0 : EReal) = Spec.gatherBelow (xcol V c z) (1024 * ((m + 1) % 25)) _
      rw [h0]
      exact (Spec.gatherBelow_zero _ _).symm
    · show (if (m + 1) % 25 = 0 then k2_pay2 (F := Ideal) else scJ2 V c m _) (ix2 r z) = _
      rw [if_neg h0]
      have := ih (by omega) r z e (by omega)
      show _ = Spec.gatherBelow (xcol V c z) (1024 * ((m + 1) % 25)) _
      rw [show 1024 * ((m + 1) % 25) = 1024 * (m % 25) + 1024 from by omega]
      exact this

theorem scI2_last (c : Dev nD) (t : Fin cfg2.N) (h24 : t.val % 25 = 24) (r : Fin 2048) (z : Fin 0x14) (e : Fin 401408)
    (he : e.val = 2048 * (t.val / 25) + r.val) :
    scI2 V c t.val t.isLt (ix2 r z) = Spec.gatherAt (xcol V c z) (dstA V c (ix1 e)) := by
  rw [scI2_val V c t.val t.isLt r z e he, h24]
  exact Spec.gatherBelow_all _ _
theorem scJ2_last (c : Dev nD) (t : Fin cfg2.N) (h24 : t.val % 25 = 24) (r : Fin 2048) (z : Fin 0x14) (e : Fin 401408)
    (he : e.val = 2048 * (t.val / 25) + r.val) :
    scJ2 V c t.val t.isLt (ix2 r z) = Spec.gatherAt (xcol V c z) (srcA V c (ix1 e)) := by
  rw [scJ2_val V c t.val t.isLt r z e he, h24]
  exact Spec.gatherBelow_all _ _

def G0 (c : Dev nD) : Vec Ideal S401408x20 .f32 := fun i =>
  Spec.gatherMsg (cin := 0x14) (Spec.vec (srcA V c)) (Spec.vec (dstA V c)) (Spec.mat (xA V c)) (Spec.mat (Wm1A V c))
    (Spec.vec (bm1A V c)) (Spec.mat (Wm2A V c)) (Spec.vec (bm2A V c)) (Spec.mat (W2A V c)) (Spec.vec (b2A V c)) (i 0) (i 1)

theorem flushed_eq (c : Dev nD) (t : Fin cfg2.N) (hf : (cfg2.win 9).flush t = true) :
    (dat2 V c).flushed 9 t = ((cfg2.win 9).blk t).view.read (Elt Ideal) (G0 V c) := by
  have h24 : t.val % 25 = 24 := (flush9_iff t).mp hf
  have hN := lt_N0 t
  show (cfg2.win 9).cut (grid2.coords t) ((dat2 V c).after 9 t) = _
  rw [after2_9_flush V c t h24]
  refine funext fun (j : S2048x20.Idx) => ?_
  obtain ⟨r, o, rfl⟩ : ∃ (r : Fin 2048) (o : Fin 0x14), j = ix2 r o := ⟨j 0, j 1, eq_ix2 j⟩
  have hr := r.isLt
  rw [View.read_apply]
  show k2_pay1 (F := Ideal) (scI2 V c t.val t.isLt) (scJ2 V c t.val t.isLt) (Wm1B V c t) (bm1B V c t) (Wm2B V c t)
      (bm2B V c t) (W2B V c t) (b2B V c t) (ix2 r o) = G0 V c (((cfg2.win 9).blk t).view.emb (ix2 r o))
  rw [Wm1B_eq, bm1B_eq, Wm2B_eq, bm2B_eq, W2B_eq, b2B_eq]
  refine (pay1_apply _ _ _ _ _ _ _ _ r o).trans ?_

  have he : (⟨2048 * (t.val / 25) + r.val, by omega⟩ : Fin 401408).val = 2048 * (t.val / 25) + r.val := rfl
  have hxi : (fun k : Fin 0x14 => scI2 V c t.val t.isLt (ix2 r k))
      = fun k => Spec.gatherAt (fun n => Spec.mat (xA V c) n k) (Spec.vec (dstA V c) ⟨2048 * (t.val / 25) + r.val, by omega⟩) :=
    funext fun k => scI2_last V c t h24 r k _ he
  have hxj : (fun k : Fin 0x14 => scJ2 V c t.val t.isLt (ix2 r k))
      = fun k => Spec.gatherAt (fun n => Spec.mat (xA V c) n k) (Spec.vec (srcA V c) ⟨2048 * (t.val / 25) + r.val, by omega⟩) :=
    funext fun k => scJ2_last V c t h24 r k _ he
  rw [hxi, hxj]
  unfold G0 Spec.gatherMsg
  have e0 : (((cfg2.win 9).blk t).view.emb (ix2 r o)) 0 = (⟨2048 * (t.val / 25) + r.val, by omega⟩ : Fin 401408) := by
    apply Fin.ext
    show win2_9.index t 0 * 2048 + 1 * r.val = 2048 * (t.val / 25) + r.val
    rw [(index0_9 t).1]; omega
  have e1 : (((cfg2.win 9).blk t).view.emb (ix2 r o)) 1 = o := by
    apply Fin.ext
    show win2_9.index t 1 * 0x14 + 1 * o.val = o.val
    rw [(index0_9 t).2]; omega
  rw [e0, e1]

theorem mem_blk9 (t : Fin cfg2.N) (i : S401408x20.Idx) :
    i ∈ ((cfg2.win 9).blk t).view.set ↔ ∀ a : Fin 2, win2_9.index t a * S2048x20.size a ≤ (i a).val
      ∧ (i a).val < win2_9.index t a * S2048x20.size a + S2048x20.size a := by
  show i ∈ ((View.whole main_v9).slice (win2_9.rect t)).set ↔ _
  rw [View.set_slice_whole, Rect.mem_set_unit]
  exact Iff.rfl

end AtIdeal

end R2

theorem out2_value (V : (c : Dev nD) → (b : Ref sig .tc) → Buf (Elt Ideal) ((c : Thread nD τ).loc b)) (c : Dev nD) :
    (dat2 V c).arrAt 9 cfg2.N = R2.G0 V c :=
  (dat2 V c).arrAt_eq_of_cover 9 (R2.G0 V c) (R2.flushed_eq V c) fun i => by
    have hi0 : (i 0).val < 401408 := (i 0).isLt
    have hi1 : (i 1).val < 0x14 := (i 1).isLt
    have hlt : (i 0).val / 2048 * 25 + 24 < cfg2.N := by rw [show cfg2.N = 4900 from N_2]; omega
    refine ⟨⟨(i 0).val / 2048 * 25 + 24, hlt⟩, (R2.flush9_iff _).mpr (by show ((i 0).val / 2048 * 25 + 24) % 25 = 24; omega), ?_⟩
    have q := R2.index0_9 ⟨(i 0).val / 2048 * 25 + 24, hlt⟩
    refine (R2.mem_blk9 ⟨(i 0).val / 2048 * 25 + 24, hlt⟩ i).mpr ?_
    intro a
    match a with
    | ⟨0, _⟩ =>
      show win2_9.index _ 0 * 2048 ≤ (i 0).val ∧ (i 0).val < win2_9.index _ 0 * 2048 + 2048
      rw [q.1]
      show ((i 0).val / 2048 * 25 + 24) / 25 * 2048 ≤ (i 0).val ∧ (i 0).val < ((i 0).val / 2048 * 25 + 24) / 25 * 2048 + 2048
      omega
    | ⟨1, _⟩ =>
      show win2_9.index _ 1 * 0x14 ≤ (i 1).val ∧ (i 1).val < win2_9.index _ 1 * 0x14 + 0x14
      rw [q.2]
      omega

end Cert.KernelIdeal.Hand

end
-- ==== Proof.KI.Post3.lean ====
import proofs.«415925_j84189948936386_1_alg».proof.Proof.Gen.KernelIdeal.Skeleton
import proofs.«415925_j84189948936386_1_alg».proof.Proof.Spec
import Idealize.ShloMosaic.PureOps.Ideal.Laws

noncomputable section

namespace Cert.KernelIdeal.Hand.R3

open Cert.KernelIdeal Cert.KernelIdeal.Gen Idealize.ShloMosaic

abbrev relu3 : Bool := true

theorem post3_apply (v : FVec Ideal S1024x20 .f32) (j : S1024x20.Idx) :
    maximumf v (broadcast S1024x20 (Scalar.ofBits (F := Ideal) .f32 0x00000000#32)) j = Cert.Spec.act relu3 (v j) := by
  show max (v j) (Ideal.ofBits .f32 0x00000000#32) = max (v j) 0
  rw [Ideal.ofBits_zero_f32]

end Cert.KernelIdeal.Hand.R3

end
-- ==== Proof.KI.P3.lean ====
import proofs.«415925_j84189948936386_1_alg».proof.Proof.Gen.KernelIdeal.Launch
import proofs.«415925_j84189948936386_1_alg».proof.Proof.Gen.KernelIdeal.Skeleton
import proofs.«415925_j84189948936386_1_alg».proof.Proof.KI.Post3
import proofs.«415925_j84189948936386_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

namespace P3

open R3 (relu3 post3_apply)

theorem oh_word (a b : BitVec 32) :
    (FloatOps.sitofp .f32 ((IntOp.cmpi .eq a b).setWidth 32) : Ideal .f32) = if a = b then (1 : EReal) else 0 := by
  by_cases h : a = b
  · subst h
    rw [if_pos rfl]
    have hc : IntOp.cmpi .eq a a = 1#1 := by simp [IntOp.cmpi]
    rw [hc]
    show (((BitVec.setWidth 32 (1#1)).toInt : ℝ) : EReal) = 1
    rw [show (BitVec.setWidth 32 (1#1)).toInt = 1 from by decide]
    simp
  · rw [if_neg h]
    have hb : (a == b) = false := beq_eq_false_iff_ne.mpr h
    have hc : IntOp.cmpi .eq a b = 0#1 := by simp [IntOp.cmpi, hb]
    rw [hc]
    show (((BitVec.setWidth 32 (0#1)).toInt : ℝ) : EReal) = 0
    rw [show (BitVec.setWidth 32 (0#1)).toInt = 0 from by decide]
    simp

theorem node_word (nb r : ℕ) :
    IntOp.addi (Scalar.muli (BitVec.ofNat 32 nb) 1024#32) (BitVec.ofNat 32 r) = BitVec.ofNat 32 (1024 * nb + r) := by
  apply BitVec.eq_of_toNat_eq
  simp only [IntOp.addi, Scalar.muli, IntOp.muli, BitVec.toNat_add, BitVec.toNat_mul, BitVec.toNat_ofNat]
  omega

theorem lhs_scat_row (j : S1024x20.Idx) (k : dot_S1024x2048_S2048x20_S1024x20_1_0_0_1_n_n.contr.Idx) :
    (dot_S1024x2048_S2048x20_S1024x20_1_0_0_1_n_n.lhsIdx j k 0).val = (j 0).val := by
  unfold DotDims.lhsIdx
  rw [dif_neg (show ¬(0 : Fin S1024x2048.rank) ∈ dot_S1024x2048_S2048x20_S1024x20_1_0_0_1_n_n.lhsBatch from by decide),
    dif_pos (show (0 : Fin S1024x2048.rank) ∈ dot_S1024x2048_S2048x20_S1024x20_1_0_0_1_n_n.lhsNonContracting from by decide)]
  rfl

theorem lhs_scat_col (j : S1024x20.Idx) (k : dot_S1024x2048_S2048x20_S1024x20_1_0_0_1_n_n.contr.Idx) :
    (dot_S1024x2048_S2048x20_S1024x20_1_0_0_1_n_n.lhsIdx j k 1).val = (k ⟨0, by decide⟩).val :=
  dot_S1024x2048_S2048x20_S1024x20_1_0_0_1_n_n.lhsIdx_val_of_single (cl := 1) rfl j k

theorem rhs_scat_row (j : S1024x20.Idx) (k : dot_S1024x2048_S2048x20_S1024x20_1_0_0_1_n_n.contr.Idx) :
    (dot_S1024x2048_S2048x20_S1024x20_1_0_0_1_n_n.rhsIdx j k 0).val = (k ⟨0, by decide⟩).val :=
  dot_S1024x2048_S2048x20_S1024x20_1_0_0_1_n_n.rhsIdx_val_of_single (cr := 0) rfl j k

theorem rhs_scat_col (j : S1024x20.Idx) (k : dot_S1024x2048_S2048x20_S1024x20_1_0_0_1_n_n.contr.Idx) :
    (dot_S1024x2048_S2048x20_S1024x20_1_0_0_1_n_n.rhsIdx j k 1).val = (j 1).val := by
  unfold DotDims.rhsIdx
  rw [dif_neg (show ¬(1 : Fin S2048x20.rank) ∈ dot_S1024x2048_S2048x20_S1024x20_1_0_0_1_n_n.rhsBatch from by decide),
    dif_pos (show (1 : Fin S2048x20.rank) ∈ dot_S1024x2048_S2048x20_S1024x20_1_0_0_1_n_n.rhsNonContracting from by decide)]
  rfl

theorem scat_matmul_apply (L : FVec Ideal S1024x2048 .bf16) (R : FVec Ideal S2048x20 .bf16) (r : Fin 1024) (q : Fin 0x14) :
    matmul dot_S1024x2048_S2048x20_S1024x20_1_0_0_1_n_n none L R (constant S1024x20 .f32 0x00000000#32) (ix2 r q)
      = ∑ e : Fin 2048, L (ix2 r e) * R (ix2 e q) := by
  refine (Ideal.matmul_constant_zero_apply dot_S1024x2048_S2048x20_S1024x20_1_0_0_1_n_n none L R (ix2 r q)).trans ?_
  refine (Equiv.sum_comp (contrEquiv1 dot_S1024x2048_S2048x20_S1024x20_1_0_0_1_n_n 2048 rfl rfl).symm _).symm.trans ?_
  refine Finset.sum_congr rfl fun e _ => ?_
  refine congrArg₂ (· * ·) (congrArg L ?_) (congrArg R ?_)
  · exact Shape.idx_ext₂ (lhs_scat_row _ _)
      ((lhs_scat_col _ _).trans (contrEquiv1_symm_val dot_S1024x2048_S2048x20_S1024x20_1_0_0_1_n_n 2048 rfl rfl e))
  · exact Shape.idx_ext₂
      ((rhs_scat_row _ _).trans (contrEquiv1_symm_val dot_S1024x2048_S2048x20_S1024x20_1_0_0_1_n_n 2048 rfl rfl e))
      (rhs_scat_col _ _)

theorem lhs_res_row (j : S1024x20.Idx) (k : dot_S1024x20_S20x20_S1024x20_1_0_0_1_n_n.contr.Idx) :
    (dot_S1024x20_S20x20_S1024x20_1_0_0_1_n_n.lhsIdx j k 0).val = (j 0).val := by
  unfold DotDims.lhsIdx
  rw [dif_neg (show ¬(0 : Fin S1024x20.rank) ∈ dot_S1024x20_S20x20_S1024x20_1_0_0_1_n_n.lhsBatch from by decide),
    dif_pos (show (0 : Fin S1024x20.rank) ∈ dot_S1024x20_S20x20_S1024x20_1_0_0_1_n_n.lhsNonContracting from by decide)]
  rfl

theorem lhs_res_col (j : S1024x20.Idx) (k : dot_S1024x20_S20x20_S1024x20_1_0_0_1_n_n.contr.Idx) :
    (dot_S1024x20_S20x20_S1024x20_1_0_0_1_n_n.lhsIdx j k 1).val = (k ⟨0, by decide⟩).val :=
  dot_S1024x20_S20x20_S1024x20_1_0_0_1_n_n.lhsIdx_val_of_single (cl := 1) rfl j k

theorem rhs_res_row (j : S1024x20.Idx) (k : dot_S1024x20_S20x20_S1024x20_1_0_0_1_n_n.contr.Idx) :
    (dot_S1024x20_S20x20_S1024x20_1_0_0_1_n_n.rhsIdx j k 0).val = (k ⟨0, by decide⟩).val :=
  dot_S1024x20_S20x20_S1024x20_1_0_0_1_n_n.rhsIdx_val_of_single (cr := 0) rfl j k

theorem rhs_res_col (j : S1024x20.Idx) (k : dot_S1024x20_S20x20_S1024x20_1_0_0_1_n_n.contr.Idx) :
    (dot_S1024x20_S20x20_S1024x20_1_0_0_1_n_n.rhsIdx j k 1).val = (j 1).val := by
  unfold DotDims.rhsIdx
  rw [dif_neg (show ¬(1 : Fin S20x20.rank) ∈ dot_S1024x20_S20x20_S1024x20_1_0_0_1_n_n.rhsBatch from by decide),
    dif_pos (show (1 : Fin S20x20.rank) ∈ dot_S1024x20_S20x20_S1024x20_1_0_0_1_n_n.rhsNonContracting from by decide)]
  rfl

theorem res_matmul_apply (L : FVec Ideal S1024x20 .bf16) (R : FVec Ideal S20x20 .bf16) (r : Fin 1024) (q : Fin 0x14) :
    matmul dot_S1024x20_S20x20_S1024x20_1_0_0_1_n_n none L R (constant S1024x20 .f32 0x00000000#32) (ix2 r q)
      = ∑ p : Fin 0x14, L (ix2 r p) * R (ix2 p q) := by
  refine (Ideal.matmul_constant_zero_apply dot_S1024x20_S20x20_S1024x20_1_0_0_1_n_n none L R (ix2 r q)).trans ?_
  refine (Equiv.sum_comp (contrEquiv1 dot_S1024x20_S20x20_S1024x20_1_0_0_1_n_n 0x14 rfl rfl).symm _).symm.trans ?_
  refine Finset.sum_congr rfl fun p _ => ?_
  refine congrArg₂ (· * ·) (congrArg L ?_) (congrArg R ?_)
  · exact Shape.idx_ext₂ (lhs_res_row _ _)
      ((lhs_res_col _ _).trans (contrEquiv1_symm_val dot_S1024x20_S20x20_S1024x20_1_0_0_1_n_n 0x14 rfl rfl p))
  · exact Shape.idx_ext₂
      ((rhs_res_row _ _).trans (contrEquiv1_symm_val dot_S1024x20_S20x20_S1024x20_1_0_0_1_n_n 0x14 rfl rfl p))
      (rhs_res_col _ _)

theorem dstRow_apply (d : Vec Ideal S2048 .i32) (r : Fin 1024) (e : Fin 2048) :
    broadcastTo S1024x2048 (shapeCast S1x2048 (shapeCast S2048 d shapeCasts_S2048_S2048) shapeCasts_S2048_S1x2048)
      broadcasts_S1x2048_S1024x2048 (ix2 r e) = d (ix1 e) := by
  rw [shapeCast_self]
  refine (broadcastTo_apply _ broadcasts_S1x2048_S1024x2048 (ix2 r e) (ix2 (0 : Fin 1) e) (fun a => ?_)).trans ?_
  · match a with
    | ⟨0, _⟩ => rfl
    | ⟨1, _⟩ => rfl
  · refine shapeCast_apply d shapeCasts_S2048_S1x2048 (ix2 (0 : Fin 1) e) (ix1 e) ?_
    rw [Shape.rowMajor_val_one, Shape.rowMajor_val_two]
    show e.val = 0 * 2048 + e.val
    omega

theorem biasRow_apply (b : Vec Ideal S20 .f32) (r : Fin 1024) (q : Fin 0x14) :
    broadcastTo S1024x20 (shapeCast _ b shapeCasts_S20_S1x20) broadcasts_S1x20_S1024x20 (ix2 r q) = b (ix1 q) := by
  refine (broadcastTo_apply _ broadcasts_S1x20_S1024x20 (ix2 r q) (ix2 (0 : Fin 1) q) (fun a => ?_)).trans ?_
  · match a with
    | ⟨0, _⟩ => rfl
    | ⟨1, _⟩ =>
      show q.val = if (0x14 : ℕ) = 1 then 0 else q.val
      have := q.isLt
      split <;> omega
  · refine shapeCast_apply b shapeCasts_S20_S1x20 (ix2 (0 : Fin 1) q) (ix1 q) ?_
    rw [Shape.rowMajor_val_one, Shape.rowMajor_val_two]
    show q.val = 0 * 0x14 + q.val
    omega

theorem reset_apply (j : S1024x20.Idx) : (k3_pay1 (F := Ideal)) j = 0 := by
  unfold k3_pay1
  refine (congrFun (shapeCast_self _ _) j).trans ?_
  exact Ideal.ofBits_zero_f32

theorem step_apply (i : grid3.Coords) (d : Vec Ideal S2048 .i32) (mg : Vec Ideal S2048x20 .f32) (acc : Vec Ideal S1024x20 .f32)
    (r : Fin 1024) (q : Fin 0x14) :
    k3_pay2 i d mg acc (ix2 r q) = acc (ix2 r q)
      + ∑ e : Fin 2048, (if BitVec.ofNat 32 (1024 * (i 0).val + r.val) = d (ix1 e) then (1 : EReal) else 0) * mg (ix2 e q) := by
  unfold k3_pay2
  refine (congrFun (shapeCast_self _ _) (ix2 r q)).trans ?_
  show acc (ix2 r q) + matmul (F := Ideal) dot_S1024x2048_S2048x20_S1024x20_1_0_0_1_n_n none _ _ (constant (F := Ideal) S1024x20 .f32 0x00000000#32) (ix2 r q) = _
  refine congrArg (acc (ix2 r q) + ·) ?_
  refine (scat_matmul_apply _ _ r q).trans ?_
  refine Finset.sum_congr rfl fun e _ => ?_
  refine congrArg₂ (· * ·) ?_ ?_
  · have hi : iota .tc S1024x2048 32 [0] iota_S1024x2048_d0_w32 (ix2 r e) = BitVec.ofNat 32 r.val :=
      iota_single_apply .tc S1024x2048 32 0 iota_S1024x2048_d0_w32 (ix2 r e)
    have hd := dstRow_apply d r e
    show (FloatOps.sitofp .f32 ((IntOp.cmpi .eq
        (IntOp.addi (Scalar.muli (BitVec.ofNat 32 (i 0).val) 1024#32) (iota .tc S1024x2048 32 [0] iota_S1024x2048_d0_w32 (ix2 r e)))
        (broadcastTo S1024x2048 (shapeCast S1x2048 (shapeCast S2048 d shapeCasts_S2048_S2048) shapeCasts_S2048_S1x2048)
          broadcasts_S1x2048_S1024x2048 (ix2 r e))).setWidth 32) : Ideal .f32) = _
    rw [hi, hd, node_word, oh_word]
  · exact congrFun (shapeCast_self mg shapeCasts_S2048x20_S2048x20) (ix2 e q)

theorem last_apply (xb : Vec Ideal S1024x20 .f32) (wb : Vec Ideal S20x20 .f32) (bb : Vec Ideal S20 .f32) (acc : Vec Ideal S1024x20 .f32)
    (r : Fin 1024) (q : Fin 0x14) :
    k3_pay3 xb wb bb acc (ix2 r q)
      = Cert.Spec.act relu3 (acc (ix2 r q) + ((∑ p : Fin 0x14, xb (ix2 r p) * wb (ix2 p q)) + bb (ix1 q))) := by
  unfold k3_pay3
  refine (post3_apply _ (ix2 r q)).trans ?_
  refine congrArg (Cert.Spec.act relu3) ?_
  show acc (ix2 r q)
      + (matmul (F := Ideal) dot_S1024x20_S20x20_S1024x20_1_0_0_1_n_n none (truncf (F := Ideal) .bf16 (shapeCast S1024x20 xb shapeCasts_S1024x20_S1024x20) bitsLt_bf16_f32)
            (truncf (F := Ideal) .bf16 wb bitsLt_bf16_f32) (constant (F := Ideal) S1024x20 .f32 0x00000000#32) (ix2 r q)
          + broadcastTo S1024x20 (shapeCast _ bb shapeCasts_S20_S1x20) broadcasts_S1x20_S1024x20 (ix2 r q)) = _
  rw [shapeCast_self, res_matmul_apply, biasRow_apply]
  rfl

end P3

end Cert.KernelIdeal.Hand

end
-- ==== Proof.KI.V3.lean ====
import proofs.«415925_j84189948936386_1_alg».proof.Proof.KI.R3Dat
import proofs.«415925_j84189948936386_1_alg».proof.Proof.KI.P3
import proofs.«415925_j84189948936386_1_alg».proof.Proof.KI.Post3
import proofs.«415925_j84189948936386_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

namespace R3

open P3

section Value

variable (V : (c : Dev nD) → (b : Ref sig .tc) → Buf (Elt Ideal) ((c : Thread nD τ).loc b))

abbrev dstArr (c : Dev nD) : S401408.Idx → BitVec 32 := V c (Pipeline.arrRef spec3 0)

abbrev msgArr (c : Dev nD) : S401408x20.Idx → Ideal .f32 := V c (Pipeline.arrRef spec3 1)

abbrev xArr (c : Dev nD) : S25600x20.Idx → Ideal .f32 := V c (Pipeline.arrRef spec3 2)

abbrev w1Arr (c : Dev nD) : S20x20.Idx → Ideal .f32 := V c (Pipeline.arrRef spec3 3)

abbrev b1Arr (c : Dev nD) : S20.Idx → Ideal .f32 := V c (Pipeline.arrRef spec3 4)

abbrev dstBlk (c : Dev nD) (t : Fin cfg3.N) : Vec Ideal S2048 .i32 := iblk3 V c 0 t
abbrev msgBlk (c : Dev nD) (t : Fin cfg3.N) : Vec Ideal S2048x20 .f32 := iblk3 V c 1 t
abbrev xBlk (c : Dev nD) (t : Fin cfg3.N) : Vec Ideal S1024x20 .f32 := iblk3 V c 2 t
abbrev w1Blk (c : Dev nD) (t : Fin cfg3.N) : Vec Ideal S20x20 .f32 := iblk3 V c 3 t
abbrev b1Blk (c : Dev nD) (t : Fin cfg3.N) : Vec Ideal S20 .f32 := iblk3 V c 4 t

theorem lt_N1 (t : Fin cfg3.N) : t.val < 4900 := by
  have h : t.val < grid3.N := t.isLt
  rw [N_3] at h
  exact h

theorem coords3_0 (t : Fin cfg3.N) : ((grid3.coords t) 0).val = t.val / 196 := by
  have ht := lt_N1 t
  show t.val / grid3.stride 0 % 25 = t.val / 196
  rw [show grid3.stride 0 = 196 from by decide]
  omega

theorem coords3_1 (t : Fin cfg3.N) : ((grid3.coords t) 1).val = t.val % 196 := by
  show t.val / grid3.stride 1 % 196 = t.val % 196
  rw [show grid3.stride 1 = 1 from by decide, Nat.div_one]

theorem toNat_ofNat_small {n : ℕ} (h : n < 4900) : (BitVec.ofNat 32 n).toNat = n := by
  rw [BitVec.toNat_ofNat]
  omega

theorem idx_dst (t : Fin cfg3.N) : win3_0.index t 0 = t.val % 196 := by
  show (BitVec.ofNat 32 ((grid3.coords t) 1).val).toNat = t.val % 196
  rw [coords3_1]
  exact toNat_ofNat_small (by omega)

theorem idx_msg (t : Fin cfg3.N) : win3_1.index t 0 = t.val % 196 ∧ win3_1.index t 1 = 0 := by
  refine ⟨?_, rfl⟩
  show (BitVec.ofNat 32 ((grid3.coords t) 1).val).toNat = t.val % 196
  rw [coords3_1]
  exact toNat_ofNat_small (by omega)

theorem idx_x (t : Fin cfg3.N) : win3_2.index t 0 = t.val / 196 ∧ win3_2.index t 1 = 0 := by
  have ht := lt_N1 t
  refine ⟨?_, rfl⟩
  show (BitVec.ofNat 32 ((grid3.coords t) 0).val).toNat = t.val / 196
  rw [coords3_0]
  exact toNat_ofNat_small (by omega)

theorem idx_out (t : Fin cfg3.N) : win3_5.index t 0 = t.val / 196 ∧ win3_5.index t 1 = 0 := by
  have ht := lt_N1 t
  refine ⟨?_, rfl⟩
  show (BitVec.ofNat 32 ((grid3.coords t) 0).val).toNat = t.val / 196
  rw [coords3_0]
  exact toNat_ofNat_small (by omega)

theorem idx_w1 (t : Fin cfg3.N) : win3_3.index t 0 = 0 ∧ win3_3.index t 1 = 0 := ⟨rfl, rfl⟩
theorem idx_b1 (t : Fin cfg3.N) : win3_4.index t 0 = 0 := rfl

theorem dstBlk_apply (c : Dev nD) (t : Fin cfg3.N) (e : Fin 2048) (k : S401408.Idx)
    (hk : (k 0).val = 2048 * (t.val % 196) + e.val) : dstBlk V c t (ix1 e) = dstArr V c k := by
  show ((cfg3.win 0).blk t).view.read (Elt Ideal) (V c (Pipeline.arrRef spec3 0)) (ix1 e) = V c (Pipeline.arrRef spec3 0) k
  rw [View.read_apply]
  show V c (Pipeline.arrRef spec3 0) (((cfg3.win 0).blk t).view.emb (ix1 e)) = V c (Pipeline.arrRef spec3 0) k
  refine congrArg _ (funext fun a => Fin.ext ?_)
  match a with
  | ⟨0, _⟩ =>
    show win3_0.index t 0 * 2048 + 1 * e.val = (k 0).val
    rw [idx_dst, hk]; omega

theorem msgBlk_apply (c : Dev nD) (t : Fin cfg3.N) (e : Fin 2048) (q : Fin 0x14) (k : S401408x20.Idx)
    (hk0 : (k 0).val = 2048 * (t.val % 196) + e.val) (hk1 : (k 1).val = q.val) :
    msgBlk V c t (ix2 e q) = msgArr V c k := by
  show ((cfg3.win 1).blk t).view.read (Elt Ideal) (V c (Pipeline.arrRef spec3 1)) (ix2 e q) = V c (Pipeline.arrRef spec3 1) k
  rw [View.read_apply]
  show V c (Pipeline.arrRef spec3 1) (((cfg3.win 1).blk t).view.emb (ix2 e q)) = V c (Pipeline.arrRef spec3 1) k
  refine congrArg _ (funext fun a => Fin.ext ?_)
  match a with
  | ⟨0, _⟩ =>
    show win3_1.index t 0 * 2048 + 1 * e.val = (k 0).val
    rw [(idx_msg t).1, hk0]; omega
  | ⟨1, _⟩ =>
    show win3_1.index t 1 * 0x14 + 1 * q.val = (k 1).val
    rw [(idx_msg t).2, hk1]; omega

theorem xBlk_apply (c : Dev nD) (t : Fin cfg3.N) (r : Fin 1024) (p : Fin 0x14) (k : S25600x20.Idx)
    (hk0 : (k 0).val = 1024 * (t.val / 196) + r.val) (hk1 : (k 1).val = p.val) :
    xBlk V c t (ix2 r p) = xArr V c k := by
  show ((cfg3.win 2).blk t).view.read (Elt Ideal) (V c (Pipeline.arrRef spec3 2)) (ix2 r p) = V c (Pipeline.arrRef spec3 2) k
  rw [View.read_apply]
  show V c (Pipeline.arrRef spec3 2) (((cfg3.win 2).blk t).view.emb (ix2 r p)) = V c (Pipeline.arrRef spec3 2) k
  refine congrArg _ (funext fun a => Fin.ext ?_)
  match a with
  | ⟨0, _⟩ =>
    show win3_2.index t 0 * 1024 + 1 * r.val = (k 0).val
    rw [(idx_x t).1, hk0]; omega
  | ⟨1, _⟩ =>
    show win3_2.index t 1 * 0x14 + 1 * p.val = (k 1).val
    rw [(idx_x t).2, hk1]; omega

theorem w1Blk_apply (c : Dev nD) (t : Fin cfg3.N) (p : Fin 0x14) (q : Fin 0x14) :
    w1Blk V c t (ix2 p q) = w1Arr V c (ix2 p q) := by
  show ((cfg3.win 3).blk t).view.read (Elt Ideal) (V c (Pipeline.arrRef spec3 3)) (ix2 p q) = V c (Pipeline.arrRef spec3 3) (ix2 p q)
  rw [View.read_apply]
  show V c (Pipeline.arrRef spec3 3) (((cfg3.win 3).blk t).view.emb (ix2 p q)) = V c (Pipeline.arrRef spec3 3) (ix2 p q)
  refine congrArg _ (funext fun a => Fin.ext ?_)
  match a with
  | ⟨0, _⟩ =>
    show win3_3.index t 0 * 0x14 + 1 * p.val = p.val
    rw [(idx_w1 t).1]; omega
  | ⟨1, _⟩ =>
    show win3_3.index t 1 * 0x14 + 1 * q.val = q.val
    rw [(idx_w1 t).2]; omega

theorem b1Blk_apply (c : Dev nD) (t : Fin cfg3.N) (q : Fin 0x14) : b1Blk V c t (ix1 q) = b1Arr V c (ix1 q) := by
  show ((cfg3.win 4).blk t).view.read (Elt Ideal) (V c (Pipeline.arrRef spec3 4)) (ix1 q) = V c (Pipeline.arrRef spec3 4) (ix1 q)
  rw [View.read_apply]
  show V c (Pipeline.arrRef spec3 4) (((cfg3.win 4).blk t).view.emb (ix1 q)) = V c (Pipeline.arrRef spec3 4) (ix1 q)
  refine congrArg _ (funext fun a => Fin.ext ?_)
  match a with
  | ⟨0, _⟩ =>
    show win3_4.index t 0 * 0x14 + 1 * q.val = q.val
    rw [idx_b1 t]; omega

end Value

section Run

variable (V : (c : Dev nD) → (b : Ref sig .tc) → Buf (Elt Ideal) ((c : Thread nD τ).loc b))

theorem step_eq (c : Dev nD) (t : Fin cfg3.N) (r : Fin 1024) (q : Fin 0x14) (A : EReal)
    (hA : A = Cert.Spec.segSumBelow (Cert.Spec.vec (dstArr V c)) (fun e => Cert.Spec.mat (msgArr V c) e q)
      (2048 * (t.val % 196)) (1024 * (t.val / 196) + r.val)) :
    A + ∑ e : Fin 2048, (if BitVec.ofNat 32 (1024 * (t.val / 196) + r.val) = dstBlk V c t (ix1 e) then (1 : EReal) else 0)
          * msgBlk V c t (ix2 e q)
      = Cert.Spec.segSumBelow (Cert.Spec.vec (dstArr V c)) (fun e => Cert.Spec.mat (msgArr V c) e q)
          (2048 * (t.val % 196 + 1)) (1024 * (t.val / 196) + r.val) := by
  have ht := lt_N1 t
  rw [hA]
  have hstep := Cert.Spec.segSumBelow_step (Cert.Spec.vec (dstArr V c)) (fun e => Cert.Spec.mat (msgArr V c) e q)
    (2048 * (t.val % 196)) 2048 (1024 * (t.val / 196) + r.val) (by omega) (by omega)
  have e1 : 2048 * (t.val % 196 + 1) = 2048 * (t.val % 196) + 2048 := by omega
  rw [e1, ← hstep]
  refine congrArg₂ (· + ·) rfl (Finset.sum_congr rfl fun e _ => ?_)
  have h1 : dstBlk V c t (ix1 e)
      = Cert.Spec.vec (dstArr V c) ⟨2048 * (t.val % 196) + e.val, by have := e.isLt; omega⟩ :=
    dstBlk_apply V c t e _ rfl
  have h2 : msgBlk V c t (ix2 e q)
      = Cert.Spec.mat (msgArr V c) ⟨2048 * (t.val % 196) + e.val, by have := e.isLt; omega⟩ q :=
    msgBlk_apply V c t e q _ rfl rfl
  rw [h1, h2]

theorem acc_eq (c : Dev nD) : ∀ (n : ℕ) (h : n < cfg3.N) (r : Fin 1024) (q : Fin 0x14),
    sc3 V c n h (ix2 r q)
      = Cert.Spec.segSumBelow (Cert.Spec.vec (dstArr V c)) (fun e => Cert.Spec.mat (msgArr V c) e q)
          (2048 * (n % 196 + 1)) (1024 * (n / 196) + r.val) := by
  intro n
  induction n with
  | zero =>
    intro h r q
    have hsc := sc3_eq V c ⟨0, h⟩
    rw [if_pos (show (⟨0, h⟩ : Fin cfg3.N).val % 196 = 0 from rfl)] at hsc
    refine (congrFun hsc (ix2 r q)).trans ?_
    refine (step_apply (grid3.coords ⟨0, h⟩) (dstBlk V c ⟨0, h⟩) (msgBlk V c ⟨0, h⟩) (k3_pay1 (F := Ideal)) r q).trans ?_
    rw [reset_apply, coords3_0]
    exact step_eq V c ⟨0, h⟩ r q 0 (Cert.Spec.segSumBelow_zero _ _ _).symm
  | succ n ih =>
    intro h r q
    have hsc := sc3_eq V c ⟨n + 1, h⟩
    by_cases h0 : (n + 1) % 196 = 0
    · rw [if_pos (show (⟨n + 1, h⟩ : Fin cfg3.N).val % 196 = 0 from h0)] at hsc
      refine (congrFun hsc (ix2 r q)).trans ?_
      refine (step_apply (grid3.coords ⟨n + 1, h⟩) (dstBlk V c ⟨n + 1, h⟩) (msgBlk V c ⟨n + 1, h⟩) (k3_pay1 (F := Ideal)) r q).trans ?_
      rw [reset_apply, coords3_0]
      refine step_eq V c ⟨n + 1, h⟩ r q 0 ?_
      show (0 : EReal) = Cert.Spec.segSumBelow _ _ (2048 * ((n + 1) % 196)) _
      rw [h0]
      exact (Cert.Spec.segSumBelow_zero _ _ _).symm
    · rw [if_neg (show ¬(⟨n + 1, h⟩ : Fin cfg3.N).val % 196 = 0 from h0)] at hsc
      refine (congrFun hsc (ix2 r q)).trans ?_
      refine (step_apply (grid3.coords ⟨n + 1, h⟩) (dstBlk V c ⟨n + 1, h⟩) (msgBlk V c ⟨n + 1, h⟩)
        (sc3 V c n (Nat.lt_of_succ_lt h)) r q).trans ?_
      rw [coords3_0]
      refine step_eq V c ⟨n + 1, h⟩ r q _ ?_
      rw [ih (Nat.lt_of_succ_lt h) r q]
      show Cert.Spec.segSumBelow _ _ (2048 * (n % 196 + 1)) (1024 * (n / 196) + r.val)
        = Cert.Spec.segSumBelow _ _ (2048 * ((n + 1) % 196)) (1024 * ((n + 1) / 196) + r.val)
      have e1 : n % 196 + 1 = (n + 1) % 196 := by omega
      have e2 : n / 196 = (n + 1) / 196 := by omega
      rw [e1, e2]

abbrev outArr (c : Dev nD) : S25600x20.Idx → Ideal .f32 := fun i =>
  Cert.Spec.scatterOut relu3 (Cert.Spec.vec (dstArr V c)) (Cert.Spec.mat (msgArr V c)) (Cert.Spec.mat (xArr V c))
    (Cert.Spec.mat (w1Arr V c)) (Cert.Spec.vec (b1Arr V c)) (i 0) (i 1)

theorem out_emb (t : Fin cfg3.N) (r : Fin 1024) (q : Fin 0x14) :
    (((cfg3.win 5).blk t).view.emb (ix2 r q) : S25600x20.Idx)
      = ix2 ⟨1024 * (t.val / 196) + r.val, by have := lt_N1 t; have := r.isLt; omega⟩ q := by
  refine funext fun a => Fin.ext ?_
  match a with
  | ⟨0, _⟩ =>
    show win3_5.index t 0 * 1024 + 1 * r.val = 1024 * (t.val / 196) + r.val
    rw [(idx_out t).1]; omega
  | ⟨1, _⟩ =>
    show win3_5.index t 1 * 0x14 + 1 * q.val = q.val
    rw [(idx_out t).2]; omega

theorem idx_out_eq (t : Fin cfg3.N) : win3_5.index t = ![t.val / 196, 0] := by
  refine funext fun a => ?_
  match a with
  | ⟨0, _⟩ => exact (idx_out t).1
  | ⟨1, _⟩ => exact (idx_out t).2

theorem flush_out_iff (t : Fin cfg3.N) : (cfg3.win 5).flush t = true ↔ t.val % 196 = 195 := by
  have ht := lt_N1 t
  show win3_5.flush t = true ↔ _
  unfold Window.flush
  rw [show win3_5.isOut = true from rfl, Bool.true_and, Bool.or_eq_true, decide_eq_true_eq, decide_eq_true_eq]
  show (t.val + 1 = grid3.N ∨ ∃ h : t.val + 1 < grid3.N, win3_5.index ⟨t.val + 1, h⟩ ≠ win3_5.index t) ↔ _
  constructor
  · rintro (h | ⟨h, hne⟩)
    · rw [N_3] at h; omega
    · rw [N_3] at h
      by_contra hc
      refine hne ?_
      rw [idx_out_eq, idx_out_eq]
      show ![(t.val + 1) / 196, 0] = ![t.val / 196, 0]
      rw [show (t.val + 1) / 196 = t.val / 196 from by omega]
  · intro h
    by_cases hl : t.val + 1 = 4900
    · exact Or.inl (by rw [N_3]; exact hl)
    · refine Or.inr ⟨by rw [N_3]; omega, ?_⟩
      rw [idx_out_eq, idx_out_eq]
      intro he
      have h0 : (t.val + 1) / 196 = t.val / 196 := congrFun he 0
      omega

theorem flushed_eq (c : Dev nD) (t : Fin cfg3.N) (hf : (cfg3.win 5).flush t = true) :
    (dat3 V c).flushed 5 t = ((cfg3.win 5).blk t).view.read (Elt Ideal) (outArr V c) := by
  have h195 : t.val % 196 = 195 := (flush_out_iff t).mp hf
  have ht := lt_N1 t
  show (cfg3.win 5).cut (grid3.coords t) ((dat3 V c).after 5 t) = _
  rw [after3_5_flush V c t h195]
  refine funext fun (j : S1024x20.Idx) => ?_
  obtain ⟨r, q, rfl⟩ : ∃ (r : Fin 1024) (q : Fin 0x14), j = ix2 r q := ⟨j 0, j 1, eq_ix2 j⟩
  rw [View.read_apply]
  show k3_pay3 (xBlk V c t) (w1Blk V c t) (b1Blk V c t) (sc3 V c t.val t.isLt) (ix2 r q)
    = outArr V c (((cfg3.win 5).blk t).view.emb (ix2 r q))
  refine (last_apply (xBlk V c t) (w1Blk V c t) (b1Blk V c t) (sc3 V c t.val t.isLt) r q).trans ?_
  rw [acc_eq V c t.val t.isLt r q, show 2048 * (t.val % 196 + 1) = 401408 from by omega, Cert.Spec.segSumBelow_all, out_emb t r q]
  show _ = Cert.Spec.act relu3 (Cert.Spec.segSum (Cert.Spec.vec (dstArr V c)) (fun e => Cert.Spec.mat (msgArr V c) e q) (1024 * (t.val / 196) + r.val)
      + ((∑ p : Fin 0x14, Cert.Spec.mat (xArr V c) ⟨1024 * (t.val / 196) + r.val, by have := r.isLt; omega⟩ p
            * Cert.Spec.mat (w1Arr V c) p q)
          + Cert.Spec.vec (b1Arr V c) q))
  refine congrArg (Cert.Spec.act relu3) (congrArg₂ (· + ·) rfl (congrArg₂ (· + ·) (Finset.sum_congr rfl fun p _ => ?_) ?_))
  · have hx : xBlk V c t (ix2 r p)
        = Cert.Spec.mat (xArr V c) ⟨1024 * (t.val / 196) + r.val, by have := r.isLt; omega⟩ p :=
      xBlk_apply V c t r p _ rfl rfl
    have hw : w1Blk V c t (ix2 p q) = Cert.Spec.mat (w1Arr V c) p q := w1Blk_apply V c t p q
    rw [hx, hw]
  · exact b1Blk_apply V c t q

theorem covered (i : S25600x20.Idx) :
    ∃ t : Fin cfg3.N, (cfg3.win 5).flush t = true ∧ i ∈ ((cfg3.win 5).blk t).view.set := by
  have h0 : (i 0).val < 25600 := (i 0).isLt
  have h1 : (i 1).val < 0x14 := (i 1).isLt
  have hlt : (i 0).val / 1024 * 196 + 195 < cfg3.N := by
    show _ < grid3.N
    rw [N_3]; omega
  refine ⟨⟨(i 0).val / 1024 * 196 + 195, hlt⟩, (flush_out_iff _).mpr (by show ((i 0).val / 1024 * 196 + 195) % 196 = 195; omega), ?_⟩
  show i ∈ ((View.whole (Pipeline.arrRef spec3 5)).slice (win3_5.rect ⟨(i 0).val / 1024 * 196 + 195, hlt⟩)).set
  rw [View.set_slice_whole, Rect.mem_set_unit]
  intro a
  match a with
  | ⟨0, _⟩ =>
    show win3_5.index ⟨(i 0).val / 1024 * 196 + 195, hlt⟩ 0 * 1024 ≤ (i 0).val
      ∧ (i 0).val < win3_5.index ⟨(i 0).val / 1024 * 196 + 195, hlt⟩ 0 * 1024 + 1024
    rw [(idx_out ⟨(i 0).val / 1024 * 196 + 195, hlt⟩).1]
    show ((i 0).val / 1024 * 196 + 195) / 196 * 1024 ≤ (i 0).val ∧ (i 0).val < ((i 0).val / 1024 * 196 + 195) / 196 * 1024 + 1024
    omega
  | ⟨1, _⟩ =>
    show win3_5.index ⟨(i 0).val / 1024 * 196 + 195, hlt⟩ 1 * 0x14 ≤ (i 1).val
      ∧ (i 1).val < win3_5.index ⟨(i 0).val / 1024 * 196 + 195, hlt⟩ 1 * 0x14 + 0x14
    rw [(idx_out ⟨(i 0).val / 1024 * 196 + 195, hlt⟩).2]
    omega

end Run

end R3

section Value

variable (V : (c : Dev nD) → (b : Ref sig .tc) → Buf (Elt Ideal) ((c : Thread nD τ).loc b))

theorem out3_value (c : Dev nD) :
    (dat3 (F := Ideal) V c).arrAt 5 cfg3.N = fun i =>
      Cert.Spec.scatterOut R3.relu3
        (Cert.Spec.vec (V c (Pipeline.arrRef spec3 0) : S401408.Idx → BitVec 32))
        (Cert.Spec.mat (V c (Pipeline.arrRef spec3 1) : S401408x20.Idx → Ideal .f32))
        (Cert.Spec.mat (V c (Pipeline.arrRef spec3 2) : S25600x20.Idx → Ideal .f32))
        (Cert.Spec.mat (V c (Pipeline.arrRef spec3 3) : S20x20.Idx → Ideal .f32))
        (Cert.Spec.vec (V c (Pipeline.arrRef spec3 4) : S20.Idx → Ideal .f32)) (i 0) (i 1) :=
  (dat3 (F := Ideal) V c).arrAt_eq_of_cover 5 (R3.outArr V c) (R3.flushed_eq V c) R3.covered

end Value

end Cert.KernelIdeal.Hand

end
-- ==== Proof.KI.V4.lean ====
import proofs.«415925_j84189948936386_1_alg».proof.Proof.KI.R4Dat
import proofs.«415925_j84189948936386_1_alg».proof.Proof.KI.P2
import proofs.«415925_j84189948936386_1_alg».proof.Proof.Spec
import Idealize.ShloMosaic.Lib.Pipeline.FrameBody
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

namespace R4

open P2

section Generic
variable {F : FTy → Type} [FloatOps F]
variable (V : (c : Dev nD) → (b : Ref sig .tc) → Buf (Elt F) ((c : Thread nD τ).loc b))

abbrev srcA (c : Dev nD) : Vec F S401408 .i32 := V c (Pipeline.arrRef spec4 0)
abbrev dstA (c : Dev nD) : Vec F S401408 .i32 := V c (Pipeline.arrRef spec4 1)
abbrev xA (c : Dev nD) : Vec F S25600x20 .f32 := V c (Pipeline.arrRef spec4 2)
abbrev Wm1A (c : Dev nD) : Vec F S40x200 .f32 := V c (Pipeline.arrRef spec4 3)
abbrev bm1A (c : Dev nD) : Vec F S200 .f32 := V c (Pipeline.arrRef spec4 4)
abbrev Wm2A (c : Dev nD) : Vec F S200x20 .f32 := V c (Pipeline.arrRef spec4 5)
abbrev bm2A (c : Dev nD) : Vec F S20 .f32 := V c (Pipeline.arrRef spec4 6)
abbrev W2A (c : Dev nD) : Vec F S20x20 .f32 := V c (Pipeline.arrRef spec4 7)
abbrev b2A (c : Dev nD) : Vec F S20 .f32 := V c (Pipeline.arrRef spec4 8)

abbrev srcB (c : Dev nD) (t : Fin cfg4.N) : Vec F S2048 .i32 := iblk4 V c 0 t
abbrev dstB (c : Dev nD) (t : Fin cfg4.N) : Vec F S2048 .i32 := iblk4 V c 1 t
abbrev xB (c : Dev nD) (t : Fin cfg4.N) : Vec F S1024x20 .f32 := iblk4 V c 2 t
abbrev Wm1B (c : Dev nD) (t : Fin cfg4.N) : Vec F S40x200 .f32 := iblk4 V c 3 t
abbrev bm1B (c : Dev nD) (t : Fin cfg4.N) : Vec F S200 .f32 := iblk4 V c 4 t
abbrev Wm2B (c : Dev nD) (t : Fin cfg4.N) : Vec F S200x20 .f32 := iblk4 V c 5 t
abbrev bm2B (c : Dev nD) (t : Fin cfg4.N) : Vec F S20 .f32 := iblk4 V c 6 t
abbrev W2B (c : Dev nD) (t : Fin cfg4.N) : Vec F S20x20 .f32 := iblk4 V c 7 t
abbrev b2B (c : Dev nD) (t : Fin cfg4.N) : Vec F S20 .f32 := iblk4 V c 8 t

theorem lt_N0 (t : Fin cfg4.N) : t.val < 4900 := by
  have h : t.val < cfg4.N := t.isLt
  have e : cfg4.N = 4900 := N_4
  omega

theorem coords4_0 (t : Fin cfg4.N) : ((grid4.coords t) 0).val = t.val / 25 := by
  have h := lt_N0 t
  show t.val / grid4.stride 0 % 196 = _
  rw [show grid4.stride 0 = 25 from by decide]
  omega

theorem coords4_1 (t : Fin cfg4.N) : ((grid4.coords t) 1).val = t.val % 25 := by
  show t.val / grid4.stride 1 % 25 = _
  rw [show grid4.stride 1 = 1 from by decide]
  omega

theorem toNat_ofNat32 (n : Nat) (h : n < 4294967296) : (BitVec.ofNat 32 n).toNat = n := by
  rw [BitVec.toNat_ofNat]
  exact Nat.mod_eq_of_lt h

theorem index0_0 (t : Fin cfg4.N) : win4_0.index t 0 = t.val / 25 := by
  have h := lt_N0 t
  show (BitVec.ofNat 32 ((grid4.coords t) 0).val).toNat = _
  rw [coords4_0, toNat_ofNat32 _ (by omega)]
theorem index0_1 (t : Fin cfg4.N) : win4_1.index t 0 = t.val / 25 := by
  have h := lt_N0 t
  show (BitVec.ofNat 32 ((grid4.coords t) 0).val).toNat = _
  rw [coords4_0, toNat_ofNat32 _ (by omega)]
theorem index0_2 (t : Fin cfg4.N) : win4_2.index t 0 = t.val % 25 ∧ win4_2.index t 1 = 0 := by
  refine ⟨?_, rfl⟩
  show (BitVec.ofNat 32 ((grid4.coords t) 1).val).toNat = _
  rw [coords4_1, toNat_ofNat32 _ (by omega)]
theorem index0_9 (t : Fin cfg4.N) : win4_9.index t 0 = t.val / 25 ∧ win4_9.index t 1 = 0 := by
  have h := lt_N0 t
  refine ⟨?_, rfl⟩
  show (BitVec.ofNat 32 ((grid4.coords t) 0).val).toNat = _
  rw [coords4_0, toNat_ofNat32 _ (by omega)]

theorem flush9_iff (t : Fin cfg4.N) : (cfg4.win 9).flush t = true ↔ t.val % 25 = 24 := by
  have hN : grid4.N = 4900 := N_4
  have ht := lt_N0 t
  show win4_9.flush t = true ↔ _
  unfold Pipeline.Window.flush
  simp only [Bool.and_eq_true, Bool.or_eq_true, decide_eq_true_eq]
  constructor
  · rintro ⟨-, h | ⟨h, hne⟩⟩
    · omega
    · by_contra hc
      apply hne
      funext a
      match a with
      | ⟨0, _⟩ =>
        show win4_9.index ⟨t.val + 1, h⟩ 0 = win4_9.index t 0
        rw [(index0_9 ⟨t.val + 1, h⟩).1, (index0_9 t).1]
        show (t.val + 1) / 25 = t.val / 25
        omega
      | ⟨1, _⟩ =>
        show win4_9.index ⟨t.val + 1, h⟩ 1 = win4_9.index t 1
        rw [(index0_9 ⟨t.val + 1, h⟩).2, (index0_9 t).2]
  · intro h24
    refine ⟨trivial, ?_⟩
    by_cases hl : t.val + 1 = grid4.N
    · exact Or.inl hl
    · have hlt : t.val + 1 < grid4.N := by omega
      refine Or.inr ⟨hlt, fun he => ?_⟩
      have h0 := congrFun he 0
      rw [(index0_9 ⟨t.val + 1, hlt⟩).1, (index0_9 t).1] at h0
      have h0' : (t.val + 1) / 25 = t.val / 25 := h0
      omega

theorem srcB_apply (c : Dev nD) (t : Fin cfg4.N) (r : Fin 2048) (e : Fin 401408) (he : e.val = 2048 * (t.val / 25) + r.val) :
    srcB V c t (ix1 r) = srcA V c (ix1 e) := by
  unfold srcB iblk4
  rw [View.read_apply]
  show V c _ _ = V c _ _
  congr 1
  funext a
  apply Fin.ext
  match a with
  | ⟨0, _⟩ => show win4_0.index t 0 * 2048 + 1 * r.val = e.val; rw [index0_0, he]; omega

theorem dstB_apply (c : Dev nD) (t : Fin cfg4.N) (r : Fin 2048) (e : Fin 401408) (he : e.val = 2048 * (t.val / 25) + r.val) :
    dstB V c t (ix1 r) = dstA V c (ix1 e) := by
  unfold dstB iblk4
  rw [View.read_apply]
  show V c _ _ = V c _ _
  congr 1
  funext a
  apply Fin.ext
  match a with
  | ⟨0, _⟩ => show win4_1.index t 0 * 2048 + 1 * r.val = e.val; rw [index0_1, he]; omega

theorem xB_apply (c : Dev nD) (t : Fin cfg4.N) (k : Fin 1024) (z : Fin 0x14) (n : Fin 25600) (hn : n.val = 1024 * (t.val % 25) + k.val) :
    xB V c t (ix2 k z) = xA V c (ix2 n z) := by
  unfold xB iblk4
  rw [View.read_apply]
  show V c _ _ = V c _ _
  congr 1
  funext a
  apply Fin.ext
  match a with
  | ⟨0, _⟩ => show win4_2.index t 0 * 1024 + 1 * k.val = n.val; rw [(index0_2 t).1, hn]; omega
  | ⟨1, _⟩ => show win4_2.index t 1 * 0x14 + 1 * z.val = z.val; rw [(index0_2 t).2]; omega

theorem Wm1B_eq (c : Dev nD) (t : Fin cfg4.N) : Wm1B V c t = Wm1A V c := by
  funext j
  unfold Wm1B iblk4
  rw [View.read_apply]
  show V c _ _ = V c _ _
  congr 1
  funext a
  apply Fin.ext
  match a with
  | ⟨0, _⟩ => show 0 * (0x14 + 0x14) + 1 * (j 0).val = (j 0).val; omega
  | ⟨1, _⟩ => show 0 * 200 + 1 * (j 1).val = (j 1).val; omega
theorem bm1B_eq (c : Dev nD) (t : Fin cfg4.N) : bm1B V c t = bm1A V c := by
  funext j
  unfold bm1B iblk4
  rw [View.read_apply]
  show V c _ _ = V c _ _
  congr 1
  funext a
  apply Fin.ext
  match a with
  | ⟨0, _⟩ => show 0 * 200 + 1 * (j 0).val = (j 0).val; omega
theorem Wm2B_eq (c : Dev nD) (t : Fin cfg4.N) : Wm2B V c t = Wm2A V c := by
  funext j
  unfold Wm2B iblk4
  rw [View.read_apply]
  show V c _ _ = V c _ _
  congr 1
  funext a
  apply Fin.ext
  match a with
  | ⟨0, _⟩ => show 0 * 200 + 1 * (j 0).val = (j 0).val; omega
  | ⟨1, _⟩ => show 0 * 0x14 + 1 * (j 1).val = (j 1).val; omega
theorem bm2B_eq (c : Dev nD) (t : Fin cfg4.N) : bm2B V c t = bm2A V c := by
  funext j
  unfold bm2B iblk4
  rw [View.read_apply]
  show V c _ _ = V c _ _
  congr 1
  funext a
  apply Fin.ext
  match a with
  | ⟨0, _⟩ => show 0 * 0x14 + 1 * (j 0).val = (j 0).val; omega
theorem W2B_eq (c : Dev nD) (t : Fin cfg4.N) : W2B V c t = W2A V c := by
  funext j
  unfold W2B iblk4
  rw [View.read_apply]
  show V c _ _ = V c _ _
  congr 1
  funext a
  apply Fin.ext
  match a with
  | ⟨0, _⟩ => show 0 * 0x14 + 1 * (j 0).val = (j 0).val; omega
  | ⟨1, _⟩ => show 0 * 0x14 + 1 * (j 1).val = (j 1).val; omega
theorem b2B_eq (c : Dev nD) (t : Fin cfg4.N) : b2B V c t = b2A V c := by
  funext j
  unfold b2B iblk4
  rw [View.read_apply]
  show V c _ _ = V c _ _
  congr 1
  funext a
  apply Fin.ext
  match a with
  | ⟨0, _⟩ => show 0 * 0x14 + 1 * (j 0).val = (j 0).val; omega

end Generic

section AtIdeal
variable (V : (c : Dev nD) → (b : Ref sig .tc) → Buf (Elt Ideal) ((c : Thread nD τ).loc b))

abbrev xcol (c : Dev nD) (z : Fin 0x14) : Fin 25600 → EReal := fun n => xA V c (ix2 n z)

theorem acc_step (c : Dev nD) (t : Fin cfg4.N) (idx : Vec Ideal S2048 .i32) (w : BitVec 32) (r : Fin 2048) (z : Fin 0x14)
    (hw : idx (ix1 r) = w) (prev : Vec Ideal S2048x20 .f32)
    (hprev : prev (ix2 r z) = Spec.gatherBelow (xcol V c z) (1024 * (t.val % 25)) w) :
    k2_pay6 (F := Ideal) (grid4.coords t) idx (xB V c t) prev (ix2 r z)
      = Spec.gatherBelow (xcol V c z) (1024 * (t.val % 25) + 1024) w := by
  have h25 : t.val % 25 < 25 := Nat.mod_lt _ (by decide)
  refine (pay6_apply (grid4.coords t) idx (xB V c t) prev r z).trans ?_
  rw [hprev, hw, coords4_1,
    ← Spec.gatherBelow_step (xcol V c z) (1024 * (t.val % 25)) 1024 (by omega) (by norm_num) w]
  refine congrArg (Spec.gatherBelow (xcol V c z) (1024 * (t.val % 25)) w + ·) (Finset.sum_congr rfl fun k _ => ?_)
  refine congrArg (fun y : EReal => (if BitVec.ofNat 32 (1024 * (t.val % 25) + k.val) = w then (1 : EReal) else 0) * y) ?_
  exact xB_apply V c t k z ⟨1024 * (t.val % 25) + k.val, by have := k.isLt; omega⟩ rfl

theorem scI4_val (c : Dev nD) : ∀ (n : ℕ) (h : n < cfg4.N) (r : Fin 2048) (z : Fin 0x14) (e : Fin 401408),
    e.val = 2048 * (n / 25) + r.val →
    scI4 V c n h (ix2 r z) = Spec.gatherBelow (xcol V c z) (1024 * (n % 25) + 1024) (dstA V c (ix1 e)) := by
  intro n
  induction n with
  | zero =>
    intro h r z e he
    refine (congrFun (scI4_eq V c ⟨0, h⟩) (ix2 r z)).trans ?_
    refine acc_step V c ⟨0, h⟩ (dstB V c ⟨0, h⟩) (dstA V c (ix1 e)) r z (dstB_apply V c ⟨0, h⟩ r e he) _ ?_
    show k2_pay2 (F := Ideal) (ix2 r z) = _
    rw [pay2_apply]
    exact (Spec.gatherBelow_zero _ _).symm
  | succ m ih =>
    intro h r z e he
    refine (congrFun (scI4_eq V c ⟨m + 1, h⟩) (ix2 r z)).trans ?_
    refine acc_step V c ⟨m + 1, h⟩ (dstB V c ⟨m + 1, h⟩) (dstA V c (ix1 e)) r z (dstB_apply V c ⟨m + 1, h⟩ r e he) _ ?_
    by_cases h0 : (m + 1) % 25 = 0
    · show (if (m + 1) % 25 = 0 then k2_pay2 (F := Ideal) else _) (ix2 r z) = _
      rw [if_pos h0, pay2_apply]
      show (0 : EReal) = Spec.gatherBelow (xcol V c z) (1024 * ((m + 1) % 25)) _
      rw [h0]
      exact (Spec.gatherBelow_zero _ _).symm
    · show (if (m + 1) % 25 = 0 then k2_pay2 (F := Ideal) else scI4 V c m _) (ix2 r z) = _
      rw [if_neg h0]
      have := ih (by omega) r z e (by omega)
      show _ = Spec.gatherBelow (xcol V c z) (1024 * ((m + 1) % 25)) _
      rw [show 1024 * ((m + 1) % 25) = 1024 * (m % 25) + 1024 from by omega]
      exact this

theorem scJ4_val (c : Dev nD) : ∀ (n : ℕ) (h : n < cfg4.N) (r : Fin 2048) (z : Fin 0x14) (e : Fin 401408),
    e.val = 2048 * (n / 25) + r.val →
    scJ4 V c n h (ix2 r z) = Spec.gatherBelow (xcol V c z) (1024 * (n % 25) + 1024) (srcA V c (ix1 e)) := by
  intro n
  induction n with
  | zero =>
    intro h r z e he
    refine (congrFun (scJ4_eq V c ⟨0, h⟩) (ix2 r z)).trans ?_
    refine acc_step V c ⟨0, h⟩ (srcB V c ⟨0, h⟩) (srcA V c (ix1 e)) r z (srcB_apply V c ⟨0, h⟩ r e he) _ ?_
    show k2_pay2 (F := Ideal) (ix2 r z) = _
    rw [pay2_apply]
    exact (Spec.gatherBelow_zero _ _).symm
  | succ m ih =>
    intro h r z e he
    refine (congrFun (scJ4_eq V c ⟨m + 1, h⟩) (ix2 r z)).trans ?_
    refine acc_step V c ⟨m + 1, h⟩ (srcB V c ⟨m + 1, h⟩) (srcA V c (ix1 e)) r z (srcB_apply V c ⟨m + 1, h⟩ r e he) _ ?_
    by_cases h0 : (m + 1) % 25 = 0
    · show (if (m + 1) % 25 = 0 then k2_pay2 (F := Ideal) else _) (ix2 r z) = _
      rw [if_pos h0, pay2_apply]
      show (0 : EReal) = Spec.gatherBelow (xcol V c z) (1024 * ((m + 1) % 25)) _
      rw [h0]
      exact (Spec.gatherBelow_zero _ _).symm
    · show (if (m + 1) % 25 = 0 then k2_pay2 (F := Ideal) else scJ4 V c m _) (ix2 r z) = _
      rw [if_neg h0]
      have := ih (by omega) r z e (by omega)
      show _ = Spec.gatherBelow (xcol V c z) (1024 * ((m + 1) % 25)) _
      rw [show 1024 * ((m + 1) % 25) = 1024 * (m % 25) + 1024 from by omega]
      exact this

theorem scI4_last (c : Dev nD) (t : Fin cfg4.N) (h24 : t.val % 25 = 24) (r : Fin 2048) (z : Fin 0x14) (e : Fin 401408)
    (he : e.val = 2048 * (t.val / 25) + r.val) :
    scI4 V c t.val t.isLt (ix2 r z) = Spec.gatherAt (xcol V c z) (dstA V c (ix1 e)) := by
  rw [scI4_val V c t.val t.isLt r z e he, h24]
  exact Spec.gatherBelow_all _ _
theorem scJ4_last (c : Dev nD) (t : Fin cfg4.N) (h24 : t.val % 25 = 24) (r : Fin 2048) (z : Fin 0x14) (e : Fin 401408)
    (he : e.val = 2048 * (t.val / 25) + r.val) :
    scJ4 V c t.val t.isLt (ix2 r z) = Spec.gatherAt (xcol V c z) (srcA V c (ix1 e)) := by
  rw [scJ4_val V c t.val t.isLt r z e he, h24]
  exact Spec.gatherBelow_all _ _

def G0 (c : Dev nD) : Vec Ideal S401408x20 .f32 := fun i =>
  Spec.gatherMsg (cin := 0x14) (Spec.vec (srcA V c)) (Spec.vec (dstA V c)) (Spec.mat (xA V c)) (Spec.mat (Wm1A V c))
    (Spec.vec (bm1A V c)) (Spec.mat (Wm2A V c)) (Spec.vec (bm2A V c)) (Spec.mat (W2A V c)) (Spec.vec (b2A V c)) (i 0) (i 1)

theorem flushed_eq (c : Dev nD) (t : Fin cfg4.N) (hf : (cfg4.win 9).flush t = true) :
    (dat4 V c).flushed 9 t = ((cfg4.win 9).blk t).view.read (Elt Ideal) (G0 V c) := by
  have h24 : t.val % 25 = 24 := (flush9_iff t).mp hf
  have hN := lt_N0 t
  show (cfg4.win 9).cut (grid4.coords t) ((dat4 V c).after 9 t) = _
  rw [after4_9_flush V c t h24]
  refine funext fun (j : S2048x20.Idx) => ?_
  obtain ⟨r, o, rfl⟩ : ∃ (r : Fin 2048) (o : Fin 0x14), j = ix2 r o := ⟨j 0, j 1, eq_ix2 j⟩
  have hr := r.isLt
  rw [View.read_apply]
  show k2_pay1 (F := Ideal) (scI4 V c t.val t.isLt) (scJ4 V c t.val t.isLt) (Wm1B V c t) (bm1B V c t) (Wm2B V c t)
      (bm2B V c t) (W2B V c t) (b2B V c t) (ix2 r o) = G0 V c (((cfg4.win 9).blk t).view.emb (ix2 r o))
  rw [Wm1B_eq, bm1B_eq, Wm2B_eq, bm2B_eq, W2B_eq, b2B_eq]
  refine (pay1_apply _ _ _ _ _ _ _ _ r o).trans ?_

  have he : (⟨2048 * (t.val / 25) + r.val, by omega⟩ : Fin 401408).val = 2048 * (t.val / 25) + r.val := rfl
  have hxi : (fun k : Fin 0x14 => scI4 V c t.val t.isLt (ix2 r k))
      = fun k => Spec.gatherAt (fun n => Spec.mat (xA V c) n k) (Spec.vec (dstA V c) ⟨2048 * (t.val / 25) + r.val, by omega⟩) :=
    funext fun k => scI4_last V c t h24 r k _ he
  have hxj : (fun k : Fin 0x14 => scJ4 V c t.val t.isLt (ix2 r k))
      = fun k => Spec.gatherAt (fun n => Spec.mat (xA V c) n k) (Spec.vec (srcA V c) ⟨2048 * (t.val / 25) + r.val, by omega⟩) :=
    funext fun k => scJ4_last V c t h24 r k _ he
  rw [hxi, hxj]
  unfold G0 Spec.gatherMsg
  have e0 : (((cfg4.win 9).blk t).view.emb (ix2 r o)) 0 = (⟨2048 * (t.val / 25) + r.val, by omega⟩ : Fin 401408) := by
    apply Fin.ext
    show win4_9.index t 0 * 2048 + 1 * r.val = 2048 * (t.val / 25) + r.val
    rw [(index0_9 t).1]; omega
  have e1 : (((cfg4.win 9).blk t).view.emb (ix2 r o)) 1 = o := by
    apply Fin.ext
    show win4_9.index t 1 * 0x14 + 1 * o.val = o.val
    rw [(index0_9 t).2]; omega
  rw [e0, e1]

theorem mem_blk9 (t : Fin cfg4.N) (i : S401408x20.Idx) :
    i ∈ ((cfg4.win 9).blk t).view.set ↔ ∀ a : Fin 2, win4_9.index t a * S2048x20.size a ≤ (i a).val
      ∧ (i a).val < win4_9.index t a * S2048x20.size a + S2048x20.size a := by
  show i ∈ ((View.whole main_v11).slice (win4_9.rect t)).set ↔ _
  rw [View.set_slice_whole, Rect.mem_set_unit]
  exact Iff.rfl

end AtIdeal

end R4

theorem out4_value (V : (c : Dev nD) → (b : Ref sig .tc) → Buf (Elt Ideal) ((c : Thread nD τ).loc b)) (c : Dev nD) :
    (dat4 V c).arrAt 9 cfg4.N = R4.G0 V c :=
  (dat4 V c).arrAt_eq_of_cover 9 (R4.G0 V c) (R4.flushed_eq V c) fun i => by
    have hi0 : (i 0).val < 401408 := (i 0).isLt
    have hi1 : (i 1).val < 0x14 := (i 1).isLt
    have hlt : (i 0).val / 2048 * 25 + 24 < cfg4.N := by rw [show cfg4.N = 4900 from N_4]; omega
    refine ⟨⟨(i 0).val / 2048 * 25 + 24, hlt⟩, (R4.flush9_iff _).mpr (by show ((i 0).val / 2048 * 25 + 24) % 25 = 24; omega), ?_⟩
    have q := R4.index0_9 ⟨(i 0).val / 2048 * 25 + 24, hlt⟩
    refine (R4.mem_blk9 ⟨(i 0).val / 2048 * 25 + 24, hlt⟩ i).mpr ?_
    intro a
    match a with
    | ⟨0, _⟩ =>
      show win4_9.index _ 0 * 2048 ≤ (i 0).val ∧ (i 0).val < win4_9.index _ 0 * 2048 + 2048
      rw [q.1]
      show ((i 0).val / 2048 * 25 + 24) / 25 * 2048 ≤ (i 0).val ∧ (i 0).val < ((i 0).val / 2048 * 25 + 24) / 25 * 2048 + 2048
      omega
    | ⟨1, _⟩ =>
      show win4_9.index _ 1 * 0x14 ≤ (i 1).val ∧ (i 1).val < win4_9.index _ 1 * 0x14 + 0x14
      rw [q.2]
      omega

end Cert.KernelIdeal.Hand

end
-- ==== Proof.KI.Post5.lean ====
import proofs.«415925_j84189948936386_1_alg».proof.Proof.Gen.KernelIdeal.Skeleton
import proofs.«415925_j84189948936386_1_alg».proof.Proof.Spec
import Idealize.ShloMosaic.PureOps.Ideal.Laws

noncomputable section

namespace Cert.KernelIdeal.Hand.R5

open Cert.KernelIdeal Cert.KernelIdeal.Gen Idealize.ShloMosaic

abbrev relu5 : Bool := true

theorem post5_apply (v : FVec Ideal S1024x20 .f32) (j : S1024x20.Idx) :
    maximumf v (broadcast S1024x20 (Scalar.ofBits (F := Ideal) .f32 0x00000000#32)) j = Cert.Spec.act relu5 (v j) := by
  show max (v j) (Ideal.ofBits .f32 0x00000000#32) = max (v j) 0
  rw [Ideal.ofBits_zero_f32]

end Cert.KernelIdeal.Hand.R5

end
-- ==== Proof.KI.V5.lean ====
import proofs.«415925_j84189948936386_1_alg».proof.Proof.KI.R5Dat
import proofs.«415925_j84189948936386_1_alg».proof.Proof.KI.P3
import proofs.«415925_j84189948936386_1_alg».proof.Proof.KI.Post5
import proofs.«415925_j84189948936386_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

namespace R5

open P3

section Value

variable (V : (c : Dev nD) → (b : Ref sig .tc) → Buf (Elt Ideal) ((c : Thread nD τ).loc b))

abbrev dstArr (c : Dev nD) : S401408.Idx → BitVec 32 := V c (Pipeline.arrRef spec5 0)

abbrev msgArr (c : Dev nD) : S401408x20.Idx → Ideal .f32 := V c (Pipeline.arrRef spec5 1)

abbrev xArr (c : Dev nD) : S25600x20.Idx → Ideal .f32 := V c (Pipeline.arrRef spec5 2)

abbrev w1Arr (c : Dev nD) : S20x20.Idx → Ideal .f32 := V c (Pipeline.arrRef spec5 3)

abbrev b1Arr (c : Dev nD) : S20.Idx → Ideal .f32 := V c (Pipeline.arrRef spec5 4)

abbrev dstBlk (c : Dev nD) (t : Fin cfg5.N) : Vec Ideal S2048 .i32 := iblk5 V c 0 t
abbrev msgBlk (c : Dev nD) (t : Fin cfg5.N) : Vec Ideal S2048x20 .f32 := iblk5 V c 1 t
abbrev xBlk (c : Dev nD) (t : Fin cfg5.N) : Vec Ideal S1024x20 .f32 := iblk5 V c 2 t
abbrev w1Blk (c : Dev nD) (t : Fin cfg5.N) : Vec Ideal S20x20 .f32 := iblk5 V c 3 t
abbrev b1Blk (c : Dev nD) (t : Fin cfg5.N) : Vec Ideal S20 .f32 := iblk5 V c 4 t

theorem lt_N1 (t : Fin cfg5.N) : t.val < 4900 := by
  have h : t.val < grid5.N := t.isLt
  rw [N_5] at h
  exact h

theorem coords5_0 (t : Fin cfg5.N) : ((grid5.coords t) 0).val = t.val / 196 := by
  have ht := lt_N1 t
  show t.val / grid5.stride 0 % 25 = t.val / 196
  rw [show grid5.stride 0 = 196 from by decide]
  omega

theorem coords5_1 (t : Fin cfg5.N) : ((grid5.coords t) 1).val = t.val % 196 := by
  show t.val / grid5.stride 1 % 196 = t.val % 196
  rw [show grid5.stride 1 = 1 from by decide, Nat.div_one]

theorem toNat_ofNat_small {n : ℕ} (h : n < 4900) : (BitVec.ofNat 32 n).toNat = n := by
  rw [BitVec.toNat_ofNat]
  omega

theorem idx_dst (t : Fin cfg5.N) : win5_0.index t 0 = t.val % 196 := by
  show (BitVec.ofNat 32 ((grid5.coords t) 1).val).toNat = t.val % 196
  rw [coords5_1]
  exact toNat_ofNat_small (by omega)

theorem idx_msg (t : Fin cfg5.N) : win5_1.index t 0 = t.val % 196 ∧ win5_1.index t 1 = 0 := by
  refine ⟨?_, rfl⟩
  show (BitVec.ofNat 32 ((grid5.coords t) 1).val).toNat = t.val % 196
  rw [coords5_1]
  exact toNat_ofNat_small (by omega)

theorem idx_x (t : Fin cfg5.N) : win5_2.index t 0 = t.val / 196 ∧ win5_2.index t 1 = 0 := by
  have ht := lt_N1 t
  refine ⟨?_, rfl⟩
  show (BitVec.ofNat 32 ((grid5.coords t) 0).val).toNat = t.val / 196
  rw [coords5_0]
  exact toNat_ofNat_small (by omega)

theorem idx_out (t : Fin cfg5.N) : win5_5.index t 0 = t.val / 196 ∧ win5_5.index t 1 = 0 := by
  have ht := lt_N1 t
  refine ⟨?_, rfl⟩
  show (BitVec.ofNat 32 ((grid5.coords t) 0).val).toNat = t.val / 196
  rw [coords5_0]
  exact toNat_ofNat_small (by omega)

theorem idx_w1 (t : Fin cfg5.N) : win5_3.index t 0 = 0 ∧ win5_3.index t 1 = 0 := ⟨rfl, rfl⟩
theorem idx_b1 (t : Fin cfg5.N) : win5_4.index t 0 = 0 := rfl

theorem dstBlk_apply (c : Dev nD) (t : Fin cfg5.N) (e : Fin 2048) (k : S401408.Idx)
    (hk : (k 0).val = 2048 * (t.val % 196) + e.val) : dstBlk V c t (ix1 e) = dstArr V c k := by
  show ((cfg5.win 0).blk t).view.read (Elt Ideal) (V c (Pipeline.arrRef spec5 0)) (ix1 e) = V c (Pipeline.arrRef spec5 0) k
  rw [View.read_apply]
  show V c (Pipeline.arrRef spec5 0) (((cfg5.win 0).blk t).view.emb (ix1 e)) = V c (Pipeline.arrRef spec5 0) k
  refine congrArg _ (funext fun a => Fin.ext ?_)
  match a with
  | ⟨0, _⟩ =>
    show win5_0.index t 0 * 2048 + 1 * e.val = (k 0).val
    rw [idx_dst, hk]; omega

theorem msgBlk_apply (c : Dev nD) (t : Fin cfg5.N) (e : Fin 2048) (q : Fin 0x14) (k : S401408x20.Idx)
    (hk0 : (k 0).val = 2048 * (t.val % 196) + e.val) (hk1 : (k 1).val = q.val) :
    msgBlk V c t (ix2 e q) = msgArr V c k := by
  show ((cfg5.win 1).blk t).view.read (Elt Ideal) (V c (Pipeline.arrRef spec5 1)) (ix2 e q) = V c (Pipeline.arrRef spec5 1) k
  rw [View.read_apply]
  show V c (Pipeline.arrRef spec5 1) (((cfg5.win 1).blk t).view.emb (ix2 e q)) = V c (Pipeline.arrRef spec5 1) k
  refine congrArg _ (funext fun a => Fin.ext ?_)
  match a with
  | ⟨0, _⟩ =>
    show win5_1.index t 0 * 2048 + 1 * e.val = (k 0).val
    rw [(idx_msg t).1, hk0]; omega
  | ⟨1, _⟩ =>
    show win5_1.index t 1 * 0x14 + 1 * q.val = (k 1).val
    rw [(idx_msg t).2, hk1]; omega

theorem xBlk_apply (c : Dev nD) (t : Fin cfg5.N) (r : Fin 1024) (p : Fin 0x14) (k : S25600x20.Idx)
    (hk0 : (k 0).val = 1024 * (t.val / 196) + r.val) (hk1 : (k 1).val = p.val) :
    xBlk V c t (ix2 r p) = xArr V c k := by
  show ((cfg5.win 2).blk t).view.read (Elt Ideal) (V c (Pipeline.arrRef spec5 2)) (ix2 r p) = V c (Pipeline.arrRef spec5 2) k
  rw [View.read_apply]
  show V c (Pipeline.arrRef spec5 2) (((cfg5.win 2).blk t).view.emb (ix2 r p)) = V c (Pipeline.arrRef spec5 2) k
  refine congrArg _ (funext fun a => Fin.ext ?_)
  match a with
  | ⟨0, _⟩ =>
    show win5_2.index t 0 * 1024 + 1 * r.val = (k 0).val
    rw [(idx_x t).1, hk0]; omega
  | ⟨1, _⟩ =>
    show win5_2.index t 1 * 0x14 + 1 * p.val = (k 1).val
    rw [(idx_x t).2, hk1]; omega

theorem w1Blk_apply (c : Dev nD) (t : Fin cfg5.N) (p : Fin 0x14) (q : Fin 0x14) :
    w1Blk V c t (ix2 p q) = w1Arr V c (ix2 p q) := by
  show ((cfg5.win 3).blk t).view.read (Elt Ideal) (V c (Pipeline.arrRef spec5 3)) (ix2 p q) = V c (Pipeline.arrRef spec5 3) (ix2 p q)
  rw [View.read_apply]
  show V c (Pipeline.arrRef spec5 3) (((cfg5.win 3).blk t).view.emb (ix2 p q)) = V c (Pipeline.arrRef spec5 3) (ix2 p q)
  refine congrArg _ (funext fun a => Fin.ext ?_)
  match a with
  | ⟨0, _⟩ =>
    show win5_3.index t 0 * 0x14 + 1 * p.val = p.val
    rw [(idx_w1 t).1]; omega
  | ⟨1, _⟩ =>
    show win5_3.index t 1 * 0x14 + 1 * q.val = q.val
    rw [(idx_w1 t).2]; omega

theorem b1Blk_apply (c : Dev nD) (t : Fin cfg5.N) (q : Fin 0x14) : b1Blk V c t (ix1 q) = b1Arr V c (ix1 q) := by
  show ((cfg5.win 4).blk t).view.read (Elt Ideal) (V c (Pipeline.arrRef spec5 4)) (ix1 q) = V c (Pipeline.arrRef spec5 4) (ix1 q)
  rw [View.read_apply]
  show V c (Pipeline.arrRef spec5 4) (((cfg5.win 4).blk t).view.emb (ix1 q)) = V c (Pipeline.arrRef spec5 4) (ix1 q)
  refine congrArg _ (funext fun a => Fin.ext ?_)
  match a with
  | ⟨0, _⟩ =>
    show win5_4.index t 0 * 0x14 + 1 * q.val = q.val
    rw [idx_b1 t]; omega

end Value

section Run

variable (V : (c : Dev nD) → (b : Ref sig .tc) → Buf (Elt Ideal) ((c : Thread nD τ).loc b))

theorem step_eq (c : Dev nD) (t : Fin cfg5.N) (r : Fin 1024) (q : Fin 0x14) (A : EReal)
    (hA : A = Cert.Spec.segSumBelow (Cert.Spec.vec (dstArr V c)) (fun e => Cert.Spec.mat (msgArr V c) e q)
      (2048 * (t.val % 196)) (1024 * (t.val / 196) + r.val)) :
    A + ∑ e : Fin 2048, (if BitVec.ofNat 32 (1024 * (t.val / 196) + r.val) = dstBlk V c t (ix1 e) then (1 : EReal) else 0)
          * msgBlk V c t (ix2 e q)
      = Cert.Spec.segSumBelow (Cert.Spec.vec (dstArr V c)) (fun e => Cert.Spec.mat (msgArr V c) e q)
          (2048 * (t.val % 196 + 1)) (1024 * (t.val / 196) + r.val) := by
  have ht := lt_N1 t
  rw [hA]
  have hstep := Cert.Spec.segSumBelow_step (Cert.Spec.vec (dstArr V c)) (fun e => Cert.Spec.mat (msgArr V c) e q)
    (2048 * (t.val % 196)) 2048 (1024 * (t.val / 196) + r.val) (by omega) (by omega)
  have e1 : 2048 * (t.val % 196 + 1) = 2048 * (t.val % 196) + 2048 := by omega
  rw [e1, ← hstep]
  refine congrArg₂ (· + ·) rfl (Finset.sum_congr rfl fun e _ => ?_)
  have h1 : dstBlk V c t (ix1 e)
      = Cert.Spec.vec (dstArr V c) ⟨2048 * (t.val % 196) + e.val, by have := e.isLt; omega⟩ :=
    dstBlk_apply V c t e _ rfl
  have h2 : msgBlk V c t (ix2 e q)
      = Cert.Spec.mat (msgArr V c) ⟨2048 * (t.val % 196) + e.val, by have := e.isLt; omega⟩ q :=
    msgBlk_apply V c t e q _ rfl rfl
  rw [h1, h2]

theorem acc_eq (c : Dev nD) : ∀ (n : ℕ) (h : n < cfg5.N) (r : Fin 1024) (q : Fin 0x14),
    sc5 V c n h (ix2 r q)
      = Cert.Spec.segSumBelow (Cert.Spec.vec (dstArr V c)) (fun e => Cert.Spec.mat (msgArr V c) e q)
          (2048 * (n % 196 + 1)) (1024 * (n / 196) + r.val) := by
  intro n
  induction n with
  | zero =>
    intro h r q
    have hsc := sc5_eq V c ⟨0, h⟩
    rw [if_pos (show (⟨0, h⟩ : Fin cfg5.N).val % 196 = 0 from rfl)] at hsc
    refine (congrFun hsc (ix2 r q)).trans ?_
    refine (step_apply (grid5.coords ⟨0, h⟩) (dstBlk V c ⟨0, h⟩) (msgBlk V c ⟨0, h⟩) (k3_pay1 (F := Ideal)) r q).trans ?_
    rw [reset_apply, coords5_0]
    exact step_eq V c ⟨0, h⟩ r q 0 (Cert.Spec.segSumBelow_zero _ _ _).symm
  | succ n ih =>
    intro h r q
    have hsc := sc5_eq V c ⟨n + 1, h⟩
    by_cases h0 : (n + 1) % 196 = 0
    · rw [if_pos (show (⟨n + 1, h⟩ : Fin cfg5.N).val % 196 = 0 from h0)] at hsc
      refine (congrFun hsc (ix2 r q)).trans ?_
      refine (step_apply (grid5.coords ⟨n + 1, h⟩) (dstBlk V c ⟨n + 1, h⟩) (msgBlk V c ⟨n + 1, h⟩) (k3_pay1 (F := Ideal)) r q).trans ?_
      rw [reset_apply, coords5_0]
      refine step_eq V c ⟨n + 1, h⟩ r q 0 ?_
      show (0 : EReal) = Cert.Spec.segSumBelow _ _ (2048 * ((n + 1) % 196)) _
      rw [h0]
      exact (Cert.Spec.segSumBelow_zero _ _ _).symm
    · rw [if_neg (show ¬(⟨n + 1, h⟩ : Fin cfg5.N).val % 196 = 0 from h0)] at hsc
      refine (congrFun hsc (ix2 r q)).trans ?_
      refine (step_apply (grid5.coords ⟨n + 1, h⟩) (dstBlk V c ⟨n + 1, h⟩) (msgBlk V c ⟨n + 1, h⟩)
        (sc5 V c n (Nat.lt_of_succ_lt h)) r q).trans ?_
      rw [coords5_0]
      refine step_eq V c ⟨n + 1, h⟩ r q _ ?_
      rw [ih (Nat.lt_of_succ_lt h) r q]
      show Cert.Spec.segSumBelow _ _ (2048 * (n % 196 + 1)) (1024 * (n / 196) + r.val)
        = Cert.Spec.segSumBelow _ _ (2048 * ((n + 1) % 196)) (1024 * ((n + 1) / 196) + r.val)
      have e1 : n % 196 + 1 = (n + 1) % 196 := by omega
      have e2 : n / 196 = (n + 1) / 196 := by omega
      rw [e1, e2]

abbrev outArr (c : Dev nD) : S25600x20.Idx → Ideal .f32 := fun i =>
  Cert.Spec.scatterOut relu5 (Cert.Spec.vec (dstArr V c)) (Cert.Spec.mat (msgArr V c)) (Cert.Spec.mat (xArr V c))
    (Cert.Spec.mat (w1Arr V c)) (Cert.Spec.vec (b1Arr V c)) (i 0) (i 1)

theorem out_emb (t : Fin cfg5.N) (r : Fin 1024) (q : Fin 0x14) :
    (((cfg5.win 5).blk t).view.emb (ix2 r q) : S25600x20.Idx)
      = ix2 ⟨1024 * (t.val / 196) + r.val, by have := lt_N1 t; have := r.isLt; omega⟩ q := by
  refine funext fun a => Fin.ext ?_
  match a with
  | ⟨0, _⟩ =>
    show win5_5.index t 0 * 1024 + 1 * r.val = 1024 * (t.val / 196) + r.val
    rw [(idx_out t).1]; omega
  | ⟨1, _⟩ =>
    show win5_5.index t 1 * 0x14 + 1 * q.val = q.val
    rw [(idx_out t).2]; omega

theorem idx_out_eq (t : Fin cfg5.N) : win5_5.index t = ![t.val / 196, 0] := by
  refine funext fun a => ?_
  match a with
  | ⟨0, _⟩ => exact (idx_out t).1
  | ⟨1, _⟩ => exact (idx_out t).2

theorem flush_out_iff (t : Fin cfg5.N) : (cfg5.win 5).flush t = true ↔ t.val % 196 = 195 := by
  have ht := lt_N1 t
  show win5_5.flush t = true ↔ _
  unfold Window.flush
  rw [show win5_5.isOut = true from rfl, Bool.true_and, Bool.or_eq_true, decide_eq_true_eq, decide_eq_true_eq]
  show (t.val + 1 = grid5.N ∨ ∃ h : t.val + 1 < grid5.N, win5_5.index ⟨t.val + 1, h⟩ ≠ win5_5.index t) ↔ _
  constructor
  · rintro (h | ⟨h, hne⟩)
    · rw [N_5] at h; omega
    · rw [N_5] at h
      by_contra hc
      refine hne ?_
      rw [idx_out_eq, idx_out_eq]
      show ![(t.val + 1) / 196, 0] = ![t.val / 196, 0]
      rw [show (t.val + 1) / 196 = t.val / 196 from by omega]
  · intro h
    by_cases hl : t.val + 1 = 4900
    · exact Or.inl (by rw [N_5]; exact hl)
    · refine Or.inr ⟨by rw [N_5]; omega, ?_⟩
      rw [idx_out_eq, idx_out_eq]
      intro he
      have h0 : (t.val + 1) / 196 = t.val / 196 := congrFun he 0
      omega

theorem flushed_eq (c : Dev nD) (t : Fin cfg5.N) (hf : (cfg5.win 5).flush t = true) :
    (dat5 V c).flushed 5 t = ((cfg5.win 5).blk t).view.read (Elt Ideal) (outArr V c) := by
  have h195 : t.val % 196 = 195 := (flush_out_iff t).mp hf
  have ht := lt_N1 t
  show (cfg5.win 5).cut (grid5.coords t) ((dat5 V c).after 5 t) = _
  rw [after5_5_flush V c t h195]
  refine funext fun (j : S1024x20.Idx) => ?_
  obtain ⟨r, q, rfl⟩ : ∃ (r : Fin 1024) (q : Fin 0x14), j = ix2 r q := ⟨j 0, j 1, eq_ix2 j⟩
  rw [View.read_apply]
  show k3_pay3 (xBlk V c t) (w1Blk V c t) (b1Blk V c t) (sc5 V c t.val t.isLt) (ix2 r q)
    = outArr V c (((cfg5.win 5).blk t).view.emb (ix2 r q))
  refine (last_apply (xBlk V c t) (w1Blk V c t) (b1Blk V c t) (sc5 V c t.val t.isLt) r q).trans ?_
  rw [acc_eq V c t.val t.isLt r q, show 2048 * (t.val % 196 + 1) = 401408 from by omega, Cert.Spec.segSumBelow_all, out_emb t r q]
  show _ = Cert.Spec.act relu5 (Cert.Spec.segSum (Cert.Spec.vec (dstArr V c)) (fun e => Cert.Spec.mat (msgArr V c) e q) (1024 * (t.val / 196) + r.val)
      + ((∑ p : Fin 0x14, Cert.Spec.mat (xArr V c) ⟨1024 * (t.val / 196) + r.val, by have := r.isLt; omega⟩ p
            * Cert.Spec.mat (w1Arr V c) p q)
          + Cert.Spec.vec (b1Arr V c) q))
  refine congrArg (Cert.Spec.act relu5) (congrArg₂ (· + ·) rfl (congrArg₂ (· + ·) (Finset.sum_congr rfl fun p _ => ?_) ?_))
  · have hx : xBlk V c t (ix2 r p)
        = Cert.Spec.mat (xArr V c) ⟨1024 * (t.val / 196) + r.val, by have := r.isLt; omega⟩ p :=
      xBlk_apply V c t r p _ rfl rfl
    have hw : w1Blk V c t (ix2 p q) = Cert.Spec.mat (w1Arr V c) p q := w1Blk_apply V c t p q
    rw [hx, hw]
  · exact b1Blk_apply V c t q

theorem covered (i : S25600x20.Idx) :
    ∃ t : Fin cfg5.N, (cfg5.win 5).flush t = true ∧ i ∈ ((cfg5.win 5).blk t).view.set := by
  have h0 : (i 0).val < 25600 := (i 0).isLt
  have h1 : (i 1).val < 0x14 := (i 1).isLt
  have hlt : (i 0).val / 1024 * 196 + 195 < cfg5.N := by
    show _ < grid5.N
    rw [N_5]; omega
  refine ⟨⟨(i 0).val / 1024 * 196 + 195, hlt⟩, (flush_out_iff _).mpr (by show ((i 0).val / 1024 * 196 + 195) % 196 = 195; omega), ?_⟩
  show i ∈ ((View.whole (Pipeline.arrRef spec5 5)).slice (win5_5.rect ⟨(i 0).val / 1024 * 196 + 195, hlt⟩)).set
  rw [View.set_slice_whole, Rect.mem_set_unit]
  intro a
  match a with
  | ⟨0, _⟩ =>
    show win5_5.index ⟨(i 0).val / 1024 * 196 + 195, hlt⟩ 0 * 1024 ≤ (i 0).val
      ∧ (i 0).val < win5_5.index ⟨(i 0).val / 1024 * 196 + 195, hlt⟩ 0 * 1024 + 1024
    rw [(idx_out ⟨(i 0).val / 1024 * 196 + 195, hlt⟩).1]
    show ((i 0).val / 1024 * 196 + 195) / 196 * 1024 ≤ (i 0).val ∧ (i 0).val < ((i 0).val / 1024 * 196 + 195) / 196 * 1024 + 1024
    omega
  | ⟨1, _⟩ =>
    show win5_5.index ⟨(i 0).val / 1024 * 196 + 195, hlt⟩ 1 * 0x14 ≤ (i 1).val
      ∧ (i 1).val < win5_5.index ⟨(i 0).val / 1024 * 196 + 195, hlt⟩ 1 * 0x14 + 0x14
    rw [(idx_out ⟨(i 0).val / 1024 * 196 + 195, hlt⟩).2]
    omega

end Run

end R5

section Value

variable (V : (c : Dev nD) → (b : Ref sig .tc) → Buf (Elt Ideal) ((c : Thread nD τ).loc b))

theorem out5_value (c : Dev nD) :
    (dat5 (F := Ideal) V c).arrAt 5 cfg5.N = fun i =>
      Cert.Spec.scatterOut R5.relu5
        (Cert.Spec.vec (V c (Pipeline.arrRef spec5 0) : S401408.Idx → BitVec 32))
        (Cert.Spec.mat (V c (Pipeline.arrRef spec5 1) : S401408x20.Idx → Ideal .f32))
        (Cert.Spec.mat (V c (Pipeline.arrRef spec5 2) : S25600x20.Idx → Ideal .f32))
        (Cert.Spec.mat (V c (Pipeline.arrRef spec5 3) : S20x20.Idx → Ideal .f32))
        (Cert.Spec.vec (V c (Pipeline.arrRef spec5 4) : S20.Idx → Ideal .f32)) (i 0) (i 1) :=
  (dat5 (F := Ideal) V c).arrAt_eq_of_cover 5 (R5.outArr V c) (R5.flushed_eq V c) R5.covered

end Value

end Cert.KernelIdeal.Hand

end
-- ==== Proof.KI.V6.lean ====
import proofs.«415925_j84189948936386_1_alg».proof.Proof.KI.R6Dat
import proofs.«415925_j84189948936386_1_alg».proof.Proof.KI.P2
import proofs.«415925_j84189948936386_1_alg».proof.Proof.Spec
import Idealize.ShloMosaic.Lib.Pipeline.FrameBody
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

namespace R6

open P2

section Generic
variable {F : FTy → Type} [FloatOps F]
variable (V : (c : Dev nD) → (b : Ref sig .tc) → Buf (Elt F) ((c : Thread nD τ).loc b))

abbrev srcA (c : Dev nD) : Vec F S401408 .i32 := V c (Pipeline.arrRef spec6 0)
abbrev dstA (c : Dev nD) : Vec F S401408 .i32 := V c (Pipeline.arrRef spec6 1)
abbrev xA (c : Dev nD) : Vec F S25600x20 .f32 := V c (Pipeline.arrRef spec6 2)
abbrev Wm1A (c : Dev nD) : Vec F S40x200 .f32 := V c (Pipeline.arrRef spec6 3)
abbrev bm1A (c : Dev nD) : Vec F S200 .f32 := V c (Pipeline.arrRef spec6 4)
abbrev Wm2A (c : Dev nD) : Vec F S200x20 .f32 := V c (Pipeline.arrRef spec6 5)
abbrev bm2A (c : Dev nD) : Vec F S20 .f32 := V c (Pipeline.arrRef spec6 6)
abbrev W2A (c : Dev nD) : Vec F S20x20 .f32 := V c (Pipeline.arrRef spec6 7)
abbrev b2A (c : Dev nD) : Vec F S20 .f32 := V c (Pipeline.arrRef spec6 8)

abbrev srcB (c : Dev nD) (t : Fin cfg6.N) : Vec F S2048 .i32 := iblk6 V c 0 t
abbrev dstB (c : Dev nD) (t : Fin cfg6.N) : Vec F S2048 .i32 := iblk6 V c 1 t
abbrev xB (c : Dev nD) (t : Fin cfg6.N) : Vec F S1024x20 .f32 := iblk6 V c 2 t
abbrev Wm1B (c : Dev nD) (t : Fin cfg6.N) : Vec F S40x200 .f32 := iblk6 V c 3 t
abbrev bm1B (c : Dev nD) (t : Fin cfg6.N) : Vec F S200 .f32 := iblk6 V c 4 t
abbrev Wm2B (c : Dev nD) (t : Fin cfg6.N) : Vec F S200x20 .f32 := iblk6 V c 5 t
abbrev bm2B (c : Dev nD) (t : Fin cfg6.N) : Vec F S20 .f32 := iblk6 V c 6 t
abbrev W2B (c : Dev nD) (t : Fin cfg6.N) : Vec F S20x20 .f32 := iblk6 V c 7 t
abbrev b2B (c : Dev nD) (t : Fin cfg6.N) : Vec F S20 .f32 := iblk6 V c 8 t

theorem lt_N0 (t : Fin cfg6.N) : t.val < 4900 := by
  have h : t.val < cfg6.N := t.isLt
  have e : cfg6.N = 4900 := N_6
  omega

theorem coords6_0 (t : Fin cfg6.N) : ((grid6.coords t) 0).val = t.val / 25 := by
  have h := lt_N0 t
  show t.val / grid6.stride 0 % 196 = _
  rw [show grid6.stride 0 = 25 from by decide]
  omega

theorem coords6_1 (t : Fin cfg6.N) : ((grid6.coords t) 1).val = t.val % 25 := by
  show t.val / grid6.stride 1 % 25 = _
  rw [show grid6.stride 1 = 1 from by decide]
  omega

theorem toNat_ofNat32 (n : Nat) (h : n < 4294967296) : (BitVec.ofNat 32 n).toNat = n := by
  rw [BitVec.toNat_ofNat]
  exact Nat.mod_eq_of_lt h

theorem index0_0 (t : Fin cfg6.N) : win6_0.index t 0 = t.val / 25 := by
  have h := lt_N0 t
  show (BitVec.ofNat 32 ((grid6.coords t) 0).val).toNat = _
  rw [coords6_0, toNat_ofNat32 _ (by omega)]
theorem index0_1 (t : Fin cfg6.N) : win6_1.index t 0 = t.val / 25 := by
  have h := lt_N0 t
  show (BitVec.ofNat 32 ((grid6.coords t) 0).val).toNat = _
  rw [coords6_0, toNat_ofNat32 _ (by omega)]
theorem index0_2 (t : Fin cfg6.N) : win6_2.index t 0 = t.val % 25 ∧ win6_2.index t 1 = 0 := by
  refine ⟨?_, rfl⟩
  show (BitVec.ofNat 32 ((grid6.coords t) 1).val).toNat = _
  rw [coords6_1, toNat_ofNat32 _ (by omega)]
theorem index0_9 (t : Fin cfg6.N) : win6_9.index t 0 = t.val / 25 ∧ win6_9.index t 1 = 0 := by
  have h := lt_N0 t
  refine ⟨?_, rfl⟩
  show (BitVec.ofNat 32 ((grid6.coords t) 0).val).toNat = _
  rw [coords6_0, toNat_ofNat32 _ (by omega)]

theorem flush9_iff (t : Fin cfg6.N) : (cfg6.win 9).flush t = true ↔ t.val % 25 = 24 := by
  have hN : grid6.N = 4900 := N_6
  have ht := lt_N0 t
  show win6_9.flush t = true ↔ _
  unfold Pipeline.Window.flush
  simp only [Bool.and_eq_true, Bool.or_eq_true, decide_eq_true_eq]
  constructor
  · rintro ⟨-, h | ⟨h, hne⟩⟩
    · omega
    · by_contra hc
      apply hne
      funext a
      match a with
      | ⟨0, _⟩ =>
        show win6_9.index ⟨t.val + 1, h⟩ 0 = win6_9.index t 0
        rw [(index0_9 ⟨t.val + 1, h⟩).1, (index0_9 t).1]
        show (t.val + 1) / 25 = t.val / 25
        omega
      | ⟨1, _⟩ =>
        show win6_9.index ⟨t.val + 1, h⟩ 1 = win6_9.index t 1
        rw [(index0_9 ⟨t.val + 1, h⟩).2, (index0_9 t).2]
  · intro h24
    refine ⟨trivial, ?_⟩
    by_cases hl : t.val + 1 = grid6.N
    · exact Or.inl hl
    · have hlt : t.val + 1 < grid6.N := by omega
      refine Or.inr ⟨hlt, fun he => ?_⟩
      have h0 := congrFun he 0
      rw [(index0_9 ⟨t.val + 1, hlt⟩).1, (index0_9 t).1] at h0
      have h0' : (t.val + 1) / 25 = t.val / 25 := h0
      omega

theorem srcB_apply (c : Dev nD) (t : Fin cfg6.N) (r : Fin 2048) (e : Fin 401408) (he : e.val = 2048 * (t.val / 25) + r.val) :
    srcB V c t (ix1 r) = srcA V c (ix1 e) := by
  unfold srcB iblk6
  rw [View.read_apply]
  show V c _ _ = V c _ _
  congr 1
  funext a
  apply Fin.ext
  match a with
  | ⟨0, _⟩ => show win6_0.index t 0 * 2048 + 1 * r.val = e.val; rw [index0_0, he]; omega

theorem dstB_apply (c : Dev nD) (t : Fin cfg6.N) (r : Fin 2048) (e : Fin 401408) (he : e.val = 2048 * (t.val / 25) + r.val) :
    dstB V c t (ix1 r) = dstA V c (ix1 e) := by
  unfold dstB iblk6
  rw [View.read_apply]
  show V c _ _ = V c _ _
  congr 1
  funext a
  apply Fin.ext
  match a with
  | ⟨0, _⟩ => show win6_1.index t 0 * 2048 + 1 * r.val = e.val; rw [index0_1, he]; omega

theorem xB_apply (c : Dev nD) (t : Fin cfg6.N) (k : Fin 1024) (z : Fin 0x14) (n : Fin 25600) (hn : n.val = 1024 * (t.val % 25) + k.val) :
    xB V c t (ix2 k z) = xA V c (ix2 n z) := by
  unfold xB iblk6
  rw [View.read_apply]
  show V c _ _ = V c _ _
  congr 1
  funext a
  apply Fin.ext
  match a with
  | ⟨0, _⟩ => show win6_2.index t 0 * 1024 + 1 * k.val = n.val; rw [(index0_2 t).1, hn]; omega
  | ⟨1, _⟩ => show win6_2.index t 1 * 0x14 + 1 * z.val = z.val; rw [(index0_2 t).2]; omega

theorem Wm1B_eq (c : Dev nD) (t : Fin cfg6.N) : Wm1B V c t = Wm1A V c := by
  funext j
  unfold Wm1B iblk6
  rw [View.read_apply]
  show V c _ _ = V c _ _
  congr 1
  funext a
  apply Fin.ext
  match a with
  | ⟨0, _⟩ => show 0 * (0x14 + 0x14) + 1 * (j 0).val = (j 0).val; omega
  | ⟨1, _⟩ => show 0 * 200 + 1 * (j 1).val = (j 1).val; omega
theorem bm1B_eq (c : Dev nD) (t : Fin cfg6.N) : bm1B V c t = bm1A V c := by
  funext j
  unfold bm1B iblk6
  rw [View.read_apply]
  show V c _ _ = V c _ _
  congr 1
  funext a
  apply Fin.ext
  match a with
  | ⟨0, _⟩ => show 0 * 200 + 1 * (j 0).val = (j 0).val; omega
theorem Wm2B_eq (c : Dev nD) (t : Fin cfg6.N) : Wm2B V c t = Wm2A V c := by
  funext j
  unfold Wm2B iblk6
  rw [View.read_apply]
  show V c _ _ = V c _ _
  congr 1
  funext a
  apply Fin.ext
  match a with
  | ⟨0, _⟩ => show 0 * 200 + 1 * (j 0).val = (j 0).val; omega
  | ⟨1, _⟩ => show 0 * 0x14 + 1 * (j 1).val = (j 1).val; omega
theorem bm2B_eq (c : Dev nD) (t : Fin cfg6.N) : bm2B V c t = bm2A V c := by
  funext j
  unfold bm2B iblk6
  rw [View.read_apply]
  show V c _ _ = V c _ _
  congr 1
  funext a
  apply Fin.ext
  match a with
  | ⟨0, _⟩ => show 0 * 0x14 + 1 * (j 0).val = (j 0).val; omega
theorem W2B_eq (c : Dev nD) (t : Fin cfg6.N) : W2B V c t = W2A V c := by
  funext j
  unfold W2B iblk6
  rw [View.read_apply]
  show V c _ _ = V c _ _
  congr 1
  funext a
  apply Fin.ext
  match a with
  | ⟨0, _⟩ => show 0 * 0x14 + 1 * (j 0).val = (j 0).val; omega
  | ⟨1, _⟩ => show 0 * 0x14 + 1 * (j 1).val = (j 1).val; omega
theorem b2B_eq (c : Dev nD) (t : Fin cfg6.N) : b2B V c t = b2A V c := by
  funext j
  unfold b2B iblk6
  rw [View.read_apply]
  show V c _ _ = V c _ _
  congr 1
  funext a
  apply Fin.ext
  match a with
  | ⟨0, _⟩ => show 0 * 0x14 + 1 * (j 0).val = (j 0).val; omega

end Generic

section AtIdeal
variable (V : (c : Dev nD) → (b : Ref sig .tc) → Buf (Elt Ideal) ((c : Thread nD τ).loc b))

abbrev xcol (c : Dev nD) (z : Fin 0x14) : Fin 25600 → EReal := fun n => xA V c (ix2 n z)

theorem acc_step (c : Dev nD) (t : Fin cfg6.N) (idx : Vec Ideal S2048 .i32) (w : BitVec 32) (r : Fin 2048) (z : Fin 0x14)
    (hw : idx (ix1 r) = w) (prev : Vec Ideal S2048x20 .f32)
    (hprev : prev (ix2 r z) = Spec.gatherBelow (xcol V c z) (1024 * (t.val % 25)) w) :
    k2_pay6 (F := Ideal) (grid6.coords t) idx (xB V c t) prev (ix2 r z)
      = Spec.gatherBelow (xcol V c z) (1024 * (t.val % 25) + 1024) w := by
  have h25 : t.val % 25 < 25 := Nat.mod_lt _ (by decide)
  refine (pay6_apply (grid6.coords t) idx (xB V c t) prev r z).trans ?_
  rw [hprev, hw, coords6_1,
    ← Spec.gatherBelow_step (xcol V c z) (1024 * (t.val % 25)) 1024 (by omega) (by norm_num) w]
  refine congrArg (Spec.gatherBelow (xcol V c z) (1024 * (t.val % 25)) w + ·) (Finset.sum_congr rfl fun k _ => ?_)
  refine congrArg (fun y : EReal => (if BitVec.ofNat 32 (1024 * (t.val % 25) + k.val) = w then (1 : EReal) else 0) * y) ?_
  exact xB_apply V c t k z ⟨1024 * (t.val % 25) + k.val, by have := k.isLt; omega⟩ rfl

theorem scI6_val (c : Dev nD) : ∀ (n : ℕ) (h : n < cfg6.N) (r : Fin 2048) (z : Fin 0x14) (e : Fin 401408),
    e.val = 2048 * (n / 25) + r.val →
    scI6 V c n h (ix2 r z) = Spec.gatherBelow (xcol V c z) (1024 * (n % 25) + 1024) (dstA V c (ix1 e)) := by
  intro n
  induction n with
  | zero =>
    intro h r z e he
    refine (congrFun (scI6_eq V c ⟨0, h⟩) (ix2 r z)).trans ?_
    refine acc_step V c ⟨0, h⟩ (dstB V c ⟨0, h⟩) (dstA V c (ix1 e)) r z (dstB_apply V c ⟨0, h⟩ r e he) _ ?_
    show k2_pay2 (F := Ideal) (ix2 r z) = _
    rw [pay2_apply]
    exact (Spec.gatherBelow_zero _ _).symm
  | succ m ih =>
    intro h r z e he
    refine (congrFun (scI6_eq V c ⟨m + 1, h⟩) (ix2 r z)).trans ?_
    refine acc_step V c ⟨m + 1, h⟩ (dstB V c ⟨m + 1, h⟩) (dstA V c (ix1 e)) r z (dstB_apply V c ⟨m + 1, h⟩ r e he) _ ?_
    by_cases h0 : (m + 1) % 25 = 0
    · show (if (m + 1) % 25 = 0 then k2_pay2 (F := Ideal) else _) (ix2 r z) = _
      rw [if_pos h0, pay2_apply]
      show (0 : EReal) = Spec.gatherBelow (xcol V c z) (1024 * ((m + 1) % 25)) _
      rw [h0]
      exact (Spec.gatherBelow_zero _ _).symm
    · show (if (m + 1) % 25 = 0 then k2_pay2 (F := Ideal) else scI6 V c m _) (ix2 r z) = _
      rw [if_neg h0]
      have := ih (by omega) r z e (by omega)
      show _ = Spec.gatherBelow (xcol V c z) (1024 * ((m + 1) % 25)) _
      rw [show 1024 * ((m + 1) % 25) = 1024 * (m % 25) + 1024 from by omega]
      exact this

theorem scJ6_val (c : Dev nD) : ∀ (n : ℕ) (h : n < cfg6.N) (r : Fin 2048) (z : Fin 0x14) (e : Fin 401408),
    e.val = 2048 * (n / 25) + r.val →
    scJ6 V c n h (ix2 r z) = Spec.gatherBelow (xcol V c z) (1024 * (n % 25) + 1024) (srcA V c (ix1 e)) := by
  intro n
  induction n with
  | zero =>
    intro h r z e he
    refine (congrFun (scJ6_eq V c ⟨0, h⟩) (ix2 r z)).trans ?_
    refine acc_step V c ⟨0, h⟩ (srcB V c ⟨0, h⟩) (srcA V c (ix1 e)) r z (srcB_apply V c ⟨0, h⟩ r e he) _ ?_
    show k2_pay2 (F := Ideal) (ix2 r z) = _
    rw [pay2_apply]
    exact (Spec.gatherBelow_zero _ _).symm
  | succ m ih =>
    intro h r z e he
    refine (congrFun (scJ6_eq V c ⟨m + 1, h⟩) (ix2 r z)).trans ?_
    refine acc_step V c ⟨m + 1, h⟩ (srcB V c ⟨m + 1, h⟩) (srcA V c (ix1 e)) r z (srcB_apply V c ⟨m + 1, h⟩ r e he) _ ?_
    by_cases h0 : (m + 1) % 25 = 0
    · show (if (m + 1) % 25 = 0 then k2_pay2 (F := Ideal) else _) (ix2 r z) = _
      rw [if_pos h0, pay2_apply]
      show (0 : EReal) = Spec.gatherBelow (xcol V c z) (1024 * ((m + 1) % 25)) _
      rw [h0]
      exact (Spec.gatherBelow_zero _ _).symm
    · show (if (m + 1) % 25 = 0 then k2_pay2 (F := Ideal) else scJ6 V c m _) (ix2 r z) = _
      rw [if_neg h0]
      have := ih (by omega) r z e (by omega)
      show _ = Spec.gatherBelow (xcol V c z) (1024 * ((m + 1) % 25)) _
      rw [show 1024 * ((m + 1) % 25) = 1024 * (m % 25) + 1024 from by omega]
      exact this

theorem scI6_last (c : Dev nD) (t : Fin cfg6.N) (h24 : t.val % 25 = 24) (r : Fin 2048) (z : Fin 0x14) (e : Fin 401408)
    (he : e.val = 2048 * (t.val / 25) + r.val) :
    scI6 V c t.val t.isLt (ix2 r z) = Spec.gatherAt (xcol V c z) (dstA V c (ix1 e)) := by
  rw [scI6_val V c t.val t.isLt r z e he, h24]
  exact Spec.gatherBelow_all _ _
theorem scJ6_last (c : Dev nD) (t : Fin cfg6.N) (h24 : t.val % 25 = 24) (r : Fin 2048) (z : Fin 0x14) (e : Fin 401408)
    (he : e.val = 2048 * (t.val / 25) + r.val) :
    scJ6 V c t.val t.isLt (ix2 r z) = Spec.gatherAt (xcol V c z) (srcA V c (ix1 e)) := by
  rw [scJ6_val V c t.val t.isLt r z e he, h24]
  exact Spec.gatherBelow_all _ _

def G0 (c : Dev nD) : Vec Ideal S401408x20 .f32 := fun i =>
  Spec.gatherMsg (cin := 0x14) (Spec.vec (srcA V c)) (Spec.vec (dstA V c)) (Spec.mat (xA V c)) (Spec.mat (Wm1A V c))
    (Spec.vec (bm1A V c)) (Spec.mat (Wm2A V c)) (Spec.vec (bm2A V c)) (Spec.mat (W2A V c)) (Spec.vec (b2A V c)) (i 0) (i 1)

theorem flushed_eq (c : Dev nD) (t : Fin cfg6.N) (hf : (cfg6.win 9).flush t = true) :
    (dat6 V c).flushed 9 t = ((cfg6.win 9).blk t).view.read (Elt Ideal) (G0 V c) := by
  have h24 : t.val % 25 = 24 := (flush9_iff t).mp hf
  have hN := lt_N0 t
  show (cfg6.win 9).cut (grid6.coords t) ((dat6 V c).after 9 t) = _
  rw [after6_9_flush V c t h24]
  refine funext fun (j : S2048x20.Idx) => ?_
  obtain ⟨r, o, rfl⟩ : ∃ (r : Fin 2048) (o : Fin 0x14), j = ix2 r o := ⟨j 0, j 1, eq_ix2 j⟩
  have hr := r.isLt
  rw [View.read_apply]
  show k2_pay1 (F := Ideal) (scI6 V c t.val t.isLt) (scJ6 V c t.val t.isLt) (Wm1B V c t) (bm1B V c t) (Wm2B V c t)
      (bm2B V c t) (W2B V c t) (b2B V c t) (ix2 r o) = G0 V c (((cfg6.win 9).blk t).view.emb (ix2 r o))
  rw [Wm1B_eq, bm1B_eq, Wm2B_eq, bm2B_eq, W2B_eq, b2B_eq]
  refine (pay1_apply _ _ _ _ _ _ _ _ r o).trans ?_

  have he : (⟨2048 * (t.val / 25) + r.val, by omega⟩ : Fin 401408).val = 2048 * (t.val / 25) + r.val := rfl
  have hxi : (fun k : Fin 0x14 => scI6 V c t.val t.isLt (ix2 r k))
      = fun k => Spec.gatherAt (fun n => Spec.mat (xA V c) n k) (Spec.vec (dstA V c) ⟨2048 * (t.val / 25) + r.val, by omega⟩) :=
    funext fun k => scI6_last V c t h24 r k _ he
  have hxj : (fun k : Fin 0x14 => scJ6 V c t.val t.isLt (ix2 r k))
      = fun k => Spec.gatherAt (fun n => Spec.mat (xA V c) n k) (Spec.vec (srcA V c) ⟨2048 * (t.val / 25) + r.val, by omega⟩) :=
    funext fun k => scJ6_last V c t h24 r k _ he
  rw [hxi, hxj]
  unfold G0 Spec.gatherMsg
  have e0 : (((cfg6.win 9).blk t).view.emb (ix2 r o)) 0 = (⟨2048 * (t.val / 25) + r.val, by omega⟩ : Fin 401408) := by
    apply Fin.ext
    show win6_9.index t 0 * 2048 + 1 * r.val = 2048 * (t.val / 25) + r.val
    rw [(index0_9 t).1]; omega
  have e1 : (((cfg6.win 9).blk t).view.emb (ix2 r o)) 1 = o := by
    apply Fin.ext
    show win6_9.index t 1 * 0x14 + 1 * o.val = o.val
    rw [(index0_9 t).2]; omega
  rw [e0, e1]

theorem mem_blk9 (t : Fin cfg6.N) (i : S401408x20.Idx) :
    i ∈ ((cfg6.win 9).blk t).view.set ↔ ∀ a : Fin 2, win6_9.index t a * S2048x20.size a ≤ (i a).val
      ∧ (i a).val < win6_9.index t a * S2048x20.size a + S2048x20.size a := by
  show i ∈ ((View.whole main_v13).slice (win6_9.rect t)).set ↔ _
  rw [View.set_slice_whole, Rect.mem_set_unit]
  exact Iff.rfl

end AtIdeal

end R6

theorem out6_value (V : (c : Dev nD) → (b : Ref sig .tc) → Buf (Elt Ideal) ((c : Thread nD τ).loc b)) (c : Dev nD) :
    (dat6 V c).arrAt 9 cfg6.N = R6.G0 V c :=
  (dat6 V c).arrAt_eq_of_cover 9 (R6.G0 V c) (R6.flushed_eq V c) fun i => by
    have hi0 : (i 0).val < 401408 := (i 0).isLt
    have hi1 : (i 1).val < 0x14 := (i 1).isLt
    have hlt : (i 0).val / 2048 * 25 + 24 < cfg6.N := by rw [show cfg6.N = 4900 from N_6]; omega
    refine ⟨⟨(i 0).val / 2048 * 25 + 24, hlt⟩, (R6.flush9_iff _).mpr (by show ((i 0).val / 2048 * 25 + 24) % 25 = 24; omega), ?_⟩
    have q := R6.index0_9 ⟨(i 0).val / 2048 * 25 + 24, hlt⟩
    refine (R6.mem_blk9 ⟨(i 0).val / 2048 * 25 + 24, hlt⟩ i).mpr ?_
    intro a
    match a with
    | ⟨0, _⟩ =>
      show win6_9.index _ 0 * 2048 ≤ (i 0).val ∧ (i 0).val < win6_9.index _ 0 * 2048 + 2048
      rw [q.1]
      show ((i 0).val / 2048 * 25 + 24) / 25 * 2048 ≤ (i 0).val ∧ (i 0).val < ((i 0).val / 2048 * 25 + 24) / 25 * 2048 + 2048
      omega
    | ⟨1, _⟩ =>
      show win6_9.index _ 1 * 0x14 ≤ (i 1).val ∧ (i 1).val < win6_9.index _ 1 * 0x14 + 0x14
      rw [q.2]
      omega

end Cert.KernelIdeal.Hand

end
-- ==== Proof.KI.Post7.lean ====
import proofs.«415925_j84189948936386_1_alg».proof.Proof.Gen.KernelIdeal.Skeleton
import proofs.«415925_j84189948936386_1_alg».proof.Proof.Spec
import Idealize.ShloMosaic.PureOps.Ideal.Laws

noncomputable section

namespace Cert.KernelIdeal.Hand.R7

open Cert.KernelIdeal Cert.KernelIdeal.Gen Idealize.ShloMosaic

abbrev relu7 : Bool := true

theorem post7_apply (v : FVec Ideal S1024x20 .f32) (j : S1024x20.Idx) :
    maximumf v (broadcast S1024x20 (Scalar.ofBits (F := Ideal) .f32 0x00000000#32)) j = Cert.Spec.act relu7 (v j) := by
  show max (v j) (Ideal.ofBits .f32 0x00000000#32) = max (v j) 0
  rw [Ideal.ofBits_zero_f32]

end Cert.KernelIdeal.Hand.R7

end
-- ==== Proof.KI.V7.lean ====
import proofs.«415925_j84189948936386_1_alg».proof.Proof.KI.R7Dat
import proofs.«415925_j84189948936386_1_alg».proof.Proof.KI.P3
import proofs.«415925_j84189948936386_1_alg».proof.Proof.KI.Post7
import proofs.«415925_j84189948936386_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

namespace R7

open P3

section Value

variable (V : (c : Dev nD) → (b : Ref sig .tc) → Buf (Elt Ideal) ((c : Thread nD τ).loc b))

abbrev dstArr (c : Dev nD) : S401408.Idx → BitVec 32 := V c (Pipeline.arrRef spec7 0)

abbrev msgArr (c : Dev nD) : S401408x20.Idx → Ideal .f32 := V c (Pipeline.arrRef spec7 1)

abbrev xArr (c : Dev nD) : S25600x20.Idx → Ideal .f32 := V c (Pipeline.arrRef spec7 2)

abbrev w1Arr (c : Dev nD) : S20x20.Idx → Ideal .f32 := V c (Pipeline.arrRef spec7 3)

abbrev b1Arr (c : Dev nD) : S20.Idx → Ideal .f32 := V c (Pipeline.arrRef spec7 4)

abbrev dstBlk (c : Dev nD) (t : Fin cfg7.N) : Vec Ideal S2048 .i32 := iblk7 V c 0 t
abbrev msgBlk (c : Dev nD) (t : Fin cfg7.N) : Vec Ideal S2048x20 .f32 := iblk7 V c 1 t
abbrev xBlk (c : Dev nD) (t : Fin cfg7.N) : Vec Ideal S1024x20 .f32 := iblk7 V c 2 t
abbrev w1Blk (c : Dev nD) (t : Fin cfg7.N) : Vec Ideal S20x20 .f32 := iblk7 V c 3 t
abbrev b1Blk (c : Dev nD) (t : Fin cfg7.N) : Vec Ideal S20 .f32 := iblk7 V c 4 t

theorem lt_N1 (t : Fin cfg7.N) : t.val < 4900 := by
  have h : t.val < grid7.N := t.isLt
  rw [N_7] at h
  exact h

theorem coords7_0 (t : Fin cfg7.N) : ((grid7.coords t) 0).val = t.val / 196 := by
  have ht := lt_N1 t
  show t.val / grid7.stride 0 % 25 = t.val / 196
  rw [show grid7.stride 0 = 196 from by decide]
  omega

theorem coords7_1 (t : Fin cfg7.N) : ((grid7.coords t) 1).val = t.val % 196 := by
  show t.val / grid7.stride 1 % 196 = t.val % 196
  rw [show grid7.stride 1 = 1 from by decide, Nat.div_one]

theorem toNat_ofNat_small {n : ℕ} (h : n < 4900) : (BitVec.ofNat 32 n).toNat = n := by
  rw [BitVec.toNat_ofNat]
  omega

theorem idx_dst (t : Fin cfg7.N) : win7_0.index t 0 = t.val % 196 := by
  show (BitVec.ofNat 32 ((grid7.coords t) 1).val).toNat = t.val % 196
  rw [coords7_1]
  exact toNat_ofNat_small (by omega)

theorem idx_msg (t : Fin cfg7.N) : win7_1.index t 0 = t.val % 196 ∧ win7_1.index t 1 = 0 := by
  refine ⟨?_, rfl⟩
  show (BitVec.ofNat 32 ((grid7.coords t) 1).val).toNat = t.val % 196
  rw [coords7_1]
  exact toNat_ofNat_small (by omega)

theorem idx_x (t : Fin cfg7.N) : win7_2.index t 0 = t.val / 196 ∧ win7_2.index t 1 = 0 := by
  have ht := lt_N1 t
  refine ⟨?_, rfl⟩
  show (BitVec.ofNat 32 ((grid7.coords t) 0).val).toNat = t.val / 196
  rw [coords7_0]
  exact toNat_ofNat_small (by omega)

theorem idx_out (t : Fin cfg7.N) : win7_5.index t 0 = t.val / 196 ∧ win7_5.index t 1 = 0 := by
  have ht := lt_N1 t
  refine ⟨?_, rfl⟩
  show (BitVec.ofNat 32 ((grid7.coords t) 0).val).toNat = t.val / 196
  rw [coords7_0]
  exact toNat_ofNat_small (by omega)

theorem idx_w1 (t : Fin cfg7.N) : win7_3.index t 0 = 0 ∧ win7_3.index t 1 = 0 := ⟨rfl, rfl⟩
theorem idx_b1 (t : Fin cfg7.N) : win7_4.index t 0 = 0 := rfl

theorem dstBlk_apply (c : Dev nD) (t : Fin cfg7.N) (e : Fin 2048) (k : S401408.Idx)
    (hk : (k 0).val = 2048 * (t.val % 196) + e.val) : dstBlk V c t (ix1 e) = dstArr V c k := by
  show ((cfg7.win 0).blk t).view.read (Elt Ideal) (V c (Pipeline.arrRef spec7 0)) (ix1 e) = V c (Pipeline.arrRef spec7 0) k
  rw [View.read_apply]
  show V c (Pipeline.arrRef spec7 0) (((cfg7.win 0).blk t).view.emb (ix1 e)) = V c (Pipeline.arrRef spec7 0) k
  refine congrArg _ (funext fun a => Fin.ext ?_)
  match a with
  | ⟨0, _⟩ =>
    show win7_0.index t 0 * 2048 + 1 * e.val = (k 0).val
    rw [idx_dst, hk]; omega

theorem msgBlk_apply (c : Dev nD) (t : Fin cfg7.N) (e : Fin 2048) (q : Fin 0x14) (k : S401408x20.Idx)
    (hk0 : (k 0).val = 2048 * (t.val % 196) + e.val) (hk1 : (k 1).val = q.val) :
    msgBlk V c t (ix2 e q) = msgArr V c k := by
  show ((cfg7.win 1).blk t).view.read (Elt Ideal) (V c (Pipeline.arrRef spec7 1)) (ix2 e q) = V c (Pipeline.arrRef spec7 1) k
  rw [View.read_apply]
  show V c (Pipeline.arrRef spec7 1) (((cfg7.win 1).blk t).view.emb (ix2 e q)) = V c (Pipeline.arrRef spec7 1) k
  refine congrArg _ (funext fun a => Fin.ext ?_)
  match a with
  | ⟨0, _⟩ =>
    show win7_1.index t 0 * 2048 + 1 * e.val = (k 0).val
    rw [(idx_msg t).1, hk0]; omega
  | ⟨1, _⟩ =>
    show win7_1.index t 1 * 0x14 + 1 * q.val = (k 1).val
    rw [(idx_msg t).2, hk1]; omega

theorem xBlk_apply (c : Dev nD) (t : Fin cfg7.N) (r : Fin 1024) (p : Fin 0x14) (k : S25600x20.Idx)
    (hk0 : (k 0).val = 1024 * (t.val / 196) + r.val) (hk1 : (k 1).val = p.val) :
    xBlk V c t (ix2 r p) = xArr V c k := by
  show ((cfg7.win 2).blk t).view.read (Elt Ideal) (V c (Pipeline.arrRef spec7 2)) (ix2 r p) = V c (Pipeline.arrRef spec7 2) k
  rw [View.read_apply]
  show V c (Pipeline.arrRef spec7 2) (((cfg7.win 2).blk t).view.emb (ix2 r p)) = V c (Pipeline.arrRef spec7 2) k
  refine congrArg _ (funext fun a => Fin.ext ?_)
  match a with
  | ⟨0, _⟩ =>
    show win7_2.index t 0 * 1024 + 1 * r.val = (k 0).val
    rw [(idx_x t).1, hk0]; omega
  | ⟨1, _⟩ =>
    show win7_2.index t 1 * 0x14 + 1 * p.val = (k 1).val
    rw [(idx_x t).2, hk1]; omega

theorem w1Blk_apply (c : Dev nD) (t : Fin cfg7.N) (p : Fin 0x14) (q : Fin 0x14) :
    w1Blk V c t (ix2 p q) = w1Arr V c (ix2 p q) := by
  show ((cfg7.win 3).blk t).view.read (Elt Ideal) (V c (Pipeline.arrRef spec7 3)) (ix2 p q) = V c (Pipeline.arrRef spec7 3) (ix2 p q)
  rw [View.read_apply]
  show V c (Pipeline.arrRef spec7 3) (((cfg7.win 3).blk t).view.emb (ix2 p q)) = V c (Pipeline.arrRef spec7 3) (ix2 p q)
  refine congrArg _ (funext fun a => Fin.ext ?_)
  match a with
  | ⟨0, _⟩ =>
    show win7_3.index t 0 * 0x14 + 1 * p.val = p.val
    rw [(idx_w1 t).1]; omega
  | ⟨1, _⟩ =>
    show win7_3.index t 1 * 0x14 + 1 * q.val = q.val
    rw [(idx_w1 t).2]; omega

theorem b1Blk_apply (c : Dev nD) (t : Fin cfg7.N) (q : Fin 0x14) : b1Blk V c t (ix1 q) = b1Arr V c (ix1 q) := by
  show ((cfg7.win 4).blk t).view.read (Elt Ideal) (V c (Pipeline.arrRef spec7 4)) (ix1 q) = V c (Pipeline.arrRef spec7 4) (ix1 q)
  rw [View.read_apply]
  show V c (Pipeline.arrRef spec7 4) (((cfg7.win 4).blk t).view.emb (ix1 q)) = V c (Pipeline.arrRef spec7 4) (ix1 q)
  refine congrArg _ (funext fun a => Fin.ext ?_)
  match a with
  | ⟨0, _⟩ =>
    show win7_4.index t 0 * 0x14 + 1 * q.val = q.val
    rw [idx_b1 t]; omega

end Value

section Run

variable (V : (c : Dev nD) → (b : Ref sig .tc) → Buf (Elt Ideal) ((c : Thread nD τ).loc b))

theorem step_eq (c : Dev nD) (t : Fin cfg7.N) (r : Fin 1024) (q : Fin 0x14) (A : EReal)
    (hA : A = Cert.Spec.segSumBelow (Cert.Spec.vec (dstArr V c)) (fun e => Cert.Spec.mat (msgArr V c) e q)
      (2048 * (t.val % 196)) (1024 * (t.val / 196) + r.val)) :
    A + ∑ e : Fin 2048, (if BitVec.ofNat 32 (1024 * (t.val / 196) + r.val) = dstBlk V c t (ix1 e) then (1 : EReal) else 0)
          * msgBlk V c t (ix2 e q)
      = Cert.Spec.segSumBelow (Cert.Spec.vec (dstArr V c)) (fun e => Cert.Spec.mat (msgArr V c) e q)
          (2048 * (t.val % 196 + 1)) (1024 * (t.val / 196) + r.val) := by
  have ht := lt_N1 t
  rw [hA]
  have hstep := Cert.Spec.segSumBelow_step (Cert.Spec.vec (dstArr V c)) (fun e => Cert.Spec.mat (msgArr V c) e q)
    (2048 * (t.val % 196)) 2048 (1024 * (t.val / 196) + r.val) (by omega) (by omega)
  have e1 : 2048 * (t.val % 196 + 1) = 2048 * (t.val % 196) + 2048 := by omega
  rw [e1, ← hstep]
  refine congrArg₂ (· + ·) rfl (Finset.sum_congr rfl fun e _ => ?_)
  have h1 : dstBlk V c t (ix1 e)
      = Cert.Spec.vec (dstArr V c) ⟨2048 * (t.val % 196) + e.val, by have := e.isLt; omega⟩ :=
    dstBlk_apply V c t e _ rfl
  have h2 : msgBlk V c t (ix2 e q)
      = Cert.Spec.mat (msgArr V c) ⟨2048 * (t.val % 196) + e.val, by have := e.isLt; omega⟩ q :=
    msgBlk_apply V c t e q _ rfl rfl
  rw [h1, h2]

theorem acc_eq (c : Dev nD) : ∀ (n : ℕ) (h : n < cfg7.N) (r : Fin 1024) (q : Fin 0x14),
    sc7 V c n h (ix2 r q)
      = Cert.Spec.segSumBelow (Cert.Spec.vec (dstArr V c)) (fun e => Cert.Spec.mat (msgArr V c) e q)
          (2048 * (n % 196 + 1)) (1024 * (n / 196) + r.val) := by
  intro n
  induction n with
  | zero =>
    intro h r q
    have hsc := sc7_eq V c ⟨0, h⟩
    rw [if_pos (show (⟨0, h⟩ : Fin cfg7.N).val % 196 = 0 from rfl)] at hsc
    refine (congrFun hsc (ix2 r q)).trans ?_
    refine (step_apply (grid7.coords ⟨0, h⟩) (dstBlk V c ⟨0, h⟩) (msgBlk V c ⟨0, h⟩) (k3_pay1 (F := Ideal)) r q).trans ?_
    rw [reset_apply, coords7_0]
    exact step_eq V c ⟨0, h⟩ r q 0 (Cert.Spec.segSumBelow_zero _ _ _).symm
  | succ n ih =>
    intro h r q
    have hsc := sc7_eq V c ⟨n + 1, h⟩
    by_cases h0 : (n + 1) % 196 = 0
    · rw [if_pos (show (⟨n + 1, h⟩ : Fin cfg7.N).val % 196 = 0 from h0)] at hsc
      refine (congrFun hsc (ix2 r q)).trans ?_
      refine (step_apply (grid7.coords ⟨n + 1, h⟩) (dstBlk V c ⟨n + 1, h⟩) (msgBlk V c ⟨n + 1, h⟩) (k3_pay1 (F := Ideal)) r q).trans ?_
      rw [reset_apply, coords7_0]
      refine step_eq V c ⟨n + 1, h⟩ r q 0 ?_
      show (0 : EReal) = Cert.Spec.segSumBelow _ _ (2048 * ((n + 1) % 196)) _
      rw [h0]
      exact (Cert.Spec.segSumBelow_zero _ _ _).symm
    · rw [if_neg (show ¬(⟨n + 1, h⟩ : Fin cfg7.N).val % 196 = 0 from h0)] at hsc
      refine (congrFun hsc (ix2 r q)).trans ?_
      refine (step_apply (grid7.coords ⟨n + 1, h⟩) (dstBlk V c ⟨n + 1, h⟩) (msgBlk V c ⟨n + 1, h⟩)
        (sc7 V c n (Nat.lt_of_succ_lt h)) r q).trans ?_
      rw [coords7_0]
      refine step_eq V c ⟨n + 1, h⟩ r q _ ?_
      rw [ih (Nat.lt_of_succ_lt h) r q]
      show Cert.Spec.segSumBelow _ _ (2048 * (n % 196 + 1)) (1024 * (n / 196) + r.val)
        = Cert.Spec.segSumBelow _ _ (2048 * ((n + 1) % 196)) (1024 * ((n + 1) / 196) + r.val)
      have e1 : n % 196 + 1 = (n + 1) % 196 := by omega
      have e2 : n / 196 = (n + 1) / 196 := by omega
      rw [e1, e2]

abbrev outArr (c : Dev nD) : S25600x20.Idx → Ideal .f32 := fun i =>
  Cert.Spec.scatterOut relu7 (Cert.Spec.vec (dstArr V c)) (Cert.Spec.mat (msgArr V c)) (Cert.Spec.mat (xArr V c))
    (Cert.Spec.mat (w1Arr V c)) (Cert.Spec.vec (b1Arr V c)) (i 0) (i 1)

theorem out_emb (t : Fin cfg7.N) (r : Fin 1024) (q : Fin 0x14) :
    (((cfg7.win 5).blk t).view.emb (ix2 r q) : S25600x20.Idx)
      = ix2 ⟨1024 * (t.val / 196) + r.val, by have := lt_N1 t; have := r.isLt; omega⟩ q := by
  refine funext fun a => Fin.ext ?_
  match a with
  | ⟨0, _⟩ =>
    show win7_5.index t 0 * 1024 + 1 * r.val = 1024 * (t.val / 196) + r.val
    rw [(idx_out t).1]; omega
  | ⟨1, _⟩ =>
    show win7_5.index t 1 * 0x14 + 1 * q.val = q.val
    rw [(idx_out t).2]; omega

theorem idx_out_eq (t : Fin cfg7.N) : win7_5.index t = ![t.val / 196, 0] := by
  refine funext fun a => ?_
  match a with
  | ⟨0, _⟩ => exact (idx_out t).1
  | ⟨1, _⟩ => exact (idx_out t).2

theorem flush_out_iff (t : Fin cfg7.N) : (cfg7.win 5).flush t = true ↔ t.val % 196 = 195 := by
  have ht := lt_N1 t
  show win7_5.flush t = true ↔ _
  unfold Window.flush
  rw [show win7_5.isOut = true from rfl, Bool.true_and, Bool.or_eq_true, decide_eq_true_eq, decide_eq_true_eq]
  show (t.val + 1 = grid7.N ∨ ∃ h : t.val + 1 < grid7.N, win7_5.index ⟨t.val + 1, h⟩ ≠ win7_5.index t) ↔ _
  constructor
  · rintro (h | ⟨h, hne⟩)
    · rw [N_7] at h; omega
    · rw [N_7] at h
      by_contra hc
      refine hne ?_
      rw [idx_out_eq, idx_out_eq]
      show ![(t.val + 1) / 196, 0] = ![t.val / 196, 0]
      rw [show (t.val + 1) / 196 = t.val / 196 from by omega]
  · intro h
    by_cases hl : t.val + 1 = 4900
    · exact Or.inl (by rw [N_7]; exact hl)
    · refine Or.inr ⟨by rw [N_7]; omega, ?_⟩
      rw [idx_out_eq, idx_out_eq]
      intro he
      have h0 : (t.val + 1) / 196 = t.val / 196 := congrFun he 0
      omega

theorem flushed_eq (c : Dev nD) (t : Fin cfg7.N) (hf : (cfg7.win 5).flush t = true) :
    (dat7 V c).flushed 5 t = ((cfg7.win 5).blk t).view.read (Elt Ideal) (outArr V c) := by
  have h195 : t.val % 196 = 195 := (flush_out_iff t).mp hf
  have ht := lt_N1 t
  show (cfg7.win 5).cut (grid7.coords t) ((dat7 V c).after 5 t) = _
  rw [after7_5_flush V c t h195]
  refine funext fun (j : S1024x20.Idx) => ?_
  obtain ⟨r, q, rfl⟩ : ∃ (r : Fin 1024) (q : Fin 0x14), j = ix2 r q := ⟨j 0, j 1, eq_ix2 j⟩
  rw [View.read_apply]
  show k3_pay3 (xBlk V c t) (w1Blk V c t) (b1Blk V c t) (sc7 V c t.val t.isLt) (ix2 r q)
    = outArr V c (((cfg7.win 5).blk t).view.emb (ix2 r q))
  refine (last_apply (xBlk V c t) (w1Blk V c t) (b1Blk V c t) (sc7 V c t.val t.isLt) r q).trans ?_
  rw [acc_eq V c t.val t.isLt r q, show 2048 * (t.val % 196 + 1) = 401408 from by omega, Cert.Spec.segSumBelow_all, out_emb t r q]
  show _ = Cert.Spec.act relu7 (Cert.Spec.segSum (Cert.Spec.vec (dstArr V c)) (fun e => Cert.Spec.mat (msgArr V c) e q) (1024 * (t.val / 196) + r.val)
      + ((∑ p : Fin 0x14, Cert.Spec.mat (xArr V c) ⟨1024 * (t.val / 196) + r.val, by have := r.isLt; omega⟩ p
            * Cert.Spec.mat (w1Arr V c) p q)
          + Cert.Spec.vec (b1Arr V c) q))
  refine congrArg (Cert.Spec.act relu7) (congrArg₂ (· + ·) rfl (congrArg₂ (· + ·) (Finset.sum_congr rfl fun p _ => ?_) ?_))
  · have hx : xBlk V c t (ix2 r p)
        = Cert.Spec.mat (xArr V c) ⟨1024 * (t.val / 196) + r.val, by have := r.isLt; omega⟩ p :=
      xBlk_apply V c t r p _ rfl rfl
    have hw : w1Blk V c t (ix2 p q) = Cert.Spec.mat (w1Arr V c) p q := w1Blk_apply V c t p q
    rw [hx, hw]
  · exact b1Blk_apply V c t q

theorem covered (i : S25600x20.Idx) :
    ∃ t : Fin cfg7.N, (cfg7.win 5).flush t = true ∧ i ∈ ((cfg7.win 5).blk t).view.set := by
  have h0 : (i 0).val < 25600 := (i 0).isLt
  have h1 : (i 1).val < 0x14 := (i 1).isLt
  have hlt : (i 0).val / 1024 * 196 + 195 < cfg7.N := by
    show _ < grid7.N
    rw [N_7]; omega
  refine ⟨⟨(i 0).val / 1024 * 196 + 195, hlt⟩, (flush_out_iff _).mpr (by show ((i 0).val / 1024 * 196 + 195) % 196 = 195; omega), ?_⟩
  show i ∈ ((View.whole (Pipeline.arrRef spec7 5)).slice (win7_5.rect ⟨(i 0).val / 1024 * 196 + 195, hlt⟩)).set
  rw [View.set_slice_whole, Rect.mem_set_unit]
  intro a
  match a with
  | ⟨0, _⟩ =>
    show win7_5.index ⟨(i 0).val / 1024 * 196 + 195, hlt⟩ 0 * 1024 ≤ (i 0).val
      ∧ (i 0).val < win7_5.index ⟨(i 0).val / 1024 * 196 + 195, hlt⟩ 0 * 1024 + 1024
    rw [(idx_out ⟨(i 0).val / 1024 * 196 + 195, hlt⟩).1]
    show ((i 0).val / 1024 * 196 + 195) / 196 * 1024 ≤ (i 0).val ∧ (i 0).val < ((i 0).val / 1024 * 196 + 195) / 196 * 1024 + 1024
    omega
  | ⟨1, _⟩ =>
    show win7_5.index ⟨(i 0).val / 1024 * 196 + 195, hlt⟩ 1 * 0x14 ≤ (i 1).val
      ∧ (i 1).val < win7_5.index ⟨(i 0).val / 1024 * 196 + 195, hlt⟩ 1 * 0x14 + 0x14
    rw [(idx_out ⟨(i 0).val / 1024 * 196 + 195, hlt⟩).2]
    omega

end Run

end R7

section Value

variable (V : (c : Dev nD) → (b : Ref sig .tc) → Buf (Elt Ideal) ((c : Thread nD τ).loc b))

theorem out7_value (c : Dev nD) :
    (dat7 (F := Ideal) V c).arrAt 5 cfg7.N = fun i =>
      Cert.Spec.scatterOut R7.relu7
        (Cert.Spec.vec (V c (Pipeline.arrRef spec7 0) : S401408.Idx → BitVec 32))
        (Cert.Spec.mat (V c (Pipeline.arrRef spec7 1) : S401408x20.Idx → Ideal .f32))
        (Cert.Spec.mat (V c (Pipeline.arrRef spec7 2) : S25600x20.Idx → Ideal .f32))
        (Cert.Spec.mat (V c (Pipeline.arrRef spec7 3) : S20x20.Idx → Ideal .f32))
        (Cert.Spec.vec (V c (Pipeline.arrRef spec7 4) : S20.Idx → Ideal .f32)) (i 0) (i 1) :=
  (dat7 (F := Ideal) V c).arrAt_eq_of_cover 5 (R7.outArr V c) (R7.flushed_eq V c) R7.covered

end Value

end Cert.KernelIdeal.Hand

end
-- ==== Proof.KI.P8.lean ====
import proofs.«415925_j84189948936386_1_alg».proof.Proof.Gen.KernelIdeal.Launch
import proofs.«415925_j84189948936386_1_alg».proof.Proof.Gen.KernelIdeal.Skeleton
import proofs.«415925_j84189948936386_1_alg».proof.Proof.Spec
import Idealize.ShloMosaic.Lib.Pipeline.FrameBody
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

namespace P8

variable {F : FTy → Type} [FloatOps F]

theorem onehot_ideal (a b : BitVec 32) :
    (FloatOps.sitofp (F := Ideal) .f32 ((IntOp.cmpi .eq a b).setWidth 32) : EReal) = if a = b then (1 : EReal) else 0 := by
  by_cases h : a = b
  · subst h
    rw [if_pos rfl]
    have e1 : IntOp.cmpi .eq a a = 1#1 := by simp [IntOp.cmpi]
    rw [e1]
    show (((BitVec.setWidth 32 1#1).toInt : ℝ) : EReal) = 1
    rw [show (BitVec.setWidth 32 1#1).toInt = 1 from by decide]
    norm_num
  · rw [if_neg h]
    have hb : (a == b) = false := beq_eq_false_iff_ne.mpr h
    have e0 : IntOp.cmpi .eq a b = 0#1 := by
      show BitVec.ofBool (a == b) = 0#1
      rw [hb]
      rfl
    rw [e0]
    show (((BitVec.setWidth 32 0#1).toInt : ℝ) : EReal) = 0
    rw [show (BitVec.setWidth 32 0#1).toInt = 0 from by decide]
    norm_num

theorem nodeWord (nb k : Nat) :
    IntOp.addi (Scalar.muli (BitVec.ofNat 32 nb) 1024#32) (BitVec.ofNat 32 k) = BitVec.ofNat 32 (1024 * nb + k) := by
  show BitVec.ofNat 32 nb * 1024#32 + BitVec.ofNat 32 k = _
  rw [show (1024#32 : BitVec 32) = BitVec.ofNat 32 1024 from rfl, ← BitVec.ofNat_mul, ← BitVec.ofNat_add, Nat.mul_comm]

abbrev Dg := dot_S1024x2048_S1024x20_S2048x20_0_0_1_1_n_n
abbrev Dh := dot_S2048x40_S40x200_S2048x200_1_0_0_1_n_n
abbrev Dq := dot_S2048x200_S200x20_S2048x20_1_0_0_1_n_n
abbrev Do := dot_S2048x20_S20x1_S2048x1_1_0_0_1_n_n

theorem Dg_rank : Dg.contr.rank = 1 := rfl
theorem Dg_size : Dg.contr.size ⟨0, by decide⟩ = 1024 := by decide
theorem Dh_size : Dh.contr.size ⟨0, by decide⟩ = 0x14 + 0x14 := by decide
theorem Dq_size : Dq.contr.size ⟨0, by decide⟩ = 200 := by decide
theorem Do_size : Do.contr.size ⟨0, by decide⟩ = 0x14 := by decide
theorem Dh_rank : Dh.contr.rank = 1 := rfl
theorem Dq_rank : Dq.contr.rank = 1 := rfl
theorem Do_rank : Do.contr.rank = 1 := rfl

theorem Dg_lhs0 (j : S2048x20.Idx) (k : Dg.contr.Idx) : (Dg.lhsIdx j k 0).val = (k ⟨0, by decide⟩).val := Dg.lhsIdx_val_of_single rfl j k
theorem Dg_lhs1 (j : S2048x20.Idx) (k : Dg.contr.Idx) : (Dg.lhsIdx j k 1).val = (j 0).val := rfl
theorem Dg_rhs0 (j : S2048x20.Idx) (k : Dg.contr.Idx) : (Dg.rhsIdx j k 0).val = (k ⟨0, by decide⟩).val := Dg.rhsIdx_val_of_single rfl j k
theorem Dg_rhs1 (j : S2048x20.Idx) (k : Dg.contr.Idx) : (Dg.rhsIdx j k 1).val = (j 1).val := rfl

theorem idxRow_apply (idx : IVec S2048 32) (p : S1024x2048.Idx) :
    broadcastTo S1024x2048 (shapeCast S1x2048 idx shapeCasts_S2048_S1x2048) broadcasts_S1x2048_S1024x2048 p
      = idx (ix1 (p 1)) := by
  refine (broadcastTo_apply _ broadcasts_S1x2048_S1024x2048 p (ix2 (0 : Fin 1) (p 1)) ?_).trans ?_
  · intro a
    match a with
    | ⟨0, _⟩ => rfl
    | ⟨1, _⟩ => rfl
  · refine (shapeCast_addUnit_apply ![2048] idx shapeCasts_S2048_S1x2048 _).trans ?_
    congr 1
    funext a
    match a with
    | ⟨0, _⟩ => rfl

theorem pay4_apply (i : grid8.Coords) (p : S1024x2048.Idx) :
    k8_pay4 i p = BitVec.ofNat 32 (1024 * (i 1).val + (p 0).val) := by
  unfold k8_pay4
  show IntOp.addi (Scalar.muli (BitVec.ofNat 32 (i 1).val) 1024#32) (iota .tc S1024x2048 32 [0] iota_S1024x2048_d0_w32 p) = _
  rw [iota_single_apply, nodeWord]

theorem pay5_eq (xb : Vec Ideal S1024x20 .f32) : k8_pay5 (F := Ideal) xb = xb := by
  unfold k8_pay5
  simp only [shapeCast_self]
  rfl

theorem pay6_apply (i : grid8.Coords) (idx : Vec Ideal S2048 .i32) (xb : Vec Ideal S1024x20 .f32) (acc : Vec Ideal S2048x20 .f32)
    (r : Fin 2048) (z : Fin 0x14) :
    k8_pay6 (F := Ideal) i idx xb acc (ix2 r z)
      = acc (ix2 r z) + ∑ k : Fin 1024,
          (if BitVec.ofNat 32 (1024 * (i 1).val + k.val) = idx (ix1 r) then (1 : EReal) else 0) * xb (ix2 k z) := by
  unfold k8_pay6
  simp only [shapeCast_self]
  show acc (ix2 r z) + FloatOps.matmul (F := Ideal) Dg none _ _ (constant S2048x20 .f32 0x00000000#32) (ix2 r z) = _
  refine congrArg (acc (ix2 r z) + ·) ?_
  refine (Ideal.matmul_constant_zero_apply Dg none _ _ (ix2 r z)).trans ?_
  rw [← Equiv.sum_comp (contrEquiv1 Dg 1024 Dg_rank Dg_size).symm]
  refine Finset.sum_congr rfl fun k _ => ?_
  have hk := contrEquiv1_symm_val Dg 1024 Dg_rank Dg_size k
  congr 1
  ·
    show FloatOps.sitofp (F := Ideal) .f32 ((IntOp.cmpi .eq (k8_pay4 i _) (broadcastTo S1024x2048 _ _ _)).setWidth 32) = _
    rw [onehot_ideal, pay4_apply, idxRow_apply]
    have e0 : ((Dg.lhsIdx (ix2 r z) ((contrEquiv1 Dg 1024 Dg_rank Dg_size).symm k)) 0).val = k.val := (Dg_lhs0 _ _).trans hk
    have e1 : ((Dg.lhsIdx (ix2 r z) ((contrEquiv1 Dg 1024 Dg_rank Dg_size).symm k)) 1) = r := Fin.ext (Dg_lhs1 _ _)
    rw [e0, e1]
  ·
    rw [pay5_eq]
    congr 1
    refine Shape.idx_ext₂ ?_ ?_
    · exact (Dg_rhs0 _ _).trans hk
    · exact Dg_rhs1 _ _

theorem pay2_apply (j : S2048x20.Idx) : k8_pay2 (F := Ideal) j = 0 := by
  unfold k8_pay2
  simp only [shapeCast_self]
  show Ideal.ofBits .f32 0x00000000#32 = 0
  exact Ideal.ofBits_zero_f32

theorem Dh_l0 (j : S2048x200.Idx) (k : Dh.contr.Idx) : (Dh.lhsIdx j k 0).val = (j 0).val := rfl
theorem Dh_l1 (j : S2048x200.Idx) (k : Dh.contr.Idx) : (Dh.lhsIdx j k 1).val = (k ⟨0, by decide⟩).val := Dh.lhsIdx_val_of_single rfl j k
theorem Dh_r0 (j : S2048x200.Idx) (k : Dh.contr.Idx) : (Dh.rhsIdx j k 0).val = (k ⟨0, by decide⟩).val := Dh.rhsIdx_val_of_single rfl j k
theorem Dh_r1 (j : S2048x200.Idx) (k : Dh.contr.Idx) : (Dh.rhsIdx j k 1).val = (j 1).val := rfl
theorem Dq_l0 (j : S2048x20.Idx) (k : Dq.contr.Idx) : (Dq.lhsIdx j k 0).val = (j 0).val := rfl
theorem Dq_l1 (j : S2048x20.Idx) (k : Dq.contr.Idx) : (Dq.lhsIdx j k 1).val = (k ⟨0, by decide⟩).val := Dq.lhsIdx_val_of_single rfl j k
theorem Dq_r0 (j : S2048x20.Idx) (k : Dq.contr.Idx) : (Dq.rhsIdx j k 0).val = (k ⟨0, by decide⟩).val := Dq.rhsIdx_val_of_single rfl j k
theorem Dq_r1 (j : S2048x20.Idx) (k : Dq.contr.Idx) : (Dq.rhsIdx j k 1).val = (j 1).val := rfl
theorem Do_l0 (j : S2048x1.Idx) (k : Do.contr.Idx) : (Do.lhsIdx j k 0).val = (j 0).val := rfl
theorem Do_l1 (j : S2048x1.Idx) (k : Do.contr.Idx) : (Do.lhsIdx j k 1).val = (k ⟨0, by decide⟩).val := Do.lhsIdx_val_of_single rfl j k
theorem Do_r0 (j : S2048x1.Idx) (k : Do.contr.Idx) : (Do.rhsIdx j k 0).val = (k ⟨0, by decide⟩).val := Do.rhsIdx_val_of_single rfl j k
theorem Do_r1 (j : S2048x1.Idx) (k : Do.contr.Idx) : (Do.rhsIdx j k 1).val = (j 1).val := rfl

theorem dot_apply_of_coords {M K N : Nat} {φ₁ φ₂ : FTy} (D : DotDims ⟨2, ![M, K]⟩ ⟨2, ![K, N]⟩ ⟨2, ![M, N]⟩)
    (hrk : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (lhs : FVec Ideal ⟨2, ![M, K]⟩ φ₁) (rhs : FVec Ideal ⟨2, ![K, N]⟩ φ₂) (r : Fin M) (o : Fin N) :
    FloatOps.matmul (F := Ideal) D none lhs rhs (constant ⟨2, ![M, N]⟩ .f32 0x00000000#32) (ix2 r o)
      = ∑ k : Fin K, lhs (ix2 r k) * rhs (ix2 k o) := by
  refine (Ideal.matmul_constant_zero_apply D none lhs rhs (ix2 r o)).trans ?_
  rw [← Equiv.sum_comp (contrEquiv1 D K hrk hs).symm]
  refine Finset.sum_congr rfl fun k _ => ?_
  have hk := contrEquiv1_symm_val D K hrk hs k
  congr 1
  · congr 1
    exact Shape.idx_ext₂ (hl0 _ _) ((hl1 _ _).trans hk)
  · congr 1
    exact Shape.idx_ext₂ ((hr0 _ _).trans hk) (hr1 _ _)

theorem biasRow_apply {α : Type} {m n : Nat} (b : (⟨1, ![n]⟩ : Shape).Idx → α)
    (h1 : (⟨1, ![n]⟩ : Shape).ShapeCasts ⟨2, ![1, n]⟩) (h2 : (⟨2, ![1, n]⟩ : Shape).Broadcasts ⟨2, ![m, n]⟩)
    (r : Fin m) (o : Fin n) :
    broadcastTo ⟨2, ![m, n]⟩ (shapeCast ⟨2, ![1, n]⟩ b h1) h2 (ix2 r o) = b (ix1 o) := by
  refine (broadcastTo_apply _ h2 (ix2 r o) (ix2 (0 : Fin 1) o) ?_).trans ?_
  · intro a
    match a with
    | ⟨0, _⟩ => rfl
    | ⟨1, _⟩ =>
      show o.val = if n = 1 then 0 else o.val
      have := o.isLt
      split <;> omega
  · refine (shapeCast_addUnit_apply ![n] b h1 _).trans ?_
    congr 1
    funext a
    match a with
    | ⟨0, _⟩ => rfl

theorem cat_apply (xi xj : Vec Ideal S2048x20 .f32) (r : Fin 2048) (q : Fin (0x14 + 0x14)) :
    concatenate S2048x40 1 [⟨S2048x20, xi⟩, ⟨S2048x20, xj⟩] concatenates_S2048x20_S2048x20_S2048x40_d1 (ix2 r q)
      = Fin.append (fun k : Fin 0x14 => xi (ix2 r k)) (fun k : Fin 0x14 => xj (ix2 r k)) q := by
  rw [Spec.append_apply]
  by_cases h : q.val < 0x14
  · rw [dif_pos h]
    refine concatenate_pair_apply_left (1 : Fin 2) xi xj _ (ix2 r q) rfl (ix2 r ⟨q.val, h⟩) ?_
    intro b
    match b with
    | ⟨0, _⟩ => rfl
    | ⟨1, _⟩ => rfl
  · rw [dif_neg h]
    have hq := q.isLt
    refine concatenate_pair_apply_right (1 : Fin 2) xi xj _ (ix2 r q) rfl rfl (ix2 r ⟨q.val - 0x14, by omega⟩) ?_ ?_
    · intro b hb
      match b with
      | ⟨0, _⟩ => rfl
      | ⟨1, _⟩ => exact absurd rfl hb
    · show q.val - 0x14 + 0x14 = q.val
      omega

theorem pay1_apply (xi xj : Vec Ideal S2048x20 .f32) (Wm1 : Vec Ideal S40x200 .f32) (bm1 : Vec Ideal S200 .f32)
    (Wm2 : Vec Ideal S200x20 .f32) (bm2 : Vec Ideal S20 .f32) (W2 : Vec Ideal S20x1 .f32) (b2 : Vec Ideal S1 .f32)
    (r : Fin 2048) (o : Fin 0x1) :
    k8_pay1 (F := Ideal) xi xj Wm1 bm1 Wm2 bm2 W2 b2 (ix2 r o)
      = Spec.mlp (cin := 0x14) (Spec.mat Wm1) (Spec.vec bm1) (Spec.mat Wm2) (Spec.vec bm2) (Spec.mat W2) (Spec.vec b2)
          (fun k => xi (ix2 r k)) (fun k => xj (ix2 r k)) o := by
  unfold k8_pay1 Spec.mlp
  show FloatOps.matmul (F := Ideal) Do none _ _ (constant S2048x1 .f32 0x00000000#32) (ix2 r o)
      + broadcastTo S2048x1 (shapeCast _ b2 shapeCasts_S1_S1x1) broadcasts_S1x1_S2048x1 (ix2 r o) = _
  refine congrArg₂ (· + ·) ((dot_apply_of_coords Do Do_rank Do_size Do_l0 Do_l1 Do_r0 Do_r1 _ _ r o).trans ?_)
    (biasRow_apply b2 shapeCasts_S1_S1x1 broadcasts_S1x1_S2048x1 r o)
  refine Finset.sum_congr rfl fun k _ => congrArg₂ (· * ·) ?_ rfl

  show (FloatOps.matmul (F := Ideal) Dq none _ _ (constant S2048x20 .f32 0x00000000#32) (ix2 r k)
      + broadcastTo S2048x20 (shapeCast _ bm2 shapeCasts_S20_S1x20) broadcasts_S1x20_S2048x20 (ix2 r k))
      * (xi (ix2 r k) - xj (ix2 r k)) = _
  refine congrArg₂ (· * ·) (congrArg₂ (· + ·) ((dot_apply_of_coords Dq Dq_rank Dq_size Dq_l0 Dq_l1 Dq_r0 Dq_r1 _ _ r k).trans ?_)
    (biasRow_apply bm2 shapeCasts_S20_S1x20 broadcasts_S1x20_S2048x20 r k)) rfl
  refine Finset.sum_congr rfl fun j _ => congrArg₂ (· * ·) ?_ rfl

  show max (FloatOps.matmul (F := Ideal) Dh none _ _ (constant S2048x200 .f32 0x00000000#32) (ix2 r j)
      + broadcastTo S2048x200 (shapeCast _ bm1 shapeCasts_S200_S1x200) broadcasts_S1x200_S2048x200 (ix2 r j))
      (Ideal.ofBits .f32 0x00000000#32) = _
  rw [Ideal.ofBits_zero_f32]
  refine congrArg (max · 0) (congrArg₂ (· + ·) ((dot_apply_of_coords Dh Dh_rank Dh_size Dh_l0 Dh_l1 Dh_r0 Dh_r1 _ _ r j).trans ?_)
    (biasRow_apply bm1 shapeCasts_S200_S1x200 broadcasts_S1x200_S2048x200 r j))
  exact Finset.sum_congr rfl fun q _ => congrArg₂ (· * ·) (cat_apply xi xj r q) rfl

end P8

end Cert.KernelIdeal.Hand

end
-- ==== Proof.KI.V8.lean ====
import proofs.«415925_j84189948936386_1_alg».proof.Proof.KI.R8Dat
import proofs.«415925_j84189948936386_1_alg».proof.Proof.KI.P8
import proofs.«415925_j84189948936386_1_alg».proof.Proof.Spec
import Idealize.ShloMosaic.Lib.Pipeline.FrameBody
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

namespace R8

open P8

section Generic
variable {F : FTy → Type} [FloatOps F]
variable (V : (c : Dev nD) → (b : Ref sig .tc) → Buf (Elt F) ((c : Thread nD τ).loc b))

abbrev srcA (c : Dev nD) : Vec F S401408 .i32 := V c (Pipeline.arrRef spec8 0)
abbrev dstA (c : Dev nD) : Vec F S401408 .i32 := V c (Pipeline.arrRef spec8 1)
abbrev xA (c : Dev nD) : Vec F S25600x20 .f32 := V c (Pipeline.arrRef spec8 2)
abbrev Wm1A (c : Dev nD) : Vec F S40x200 .f32 := V c (Pipeline.arrRef spec8 3)
abbrev bm1A (c : Dev nD) : Vec F S200 .f32 := V c (Pipeline.arrRef spec8 4)
abbrev Wm2A (c : Dev nD) : Vec F S200x20 .f32 := V c (Pipeline.arrRef spec8 5)
abbrev bm2A (c : Dev nD) : Vec F S20 .f32 := V c (Pipeline.arrRef spec8 6)
abbrev W2A (c : Dev nD) : Vec F S20x1 .f32 := V c (Pipeline.arrRef spec8 7)
abbrev b2A (c : Dev nD) : Vec F S1 .f32 := V c (Pipeline.arrRef spec8 8)

abbrev srcB (c : Dev nD) (t : Fin cfg8.N) : Vec F S2048 .i32 := iblk8 V c 0 t
abbrev dstB (c : Dev nD) (t : Fin cfg8.N) : Vec F S2048 .i32 := iblk8 V c 1 t
abbrev xB (c : Dev nD) (t : Fin cfg8.N) : Vec F S1024x20 .f32 := iblk8 V c 2 t
abbrev Wm1B (c : Dev nD) (t : Fin cfg8.N) : Vec F S40x200 .f32 := iblk8 V c 3 t
abbrev bm1B (c : Dev nD) (t : Fin cfg8.N) : Vec F S200 .f32 := iblk8 V c 4 t
abbrev Wm2B (c : Dev nD) (t : Fin cfg8.N) : Vec F S200x20 .f32 := iblk8 V c 5 t
abbrev bm2B (c : Dev nD) (t : Fin cfg8.N) : Vec F S20 .f32 := iblk8 V c 6 t
abbrev W2B (c : Dev nD) (t : Fin cfg8.N) : Vec F S20x1 .f32 := iblk8 V c 7 t
abbrev b2B (c : Dev nD) (t : Fin cfg8.N) : Vec F S1 .f32 := iblk8 V c 8 t

theorem lt_N0 (t : Fin cfg8.N) : t.val < 4900 := by
  have h : t.val < cfg8.N := t.isLt
  have e : cfg8.N = 4900 := N_8
  omega

theorem coords8_0 (t : Fin cfg8.N) : ((grid8.coords t) 0).val = t.val / 25 := by
  have h := lt_N0 t
  show t.val / grid8.stride 0 % 196 = _
  rw [show grid8.stride 0 = 25 from by decide]
  omega

theorem coords8_1 (t : Fin cfg8.N) : ((grid8.coords t) 1).val = t.val % 25 := by
  show t.val / grid8.stride 1 % 25 = _
  rw [show grid8.stride 1 = 1 from by decide]
  omega

theorem toNat_ofNat32 (n : Nat) (h : n < 4294967296) : (BitVec.ofNat 32 n).toNat = n := by
  rw [BitVec.toNat_ofNat]
  exact Nat.mod_eq_of_lt h

theorem index0_0 (t : Fin cfg8.N) : win8_0.index t 0 = t.val / 25 := by
  have h := lt_N0 t
  show (BitVec.ofNat 32 ((grid8.coords t) 0).val).toNat = _
  rw [coords8_0, toNat_ofNat32 _ (by omega)]
theorem index0_1 (t : Fin cfg8.N) : win8_1.index t 0 = t.val / 25 := by
  have h := lt_N0 t
  show (BitVec.ofNat 32 ((grid8.coords t) 0).val).toNat = _
  rw [coords8_0, toNat_ofNat32 _ (by omega)]
theorem index0_2 (t : Fin cfg8.N) : win8_2.index t 0 = t.val % 25 ∧ win8_2.index t 1 = 0 := by
  refine ⟨?_, rfl⟩
  show (BitVec.ofNat 32 ((grid8.coords t) 1).val).toNat = _
  rw [coords8_1, toNat_ofNat32 _ (by omega)]
theorem index0_9 (t : Fin cfg8.N) : win8_9.index t 0 = t.val / 25 ∧ win8_9.index t 1 = 0 := by
  have h := lt_N0 t
  refine ⟨?_, rfl⟩
  show (BitVec.ofNat 32 ((grid8.coords t) 0).val).toNat = _
  rw [coords8_0, toNat_ofNat32 _ (by omega)]

theorem flush9_iff (t : Fin cfg8.N) : (cfg8.win 9).flush t = true ↔ t.val % 25 = 24 := by
  have hN : grid8.N = 4900 := N_8
  have ht := lt_N0 t
  show win8_9.flush t = true ↔ _
  unfold Pipeline.Window.flush
  simp only [Bool.and_eq_true, Bool.or_eq_true, decide_eq_true_eq]
  constructor
  · rintro ⟨-, h | ⟨h, hne⟩⟩
    · omega
    · by_contra hc
      apply hne
      funext a
      match a with
      | ⟨0, _⟩ =>
        show win8_9.index ⟨t.val + 1, h⟩ 0 = win8_9.index t 0
        rw [(index0_9 ⟨t.val + 1, h⟩).1, (index0_9 t).1]
        show (t.val + 1) / 25 = t.val / 25
        omega
      | ⟨1, _⟩ =>
        show win8_9.index ⟨t.val + 1, h⟩ 1 = win8_9.index t 1
        rw [(index0_9 ⟨t.val + 1, h⟩).2, (index0_9 t).2]
  · intro h24
    refine ⟨trivial, ?_⟩
    by_cases hl : t.val + 1 = grid8.N
    · exact Or.inl hl
    · have hlt : t.val + 1 < grid8.N := by omega
      refine Or.inr ⟨hlt, fun he => ?_⟩
      have h0 := congrFun he 0
      rw [(index0_9 ⟨t.val + 1, hlt⟩).1, (index0_9 t).1] at h0
      have h0' : (t.val + 1) / 25 = t.val / 25 := h0
      omega

theorem srcB_apply (c : Dev nD) (t : Fin cfg8.N) (r : Fin 2048) (e : Fin 401408) (he : e.val = 2048 * (t.val / 25) + r.val) :
    srcB V c t (ix1 r) = srcA V c (ix1 e) := by
  unfold srcB iblk8
  rw [View.read_apply]
  show V c _ _ = V c _ _
  congr 1
  funext a
  apply Fin.ext
  match a with
  | ⟨0, _⟩ => show win8_0.index t 0 * 2048 + 1 * r.val = e.val; rw [index0_0, he]; omega

theorem dstB_apply (c : Dev nD) (t : Fin cfg8.N) (r : Fin 2048) (e : Fin 401408) (he : e.val = 2048 * (t.val / 25) + r.val) :
    dstB V c t (ix1 r) = dstA V c (ix1 e) := by
  unfold dstB iblk8
  rw [View.read_apply]
  show V c _ _ = V c _ _
  congr 1
  funext a
  apply Fin.ext
  match a with
  | ⟨0, _⟩ => show win8_1.index t 0 * 2048 + 1 * r.val = e.val; rw [index0_1, he]; omega

theorem xB_apply (c : Dev nD) (t : Fin cfg8.N) (k : Fin 1024) (z : Fin 0x14) (n : Fin 25600) (hn : n.val = 1024 * (t.val % 25) + k.val) :
    xB V c t (ix2 k z) = xA V c (ix2 n z) := by
  unfold xB iblk8
  rw [View.read_apply]
  show V c _ _ = V c _ _
  congr 1
  funext a
  apply Fin.ext
  match a with
  | ⟨0, _⟩ => show win8_2.index t 0 * 1024 + 1 * k.val = n.val; rw [(index0_2 t).1, hn]; omega
  | ⟨1, _⟩ => show win8_2.index t 1 * 0x14 + 1 * z.val = z.val; rw [(index0_2 t).2]; omega

theorem Wm1B_eq (c : Dev nD) (t : Fin cfg8.N) : Wm1B V c t = Wm1A V c := by
  funext j
  unfold Wm1B iblk8
  rw [View.read_apply]
  show V c _ _ = V c _ _
  congr 1
  funext a
  apply Fin.ext
  match a with
  | ⟨0, _⟩ => show 0 * (0x14 + 0x14) + 1 * (j 0).val = (j 0).val; omega
  | ⟨1, _⟩ => show 0 * 200 + 1 * (j 1).val = (j 1).val; omega
theorem bm1B_eq (c : Dev nD) (t : Fin cfg8.N) : bm1B V c t = bm1A V c := by
  funext j
  unfold bm1B iblk8
  rw [View.read_apply]
  show V c _ _ = V c _ _
  congr 1
  funext a
  apply Fin.ext
  match a with
  | ⟨0, _⟩ => show 0 * 200 + 1 * (j 0).val = (j 0).val; omega
theorem Wm2B_eq (c : Dev nD) (t : Fin cfg8.N) : Wm2B V c t = Wm2A V c := by
  funext j
  unfold Wm2B iblk8
  rw [View.read_apply]
  show V c _ _ = V c _ _
  congr 1
  funext a
  apply Fin.ext
  match a with
  | ⟨0, _⟩ => show 0 * 200 + 1 * (j 0).val = (j 0).val; omega
  | ⟨1, _⟩ => show 0 * 0x14 + 1 * (j 1).val = (j 1).val; omega
theorem bm2B_eq (c : Dev nD) (t : Fin cfg8.N) : bm2B V c t = bm2A V c := by
  funext j
  unfold bm2B iblk8
  rw [View.read_apply]
  show V c _ _ = V c _ _
  congr 1
  funext a
  apply Fin.ext
  match a with
  | ⟨0, _⟩ => show 0 * 0x14 + 1 * (j 0).val = (j 0).val; omega
theorem W2B_eq (c : Dev nD) (t : Fin cfg8.N) : W2B V c t = W2A V c := by
  funext j
  unfold W2B iblk8
  rw [View.read_apply]
  show V c _ _ = V c _ _
  congr 1
  funext a
  apply Fin.ext
  match a with
  | ⟨0, _⟩ => show 0 * 0x14 + 1 * (j 0).val = (j 0).val; omega
  | ⟨1, _⟩ => show 0 * 0x1 + 1 * (j 1).val = (j 1).val; omega
theorem b2B_eq (c : Dev nD) (t : Fin cfg8.N) : b2B V c t = b2A V c := by
  funext j
  unfold b2B iblk8
  rw [View.read_apply]
  show V c _ _ = V c _ _
  congr 1
  funext a
  apply Fin.ext
  match a with
  | ⟨0, _⟩ => show 0 * 0x1 + 1 * (j 0).val = (j 0).val; omega

end Generic

section AtIdeal
variable (V : (c : Dev nD) → (b : Ref sig .tc) → Buf (Elt Ideal) ((c : Thread nD τ).loc b))

abbrev xcol (c : Dev nD) (z : Fin 0x14) : Fin 25600 → EReal := fun n => xA V c (ix2 n z)

theorem acc_step (c : Dev nD) (t : Fin cfg8.N) (idx : Vec Ideal S2048 .i32) (w : BitVec 32) (r : Fin 2048) (z : Fin 0x14)
    (hw : idx (ix1 r) = w) (prev : Vec Ideal S2048x20 .f32)
    (hprev : prev (ix2 r z) = Spec.gatherBelow (xcol V c z) (1024 * (t.val % 25)) w) :
    k8_pay6 (F := Ideal) (grid8.coords t) idx (xB V c t) prev (ix2 r z)
      = Spec.gatherBelow (xcol V c z) (1024 * (t.val % 25) + 1024) w := by
  have h25 : t.val % 25 < 25 := Nat.mod_lt _ (by decide)
  refine (pay6_apply (grid8.coords t) idx (xB V c t) prev r z).trans ?_
  rw [hprev, hw, coords8_1,
    ← Spec.gatherBelow_step (xcol V c z) (1024 * (t.val % 25)) 1024 (by omega) (by norm_num) w]
  refine congrArg (Spec.gatherBelow (xcol V c z) (1024 * (t.val % 25)) w + ·) (Finset.sum_congr rfl fun k _ => ?_)
  refine congrArg (fun y : EReal => (if BitVec.ofNat 32 (1024 * (t.val % 25) + k.val) = w then (1 : EReal) else 0) * y) ?_
  exact xB_apply V c t k z ⟨1024 * (t.val % 25) + k.val, by have := k.isLt; omega⟩ rfl

theorem scI8_val (c : Dev nD) : ∀ (n : ℕ) (h : n < cfg8.N) (r : Fin 2048) (z : Fin 0x14) (e : Fin 401408),
    e.val = 2048 * (n / 25) + r.val →
    scI8 V c n h (ix2 r z) = Spec.gatherBelow (xcol V c z) (1024 * (n % 25) + 1024) (dstA V c (ix1 e)) := by
  intro n
  induction n with
  | zero =>
    intro h r z e he
    refine (congrFun (scI8_eq V c ⟨0, h⟩) (ix2 r z)).trans ?_
    refine acc_step V c ⟨0, h⟩ (dstB V c ⟨0, h⟩) (dstA V c (ix1 e)) r z (dstB_apply V c ⟨0, h⟩ r e he) _ ?_
    show k8_pay2 (F := Ideal) (ix2 r z) = _
    rw [pay2_apply]
    exact (Spec.gatherBelow_zero _ _).symm
  | succ m ih =>
    intro h r z e he
    refine (congrFun (scI8_eq V c ⟨m + 1, h⟩) (ix2 r z)).trans ?_
    refine acc_step V c ⟨m + 1, h⟩ (dstB V c ⟨m + 1, h⟩) (dstA V c (ix1 e)) r z (dstB_apply V c ⟨m + 1, h⟩ r e he) _ ?_
    by_cases h0 : (m + 1) % 25 = 0
    · show (if (m + 1) % 25 = 0 then k8_pay2 (F := Ideal) else _) (ix2 r z) = _
      rw [if_pos h0, pay2_apply]
      show (0 : EReal) = Spec.gatherBelow (xcol V c z) (1024 * ((m + 1) % 25)) _
      rw [h0]
      exact (Spec.gatherBelow_zero _ _).symm
    · show (if (m + 1) % 25 = 0 then k8_pay2 (F := Ideal) else scI8 V c m _) (ix2 r z) = _
      rw [if_neg h0]
      have := ih (by omega) r z e (by omega)
      show _ = Spec.gatherBelow (xcol V c z) (1024 * ((m + 1) % 25)) _
      rw [show 1024 * ((m + 1) % 25) = 1024 * (m % 25) + 1024 from by omega]
      exact this

theorem scJ8_val (c : Dev nD) : ∀ (n : ℕ) (h : n < cfg8.N) (r : Fin 2048) (z : Fin 0x14) (e : Fin 401408),
    e.val = 2048 * (n / 25) + r.val →
    scJ8 V c n h (ix2 r z) = Spec.gatherBelow (xcol V c z) (1024 * (n % 25) + 1024) (srcA V c (ix1 e)) := by
  intro n
  induction n with
  | zero =>
    intro h r z e he
    refine (congrFun (scJ8_eq V c ⟨0, h⟩) (ix2 r z)).trans ?_
    refine acc_step V c ⟨0, h⟩ (srcB V c ⟨0, h⟩) (srcA V c (ix1 e)) r z (srcB_apply V c ⟨0, h⟩ r e he) _ ?_
    show k8_pay2 (F := Ideal) (ix2 r z) = _
    rw [pay2_apply]
    exact (Spec.gatherBelow_zero _ _).symm
  | succ m ih =>
    intro h r z e he
    refine (congrFun (scJ8_eq V c ⟨m + 1, h⟩) (ix2 r z)).trans ?_
    refine acc_step V c ⟨m + 1, h⟩ (srcB V c ⟨m + 1, h⟩) (srcA V c (ix1 e)) r z (srcB_apply V c ⟨m + 1, h⟩ r e he) _ ?_
    by_cases h0 : (m + 1) % 25 = 0
    · show (if (m + 1) % 25 = 0 then k8_pay2 (F := Ideal) else _) (ix2 r z) = _
      rw [if_pos h0, pay2_apply]
      show (0 : EReal) = Spec.gatherBelow (xcol V c z) (1024 * ((m + 1) % 25)) _
      rw [h0]
      exact (Spec.gatherBelow_zero _ _).symm
    · show (if (m + 1) % 25 = 0 then k8_pay2 (F := Ideal) else scJ8 V c m _) (ix2 r z) = _
      rw [if_neg h0]
      have := ih (by omega) r z e (by omega)
      show _ = Spec.gatherBelow (xcol V c z) (1024 * ((m + 1) % 25)) _
      rw [show 1024 * ((m + 1) % 25) = 1024 * (m % 25) + 1024 from by omega]
      exact this

theorem scI8_last (c : Dev nD) (t : Fin cfg8.N) (h24 : t.val % 25 = 24) (r : Fin 2048) (z : Fin 0x14) (e : Fin 401408)
    (he : e.val = 2048 * (t.val / 25) + r.val) :
    scI8 V c t.val t.isLt (ix2 r z) = Spec.gatherAt (xcol V c z) (dstA V c (ix1 e)) := by
  rw [scI8_val V c t.val t.isLt r z e he, h24]
  exact Spec.gatherBelow_all _ _
theorem scJ8_last (c : Dev nD) (t : Fin cfg8.N) (h24 : t.val % 25 = 24) (r : Fin 2048) (z : Fin 0x14) (e : Fin 401408)
    (he : e.val = 2048 * (t.val / 25) + r.val) :
    scJ8 V c t.val t.isLt (ix2 r z) = Spec.gatherAt (xcol V c z) (srcA V c (ix1 e)) := by
  rw [scJ8_val V c t.val t.isLt r z e he, h24]
  exact Spec.gatherBelow_all _ _

def G0 (c : Dev nD) : Vec Ideal S401408x1 .f32 := fun i =>
  Spec.gatherMsg (cin := 0x14) (Spec.vec (srcA V c)) (Spec.vec (dstA V c)) (Spec.mat (xA V c)) (Spec.mat (Wm1A V c))
    (Spec.vec (bm1A V c)) (Spec.mat (Wm2A V c)) (Spec.vec (bm2A V c)) (Spec.mat (W2A V c)) (Spec.vec (b2A V c)) (i 0) (i 1)

theorem flushed_eq (c : Dev nD) (t : Fin cfg8.N) (hf : (cfg8.win 9).flush t = true) :
    (dat8 V c).flushed 9 t = ((cfg8.win 9).blk t).view.read (Elt Ideal) (G0 V c) := by
  have h24 : t.val % 25 = 24 := (flush9_iff t).mp hf
  have hN := lt_N0 t
  show (cfg8.win 9).cut (grid8.coords t) ((dat8 V c).after 9 t) = _
  rw [after8_9_flush V c t h24]
  refine funext fun (j : S2048x1.Idx) => ?_
  obtain ⟨r, o, rfl⟩ : ∃ (r : Fin 2048) (o : Fin 0x1), j = ix2 r o := ⟨j 0, j 1, eq_ix2 j⟩
  have hr := r.isLt
  rw [View.read_apply]
  show k8_pay1 (F := Ideal) (scI8 V c t.val t.isLt) (scJ8 V c t.val t.isLt) (Wm1B V c t) (bm1B V c t) (Wm2B V c t)
      (bm2B V c t) (W2B V c t) (b2B V c t) (ix2 r o) = G0 V c (((cfg8.win 9).blk t).view.emb (ix2 r o))
  rw [Wm1B_eq, bm1B_eq, Wm2B_eq, bm2B_eq, W2B_eq, b2B_eq]
  refine (pay1_apply _ _ _ _ _ _ _ _ r o).trans ?_

  have he : (⟨2048 * (t.val / 25) + r.val, by omega⟩ : Fin 401408).val = 2048 * (t.val / 25) + r.val := rfl
  have hxi : (fun k : Fin 0x14 => scI8 V c t.val t.isLt (ix2 r k))
      = fun k => Spec.gatherAt (fun n => Spec.mat (xA V c) n k) (Spec.vec (dstA V c) ⟨2048 * (t.val / 25) + r.val, by omega⟩) :=
    funext fun k => scI8_last V c t h24 r k _ he
  have hxj : (fun k : Fin 0x14 => scJ8 V c t.val t.isLt (ix2 r k))
      = fun k => Spec.gatherAt (fun n => Spec.mat (xA V c) n k) (Spec.vec (srcA V c) ⟨2048 * (t.val / 25) + r.val, by omega⟩) :=
    funext fun k => scJ8_last V c t h24 r k _ he
  rw [hxi, hxj]
  unfold G0 Spec.gatherMsg
  have e0 : (((cfg8.win 9).blk t).view.emb (ix2 r o)) 0 = (⟨2048 * (t.val / 25) + r.val, by omega⟩ : Fin 401408) := by
    apply Fin.ext
    show win8_9.index t 0 * 2048 + 1 * r.val = 2048 * (t.val / 25) + r.val
    rw [(index0_9 t).1]; omega
  have e1 : (((cfg8.win 9).blk t).view.emb (ix2 r o)) 1 = o := by
    apply Fin.ext
    show win8_9.index t 1 * 0x1 + 1 * o.val = o.val
    rw [(index0_9 t).2]; omega
  rw [e0, e1]

theorem mem_blk9 (t : Fin cfg8.N) (i : S401408x1.Idx) :
    i ∈ ((cfg8.win 9).blk t).view.set ↔ ∀ a : Fin 2, win8_9.index t a * S2048x1.size a ≤ (i a).val
      ∧ (i a).val < win8_9.index t a * S2048x1.size a + S2048x1.size a := by
  show i ∈ ((View.whole main_v15).slice (win8_9.rect t)).set ↔ _
  rw [View.set_slice_whole, Rect.mem_set_unit]
  exact Iff.rfl

end AtIdeal

end R8

theorem out8_value (V : (c : Dev nD) → (b : Ref sig .tc) → Buf (Elt Ideal) ((c : Thread nD τ).loc b)) (c : Dev nD) :
    (dat8 V c).arrAt 9 cfg8.N = R8.G0 V c :=
  (dat8 V c).arrAt_eq_of_cover 9 (R8.G0 V c) (R8.flushed_eq V c) fun i => by
    have hi0 : (i 0).val < 401408 := (i 0).isLt
    have hi1 : (i 1).val < 0x1 := (i 1).isLt
    have hlt : (i 0).val / 2048 * 25 + 24 < cfg8.N := by rw [show cfg8.N = 4900 from N_8]; omega
    refine ⟨⟨(i 0).val / 2048 * 25 + 24, hlt⟩, (R8.flush9_iff _).mpr (by show ((i 0).val / 2048 * 25 + 24) % 25 = 24; omega), ?_⟩
    have q := R8.index0_9 ⟨(i 0).val / 2048 * 25 + 24, hlt⟩
    refine (R8.mem_blk9 ⟨(i 0).val / 2048 * 25 + 24, hlt⟩ i).mpr ?_
    intro a
    match a with
    | ⟨0, _⟩ =>
      show win8_9.index _ 0 * 2048 ≤ (i 0).val ∧ (i 0).val < win8_9.index _ 0 * 2048 + 2048
      rw [q.1]
      show ((i 0).val / 2048 * 25 + 24) / 25 * 2048 ≤ (i 0).val ∧ (i 0).val < ((i 0).val / 2048 * 25 + 24) / 25 * 2048 + 2048
      omega
    | ⟨1, _⟩ =>
      show win8_9.index _ 1 * 0x1 ≤ (i 1).val ∧ (i 1).val < win8_9.index _ 1 * 0x1 + 0x1
      rw [q.2]
      omega

end Cert.KernelIdeal.Hand

end
-- ==== Proof.KI.Post9.lean ====
import proofs.«415925_j84189948936386_1_alg».proof.Proof.Gen.KernelIdeal.Skeleton
import proofs.«415925_j84189948936386_1_alg».proof.Proof.Spec
import Idealize.ShloMosaic.PureOps.Ideal.Laws

noncomputable section

namespace Cert.KernelIdeal.Hand.R9

open Cert.KernelIdeal Cert.KernelIdeal.Gen Idealize.ShloMosaic

abbrev relu9 : Bool := false

theorem post9_apply (v : FVec Ideal S1024x1 .f32) (j : S1024x1.Idx) : v j = Cert.Spec.act relu9 (v j) := rfl

end Cert.KernelIdeal.Hand.R9

end
-- ==== Proof.KI.P9.lean ====
import proofs.«415925_j84189948936386_1_alg».proof.Proof.Gen.KernelIdeal.Launch
import proofs.«415925_j84189948936386_1_alg».proof.Proof.Gen.KernelIdeal.Skeleton
import proofs.«415925_j84189948936386_1_alg».proof.Proof.KI.Post9
import proofs.«415925_j84189948936386_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

namespace P9

open R9 (relu9 post9_apply)

theorem oh_word (a b : BitVec 32) :
    (FloatOps.sitofp .f32 ((IntOp.cmpi .eq a b).setWidth 32) : Ideal .f32) = if a = b then (1 : EReal) else 0 := by
  by_cases h : a = b
  · subst h
    rw [if_pos rfl]
    have hc : IntOp.cmpi .eq a a = 1#1 := by simp [IntOp.cmpi]
    rw [hc]
    show (((BitVec.setWidth 32 (1#1)).toInt : ℝ) : EReal) = 1
    rw [show (BitVec.setWidth 32 (1#1)).toInt = 1 from by decide]
    simp
  · rw [if_neg h]
    have hb : (a == b) = false := beq_eq_false_iff_ne.mpr h
    have hc : IntOp.cmpi .eq a b = 0#1 := by simp [IntOp.cmpi, hb]
    rw [hc]
    show (((BitVec.setWidth 32 (0#1)).toInt : ℝ) : EReal) = 0
    rw [show (BitVec.setWidth 32 (0#1)).toInt = 0 from by decide]
    simp

theorem node_word (nb r : ℕ) :
    IntOp.addi (Scalar.muli (BitVec.ofNat 32 nb) 1024#32) (BitVec.ofNat 32 r) = BitVec.ofNat 32 (1024 * nb + r) := by
  apply BitVec.eq_of_toNat_eq
  simp only [IntOp.addi, Scalar.muli, IntOp.muli, BitVec.toNat_add, BitVec.toNat_mul, BitVec.toNat_ofNat]
  omega

theorem lhs_scat_row (j : S1024x1.Idx) (k : dot_S1024x2048_S2048x1_S1024x1_1_0_0_1_n_n.contr.Idx) :
    (dot_S1024x2048_S2048x1_S1024x1_1_0_0_1_n_n.lhsIdx j k 0).val = (j 0).val := by
  unfold DotDims.lhsIdx
  rw [dif_neg (show ¬(0 : Fin S1024x2048.rank) ∈ dot_S1024x2048_S2048x1_S1024x1_1_0_0_1_n_n.lhsBatch from by decide),
    dif_pos (show (0 : Fin S1024x2048.rank) ∈ dot_S1024x2048_S2048x1_S1024x1_1_0_0_1_n_n.lhsNonContracting from by decide)]
  rfl

theorem lhs_scat_col (j : S1024x1.Idx) (k : dot_S1024x2048_S2048x1_S1024x1_1_0_0_1_n_n.contr.Idx) :
    (dot_S1024x2048_S2048x1_S1024x1_1_0_0_1_n_n.lhsIdx j k 1).val = (k ⟨0, by decide⟩).val :=
  dot_S1024x2048_S2048x1_S1024x1_1_0_0_1_n_n.lhsIdx_val_of_single (cl := 1) rfl j k

theorem rhs_scat_row (j : S1024x1.Idx) (k : dot_S1024x2048_S2048x1_S1024x1_1_0_0_1_n_n.contr.Idx) :
    (dot_S1024x2048_S2048x1_S1024x1_1_0_0_1_n_n.rhsIdx j k 0).val = (k ⟨0, by decide⟩).val :=
  dot_S1024x2048_S2048x1_S1024x1_1_0_0_1_n_n.rhsIdx_val_of_single (cr := 0) rfl j k

theorem rhs_scat_col (j : S1024x1.Idx) (k : dot_S1024x2048_S2048x1_S1024x1_1_0_0_1_n_n.contr.Idx) :
    (dot_S1024x2048_S2048x1_S1024x1_1_0_0_1_n_n.rhsIdx j k 1).val = (j 1).val := by
  unfold DotDims.rhsIdx
  rw [dif_neg (show ¬(1 : Fin S2048x1.rank) ∈ dot_S1024x2048_S2048x1_S1024x1_1_0_0_1_n_n.rhsBatch from by decide),
    dif_pos (show (1 : Fin S2048x1.rank) ∈ dot_S1024x2048_S2048x1_S1024x1_1_0_0_1_n_n.rhsNonContracting from by decide)]
  rfl

theorem scat_matmul_apply (L : FVec Ideal S1024x2048 .bf16) (R : FVec Ideal S2048x1 .bf16) (r : Fin 1024) (q : Fin 0x1) :
    matmul dot_S1024x2048_S2048x1_S1024x1_1_0_0_1_n_n none L R (constant S1024x1 .f32 0x00000000#32) (ix2 r q)
      = ∑ e : Fin 2048, L (ix2 r e) * R (ix2 e q) := by
  refine (Ideal.matmul_constant_zero_apply dot_S1024x2048_S2048x1_S1024x1_1_0_0_1_n_n none L R (ix2 r q)).trans ?_
  refine (Equiv.sum_comp (contrEquiv1 dot_S1024x2048_S2048x1_S1024x1_1_0_0_1_n_n 2048 rfl rfl).symm _).symm.trans ?_
  refine Finset.sum_congr rfl fun e _ => ?_
  refine congrArg₂ (· * ·) (congrArg L ?_) (congrArg R ?_)
  · exact Shape.idx_ext₂ (lhs_scat_row _ _)
      ((lhs_scat_col _ _).trans (contrEquiv1_symm_val dot_S1024x2048_S2048x1_S1024x1_1_0_0_1_n_n 2048 rfl rfl e))
  · exact Shape.idx_ext₂
      ((rhs_scat_row _ _).trans (contrEquiv1_symm_val dot_S1024x2048_S2048x1_S1024x1_1_0_0_1_n_n 2048 rfl rfl e))
      (rhs_scat_col _ _)

theorem lhs_res_row (j : S1024x1.Idx) (k : dot_S1024x20_S20x1_S1024x1_1_0_0_1_n_n.contr.Idx) :
    (dot_S1024x20_S20x1_S1024x1_1_0_0_1_n_n.lhsIdx j k 0).val = (j 0).val := by
  unfold DotDims.lhsIdx
  rw [dif_neg (show ¬(0 : Fin S1024x20.rank) ∈ dot_S1024x20_S20x1_S1024x1_1_0_0_1_n_n.lhsBatch from by decide),
    dif_pos (show (0 : Fin S1024x20.rank) ∈ dot_S1024x20_S20x1_S1024x1_1_0_0_1_n_n.lhsNonContracting from by decide)]
  rfl

theorem lhs_res_col (j : S1024x1.Idx) (k : dot_S1024x20_S20x1_S1024x1_1_0_0_1_n_n.contr.Idx) :
    (dot_S1024x20_S20x1_S1024x1_1_0_0_1_n_n.lhsIdx j k 1).val = (k ⟨0, by decide⟩).val :=
  dot_S1024x20_S20x1_S1024x1_1_0_0_1_n_n.lhsIdx_val_of_single (cl := 1) rfl j k

theorem rhs_res_row (j : S1024x1.Idx) (k : dot_S1024x20_S20x1_S1024x1_1_0_0_1_n_n.contr.Idx) :
    (dot_S1024x20_S20x1_S1024x1_1_0_0_1_n_n.rhsIdx j k 0).val = (k ⟨0, by decide⟩).val :=
  dot_S1024x20_S20x1_S1024x1_1_0_0_1_n_n.rhsIdx_val_of_single (cr := 0) rfl j k

theorem rhs_res_col (j : S1024x1.Idx) (k : dot_S1024x20_S20x1_S1024x1_1_0_0_1_n_n.contr.Idx) :
    (dot_S1024x20_S20x1_S1024x1_1_0_0_1_n_n.rhsIdx j k 1).val = (j 1).val := by
  unfold DotDims.rhsIdx
  rw [dif_neg (show ¬(1 : Fin S20x1.rank) ∈ dot_S1024x20_S20x1_S1024x1_1_0_0_1_n_n.rhsBatch from by decide),
    dif_pos (show (1 : Fin S20x1.rank) ∈ dot_S1024x20_S20x1_S1024x1_1_0_0_1_n_n.rhsNonContracting from by decide)]
  rfl

theorem res_matmul_apply (L : FVec Ideal S1024x20 .bf16) (R : FVec Ideal S20x1 .bf16) (r : Fin 1024) (q : Fin 0x1) :
    matmul dot_S1024x20_S20x1_S1024x1_1_0_0_1_n_n none L R (constant S1024x1 .f32 0x00000000#32) (ix2 r q)
      = ∑ p : Fin 0x14, L (ix2 r p) * R (ix2 p q) := by
  refine (Ideal.matmul_constant_zero_apply dot_S1024x20_S20x1_S1024x1_1_0_0_1_n_n none L R (ix2 r q)).trans ?_
  refine (Equiv.sum_comp (contrEquiv1 dot_S1024x20_S20x1_S1024x1_1_0_0_1_n_n 0x14 rfl rfl).symm _).symm.trans ?_
  refine Finset.sum_congr rfl fun p _ => ?_
  refine congrArg₂ (· * ·) (congrArg L ?_) (congrArg R ?_)
  · exact Shape.idx_ext₂ (lhs_res_row _ _)
      ((lhs_res_col _ _).trans (contrEquiv1_symm_val dot_S1024x20_S20x1_S1024x1_1_0_0_1_n_n 0x14 rfl rfl p))
  · exact Shape.idx_ext₂
      ((rhs_res_row _ _).trans (contrEquiv1_symm_val dot_S1024x20_S20x1_S1024x1_1_0_0_1_n_n 0x14 rfl rfl p))
      (rhs_res_col _ _)

theorem dstRow_apply (d : Vec Ideal S2048 .i32) (r : Fin 1024) (e : Fin 2048) :
    broadcastTo S1024x2048 (shapeCast S1x2048 (shapeCast S2048 d shapeCasts_S2048_S2048) shapeCasts_S2048_S1x2048)
      broadcasts_S1x2048_S1024x2048 (ix2 r e) = d (ix1 e) := by
  rw [shapeCast_self]
  refine (broadcastTo_apply _ broadcasts_S1x2048_S1024x2048 (ix2 r e) (ix2 (0 : Fin 1) e) (fun a => ?_)).trans ?_
  · match a with
    | ⟨0, _⟩ => rfl
    | ⟨1, _⟩ => rfl
  · refine shapeCast_apply d shapeCasts_S2048_S1x2048 (ix2 (0 : Fin 1) e) (ix1 e) ?_
    rw [Shape.rowMajor_val_one, Shape.rowMajor_val_two]
    show e.val = 0 * 2048 + e.val
    omega

theorem biasRow_apply (b : Vec Ideal S1 .f32) (r : Fin 1024) (q : Fin 0x1) :
    broadcastTo S1024x1 (shapeCast _ b shapeCasts_S1_S1x1) broadcasts_S1x1_S1024x1 (ix2 r q) = b (ix1 q) := by
  refine (broadcastTo_apply _ broadcasts_S1x1_S1024x1 (ix2 r q) (ix2 (0 : Fin 1) q) (fun a => ?_)).trans ?_
  · match a with
    | ⟨0, _⟩ => rfl
    | ⟨1, _⟩ =>
      show q.val = if (0x1 : ℕ) = 1 then 0 else q.val
      have := q.isLt
      split <;> omega
  · refine shapeCast_apply b shapeCasts_S1_S1x1 (ix2 (0 : Fin 1) q) (ix1 q) ?_
    rw [Shape.rowMajor_val_one, Shape.rowMajor_val_two]
    show q.val = 0 * 0x1 + q.val
    omega

theorem reset_apply (j : S1024x1.Idx) : (k9_pay1 (F := Ideal)) j = 0 := by
  unfold k9_pay1
  refine (congrFun (shapeCast_self _ _) j).trans ?_
  exact Ideal.ofBits_zero_f32

theorem step_apply (i : grid9.Coords) (d : Vec Ideal S2048 .i32) (mg : Vec Ideal S2048x1 .f32) (acc : Vec Ideal S1024x1 .f32)
    (r : Fin 1024) (q : Fin 0x1) :
    k9_pay2 i d mg acc (ix2 r q) = acc (ix2 r q)
      + ∑ e : Fin 2048, (if BitVec.ofNat 32 (1024 * (i 0).val + r.val) = d (ix1 e) then (1 : EReal) else 0) * mg (ix2 e q) := by
  unfold k9_pay2
  refine (congrFun (shapeCast_self _ _) (ix2 r q)).trans ?_
  show acc (ix2 r q) + matmul (F := Ideal) dot_S1024x2048_S2048x1_S1024x1_1_0_0_1_n_n none _ _ (constant (F := Ideal) S1024x1 .f32 0x00000000#32) (ix2 r q) = _
  refine congrArg (acc (ix2 r q) + ·) ?_
  refine (scat_matmul_apply _ _ r q).trans ?_
  refine Finset.sum_congr rfl fun e _ => ?_
  refine congrArg₂ (· * ·) ?_ ?_
  · have hi : iota .tc S1024x2048 32 [0] iota_S1024x2048_d0_w32 (ix2 r e) = BitVec.ofNat 32 r.val :=
      iota_single_apply .tc S1024x2048 32 0 iota_S1024x2048_d0_w32 (ix2 r e)
    have hd := dstRow_apply d r e
    show (FloatOps.sitofp .f32 ((IntOp.cmpi .eq
        (IntOp.addi (Scalar.muli (BitVec.ofNat 32 (i 0).val) 1024#32) (iota .tc S1024x2048 32 [0] iota_S1024x2048_d0_w32 (ix2 r e)))
        (broadcastTo S1024x2048 (shapeCast S1x2048 (shapeCast S2048 d shapeCasts_S2048_S2048) shapeCasts_S2048_S1x2048)
          broadcasts_S1x2048_S1024x2048 (ix2 r e))).setWidth 32) : Ideal .f32) = _
    rw [hi, hd, node_word, oh_word]
  · exact congrFun (shapeCast_self mg shapeCasts_S2048x1_S2048x1) (ix2 e q)

theorem last_apply (xb : Vec Ideal S1024x20 .f32) (wb : Vec Ideal S20x1 .f32) (bb : Vec Ideal S1 .f32) (acc : Vec Ideal S1024x1 .f32)
    (r : Fin 1024) (q : Fin 0x1) :
    k9_pay3 xb wb bb acc (ix2 r q)
      = Cert.Spec.act relu9 (acc (ix2 r q) + ((∑ p : Fin 0x14, xb (ix2 r p) * wb (ix2 p q)) + bb (ix1 q))) := by
  unfold k9_pay3
  refine (post9_apply _ (ix2 r q)).trans ?_
  refine congrArg (Cert.Spec.act relu9) ?_
  show acc (ix2 r q)
      + (matmul (F := Ideal) dot_S1024x20_S20x1_S1024x1_1_0_0_1_n_n none (truncf (F := Ideal) .bf16 (shapeCast S1024x20 xb shapeCasts_S1024x20_S1024x20) bitsLt_bf16_f32)
            (truncf (F := Ideal) .bf16 wb bitsLt_bf16_f32) (constant (F := Ideal) S1024x1 .f32 0x00000000#32) (ix2 r q)
          + broadcastTo S1024x1 (shapeCast _ bb shapeCasts_S1_S1x1) broadcasts_S1x1_S1024x1 (ix2 r q)) = _
  rw [shapeCast_self, res_matmul_apply, biasRow_apply]
  rfl

end P9

end Cert.KernelIdeal.Hand

end
-- ==== Proof.KI.V9.lean ====
import proofs.«415925_j84189948936386_1_alg».proof.Proof.KI.R9Dat
import proofs.«415925_j84189948936386_1_alg».proof.Proof.KI.P9
import proofs.«415925_j84189948936386_1_alg».proof.Proof.KI.Post9
import proofs.«415925_j84189948936386_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

namespace R9

open P9

section Value

variable (V : (c : Dev nD) → (b : Ref sig .tc) → Buf (Elt Ideal) ((c : Thread nD τ).loc b))

abbrev dstArr (c : Dev nD) : S401408.Idx → BitVec 32 := V c (Pipeline.arrRef spec9 0)

abbrev msgArr (c : Dev nD) : S401408x1.Idx → Ideal .f32 := V c (Pipeline.arrRef spec9 1)

abbrev xArr (c : Dev nD) : S25600x20.Idx → Ideal .f32 := V c (Pipeline.arrRef spec9 2)

abbrev w1Arr (c : Dev nD) : S20x1.Idx → Ideal .f32 := V c (Pipeline.arrRef spec9 3)

abbrev b1Arr (c : Dev nD) : S1.Idx → Ideal .f32 := V c (Pipeline.arrRef spec9 4)

abbrev dstBlk (c : Dev nD) (t : Fin cfg9.N) : Vec Ideal S2048 .i32 := iblk9 V c 0 t
abbrev msgBlk (c : Dev nD) (t : Fin cfg9.N) : Vec Ideal S2048x1 .f32 := iblk9 V c 1 t
abbrev xBlk (c : Dev nD) (t : Fin cfg9.N) : Vec Ideal S1024x20 .f32 := iblk9 V c 2 t
abbrev w1Blk (c : Dev nD) (t : Fin cfg9.N) : Vec Ideal S20x1 .f32 := iblk9 V c 3 t
abbrev b1Blk (c : Dev nD) (t : Fin cfg9.N) : Vec Ideal S1 .f32 := iblk9 V c 4 t

theorem lt_N1 (t : Fin cfg9.N) : t.val < 4900 := by
  have h : t.val < grid9.N := t.isLt
  rw [N_9] at h
  exact h

theorem coords9_0 (t : Fin cfg9.N) : ((grid9.coords t) 0).val = t.val / 196 := by
  have ht := lt_N1 t
  show t.val / grid9.stride 0 % 25 = t.val / 196
  rw [show grid9.stride 0 = 196 from by decide]
  omega

theorem coords9_1 (t : Fin cfg9.N) : ((grid9.coords t) 1).val = t.val % 196 := by
  show t.val / grid9.stride 1 % 196 = t.val % 196
  rw [show grid9.stride 1 = 1 from by decide, Nat.div_one]

theorem toNat_ofNat_small {n : ℕ} (h : n < 4900) : (BitVec.ofNat 32 n).toNat = n := by
  rw [BitVec.toNat_ofNat]
  omega

theorem idx_dst (t : Fin cfg9.N) : win9_0.index t 0 = t.val % 196 := by
  show (BitVec.ofNat 32 ((grid9.coords t) 1).val).toNat = t.val % 196
  rw [coords9_1]
  exact toNat_ofNat_small (by omega)

theorem idx_msg (t : Fin cfg9.N) : win9_1.index t 0 = t.val % 196 ∧ win9_1.index t 1 = 0 := by
  refine ⟨?_, rfl⟩
  show (BitVec.ofNat 32 ((grid9.coords t) 1).val).toNat = t.val % 196
  rw [coords9_1]
  exact toNat_ofNat_small (by omega)

theorem idx_x (t : Fin cfg9.N) : win9_2.index t 0 = t.val / 196 ∧ win9_2.index t 1 = 0 := by
  have ht := lt_N1 t
  refine ⟨?_, rfl⟩
  show (BitVec.ofNat 32 ((grid9.coords t) 0).val).toNat = t.val / 196
  rw [coords9_0]
  exact toNat_ofNat_small (by omega)

theorem idx_out (t : Fin cfg9.N) : win9_5.index t 0 = t.val / 196 ∧ win9_5.index t 1 = 0 := by
  have ht := lt_N1 t
  refine ⟨?_, rfl⟩
  show (BitVec.ofNat 32 ((grid9.coords t) 0).val).toNat = t.val / 196
  rw [coords9_0]
  exact toNat_ofNat_small (by omega)

theorem idx_w1 (t : Fin cfg9.N) : win9_3.index t 0 = 0 ∧ win9_3.index t 1 = 0 := ⟨rfl, rfl⟩
theorem idx_b1 (t : Fin cfg9.N) : win9_4.index t 0 = 0 := rfl

theorem dstBlk_apply (c : Dev nD) (t : Fin cfg9.N) (e : Fin 2048) (k : S401408.Idx)
    (hk : (k 0).val = 2048 * (t.val % 196) + e.val) : dstBlk V c t (ix1 e) = dstArr V c k := by
  show ((cfg9.win 0).blk t).view.read (Elt Ideal) (V c (Pipeline.arrRef spec9 0)) (ix1 e) = V c (Pipeline.arrRef spec9 0) k
  rw [View.read_apply]
  show V c (Pipeline.arrRef spec9 0) (((cfg9.win 0).blk t).view.emb (ix1 e)) = V c (Pipeline.arrRef spec9 0) k
  refine congrArg _ (funext fun a => Fin.ext ?_)
  match a with
  | ⟨0, _⟩ =>
    show win9_0.index t 0 * 2048 + 1 * e.val = (k 0).val
    rw [idx_dst, hk]; omega

theorem msgBlk_apply (c : Dev nD) (t : Fin cfg9.N) (e : Fin 2048) (q : Fin 0x1) (k : S401408x1.Idx)
    (hk0 : (k 0).val = 2048 * (t.val % 196) + e.val) (hk1 : (k 1).val = q.val) :
    msgBlk V c t (ix2 e q) = msgArr V c k := by
  show ((cfg9.win 1).blk t).view.read (Elt Ideal) (V c (Pipeline.arrRef spec9 1)) (ix2 e q) = V c (Pipeline.arrRef spec9 1) k
  rw [View.read_apply]
  show V c (Pipeline.arrRef spec9 1) (((cfg9.win 1).blk t).view.emb (ix2 e q)) = V c (Pipeline.arrRef spec9 1) k
  refine congrArg _ (funext fun a => Fin.ext ?_)
  match a with
  | ⟨0, _⟩ =>
    show win9_1.index t 0 * 2048 + 1 * e.val = (k 0).val
    rw [(idx_msg t).1, hk0]; omega
  | ⟨1, _⟩ =>
    show win9_1.index t 1 * 0x1 + 1 * q.val = (k 1).val
    rw [(idx_msg t).2, hk1]; omega

theorem xBlk_apply (c : Dev nD) (t : Fin cfg9.N) (r : Fin 1024) (p : Fin 0x14) (k : S25600x20.Idx)
    (hk0 : (k 0).val = 1024 * (t.val / 196) + r.val) (hk1 : (k 1).val = p.val) :
    xBlk V c t (ix2 r p) = xArr V c k := by
  show ((cfg9.win 2).blk t).view.read (Elt Ideal) (V c (Pipeline.arrRef spec9 2)) (ix2 r p) = V c (Pipeline.arrRef spec9 2) k
  rw [View.read_apply]
  show V c (Pipeline.arrRef spec9 2) (((cfg9.win 2).blk t).view.emb (ix2 r p)) = V c (Pipeline.arrRef spec9 2) k
  refine congrArg _ (funext fun a => Fin.ext ?_)
  match a with
  | ⟨0, _⟩ =>
    show win9_2.index t 0 * 1024 + 1 * r.val = (k 0).val
    rw [(idx_x t).1, hk0]; omega
  | ⟨1, _⟩ =>
    show win9_2.index t 1 * 0x14 + 1 * p.val = (k 1).val
    rw [(idx_x t).2, hk1]; omega

theorem w1Blk_apply (c : Dev nD) (t : Fin cfg9.N) (p : Fin 0x14) (q : Fin 0x1) :
    w1Blk V c t (ix2 p q) = w1Arr V c (ix2 p q) := by
  show ((cfg9.win 3).blk t).view.read (Elt Ideal) (V c (Pipeline.arrRef spec9 3)) (ix2 p q) = V c (Pipeline.arrRef spec9 3) (ix2 p q)
  rw [View.read_apply]
  show V c (Pipeline.arrRef spec9 3) (((cfg9.win 3).blk t).view.emb (ix2 p q)) = V c (Pipeline.arrRef spec9 3) (ix2 p q)
  refine congrArg _ (funext fun a => Fin.ext ?_)
  match a with
  | ⟨0, _⟩ =>
    show win9_3.index t 0 * 0x14 + 1 * p.val = p.val
    rw [(idx_w1 t).1]; omega
  | ⟨1, _⟩ =>
    show win9_3.index t 1 * 0x1 + 1 * q.val = q.val
    rw [(idx_w1 t).2]; omega

theorem b1Blk_apply (c : Dev nD) (t : Fin cfg9.N) (q : Fin 0x1) : b1Blk V c t (ix1 q) = b1Arr V c (ix1 q) := by
  show ((cfg9.win 4).blk t).view.read (Elt Ideal) (V c (Pipeline.arrRef spec9 4)) (ix1 q) = V c (Pipeline.arrRef spec9 4) (ix1 q)
  rw [View.read_apply]
  show V c (Pipeline.arrRef spec9 4) (((cfg9.win 4).blk t).view.emb (ix1 q)) = V c (Pipeline.arrRef spec9 4) (ix1 q)
  refine congrArg _ (funext fun a => Fin.ext ?_)
  match a with
  | ⟨0, _⟩ =>
    show win9_4.index t 0 * 0x1 + 1 * q.val = q.val
    rw [idx_b1 t]; omega

end Value

section Run

variable (V : (c : Dev nD) → (b : Ref sig .tc) → Buf (Elt Ideal) ((c : Thread nD τ).loc b))

theorem step_eq (c : Dev nD) (t : Fin cfg9.N) (r : Fin 1024) (q : Fin 0x1) (A : EReal)
    (hA : A = Cert.Spec.segSumBelow (Cert.Spec.vec (dstArr V c)) (fun e => Cert.Spec.mat (msgArr V c) e q)
      (2048 * (t.val % 196)) (1024 * (t.val / 196) + r.val)) :
    A + ∑ e : Fin 2048, (if BitVec.ofNat 32 (1024 * (t.val / 196) + r.val) = dstBlk V c t (ix1 e) then (1 : EReal) else 0)
          * msgBlk V c t (ix2 e q)
      = Cert.Spec.segSumBelow (Cert.Spec.vec (dstArr V c)) (fun e => Cert.Spec.mat (msgArr V c) e q)
          (2048 * (t.val % 196 + 1)) (1024 * (t.val / 196) + r.val) := by
  have ht := lt_N1 t
  rw [hA]
  have hstep := Cert.Spec.segSumBelow_step (Cert.Spec.vec (dstArr V c)) (fun e => Cert.Spec.mat (msgArr V c) e q)
    (2048 * (t.val % 196)) 2048 (1024 * (t.val / 196) + r.val) (by omega) (by omega)
  have e1 : 2048 * (t.val % 196 + 1) = 2048 * (t.val % 196) + 2048 := by omega
  rw [e1, ← hstep]
  refine congrArg₂ (· + ·) rfl (Finset.sum_congr rfl fun e _ => ?_)
  have h1 : dstBlk V c t (ix1 e)
      = Cert.Spec.vec (dstArr V c) ⟨2048 * (t.val % 196) + e.val, by have := e.isLt; omega⟩ :=
    dstBlk_apply V c t e _ rfl
  have h2 : msgBlk V c t (ix2 e q)
      = Cert.Spec.mat (msgArr V c) ⟨2048 * (t.val % 196) + e.val, by have := e.isLt; omega⟩ q :=
    msgBlk_apply V c t e q _ rfl rfl
  rw [h1, h2]

theorem acc_eq (c : Dev nD) : ∀ (n : ℕ) (h : n < cfg9.N) (r : Fin 1024) (q : Fin 0x1),
    sc9 V c n h (ix2 r q)
      = Cert.Spec.segSumBelow (Cert.Spec.vec (dstArr V c)) (fun e => Cert.Spec.mat (msgArr V c) e q)
          (2048 * (n % 196 + 1)) (1024 * (n / 196) + r.val) := by
  intro n
  induction n with
  | zero =>
    intro h r q
    have hsc := sc9_eq V c ⟨0, h⟩
    rw [if_pos (show (⟨0, h⟩ : Fin cfg9.N).val % 196 = 0 from rfl)] at hsc
    refine (congrFun hsc (ix2 r q)).trans ?_
    refine (step_apply (grid9.coords ⟨0, h⟩) (dstBlk V c ⟨0, h⟩) (msgBlk V c ⟨0, h⟩) (k9_pay1 (F := Ideal)) r q).trans ?_
    rw [reset_apply, coords9_0]
    exact step_eq V c ⟨0, h⟩ r q 0 (Cert.Spec.segSumBelow_zero _ _ _).symm
  | succ n ih =>
    intro h r q
    have hsc := sc9_eq V c ⟨n + 1, h⟩
    by_cases h0 : (n + 1) % 196 = 0
    · rw [if_pos (show (⟨n + 1, h⟩ : Fin cfg9.N).val % 196 = 0 from h0)] at hsc
      refine (congrFun hsc (ix2 r q)).trans ?_
      refine (step_apply (grid9.coords ⟨n + 1, h⟩) (dstBlk V c ⟨n + 1, h⟩) (msgBlk V c ⟨n + 1, h⟩) (k9_pay1 (F := Ideal)) r q).trans ?_
      rw [reset_apply, coords9_0]
      refine step_eq V c ⟨n + 1, h⟩ r q 0 ?_
      show (0 : EReal) = Cert.Spec.segSumBelow _ _ (2048 * ((n + 1) % 196)) _
      rw [h0]
      exact (Cert.Spec.segSumBelow_zero _ _ _).symm
    · rw [if_neg (show ¬(⟨n + 1, h⟩ : Fin cfg9.N).val % 196 = 0 from h0)] at hsc
      refine (congrFun hsc (ix2 r q)).trans ?_
      refine (step_apply (grid9.coords ⟨n + 1, h⟩) (dstBlk V c ⟨n + 1, h⟩) (msgBlk V c ⟨n + 1, h⟩)
        (sc9 V c n (Nat.lt_of_succ_lt h)) r q).trans ?_
      rw [coords9_0]
      refine step_eq V c ⟨n + 1, h⟩ r q _ ?_
      rw [ih (Nat.lt_of_succ_lt h) r q]
      show Cert.Spec.segSumBelow _ _ (2048 * (n % 196 + 1)) (1024 * (n / 196) + r.val)
        = Cert.Spec.segSumBelow _ _ (2048 * ((n + 1) % 196)) (1024 * ((n + 1) / 196) + r.val)
      have e1 : n % 196 + 1 = (n + 1) % 196 := by omega
      have e2 : n / 196 = (n + 1) / 196 := by omega
      rw [e1, e2]

abbrev outArr (c : Dev nD) : S25600x1.Idx → Ideal .f32 := fun i =>
  Cert.Spec.scatterOut relu9 (Cert.Spec.vec (dstArr V c)) (Cert.Spec.mat (msgArr V c)) (Cert.Spec.mat (xArr V c))
    (Cert.Spec.mat (w1Arr V c)) (Cert.Spec.vec (b1Arr V c)) (i 0) (i 1)

theorem out_emb (t : Fin cfg9.N) (r : Fin 1024) (q : Fin 0x1) :
    (((cfg9.win 5).blk t).view.emb (ix2 r q) : S25600x1.Idx)
      = ix2 ⟨1024 * (t.val / 196) + r.val, by have := lt_N1 t; have := r.isLt; omega⟩ q := by
  refine funext fun a => Fin.ext ?_
  match a with
  | ⟨0, _⟩ =>
    show win9_5.index t 0 * 1024 + 1 * r.val = 1024 * (t.val / 196) + r.val
    rw [(idx_out t).1]; omega
  | ⟨1, _⟩ =>
    show win9_5.index t 1 * 0x1 + 1 * q.val = q.val
    rw [(idx_out t).2]; omega

theorem idx_out_eq (t : Fin cfg9.N) : win9_5.index t = ![t.val / 196, 0] := by
  refine funext fun a => ?_
  match a with
  | ⟨0, _⟩ => exact (idx_out t).1
  | ⟨1, _⟩ => exact (idx_out t).2

theorem flush_out_iff (t : Fin cfg9.N) : (cfg9.win 5).flush t = true ↔ t.val % 196 = 195 := by
  have ht := lt_N1 t
  show win9_5.flush t = true ↔ _
  unfold Window.flush
  rw [show win9_5.isOut = true from rfl, Bool.true_and, Bool.or_eq_true, decide_eq_true_eq, decide_eq_true_eq]
  show (t.val + 1 = grid9.N ∨ ∃ h : t.val + 1 < grid9.N, win9_5.index ⟨t.val + 1, h⟩ ≠ win9_5.index t) ↔ _
  constructor
  · rintro (h | ⟨h, hne⟩)
    · rw [N_9] at h; omega
    · rw [N_9] at h
      by_contra hc
      refine hne ?_
      rw [idx_out_eq, idx_out_eq]
      show ![(t.val + 1) / 196, 0] = ![t.val / 196, 0]
      rw [show (t.val + 1) / 196 = t.val / 196 from by omega]
  · intro h
    by_cases hl : t.val + 1 = 4900
    · exact Or.inl (by rw [N_9]; exact hl)
    · refine Or.inr ⟨by rw [N_9]; omega, ?_⟩
      rw [idx_out_eq, idx_out_eq]
      intro he
      have h0 : (t.val + 1) / 196 = t.val / 196 := congrFun he 0
      omega

theorem flushed_eq (c : Dev nD) (t : Fin cfg9.N) (hf : (cfg9.win 5).flush t = true) :
    (dat9 V c).flushed 5 t = ((cfg9.win 5).blk t).view.read (Elt Ideal) (outArr V c) := by
  have h195 : t.val % 196 = 195 := (flush_out_iff t).mp hf
  have ht := lt_N1 t
  show (cfg9.win 5).cut (grid9.coords t) ((dat9 V c).after 5 t) = _
  rw [after9_5_flush V c t h195]
  refine funext fun (j : S1024x1.Idx) => ?_
  obtain ⟨r, q, rfl⟩ : ∃ (r : Fin 1024) (q : Fin 0x1), j = ix2 r q := ⟨j 0, j 1, eq_ix2 j⟩
  rw [View.read_apply]
  show k9_pay3 (xBlk V c t) (w1Blk V c t) (b1Blk V c t) (sc9 V c t.val t.isLt) (ix2 r q)
    = outArr V c (((cfg9.win 5).blk t).view.emb (ix2 r q))
  refine (last_apply (xBlk V c t) (w1Blk V c t) (b1Blk V c t) (sc9 V c t.val t.isLt) r q).trans ?_
  rw [acc_eq V c t.val t.isLt r q, show 2048 * (t.val % 196 + 1) = 401408 from by omega, Cert.Spec.segSumBelow_all, out_emb t r q]
  show _ = Cert.Spec.act relu9 (Cert.Spec.segSum (Cert.Spec.vec (dstArr V c)) (fun e => Cert.Spec.mat (msgArr V c) e q) (1024 * (t.val / 196) + r.val)
      + ((∑ p : Fin 0x14, Cert.Spec.mat (xArr V c) ⟨1024 * (t.val / 196) + r.val, by have := r.isLt; omega⟩ p
            * Cert.Spec.mat (w1Arr V c) p q)
          + Cert.Spec.vec (b1Arr V c) q))
  refine congrArg (Cert.Spec.act relu9) (congrArg₂ (· + ·) rfl (congrArg₂ (· + ·) (Finset.sum_congr rfl fun p _ => ?_) ?_))
  · have hx : xBlk V c t (ix2 r p)
        = Cert.Spec.mat (xArr V c) ⟨1024 * (t.val / 196) + r.val, by have := r.isLt; omega⟩ p :=
      xBlk_apply V c t r p _ rfl rfl
    have hw : w1Blk V c t (ix2 p q) = Cert.Spec.mat (w1Arr V c) p q := w1Blk_apply V c t p q
    rw [hx, hw]
  · exact b1Blk_apply V c t q

theorem covered (i : S25600x1.Idx) :
    ∃ t : Fin cfg9.N, (cfg9.win 5).flush t = true ∧ i ∈ ((cfg9.win 5).blk t).view.set := by
  have h0 : (i 0).val < 25600 := (i 0).isLt
  have h1 : (i 1).val < 0x1 := (i 1).isLt
  have hlt : (i 0).val / 1024 * 196 + 195 < cfg9.N := by
    show _ < grid9.N
    rw [N_9]; omega
  refine ⟨⟨(i 0).val / 1024 * 196 + 195, hlt⟩, (flush_out_iff _).mpr (by show ((i 0).val / 1024 * 196 + 195) % 196 = 195; omega), ?_⟩
  show i ∈ ((View.whole (Pipeline.arrRef spec9 5)).slice (win9_5.rect ⟨(i 0).val / 1024 * 196 + 195, hlt⟩)).set
  rw [View.set_slice_whole, Rect.mem_set_unit]
  intro a
  match a with
  | ⟨0, _⟩ =>
    show win9_5.index ⟨(i 0).val / 1024 * 196 + 195, hlt⟩ 0 * 1024 ≤ (i 0).val
      ∧ (i 0).val < win9_5.index ⟨(i 0).val / 1024 * 196 + 195, hlt⟩ 0 * 1024 + 1024
    rw [(idx_out ⟨(i 0).val / 1024 * 196 + 195, hlt⟩).1]
    show ((i 0).val / 1024 * 196 + 195) / 196 * 1024 ≤ (i 0).val ∧ (i 0).val < ((i 0).val / 1024 * 196 + 195) / 196 * 1024 + 1024
    omega
  | ⟨1, _⟩ =>
    show win9_5.index ⟨(i 0).val / 1024 * 196 + 195, hlt⟩ 1 * 0x1 ≤ (i 1).val
      ∧ (i 1).val < win9_5.index ⟨(i 0).val / 1024 * 196 + 195, hlt⟩ 1 * 0x1 + 0x1
    rw [(idx_out ⟨(i 0).val / 1024 * 196 + 195, hlt⟩).2]
    omega

end Run

end R9

section Value

variable (V : (c : Dev nD) → (b : Ref sig .tc) → Buf (Elt Ideal) ((c : Thread nD τ).loc b))

theorem out9_value (c : Dev nD) :
    (dat9 (F := Ideal) V c).arrAt 5 cfg9.N = fun i =>
      Cert.Spec.scatterOut R9.relu9
        (Cert.Spec.vec (V c (Pipeline.arrRef spec9 0) : S401408.Idx → BitVec 32))
        (Cert.Spec.mat (V c (Pipeline.arrRef spec9 1) : S401408x1.Idx → Ideal .f32))
        (Cert.Spec.mat (V c (Pipeline.arrRef spec9 2) : S25600x20.Idx → Ideal .f32))
        (Cert.Spec.mat (V c (Pipeline.arrRef spec9 3) : S20x1.Idx → Ideal .f32))
        (Cert.Spec.vec (V c (Pipeline.arrRef spec9 4) : S1.Idx → Ideal .f32)) (i 0) (i 1) :=
  (dat9 (F := Ideal) V c).arrAt_eq_of_cover 5 (R9.outArr V c) (R9.flushed_eq V c) R9.covered

end Value

end Cert.KernelIdeal.Hand

end
-- ==== Proof.SpecAlg.lean ====
import proofs.«415925_j84189948936386_1_alg».proof.Proof.Spec

noncomputable section

open scoped BigOperators
open Idealize.ShloMosaic Idealize.ShloMosaic.ValueIdx

namespace Cert.Spec

section Net
variable {E E' N N' : ℕ}

theorem refNet_pad (hEE : E ≤ E') (hNN : N ≤ N') (src dst : Fin E → BitVec 32) (src' dst' : Fin E' → BitVec 32)
    (x0 : Fin N → Fin 1 → EReal) (x0' : Fin N' → Fin 1 → EReal)
    (hsrc : ∀ e : Fin E, src' (Fin.castLE hEE e) = src e) (hdst : ∀ e : Fin E, dst' (Fin.castLE hEE e) = dst e)
    (hx : ∀ (n : Fin N) (k : Fin 1), x0' (Fin.castLE hNN n) k = x0 n k)
    (hsr : ∀ e : Fin E, (src e).toNat < N) (hdr : ∀ e : Fin E, (dst e).toNat < N)
    (hpad : ∀ e' : Fin E', E ≤ e'.val → N ≤ (dst' e').toNat)
    (dW1 : Fin 1 → Fin 20 → EReal) (db1 : Fin 20 → EReal) (dWm1 : Fin (1 + 1) → Fin 200 → EReal) (dbm1 : Fin 200 → EReal)
    (dWm2 : Fin 200 → Fin 1 → EReal) (dbm2 : Fin 1 → EReal) (dW2 : Fin 1 → Fin 20 → EReal) (db2 : Fin 20 → EReal)
    (hW1 : Fin 20 → Fin 20 → EReal) (hb1 : Fin 20 → EReal) (hWm1 : Fin (20 + 20) → Fin 200 → EReal) (hbm1 : Fin 200 → EReal)
    (hWm2 : Fin 200 → Fin 20 → EReal) (hbm2 : Fin 20 → EReal) (hW2 : Fin 20 → Fin 20 → EReal) (hb2 : Fin 20 → EReal)
    (oW1 : Fin 20 → Fin 1 → EReal) (ob1 : Fin 1 → EReal) (oWm1 : Fin (20 + 20) → Fin 200 → EReal) (obm1 : Fin 200 → EReal)
    (oWm2 : Fin 200 → Fin 20 → EReal) (obm2 : Fin 20 → EReal) (oW2 : Fin 20 → Fin 1 → EReal) (ob2 : Fin 1 → EReal)
    (n : Fin N) (o : Fin 1) :
    refNet src' dst' x0' dW1 db1 dWm1 dbm1 dWm2 dbm2 dW2 db2 hW1 hb1 hWm1 hbm1 hWm2 hbm2 hW2 hb2
        oW1 ob1 oWm1 obm1 oWm2 obm2 oW2 ob2 (Fin.castLE hNN n) o
      = refNet src dst x0 dW1 db1 dWm1 dbm1 dWm2 dbm2 dW2 db2 hW1 hb1 hWm1 hbm1 hWm2 hbm2 hW2 hb2
        oW1 ob1 oWm1 obm1 oWm2 obm2 oW2 ob2 n o := by
  unfold refNet
  refine layerOut_pad false hEE hNN src dst src' dst' _ _ hsrc hdst (fun n k => ?_) hsr hdr hpad _ _ _ _ _ _ _ _ n o
  refine layerOut_pad true hEE hNN src dst src' dst' _ _ hsrc hdst (fun n k => ?_) hsr hdr hpad _ _ _ _ _ _ _ _ n k
  refine layerOut_pad true hEE hNN src dst src' dst' _ _ hsrc hdst (fun n k => ?_) hsr hdr hpad _ _ _ _ _ _ _ _ n k
  refine layerOut_pad true hEE hNN src dst src' dst' _ _ hsrc hdst (fun n k => ?_) hsr hdr hpad _ _ _ _ _ _ _ _ n k
  refine layerOut_pad true hEE hNN src dst src' dst' _ _ hsrc hdst (fun n k => ?_) hsr hdr hpad _ _ _ _ _ _ _ _ n k
  exact hx n k

end Net

end Cert.Spec

end
-- ==== Proof.KI.Chain.lean ====
import proofs.«415925_j84189948936386_1_alg».proof.Proof.KI.Segs
import proofs.«415925_j84189948936386_1_alg».proof.Proof.KI.V0
import proofs.«415925_j84189948936386_1_alg».proof.Proof.KI.V1
import proofs.«415925_j84189948936386_1_alg».proof.Proof.KI.V2
import proofs.«415925_j84189948936386_1_alg».proof.Proof.KI.V3
import proofs.«415925_j84189948936386_1_alg».proof.Proof.KI.V4
import proofs.«415925_j84189948936386_1_alg».proof.Proof.KI.V5
import proofs.«415925_j84189948936386_1_alg».proof.Proof.KI.V6
import proofs.«415925_j84189948936386_1_alg».proof.Proof.KI.V7
import proofs.«415925_j84189948936386_1_alg».proof.Proof.KI.V8
import proofs.«415925_j84189948936386_1_alg».proof.Proof.KI.V9
import proofs.«415925_j84189948936386_1_alg».proof.Proof.Spec
import proofs.«415925_j84189948936386_1_alg».proof.Proof.SpecAlg
import proofs.«415925_j84189948936386_1_alg».proof.Proof.PreRange
import Idealize.ShloMosaic.Lib.Pipeline.Value
import Idealize.ShloMosaic.Lib.KernelVsHost
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open Idealize.ShloMosaic.Pipeline (Dat Cfg Window BodyObligation cellOf)

namespace Chain
variable (m : (ℓ : Loc nD τ sig) → Buf (Elt Ideal) ℓ) (c : Dev nD)

theorem U7_of (r : Ref sig .tc) (h : r ≠ main_v7) : U7 m c r = U6 m c r := U_off0 m c _ (StableHlo.devRef_ne_of_ne h)
theorem U8_of (r : Ref sig .tc) (h : r ≠ main_v8) : U8 m c r = U7 m c r := U_off1 m c _ (StableHlo.devRef_ne_of_ne h)
theorem U9_of (r : Ref sig .tc) (h : r ≠ main_v9) : U9 m c r = U8 m c r := U_off2 m c _ (StableHlo.devRef_ne_of_ne h)
theorem U10_of (r : Ref sig .tc) (h : r ≠ main_v10) : U10 m c r = U9 m c r := U_off3 m c _ (StableHlo.devRef_ne_of_ne h)
theorem U11_of (r : Ref sig .tc) (h : r ≠ main_v11) : U11 m c r = U10 m c r := U_off4 m c _ (StableHlo.devRef_ne_of_ne h)
theorem U12_of (r : Ref sig .tc) (h : r ≠ main_v12) : U12 m c r = U11 m c r := U_off5 m c _ (StableHlo.devRef_ne_of_ne h)
theorem U13_of (r : Ref sig .tc) (h : r ≠ main_v13) : U13 m c r = U12 m c r := U_off6 m c _ (StableHlo.devRef_ne_of_ne h)
theorem U14_of (r : Ref sig .tc) (h : r ≠ main_v14) : U14 m c r = U13 m c r := U_off7 m c _ (StableHlo.devRef_ne_of_ne h)
theorem U15_of (r : Ref sig .tc) (h : r ≠ main_v15) : U15 m c r = U14 m c r := U_off8 m c _ (StableHlo.devRef_ne_of_ne h)
theorem U16_of (r : Ref sig .tc) (h : r ≠ main_v16) : U16 m c r = U15 m c r := U_off9 m c _ (StableHlo.devRef_ne_of_ne h)

theorem U6_of (r : Ref sig .tc) (h1 : r ∉ hostOps0_W) (h2 : r ∉ hostOps0_1_W) (h3 : r ∉ hostOps0_2_W) (h4 : r ∉ hostOps0_3_W)
    (h5 : r ∉ hostOps0_4_W) (h6 : r ∉ hostOps0_5_W) : U6 m c r = m ((c : Thread nD τ).loc r) :=
  (V6_of m c r h6).trans <| (V5_of m c r h5).trans <| (V4_of m c r h4).trans <| (V3_of m c r h3).trans <|
    (V2_of m c r h2).trans <| (V1_of m c r h1).trans rfl

abbrev regionOuts : List (Ref sig .tc) := [main_v7, main_v8, main_v9, main_v10, main_v11, main_v12, main_v13, main_v14, main_v15, main_v16]

theorem U7_base (r : Ref sig .tc) (h : r ∉ regionOuts) : U7 m c r = U6 m c r :=
  U7_of m c r (fun e => h (by subst e; decide))
theorem U8_base (r : Ref sig .tc) (h : r ∉ regionOuts) : U8 m c r = U6 m c r :=
  (U8_of m c r (fun e => h (by subst e; decide))).trans (U7_base m c r h)
theorem U9_base (r : Ref sig .tc) (h : r ∉ regionOuts) : U9 m c r = U6 m c r :=
  (U9_of m c r (fun e => h (by subst e; decide))).trans (U8_base m c r h)
theorem U10_base (r : Ref sig .tc) (h : r ∉ regionOuts) : U10 m c r = U6 m c r :=
  (U10_of m c r (fun e => h (by subst e; decide))).trans (U9_base m c r h)
theorem U11_base (r : Ref sig .tc) (h : r ∉ regionOuts) : U11 m c r = U6 m c r :=
  (U11_of m c r (fun e => h (by subst e; decide))).trans (U10_base m c r h)
theorem U12_base (r : Ref sig .tc) (h : r ∉ regionOuts) : U12 m c r = U6 m c r :=
  (U12_of m c r (fun e => h (by subst e; decide))).trans (U11_base m c r h)
theorem U13_base (r : Ref sig .tc) (h : r ∉ regionOuts) : U13 m c r = U6 m c r :=
  (U13_of m c r (fun e => h (by subst e; decide))).trans (U12_base m c r h)
theorem U14_base (r : Ref sig .tc) (h : r ∉ regionOuts) : U14 m c r = U6 m c r :=
  (U14_of m c r (fun e => h (by subst e; decide))).trans (U13_base m c r h)
theorem U15_base (r : Ref sig .tc) (h : r ∉ regionOuts) : U15 m c r = U6 m c r :=
  (U15_of m c r (fun e => h (by subst e; decide))).trans (U14_base m c r h)
theorem U7_launch (r : Ref sig .tc) (h : r ∉ regionOuts) (h1 : r ∉ hostOps0_W) (h2 : r ∉ hostOps0_1_W) (h3 : r ∉ hostOps0_2_W)
    (h4 : r ∉ hostOps0_3_W) (h5 : r ∉ hostOps0_4_W) (h6 : r ∉ hostOps0_5_W) : U7 m c r = m ((c : Thread nD τ).loc r) :=
  (U7_base m c r h).trans (U6_of m c r h1 h2 h3 h4 h5 h6)
theorem U8_launch (r : Ref sig .tc) (h : r ∉ regionOuts) (h1 : r ∉ hostOps0_W) (h2 : r ∉ hostOps0_1_W) (h3 : r ∉ hostOps0_2_W)
    (h4 : r ∉ hostOps0_3_W) (h5 : r ∉ hostOps0_4_W) (h6 : r ∉ hostOps0_5_W) : U8 m c r = m ((c : Thread nD τ).loc r) :=
  (U8_base m c r h).trans (U6_of m c r h1 h2 h3 h4 h5 h6)
theorem U9_launch (r : Ref sig .tc) (h : r ∉ regionOuts) (h1 : r ∉ hostOps0_W) (h2 : r ∉ hostOps0_1_W) (h3 : r ∉ hostOps0_2_W)
    (h4 : r ∉ hostOps0_3_W) (h5 : r ∉ hostOps0_4_W) (h6 : r ∉ hostOps0_5_W) : U9 m c r = m ((c : Thread nD τ).loc r) :=
  (U9_base m c r h).trans (U6_of m c r h1 h2 h3 h4 h5 h6)
theorem U10_launch (r : Ref sig .tc) (h : r ∉ regionOuts) (h1 : r ∉ hostOps0_W) (h2 : r ∉ hostOps0_1_W) (h3 : r ∉ hostOps0_2_W)
    (h4 : r ∉ hostOps0_3_W) (h5 : r ∉ hostOps0_4_W) (h6 : r ∉ hostOps0_5_W) : U10 m c r = m ((c : Thread nD τ).loc r) :=
  (U10_base m c r h).trans (U6_of m c r h1 h2 h3 h4 h5 h6)
theorem U11_launch (r : Ref sig .tc) (h : r ∉ regionOuts) (h1 : r ∉ hostOps0_W) (h2 : r ∉ hostOps0_1_W) (h3 : r ∉ hostOps0_2_W)
    (h4 : r ∉ hostOps0_3_W) (h5 : r ∉ hostOps0_4_W) (h6 : r ∉ hostOps0_5_W) : U11 m c r = m ((c : Thread nD τ).loc r) :=
  (U11_base m c r h).trans (U6_of m c r h1 h2 h3 h4 h5 h6)
theorem U12_launch (r : Ref sig .tc) (h : r ∉ regionOuts) (h1 : r ∉ hostOps0_W) (h2 : r ∉ hostOps0_1_W) (h3 : r ∉ hostOps0_2_W)
    (h4 : r ∉ hostOps0_3_W) (h5 : r ∉ hostOps0_4_W) (h6 : r ∉ hostOps0_5_W) : U12 m c r = m ((c : Thread nD τ).loc r) :=
  (U12_base m c r h).trans (U6_of m c r h1 h2 h3 h4 h5 h6)
theorem U13_launch (r : Ref sig .tc) (h : r ∉ regionOuts) (h1 : r ∉ hostOps0_W) (h2 : r ∉ hostOps0_1_W) (h3 : r ∉ hostOps0_2_W)
    (h4 : r ∉ hostOps0_3_W) (h5 : r ∉ hostOps0_4_W) (h6 : r ∉ hostOps0_5_W) : U13 m c r = m ((c : Thread nD τ).loc r) :=
  (U13_base m c r h).trans (U6_of m c r h1 h2 h3 h4 h5 h6)
theorem U14_launch (r : Ref sig .tc) (h : r ∉ regionOuts) (h1 : r ∉ hostOps0_W) (h2 : r ∉ hostOps0_1_W) (h3 : r ∉ hostOps0_2_W)
    (h4 : r ∉ hostOps0_3_W) (h5 : r ∉ hostOps0_4_W) (h6 : r ∉ hostOps0_5_W) : U14 m c r = m ((c : Thread nD τ).loc r) :=
  (U14_base m c r h).trans (U6_of m c r h1 h2 h3 h4 h5 h6)
theorem U15_launch (r : Ref sig .tc) (h : r ∉ regionOuts) (h1 : r ∉ hostOps0_W) (h2 : r ∉ hostOps0_1_W) (h3 : r ∉ hostOps0_2_W)
    (h4 : r ∉ hostOps0_3_W) (h5 : r ∉ hostOps0_4_W) (h6 : r ∉ hostOps0_5_W) : U15 m c r = m ((c : Thread nD τ).loc r) :=
  (U15_base m c r h).trans (U6_of m c r h1 h2 h3 h4 h5 h6)

theorem reg0 : (U7 m c main_v7 : Vec Ideal S401408x20 .f32) = fun i =>
    Cert.Spec.gatherMsg
      (Cert.Spec.vec (U6 m c main_v4 : Vec Ideal S401408 .i32))
      (Cert.Spec.vec (U6 m c main_v5 : Vec Ideal S401408 .i32))
      (Cert.Spec.mat (U6 m c main_v6 : Vec Ideal S25600x1 .f32))
      (Cert.Spec.mat (U6 m c main_arg5 : Vec Ideal S2x200 .f32))
      (Cert.Spec.vec (U6 m c main_arg6 : Vec Ideal S200 .f32))
      (Cert.Spec.mat (U6 m c main_arg7 : Vec Ideal S200x1 .f32))
      (Cert.Spec.vec (U6 m c main_arg8 : Vec Ideal S1 .f32))
      (Cert.Spec.mat (U6 m c main_arg9 : Vec Ideal S1x20 .f32))
      (Cert.Spec.vec (U6 m c main_arg10 : Vec Ideal S20 .f32))
      (i 0) (i 1) :=
  (U_out0 m c).trans (out0_value (fun c b => U6 m c b) c)

theorem reg1 : (U8 m c main_v8 : Vec Ideal S25600x20 .f32) = fun i =>
    Cert.Spec.scatterOut true
      (Cert.Spec.vec (U7 m c main_v5 : Vec Ideal S401408 .i32))
      (Cert.Spec.mat (U7 m c main_v7 : Vec Ideal S401408x20 .f32))
      (Cert.Spec.mat (U7 m c main_v6 : Vec Ideal S25600x1 .f32))
      (Cert.Spec.mat (U7 m c main_arg3 : Vec Ideal S1x20 .f32)) (Cert.Spec.vec (U7 m c main_arg4 : Vec Ideal S20 .f32))
      (i 0) (i 1) :=
  (U_out1 m c).trans (out1_value (fun c b => U7 m c b) c)

theorem reg2 : (U9 m c main_v9 : Vec Ideal S401408x20 .f32) = fun i =>
    Cert.Spec.gatherMsg
      (Cert.Spec.vec (U8 m c main_v4 : Vec Ideal S401408 .i32))
      (Cert.Spec.vec (U8 m c main_v5 : Vec Ideal S401408 .i32))
      (Cert.Spec.mat (U8 m c main_v8 : Vec Ideal S25600x20 .f32))
      (Cert.Spec.mat (U8 m c main_arg13 : Vec Ideal S40x200 .f32))
      (Cert.Spec.vec (U8 m c main_arg14 : Vec Ideal S200 .f32))
      (Cert.Spec.mat (U8 m c main_arg15 : Vec Ideal S200x20 .f32))
      (Cert.Spec.vec (U8 m c main_arg16 : Vec Ideal S20 .f32))
      (Cert.Spec.mat (U8 m c main_arg17 : Vec Ideal S20x20 .f32))
      (Cert.Spec.vec (U8 m c main_arg18 : Vec Ideal S20 .f32))
      (i 0) (i 1) :=
  (U_out2 m c).trans (out2_value (fun c b => U8 m c b) c)

theorem reg3 : (U10 m c main_v10 : Vec Ideal S25600x20 .f32) = fun i =>
    Cert.Spec.scatterOut true
      (Cert.Spec.vec (U9 m c main_v5 : Vec Ideal S401408 .i32))
      (Cert.Spec.mat (U9 m c main_v9 : Vec Ideal S401408x20 .f32))
      (Cert.Spec.mat (U9 m c main_v8 : Vec Ideal S25600x20 .f32))
      (Cert.Spec.mat (U9 m c main_arg11 : Vec Ideal S20x20 .f32)) (Cert.Spec.vec (U9 m c main_arg12 : Vec Ideal S20 .f32))
      (i 0) (i 1) :=
  (U_out3 m c).trans (out3_value (fun c b => U9 m c b) c)

theorem reg4 : (U11 m c main_v11 : Vec Ideal S401408x20 .f32) = fun i =>
    Cert.Spec.gatherMsg
      (Cert.Spec.vec (U10 m c main_v4 : Vec Ideal S401408 .i32))
      (Cert.Spec.vec (U10 m c main_v5 : Vec Ideal S401408 .i32))
      (Cert.Spec.mat (U10 m c main_v10 : Vec Ideal S25600x20 .f32))
      (Cert.Spec.mat (U10 m c main_arg13 : Vec Ideal S40x200 .f32))
      (Cert.Spec.vec (U10 m c main_arg14 : Vec Ideal S200 .f32))
      (Cert.Spec.mat (U10 m c main_arg15 : Vec Ideal S200x20 .f32))
      (Cert.Spec.vec (U10 m c main_arg16 : Vec Ideal S20 .f32))
      (Cert.Spec.mat (U10 m c main_arg17 : Vec Ideal S20x20 .f32))
      (Cert.Spec.vec (U10 m c main_arg18 : Vec Ideal S20 .f32))
      (i 0) (i 1) :=
  (U_out4 m c).trans (out4_value (fun c b => U10 m c b) c)

theorem reg5 : (U12 m c main_v12 : Vec Ideal S25600x20 .f32) = fun i =>
    Cert.Spec.scatterOut true
      (Cert.Spec.vec (U11 m c main_v5 : Vec Ideal S401408 .i32))
      (Cert.Spec.mat (U11 m c main_v11 : Vec Ideal S401408x20 .f32))
      (Cert.Spec.mat (U11 m c main_v10 : Vec Ideal S25600x20 .f32))
      (Cert.Spec.mat (U11 m c main_arg11 : Vec Ideal S20x20 .f32)) (Cert.Spec.vec (U11 m c main_arg12 : Vec Ideal S20 .f32))
      (i 0) (i 1) :=
  (U_out5 m c).trans (out5_value (fun c b => U11 m c b) c)

theorem reg6 : (U13 m c main_v13 : Vec Ideal S401408x20 .f32) = fun i =>
    Cert.Spec.gatherMsg
      (Cert.Spec.vec (U12 m c main_v4 : Vec Ideal S401408 .i32))
      (Cert.Spec.vec (U12 m c main_v5 : Vec Ideal S401408 .i32))
      (Cert.Spec.mat (U12 m c main_v12 : Vec Ideal S25600x20 .f32))
      (Cert.Spec.mat (U12 m c main_arg13 : Vec Ideal S40x200 .f32))
      (Cert.Spec.vec (U12 m c main_arg14 : Vec Ideal S200 .f32))
      (Cert.Spec.mat (U12 m c main_arg15 : Vec Ideal S200x20 .f32))
      (Cert.Spec.vec (U12 m c main_arg16 : Vec Ideal S20 .f32))
      (Cert.Spec.mat (U12 m c main_arg17 : Vec Ideal S20x20 .f32))
      (Cert.Spec.vec (U12 m c main_arg18 : Vec Ideal S20 .f32))
      (i 0) (i 1) :=
  (U_out6 m c).trans (out6_value (fun c b => U12 m c b) c)

theorem reg7 : (U14 m c main_v14 : Vec Ideal S25600x20 .f32) = fun i =>
    Cert.Spec.scatterOut true
      (Cert.Spec.vec (U13 m c main_v5 : Vec Ideal S401408 .i32))
      (Cert.Spec.mat (U13 m c main_v13 : Vec Ideal S401408x20 .f32))
      (Cert.Spec.mat (U13 m c main_v12 : Vec Ideal S25600x20 .f32))
      (Cert.Spec.mat (U13 m c main_arg11 : Vec Ideal S20x20 .f32)) (Cert.Spec.vec (U13 m c main_arg12 : Vec Ideal S20 .f32))
      (i 0) (i 1) :=
  (U_out7 m c).trans (out7_value (fun c b => U13 m c b) c)

theorem reg8 : (U15 m c main_v15 : Vec Ideal S401408x1 .f32) = fun i =>
    Cert.Spec.gatherMsg
      (Cert.Spec.vec (U14 m c main_v4 : Vec Ideal S401408 .i32))
      (Cert.Spec.vec (U14 m c main_v5 : Vec Ideal S401408 .i32))
      (Cert.Spec.mat (U14 m c main_v14 : Vec Ideal S25600x20 .f32))
      (Cert.Spec.mat (U14 m c main_arg21 : Vec Ideal S40x200 .f32))
      (Cert.Spec.vec (U14 m c main_arg22 : Vec Ideal S200 .f32))
      (Cert.Spec.mat (U14 m c main_arg23 : Vec Ideal S200x20 .f32))
      (Cert.Spec.vec (U14 m c main_arg24 : Vec Ideal S20 .f32))
      (Cert.Spec.mat (U14 m c main_arg25 : Vec Ideal S20x1 .f32))
      (Cert.Spec.vec (U14 m c main_arg26 : Vec Ideal S1 .f32))
      (i 0) (i 1) :=
  (U_out8 m c).trans (out8_value (fun c b => U14 m c b) c)

theorem reg9 : (U16 m c main_v16 : Vec Ideal S25600x1 .f32) = fun i =>
    Cert.Spec.scatterOut false
      (Cert.Spec.vec (U15 m c main_v5 : Vec Ideal S401408 .i32))
      (Cert.Spec.mat (U15 m c main_v15 : Vec Ideal S401408x1 .f32))
      (Cert.Spec.mat (U15 m c main_v14 : Vec Ideal S25600x20 .f32))
      (Cert.Spec.mat (U15 m c main_arg19 : Vec Ideal S20x1 .f32)) (Cert.Spec.vec (U15 m c main_arg20 : Vec Ideal S1 .f32))
      (i 0) (i 1) :=
  (U_out9 m c).trans (out9_value (fun c b => U15 m c b) c)

def srcP : Fin 401408 → BitVec 32 := Cert.Spec.vec (U6 m c main_v4 : Vec Ideal S401408 .i32)

def dstP : Fin 401408 → BitVec 32 := Cert.Spec.vec (U6 m c main_v5 : Vec Ideal S401408 .i32)

def xP : Fin 25600 → Fin 1 → EReal := Cert.Spec.mat (U6 m c main_v6 : Vec Ideal S25600x1 .f32)

def L1 : Fin 25600 → Fin 20 → EReal :=
  Cert.Spec.layerOut true (srcP m c) (dstP m c) (xP m c) (Cert.Spec.mat (m ((c : Thread nD τ).loc main_arg3) : Vec Ideal S1x20 .f32)) (Cert.Spec.vec (m ((c : Thread nD τ).loc main_arg4) : Vec Ideal S20 .f32)) (Cert.Spec.mat (m ((c : Thread nD τ).loc main_arg5) : Vec Ideal S2x200 .f32)) (Cert.Spec.vec (m ((c : Thread nD τ).loc main_arg6) : Vec Ideal S200 .f32)) (Cert.Spec.mat (m ((c : Thread nD τ).loc main_arg7) : Vec Ideal S200x1 .f32)) (Cert.Spec.vec (m ((c : Thread nD τ).loc main_arg8) : Vec Ideal S1 .f32)) (Cert.Spec.mat (m ((c : Thread nD τ).loc main_arg9) : Vec Ideal S1x20 .f32)) (Cert.Spec.vec (m ((c : Thread nD τ).loc main_arg10) : Vec Ideal S20 .f32))

def L2 : Fin 25600 → Fin 20 → EReal :=
  Cert.Spec.layerOut true (srcP m c) (dstP m c) (L1 m c) (Cert.Spec.mat (m ((c : Thread nD τ).loc main_arg11) : Vec Ideal S20x20 .f32)) (Cert.Spec.vec (m ((c : Thread nD τ).loc main_arg12) : Vec Ideal S20 .f32)) (Cert.Spec.mat (m ((c : Thread nD τ).loc main_arg13) : Vec Ideal S40x200 .f32)) (Cert.Spec.vec (m ((c : Thread nD τ).loc main_arg14) : Vec Ideal S200 .f32)) (Cert.Spec.mat (m ((c : Thread nD τ).loc main_arg15) : Vec Ideal S200x20 .f32)) (Cert.Spec.vec (m ((c : Thread nD τ).loc main_arg16) : Vec Ideal S20 .f32)) (Cert.Spec.mat (m ((c : Thread nD τ).loc main_arg17) : Vec Ideal S20x20 .f32)) (Cert.Spec.vec (m ((c : Thread nD τ).loc main_arg18) : Vec Ideal S20 .f32))
def L3 : Fin 25600 → Fin 20 → EReal :=
  Cert.Spec.layerOut true (srcP m c) (dstP m c) (L2 m c) (Cert.Spec.mat (m ((c : Thread nD τ).loc main_arg11) : Vec Ideal S20x20 .f32)) (Cert.Spec.vec (m ((c : Thread nD τ).loc main_arg12) : Vec Ideal S20 .f32)) (Cert.Spec.mat (m ((c : Thread nD τ).loc main_arg13) : Vec Ideal S40x200 .f32)) (Cert.Spec.vec (m ((c : Thread nD τ).loc main_arg14) : Vec Ideal S200 .f32)) (Cert.Spec.mat (m ((c : Thread nD τ).loc main_arg15) : Vec Ideal S200x20 .f32)) (Cert.Spec.vec (m ((c : Thread nD τ).loc main_arg16) : Vec Ideal S20 .f32)) (Cert.Spec.mat (m ((c : Thread nD τ).loc main_arg17) : Vec Ideal S20x20 .f32)) (Cert.Spec.vec (m ((c : Thread nD τ).loc main_arg18) : Vec Ideal S20 .f32))
def L4 : Fin 25600 → Fin 20 → EReal :=
  Cert.Spec.layerOut true (srcP m c) (dstP m c) (L3 m c) (Cert.Spec.mat (m ((c : Thread nD τ).loc main_arg11) : Vec Ideal S20x20 .f32)) (Cert.Spec.vec (m ((c : Thread nD τ).loc main_arg12) : Vec Ideal S20 .f32)) (Cert.Spec.mat (m ((c : Thread nD τ).loc main_arg13) : Vec Ideal S40x200 .f32)) (Cert.Spec.vec (m ((c : Thread nD τ).loc main_arg14) : Vec Ideal S200 .f32)) (Cert.Spec.mat (m ((c : Thread nD τ).loc main_arg15) : Vec Ideal S200x20 .f32)) (Cert.Spec.vec (m ((c : Thread nD τ).loc main_arg16) : Vec Ideal S20 .f32)) (Cert.Spec.mat (m ((c : Thread nD τ).loc main_arg17) : Vec Ideal S20x20 .f32)) (Cert.Spec.vec (m ((c : Thread nD τ).loc main_arg18) : Vec Ideal S20 .f32))

def L5 : Fin 25600 → Fin 1 → EReal :=
  Cert.Spec.layerOut false (srcP m c) (dstP m c) (L4 m c) (Cert.Spec.mat (m ((c : Thread nD τ).loc main_arg19) : Vec Ideal S20x1 .f32)) (Cert.Spec.vec (m ((c : Thread nD τ).loc main_arg20) : Vec Ideal S1 .f32)) (Cert.Spec.mat (m ((c : Thread nD τ).loc main_arg21) : Vec Ideal S40x200 .f32)) (Cert.Spec.vec (m ((c : Thread nD τ).loc main_arg22) : Vec Ideal S200 .f32)) (Cert.Spec.mat (m ((c : Thread nD τ).loc main_arg23) : Vec Ideal S200x20 .f32)) (Cert.Spec.vec (m ((c : Thread nD τ).loc main_arg24) : Vec Ideal S20 .f32)) (Cert.Spec.mat (m ((c : Thread nD τ).loc main_arg25) : Vec Ideal S20x1 .f32)) (Cert.Spec.vec (m ((c : Thread nD τ).loc main_arg26) : Vec Ideal S1 .f32))

theorem lay1 : (U8 m c main_v8 : Vec Ideal S25600x20 .f32) = fun i => L1 m c (i 0) (i 1) := by
  rw [reg1, reg0]
  rw [U7_base m c main_v5 (by decide),
    U7_base m c main_v6 (by decide),
    U7_launch m c main_arg3 (by decide) (by decide) (by decide) (by decide) (by decide) (by decide) (by decide),
    U7_launch m c main_arg4 (by decide) (by decide) (by decide) (by decide) (by decide) (by decide) (by decide),
    U6_of m c main_arg5 (by decide) (by decide) (by decide) (by decide) (by decide) (by decide),
    U6_of m c main_arg6 (by decide) (by decide) (by decide) (by decide) (by decide) (by decide),
    U6_of m c main_arg7 (by decide) (by decide) (by decide) (by decide) (by decide) (by decide),
    U6_of m c main_arg8 (by decide) (by decide) (by decide) (by decide) (by decide) (by decide),
    U6_of m c main_arg9 (by decide) (by decide) (by decide) (by decide) (by decide) (by decide),
    U6_of m c main_arg10 (by decide) (by decide) (by decide) (by decide) (by decide) (by decide)]
  rfl

theorem lay2 : (U10 m c main_v10 : Vec Ideal S25600x20 .f32) = fun i => L2 m c (i 0) (i 1) := by
  rw [reg3, reg2]
  rw [U9_base m c main_v5 (by decide),
    U9_of m c main_v8 (by decide),
    U9_launch m c main_arg11 (by decide) (by decide) (by decide) (by decide) (by decide) (by decide) (by decide),
    U9_launch m c main_arg12 (by decide) (by decide) (by decide) (by decide) (by decide) (by decide) (by decide),
    U8_base m c main_v4 (by decide),
    U8_base m c main_v5 (by decide),
    U8_launch m c main_arg13 (by decide) (by decide) (by decide) (by decide) (by decide) (by decide) (by decide),
    U8_launch m c main_arg14 (by decide) (by decide) (by decide) (by decide) (by decide) (by decide) (by decide),
    U8_launch m c main_arg15 (by decide) (by decide) (by decide) (by decide) (by decide) (by decide) (by decide),
    U8_launch m c main_arg16 (by decide) (by decide) (by decide) (by decide) (by decide) (by decide) (by decide),
    U8_launch m c main_arg17 (by decide) (by decide) (by decide) (by decide) (by decide) (by decide) (by decide),
    U8_launch m c main_arg18 (by decide) (by decide) (by decide) (by decide) (by decide) (by decide) (by decide)]
  rw [lay1]
  rfl

theorem lay3 : (U12 m c main_v12 : Vec Ideal S25600x20 .f32) = fun i => L3 m c (i 0) (i 1) := by
  rw [reg5, reg4]
  rw [U11_base m c main_v5 (by decide),
    U11_of m c main_v10 (by decide),
    U11_launch m c main_arg11 (by decide) (by decide) (by decide) (by decide) (by decide) (by decide) (by decide),
    U11_launch m c main_arg12 (by decide) (by decide) (by decide) (by decide) (by decide) (by decide) (by decide),
    U10_base m c main_v4 (by decide),
    U10_base m c main_v5 (by decide),
    U10_launch m c main_arg13 (by decide) (by decide) (by decide) (by decide) (by decide) (by decide) (by decide),
    U10_launch m c main_arg14 (by decide) (by decide) (by decide) (by decide) (by decide) (by decide) (by decide),
    U10_launch m c main_arg15 (by decide) (by decide) (by decide) (by decide) (by decide) (by decide) (by decide),
    U10_launch m c main_arg16 (by decide) (by decide) (by decide) (by decide) (by decide) (by decide) (by decide),
    U10_launch m c main_arg17 (by decide) (by decide) (by decide) (by decide) (by decide) (by decide) (by decide),
    U10_launch m c main_arg18 (by decide) (by decide) (by decide) (by decide) (by decide) (by decide) (by decide)]
  rw [lay2]
  rfl

theorem lay4 : (U14 m c main_v14 : Vec Ideal S25600x20 .f32) = fun i => L4 m c (i 0) (i 1) := by
  rw [reg7, reg6]
  rw [U13_base m c main_v5 (by decide),
    U13_of m c main_v12 (by decide),
    U13_launch m c main_arg11 (by decide) (by decide) (by decide) (by decide) (by decide) (by decide) (by decide),
    U13_launch m c main_arg12 (by decide) (by decide) (by decide) (by decide) (by decide) (by decide) (by decide),
    U12_base m c main_v4 (by decide),
    U12_base m c main_v5 (by decide),
    U12_launch m c main_arg13 (by decide) (by decide) (by decide) (by decide) (by decide) (by decide) (by decide),
    U12_launch m c main_arg14 (by decide) (by decide) (by decide) (by decide) (by decide) (by decide) (by decide),
    U12_launch m c main_arg15 (by decide) (by decide) (by decide) (by decide) (by decide) (by decide) (by decide),
    U12_launch m c main_arg16 (by decide) (by decide) (by decide) (by decide) (by decide) (by decide) (by decide),
    U12_launch m c main_arg17 (by decide) (by decide) (by decide) (by decide) (by decide) (by decide) (by decide),
    U12_launch m c main_arg18 (by decide) (by decide) (by decide) (by decide) (by decide) (by decide) (by decide)]
  rw [lay3]
  rfl

theorem lay5 : (U16 m c main_v16 : Vec Ideal S25600x1 .f32) = fun i => L5 m c (i 0) (i 1) := by
  rw [reg9, reg8]
  rw [U15_base m c main_v5 (by decide),
    U15_of m c main_v14 (by decide),
    U15_launch m c main_arg19 (by decide) (by decide) (by decide) (by decide) (by decide) (by decide) (by decide),
    U15_launch m c main_arg20 (by decide) (by decide) (by decide) (by decide) (by decide) (by decide) (by decide),
    U14_base m c main_v4 (by decide),
    U14_base m c main_v5 (by decide),
    U14_launch m c main_arg21 (by decide) (by decide) (by decide) (by decide) (by decide) (by decide) (by decide),
    U14_launch m c main_arg22 (by decide) (by decide) (by decide) (by decide) (by decide) (by decide) (by decide),
    U14_launch m c main_arg23 (by decide) (by decide) (by decide) (by decide) (by decide) (by decide) (by decide),
    U14_launch m c main_arg24 (by decide) (by decide) (by decide) (by decide) (by decide) (by decide) (by decide),
    U14_launch m c main_arg25 (by decide) (by decide) (by decide) (by decide) (by decide) (by decide) (by decide),
    U14_launch m c main_arg26 (by decide) (by decide) (by decide) (by decide) (by decide) (by decide) (by decide)]
  rw [lay4]
  rfl

abbrev X0 : Vec Ideal S25000x1 .f32 := m ((c : Thread nD τ).loc main_arg0)
abbrev X1 : Vec Ideal S2x400000 .i32 := m ((c : Thread nD τ).loc main_arg1)

theorem U6_v4 : (U6 m c main_v4 : Vec Ideal S401408 .i32) =
    pad S401408 ![0] ![1408] ![0]
      (shapeCast S400000 (extractStridedSlice S1x400000 ![0, 0] (X1 m c) slices_S2x400000_S1x400000_0_0) shapeCasts_S1x400000_S400000)
      (constantI S_ 32 4294967295#32) pads_S400000_S401408_014080 h_S_ := by
  dsimp only [U6, V6, V5, V4, V3, V2, V1, V0, hostOps0_5, hostOps0_4, hostOps0_3, hostOps0_2, hostOps0_1, hostOps0]
  after_results
  rfl

theorem U6_v5 : (U6 m c main_v5 : Vec Ideal S401408 .i32) =
    pad S401408 ![0] ![1408] ![0]
      (shapeCast S400000 (extractStridedSlice S1x400000 ![1, 0] (X1 m c) slices_S2x400000_S1x400000_1_0) shapeCasts_S1x400000_S400000)
      (constantI S_ 32 4294967295#32) pads_S400000_S401408_014080 h_S_ := by
  dsimp only [U6, V6, V5, V4, V3, V2, V1, V0, hostOps0_5, hostOps0_4, hostOps0_3, hostOps0_2, hostOps0_1, hostOps0]
  after_results
  rfl

theorem U6_v6 : (U6 m c main_v6 : Vec Ideal S25600x1 .f32) =
    pad S25600x1 ![0, 0] ![600, 0] ![0, 0] (X0 m c) (sitofp .f32 (constantI S_ 32 0#32) : FVec Ideal S_ .f32) pads_S25000x1_S25600x1_06000_000 h_S_ := by
  dsimp only [U6, V6, V5, V4, V3, V2, V1, V0, hostOps0_5, hostOps0_4, hostOps0_3, hostOps0_2, hostOps0_1, hostOps0]
  after_results
  all_goals rfl

theorem U17_v17 : (U17 m c main_v17 : Vec Ideal S25000x1 .f32) =
    extractStridedSlice S25000x1 ![0, 0] (U16 m c main_v16 : Vec Ideal S25600x1 .f32) slices_S25600x1_S25000x1_0_0 := by
  show StableHlo.after hostOps10 (U16 m c) (Proc.devRef .tc main_v17) = _
  dsimp only [hostOps10]
  after_results

theorem srcP_apply (e : Fin 401408) : srcP m c e
    = if h : e.val < 400000 then X1 m c (ix2 ⟨0, by decide⟩ ⟨e.val, h⟩) else 4294967295#32 := by
  show (U6 m c main_v4 : Vec Ideal S401408 .i32) (ix1 e) = _
  rw [U6_v4]
  exact Cert.PreRange.padded_row_apply 0 (by decide) (X1 m c) (constantI S_ 32 4294967295#32) _ _ _ _ (ix1 e)

theorem dstP_apply (e : Fin 401408) : dstP m c e
    = if h : e.val < 400000 then X1 m c (ix2 ⟨1, by decide⟩ ⟨e.val, h⟩) else 4294967295#32 := by
  show (U6 m c main_v5 : Vec Ideal S401408 .i32) (ix1 e) = _
  rw [U6_v5]
  exact Cert.PreRange.padded_row_apply 1 (by decide) (X1 m c) (constantI S_ 32 4294967295#32) _ _ _ _ (ix1 e)

theorem xP_apply (n : Fin 25000) (k : Fin 1) : xP m c (Fin.castLE (by decide) n) k = Cert.Spec.mat (X0 m c) n k := by
  show (U6 m c main_v6 : Vec Ideal S25600x1 .f32) (ix2 (Fin.castLE (by decide) n) k) = X0 m c (ix2 n k)
  rw [U6_v6]
  refine pad_apply_of_inside _ _ _ (X0 m c) _ _ _ _ (ix2 n k) (fun a => ?_)
  match a with
  | ⟨0, _⟩ => show n.val = 0 + n.val * (0 + 1); omega
  | ⟨1, _⟩ => show k.val = 0 + k.val * (0 + 1); omega

theorem L5_eq : L5 m c = Cert.Spec.refNet (srcP m c) (dstP m c) (xP m c)
      (Cert.Spec.mat (m ((c : Thread nD τ).loc main_arg3) : Vec Ideal S1x20 .f32))
      (Cert.Spec.vec (m ((c : Thread nD τ).loc main_arg4) : Vec Ideal S20 .f32))
      (Cert.Spec.mat (m ((c : Thread nD τ).loc main_arg5) : Vec Ideal S2x200 .f32))
      (Cert.Spec.vec (m ((c : Thread nD τ).loc main_arg6) : Vec Ideal S200 .f32))
      (Cert.Spec.mat (m ((c : Thread nD τ).loc main_arg7) : Vec Ideal S200x1 .f32))
      (Cert.Spec.vec (m ((c : Thread nD τ).loc main_arg8) : Vec Ideal S1 .f32))
      (Cert.Spec.mat (m ((c : Thread nD τ).loc main_arg9) : Vec Ideal S1x20 .f32))
      (Cert.Spec.vec (m ((c : Thread nD τ).loc main_arg10) : Vec Ideal S20 .f32))
      (Cert.Spec.mat (m ((c : Thread nD τ).loc main_arg11) : Vec Ideal S20x20 .f32))
      (Cert.Spec.vec (m ((c : Thread nD τ).loc main_arg12) : Vec Ideal S20 .f32))
      (Cert.Spec.mat (m ((c : Thread nD τ).loc main_arg13) : Vec Ideal S40x200 .f32))
      (Cert.Spec.vec (m ((c : Thread nD τ).loc main_arg14) : Vec Ideal S200 .f32))
      (Cert.Spec.mat (m ((c : Thread nD τ).loc main_arg15) : Vec Ideal S200x20 .f32))
      (Cert.Spec.vec (m ((c : Thread nD τ).loc main_arg16) : Vec Ideal S20 .f32))
      (Cert.Spec.mat (m ((c : Thread nD τ).loc main_arg17) : Vec Ideal S20x20 .f32))
      (Cert.Spec.vec (m ((c : Thread nD τ).loc main_arg18) : Vec Ideal S20 .f32))
      (Cert.Spec.mat (m ((c : Thread nD τ).loc main_arg19) : Vec Ideal S20x1 .f32))
      (Cert.Spec.vec (m ((c : Thread nD τ).loc main_arg20) : Vec Ideal S1 .f32))
      (Cert.Spec.mat (m ((c : Thread nD τ).loc main_arg21) : Vec Ideal S40x200 .f32))
      (Cert.Spec.vec (m ((c : Thread nD τ).loc main_arg22) : Vec Ideal S200 .f32))
      (Cert.Spec.mat (m ((c : Thread nD τ).loc main_arg23) : Vec Ideal S200x20 .f32))
      (Cert.Spec.vec (m ((c : Thread nD τ).loc main_arg24) : Vec Ideal S20 .f32))
      (Cert.Spec.mat (m ((c : Thread nD τ).loc main_arg25) : Vec Ideal S20x1 .f32))
      (Cert.Spec.vec (m ((c : Thread nD τ).loc main_arg26) : Vec Ideal S1 .f32)) := rfl

theorem kernel_value (hr : ∀ i : S2x400000.Idx, ((X1 m c) i).toNat < 25000) :
    (U17 m c main_v17 : Vec Ideal S25000x1 .f32) = fun i =>
      Cert.Spec.refNet (Cert.Spec.row 0 (X1 m c)) (Cert.Spec.row 1 (X1 m c)) (Cert.Spec.mat (X0 m c))
      (Cert.Spec.mat (m ((c : Thread nD τ).loc main_arg3) : Vec Ideal S1x20 .f32))
      (Cert.Spec.vec (m ((c : Thread nD τ).loc main_arg4) : Vec Ideal S20 .f32))
      (Cert.Spec.mat (m ((c : Thread nD τ).loc main_arg5) : Vec Ideal S2x200 .f32))
      (Cert.Spec.vec (m ((c : Thread nD τ).loc main_arg6) : Vec Ideal S200 .f32))
      (Cert.Spec.mat (m ((c : Thread nD τ).loc main_arg7) : Vec Ideal S200x1 .f32))
      (Cert.Spec.vec (m ((c : Thread nD τ).loc main_arg8) : Vec Ideal S1 .f32))
      (Cert.Spec.mat (m ((c : Thread nD τ).loc main_arg9) : Vec Ideal S1x20 .f32))
      (Cert.Spec.vec (m ((c : Thread nD τ).loc main_arg10) : Vec Ideal S20 .f32))
      (Cert.Spec.mat (m ((c : Thread nD τ).loc main_arg11) : Vec Ideal S20x20 .f32))
      (Cert.Spec.vec (m ((c : Thread nD τ).loc main_arg12) : Vec Ideal S20 .f32))
      (Cert.Spec.mat (m ((c : Thread nD τ).loc main_arg13) : Vec Ideal S40x200 .f32))
      (Cert.Spec.vec (m ((c : Thread nD τ).loc main_arg14) : Vec Ideal S200 .f32))
      (Cert.Spec.mat (m ((c : Thread nD τ).loc main_arg15) : Vec Ideal S200x20 .f32))
      (Cert.Spec.vec (m ((c : Thread nD τ).loc main_arg16) : Vec Ideal S20 .f32))
      (Cert.Spec.mat (m ((c : Thread nD τ).loc main_arg17) : Vec Ideal S20x20 .f32))
      (Cert.Spec.vec (m ((c : Thread nD τ).loc main_arg18) : Vec Ideal S20 .f32))
      (Cert.Spec.mat (m ((c : Thread nD τ).loc main_arg19) : Vec Ideal S20x1 .f32))
      (Cert.Spec.vec (m ((c : Thread nD τ).loc main_arg20) : Vec Ideal S1 .f32))
      (Cert.Spec.mat (m ((c : Thread nD τ).loc main_arg21) : Vec Ideal S40x200 .f32))
      (Cert.Spec.vec (m ((c : Thread nD τ).loc main_arg22) : Vec Ideal S200 .f32))
      (Cert.Spec.mat (m ((c : Thread nD τ).loc main_arg23) : Vec Ideal S200x20 .f32))
      (Cert.Spec.vec (m ((c : Thread nD τ).loc main_arg24) : Vec Ideal S20 .f32))
      (Cert.Spec.mat (m ((c : Thread nD τ).loc main_arg25) : Vec Ideal S20x1 .f32))
      (Cert.Spec.vec (m ((c : Thread nD τ).loc main_arg26) : Vec Ideal S1 .f32))
      (i 0) (i 1) := by
  funext i
  rw [U17_v17]
  have h1 : extractStridedSlice S25000x1 ![0, 0] (U16 m c main_v16 : Vec Ideal S25600x1 .f32) slices_S25600x1_S25000x1_0_0 i
      = (U16 m c main_v16 : Vec Ideal S25600x1 .f32) (ix2 (Fin.castLE (by decide) (i 0)) (i 1)) :=
    extractStridedSlice_apply _ _ _ i _ (fun a => by
      match a with
      | ⟨0, _⟩ => exact (Nat.zero_add _).symm
      | ⟨1, _⟩ => exact (Nat.zero_add _).symm)
  rw [h1, lay5]
  show L5 m c (Fin.castLE (by decide) (i 0)) (i 1) = _
  rw [L5_eq]
  refine Cert.Spec.refNet_pad (E := 400000) (E' := 401408) (N := 25000) (N' := 25600) (by decide) (by decide)
    (Cert.Spec.row 0 (X1 m c)) (Cert.Spec.row 1 (X1 m c)) (srcP m c) (dstP m c) (Cert.Spec.mat (X0 m c)) (xP m c)
    ?_ ?_ ?_ ?_ ?_ ?_ _ _ _ _ _ _ _ _ _ _ _ _ _ _ _ _ _ _ _ _ _ _ _ _ (i 0) (i 1)
  · intro e
    rw [srcP_apply, dif_pos (show (Fin.castLE (by decide) e : Fin 401408).val < 400000 from e.isLt)]
    rfl
  · intro e
    rw [dstP_apply, dif_pos (show (Fin.castLE (by decide) e : Fin 401408).val < 400000 from e.isLt)]
    rfl
  · intro n k
    exact xP_apply m c n k
  · intro e
    exact hr _
  · intro e
    exact hr _
  · intro e' he'
    rw [dstP_apply, dif_neg (by omega)]
    decide

end Chain

theorem kernel_value (m : (ℓ : Loc nD τ sig) → Buf (Elt Ideal) ℓ) (c : Dev nD)
    (hr : ∀ i : S2x400000.Idx, ((m ((c : Thread nD τ).loc main_arg1) : Vec Ideal S2x400000 .i32) i).toNat < 25000) :
    (U17 m c main_v17 : Vec Ideal S25000x1 .f32) = fun i =>
      Cert.Spec.refNet (Cert.Spec.row 0 (m ((c : Thread nD τ).loc main_arg1) : Vec Ideal S2x400000 .i32))
      (Cert.Spec.row 1 (m ((c : Thread nD τ).loc main_arg1) : Vec Ideal S2x400000 .i32))
      (Cert.Spec.mat (m ((c : Thread nD τ).loc main_arg0) : Vec Ideal S25000x1 .f32))
      (Cert.Spec.mat (m ((c : Thread nD τ).loc main_arg3) : Vec Ideal S1x20 .f32))
      (Cert.Spec.vec (m ((c : Thread nD τ).loc main_arg4) : Vec Ideal S20 .f32))
      (Cert.Spec.mat (m ((c : Thread nD τ).loc main_arg5) : Vec Ideal S2x200 .f32))
      (Cert.Spec.vec (m ((c : Thread nD τ).loc main_arg6) : Vec Ideal S200 .f32))
      (Cert.Spec.mat (m ((c : Thread nD τ).loc main_arg7) : Vec Ideal S200x1 .f32))
      (Cert.Spec.vec (m ((c : Thread nD τ).loc main_arg8) : Vec Ideal S1 .f32))
      (Cert.Spec.mat (m ((c : Thread nD τ).loc main_arg9) : Vec Ideal S1x20 .f32))
      (Cert.Spec.vec (m ((c : Thread nD τ).loc main_arg10) : Vec Ideal S20 .f32))
      (Cert.Spec.mat (m ((c : Thread nD τ).loc main_arg11) : Vec Ideal S20x20 .f32))
      (Cert.Spec.vec (m ((c : Thread nD τ).loc main_arg12) : Vec Ideal S20 .f32))
      (Cert.Spec.mat (m ((c : Thread nD τ).loc main_arg13) : Vec Ideal S40x200 .f32))
      (Cert.Spec.vec (m ((c : Thread nD τ).loc main_arg14) : Vec Ideal S200 .f32))
      (Cert.Spec.mat (m ((c : Thread nD τ).loc main_arg15) : Vec Ideal S200x20 .f32))
      (Cert.Spec.vec (m ((c : Thread nD τ).loc main_arg16) : Vec Ideal S20 .f32))
      (Cert.Spec.mat (m ((c : Thread nD τ).loc main_arg17) : Vec Ideal S20x20 .f32))
      (Cert.Spec.vec (m ((c : Thread nD τ).loc main_arg18) : Vec Ideal S20 .f32))
      (Cert.Spec.mat (m ((c : Thread nD τ).loc main_arg19) : Vec Ideal S20x1 .f32))
      (Cert.Spec.vec (m ((c : Thread nD τ).loc main_arg20) : Vec Ideal S1 .f32))
      (Cert.Spec.mat (m ((c : Thread nD τ).loc main_arg21) : Vec Ideal S40x200 .f32))
      (Cert.Spec.vec (m ((c : Thread nD τ).loc main_arg22) : Vec Ideal S200 .f32))
      (Cert.Spec.mat (m ((c : Thread nD τ).loc main_arg23) : Vec Ideal S200x20 .f32))
      (Cert.Spec.vec (m ((c : Thread nD τ).loc main_arg24) : Vec Ideal S20 .f32))
      (Cert.Spec.mat (m ((c : Thread nD τ).loc main_arg25) : Vec Ideal S20x1 .f32))
      (Cert.Spec.vec (m ((c : Thread nD τ).loc main_arg26) : Vec Ideal S1 .f32))
      (i 0) (i 1) :=
  Chain.kernel_value m c hr

end Cert.KernelIdeal.Hand
end
-- ==== Proof.LibRowGather.lean ====
import Idealize.ShloMosaic.Lib.ValueIdx
import Idealize.ShloMosaic.Lib.StableHlo.Predicate

noncomputable section

namespace Cert.LibRowGather

open Idealize.ShloMosaic Idealize.ShloMosaic.ValueIdx

def rowOf (N : Nat) (b : BitVec 32) (h : 0 ≤ b.toInt ∧ b.toInt < N) : Fin N := ⟨b.toInt.toNat, by omega⟩

abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := wf }

theorem gather_rows_apply {α : Type} {N E C : Nat}
    (wf : GatherDims.WF ⟨2, ![N, C]⟩ ⟨2, ![E, 1]⟩ ⟨2, ![E, C]⟩ [1] [0] [] [0] [] 1 ![1, C])
    (x : (⟨2, ![N, C]⟩ : Shape).Idx → α) (col : IVec ⟨2, ![E, 1]⟩ 32) (e : Fin E) (c : Fin C)
    (h : 0 ≤ (col (ix2 e (0 : Fin 1))).toInt ∧ (col (ix2 e (0 : Fin 1))).toInt < N) :
    Host.gather (rowGatherDims N E C wf) x col (ix2 e c) = x (ix2 (rowOf N _ h) c) := by

  unfold Host.gather
  congr 1
  funext a
  refine Fin.ext ?_
  show (rowGatherDims N E C wf).start (ix2 e c) col a + (rowGatherDims N E C wf).batchCoord (ix2 e c) a
    + (rowGatherDims N E C wf).offCoord (ix2 e c) a = _
  rw [GatherDims.batchCoord_eq_zero _ _ _ List.not_mem_nil]
  have ha : a = (0 : Fin 2) ∨ a = (1 : Fin 2) := by
    match a with
    | ⟨0, _⟩ => exact Or.inl rfl
    | ⟨1, _⟩ => exact Or.inr rfl
  rcases ha with rfl | rfl
  ·

    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    show min (col (ix2 e (0 : Fin 1))).toInt.toNat (N - 1) = (col (ix2 e (0 : Fin 1))).toInt.toNat
    omega
  ·
    have h10 : (1 : Fin 2) ∉ ([0] : List (Fin 2)) := fun h => absurd (List.mem_singleton.mp h) (by decide)
    unfold GatherDims.start
    rw [dif_neg (show (1 : Fin 2) ∉ (rowGatherDims N E C wf).startIndexMap from h10)]
    unfold GatherDims.offCoord
    rw [dif_pos (show (1 : Fin 2) ∈ (rowGatherDims N E C wf).sKept from
      (GatherDims.mem_sKept _ _).mpr ⟨h10, List.not_mem_nil⟩)]
    simp only [Nat.add_zero, Nat.zero_add]
    rfl

theorem col_apply {α : Type} {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) := by
  simp only [broadcastInDim]
  congr 1
  funext a
  obtain rfl : a = 0 := Subsingleton.elim _ _
  apply Fin.ext
  have hp := e.isLt
  split
  · next h1 => change E = 1 at h1; show (0 : Nat) = e.val; omega
  · rfl

private theorem toNat_of_toInt_nonneg (x : BitVec 32) (h : 0 ≤ x.toInt) : x.toNat < 2 ^ 31 ∧ x.toInt = x.toNat := by
  have hc := BitVec.toInt_eq_toNat_cond x
  have hx := x.isLt
  split at hc <;> omega

private theorem foldl_andi_one {ι : Type} (f : ι → BitVec 1) :
    ∀ l : List ι, (∀ n ∈ l, f n = 1#1) → l.foldl (fun r n => IntOp.andi r (f n)) 1#1 = 1#1
  | [], _ => rfl
  | b :: l, h => by
    have h11 : IntOp.andi 1#1 1#1 = 1#1 := by decide
    rw [List.foldl_cons, h b List.mem_cons_self, h11]
    exact foldl_andi_one f l (fun n hn => h n (List.mem_cons_of_mem _ hn))

private theorem reduce_andi_of_all {s t u : Shape} {axes : List (Fin s.rank)} (x : s.Idx → BitVec 1)
    (init : u.Idx → BitVec 1) (h : s.ReducesTo axes t) (hu : 0 < u.numel) (j : t.Idx)
    (hinit : init (Shape.Idx.first hu) = 1#1) (hx : ∀ i, x i = 1#1) :
    Host.reduce IntOp.andi x init h hu j = 1#1 := by
  rw [Host.reduce_eq_foldl, hinit]
  exact foldl_andi_one x _ (fun i _ => hx i)

section Mask
variable {N E : Nat}
  (hbE : (⟨0, ![]⟩ : Shape).BroadcastsInDim ⟨1, ![E]⟩ ![])
  (hcol : (⟨1, ![E]⟩ : Shape).BroadcastsInDim ⟨2, ![E, 1]⟩ ![0])
  (hbE1 : (⟨0, ![]⟩ : Shape).BroadcastsInDim ⟨2, ![E, 1]⟩ ![])
  (hb11 : (⟨1, ![1]⟩ : Shape).BroadcastsInDim ⟨2, ![1, 1]⟩ ![1])
  (hb11E1 : (⟨2, ![1, 1]⟩ : Shape).BroadcastsInDim ⟨2, ![E, 1]⟩ ![0, 1])
  (hred : (⟨2, ![E, 1]⟩ : Shape).ReducesTo [1] ⟨1, ![E]⟩)
  (h0 : 0 < (⟨0, ![]⟩ : Shape).numel)
  (wN wM : BitVec 32) (a : IVec ⟨1, ![E]⟩ 32)

abbrev idxCol : IVec ⟨2, ![E, 1]⟩ 32 :=
  broadcastInDim ⟨2, ![E, 1]⟩ ![0] hcol
    (select (cmpi .slt a (broadcastInDim ⟨1, ![E]⟩ ![] hbE (constantI ⟨0, ![]⟩ 32 0#32)))
      (addi a (broadcastInDim ⟨1, ![E]⟩ ![] hbE (constantI ⟨0, ![]⟩ 32 wN))) a)

abbrev okVec : IVec ⟨1, ![E]⟩ 1 :=
  Host.reduce IntOp.andi
    (andi (cmpi .sge (idxCol hbE hcol wN a) (broadcastInDim ⟨2, ![E, 1]⟩ ![] hbE1 (constantI ⟨0, ![]⟩ 32 0#32)))
      (cmpi .sle (idxCol hbE hcol wN a)
        (broadcastInDim ⟨2, ![E, 1]⟩ ![0, 1] hb11E1 (broadcastInDim ⟨2, ![1, 1]⟩ ![1] hb11 (constantI ⟨1, ![1]⟩ 32 wM)))))
    (constantI ⟨0, ![]⟩ 1 1#1) hred h0

variable (ha : ∀ e : Fin E, 0 ≤ (a (ix1 e)).toInt ∧ (a (ix1 e)).toInt < N)

include ha in

theorem idxCol_apply (e : Fin E) : idxCol hbE hcol wN a (ix2 e (0 : Fin 1)) = a (ix1 e) := by

  have hslt : IntOp.cmpi .slt (a (ix1 e)) 0#32 = 0#1 := by
    have h := (ha e).1
    have h0 : (0#32 : BitVec 32).toInt = 0 := by decide
    have hf : (a (ix1 e)).slt 0#32 = false := by
      simp only [BitVec.slt, h0, decide_eq_false_iff_not, not_lt]; exact h
    show BitVec.ofBool ((a (ix1 e)).slt 0#32) = 0#1
    rw [hf]; rfl
  refine (col_apply hcol _ e).trans ?_
  show Scalar.select (IntOp.cmpi .slt (a (ix1 e)) 0#32) (IntOp.addi (a (ix1 e)) wN) (a (ix1 e)) = a (ix1 e)
  rw [hslt, select_zero]

include ha in

theorem okVec_apply (hN : N < 2 ^ 31) (hM : wM.toNat = N - 1) (e : Fin E) :
    okVec hbE hcol hbE1 hb11 hb11E1 hred h0 wN wM a (ix1 e) = 1#1 := by

  refine reduce_andi_of_all _ _ hred h0 _ rfl ?_
  intro i
  obtain ⟨e', z, rfl⟩ : ∃ (e' : Fin E) (z : Fin 1), i = ix2 e' z := ⟨i 0, i 1, eq_ix2 i⟩
  obtain rfl : z = 0 := Subsingleton.elim _ _
  have hcolv := idxCol_apply hbE hcol wN a ha e'
  obtain ⟨hlt, hint⟩ := toNat_of_toInt_nonneg (a (ix1 e')) (ha e').1
  have hup := (ha e').2

  have hge : IntOp.cmpi .sge (a (ix1 e')) 0#32 = 1#1 :=
    (StableHlo.Predicate.sge_iff_toNat hlt (by decide)).2 (Nat.zero_le _)
  have hle : IntOp.cmpi .sle (a (ix1 e')) wM = 1#1 :=
    (StableHlo.Predicate.sle_iff_toNat hlt (by omega)).2 (by omega)
  show IntOp.andi (IntOp.cmpi .sge (idxCol hbE hcol wN a (ix2 e' (0 : Fin 1))) 0#32)
    (IntOp.cmpi .sle (idxCol hbE hcol wN a (ix2 e' (0 : Fin 1))) wM) = 1#1
  rw [hcolv, hge, hle]
  decide

end Mask

end Cert.LibRowGather

end
-- ==== Proof.Ref.RowScatter.lean ====
import Idealize.ShloMosaic.Lib.ValueIdx

noncomputable section

open scoped BigOperators

namespace Cert.ReferenceIdeal.RefValue

open Idealize.ShloMosaic Idealize.ShloMosaic.ValueIdx

abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

theorem ix2_eq_iff {n0 n1 : Nat} (a a' : Fin n0) (b b' : Fin n1) : ix2 a b = ix2 a' b' ↔ a = a' ∧ b = b' := by
  constructor
  · intro h
    exact ⟨congrFun h (0 : Fin 2), congrFun h (1 : Fin 2)⟩
  · rintro ⟨rfl, rfl⟩; rfl

section
variable {N E C : Nat} (wf : ScatterDims.WF ⟨2, ![N, C]⟩ ⟨2, ![E, 1]⟩ ⟨2, ![E, C]⟩ [1] [0] [0] 1)
  (col : IVec ⟨2, ![E, 1]⟩ 32)

theorem start_rows_0 (e : Fin E) (c : Fin C) :
    (rowScatterDims N E C wf).start (ix2 e c) col (0 : Fin 2) = (col (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_rows_1 (e : Fin E) (c : Fin C) : (rowScatterDims N E C wf).start (ix2 e c) col (1 : Fin 2) = 0 := by
  unfold ScatterDims.start
  have h10 : (1 : Fin 2) ∉ ([0] : List (Fin 2)) := fun h => absurd (List.mem_singleton.mp h) (by decide)
  rw [dif_neg (show (1 : Fin 2) ∉ (rowScatterDims N E C wf).scatterDimsToOperandDims from h10)]

theorem window_rows_0 (e : Fin E) (c : Fin C) : (rowScatterDims N E C wf).window (ix2 e c) (0 : Fin 2) = 0 := by
  unfold ScatterDims.window
  have hk0 : (0 : Fin 2) ∉ (List.finRange 2).filter (fun a : Fin 2 => a ∉ ([0] : List (Fin 2))) := by decide
  rw [dif_neg (show (0 : Fin 2) ∉ (rowScatterDims N E C wf).sKept from hk0)]

theorem window_rows_1 (e : Fin E) (c : Fin C) : (rowScatterDims N E C wf).window (ix2 e c) (1 : Fin 2) = c.val := by
  unfold ScatterDims.window
  have hk1 : (1 : Fin 2) ∈ (List.finRange 2).filter (fun a : Fin 2 => a ∉ ([0] : List (Fin 2))) := by decide
  rw [dif_pos (show (1 : Fin 2) ∈ (rowScatterDims N E C wf).sKept from hk1)]
  rfl

theorem resultIdx_rows (e : Fin E) (c : Fin C)
    (h : 0 ≤ (col (ix2 e (0 : Fin 1))).toInt ∧ (col (ix2 e (0 : Fin 1))).toInt < N) :
    (rowScatterDims N E C wf).resultIdx? (ix2 e c) col
      = some (ix2 (⟨(col (ix2 e (0 : Fin 1))).toInt.toNat, by omega⟩ : Fin N) c) := by
  have hall : ∀ a : Fin 2, 0 ≤ (rowScatterDims N E C wf).start (ix2 e c) col a + (rowScatterDims N E C wf).window (ix2 e c) a ∧
      (rowScatterDims N E C wf).start (ix2 e c) col a + (rowScatterDims N E C wf).window (ix2 e c) a
        < (⟨2, ![N, C]⟩ : Shape).size a := by
    intro a
    have ha : a = (0 : Fin 2) ∨ a = (1 : Fin 2) := by
      match a with
      | ⟨0, _⟩ => exact Or.inl rfl
      | ⟨1, _⟩ => exact Or.inr rfl
    rcases ha with rfl | rfl
    · rw [start_rows_0, window_rows_0]
      show 0 ≤ _ + ((0 : Nat) : Int) ∧ _ + ((0 : Nat) : Int) < (N : Int)
      omega
    · rw [start_rows_1, window_rows_1]
      show 0 ≤ (0 : Int) + (c.val : Int) ∧ (0 : Int) + (c.val : Int) < (C : Int)
      have := c.isLt
      omega
  unfold ScatterDims.resultIdx?
  rw [dif_pos hall]
  congr 1
  funext a
  refine Fin.ext ?_
  have ha : a = (0 : Fin 2) ∨ a = (1 : Fin 2) := by
    match a with
    | ⟨0, _⟩ => exact Or.inl rfl
    | ⟨1, _⟩ => exact Or.inr rfl
  rcases ha with rfl | rfl
  · show ((rowScatterDims N E C wf).start (ix2 e c) col (0 : Fin 2) + (rowScatterDims N E C wf).window (ix2 e c) (0 : Fin 2)).toNat = _
    rw [start_rows_0, window_rows_0]
    show ((col (ix2 e (0 : Fin 1))).toInt + ((0 : Nat) : Int)).toNat = (col (ix2 e (0 : Fin 1))).toInt.toNat
    simp
  · show ((rowScatterDims N E C wf).start (ix2 e c) col (1 : Fin 2) + (rowScatterDims N E C wf).window (ix2 e c) (1 : Fin 2)).toNat = _
    rw [start_rows_1, window_rows_1]
    show ((0 : Int) + (c.val : Int)).toNat = c.val
    simp

theorem scatterAdd_rows_apply {φ : FTy} (x : FVec Ideal ⟨2, ![N, C]⟩ φ) (upd : FVec Ideal ⟨2, ![E, C]⟩ φ)
    (h : ∀ e : Fin E, 0 ≤ (col (ix2 e (0 : Fin 1))).toInt ∧ (col (ix2 e (0 : Fin 1))).toInt < N) (n : Fin N) (c : Fin C) :
    Host.scatterAdd (F := Ideal) (rowScatterDims N E C wf) x col upd (ix2 n c)
      = x (ix2 n c) + ∑ e : Fin E, if (col (ix2 e (0 : Fin 1))).toInt.toNat = n.val then upd (ix2 e c) else 0 := by
  show x (ix2 n c) + ∑ j ∈ Finset.univ.filter (fun j => (rowScatterDims N E C wf).resultIdx? j col = some (ix2 n c)), upd j = _
  congr 1
  rw [Finset.sum_filter, sum_idx2]
  refine Finset.sum_congr rfl fun e _ => ?_

  have key : ∀ c' : Fin C, (rowScatterDims N E C wf).resultIdx? (ix2 e c') col = some (ix2 n c) ↔
      ((col (ix2 e (0 : Fin 1))).toInt.toNat = n.val ∧ c' = c) := by
    intro c'
    rw [resultIdx_rows wf col e c' (h e), Option.some.injEq, ix2_eq_iff]
    constructor
    · rintro ⟨h1, h2⟩; exact ⟨congrArg Fin.val h1, h2⟩
    · rintro ⟨h1, h2⟩; exact ⟨Fin.ext h1, h2⟩
  calc (∑ c' : Fin C, if (rowScatterDims N E C wf).resultIdx? (ix2 e c') col = some (ix2 n c) then upd (ix2 e c') else 0)
      = ∑ c' : Fin C, if ((col (ix2 e (0 : Fin 1))).toInt.toNat = n.val ∧ c' = c) then upd (ix2 e c') else 0 :=
        Finset.sum_congr rfl fun c' _ => if_congr (key c') rfl rfl
    _ = if (col (ix2 e (0 : Fin 1))).toInt.toNat = n.val then upd (ix2 e c) else 0 := by
        by_cases hr : (col (ix2 e (0 : Fin 1))).toInt.toNat = n.val
        · simp [hr]
        · simp [hr]

end

end Cert.ReferenceIdeal.RefValue

end
-- ==== Proof.Ref.Ops.lean ====
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx

theorem bias_apply {α : Type} {R C : Nat} (h₁ : (⟨1, ![C]⟩ : Shape).BroadcastsInDim ⟨2, ![1, C]⟩ ![1])
    (h₂ : (⟨2, ![1, C]⟩ : Shape).BroadcastsInDim ⟨2, ![R, C]⟩ ![0, 1]) (b : (⟨1, ![C]⟩ : Shape).Idx → α) (r : Fin R) (c : Fin C) :
    broadcastInDim ⟨2, ![R, C]⟩ ![0, 1] h₂ (broadcastInDim ⟨2, ![1, C]⟩ ![1] h₁ b) (ix2 r c) = b (ix1 c) := by
  simp only [broadcastInDim]
  congr 1
  funext a
  obtain rfl : a = 0 := Subsingleton.elim _ _
  apply Fin.ext
  have hp := c.isLt
  split
  · next h1 => change C = 1 at h1; show (0 : Nat) = c.val; omega
  · split
    · next h2 => change C = 1 at h2; show (0 : Nat) = c.val; omega
    · rfl

theorem splat_apply {α : Type} {t : Shape} (h : (⟨0, ![]⟩ : Shape).BroadcastsInDim t ![]) (v : (⟨0, ![]⟩ : Shape).Idx → α)
    (j : t.Idx) : broadcastInDim t ![] h v j = v ix0 := by
  simp only [broadcastInDim]
  congr 1
  funext a
  exact a.elim0

abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  { lhsContracting := [1], rhsContracting := [0], lhsNonContracting := [0], rhsNonContracting := [1], lhsBatch := [],
    rhsBatch := [], wf := wf }

section Plain
variable {M K N : Nat} (wf : DotDims.WF ⟨2, ![M, K]⟩ ⟨2, ![K, N]⟩ ⟨2, ![M, N]⟩ [1] [0] [0] [1] [] [])

theorem plain_lhs_0 (j : (⟨2, ![M, N]⟩ : Shape).Idx) (q : (plainDims M K N wf).contr.Idx) :
    ((plainDims M K N wf).lhsIdx j q (0 : Fin 2)).val = (j (0 : Fin 2)).val := rfl

theorem plain_lhs_1 (j : (⟨2, ![M, N]⟩ : Shape).Idx) (q : (plainDims M K N wf).contr.Idx) :
    ((plainDims M K N wf).lhsIdx j q (1 : Fin 2)).val = (q ⟨0, Nat.one_pos⟩).val :=
  (plainDims M K N wf).lhsIdx_val_of_single rfl j q

theorem plain_rhs_0 (j : (⟨2, ![M, N]⟩ : Shape).Idx) (q : (plainDims M K N wf).contr.Idx) :
    ((plainDims M K N wf).rhsIdx j q (0 : Fin 2)).val = (q ⟨0, Nat.one_pos⟩).val :=
  (plainDims M K N wf).rhsIdx_val_of_single rfl j q

theorem plain_rhs_1 (j : (⟨2, ![M, N]⟩ : Shape).Idx) (q : (plainDims M K N wf).contr.Idx) :
    ((plainDims M K N wf).rhsIdx j q (1 : Fin 2)).val = (j (1 : Fin 2)).val := rfl

theorem dot_plain_apply {φ₁ φ₂ : FTy} (l : FVec Ideal ⟨2, ![M, K]⟩ φ₁) (r : FVec Ideal ⟨2, ![K, N]⟩ φ₂) (i : Fin M) (j : Fin N) :
    Host.dotGeneral (F := Ideal) (plainDims M K N wf) none l r (ix2 i j) = ∑ k : Fin K, l (ix2 i k) * r (ix2 k j) := by
  show FloatOps.dotGeneral (plainDims M K N wf) none .single l r (ix2 i j) = _
  rw [Ideal.dotGeneral_apply, ← Equiv.sum_comp (contrEquiv1 (plainDims M K N wf) K rfl rfl).symm]
  refine Finset.sum_congr rfl fun k _ => ?_
  have hk := contrEquiv1_symm_val (plainDims M K N wf) K rfl rfl k
  congr 1
  · congr 1
    funext a
    refine Fin.ext ?_
    have ha : a = (0 : Fin 2) ∨ a = (1 : Fin 2) := by
      match a with
      | ⟨0, _⟩ => exact Or.inl rfl
      | ⟨1, _⟩ => exact Or.inr rfl
    rcases ha with rfl | rfl
    · exact plain_lhs_0 wf _ _
    · exact (plain_lhs_1 wf _ _).trans hk
  · congr 1
    funext a
    refine Fin.ext ?_
    have ha : a = (0 : Fin 2) ∨ a = (1 : Fin 2) := by
      match a with
      | ⟨0, _⟩ => exact Or.inl rfl
      | ⟨1, _⟩ => exact Or.inr rfl
    rcases ha with rfl | rfl
    · exact (plain_rhs_0 wf _ _).trans hk
    · exact plain_rhs_1 wf _ _

end Plain

theorem concat_cols_apply {α : Type} {E A B T : Nat} (hT : T = A + B)
    (h : Shape.Concatenates [(⟨2, ![E, A]⟩ : Shape), (⟨2, ![E, B]⟩ : Shape)] (⟨2, ![E, T]⟩ : Shape) 1)
    (x₁ : (⟨2, ![E, A]⟩ : Shape).Idx → α) (x₂ : (⟨2, ![E, B]⟩ : Shape).Idx → α) (e : Fin E) (q : Fin T) :
    concatenate (⟨2, ![E, T]⟩ : Shape) 1 [⟨⟨2, ![E, A]⟩, x₁⟩, ⟨⟨2, ![E, B]⟩, x₂⟩] h (ix2 e q)
      = Fin.append (fun k : Fin A => x₁ (ix2 e k)) (fun k : Fin B => x₂ (ix2 e k)) (q.cast hT) := by
  subst hT
  by_cases hq : q.val < A
  · have hap : Fin.append (fun k : Fin A => x₁ (ix2 e k)) (fun k : Fin B => x₂ (ix2 e k)) (q.cast rfl)
        = x₁ (ix2 e ⟨q.val, hq⟩) := by
      have : q.cast rfl = Fin.castAdd B ⟨q.val, hq⟩ := Fin.ext rfl
      rw [this, Fin.append_left]
    rw [hap]
    refine Idealize.ShloMosaic.concatenate_pair_apply_left (1 : Fin 2) x₁ x₂ h (ix2 e q) rfl (ix2 e ⟨q.val, hq⟩) ?_
    intro b
    have hb : b = (0 : Fin 2) ∨ b = (1 : Fin 2) := by
      match b with
      | ⟨0, _⟩ => exact Or.inl rfl
      | ⟨1, _⟩ => exact Or.inr rfl
    rcases hb with rfl | rfl <;> rfl
  · have hq' : q.val - A < B := by have := q.isLt; omega
    have hap : Fin.append (fun k : Fin A => x₁ (ix2 e k)) (fun k : Fin B => x₂ (ix2 e k)) (q.cast rfl)
        = x₂ (ix2 e ⟨q.val - A, hq'⟩) := by
      have : q.cast rfl = Fin.natAdd A ⟨q.val - A, hq'⟩ := Fin.ext (by show q.val = A + (q.val - A); omega)
      rw [this, Fin.append_right]
    rw [hap]
    refine Idealize.ShloMosaic.concatenate_pair_apply_right (1 : Fin 2) x₁ x₂ h (ix2 e q) rfl rfl (ix2 e ⟨q.val - A, hq'⟩) ?_ ?_
    · intro b hb
      have hb' : b = (0 : Fin 2) ∨ b = (1 : Fin 2) := by
        match b with
        | ⟨0, _⟩ => exact Or.inl rfl
        | ⟨1, _⟩ => exact Or.inr rfl
      rcases hb' with rfl | rfl
      · rfl
      · exact absurd rfl hb
    · show q.val - A + A = q.val
      omega

theorem row_apply {α : Type} {E : Nat} (r : Fin 2)
    (hs : (⟨2, ![2, E]⟩ : Shape).Slices ![r.val, 0] ⟨2, ![1, E]⟩)
    (hc : (⟨2, ![1, E]⟩ : Shape).ShapeCasts ⟨1, ![E]⟩) (x : (⟨2, ![2, E]⟩ : Shape).Idx → α) (e : Fin E) :
    shapeCast (⟨1, ![E]⟩ : Shape) (extractStridedSlice (⟨2, ![1, E]⟩ : Shape) ![r.val, 0] x hs) hc (ix1 e) = x (ix2 r e) := by
  refine (shapeCast_apply _ hc (ix1 e) (ix2 (0 : Fin 1) e) ?_).trans ?_
  · rw [Shape.rowMajor_val_two]
    show (0 : Nat) * E + e.val = ((⟨1, ![E]⟩ : Shape).rowMajor (ix1 e)).val
    have : ((⟨1, ![E]⟩ : Shape).rowMajor (ix1 e)).val = e.val := by
      show (Shape.rowMajorPi ![E] (ix1 e)).val = _
      rw [Shape.rowMajorPi_succ_val]
      simp [Shape.rowMajorPi_zero]
    rw [this]; omega
  · refine extractStridedSlice_apply _ x hs (ix2 (0 : Fin 1) e) (ix2 r e) ?_
    intro a
    have ha : a = (0 : Fin 2) ∨ a = (1 : Fin 2) := by
      match a with
      | ⟨0, _⟩ => exact Or.inl rfl
      | ⟨1, _⟩ => exact Or.inr rfl
    rcases ha with rfl | rfl
    · show r.val = r.val + 0; omega
    · show e.val = 0 + e.val; omega

theorem zeros_apply {t : Shape} (h : (⟨0, ![]⟩ : Shape).BroadcastsInDim t ![]) (j : t.Idx) :
    broadcastInDim t ![] h (constant (F := Ideal) (⟨0, ![]⟩ : Shape) .f32 0x00000000#32) j = (0 : EReal) := by
  rw [splat_apply]
  exact Ideal.ofBits_zero_f32

theorem relu_apply {t : Shape} (h : (⟨0, ![]⟩ : Shape).BroadcastsInDim t ![]) (x : FVec Ideal t .f32) (j : t.Idx) :
    maximumf x (broadcastInDim t ![] h (constant (F := Ideal) (⟨0, ![]⟩ : Shape) .f32 0x00000000#32)) j = max (x j) 0 := by
  show max (x j) (broadcastInDim t ![] h (constant (F := Ideal) (⟨0, ![]⟩ : Shape) .f32 0x00000000#32) j) = _
  rw [zeros_apply]

end Cert.ReferenceIdeal.RefValue

end
-- ==== Proof.Ref.Layer.lean ====
import proofs.«415925_j84189948936386_1_alg».proof.Proof.LibRowGather
import proofs.«415925_j84189948936386_1_alg».proof.Proof.Ref.RowScatter
import proofs.«415925_j84189948936386_1_alg».proof.Proof.Ref.Ops
import proofs.«415925_j84189948936386_1_alg».proof.Proof.Spec

noncomputable section

open scoped BigOperators

namespace Cert.ReferenceIdeal.RefValue

open Idealize.ShloMosaic Idealize.ShloMosaic.ValueIdx Cert.LibRowGather

theorem toInt_toNat_of_nonneg (w : BitVec 32) (h : 0 ≤ w.toInt) : w.toInt.toNat = w.toNat := by
  have hc := BitVec.toInt_eq_toNat_cond w
  have hx := w.isLt
  split at hc <;> omega

structure LayerFacts (N E cin hid cout : ℕ) : Prop where
  hbE : (⟨0, ![]⟩ : Shape).BroadcastsInDim ⟨1, ![E]⟩ ![]
  hcol : (⟨1, ![E]⟩ : Shape).BroadcastsInDim ⟨2, ![E, 1]⟩ ![0]
  gwf : GatherDims.WF ⟨2, ![N, cin]⟩ ⟨2, ![E, 1]⟩ ⟨2, ![E, cin]⟩ [1] [0] [] [0] [] 1 ![1, cin]
  hcat : Shape.Concatenates [(⟨2, ![E, cin]⟩ : Shape), (⟨2, ![E, cin]⟩ : Shape)] (⟨2, ![E, cin + cin]⟩ : Shape) 1
  dwf1 : DotDims.WF ⟨2, ![E, cin + cin]⟩ ⟨2, ![cin + cin, hid]⟩ ⟨2, ![E, hid]⟩ [1] [0] [0] [1] [] []
  hbh1 : (⟨1, ![hid]⟩ : Shape).BroadcastsInDim ⟨2, ![1, hid]⟩ ![1]
  hbh2 : (⟨2, ![1, hid]⟩ : Shape).BroadcastsInDim ⟨2, ![E, hid]⟩ ![0, 1]
  hzh : (⟨0, ![]⟩ : Shape).BroadcastsInDim ⟨2, ![E, hid]⟩ ![]
  dwf2 : DotDims.WF ⟨2, ![E, hid]⟩ ⟨2, ![hid, cin]⟩ ⟨2, ![E, cin]⟩ [1] [0] [0] [1] [] []
  hbc1 : (⟨1, ![cin]⟩ : Shape).BroadcastsInDim ⟨2, ![1, cin]⟩ ![1]
  hbc2 : (⟨2, ![1, cin]⟩ : Shape).BroadcastsInDim ⟨2, ![E, cin]⟩ ![0, 1]
  dwf3 : DotDims.WF ⟨2, ![E, cin]⟩ ⟨2, ![cin, cout]⟩ ⟨2, ![E, cout]⟩ [1] [0] [0] [1] [] []
  hbo1 : (⟨1, ![cout]⟩ : Shape).BroadcastsInDim ⟨2, ![1, cout]⟩ ![1]
  hbo2 : (⟨2, ![1, cout]⟩ : Shape).BroadcastsInDim ⟨2, ![E, cout]⟩ ![0, 1]
  hzN : (⟨0, ![]⟩ : Shape).BroadcastsInDim ⟨2, ![N, cout]⟩ ![]
  swf : ScatterDims.WF ⟨2, ![N, cout]⟩ ⟨2, ![E, 1]⟩ ⟨2, ![E, cout]⟩ [1] [0] [0] 1
  dwf4 : DotDims.WF ⟨2, ![N, cin]⟩ ⟨2, ![cin, cout]⟩ ⟨2, ![N, cout]⟩ [1] [0] [0] [1] [] []
  hbo3 : (⟨2, ![1, cout]⟩ : Shape).BroadcastsInDim ⟨2, ![N, cout]⟩ ![0, 1]

section Stages
variable {N E cin hid cout : ℕ} {F : FTy → Type} [FloatOps F]

def gatherT (H : LayerFacts N E cin hid cout) (wN : BitVec 32) (x : FVec F ⟨2, ![N, cin]⟩ .f32) (a : IVec ⟨1, ![E]⟩ 32) :
    FVec F ⟨2, ![E, cin]⟩ .f32 :=
  Host.gather (rowGatherDims N E cin H.gwf) x (idxCol H.hbE H.hcol wN a)

def tmpT (H : LayerFacts N E cin hid cout) (wN : BitVec 32) (x : FVec F ⟨2, ![N, cin]⟩ .f32) (srcV dstV : IVec ⟨1, ![E]⟩ 32) :
    FVec F ⟨2, ![E, cin + cin]⟩ .f32 :=
  concatenate (⟨2, ![E, cin + cin]⟩ : Shape) 1
    [⟨⟨2, ![E, cin]⟩, gatherT H wN x dstV⟩, ⟨⟨2, ![E, cin]⟩, gatherT H wN x srcV⟩] H.hcat

def hidT (H : LayerFacts N E cin hid cout) (wN : BitVec 32) (x : FVec F ⟨2, ![N, cin]⟩ .f32) (srcV dstV : IVec ⟨1, ![E]⟩ 32)
    (Wm1 : FVec F ⟨2, ![cin + cin, hid]⟩ .f32) (bm1 : FVec F ⟨1, ![hid]⟩ .f32) : FVec F ⟨2, ![E, hid]⟩ .f32 :=
  maximumf
    (addf (Host.dotGeneral (F := F) (plainDims E (cin + cin) hid H.dwf1) none (tmpT H wN x srcV dstV) Wm1)
      (broadcastInDim ⟨2, ![E, hid]⟩ ![0, 1] H.hbh2 (broadcastInDim ⟨2, ![1, hid]⟩ ![1] H.hbh1 bm1)))
    (broadcastInDim ⟨2, ![E, hid]⟩ ![] H.hzh (constant (F := F) (⟨0, ![]⟩ : Shape) .f32 0x00000000#32))

def gateT (H : LayerFacts N E cin hid cout) (wN : BitVec 32) (x : FVec F ⟨2, ![N, cin]⟩ .f32) (srcV dstV : IVec ⟨1, ![E]⟩ 32)
    (Wm1 : FVec F ⟨2, ![cin + cin, hid]⟩ .f32) (bm1 : FVec F ⟨1, ![hid]⟩ .f32)
    (Wm2 : FVec F ⟨2, ![hid, cin]⟩ .f32) (bm2 : FVec F ⟨1, ![cin]⟩ .f32) : FVec F ⟨2, ![E, cin]⟩ .f32 :=
  addf (Host.dotGeneral (F := F) (plainDims E hid cin H.dwf2) none (hidT H wN x srcV dstV Wm1 bm1) Wm2)
    (broadcastInDim ⟨2, ![E, cin]⟩ ![0, 1] H.hbc2 (broadcastInDim ⟨2, ![1, cin]⟩ ![1] H.hbc1 bm2))

def msgT (H : LayerFacts N E cin hid cout) (wN : BitVec 32) (x : FVec F ⟨2, ![N, cin]⟩ .f32) (srcV dstV : IVec ⟨1, ![E]⟩ 32)
    (Wm1 : FVec F ⟨2, ![cin + cin, hid]⟩ .f32) (bm1 : FVec F ⟨1, ![hid]⟩ .f32)
    (Wm2 : FVec F ⟨2, ![hid, cin]⟩ .f32) (bm2 : FVec F ⟨1, ![cin]⟩ .f32)
    (W2 : FVec F ⟨2, ![cin, cout]⟩ .f32) (b2 : FVec F ⟨1, ![cout]⟩ .f32) : FVec F ⟨2, ![E, cout]⟩ .f32 :=
  addf (Host.dotGeneral (F := F) (plainDims E cin cout H.dwf3) none
      (mulf (gateT H wN x srcV dstV Wm1 bm1 Wm2 bm2) (subf (gatherT H wN x dstV) (gatherT H wN x srcV))) W2)
    (broadcastInDim ⟨2, ![E, cout]⟩ ![0, 1] H.hbo2 (broadcastInDim ⟨2, ![1, cout]⟩ ![1] H.hbo1 b2))

def preT (H : LayerFacts N E cin hid cout) (wN : BitVec 32) (x : FVec F ⟨2, ![N, cin]⟩ .f32) (srcV dstV : IVec ⟨1, ![E]⟩ 32)
    (W1 : FVec F ⟨2, ![cin, cout]⟩ .f32) (b1 : FVec F ⟨1, ![cout]⟩ .f32)
    (Wm1 : FVec F ⟨2, ![cin + cin, hid]⟩ .f32) (bm1 : FVec F ⟨1, ![hid]⟩ .f32)
    (Wm2 : FVec F ⟨2, ![hid, cin]⟩ .f32) (bm2 : FVec F ⟨1, ![cin]⟩ .f32)
    (W2 : FVec F ⟨2, ![cin, cout]⟩ .f32) (b2 : FVec F ⟨1, ![cout]⟩ .f32) : FVec F ⟨2, ![N, cout]⟩ .f32 :=
  addf
    (Host.scatterAdd (F := F) (rowScatterDims N E cout H.swf)
      (broadcastInDim ⟨2, ![N, cout]⟩ ![] H.hzN (constant (F := F) (⟨0, ![]⟩ : Shape) .f32 0x00000000#32))
      (broadcastInDim ⟨2, ![E, 1]⟩ ![0] H.hcol dstV)
      (msgT H wN x srcV dstV Wm1 bm1 Wm2 bm2 W2 b2))
    (addf (Host.dotGeneral (F := F) (plainDims N cin cout H.dwf4) none x W1)
      (broadcastInDim ⟨2, ![N, cout]⟩ ![0, 1] H.hbo3 (broadcastInDim ⟨2, ![1, cout]⟩ ![1] H.hbo1 b1)))

def reluT (H : LayerFacts N E cin hid cout) (y : FVec F ⟨2, ![N, cout]⟩ .f32) : FVec F ⟨2, ![N, cout]⟩ .f32 :=
  maximumf y (broadcastInDim ⟨2, ![N, cout]⟩ ![] H.hzN (constant (F := F) (⟨0, ![]⟩ : Shape) .f32 0x00000000#32))

theorem gatherT_apply (H : LayerFacts N E cin hid cout) (wN : BitVec 32) (x : FVec Ideal ⟨2, ![N, cin]⟩ .f32)
    (a : IVec ⟨1, ![E]⟩ 32) (ha : ∀ e : Fin E, 0 ≤ (a (ix1 e)).toInt ∧ (a (ix1 e)).toInt < N) (e : Fin E) (k : Fin cin) :
    gatherT H wN x a (ix2 e k) = Spec.gatherAt (fun n => Spec.mat x n k) (a (ix1 e)) := by
  have hcolv := idxCol_apply H.hbE H.hcol wN a ha e
  have h' : 0 ≤ (idxCol H.hbE H.hcol wN a (ix2 e (0 : Fin 1))).toInt ∧ (idxCol H.hbE H.hcol wN a (ix2 e (0 : Fin 1))).toInt < N := by
    rw [hcolv]; exact ha e
  have hnat : (a (ix1 e)).toNat < N := by
    have := toInt_toNat_of_nonneg _ (ha e).1
    have := (ha e).2
    omega
  unfold gatherT
  rw [gather_rows_apply H.gwf x _ e k h']
  unfold Spec.gatherAt
  rw [dif_pos hnat]
  show x (ix2 _ k) = x (ix2 _ k)
  congr 2
  refine Fin.ext ?_
  show (idxCol H.hbE H.hcol wN a (ix2 e (0 : Fin 1))).toInt.toNat = (a (ix1 e)).toNat
  rw [hcolv]
  exact toInt_toNat_of_nonneg _ (ha e).1

variable (H : LayerFacts N E cin hid cout) (wN : BitVec 32) (x : FVec Ideal ⟨2, ![N, cin]⟩ .f32) (srcV dstV : IVec ⟨1, ![E]⟩ 32)
  (W1 : FVec Ideal ⟨2, ![cin, cout]⟩ .f32) (b1 : FVec Ideal ⟨1, ![cout]⟩ .f32)
  (Wm1 : FVec Ideal ⟨2, ![cin + cin, hid]⟩ .f32) (bm1 : FVec Ideal ⟨1, ![hid]⟩ .f32)
  (Wm2 : FVec Ideal ⟨2, ![hid, cin]⟩ .f32) (bm2 : FVec Ideal ⟨1, ![cin]⟩ .f32)
  (W2 : FVec Ideal ⟨2, ![cin, cout]⟩ .f32) (b2 : FVec Ideal ⟨1, ![cout]⟩ .f32)
  (hsr : ∀ e : Fin E, 0 ≤ (srcV (ix1 e)).toInt ∧ (srcV (ix1 e)).toInt < N)
  (hdr : ∀ e : Fin E, 0 ≤ (dstV (ix1 e)).toInt ∧ (dstV (ix1 e)).toInt < N)

include hsr hdr in

theorem msgT_apply (e : Fin E) (o : Fin cout) :
    msgT H wN x srcV dstV Wm1 bm1 Wm2 bm2 W2 b2 (ix2 e o)
      = Spec.gatherMsg (fun e => srcV (ix1 e)) (fun e => dstV (ix1 e)) (Spec.mat x) (Spec.mat Wm1) (Spec.vec bm1)
          (Spec.mat Wm2) (Spec.vec bm2) (Spec.mat W2) (Spec.vec b2) e o := by
  have hxi : ∀ k : Fin cin, gatherT H wN x dstV (ix2 e k) = Spec.gatherAt (fun n => Spec.mat x n k) (dstV (ix1 e)) :=
    fun k => gatherT_apply H wN x dstV hdr e k
  have hxj : ∀ k : Fin cin, gatherT H wN x srcV (ix2 e k) = Spec.gatherAt (fun n => Spec.mat x n k) (srcV (ix1 e)) :=
    fun k => gatherT_apply H wN x srcV hsr e k

  have htmp : ∀ q : Fin (cin + cin), tmpT H wN x srcV dstV (ix2 e q)
      = Fin.append (fun k => Spec.gatherAt (fun n => Spec.mat x n k) (dstV (ix1 e)))
          (fun k => Spec.gatherAt (fun n => Spec.mat x n k) (srcV (ix1 e))) q := by
    intro q
    unfold tmpT
    rw [concat_cols_apply rfl H.hcat]
    have h1 : (fun k : Fin cin => gatherT H wN x dstV (ix2 e k)) = fun k => Spec.gatherAt (fun n => Spec.mat x n k) (dstV (ix1 e)) :=
      funext hxi
    have h2 : (fun k : Fin cin => gatherT H wN x srcV (ix2 e k)) = fun k => Spec.gatherAt (fun n => Spec.mat x n k) (srcV (ix1 e)) :=
      funext hxj
    rw [h1, h2]
    rfl

  have hh : ∀ j : Fin hid, hidT H wN x srcV dstV Wm1 bm1 (ix2 e j)
      = max (∑ q : Fin (cin + cin), Fin.append (fun k => Spec.gatherAt (fun n => Spec.mat x n k) (dstV (ix1 e)))
          (fun k => Spec.gatherAt (fun n => Spec.mat x n k) (srcV (ix1 e))) q * Spec.mat Wm1 q j + Spec.vec bm1 j) 0 := by
    intro j
    unfold hidT
    rw [relu_apply, addf_apply, dot_plain_apply, bias_apply]
    simp only [htmp]
    rfl

  have hg : ∀ k : Fin cin, gateT H wN x srcV dstV Wm1 bm1 Wm2 bm2 (ix2 e k)
      = ∑ j : Fin hid, max (∑ q : Fin (cin + cin), Fin.append (fun k => Spec.gatherAt (fun n => Spec.mat x n k) (dstV (ix1 e)))
          (fun k => Spec.gatherAt (fun n => Spec.mat x n k) (srcV (ix1 e))) q * Spec.mat Wm1 q j + Spec.vec bm1 j) 0
            * Spec.mat Wm2 j k + Spec.vec bm2 k := by
    intro k
    unfold gateT
    rw [addf_apply, dot_plain_apply, bias_apply]
    simp only [hh]
    rfl
  unfold msgT
  rw [addf_apply, dot_plain_apply, bias_apply]
  simp only [mulf_apply, subf_apply, hg, hxi, hxj]
  rfl

include hsr hdr in

theorem preT_apply (n : Fin N) (o : Fin cout) :
    preT H wN x srcV dstV W1 b1 Wm1 bm1 Wm2 bm2 W2 b2 (ix2 n o)
      = Spec.layerOut false (fun e => srcV (ix1 e)) (fun e => dstV (ix1 e)) (Spec.mat x) (Spec.mat W1) (Spec.vec b1)
          (Spec.mat Wm1) (Spec.vec bm1) (Spec.mat Wm2) (Spec.vec bm2) (Spec.mat W2) (Spec.vec b2) n o := by

  have hcolv : ∀ e : Fin E, broadcastInDim ⟨2, ![E, 1]⟩ ![0] H.hcol dstV (ix2 e (0 : Fin 1)) = dstV (ix1 e) :=
    fun e => col_apply H.hcol dstV e
  have hcr : ∀ e : Fin E, 0 ≤ (broadcastInDim ⟨2, ![E, 1]⟩ ![0] H.hcol dstV (ix2 e (0 : Fin 1))).toInt ∧
      (broadcastInDim ⟨2, ![E, 1]⟩ ![0] H.hcol dstV (ix2 e (0 : Fin 1))).toInt < N := by
    intro e; rw [hcolv e]; exact hdr e
  unfold preT
  rw [addf_apply, addf_apply, scatterAdd_rows_apply H.swf _ _ _ hcr n o, zeros_apply, zero_add, dot_plain_apply, bias_apply]
  unfold Spec.layerOut Spec.scatterOut
  rw [Spec.act_false]
  congr 1
  unfold Spec.segSum
  refine Finset.sum_congr rfl fun e _ => ?_
  rw [hcolv e, toInt_toNat_of_nonneg _ (hdr e).1, msgT_apply H wN x srcV dstV Wm1 bm1 Wm2 bm2 W2 b2 hsr hdr e o]

include hsr hdr in

theorem preT_eq :
    preT H wN x srcV dstV W1 b1 Wm1 bm1 Wm2 bm2 W2 b2
      = fun i => Spec.layerOut false (fun e => srcV (ix1 e)) (fun e => dstV (ix1 e)) (Spec.mat x) (Spec.mat W1) (Spec.vec b1)
          (Spec.mat Wm1) (Spec.vec bm1) (Spec.mat Wm2) (Spec.vec bm2) (Spec.mat W2) (Spec.vec b2) (i 0) (i 1) := by
  funext i
  obtain ⟨n, o, rfl⟩ : ∃ (n : Fin N) (o : Fin cout), i = ix2 n o := ⟨i 0, i 1, eq_ix2 i⟩
  exact preT_apply H wN x srcV dstV W1 b1 Wm1 bm1 Wm2 bm2 W2 b2 hsr hdr n o

include hsr hdr in

theorem reluT_eq :
    reluT H (preT H wN x srcV dstV W1 b1 Wm1 bm1 Wm2 bm2 W2 b2)
      = fun i => Spec.layerOut true (fun e => srcV (ix1 e)) (fun e => dstV (ix1 e)) (Spec.mat x) (Spec.mat W1) (Spec.vec b1)
          (Spec.mat Wm1) (Spec.vec bm1) (Spec.mat Wm2) (Spec.vec bm2) (Spec.mat W2) (Spec.vec b2) (i 0) (i 1) := by
  funext i
  obtain ⟨n, o, rfl⟩ : ∃ (n : Fin N) (o : Fin cout), i = ix2 n o := ⟨i 0, i 1, eq_ix2 i⟩
  unfold reluT
  rw [relu_apply, preT_apply H wN x srcV dstV W1 b1 Wm1 bm1 Wm2 bm2 W2 b2 hsr hdr n o]
  unfold Spec.layerOut Spec.scatterOut
  rw [Spec.act_false, Spec.act_true]
  rfl

end Stages

end Cert.ReferenceIdeal.RefValue

end
-- ==== Proof.Ref.Net.lean ====
import proofs.«415925_j84189948936386_1_alg».proof.Proof.Ref.Layer

noncomputable section

namespace Cert.ReferenceIdeal.RefValue

open Idealize.ShloMosaic Idealize.ShloMosaic.ValueIdx

section NetDef
variable {N E : ℕ} {F : FTy → Type} [FloatOps F] (F₁ : LayerFacts N E 1 200 20) (F₂ : LayerFacts N E 20 200 20) (F₃ : LayerFacts N E 20 200 1)
  (wN : BitVec 32) (x0 : FVec F ⟨2, ![N, 1]⟩ .f32) (srcV dstV : IVec ⟨1, ![E]⟩ 32)
  (dW1 : FVec F ⟨2, ![1, 20]⟩ .f32) (db1 : FVec F ⟨1, ![20]⟩ .f32)
  (dWm1 : FVec F ⟨2, ![1 + 1, 200]⟩ .f32) (dbm1 : FVec F ⟨1, ![200]⟩ .f32)
  (dWm2 : FVec F ⟨2, ![200, 1]⟩ .f32) (dbm2 : FVec F ⟨1, ![1]⟩ .f32)
  (dW2 : FVec F ⟨2, ![1, 20]⟩ .f32) (db2 : FVec F ⟨1, ![20]⟩ .f32)
  (hW1 : FVec F ⟨2, ![20, 20]⟩ .f32) (hb1 : FVec F ⟨1, ![20]⟩ .f32)
  (hWm1 : FVec F ⟨2, ![20 + 20, 200]⟩ .f32) (hbm1 : FVec F ⟨1, ![200]⟩ .f32)
  (hWm2 : FVec F ⟨2, ![200, 20]⟩ .f32) (hbm2 : FVec F ⟨1, ![20]⟩ .f32)
  (hW2 : FVec F ⟨2, ![20, 20]⟩ .f32) (hb2 : FVec F ⟨1, ![20]⟩ .f32)
  (oW1 : FVec F ⟨2, ![20, 1]⟩ .f32) (ob1 : FVec F ⟨1, ![1]⟩ .f32)
  (oWm1 : FVec F ⟨2, ![20 + 20, 200]⟩ .f32) (obm1 : FVec F ⟨1, ![200]⟩ .f32)
  (oWm2 : FVec F ⟨2, ![200, 20]⟩ .f32) (obm2 : FVec F ⟨1, ![20]⟩ .f32)
  (oW2 : FVec F ⟨2, ![20, 1]⟩ .f32) (ob2 : FVec F ⟨1, ![1]⟩ .f32)

def netT : FVec F ⟨2, ![N, 1]⟩ .f32 :=
  preT F₃ wN
    (reluT F₂ (preT F₂ wN
      (reluT F₂ (preT F₂ wN
        (reluT F₂ (preT F₂ wN
          (reluT F₁ (preT F₁ wN x0 srcV dstV dW1 db1 dWm1 dbm1 dWm2 dbm2 dW2 db2))
          srcV dstV hW1 hb1 hWm1 hbm1 hWm2 hbm2 hW2 hb2))
        srcV dstV hW1 hb1 hWm1 hbm1 hWm2 hbm2 hW2 hb2))
      srcV dstV hW1 hb1 hWm1 hbm1 hWm2 hbm2 hW2 hb2))
    srcV dstV oW1 ob1 oWm1 obm1 oWm2 obm2 oW2 ob2

end NetDef

section Net
variable {N E : ℕ} (F₁ : LayerFacts N E 1 200 20) (F₂ : LayerFacts N E 20 200 20) (F₃ : LayerFacts N E 20 200 1)
  (wN : BitVec 32) (x0 : FVec Ideal ⟨2, ![N, 1]⟩ .f32) (srcV dstV : IVec ⟨1, ![E]⟩ 32)
  (dW1 : FVec Ideal ⟨2, ![1, 20]⟩ .f32) (db1 : FVec Ideal ⟨1, ![20]⟩ .f32)
  (dWm1 : FVec Ideal ⟨2, ![1 + 1, 200]⟩ .f32) (dbm1 : FVec Ideal ⟨1, ![200]⟩ .f32)
  (dWm2 : FVec Ideal ⟨2, ![200, 1]⟩ .f32) (dbm2 : FVec Ideal ⟨1, ![1]⟩ .f32)
  (dW2 : FVec Ideal ⟨2, ![1, 20]⟩ .f32) (db2 : FVec Ideal ⟨1, ![20]⟩ .f32)
  (hW1 : FVec Ideal ⟨2, ![20, 20]⟩ .f32) (hb1 : FVec Ideal ⟨1, ![20]⟩ .f32)
  (hWm1 : FVec Ideal ⟨2, ![20 + 20, 200]⟩ .f32) (hbm1 : FVec Ideal ⟨1, ![200]⟩ .f32)
  (hWm2 : FVec Ideal ⟨2, ![200, 20]⟩ .f32) (hbm2 : FVec Ideal ⟨1, ![20]⟩ .f32)
  (hW2 : FVec Ideal ⟨2, ![20, 20]⟩ .f32) (hb2 : FVec Ideal ⟨1, ![20]⟩ .f32)
  (oW1 : FVec Ideal ⟨2, ![20, 1]⟩ .f32) (ob1 : FVec Ideal ⟨1, ![1]⟩ .f32)
  (oWm1 : FVec Ideal ⟨2, ![20 + 20, 200]⟩ .f32) (obm1 : FVec Ideal ⟨1, ![200]⟩ .f32)
  (oWm2 : FVec Ideal ⟨2, ![200, 20]⟩ .f32) (obm2 : FVec Ideal ⟨1, ![20]⟩ .f32)
  (oW2 : FVec Ideal ⟨2, ![20, 1]⟩ .f32) (ob2 : FVec Ideal ⟨1, ![1]⟩ .f32)

variable (hsr : ∀ e : Fin E, 0 ≤ (srcV (ix1 e)).toInt ∧ (srcV (ix1 e)).toInt < N)
  (hdr : ∀ e : Fin E, 0 ≤ (dstV (ix1 e)).toInt ∧ (dstV (ix1 e)).toInt < N)

include hsr hdr in

theorem netT_eq :
    netT F₁ F₂ F₃ wN x0 srcV dstV dW1 db1 dWm1 dbm1 dWm2 dbm2 dW2 db2 hW1 hb1 hWm1 hbm1 hWm2 hbm2 hW2 hb2
        oW1 ob1 oWm1 obm1 oWm2 obm2 oW2 ob2
      = fun i => Spec.refNet (fun e => srcV (ix1 e)) (fun e => dstV (ix1 e)) (Spec.mat x0)
          (Spec.mat dW1) (Spec.vec db1) (Spec.mat dWm1) (Spec.vec dbm1) (Spec.mat dWm2) (Spec.vec dbm2) (Spec.mat dW2) (Spec.vec db2)
          (Spec.mat hW1) (Spec.vec hb1) (Spec.mat hWm1) (Spec.vec hbm1) (Spec.mat hWm2) (Spec.vec hbm2) (Spec.mat hW2) (Spec.vec hb2)
          (Spec.mat oW1) (Spec.vec ob1) (Spec.mat oWm1) (Spec.vec obm1) (Spec.mat oWm2) (Spec.vec obm2) (Spec.mat oW2) (Spec.vec ob2)
          (i 0) (i 1) := by

  let s : Fin E → BitVec 32 := fun e => srcV (ix1 e)
  let d : Fin E → BitVec 32 := fun e => dstV (ix1 e)
  let L1 : Fin N → Fin 20 → EReal := Spec.layerOut true s d (Spec.mat x0) (Spec.mat dW1) (Spec.vec db1) (Spec.mat dWm1)
    (Spec.vec dbm1) (Spec.mat dWm2) (Spec.vec dbm2) (Spec.mat dW2) (Spec.vec db2)
  let L2 : Fin N → Fin 20 → EReal := Spec.layerOut true s d L1 (Spec.mat hW1) (Spec.vec hb1) (Spec.mat hWm1)
    (Spec.vec hbm1) (Spec.mat hWm2) (Spec.vec hbm2) (Spec.mat hW2) (Spec.vec hb2)
  let L3 : Fin N → Fin 20 → EReal := Spec.layerOut true s d L2 (Spec.mat hW1) (Spec.vec hb1) (Spec.mat hWm1)
    (Spec.vec hbm1) (Spec.mat hWm2) (Spec.vec hbm2) (Spec.mat hW2) (Spec.vec hb2)
  let L4 : Fin N → Fin 20 → EReal := Spec.layerOut true s d L3 (Spec.mat hW1) (Spec.vec hb1) (Spec.mat hWm1)
    (Spec.vec hbm1) (Spec.mat hWm2) (Spec.vec hbm2) (Spec.mat hW2) (Spec.vec hb2)
  have h1 : reluT F₁ (preT F₁ wN x0 srcV dstV dW1 db1 dWm1 dbm1 dWm2 dbm2 dW2 db2)
      = fun i : (⟨2, ![N, 20]⟩ : Shape).Idx => L1 (i 0) (i 1) :=
    reluT_eq F₁ wN x0 srcV dstV dW1 db1 dWm1 dbm1 dWm2 dbm2 dW2 db2 hsr hdr
  have h2 : reluT F₂ (preT F₂ wN (fun i : (⟨2, ![N, 20]⟩ : Shape).Idx => L1 (i 0) (i 1)) srcV dstV hW1 hb1 hWm1 hbm1 hWm2 hbm2 hW2 hb2)
      = fun i : (⟨2, ![N, 20]⟩ : Shape).Idx => L2 (i 0) (i 1) :=
    reluT_eq F₂ wN _ srcV dstV hW1 hb1 hWm1 hbm1 hWm2 hbm2 hW2 hb2 hsr hdr
  have h3 : reluT F₂ (preT F₂ wN (fun i : (⟨2, ![N, 20]⟩ : Shape).Idx => L2 (i 0) (i 1)) srcV dstV hW1 hb1 hWm1 hbm1 hWm2 hbm2 hW2 hb2)
      = fun i : (⟨2, ![N, 20]⟩ : Shape).Idx => L3 (i 0) (i 1) :=
    reluT_eq F₂ wN _ srcV dstV hW1 hb1 hWm1 hbm1 hWm2 hbm2 hW2 hb2 hsr hdr
  have h4 : reluT F₂ (preT F₂ wN (fun i : (⟨2, ![N, 20]⟩ : Shape).Idx => L3 (i 0) (i 1)) srcV dstV hW1 hb1 hWm1 hbm1 hWm2 hbm2 hW2 hb2)
      = fun i : (⟨2, ![N, 20]⟩ : Shape).Idx => L4 (i 0) (i 1) :=
    reluT_eq F₂ wN _ srcV dstV hW1 hb1 hWm1 hbm1 hWm2 hbm2 hW2 hb2 hsr hdr
  have h5 : preT F₃ wN (fun i : (⟨2, ![N, 20]⟩ : Shape).Idx => L4 (i 0) (i 1)) srcV dstV oW1 ob1 oWm1 obm1 oWm2 obm2 oW2 ob2
      = fun i : (⟨2, ![N, 1]⟩ : Shape).Idx => Spec.layerOut false s d L4 (Spec.mat oW1) (Spec.vec ob1) (Spec.mat oWm1)
          (Spec.vec obm1) (Spec.mat oWm2) (Spec.vec obm2) (Spec.mat oW2) (Spec.vec ob2) (i 0) (i 1) :=
    preT_eq F₃ wN _ srcV dstV oW1 ob1 oWm1 obm1 oWm2 obm2 oW2 ob2 hsr hdr
  unfold netT
  rw [h1, h2, h3, h4, h5]
  rfl

end Net

end Cert.ReferenceIdeal.RefValue

end
-- ==== Proof.Ref.Value.lean ====
import proofs.«415925_j84189948936386_1_alg».proof.Proof.Gen.ReferenceIdeal
import proofs.«415925_j84189948936386_1_alg».proof.Proof.Ref.Net

noncomputable section

namespace Cert.ReferenceIdeal.RefValue

open Cert.ReferenceIdeal Cert.ReferenceIdeal.Gen Idealize.ShloMosaic Idealize.ShloMosaic.ValueIdx

theorem facts₁ : LayerFacts 25000 400000 1 200 20 where
  hbE := bcast_S_S400000
  hcol := bcast_S400000_S400000x1_0
  gwf := gather_S25000x1_S400000x1_S400000x1_1_0_n_n_0_1_11_wf
  hcat := concatenates_S400000x1_S400000x1_S400000x2_d1
  dwf1 := dot_S400000x2_S2x200_S400000x200_1_0_0_1_n_n_wf
  hbh1 := bcast_S200_S1x200_1
  hbh2 := bcast_S1x200_S400000x200_0_1
  hzh := bcast_S_S400000x200
  dwf2 := dot_S400000x200_S200x1_S400000x1_1_0_0_1_n_n_wf
  hbc1 := bcast_S1_S1x1_1
  hbc2 := bcast_S1x1_S400000x1_0_1
  dwf3 := dot_S400000x1_S1x20_S400000x20_1_0_0_1_n_n_wf
  hbo1 := bcast_S20_S1x20_1
  hbo2 := bcast_S1x20_S400000x20_0_1
  hzN := bcast_S_S25000x20
  swf := scatter_S25000x20_S400000x1_S400000x20_1_0_0_1_wf
  dwf4 := dot_S25000x1_S1x20_S25000x20_1_0_0_1_n_n_wf
  hbo3 := bcast_S1x20_S25000x20_0_1

theorem facts₂ : LayerFacts 25000 400000 20 200 20 where
  hbE := bcast_S_S400000
  hcol := bcast_S400000_S400000x1_0
  gwf := gather_S25000x20_S400000x1_S400000x20_1_0_n_n_0_1_120_wf
  hcat := concatenates_S400000x20_S400000x20_S400000x40_d1
  dwf1 := dot_S400000x40_S40x200_S400000x200_1_0_0_1_n_n_wf
  hbh1 := bcast_S200_S1x200_1
  hbh2 := bcast_S1x200_S400000x200_0_1
  hzh := bcast_S_S400000x200
  dwf2 := dot_S400000x200_S200x20_S400000x20_1_0_0_1_n_n_wf
  hbc1 := bcast_S20_S1x20_1
  hbc2 := bcast_S1x20_S400000x20_0_1
  dwf3 := dot_S400000x20_S20x20_S400000x20_1_0_0_1_n_n_wf
  hbo1 := bcast_S20_S1x20_1
  hbo2 := bcast_S1x20_S400000x20_0_1
  hzN := bcast_S_S25000x20
  swf := scatter_S25000x20_S400000x1_S400000x20_1_0_0_1_wf
  dwf4 := dot_S25000x20_S20x20_S25000x20_1_0_0_1_n_n_wf
  hbo3 := bcast_S1x20_S25000x20_0_1

theorem facts₃ : LayerFacts 25000 400000 20 200 1 where
  hbE := bcast_S_S400000
  hcol := bcast_S400000_S400000x1_0
  gwf := gather_S25000x20_S400000x1_S400000x20_1_0_n_n_0_1_120_wf
  hcat := concatenates_S400000x20_S400000x20_S400000x40_d1
  dwf1 := dot_S400000x40_S40x200_S400000x200_1_0_0_1_n_n_wf
  hbh1 := bcast_S200_S1x200_1
  hbh2 := bcast_S1x200_S400000x200_0_1
  hzh := bcast_S_S400000x200
  dwf2 := dot_S400000x200_S200x20_S400000x20_1_0_0_1_n_n_wf
  hbc1 := bcast_S20_S1x20_1
  hbc2 := bcast_S1x20_S400000x20_0_1
  dwf3 := dot_S400000x20_S20x1_S400000x1_1_0_0_1_n_n_wf
  hbo1 := bcast_S1_S1x1_1
  hbo2 := bcast_S1x1_S400000x1_0_1
  hzN := bcast_S_S25000x1
  swf := scatter_S25000x1_S400000x1_S400000x1_1_0_0_1_wf
  dwf4 := dot_S25000x20_S20x1_S25000x1_1_0_0_1_n_n_wf
  hbo3 := bcast_S1x1_S25000x1_0_1

def srcV (x1 : IVec S2x400000 32) : IVec S400000 32 :=
  shapeCast S400000 (extractStridedSlice S1x400000 ![0, 0] x1 slices_S2x400000_S1x400000_0_0) shapeCasts_S1x400000_S400000

def dstV (x1 : IVec S2x400000 32) : IVec S400000 32 :=
  shapeCast S400000 (extractStridedSlice S1x400000 ![1, 0] x1 slices_S2x400000_S1x400000_1_0) shapeCasts_S1x400000_S400000

def refTerm {F : FTy → Type} [FloatOps F] (x0 : FVec F S25000x1 .f32) (x1 : IVec S2x400000 32)
    (x3 : FVec F S1x20 .f32) (x4 : FVec F S20 .f32) (x5 : FVec F S2x200 .f32) (x6 : FVec F S200 .f32) (x7 : FVec F S200x1 .f32) (x8 : FVec F S1 .f32) (x9 : FVec F S1x20 .f32) (x10 : FVec F S20 .f32) (x11 : FVec F S20x20 .f32) (x12 : FVec F S20 .f32) (x13 : FVec F S40x200 .f32) (x14 : FVec F S200 .f32) (x15 : FVec F S200x20 .f32) (x16 : FVec F S20 .f32) (x17 : FVec F S20x20 .f32) (x18 : FVec F S20 .f32) (x19 : FVec F S20x1 .f32) (x20 : FVec F S1 .f32) (x21 : FVec F S40x200 .f32) (x22 : FVec F S200 .f32) (x23 : FVec F S200x20 .f32) (x24 : FVec F S20 .f32) (x25 : FVec F S20x1 .f32) (x26 : FVec F S1 .f32) : FVec F S25000x1 .f32 :=
  netT facts₁ facts₂ facts₃ 25000#32 x0 (srcV x1) (dstV x1) x3 x4 x5 x6 x7 x8 x9 x10 x11 x12 x13 x14 x15 x16 x17 x18 x19 x20 x21 x22 x23 x24 x25 x26

theorem ref_value (x0 : FVec Ideal S25000x1 .f32) (x1 : IVec S2x400000 32)
    (x3 : FVec Ideal S1x20 .f32) (x4 : FVec Ideal S20 .f32) (x5 : FVec Ideal S2x200 .f32) (x6 : FVec Ideal S200 .f32) (x7 : FVec Ideal S200x1 .f32) (x8 : FVec Ideal S1 .f32) (x9 : FVec Ideal S1x20 .f32) (x10 : FVec Ideal S20 .f32) (x11 : FVec Ideal S20x20 .f32) (x12 : FVec Ideal S20 .f32) (x13 : FVec Ideal S40x200 .f32) (x14 : FVec Ideal S200 .f32) (x15 : FVec Ideal S200x20 .f32) (x16 : FVec Ideal S20 .f32) (x17 : FVec Ideal S20x20 .f32) (x18 : FVec Ideal S20 .f32) (x19 : FVec Ideal S20x1 .f32) (x20 : FVec Ideal S1 .f32) (x21 : FVec Ideal S40x200 .f32) (x22 : FVec Ideal S200 .f32) (x23 : FVec Ideal S200x20 .f32) (x24 : FVec Ideal S20 .f32) (x25 : FVec Ideal S20x1 .f32) (x26 : FVec Ideal S1 .f32)
    (hr : ∀ i : S2x400000.Idx, 0 ≤ (x1 i).toInt ∧ (x1 i).toInt < 25000) :
    refTerm x0 x1 x3 x4 x5 x6 x7 x8 x9 x10 x11 x12 x13 x14 x15 x16 x17 x18 x19 x20 x21 x22 x23 x24 x25 x26
      = fun i : S25000x1.Idx => Spec.refNet (Spec.row 0 x1) (Spec.row 1 x1) (Spec.mat x0)
          (Spec.mat x3) (Spec.vec x4) (Spec.mat x5) (Spec.vec x6) (Spec.mat x7) (Spec.vec x8) (Spec.mat x9) (Spec.vec x10) (Spec.mat x11) (Spec.vec x12) (Spec.mat x13) (Spec.vec x14) (Spec.mat x15) (Spec.vec x16) (Spec.mat x17) (Spec.vec x18) (Spec.mat x19) (Spec.vec x20) (Spec.mat x21) (Spec.vec x22) (Spec.mat x23) (Spec.vec x24) (Spec.mat x25) (Spec.vec x26) (i 0) (i 1) := by
  have hs : ∀ e : Fin 400000, srcV x1 (ix1 e) = x1 (ix2 (0 : Fin 2) e) :=
    fun e => row_apply (0 : Fin 2) slices_S2x400000_S1x400000_0_0 shapeCasts_S1x400000_S400000 x1 e
  have hd : ∀ e : Fin 400000, dstV x1 (ix1 e) = x1 (ix2 (1 : Fin 2) e) :=
    fun e => row_apply (1 : Fin 2) slices_S2x400000_S1x400000_1_0 shapeCasts_S1x400000_S400000 x1 e
  have hsr : ∀ e : Fin 400000, 0 ≤ (srcV x1 (ix1 e)).toInt ∧ (srcV x1 (ix1 e)).toInt < (25000 : ℕ) := by
    intro e; rw [hs e]; have h := hr (ix2 (0 : Fin 2) e); constructor <;> omega
  have hdr : ∀ e : Fin 400000, 0 ≤ (dstV x1 (ix1 e)).toInt ∧ (dstV x1 (ix1 e)).toInt < (25000 : ℕ) := by
    intro e; rw [hd e]; have h := hr (ix2 (1 : Fin 2) e); constructor <;> omega
  have e1 : (fun e : Fin 400000 => srcV x1 (ix1 e)) = Spec.row 0 x1 := funext hs
  have e2 : (fun e : Fin 400000 => dstV x1 (ix1 e)) = Spec.row 1 x1 := funext hd
  unfold refTerm
  rw [netT_eq facts₁ facts₂ facts₃ 25000#32 x0 (srcV x1) (dstV x1) x3 x4 x5 x6 x7 x8 x9 x10 x11 x12 x13 x14 x15 x16 x17 x18 x19 x20 x21 x22 x23 x24 x25 x26 hsr hdr, e1, e2]

end Cert.ReferenceIdeal.RefValue

end
-- ==== Proof.Ref.Run.lean ====
import proofs.«415925_j84189948936386_1_alg».proof.Proof.Ref.RunOps
import proofs.«415925_j84189948936386_1_alg».proof.Proof.Ref.Value
import Idealize.ShloMosaic.Lib.Pipeline.Frame

set_option Elab.async false

noncomputable section

namespace Cert.ReferenceIdeal.RefValue

open Cert.ReferenceIdeal Cert.ReferenceIdeal.Gen Cert.ReferenceIdeal.ValueP Idealize.ShloMosaic Idealize.ShloMosaic.TcCoe Idealize.SL.Sem
  Idealize.ShloMosaic.StableHlo

variable {F : FTy → Type} [FloatOps F]

def val1 (V : Valuation τ sig (Elt F)) : Valuation τ sig (Elt F) := after opsA V

def val2 (V : Valuation τ sig (Elt F)) : Valuation τ sig (Elt F) := after opsL1 (val1 V)

def val3 (V : Valuation τ sig (Elt F)) : Valuation τ sig (Elt F) := after opsL2 (val2 V)

def val4 (V : Valuation τ sig (Elt F)) : Valuation τ sig (Elt F) := after opsL3 (val3 V)

def val5 (V : Valuation τ sig (Elt F)) : Valuation τ sig (Elt F) := after opsL4 (val4 V)

def val6 (V : Valuation τ sig (Elt F)) : Valuation τ sig (Elt F) := after opsL5 (val5 V)

theorem after_ops (V : Valuation τ sig (Elt F)) : after ops V = val6 V := by
  simp only [ops, after_append]
  rfl

theorem val1_keep (V : Valuation τ sig (Elt F)) (r : Ref sig .tc) (h : r ∉ opsA_W) :
    val1 V (no_index (Proc.devRef .tc r)) = V (Proc.devRef .tc r) := opsA_keep V r h
theorem val2_keep (V : Valuation τ sig (Elt F)) (r : Ref sig .tc) (h : r ∉ opsL1_W) :
    val2 V (no_index (Proc.devRef .tc r)) = val1 V (Proc.devRef .tc r) := opsL1_keep (val1 V) r h
theorem val3_keep (V : Valuation τ sig (Elt F)) (r : Ref sig .tc) (h : r ∉ opsL2_W) :
    val3 V (no_index (Proc.devRef .tc r)) = val2 V (Proc.devRef .tc r) := opsL2_keep (val2 V) r h
theorem val4_keep (V : Valuation τ sig (Elt F)) (r : Ref sig .tc) (h : r ∉ opsL3_W) :
    val4 V (no_index (Proc.devRef .tc r)) = val3 V (Proc.devRef .tc r) := opsL3_keep (val3 V) r h
theorem val5_keep (V : Valuation τ sig (Elt F)) (r : Ref sig .tc) (h : r ∉ opsL4_W) :
    val5 V (no_index (Proc.devRef .tc r)) = val4 V (Proc.devRef .tc r) := opsL4_keep (val4 V) r h
theorem val6_keep (V : Valuation τ sig (Elt F)) (r : Ref sig .tc) (h : r ∉ opsL5_W) :
    val6 V (no_index (Proc.devRef .tc r)) = val5 V (Proc.devRef .tc r) := opsL5_keep (val5 V) r h

theorem val6_untouched (V : Valuation τ sig (Elt F)) (r : Ref sig .tc) (h1 : r ∉ opsA_W) (h2 : r ∉ opsL1_W) (h3 : r ∉ opsL2_W)
    (h4 : r ∉ opsL3_W) (h5 : r ∉ opsL4_W) (h6 : r ∉ opsL5_W) : val6 V (Proc.devRef .tc r) = V (Proc.devRef .tc r) :=
  (val6_keep V r h6).trans ((val5_keep V r h5).trans ((val4_keep V r h4).trans ((val3_keep V r h3).trans
    ((val2_keep V r h2).trans (val1_keep V r h1)))))

theorem val1_v1 (V : Valuation τ sig (Elt F)) :
    val1 V (no_index (Proc.devRef .tc main_v1)) = srcV (V (Proc.devRef .tc main_arg1)) := by
  unfold val1
  simp only [opsA]
  chain_rfl

theorem val1_v3 (V : Valuation τ sig (Elt F)) :
    val1 V (no_index (Proc.devRef .tc main_v3)) = dstV (V (Proc.devRef .tc main_arg1)) := by
  unfold val1
  simp only [opsA]
  chain_rfl

set_option maxRecDepth 8192 in
set_option maxHeartbeats 4000000 in

theorem val2_v42 (V : Valuation τ sig (Elt F)) :
    val2 V (no_index (Proc.devRef .tc main_v42))
      = reluT (F := F) facts₁ (preT (F := F) facts₁ 25000#32
        (val1 V (Proc.devRef .tc main_arg0))
        (val1 V (Proc.devRef .tc main_v1))
        (val1 V (Proc.devRef .tc main_v3))
        (val1 V (Proc.devRef .tc main_arg3))
        (val1 V (Proc.devRef .tc main_arg4))
        (val1 V (Proc.devRef .tc main_arg5))
        (val1 V (Proc.devRef .tc main_arg6))
        (val1 V (Proc.devRef .tc main_arg7))
        (val1 V (Proc.devRef .tc main_arg8))
        (val1 V (Proc.devRef .tc main_arg9))
        (val1 V (Proc.devRef .tc main_arg10))) := by
  unfold val2
  simp only [opsL1]
  chain_rfl

set_option maxRecDepth 8192 in
set_option maxHeartbeats 4000000 in

theorem val3_v81 (V : Valuation τ sig (Elt F)) :
    val3 V (no_index (Proc.devRef .tc main_v81))
      = reluT (F := F) facts₂ (preT (F := F) facts₂ 25000#32
        (val2 V (Proc.devRef .tc main_v42))
        (val2 V (Proc.devRef .tc main_v1))
        (val2 V (Proc.devRef .tc main_v3))
        (val2 V (Proc.devRef .tc main_arg11))
        (val2 V (Proc.devRef .tc main_arg12))
        (val2 V (Proc.devRef .tc main_arg13))
        (val2 V (Proc.devRef .tc main_arg14))
        (val2 V (Proc.devRef .tc main_arg15))
        (val2 V (Proc.devRef .tc main_arg16))
        (val2 V (Proc.devRef .tc main_arg17))
        (val2 V (Proc.devRef .tc main_arg18))) := by
  unfold val3
  simp only [opsL2]
  chain_rfl

set_option maxRecDepth 8192 in
set_option maxHeartbeats 4000000 in

theorem val4_v120 (V : Valuation τ sig (Elt F)) :
    val4 V (no_index (Proc.devRef .tc main_v120))
      = reluT (F := F) facts₂ (preT (F := F) facts₂ 25000#32
        (val3 V (Proc.devRef .tc main_v81))
        (val3 V (Proc.devRef .tc main_v1))
        (val3 V (Proc.devRef .tc main_v3))
        (val3 V (Proc.devRef .tc main_arg11))
        (val3 V (Proc.devRef .tc main_arg12))
        (val3 V (Proc.devRef .tc main_arg13))
        (val3 V (Proc.devRef .tc main_arg14))
        (val3 V (Proc.devRef .tc main_arg15))
        (val3 V (Proc.devRef .tc main_arg16))
        (val3 V (Proc.devRef .tc main_arg17))
        (val3 V (Proc.devRef .tc main_arg18))) := by
  unfold val4
  simp only [opsL3]
  chain_rfl

set_option maxRecDepth 8192 in
set_option maxHeartbeats 4000000 in

theorem val5_v159 (V : Valuation τ sig (Elt F)) :
    val5 V (no_index (Proc.devRef .tc main_v159))
      = reluT (F := F) facts₂ (preT (F := F) facts₂ 25000#32
        (val4 V (Proc.devRef .tc main_v120))
        (val4 V (Proc.devRef .tc main_v1))
        (val4 V (Proc.devRef .tc main_v3))
        (val4 V (Proc.devRef .tc main_arg11))
        (val4 V (Proc.devRef .tc main_arg12))
        (val4 V (Proc.devRef .tc main_arg13))
        (val4 V (Proc.devRef .tc main_arg14))
        (val4 V (Proc.devRef .tc main_arg15))
        (val4 V (Proc.devRef .tc main_arg16))
        (val4 V (Proc.devRef .tc main_arg17))
        (val4 V (Proc.devRef .tc main_arg18))) := by
  unfold val5
  simp only [opsL4]
  chain_rfl

set_option maxRecDepth 8192 in
set_option maxHeartbeats 4000000 in

theorem val6_v197 (V : Valuation τ sig (Elt F)) :
    val6 V (no_index (Proc.devRef .tc main_v197))
      = preT (F := F) facts₃ 25000#32
        (val5 V (Proc.devRef .tc main_v159))
        (val5 V (Proc.devRef .tc main_v1))
        (val5 V (Proc.devRef .tc main_v3))
        (val5 V (Proc.devRef .tc main_arg19))
        (val5 V (Proc.devRef .tc main_arg20))
        (val5 V (Proc.devRef .tc main_arg21))
        (val5 V (Proc.devRef .tc main_arg22))
        (val5 V (Proc.devRef .tc main_arg23))
        (val5 V (Proc.devRef .tc main_arg24))
        (val5 V (Proc.devRef .tc main_arg25))
        (val5 V (Proc.devRef .tc main_arg26)) := by
  unfold val6
  simp only [opsL5]
  chain_rfl

set_option maxRecDepth 8192 in
set_option maxHeartbeats 4000000 in

theorem val6_result (V : Valuation τ sig (Elt F)) :
    val6 V (Proc.devRef .tc main_v197)
      = refTerm (F := F) (V (Proc.devRef .tc main_arg0)) (V (Proc.devRef .tc main_arg1))
        (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) := by
  refine (val6_v197 V).trans ?_
  simp (disch := decide) only [val5_v159, val4_v120, val3_v81, val2_v42, val1_v1, val1_v3,
    val5_keep, val4_keep, val3_keep, val2_keep, val1_keep]
  chain_rfl

set_option maxRecDepth 8192 in
set_option maxHeartbeats 4000000 in

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v197)
        = refTerm (F := F) (m ((c.tc : Thread nD τ).loc main_arg0)) (m ((c.tc : Thread nD τ).loc main_arg1))
            (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono (fun _ h c => ⟨(h c main_v197).trans (by rw [after_ops]; exact val6_result (launchContents m c)),
      (h c main_arg0).trans (by rw [after_ops]; exact val6_untouched (launchContents m c) main_arg0 (by decide) (by decide) (by decide) (by decide) (by decide) (by decide)),
      (h c main_arg1).trans (by rw [after_ops]; exact val6_untouched (launchContents m c) main_arg1 (by decide) (by decide) (by decide) (by decide) (by decide) (by decide)),
      (h c main_arg2).trans (by rw [after_ops]; exact val6_untouched (launchContents m c) main_arg2 (by decide) (by decide) (by decide) (by decide) (by decide) (by decide)),
      (h c main_arg3).trans (by rw [after_ops]; exact val6_untouched (launchContents m c) main_arg3 (by decide) (by decide) (by decide) (by decide) (by decide) (by decide)),
      (h c main_arg4).trans (by rw [after_ops]; exact val6_untouched (launchContents m c) main_arg4 (by decide) (by decide) (by decide) (by decide) (by decide) (by decide)),
      (h c main_arg5).trans (by rw [after_ops]; exact val6_untouched (launchContents m c) main_arg5 (by decide) (by decide) (by decide) (by decide) (by decide) (by decide)),
      (h c main_arg6).trans (by rw [after_ops]; exact val6_untouched (launchContents m c) main_arg6 (by decide) (by decide) (by decide) (by decide) (by decide) (by decide)),
      (h c main_arg7).trans (by rw [after_ops]; exact val6_untouched (launchContents m c) main_arg7 (by decide) (by decide) (by decide) (by decide) (by decide) (by decide)),
      (h c main_arg8).trans (by rw [after_ops]; exact val6_untouched (launchContents m c) main_arg8 (by decide) (by decide) (by decide) (by decide) (by decide) (by decide)),
      (h c main_arg9).trans (by rw [after_ops]; exact val6_untouched (launchContents m c) main_arg9 (by decide) (by decide) (by decide) (by decide) (by decide) (by decide)),
      (h c main_arg10).trans (by rw [after_ops]; exact val6_untouched (launchContents m c) main_arg10 (by decide) (by decide) (by decide) (by decide) (by decide) (by decide)),
      (h c main_arg11).trans (by rw [after_ops]; exact val6_untouched (launchContents m c) main_arg11 (by decide) (by decide) (by decide) (by decide) (by decide) (by decide)),
      (h c main_arg12).trans (by rw [after_ops]; exact val6_untouched (launchContents m c) main_arg12 (by decide) (by decide) (by decide) (by decide) (by decide) (by decide)),
      (h c main_arg13).trans (by rw [after_ops]; exact val6_untouched (launchContents m c) main_arg13 (by decide) (by decide) (by decide) (by decide) (by decide) (by decide)),
      (h c main_arg14).trans (by rw [after_ops]; exact val6_untouched (launchContents m c) main_arg14 (by decide) (by decide) (by decide) (by decide) (by decide) (by decide)),
      (h c main_arg15).trans (by rw [after_ops]; exact val6_untouched (launchContents m c) main_arg15 (by decide) (by decide) (by decide) (by decide) (by decide) (by decide)),
      (h c main_arg16).trans (by rw [after_ops]; exact val6_untouched (launchContents m c) main_arg16 (by decide) (by decide) (by decide) (by decide) (by decide) (by decide)),
      (h c main_arg17).trans (by rw [after_ops]; exact val6_untouched (launchContents m c) main_arg17 (by decide) (by decide) (by decide) (by decide) (by decide) (by decide)),
      (h c main_arg18).trans (by rw [after_ops]; exact val6_untouched (launchContents m c) main_arg18 (by decide) (by decide) (by decide) (by decide) (by decide) (by decide)),
      (h c main_arg19).trans (by rw [after_ops]; exact val6_untouched (launchContents m c) main_arg19 (by decide) (by decide) (by decide) (by decide) (by decide) (by decide)),
      (h c main_arg20).trans (by rw [after_ops]; exact val6_untouched (launchContents m c) main_arg20 (by decide) (by decide) (by decide) (by decide) (by decide) (by decide)),
      (h c main_arg21).trans (by rw [after_ops]; exact val6_untouched (launchContents m c) main_arg21 (by decide) (by decide) (by decide) (by decide) (by decide) (by decide)),
      (h c main_arg22).trans (by rw [after_ops]; exact val6_untouched (launchContents m c) main_arg22 (by decide) (by decide) (by decide) (by decide) (by decide) (by decide)),
      (h c main_arg23).trans (by rw [after_ops]; exact val6_untouched (launchContents m c) main_arg23 (by decide) (by decide) (by decide) (by decide) (by decide) (by decide)),
      (h c main_arg24).trans (by rw [after_ops]; exact val6_untouched (launchContents m c) main_arg24 (by decide) (by decide) (by decide) (by decide) (by decide) (by decide)),
      (h c main_arg25).trans (by rw [after_ops]; exact val6_untouched (launchContents m c) main_arg25 (by decide) (by decide) (by decide) (by decide) (by decide) (by decide)),
      (h c main_arg26).trans (by rw [after_ops]; exact val6_untouched (launchContents m c) main_arg26 (by decide) (by decide) (by decide) (by decide) (by decide) (by decide))⟩)
    (run_seq scopedRefs_eq scopedSems_eq defs main (fun _ => ops) main_eq (fun _ => ops_sub) m ρ (fun _ => ops_fresh))

end Cert.ReferenceIdeal.RefValue

end
-- ==== Proof.lean ====
import proofs.«415925_j84189948936386_1_alg».proof.Defs
import proofs.«415925_j84189948936386_1_alg».proof.Proof.Gen.Kernel
import proofs.«415925_j84189948936386_1_alg».proof.Proof.Gen.KernelIdeal
import proofs.«415925_j84189948936386_1_alg».proof.Proof.Gen.ReferenceIdeal
import proofs.«415925_j84189948936386_1_alg».proof.Proof.Gen.Pre_finite_inputs
import proofs.«415925_j84189948936386_1_alg».proof.Proof.PreRange
import proofs.«415925_j84189948936386_1_alg».proof.Proof.KI.Segs
import proofs.«415925_j84189948936386_1_alg».proof.Proof.K.Segs
import proofs.«415925_j84189948936386_1_alg».proof.Proof.KI.Chain
import proofs.«415925_j84189948936386_1_alg».proof.Proof.Ref.Value
import proofs.«415925_j84189948936386_1_alg».proof.Proof.Ref.Run
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2) (Cert.Kernel.Hand.run_val (F := Bits) m ρ)

theorem frame_ki : Cert.frame_KernelIdeal := fun m ρ _ =>
  (θ_run Cert.KernelIdeal.defs _ _).mono (fun _ h c => (h c).2) (Cert.KernelIdeal.Hand.run_val (F := Ideal) m ρ)

theorem frame_ri : Cert.frame_ReferenceIdeal := fun m ρ _ =>
  (θ_run Cert.ReferenceIdeal.defs _ _).mono (fun _ h c => (h c).2) (Cert.ReferenceIdeal.RefValue.run m ρ)

theorem algebraic : Cert.algebraic_KernelIdeal_ReferenceIdeal := by
  intro m ρ m' ρ' hpre hagree
  refine ⟨fun c => Cert.KernelIdeal.Hand.U17 (F := Ideal) m c Cert.KernelIdeal.main_v17,
    Cert.KernelIdeal.Hand.run_val (F := Ideal) m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9, e10, e11, e12, e13, e14, e15, e16, e17, e18, e19, e20, e21, e22, e23, e24, e25, e26⟩ := hagree c
  rw [e0, e1, e3, e4, e5, e6, e7, e8, e9, e10, e11, e12, e13, e14, e15, e16, e17, e18, e19, e20, e21, e22, e23, e24, e25, e26]
  exact (Cert.ReferenceIdeal.RefValue.ref_value _ _ _ _ _ _ _ _ _ _ _ _ _ _ _ _ _ _ _ _ _ _ _ _ _ _
      (fun i => Cert.PreRange.edges_toInt (hpre c) i)).trans
    (Cert.KernelIdeal.Hand.kernel_value m c (fun i => Cert.PreRange.edges_toNat (hpre c) i)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
